-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S2x64x32768 : S_.BroadcastsInDim S2x64x32768 (![] : Fin 0 → Fin S2x64x32768.rank)
  reducesTo_S2x64x32768_S_d0_1_2 : S2x64x32768.ReducesTo [0, 1, 2] S_
  bcast_S_S512x512 : S_.BroadcastsInDim S512x512 (![] : Fin 0 → Fin S512x512.rank)
  reducesTo_S512x512_S_d0_1 : S512x512.ReducesTo [0, 1] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S195x64 : S_.BroadcastsInDim S195x64 (![] : Fin 0 → Fin S195x64.rank)
  reducesTo_S195x64_S_d0_1 : S195x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S384x128 .f32) (main_arg8 : FVec F S128 .f32) (main_arg9 : FVec F S384x64 .f32) (main_arg10 : FVec F S64 .f32) (main_arg11 : FVec F S64x1 .f32) (main_arg12 : FVec F S1 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) (main_v13 : IVec S_ 1) (main_v16 : IVec S195x128 1) : IVec S_ 1 :=
  let main_c_5 : IVec S_ 1 := constantI S_ 1 1#1
  let main_v17 : IVec S_ 1 := (fun x v => Host.reduce IntOp.andi x v reducesTo_S195x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S195x64 .f32 := Host.absf main_arg5
  let main_cst_8 : FVec F S_ .f32 := constant S_ .f32 0x7F800000#32
  let main_v25 : FVec F S195x64 .f32 := broadcastInDim S195x64 ![] bcast_S_S195x64 main_cst_8
  let main_v26 : IVec S195x64 1 := cmpf .olt main_v24 main_v25
  let main_c_9 : IVec S_ 1 := constantI S_ 1 1#1
  let main_v27 : IVec S_ 1 := (fun x v => Host.reduce IntOp.andi x v reducesTo_S195x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x512 .f32) (main_arg1 : FVec F S2x64x32768 .f32) (main_arg2 : FVec F S512x512 .f32) (main_arg3 : FVec F S195x128 .f32) (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S2x64x32768 .f32 := Host.absf main_arg1
  let main_cst_0 : FVec F S_ .f32 := constant S_ .f32 0x7F800000#32
  let main_v5 : FVec F S2x64x32768 .f32 := broadcastInDim S2x64x32768 ![] bcast_S_S2x64x32768 main_cst_0
  let main_v6 : IVec S2x64x32768 1 := cmpf .olt main_v4 main_v5
  let main_c_1 : IVec S_ 1 := constantI S_ 1 1#1
  let main_v7 : IVec S_ 1 := (fun x v => Host.reduce IntOp.andi x v reducesTo_S2x64x32768_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S195x128 .f32 := Host.absf main_arg3
  let main_cst_4 : FVec F S_ .f32 := constant S_ .f32 0x7F800000#32
  let main_v15 : FVec F S195x128 .f32 := broadcastInDim S195x128 ![] bcast_S_S195x128 main_cst_4
  let main_v16 : IVec S195x128 1 := cmpf .olt main_v14 main_v15
  fn_part1 (F := F) main_arg4 main_arg5 main_arg6 main_arg7 main_arg8 main_arg9 main_arg10 main_arg11 main_arg12 main_v13 main_v16
-- ==== Kernel.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S65x3x128 : Shape := ⟨3, ![65, 3, 128]⟩
abbrev S3x65x128 : Shape := ⟨3, ![3, 65, 128]⟩
abbrev S65x3x64 : Shape := ⟨3, ![65, 3, 64]⟩
abbrev S3x65x64 : Shape := ⟨3, ![3, 65, 64]⟩
abbrev S128x3x128 : Shape := ⟨3, ![128, 3, 128]⟩
abbrev S3x128x128 : Shape := ⟨3, ![3, 128, 128]⟩
abbrev S128x3x64 : Shape := ⟨3, ![128, 3, 64]⟩
abbrev S3x128x64 : Shape := ⟨3, ![3, 128, 64]⟩
abbrev S1x128 : Shape := ⟨2, ![1, 128]⟩
abbrev S1x64 : Shape := ⟨2, ![1, 64]⟩
abbrev S6x256 : Shape := ⟨2, ![6, 256]⟩
abbrev S3x128x256 : Shape := ⟨3, ![3, 128, 256]⟩
abbrev S1x256 : Shape := ⟨2, ![1, 256]⟩
abbrev S6x128 : Shape := ⟨2, ![6, 128]⟩
abbrev S128x2 : Shape := ⟨2, ![128, 2]⟩
abbrev S512 : Shape := ⟨1, ![512]⟩
abbrev S512x1 : Shape := ⟨2, ![512, 1]⟩
abbrev S1x512 : Shape := ⟨2, ![1, 512]⟩
abbrev S1x1x64 : Shape := ⟨3, ![1, 1, 64]⟩
abbrev S1x64x64 : Shape := ⟨3, ![1, 64, 64]⟩
abbrev S64x64 : Shape := ⟨2, ![64, 64]⟩
abbrev S1x64x512 : Shape := ⟨3, ![1, 64, 512]⟩
abbrev S3x64x512 : Shape := ⟨3, ![3, 64, 512]⟩
abbrev S3x32x2x512 : Shape := ⟨4, ![3, 32, 2, 512]⟩
abbrev S2x64x512x64 : Shape := ⟨4, ![2, 64, 512, 64]⟩
abbrev S1x1 : Shape := ⟨2, ![1, 1]⟩
abbrev S32x2x512 : Shape := ⟨3, ![32, 2, 512]⟩
abbrev S3x1x2x512 : Shape := ⟨4, ![3, 1, 2, 512]⟩
abbrev S2x2x512x64 : Shape := ⟨4, ![2, 2, 512, 64]⟩
abbrev S1x2x512 : Shape := ⟨3, ![1, 2, 512]⟩
abbrev S1x1x2x512 : Shape := ⟨4, ![1, 1, 2, 512]⟩
abbrev S2x512 : Shape := ⟨2, ![2, 512]⟩
abbrev S6x512 : Shape := ⟨2, ![6, 512]⟩
abbrev S512x6 : Shape := ⟨2, ![512, 6]⟩
abbrev S1x1x512x64 : Shape := ⟨4, ![1, 1, 512, 64]⟩
abbrev S512x64 : Shape := ⟨2, ![512, 64]⟩
abbrev S512x128 : Shape := ⟨2, ![512, 128]⟩
abbrev S512x256 : Shape := ⟨2, ![512, 256]⟩
abbrev S1x128x256 : Shape := ⟨3, ![1, 128, 256]⟩
abbrev S128x256 : Shape := ⟨2, ![128, 256]⟩
abbrev S1x128x128 : Shape := ⟨3, ![1, 128, 128]⟩
abbrev S128x128 : Shape := ⟨2, ![128, 128]⟩
abbrev S512x2 : Shape := ⟨2, ![512, 2]⟩

abbrev nBuf : Space → Nat
  | .hbm => 52
  | .vmem => 50
  | .smem => 0
  | _ => 0

abbrev bufTy : (tb : Table) → Fin (tcTables nBuf tb) → BufTy
  | .hbm, ⟨0, _⟩ => ⟨S64x512, .f32⟩
  | .hbm, ⟨1, _⟩ => ⟨S2x64x32768, .f32⟩
  | .hbm, ⟨2, _⟩ => ⟨S512x512, .f32⟩
  | .hbm, ⟨3, _⟩ => ⟨S195x128, .f32⟩
  | .hbm, ⟨4, _⟩ => ⟨S128, .f32⟩
  | .hbm, ⟨5, _⟩ => ⟨S195x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S65x3x128, .f32⟩
  | .hbm, ⟨14, _⟩ => ⟨S3x65x128, .f32⟩
  | .hbm, ⟨15, _⟩ => ⟨S65x3x64, .f32⟩
  | .hbm, ⟨16, _⟩ => ⟨S3x65x64, .f32⟩
  | .hbm, ⟨17, _⟩ => ⟨S128x3x128, .f32⟩
  | .hbm, ⟨18, _⟩ => ⟨S3x128x128, .f32⟩
  | .hbm, ⟨19, _⟩ => ⟨S128x3x64, .f32⟩
  | .hbm, ⟨20, _⟩ => ⟨S3x128x64, .f32⟩
  | .hbm, ⟨21, _⟩ => ⟨S1x128, .f32⟩
  | .hbm, ⟨22, _⟩ => ⟨S1x64, .f32⟩
  | .hbm, ⟨23, _⟩ => ⟨S1x128, .f32⟩
  | .hbm, ⟨24, _⟩ => ⟨S1x64, .f32⟩
  | .hbm, ⟨25, _⟩ => ⟨S512x512, .f32⟩
  | .hbm, ⟨26, _⟩ => ⟨S64x512, .f32⟩
  | .hbm, ⟨27, _⟩ => ⟨S64x512, .f32⟩
  | .hbm, ⟨28, _⟩ => ⟨S6x256, .f32⟩
  | .hbm, ⟨29, _⟩ => ⟨S3x128x256, .f32⟩
  | .hbm, ⟨30, _⟩ => ⟨S1x256, .f32⟩
  | .hbm, ⟨31, _⟩ => ⟨S6x128, .f32⟩
  | .hbm, ⟨32, _⟩ => ⟨S3x128x128, .f32⟩
  | .hbm, ⟨33, _⟩ => ⟨S1x128, .f32⟩
  | .hbm, ⟨34, _⟩ => ⟨S3x128x256, .f32⟩
  | .hbm, ⟨35, _⟩ => ⟨S3x128x256, .f32⟩
  | .hbm, ⟨36, _⟩ => ⟨S1x256, .f32⟩
  | .hbm, ⟨37, _⟩ => ⟨S3x128x128, .f32⟩
  | .hbm, ⟨38, _⟩ => ⟨S3x128x128, .f32⟩
  | .hbm, ⟨39, _⟩ => ⟨S1x128, .f32⟩
  | .hbm, ⟨40, _⟩ => ⟨S128x2, .f32⟩
  | .hbm, ⟨41, _⟩ => ⟨S1x64x512, .f32⟩
  | .hbm, ⟨42, _⟩ => ⟨S1x64x512, .f32⟩
  | .hbm, ⟨43, _⟩ => ⟨S1x64x512, .f32⟩
  | .hbm, ⟨44, _⟩ => ⟨S3x64x512, .f32⟩
  | .hbm, ⟨45, _⟩ => ⟨S3x32x2x512, .f32⟩
  | .hbm, ⟨46, _⟩ => ⟨S2x64x512x64, .f32⟩
  | .hbm, ⟨47, _⟩ => ⟨S1x1, .f32⟩
  | .hbm, ⟨48, _⟩ => ⟨S32x2x512, .f32⟩
  | .hbm, ⟨49, _⟩ => ⟨S2x64x512x64, .f32⟩
  | .hbm, ⟨50, _⟩ => ⟨S64x512, .f32⟩
  | .hbm, ⟨51, _⟩ => ⟨S2x64x32768, .f32⟩
  | .local _ .vmem, ⟨0, _⟩ => ⟨S512x512, .f32⟩
  | .local _ .vmem, ⟨1, _⟩ => ⟨S64x512, .f32⟩
  | .local _ .vmem, ⟨2, _⟩ => ⟨S3x65x128, .f32⟩
  | .local _ .vmem, ⟨3, _⟩ => ⟨S3x65x64, .f32⟩
  | .local _ .vmem, ⟨4, _⟩ => ⟨S3x128x128, .f32⟩
  | .local _ .vmem, ⟨5, _⟩ => ⟨S3x128x64, .f32⟩
  | .local _ .vmem, ⟨6, _⟩ => ⟨S1x128, .f32⟩
  | .local _ .vmem, ⟨7, _⟩ => ⟨S1x64, .f32⟩
  | .local _ .vmem, ⟨8, _⟩ => ⟨S1x128, .f32⟩
  | .local _ .vmem, ⟨9, _⟩ => ⟨S1x64, .f32⟩
  | .local _ .vmem, ⟨10, _⟩ => ⟨S64x1, .f32⟩
  | .local _ .vmem, ⟨11, _⟩ => ⟨S512x512, .f32⟩
  | .local _ .vmem, ⟨12, _⟩ => ⟨S64x512, .f32⟩
  | .local _ .vmem, ⟨13, _⟩ => ⟨S64x512, .f32⟩
  | .local _ .vmem, ⟨14, _⟩ => ⟨S6x256, .f32⟩
  | .local _ .vmem, ⟨15, _⟩ => ⟨S3x128x256, .f32⟩
  | .local _ .vmem, ⟨16, _⟩ => ⟨S1x256, .f32⟩
  | .local _ .vmem, ⟨17, _⟩ => ⟨S6x128, .f32⟩
  | .local _ .vmem, ⟨18, _⟩ => ⟨S3x128x128, .f32⟩
  | .local _ .vmem, ⟨19, _⟩ => ⟨S1x128, .f32⟩
  | .local _ .vmem, ⟨20, _⟩ => ⟨S3x128x256, .f32⟩
  | .local _ .vmem, ⟨21, _⟩ => ⟨S3x128x256, .f32⟩
  | .local _ .vmem, ⟨22, _⟩ => ⟨S1x256, .f32⟩
  | .local _ .vmem, ⟨23, _⟩ => ⟨S3x128x128, .f32⟩
  | .local _ .vmem, ⟨24, _⟩ => ⟨S3x128x128, .f32⟩
  | .local _ .vmem, ⟨25, _⟩ => ⟨S1x128, .f32⟩
  | .local _ .vmem, ⟨26, _⟩ => ⟨S128x2, .f32⟩
  | .local _ .vmem, ⟨27, _⟩ => ⟨S512x512, .f32⟩
  | .local _ .vmem, ⟨28, _⟩ => ⟨S3x1x2x512, .f32⟩
  | .local _ .vmem, ⟨29, _⟩ => ⟨S3x1x2x512, .f32⟩
  | .local _ .vmem, ⟨30, _⟩ => ⟨S2x2x512x64, .f32⟩
  | .local _ .vmem, ⟨31, _⟩ => ⟨S2x2x512x64, .f32⟩
  | .local _ .vmem, ⟨32, _⟩ => ⟨S6x256, .f32⟩
  | .local _ .vmem, ⟨33, _⟩ => ⟨S3x128x256, .f32⟩
  | .local _ .vmem, ⟨34, _⟩ => ⟨S1x256, .f32⟩
  | .local _ .vmem, ⟨35, _⟩ => ⟨S6x128, .f32⟩
  | .local _ .vmem, ⟨36, _⟩ => ⟨S3x128x128, .f32⟩
  | .local _ .vmem, ⟨37, _⟩ => ⟨S1x128, .f32⟩
  | .local _ .vmem, ⟨38, _⟩ => ⟨S3x128x256, .f32⟩
  | .local _ .vmem, ⟨39, _⟩ => ⟨S3x128x256, .f32⟩
  | .local _ .vmem, ⟨40, _⟩ => ⟨S1x256, .f32⟩
  | .local _ .vmem, ⟨41, _⟩ => ⟨S3x128x128, .f32⟩
  | .local _ .vmem, ⟨42, _⟩ => ⟨S3x128x128, .f32⟩
  | .local _ .vmem, ⟨43, _⟩ => ⟨S1x128, .f32⟩
  | .local _ .vmem, ⟨44, _⟩ => ⟨S128x2, .f32⟩
  | .local _ .vmem, ⟨45, _⟩ => ⟨S1x1, .f32⟩
  | .local _ .vmem, ⟨46, _⟩ => ⟨S1x2x512, .f32⟩
  | .local _ .vmem, ⟨47, _⟩ => ⟨S1x2x512, .f32⟩
  | .local _ .vmem, ⟨48, _⟩ => ⟨S2x2x512x64, .f32⟩
  | .local _ .vmem, ⟨49, _⟩ => ⟨S2x2x512x64, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v12_4 : Ref sig .tc := ⟨.hbm, 29, rfl⟩
abbrev main_v12_5 : Ref sig .tc := ⟨.hbm, 30, rfl⟩
abbrev main_v12_6 : Ref sig .tc := ⟨.hbm, 31, rfl⟩
abbrev main_v12_7 : Ref sig .tc := ⟨.hbm, 32, rfl⟩
abbrev main_v12_8 : Ref sig .tc := ⟨.hbm, 33, rfl⟩
abbrev main_v12_9 : Ref sig .tc := ⟨.hbm, 34, rfl⟩
abbrev main_v12_10 : Ref sig .tc := ⟨.hbm, 35, rfl⟩
abbrev main_v12_11 : Ref sig .tc := ⟨.hbm, 36, rfl⟩
abbrev main_v12_12 : Ref sig .tc := ⟨.hbm, 37, rfl⟩
abbrev main_v12_13 : Ref sig .tc := ⟨.hbm, 38, rfl⟩
abbrev main_v12_14 : Ref sig .tc := ⟨.hbm, 39, rfl⟩
abbrev main_v12_15 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev main_v21 : Ref sig .tc := ⟨.hbm, 50, rfl⟩
abbrev main_v22 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc1_stg0_0 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg4_0 : Ref sig .tc := ⟨.vmem, 33, rfl⟩
abbrev cc1_stg5_0 : Ref sig .tc := ⟨.vmem, 34, rfl⟩
abbrev cc1_stg6_0 : Ref sig .tc := ⟨.vmem, 35, rfl⟩
abbrev cc1_stg7_0 : Ref sig .tc := ⟨.vmem, 36, rfl⟩
abbrev cc1_stg8_0 : Ref sig .tc := ⟨.vmem, 37, rfl⟩
abbrev cc1_stg9_0 : Ref sig .tc := ⟨.vmem, 38, rfl⟩
abbrev cc1_stg10_0 : Ref sig .tc := ⟨.vmem, 39, rfl⟩
abbrev cc1_stg11_0 : Ref sig .tc := ⟨.vmem, 40, rfl⟩
abbrev cc1_stg12_0 : Ref sig .tc := ⟨.vmem, 41, rfl⟩
abbrev cc1_stg13_0 : Ref sig .tc := ⟨.vmem, 42, rfl⟩
abbrev cc1_stg14_0 : Ref sig .tc := ⟨.vmem, 43, rfl⟩
abbrev cc1_stg15_0 : Ref sig .tc := ⟨.vmem, 44, rfl⟩
abbrev cc1_stg16_0 : Ref sig .tc := ⟨.vmem, 45, rfl⟩
abbrev cc1_stg17_0 : Ref sig .tc := ⟨.vmem, 46, rfl⟩
abbrev cc1_stg17_1 : Ref sig .tc := ⟨.vmem, 47, rfl⟩
abbrev cc1_stg18_0 : Ref sig .tc := ⟨.vmem, 48, rfl⟩
abbrev cc1_stg18_1 : Ref sig .tc := ⟨.vmem, 49, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc1_sem0_0 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem4_0 : DmaSem sig := 33
abbrev cc1_sem5_0 : DmaSem sig := 34
abbrev cc1_sem6_0 : DmaSem sig := 35
abbrev cc1_sem7_0 : DmaSem sig := 36
abbrev cc1_sem8_0 : DmaSem sig := 37
abbrev cc1_sem9_0 : DmaSem sig := 38
abbrev cc1_sem10_0 : DmaSem sig := 39
abbrev cc1_sem11_0 : DmaSem sig := 40
abbrev cc1_sem12_0 : DmaSem sig := 41
abbrev cc1_sem13_0 : DmaSem sig := 42
abbrev cc1_sem14_0 : DmaSem sig := 43
abbrev cc1_sem15_0 : DmaSem sig := 44
abbrev cc1_sem16_0 : DmaSem sig := 45
abbrev cc1_sem17_0 : DmaSem sig := 46
abbrev cc1_sem17_1 : DmaSem sig := 47
abbrev cc1_sem18_0 : DmaSem sig := 48
abbrev cc1_sem18_1 : DmaSem sig := 49

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x65x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x65x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S3x128x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S3x128x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S3x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S3x128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S128x2 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_18 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3x1x2x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x2x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S6x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S6x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S3x128x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S3x128x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S3x128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S3x128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S128x2 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S1x2x512 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S2x2x512x64 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

class Facts₀ : Prop where
  shapeCasts_S195x128_S65x3x128 : S195x128.ShapeCasts S65x3x128
  transposes_S65x3x128_S3x65x128_1_0_2 : S65x3x128.Transposes [1, 0, 2] S3x65x128
  shapeCasts_S195x64_S65x3x64 : S195x64.ShapeCasts S65x3x64
  transposes_S65x3x64_S3x65x64_1_0_2 : S65x3x64.Transposes [1, 0, 2] S3x65x64
  shapeCasts_S384x128_S128x3x128 : S384x128.ShapeCasts S128x3x128
  transposes_S128x3x128_S3x128x128_1_0_2 : S128x3x128.Transposes [1, 0, 2] S3x128x128
  shapeCasts_S384x64_S128x3x64 : S384x64.ShapeCasts S128x3x64
  transposes_S128x3x64_S3x128x64_1_0_2 : S128x3x64.Transposes [1, 0, 2] S3x128x64
  shapeCasts_S128_S1x128 : S128.ShapeCasts S1x128
  shapeCasts_S64_S1x64 : S64.ShapeCasts S1x64
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  reduces_S512x512_S512 : S512x512.Reduces [1] S512
  shapeCasts_S512_S512x1 : S512.ShapeCasts S512x1
  reduces_S512x512_S512_2 : S512x512.Reduces [0] S512
  shapeCasts_S512_S1x512 : S512.ShapeCasts S1x512
  broadcasts_S512x1_S512x512 : S512x1.Broadcasts S512x512
  broadcasts_S1x512_S512x512 : S1x512.Broadcasts S512x512
  inb_S64x512_S64x512_0_0 : ∀ a, (![0, 0] : Fin 2 → Nat) a + S64x512.size a ≤ S64x512.size a
  h_S64x512 : 0 < S64x512.numel
  inb_S6x256_S6x256_0_0 : ∀ a, (![0, 0] : Fin 2 → Nat) a + S6x256.size a ≤ S6x256.size a
  h_S6x256 : 0 < S6x256.numel
  inb_S6x128_S6x128_0_0 : ∀ a, (![0, 0] : Fin 2 → Nat) a + S6x128.size a ≤ S6x128.size a
  h_S6x128 : 0 < S6x128.numel
  inb_S3x128x256_S3x128x256_0_0_0 : ∀ a, (![0, 0, 0] : Fin 3 → Nat) a + S3x128x256.size a ≤ S3x128x256.size a
  h_S3x128x256 : 0 < S3x128x256.numel
  inb_S3x128x128_S3x128x128_0_0_0 : ∀ a, (![0, 0, 0] : Fin 3 → Nat) a + S3x128x128.size a ≤ S3x128x128.size a
  h_S3x128x128 : 0 < S3x128x128.numel
  inb_S3x65x128_S1x1x64_0_0_0 : ∀ a, (![0, 0, 0] : Fin 3 → Nat) a + S1x1x64.size a ≤ S3x65x128.size a
  h_S1x1x64 : 0 < S1x1x64.numel
  shapeCasts_S1x1x64_S64 : S1x1x64.ShapeCasts S64
  inb_S6x256_S1x64_0_0 : ∀ a, (![0, 0] : Fin 2 → Nat) a + S1x64.size a ≤ S6x256.size a
  h_S1x64 : 0 < S1x64.numel
  shapeCasts_S1x64_S64 : S1x64.ShapeCasts S64
  inb_S3x65x128_S1x1x64_0_0_64 : ∀ a, (![0, 0, 64] : Fin 3 → Nat) a + S1x1x64.size a ≤ S3x65x128.size a
  inb_S6x256_S1x64_0_128 : ∀ a, (![0, 128] : Fin 2 → Nat) a + S1x64.size a ≤ S6x256.size a
  inb_S6x256_S1x64_1_64 : ∀ a, (![1, 64] : Fin 2 → Nat) a + S1x64.size a ≤ S6x256.size a
  inb_S6x256_S1x64_1_192 : ∀ a, (![1, 192] : Fin 2 → Nat) a + S1x64.size a ≤ S6x256.size a
  inb_S3x65x64_S1x1x64_0_0_0 : ∀ a, (![0, 0, 0] : Fin 3 → Nat) a + S1x1x64.size a ≤ S3x65x64.size a
  inb_S6x128_S1x64_0_0 : ∀ a, (![0, 0] : Fin 2 → Nat) a + S1x64.size a ≤ S6x128.size a
  inb_S6x128_S1x64_1_64 : ∀ a, (![1, 64] : Fin 2 → Nat) a + S1x64.size a ≤ S6x128.size a
  inb_S3x65x128_S1x64x64_0_1_0 : ∀ a, (![0, 1, 0] : Fin 3 → Nat) a + S1x64x64.size a ≤ S3x65x128.size a
  h_S1x64x64 : 0 < S1x64x64.numel
  shapeCasts_S1x64x64_S64x64 : S1x64x64.ShapeCasts S64x64
  inb_S3x65x128_S1x64x64_0_1_64 : ∀ a, (![0, 1, 64] : Fin 3 → Nat) a + S1x64x64.size a ≤ S3x65x128.size a
  inb_S3x128x256_S1x64x64_0_0_0 : ∀ a, (![0, 0, 0] : Fin 3 → Nat) a + S1x64x64.size a ≤ S3x128x256.size a
  shapeCasts_S64x64_S1x64x64 : S64x64.ShapeCasts S1x64x64
  inb_S3x128x256_S1x64x64_0_0_128 : ∀ a, (![0, 0, 128] : Fin 3 → Nat) a + S1x64x64.size a ≤ S3x128x256.size a
  inb_S3x128x256_S1x64x64_0_64_64 : ∀ a, (![0, 64, 64] : Fin 3 → Nat) a + S1x64x64.size a ≤ S3x128x256.size a
  inb_S3x128x256_S1x64x64_0_64_192 : ∀ a, (![0, 64, 192] : Fin 3 → Nat) a + S1x64x64.size a ≤ S3x128x256.size a
  inb_S3x65x64_S1x64x64_0_1_0 : ∀ a, (![0, 1, 0] : Fin 3 → Nat) a + S1x64x64.size a ≤ S3x65x64.size a
  inb_S3x128x128_S1x64x64_0_0_0 : ∀ a, (![0, 0, 0] : Fin 3 → Nat) a + S1x64x64.size a ≤ S3x128x128.size a
  inb_S3x128x128_S1x64x64_0_64_64 : ∀ a, (![0, 64, 64] : Fin 3 → Nat) a + S1x64x64.size a ≤ S3x128x128.size a
  inb_S3x128x128_S1x64x64_0_0_64 : ∀ a, (![0, 0, 64] : Fin 3 → Nat) a + S1x64x64.size a ≤ S3x128x128.size a
  inb_S3x128x128_S1x64x64_0_64_0 : ∀ a, (![0, 64, 0] : Fin 3 → Nat) a + S1x64x64.size a ≤ S3x128x128.size a
  inb_S3x128x64_S1x64x64_0_0_0 : ∀ a, (![0, 0, 0] : Fin 3 → Nat) a + S1x64x64.size a ≤ S3x128x64.size a
  inb_S3x128x64_S1x64x64_0_64_0 : ∀ a, (![0, 64, 0] : Fin 3 → Nat) a + S1x64x64.size a ≤ S3x128x64.size a
  inb_S3x65x128_S1x1x64_1_0_0 : ∀ a, (![1, 0, 0] : Fin 3 → Nat) a + S1x1x64.size a ≤ S3x65x128.size a
  inb_S6x256_S1x64_2_0 : ∀ a, (![2, 0] : Fin 2 → Nat) a + S1x64.size a ≤ S6x256.size a
  inb_S3x65x128_S1x1x64_1_0_64 : ∀ a, (![1, 0, 64] : Fin 3 → Nat) a + S1x1x64.size a ≤ S3x65x128.size a
  inb_S6x256_S1x64_2_128 : ∀ a, (![2, 128] : Fin 2 → Nat) a + S1x64.size a ≤ S6x256.size a
  inb_S6x256_S1x64_3_64 : ∀ a, (![3, 64] : Fin 2 → Nat) a + S1x64.size a ≤ S6x256.size a
  inb_S6x256_S1x64_3_192 : ∀ a, (![3, 192] : Fin 2 → Nat) a + S1x64.size a ≤ S6x256.size a
  inb_S3x65x64_S1x1x64_1_0_0 : ∀ a, (![1, 0, 0] : Fin 3 → Nat) a + S1x1x64.size a ≤ S3x65x64.size a
  inb_S6x128_S1x64_2_0 : ∀ a, (![2, 0] : Fin 2 → Nat) a + S1x64.size a ≤ S6x128.size a
  inb_S6x128_S1x64_3_64 : ∀ a, (![3, 64] : Fin 2 → Nat) a + S1x64.size a ≤ S6x128.size a
  inb_S3x65x128_S1x64x64_1_1_0 : ∀ a, (![1, 1, 0] : Fin 3 → Nat) a + S1x64x64.size a ≤ S3x65x128.size a
  inb_S3x65x128_S1x64x64_1_1_64 : ∀ a, (![1, 1, 64] : Fin 3 → Nat) a + S1x64x64.size a ≤ S3x65x128.size a
  inb_S3x128x256_S1x64x64_1_0_0 : ∀ a, (![1, 0, 0] : Fin 3 → Nat) a + S1x64x64.size a ≤ S3x128x256.size a
  inb_S3x128x256_S1x64x64_1_0_128 : ∀ a, (![1, 0, 128] : Fin 3 → Nat) a + S1x64x64.size a ≤ S3x128x256.size a
  inb_S3x128x256_S1x64x64_1_64_64 : ∀ a, (![1, 64, 64] : Fin 3 → Nat) a + S1x64x64.size a ≤ S3x128x256.size a
  inb_S3x128x256_S1x64x64_1_64_192 : ∀ a, (![1, 64, 192] : Fin 3 → Nat) a + S1x64x64.size a ≤ S3x128x256.size a
  inb_S3x65x64_S1x64x64_1_1_0 : ∀ a, (![1, 1, 0] : Fin 3 → Nat) a + S1x64x64.size a ≤ S3x65x64.size a
  inb_S3x128x128_S1x64x64_1_0_0 : ∀ a, (![1, 0, 0] : Fin 3 → Nat) a + S1x64x64.size a ≤ S3x128x128.size a
  inb_S3x128x128_S1x64x64_1_64_64 : ∀ a, (![1, 64, 64] : Fin 3 → Nat) a + S1x64x64.size a ≤ S3x128x128.size a
  inb_S3x128x128_S1x64x64_1_0_64 : ∀ a, (![1, 0, 64] : Fin 3 → Nat) a + S1x64x64.size a ≤ S3x128x128.size a
  inb_S3x128x128_S1x64x64_1_64_0 : ∀ a, (![1, 64, 0] : Fin 3 → Nat) a + S1x64x64.size a ≤ S3x128x128.size a
  inb_S3x128x64_S1x64x64_1_0_0 : ∀ a, (![1, 0, 0] : Fin 3 → Nat) a + S1x64x64.size a ≤ S3x128x64.size a
  inb_S3x128x64_S1x64x64_1_64_0 : ∀ a, (![1, 64, 0] : Fin 3 → Nat) a + S1x64x64.size a ≤ S3x128x64.size a
  inb_S3x65x128_S1x1x64_2_0_0 : ∀ a, (![2, 0, 0] : Fin 3 → Nat) a + S1x1x64.size a ≤ S3x65x128.size a
  inb_S6x256_S1x64_4_0 : ∀ a, (![4, 0] : Fin 2 → Nat) a + S1x64.size a ≤ S6x256.size a
  inb_S3x65x128_S1x1x64_2_0_64 : ∀ a, (![2, 0, 64] : Fin 3 → Nat) a + S1x1x64.size a ≤ S3x65x128.size a
  inb_S6x256_S1x64_4_128 : ∀ a, (![4, 128] : Fin 2 → Nat) a + S1x64.size a ≤ S6x256.size a
  inb_S6x256_S1x64_5_64 : ∀ a, (![5, 64] : Fin 2 → Nat) a + S1x64.size a ≤ S6x256.size a
  inb_S6x256_S1x64_5_192 : ∀ a, (![5, 192] : Fin 2 → Nat) a + S1x64.size a ≤ S6x256.size a
  inb_S3x65x64_S1x1x64_2_0_0 : ∀ a, (![2, 0, 0] : Fin 3 → Nat) a + S1x1x64.size a ≤ S3x65x64.size a
  inb_S6x128_S1x64_4_0 : ∀ a, (![4, 0] : Fin 2 → Nat) a + S1x64.size a ≤ S6x128.size a
  inb_S6x128_S1x64_5_64 : ∀ a, (![5, 64] : Fin 2 → Nat) a + S1x64.size a ≤ S6x128.size a
  inb_S3x65x128_S1x64x64_2_1_0 : ∀ a, (![2, 1, 0] : Fin 3 → Nat) a + S1x64x64.size a ≤ S3x65x128.size a
  inb_S3x65x128_S1x64x64_2_1_64 : ∀ a, (![2, 1, 64] : Fin 3 → Nat) a + S1x64x64.size a ≤ S3x65x128.size a
  inb_S3x128x256_S1x64x64_2_0_0 : ∀ a, (![2, 0, 0] : Fin 3 → Nat) a + S1x64x64.size a ≤ S3x128x256.size a
  inb_S3x128x256_S1x64x64_2_0_128 : ∀ a, (![2, 0, 128] : Fin 3 → Nat) a + S1x64x64.size a ≤ S3x128x256.size a
  inb_S3x128x256_S1x64x64_2_64_64 : ∀ a, (![2, 64, 64] : Fin 3 → Nat) a + S1x64x64.size a ≤ S3x128x256.size a
  inb_S3x128x256_S1x64x64_2_64_192 : ∀ a, (![2, 64, 192] : Fin 3 → Nat) a + S1x64x64.size a ≤ S3x128x256.size a
  inb_S3x65x64_S1x64x64_2_1_0 : ∀ a, (![2, 1, 0] : Fin 3 → Nat) a + S1x64x64.size a ≤ S3x65x64.size a
  inb_S3x128x128_S1x64x64_2_0_0 : ∀ a, (![2, 0, 0] : Fin 3 → Nat) a + S1x64x64.size a ≤ S3x128x128.size a
  inb_S3x128x128_S1x64x64_2_64_64 : ∀ a, (![2, 64, 64] : Fin 3 → Nat) a + S1x64x64.size a ≤ S3x128x128.size a
  inb_S3x128x128_S1x64x64_2_0_64 : ∀ a, (![2, 0, 64] : Fin 3 → Nat) a + S1x64x64.size a ≤ S3x128x128.size a
  inb_S3x128x128_S1x64x64_2_64_0 : ∀ a, (![2, 64, 0] : Fin 3 → Nat) a + S1x64x64.size a ≤ S3x128x128.size a
  inb_S3x128x64_S1x64x64_2_0_0 : ∀ a, (![2, 0, 0] : Fin 3 → Nat) a + S1x64x64.size a ≤ S3x128x64.size a
  inb_S3x128x64_S1x64x64_2_64_0 : ∀ a, (![2, 64, 0] : Fin 3 → Nat) a + S1x64x64.size a ≤ S3x128x64.size a
  inb_S1x128_S1x64_0_0 : ∀ a, (![0, 0] : Fin 2 → Nat) a + S1x64.size a ≤ S1x128.size a
  inb_S1x256_S1x64_0_0 : ∀ a, (![0, 0] : Fin 2 → Nat) a + S1x64.size a ≤ S1x256.size a
  inb_S1x256_S1x64_0_64 : ∀ a, (![0, 64] : Fin 2 → Nat) a + S1x64.size a ≤ S1x256.size a
  inb_S1x128_S1x64_0_64 : ∀ a, (![0, 64] : Fin 2 → Nat) a + S1x64.size a ≤ S1x128.size a
  inb_S1x256_S1x64_0_128 : ∀ a, (![0, 128] : Fin 2 → Nat) a + S1x64.size a ≤ S1x256.size a
  inb_S1x256_S1x64_0_192 : ∀ a, (![0, 192] : Fin 2 → Nat) a + S1x64.size a ≤ S1x256.size a
  inb_S1x64_S1x64_0_0 : ∀ a, (![0, 0] : Fin 2 → Nat) a + S1x64.size a ≤ S1x64.size a
  inb_S128x2_S128x2_0_0 : ∀ a, (![0, 0] : Fin 2 → Nat) a + S128x2.size a ≤ S128x2.size a
  h_S128x2 : 0 < S128x2.numel
  inb_S64x1_S64x1_0_0 : ∀ a, (![0, 0] : Fin 2 → Nat) a + S64x1.size a ≤ S64x1.size a
  h_S64x1 : 0 < S64x1.numel
  inb_S128x2_S64x1_0_0 : ∀ a, (![0, 0] : Fin 2 → Nat) a + S64x1.size a ≤ S128x2.size a
  inb_S128x2_S64x1_64_1 : ∀ a, (![64, 1] : Fin 2 → Nat) a + S64x1.size a ≤ S128x2.size a
  bcast_S64x512_S1x64x512_1_2 : S64x512.BroadcastsInDim S1x64x512 (![1, 2] : Fin 2 → Fin S1x64x512.rank)
  concatenates_S1x64x512_S1x64x512_S1x64x512_S3x64x512_d0 : Shape.Concatenates [S1x64x512, S1x64x512, S1x64x512] S3x64x512 0
  shapeCasts_S3x64x512_S3x32x2x512 : S3x64x512.ShapeCasts S3x32x2x512
  shapeCasts_S2x64x32768_S2x64x512x64 : S2x64x32768.ShapeCasts S2x64x512x64
  shapeCasts_S1_S1x1 : S1.ShapeCasts S1x1
  shapeCasts_S512x512_S512x512 : S512x512.ShapeCasts S512x512
  inb_S3x1x2x512_S1x1x2x512_0_0_0_0 : ∀ a, (![0, 0, 0, 0] : Fin 4 → Nat) a + S1x1x2x512.size a ≤ S3x1x2x512.size a
  h_S1x1x2x512 : 0 < S1x1x2x512.numel
  shapeCasts_S1x1x2x512_S2x512 : S1x1x2x512.ShapeCasts S2x512
  inb_S3x1x2x512_S1x1x2x512_1_0_0_0 : ∀ a, (![1, 0, 0, 0] : Fin 4 → Nat) a + S1x1x2x512.size a ≤ S3x1x2x512.size a
  inb_S3x1x2x512_S1x1x2x512_2_0_0_0 : ∀ a, (![2, 0, 0, 0] : Fin 4 → Nat) a + S1x1x2x512.size a ≤ S3x1x2x512.size a
  concatenates_S2x512_S2x512_S2x512_S6x512_d0 : Shape.Concatenates [S2x512, S2x512, S2x512] S6x512 0
  transposes_S6x512_p1_0_S512x6 : S6x512.Transposes [1, 0] S512x6
  inb_S2x2x512x64_S1x1x512x64_0_0_0_0 : ∀ a, (![0, 0, 0, 0] : Fin 4 → Nat) a + S1x1x512x64.size a ≤ S2x2x512x64.size a
  h_S1x1x512x64 : 0 < S1x1x512x64.numel
  shapeCasts_S1x1x512x64_S512x64 : S1x1x512x64.ShapeCasts S512x64
  inb_S2x2x512x64_S1x1x512x64_0_1_0_0 : ∀ a, (![0, 1, 0, 0] : Fin 4 → Nat) a + S1x1x512x64.size a ≤ S2x2x512x64.size a
  concatenates_S512x64_S512x64_S512x128_d1 : Shape.Concatenates [S512x64, S512x64] S512x128 1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S6x256_S6x256 : S6x256.ShapeCasts S6x256
  broadcasts_S1x256_S512x256 : S1x256.Broadcasts S512x256
  inb_S3x128x256_S1x128x256_0_0_0 : ∀ a, (![0, 0, 0] : Fin 3 → Nat) a + S1x128x256.size a ≤ S3x128x256.size a
  h_S1x128x256 : 0 < S1x128x256.numel
  shapeCasts_S1x128x256_S128x256 : S1x128x256.ShapeCasts S128x256
  inb_S3x128x256_S1x128x256_1_0_0 : ∀ a, (![1, 0, 0] : Fin 3 → Nat) a + S1x128x256.size a ≤ S3x128x256.size a
  inb_S3x128x256_S1x128x256_2_0_0 : ∀ a, (![2, 0, 0] : Fin 3 → Nat) a + S1x128x256.size a ≤ S3x128x256.size a
  slices_S512x256_o0_0_S512x128 : S512x256.Slices ![0, 0] S512x128
  slices_S512x256_o0_128_S512x128 : S512x256.Slices ![0, 128] S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S6x128_S6x128 : S6x128.ShapeCasts S6x128
  broadcasts_S1x128_S512x128 : S1x128.Broadcasts S512x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  slices_S512x128_o0_0_S512x64 : S512x128.Slices ![0, 0] S512x64
  shapeCasts_S512x64_S1x1x512x64 : S512x64.ShapeCasts S1x1x512x64
  slices_S512x128_o0_64_S512x64 : S512x128.Slices ![0, 64] S512x64
  inb_S2x2x512x64_S1x1x512x64_1_0_0_0 : ∀ a, (![1, 0, 0, 0] : Fin 4 → Nat) a + S1x1x512x64.size a ≤ S2x2x512x64.size a
  inb_S2x2x512x64_S1x1x512x64_1_1_0_0 : ∀ a, (![1, 1, 0, 0] : Fin 4 → Nat) a + S1x1x512x64.size a ≤ S2x2x512x64.size a
  concatenates_S512x128_S512x128_S512x256_d1 : Shape.Concatenates [S512x128, S512x128] S512x256 1
  shapeCasts_S128x2_S128x2 : S128x2.ShapeCasts S128x2
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x2 : S1x1.Broadcasts S512x2
  transposes_S512x2_p1_0_S2x512 : S512x2.Transposes [1, 0] S2x512
  inb_S1x2x512_S1x2x512_0_0_0 : ∀ a, (![0, 0, 0] : Fin 3 → Nat) a + S1x2x512.size a ≤ S1x2x512.size a
  h_S1x2x512 : 0 < S1x2x512.numel
  shapeCasts_S1x2x512_S2x512 : S1x2x512.ShapeCasts S2x512
  shapeCasts_S2x512_S1x2x512 : S2x512.ShapeCasts S1x2x512
  shapeCasts_S32x2x512_S64x512 : S32x2x512.ShapeCasts S64x512
  shapeCasts_S2x64x512x64_S2x64x32768 : S2x64x512x64.ShapeCasts S2x64x32768
  dot_S64x512_S512x512_S64x512_1_0_0_1_n_n_wf : DotDims.WF S64x512 S512x512 S64x512 [1] [0] [0] [1] [] []
  dot_S512x6_S6x256_S512x256_1_0_0_1_n_n_wf : DotDims.WF S512x6 S6x256 S512x256 [1] [0] [0] [1] [] []
  dot_S512x128_S128x256_S512x256_1_0_0_1_n_n_wf : DotDims.WF S512x128 S128x256 S512x256 [1] [0] [0] [1] [] []
  dot_S512x512_S512x128_S512x128_1_0_0_1_n_n_wf : DotDims.WF S512x512 S512x128 S512x128 [1] [0] [0] [1] [] []
  dot_S512x6_S6x128_S512x128_1_0_0_1_n_n_wf : DotDims.WF S512x6 S6x128 S512x128 [1] [0] [0] [1] [] []
  dot_S512x128_S128x128_S512x128_1_0_0_1_n_n_wf : DotDims.WF S512x128 S128x128 S512x128 [1] [0] [0] [1] [] []
  dot_S512x512_S512x256_S512x256_1_0_0_1_n_n_wf : DotDims.WF S512x512 S512x256 S512x256 [1] [0] [0] [1] [] []
  dot_S512x128_S128x2_S512x2_1_0_0_1_n_n_wf : DotDims.WF S512x128 S128x2 S512x2 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole
  hstage0_19 : ∀ j, (stage0_19 j).IsWhole
  hstage0_20 : ∀ j, (stage0_20 j).IsWhole
  hstage0_21 : ∀ j, (stage0_21 j).IsWhole
  hstage0_22 : ∀ j, (stage0_22 j).IsWhole
  hstage0_23 : ∀ j, (stage0_23 j).IsWhole
  hstage0_24 : ∀ j, (stage0_24 j).IsWhole
  hstage0_25 : ∀ j, (stage0_25 j).IsWhole
  hstage0_26 : ∀ j, (stage0_26 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .f32 = 32 ∨ (Rect.block (s := S512x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x1x2x512.size a ≤ S3x32x2x512.size a
  hwx1_1 : ∀ i : grid1.Coords, EltTy.bits .f32 = 32 ∨ (Rect.block (s := S3x32x2x512) S3x1x2x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x2x512x64.size a ≤ S2x64x512x64.size a
  hwx1_2 : ∀ i : grid1.Coords, EltTy.bits .f32 = 32 ∨ (Rect.block (s := S2x64x512x64) S2x2x512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6x256.size a ≤ S6x256.size a
  hwx1_3 : ∀ i : grid1.Coords, EltTy.bits .f32 = 32 ∨ (Rect.block (s := S6x256) S6x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x128x256.size a ≤ S3x128x256.size a
  hwx1_4 : ∀ i : grid1.Coords, EltTy.bits .f32 = 32 ∨ (Rect.block (s := S3x128x256) S3x128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S6x128.size a ≤ S6x128.size a
  hwx1_6 : ∀ i : grid1.Coords, EltTy.bits .f32 = 32 ∨ (Rect.block (s := S6x128) S6x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x128x128.size a ≤ S3x128x128.size a
  hwx1_7 : ∀ i : grid1.Coords, EltTy.bits .f32 = 32 ∨ (Rect.block (s := S3x128x128) S3x128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S3x128x256.size a ≤ S3x128x256.size a
  hwx1_9 : ∀ i : grid1.Coords, EltTy.bits .f32 = 32 ∨ (Rect.block (s := S3x128x256) S3x128x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S3x128x256.size a ≤ S3x128x256.size a
  hwx1_10 : ∀ i : grid1.Coords, EltTy.bits .f32 = 32 ∨ (Rect.block (s := S3x128x256) S3x128x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S3x128x128.size a ≤ S3x128x128.size a
  hwx1_12 : ∀ i : grid1.Coords, EltTy.bits .f32 = 32 ∨ (Rect.block (s := S3x128x128) S3x128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S3x128x128.size a ≤ S3x128x128.size a
  hwx1_13 : ∀ i : grid1.Coords, EltTy.bits .f32 = 32 ∨ (Rect.block (s := S3x128x128) S3x128x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S128x2.size a ≤ S128x2.size a
  hwx1_15 : ∀ i : grid1.Coords, EltTy.bits .f32 = 32 ∨ (Rect.block (s := S128x2) S128x2.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x1.size a ≤ S1x1.size a
  hwx1_16 : ∀ i : grid1.Coords, EltTy.bits .f32 = 32 ∨ (Rect.block (s := S1x1) S1x1.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S1x2x512.size a ≤ S32x2x512.size a
  hwx1_17 : ∀ i : grid1.Coords, EltTy.bits .f32 = 32 ∨ (Rect.block (s := S32x2x512) S1x2x512.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S2x2x512x64.size a ≤ S2x64x512x64.size a
  hwx1_18 : ∀ i : grid1.Coords, EltTy.bits .f32 = 32 ∨ (Rect.block (s := S2x64x512x64) S2x2x512x64.size (cc1_transform_18 i) (hinb1_18 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S512x6_S6x256_S512x256_1_0_0_1_n_n : DotDims S512x6 S6x256 S512x256 where
  lhsContracting := [1]
  rhsContracting := [0]
  lhsNonContracting := [0]
  rhsNonContracting := [1]
  lhsBatch := []
  rhsBatch := []
  wf := dot_S512x6_S6x256_S512x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x6_S6x128_S512x128_1_0_0_1_n_n : DotDims S512x6 S6x128 S512x128 where
  lhsContracting := [1]
  rhsContracting := [0]
  lhsNonContracting := [0]
  rhsNonContracting := [1]
  lhsBatch := []
  rhsBatch := []
  wf := dot_S512x6_S6x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_arg0) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v3) false false (stage0_3 0) (sem0_3 0) (Memref.isWhole_whole _) (hstage0_3 0)

abbrev win0_4 : Pipeline.Window sig grid0 :=
  Pipeline.Window.whole (Memref.whole main_v5) false false (stage0_4 0) (sem0_4 0) (Memref.isWhole_whole _) (hstage0_4 0)

abbrev win0_5 : Pipeline.Window sig grid0 :=
  Pipeline.Window.whole (Memref.whole main_v7) false false (stage0_5 0) (sem0_5 0) (Memref.isWhole_whole _) (hstage0_5 0)

abbrev win0_6 : Pipeline.Window sig grid0 :=
  Pipeline.Window.whole (Memref.whole main_v8) false false (stage0_6 0) (sem0_6 0) (Memref.isWhole_whole _) (hstage0_6 0)

abbrev win0_7 : Pipeline.Window sig grid0 :=
  Pipeline.Window.whole (Memref.whole main_v9) false false (stage0_7 0) (sem0_7 0) (Memref.isWhole_whole _) (hstage0_7 0)

abbrev win0_8 : Pipeline.Window sig grid0 :=
  Pipeline.Window.whole (Memref.whole main_v10) false false (stage0_8 0) (sem0_8 0) (Memref.isWhole_whole _) (hstage0_8 0)

abbrev win0_9 : Pipeline.Window sig grid0 :=
  Pipeline.Window.whole (Memref.whole main_v11) false false (stage0_9 0) (sem0_9 0) (Memref.isWhole_whole _) (hstage0_9 0)

abbrev win0_10 : Pipeline.Window sig grid0 :=
  Pipeline.Window.whole (Memref.whole main_arg11) false false (stage0_10 0) (sem0_10 0) (Memref.isWhole_whole _) (hstage0_10 0)

abbrev win0_11 : Pipeline.Window sig grid0 :=
  Pipeline.Window.whole (Memref.whole main_v12_0) true false (stage0_11 0) (sem0_11 0) (Memref.isWhole_whole _) (hstage0_11 0)

abbrev win0_12 : Pipeline.Window sig grid0 :=
  Pipeline.Window.whole (Memref.whole main_v12_1) true false (stage0_12 0) (sem0_12 0) (Memref.isWhole_whole _) (hstage0_12 0)

abbrev win0_13 : Pipeline.Window sig grid0 :=
  Pipeline.Window.whole (Memref.whole main_v12_2) true false (stage0_13 0) (sem0_13 0) (Memref.isWhole_whole _) (hstage0_13 0)

abbrev win0_14 : Pipeline.Window sig grid0 :=
  Pipeline.Window.whole (Memref.whole main_v12_3) true false (stage0_14 0) (sem0_14 0) (Memref.isWhole_whole _) (hstage0_14 0)

abbrev win0_15 : Pipeline.Window sig grid0 :=
  Pipeline.Window.whole (Memref.whole main_v12_4) true false (stage0_15 0) (sem0_15 0) (Memref.isWhole_whole _) (hstage0_15 0)

abbrev win0_16 : Pipeline.Window sig grid0 :=
  Pipeline.Window.whole (Memref.whole main_v12_5) true false (stage0_16 0) (sem0_16 0) (Memref.isWhole_whole _) (hstage0_16 0)

abbrev win0_17 : Pipeline.Window sig grid0 :=
  Pipeline.Window.whole (Memref.whole main_v12_6) true false (stage0_17 0) (sem0_17 0) (Memref.isWhole_whole _) (hstage0_17 0)

abbrev win0_18 : Pipeline.Window sig grid0 :=
  Pipeline.Window.whole (Memref.whole main_v12_7) true false (stage0_18 0) (sem0_18 0) (Memref.isWhole_whole _) (hstage0_18 0)

abbrev win0_19 : Pipeline.Window sig grid0 :=
  Pipeline.Window.whole (Memref.whole main_v12_8) true false (stage0_19 0) (sem0_19 0) (Memref.isWhole_whole _) (hstage0_19 0)

abbrev win0_20 : Pipeline.Window sig grid0 :=
  Pipeline.Window.whole (Memref.whole main_v12_9) true false (stage0_20 0) (sem0_20 0) (Memref.isWhole_whole _) (hstage0_20 0)

abbrev win0_21 : Pipeline.Window sig grid0 :=
  Pipeline.Window.whole (Memref.whole main_v12_10) true false (stage0_21 0) (sem0_21 0) (Memref.isWhole_whole _) (hstage0_21 0)

abbrev win0_22 : Pipeline.Window sig grid0 :=
  Pipeline.Window.whole (Memref.whole main_v12_11) true false (stage0_22 0) (sem0_22 0) (Memref.isWhole_whole _) (hstage0_22 0)

abbrev win0_23 : Pipeline.Window sig grid0 :=
  Pipeline.Window.whole (Memref.whole main_v12_12) true false (stage0_23 0) (sem0_23 0) (Memref.isWhole_whole _) (hstage0_23 0)

abbrev win0_24 : Pipeline.Window sig grid0 :=
  Pipeline.Window.whole (Memref.whole main_v12_13) true false (stage0_24 0) (sem0_24 0) (Memref.isWhole_whole _) (hstage0_24 0)

abbrev win0_25 : Pipeline.Window sig grid0 :=
  Pipeline.Window.whole (Memref.whole main_v12_14) true false (stage0_25 0) (sem0_25 0) (Memref.isWhole_whole _) (hstage0_25 0)

abbrev win0_26 : Pipeline.Window sig grid0 :=
  Pipeline.Window.whole (Memref.whole main_v12_15) true false (stage0_26 0) (sem0_26 0) (Memref.isWhole_whole _) (hstage0_26 0)

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

abbrev win1_0 : Pipeline.Window sig grid1 :=
  Pipeline.Window.ofSpec (Memref.whole main_v12_0) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v17) S3x1x2x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2x2x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12_3) S6x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12_4) S3x128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12_5) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12_6) S6x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12_7) S3x128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12_8) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12_9) S3x128x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12_10) S3x128x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v12_11) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v12_12) S3x128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v12_13) S3x128x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v12_14) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v12_15) S128x2.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v19) S1x1.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v20_0) S1x2x512.size cc1_transform_17 reads1_17 true false 2 stage1_17 sem1_17
    hrank1 hreads1_17 hinb1_17 nbuf1_17 (Memref.isWhole_whole _) hwx1_17 hstage1_17

abbrev win1_18 : Pipeline.Window sig grid1 :=
  Pipeline.Window.ofSpec (Memref.whole main_v20_1) S2x2x512x64.size cc1_transform_18 reads1_18 true false 2 stage1_18 sem1_18
    hrank1 hreads1_18 hinb1_18 nbuf1_18 (Memref.isWhole_whole _) hwx1_18 hstage1_18

abbrev win1 : Fin 19 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | ⟨_ + 19, h⟩ => absurd h (Nat.not_lt.2 (Nat.le_add_left _ _))
abbrev spec1 : Fin 19 → Pipeline.WinSpec sig grid1.rank := fun w => (win1 w).toWinSpec

class Facts : Prop extends Facts₀ where

variable [Facts]
-- ==== ReferenceIdeal.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩
abbrev S512 : Shape := ⟨1, ![512]⟩
abbrev S512x1 : Shape := ⟨2, ![512, 1]⟩
abbrev S1x512 : Shape := ⟨2, ![1, 512]⟩
abbrev S1x64x32768 : Shape := ⟨3, ![1, 64, 32768]⟩
abbrev S64x32768 : Shape := ⟨2, ![64, 32768]⟩
abbrev S64x512x1 : Shape := ⟨3, ![64, 512, 1]⟩
abbrev S64x512x64 : Shape := ⟨3, ![64, 512, 64]⟩
abbrev S64x512x65 : Shape := ⟨3, ![64, 512, 65]⟩
abbrev S512x65x64 : Shape := ⟨3, ![512, 65, 64]⟩
abbrev S512x4160 : Shape := ⟨2, ![512, 4160]⟩
abbrev S1x512x4160 : Shape := ⟨3, ![1, 512, 4160]⟩
abbrev S3x512x4160 : Shape := ⟨3, ![3, 512, 4160]⟩
abbrev S3x512x65x64 : Shape := ⟨4, ![3, 512, 65, 64]⟩
abbrev S64x512x65x3 : Shape := ⟨4, ![64, 512, 65, 3]⟩
abbrev S32768x195 : Shape := ⟨2, ![32768, 195]⟩
abbrev S32768x128 : Shape := ⟨2, ![32768, 128]⟩
abbrev S1x128 : Shape := ⟨2, ![1, 128]⟩
abbrev S64x65536 : Shape := ⟨2, ![64, 65536]⟩
abbrev S64x512x128 : Shape := ⟨3, ![64, 512, 128]⟩
abbrev S32768x64 : Shape := ⟨2, ![32768, 64]⟩
abbrev S1x64 : Shape := ⟨2, ![1, 64]⟩
abbrev S512x128x64 : Shape := ⟨3, ![512, 128, 64]⟩
abbrev S512x8192 : Shape := ⟨2, ![512, 8192]⟩
abbrev S1x512x8192 : Shape := ⟨3, ![1, 512, 8192]⟩
abbrev S3x512x8192 : Shape := ⟨3, ![3, 512, 8192]⟩
abbrev S3x512x128x64 : Shape := ⟨4, ![3, 512, 128, 64]⟩
abbrev S64x512x128x3 : Shape := ⟨4, ![64, 512, 128, 3]⟩
abbrev S32768x384 : Shape := ⟨2, ![32768, 384]⟩
abbrev S32768x1 : Shape := ⟨2, ![32768, 1]⟩
abbrev S1x1 : Shape := ⟨2, ![1, 1]⟩

abbrev nBuf : Space → Nat
  | .hbm => 200
  | .vmem => 0
  | .smem => 0
  | _ => 0

abbrev hbmTy0_0 (i : Nat) : BufTy := match i % 128 with
  | 0 => ⟨S64x512, .f32⟩
  | 1 => ⟨S2x64x32768, .f32⟩
  | 2 => ⟨S512x512, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S512x512, .f32⟩
  | 14 => ⟨S512x512, .f32⟩
  | 15 => ⟨S_, .f32⟩
  | 16 => ⟨S512, .f32⟩
  | 17 => ⟨S_, .f32⟩
  | 18 => ⟨S512, .f32⟩
  | 19 => ⟨S512, .i1⟩
  | 20 => ⟨S512, .f32⟩
  | 21 => ⟨S_, .f32⟩
  | 22 => ⟨S512, .f32⟩
  | 23 => ⟨S512, .f32⟩
  | 24 => ⟨S_, .f32⟩
  | 25 => ⟨S_, .f32⟩
  | 26 => ⟨S512, .f32⟩
  | 27 => ⟨S512, .f32⟩
  | 28 => ⟨S512x512, .i32⟩
  | 29 => ⟨S512x512, .i32⟩
  | 30 => ⟨S_, .i32⟩
  | 31 => ⟨S512x512, .i32⟩
  | 32 => ⟨S512x512, .i32⟩
  | 33 => ⟨S512x512, .i1⟩
  | 34 => ⟨S512x512, .f32⟩
  | 35 => ⟨S512x1, .f32⟩
  | 36 => ⟨S512x512, .f32⟩
  | 37 => ⟨S512x512, .f32⟩
  | 38 => ⟨S1x512, .f32⟩
  | 39 => ⟨S512x512, .f32⟩
  | 40 => ⟨S512x512, .f32⟩
  | 41 => ⟨S512x512, .f32⟩
  | 42 => ⟨S_, .f32⟩
  | 43 => ⟨S512x512, .f32⟩
  | 44 => ⟨S512x512, .f32⟩
  | 45 => ⟨S512x512, .i32⟩
  | 46 => ⟨S512x512, .i32⟩
  | 47 => ⟨S_, .i32⟩
  | 48 => ⟨S512x512, .i32⟩
  | 49 => ⟨S512x512, .i32⟩
  | 50 => ⟨S512x512, .i1⟩
  | 51 => ⟨S512x512, .f32⟩
  | 52 => ⟨S512x512, .f32⟩
  | 53 => ⟨S1x64x32768, .f32⟩
  | 54 => ⟨S64x32768, .f32⟩
  | 55 => ⟨S64x512x1, .f32⟩
  | 56 => ⟨S64x512x64, .f32⟩
  | 57 => ⟨S64x512x65, .f32⟩
  | 58 => ⟨S512x65x64, .f32⟩
  | 59 => ⟨S512x4160, .f32⟩
  | 60 => ⟨S512x4160, .f32⟩
  | 61 => ⟨S512x4160, .f32⟩
  | 62 => ⟨S_, .f32⟩
  | 63 => ⟨S512x4160, .f32⟩
  | 64 => ⟨S512x4160, .f32⟩
  | 65 => ⟨S512x4160, .f32⟩
  | 66 => ⟨S1x512x4160, .f32⟩
  | 67 => ⟨S1x512x4160, .f32⟩
  | 68 => ⟨S1x512x4160, .f32⟩
  | 69 => ⟨S3x512x4160, .f32⟩
  | 70 => ⟨S3x512x65x64, .f32⟩
  | 71 => ⟨S64x512x65x3, .f32⟩
  | 72 => ⟨S32768x195, .f32⟩
  | 73 => ⟨S32768x128, .f32⟩
  | 74 => ⟨S1x128, .f32⟩
  | 75 => ⟨S32768x128, .f32⟩
  | 76 => ⟨S32768x128, .f32⟩
  | 77 => ⟨S64x65536, .f32⟩
  | 78 => ⟨S64x65536, .f32⟩
  | 79 => ⟨S64x65536, .f32⟩
  | 80 => ⟨S_, .f32⟩
  | 81 => ⟨S64x65536, .f32⟩
  | 82 => ⟨S64x65536, .f32⟩
  | 83 => ⟨S_, .f32⟩
  | 84 => ⟨S64x65536, .f32⟩
  | 85 => ⟨S64x65536, .f32⟩
  | 86 => ⟨S64x512x128, .f32⟩
  | 87 => ⟨S64x512x64, .f32⟩
  | 88 => ⟨S64x32768, .f32⟩
  | 89 => ⟨S64x512x64, .f32⟩
  | 90 => ⟨S64x32768, .f32⟩
  | 91 => ⟨S64x32768, .f32⟩
  | 92 => ⟨S64x512x1, .f32⟩
  | 93 => ⟨S64x512x64, .f32⟩
  | 94 => ⟨S64x512x65, .f32⟩
  | 95 => ⟨S512x65x64, .f32⟩
  | 96 => ⟨S512x4160, .f32⟩
  | 97 => ⟨S512x4160, .f32⟩
  | 98 => ⟨S512x4160, .f32⟩
  | 99 => ⟨S_, .f32⟩
  | 100 => ⟨S512x4160, .f32⟩
  | 101 => ⟨S512x4160, .f32⟩
  | 102 => ⟨S512x4160, .f32⟩
  | 103 => ⟨S1x512x4160, .f32⟩
  | 104 => ⟨S1x512x4160, .f32⟩
  | 105 => ⟨S1x512x4160, .f32⟩
  | 106 => ⟨S3x512x4160, .f32⟩
  | 107 => ⟨S3x512x65x64, .f32⟩
  | 108 => ⟨S64x512x65x3, .f32⟩
  | 109 => ⟨S32768x195, .f32⟩
  | 110 => ⟨S32768x64, .f32⟩
  | 111 => ⟨S1x64, .f32⟩
  | 112 => ⟨S32768x64, .f32⟩
  | 113 => ⟨S32768x64, .f32⟩
  | 114 => ⟨S64x32768, .f32⟩
  | 115 => ⟨S64x32768, .f32⟩
  | 116 => ⟨S64x32768, .f32⟩
  | 117 => ⟨S_, .f32⟩
  | 118 => ⟨S64x32768, .f32⟩
  | 119 => ⟨S64x32768, .f32⟩
  | 120 => ⟨S64x32768, .f32⟩
  | 121 => ⟨S64x32768, .f32⟩
  | 122 => ⟨S1x64x32768, .f32⟩
  | 123 => ⟨S64x32768, .f32⟩
  | 124 => ⟨S64x512x64, .f32⟩
  | 125 => ⟨S64x512x64, .f32⟩
  | 126 => ⟨S64x512x128, .f32⟩
  | 127 => ⟨S512x128x64, .f32⟩
  | _ => ⟨S64x512, .f32⟩

abbrev hbmTy0_1 (i : Nat) : BufTy := match i % 128 with
  | 0 => ⟨S512x8192, .f32⟩
  | 1 => ⟨S512x8192, .f32⟩
  | 2 => ⟨S512x8192, .f32⟩
  | 3 => ⟨S_, .f32⟩
  | 4 => ⟨S512x8192, .f32⟩
  | 5 => ⟨S512x8192, .f32⟩
  | 6 => ⟨S512x8192, .f32⟩
  | 7 => ⟨S1x512x8192, .f32⟩
  | 8 => ⟨S1x512x8192, .f32⟩
  | 9 => ⟨S1x512x8192, .f32⟩
  | 10 => ⟨S3x512x8192, .f32⟩
  | 11 => ⟨S3x512x128x64, .f32⟩
  | 12 => ⟨S64x512x128x3, .f32⟩
  | 13 => ⟨S32768x384, .f32⟩
  | 14 => ⟨S32768x128, .f32⟩
  | 15 => ⟨S1x128, .f32⟩
  | 16 => ⟨S32768x128, .f32⟩
  | 17 => ⟨S32768x128, .f32⟩
  | 18 => ⟨S64x65536, .f32⟩
  | 19 => ⟨S64x65536, .f32⟩
  | 20 => ⟨S64x65536, .f32⟩
  | 21 => ⟨S_, .f32⟩
  | 22 => ⟨S64x65536, .f32⟩
  | 23 => ⟨S64x65536, .f32⟩
  | 24 => ⟨S_, .f32⟩
  | 25 => ⟨S64x65536, .f32⟩
  | 26 => ⟨S64x65536, .f32⟩
  | 27 => ⟨S64x512x128, .f32⟩
  | 28 => ⟨S64x512x64, .f32⟩
  | 29 => ⟨S64x32768, .f32⟩
  | 30 => ⟨S64x512x64, .f32⟩
  | 31 => ⟨S64x32768, .f32⟩
  | 32 => ⟨S64x32768, .f32⟩
  | 33 => ⟨S64x512x64, .f32⟩
  | 34 => ⟨S64x512x64, .f32⟩
  | 35 => ⟨S64x512x128, .f32⟩
  | 36 => ⟨S512x128x64, .f32⟩
  | 37 => ⟨S512x8192, .f32⟩
  | 38 => ⟨S512x8192, .f32⟩
  | 39 => ⟨S512x8192, .f32⟩
  | 40 => ⟨S_, .f32⟩
  | 41 => ⟨S512x8192, .f32⟩
  | 42 => ⟨S512x8192, .f32⟩
  | 43 => ⟨S512x8192, .f32⟩
  | 44 => ⟨S1x512x8192, .f32⟩
  | 45 => ⟨S1x512x8192, .f32⟩
  | 46 => ⟨S1x512x8192, .f32⟩
  | 47 => ⟨S3x512x8192, .f32⟩
  | 48 => ⟨S3x512x128x64, .f32⟩
  | 49 => ⟨S64x512x128x3, .f32⟩
  | 50 => ⟨S32768x384, .f32⟩
  | 51 => ⟨S32768x64, .f32⟩
  | 52 => ⟨S1x64, .f32⟩
  | 53 => ⟨S32768x64, .f32⟩
  | 54 => ⟨S32768x64, .f32⟩
  | 55 => ⟨S64x32768, .f32⟩
  | 56 => ⟨S64x32768, .f32⟩
  | 57 => ⟨S64x32768, .f32⟩
  | 58 => ⟨S_, .f32⟩
  | 59 => ⟨S64x32768, .f32⟩
  | 60 => ⟨S64x32768, .f32⟩
  | 61 => ⟨S64x32768, .f32⟩
  | 62 => ⟨S64x32768, .f32⟩
  | 63 => ⟨S32768x64, .f32⟩
  | 64 => ⟨S32768x1, .f32⟩
  | 65 => ⟨S1x1, .f32⟩
  | 66 => ⟨S32768x1, .f32⟩
  | 67 => ⟨S32768x1, .f32⟩
  | 68 => ⟨S64x512, .f32⟩
  | 69 => ⟨S1x64x32768, .f32⟩
  | 70 => ⟨S1x64x32768, .f32⟩
  | 71 => ⟨S2x64x32768, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_6 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_8 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_9 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_10 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_11 : Ref sig .tc := ⟨.hbm, 149, rfl⟩
abbrev main_v121 : Ref sig .tc := ⟨.hbm, 150, rfl⟩
abbrev main_v122 : Ref sig .tc := ⟨.hbm, 151, rfl⟩
abbrev main_cst_12 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_13 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_14 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩

abbrev nD : Nat := 1
abbrev τ : Topo := Topo.v7x

variable {F : FTy → Type} [FloatOps F]

class Facts₀ : Prop where
  transposes_S512x512_S512x512_1_0 : S512x512.Transposes [1, 0] S512x512
  reducesTo_S512x512_S512_d1 : S512x512.ReducesTo [1] S512
  h_S_ : 0 < S_.numel
  bcast_S_S512 : S_.BroadcastsInDim S512 (![] : Fin 0 → Fin S512.rank)
  bcast_S_S512x512 : S_.BroadcastsInDim S512x512 (![] : Fin 0 → Fin S512x512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  slices_S2x64x32768_S1x64x32768_0_0_0 : S2x64x32768.Slices ![0, 0, 0] S1x64x32768
  shapeCasts_S1x64x32768_S64x32768 : S1x64x32768.ShapeCasts S64x32768
  shapeCasts_S64x512_S64x512x1 : S64x512.ShapeCasts S64x512x1
  shapeCasts_S64x32768_S64x512x64 : S64x32768.ShapeCasts S64x512x64
  concatenates_S64x512x1_S64x512x64_S64x512x65_d2 : Shape.Concatenates [S64x512x1, S64x512x64] S64x512x65 2
  transposes_S64x512x65_S512x65x64_1_2_0 : S64x512x65.Transposes [1, 2, 0] S512x65x64
  shapeCasts_S512x65x64_S512x4160 : S512x65x64.ShapeCasts S512x4160
  bcast_S_S512x4160 : S_.BroadcastsInDim S512x4160 (![] : Fin 0 → Fin S512x4160.rank)
  bcast_S512x4160_S1x512x4160_1_2 : S512x4160.BroadcastsInDim S1x512x4160 (![1, 2] : Fin 2 → Fin S1x512x4160.rank)
  concatenates_S1x512x4160_S1x512x4160_S1x512x4160_S3x512x4160_d0 : Shape.Concatenates [S1x512x4160, S1x512x4160, S1x512x4160] S3x512x4160 0
  shapeCasts_S3x512x4160_S3x512x65x64 : S3x512x4160.ShapeCasts S3x512x65x64
  transposes_S3x512x65x64_S64x512x65x3_3_1_2_0 : S3x512x65x64.Transposes [3, 1, 2, 0] S64x512x65x3
  shapeCasts_S64x512x65x3_S32768x195 : S64x512x65x3.ShapeCasts S32768x195
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  shapeCasts_S32768x128_S64x65536 : S32768x128.ShapeCasts S64x65536
  bcast_S_S64x65536 : S_.BroadcastsInDim S64x65536 (![] : Fin 0 → Fin S64x65536.rank)
  shapeCasts_S64x65536_S64x512x128 : S64x65536.ShapeCasts S64x512x128
  slices_S64x512x128_S64x512x64_0_0_0 : S64x512x128.Slices ![0, 0, 0] S64x512x64
  shapeCasts_S64x512x64_S64x32768 : S64x512x64.ShapeCasts S64x32768
  slices_S64x512x128_S64x512x64_0_0_64 : S64x512x128.Slices ![0, 0, 64] S64x512x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  shapeCasts_S32768x64_S64x32768 : S32768x64.ShapeCasts S64x32768
  bcast_S_S64x32768 : S_.BroadcastsInDim S64x32768 (![] : Fin 0 → Fin S64x32768.rank)
  slices_S2x64x32768_S1x64x32768_1_0_0 : S2x64x32768.Slices ![1, 0, 0] S1x64x32768
  concatenates_S64x512x64_S64x512x64_S64x512x128_d2 : Shape.Concatenates [S64x512x64, S64x512x64] S64x512x128 2
  transposes_S64x512x128_S512x128x64_1_2_0 : S64x512x128.Transposes [1, 2, 0] S512x128x64
  shapeCasts_S512x128x64_S512x8192 : S512x128x64.ShapeCasts S512x8192
  bcast_S_S512x8192 : S_.BroadcastsInDim S512x8192 (![] : Fin 0 → Fin S512x8192.rank)
  bcast_S512x8192_S1x512x8192_1_2 : S512x8192.BroadcastsInDim S1x512x8192 (![1, 2] : Fin 2 → Fin S1x512x8192.rank)
  concatenates_S1x512x8192_S1x512x8192_S1x512x8192_S3x512x8192_d0 : Shape.Concatenates [S1x512x8192, S1x512x8192, S1x512x8192] S3x512x8192 0
  shapeCasts_S3x512x8192_S3x512x128x64 : S3x512x8192.ShapeCasts S3x512x128x64
  transposes_S3x512x128x64_S64x512x128x3_3_1_2_0 : S3x512x128x64.Transposes [3, 1, 2, 0] S64x512x128x3
  shapeCasts_S64x512x128x3_S32768x384 : S64x512x128x3.ShapeCasts S32768x384
  shapeCasts_S64x32768_S32768x64 : S64x32768.ShapeCasts S32768x64
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S64x512 : S32768x1.ShapeCasts S64x512
  bcast_S64x32768_S1x64x32768_1_2 : S64x32768.BroadcastsInDim S1x64x32768 (![1, 2] : Fin 2 → Fin S1x64x32768.rank)
  concatenates_S1x64x32768_S1x64x32768_S2x64x32768_d0 : Shape.Concatenates [S1x64x32768, S1x64x32768] S2x64x32768 0
  dot_S512x512_S512x4160_S512x4160_1_0_0_1_n_n_wf : DotDims.WF S512x512 S512x4160 S512x4160 [1] [0] [0] [1] [] []
  dot_S32768x195_S195x128_S32768x128_1_0_0_1_n_n_wf : DotDims.WF S32768x195 S195x128 S32768x128 [1] [0] [0] [1] [] []
  dot_S32768x195_S195x64_S32768x64_1_0_0_1_n_n_wf : DotDims.WF S32768x195 S195x64 S32768x64 [1] [0] [0] [1] [] []
  dot_S512x512_S512x8192_S512x8192_1_0_0_1_n_n_wf : DotDims.WF S512x512 S512x8192 S512x8192 [1] [0] [0] [1] [] []
  dot_S32768x384_S384x128_S32768x128_1_0_0_1_n_n_wf : DotDims.WF S32768x384 S384x128 S32768x128 [1] [0] [0] [1] [] []
  dot_S32768x384_S384x64_S32768x64_1_0_0_1_n_n_wf : DotDims.WF S32768x384 S384x64 S32768x64 [1] [0] [0] [1] [] []
  dot_S32768x64_S64x1_S32768x1_1_0_0_1_n_n_wf : DotDims.WF S32768x64 S64x1 S32768x1 [1] [0] [0] [1] [] []

variable [Facts₀]

def dot_S512x512_S512x4160_S512x4160_1_0_0_1_n_n : DotDims S512x512 S512x4160 S512x4160 where
  lhsContracting := [1]
  rhsContracting := [0]
  lhsNonContracting := [0]
  rhsNonContracting := [1]
  lhsBatch := []
  rhsBatch := []
  wf := dot_S512x512_S512x4160_S512x4160_1_0_0_1_n_n_wf
def dot_S32768x195_S195x128_S32768x128_1_0_0_1_n_n : DotDims S32768x195 S195x128 S32768x128 where
  lhsContracting := [1]
  rhsContracting := [0]
  lhsNonContracting := [0]
  rhsNonContracting := [1]
  lhsBatch := []
  rhsBatch := []
  wf := dot_S32768x195_S195x128_S32768x128_1_0_0_1_n_n_wf
def dot_S32768x195_S195x64_S32768x64_1_0_0_1_n_n : DotDims S32768x195 S195x64 S32768x64 where
  lhsContracting := [1]
  rhsContracting := [0]
  lhsNonContracting := [0]
  rhsNonContracting := [1]
  lhsBatch := []
  rhsBatch := []
  wf := dot_S32768x195_S195x64_S32768x64_1_0_0_1_n_n_wf
def dot_S512x512_S512x8192_S512x8192_1_0_0_1_n_n : DotDims S512x512 S512x8192 S512x8192 where
  lhsContracting := [1]
  rhsContracting := [0]
  lhsNonContracting := [0]
  rhsNonContracting := [1]
  lhsBatch := []
  rhsBatch := []
  wf := dot_S512x512_S512x8192_S512x8192_1_0_0_1_n_n_wf
def dot_S32768x384_S384x128_S32768x128_1_0_0_1_n_n : DotDims S32768x384 S384x128 S32768x128 where
  lhsContracting := [1]
  rhsContracting := [0]
  lhsNonContracting := [0]
  rhsNonContracting := [1]
  lhsBatch := []
  rhsBatch := []
  wf := dot_S32768x384_S384x128_S32768x128_1_0_0_1_n_n_wf
def dot_S32768x384_S384x64_S32768x64_1_0_0_1_n_n : DotDims S32768x384 S384x64 S32768x64 where
  lhsContracting := [1]
  rhsContracting := [0]
  lhsNonContracting := [0]
  rhsNonContracting := [1]
  lhsBatch := []
  rhsBatch := []
  wf := dot_S32768x384_S384x64_S32768x64_1_0_0_1_n_n_wf
def dot_S32768x64_S64x1_S32768x1_1_0_0_1_n_n : DotDims S32768x64 S64x1 S32768x1 where
  lhsContracting := [1]
  rhsContracting := [0]
  lhsNonContracting := [0]
  rhsNonContracting := [1]
  lhsBatch := []
  rhsBatch := []
  wf := dot_S32768x64_S64x1_S32768x1_1_0_0_1_n_n_wf

class Facts : Prop extends Facts₀ where

variable [Facts]
-- ==== Proof.KernelIdealH.Run0.lean ====
import proofs.«134251_g19069654794669_cont_sun_m_30_29_alg».proof.Proof.Gen.KernelIdeal.Launch
import proofs.«134251_g19069654794669_cont_sun_m_30_29_alg».proof.Proof.Gen.KernelIdeal.Skeleton
import proofs.«134251_g19069654794669_cont_sun_m_30_29_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.FrameH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Blocks

abbrev VO0_11 : View sig .tc .vmem S512x512 .f32 := (Memref.whole cc0_stg11_0 : Memref sig .tc .vmem S512x512 .f32).view
abbrev VO0_12 : View sig .tc .vmem S64x512 .f32 := (Memref.whole cc0_stg12_0 : Memref sig .tc .vmem S64x512 .f32).view
abbrev VO0_13 : View sig .tc .vmem S64x512 .f32 := (Memref.whole cc0_stg13_0 : Memref sig .tc .vmem S64x512 .f32).view
abbrev VO0_14 : View sig .tc .vmem S6x256 .f32 := (Memref.whole cc0_stg14_0 : Memref sig .tc .vmem S6x256 .f32).view
abbrev VO0_15 : View sig .tc .vmem S3x128x256 .f32 := (Memref.whole cc0_stg15_0 : Memref sig .tc .vmem S3x128x256 .f32).view
abbrev VO0_16 : View sig .tc .vmem S1x256 .f32 := (Memref.whole cc0_stg16_0 : Memref sig .tc .vmem S1x256 .f32).view
abbrev VO0_17 : View sig .tc .vmem S6x128 .f32 := (Memref.whole cc0_stg17_0 : Memref sig .tc .vmem S6x128 .f32).view
abbrev VO0_18 : View sig .tc .vmem S3x128x128 .f32 := (Memref.whole cc0_stg18_0 : Memref sig .tc .vmem S3x128x128 .f32).view
abbrev VO0_19 : View sig .tc .vmem S1x128 .f32 := (Memref.whole cc0_stg19_0 : Memref sig .tc .vmem S1x128 .f32).view
abbrev VO0_20 : View sig .tc .vmem S3x128x256 .f32 := (Memref.whole cc0_stg20_0 : Memref sig .tc .vmem S3x128x256 .f32).view
abbrev VO0_21 : View sig .tc .vmem S3x128x256 .f32 := (Memref.whole cc0_stg21_0 : Memref sig .tc .vmem S3x128x256 .f32).view
abbrev VO0_22 : View sig .tc .vmem S1x256 .f32 := (Memref.whole cc0_stg22_0 : Memref sig .tc .vmem S1x256 .f32).view
abbrev VO0_23 : View sig .tc .vmem S3x128x128 .f32 := (Memref.whole cc0_stg23_0 : Memref sig .tc .vmem S3x128x128 .f32).view
abbrev VO0_24 : View sig .tc .vmem S3x128x128 .f32 := (Memref.whole cc0_stg24_0 : Memref sig .tc .vmem S3x128x128 .f32).view
abbrev VO0_25 : View sig .tc .vmem S1x128 .f32 := (Memref.whole cc0_stg25_0 : Memref sig .tc .vmem S1x128 .f32).view
abbrev VO0_26 : View sig .tc .vmem S128x2 .f32 := (Memref.whole cc0_stg26_0 : Memref sig .tc .vmem S128x2 .f32).view

abbrev ms0_0 (t : Fin cfg0.N) : Memref sig .tc .vmem S512x512 .f32 := win0_0.stage (cfg0.slots t 0)
abbrev hs0_0 (t : Fin cfg0.N) : (ms0_0 t).IsWhole := hstage0_0 0
abbrev ms0_1 (t : Fin cfg0.N) : Memref sig .tc .vmem S64x512 .f32 := win0_1.stage (cfg0.slots t 1)
abbrev hs0_1 (t : Fin cfg0.N) : (ms0_1 t).IsWhole := hstage0_1 0
abbrev ms0_2 (t : Fin cfg0.N) : Memref sig .tc .vmem S3x65x128 .f32 := win0_2.stage (cfg0.slots t 2)
abbrev hs0_2 (t : Fin cfg0.N) : (ms0_2 t).IsWhole := hstage0_2 0
abbrev ms0_3 (t : Fin cfg0.N) : Memref sig .tc .vmem S3x65x64 .f32 := win0_3.stage (cfg0.slots t 3)
abbrev hs0_3 (t : Fin cfg0.N) : (ms0_3 t).IsWhole := hstage0_3 0
abbrev ms0_4 (t : Fin cfg0.N) : Memref sig .tc .vmem S3x128x128 .f32 := win0_4.stage (cfg0.slots t 4)
abbrev hs0_4 (t : Fin cfg0.N) : (ms0_4 t).IsWhole := hstage0_4 0
abbrev ms0_5 (t : Fin cfg0.N) : Memref sig .tc .vmem S3x128x64 .f32 := win0_5.stage (cfg0.slots t 5)
abbrev hs0_5 (t : Fin cfg0.N) : (ms0_5 t).IsWhole := hstage0_5 0
abbrev ms0_6 (t : Fin cfg0.N) : Memref sig .tc .vmem S1x128 .f32 := win0_6.stage (cfg0.slots t 6)
abbrev hs0_6 (t : Fin cfg0.N) : (ms0_6 t).IsWhole := hstage0_6 0
abbrev ms0_7 (t : Fin cfg0.N) : Memref sig .tc .vmem S1x64 .f32 := win0_7.stage (cfg0.slots t 7)
abbrev hs0_7 (t : Fin cfg0.N) : (ms0_7 t).IsWhole := hstage0_7 0
abbrev ms0_8 (t : Fin cfg0.N) : Memref sig .tc .vmem S1x128 .f32 := win0_8.stage (cfg0.slots t 8)
abbrev hs0_8 (t : Fin cfg0.N) : (ms0_8 t).IsWhole := hstage0_8 0
abbrev ms0_9 (t : Fin cfg0.N) : Memref sig .tc .vmem S1x64 .f32 := win0_9.stage (cfg0.slots t 9)
abbrev hs0_9 (t : Fin cfg0.N) : (ms0_9 t).IsWhole := hstage0_9 0
abbrev ms0_10 (t : Fin cfg0.N) : Memref sig .tc .vmem S64x1 .f32 := win0_10.stage (cfg0.slots t 10)
abbrev hs0_10 (t : Fin cfg0.N) : (ms0_10 t).IsWhole := hstage0_10 0
abbrev ms0_11 (t : Fin cfg0.N) : Memref sig .tc .vmem S512x512 .f32 := win0_11.stage (cfg0.slots t 11)
abbrev hs0_11 (t : Fin cfg0.N) : (ms0_11 t).IsWhole := hstage0_11 0
abbrev ms0_12 (t : Fin cfg0.N) : Memref sig .tc .vmem S64x512 .f32 := win0_12.stage (cfg0.slots t 12)
abbrev hs0_12 (t : Fin cfg0.N) : (ms0_12 t).IsWhole := hstage0_12 0
abbrev ms0_13 (t : Fin cfg0.N) : Memref sig .tc .vmem S64x512 .f32 := win0_13.stage (cfg0.slots t 13)
abbrev hs0_13 (t : Fin cfg0.N) : (ms0_13 t).IsWhole := hstage0_13 0
abbrev ms0_14 (t : Fin cfg0.N) : Memref sig .tc .vmem S6x256 .f32 := win0_14.stage (cfg0.slots t 14)
abbrev hs0_14 (t : Fin cfg0.N) : (ms0_14 t).IsWhole := hstage0_14 0
abbrev ms0_15 (t : Fin cfg0.N) : Memref sig .tc .vmem S3x128x256 .f32 := win0_15.stage (cfg0.slots t 15)
abbrev hs0_15 (t : Fin cfg0.N) : (ms0_15 t).IsWhole := hstage0_15 0
abbrev ms0_16 (t : Fin cfg0.N) : Memref sig .tc .vmem S1x256 .f32 := win0_16.stage (cfg0.slots t 16)
abbrev hs0_16 (t : Fin cfg0.N) : (ms0_16 t).IsWhole := hstage0_16 0
abbrev ms0_17 (t : Fin cfg0.N) : Memref sig .tc .vmem S6x128 .f32 := win0_17.stage (cfg0.slots t 17)
abbrev hs0_17 (t : Fin cfg0.N) : (ms0_17 t).IsWhole := hstage0_17 0
abbrev ms0_18 (t : Fin cfg0.N) : Memref sig .tc .vmem S3x128x128 .f32 := win0_18.stage (cfg0.slots t 18)
abbrev hs0_18 (t : Fin cfg0.N) : (ms0_18 t).IsWhole := hstage0_18 0
abbrev ms0_19 (t : Fin cfg0.N) : Memref sig .tc .vmem S1x128 .f32 := win0_19.stage (cfg0.slots t 19)
abbrev hs0_19 (t : Fin cfg0.N) : (ms0_19 t).IsWhole := hstage0_19 0
abbrev ms0_20 (t : Fin cfg0.N) : Memref sig .tc .vmem S3x128x256 .f32 := win0_20.stage (cfg0.slots t 20)
abbrev hs0_20 (t : Fin cfg0.N) : (ms0_20 t).IsWhole := hstage0_20 0
abbrev ms0_21 (t : Fin cfg0.N) : Memref sig .tc .vmem S3x128x256 .f32 := win0_21.stage (cfg0.slots t 21)
abbrev hs0_21 (t : Fin cfg0.N) : (ms0_21 t).IsWhole := hstage0_21 0
abbrev ms0_22 (t : Fin cfg0.N) : Memref sig .tc .vmem S1x256 .f32 := win0_22.stage (cfg0.slots t 22)
abbrev hs0_22 (t : Fin cfg0.N) : (ms0_22 t).IsWhole := hstage0_22 0
abbrev ms0_23 (t : Fin cfg0.N) : Memref sig .tc .vmem S3x128x128 .f32 := win0_23.stage (cfg0.slots t 23)
abbrev hs0_23 (t : Fin cfg0.N) : (ms0_23 t).IsWhole := hstage0_23 0
abbrev ms0_24 (t : Fin cfg0.N) : Memref sig .tc .vmem S3x128x128 .f32 := win0_24.stage (cfg0.slots t 24)
abbrev hs0_24 (t : Fin cfg0.N) : (ms0_24 t).IsWhole := hstage0_24 0
abbrev ms0_25 (t : Fin cfg0.N) : Memref sig .tc .vmem S1x128 .f32 := win0_25.stage (cfg0.slots t 25)
abbrev hs0_25 (t : Fin cfg0.N) : (ms0_25 t).IsWhole := hstage0_25 0
abbrev ms0_26 (t : Fin cfg0.N) : Memref sig .tc .vmem S128x2 .f32 := win0_26.stage (cfg0.slots t 26)
abbrev hs0_26 (t : Fin cfg0.N) : (ms0_26 t).IsWhole := hstage0_26 0

set_option maxHeartbeats 4000000 in

noncomputable def kernelRun0 (c : Dev nD) (arg0 : Memref sig .tc .vmem S512x512 .f32) (harg0 : arg0.IsWhole) (arg1 : Memref sig .tc .vmem S64x512 .f32) (harg1 : arg1.IsWhole) (arg2 : Memref sig .tc .vmem S3x65x128 .f32) (harg2 : arg2.IsWhole) (arg3 : Memref sig .tc .vmem S3x65x64 .f32) (harg3 : arg3.IsWhole) (arg4 : Memref sig .tc .vmem S3x128x128 .f32) (harg4 : arg4.IsWhole) (arg5 : Memref sig .tc .vmem S3x128x64 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S512x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S6x256 .f32) (harg14 : arg14.IsWhole) (arg15 : Memref sig .tc .vmem S3x128x256 .f32) (harg15 : arg15.IsWhole) (arg16 : Memref sig .tc .vmem S1x256 .f32) (harg16 : arg16.IsWhole) (arg17 : Memref sig .tc .vmem S6x128 .f32) (harg17 : arg17.IsWhole) (arg18 : Memref sig .tc .vmem S3x128x128 .f32) (harg18 : arg18.IsWhole) (arg19 : Memref sig .tc .vmem S1x128 .f32) (harg19 : arg19.IsWhole) (arg20 : Memref sig .tc .vmem S3x128x256 .f32) (harg20 : arg20.IsWhole) (arg21 : Memref sig .tc .vmem S3x128x256 .f32) (harg21 : arg21.IsWhole) (arg22 : Memref sig .tc .vmem S1x256 .f32) (harg22 : arg22.IsWhole) (arg23 : Memref sig .tc .vmem S3x128x128 .f32) (harg23 : arg23.IsWhole) (arg24 : Memref sig .tc .vmem S3x128x128 .f32) (harg24 : arg24.IsWhole) (arg25 : Memref sig .tc .vmem S1x128 .f32) (harg25 : arg25.IsWhole) (arg26 : Memref sig .tc .vmem S128x2 .f32) (harg26 : arg26.IsWhole)
    (x0 : Vec F S512x512 .f32) (x1 : Vec F S64x512 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    Σ' (L11 : List (View.Piece (Elt F) S512x512 .f32)), Σ' (L12 : List (View.Piece (Elt F) S64x512 .f32)), Σ' (L13 : List (View.Piece (Elt F) S64x512 .f32)), Σ' (L14 : List (View.Piece (Elt F) S6x256 .f32)), Σ' (L15 : List (View.Piece (Elt F) S3x128x256 .f32)), Σ' (L16 : List (View.Piece (Elt F) S1x256 .f32)), Σ' (L17 : List (View.Piece (Elt F) S6x128 .f32)), Σ' (L18 : List (View.Piece (Elt F) S3x128x128 .f32)), Σ' (L19 : List (View.Piece (Elt F) S1x128 .f32)), Σ' (L20 : List (View.Piece (Elt F) S3x128x256 .f32)), Σ' (L21 : List (View.Piece (Elt F) S3x128x256 .f32)), Σ' (L22 : List (View.Piece (Elt F) S1x256 .f32)), Σ' (L23 : List (View.Piece (Elt F) S3x128x128 .f32)), Σ' (L24 : List (View.Piece (Elt F) S3x128x128 .f32)), Σ' (L25 : List (View.Piece (Elt F) S1x128 .f32)), { L26 : List (View.Piece (Elt F) S128x2 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
                ∗ (∃ f, arg11.view.loc (c : Thread nD τ) ↦[arg11.view.set]{fullShare} arg11.view.writes (Elt F) f L11)
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)
                ∗ (∃ f, arg14.view.loc (c : Thread nD τ) ↦[arg14.view.set]{fullShare} arg14.view.writes (Elt F) f L14)
                ∗ (∃ f, arg15.view.loc (c : Thread nD τ) ↦[arg15.view.set]{fullShare} arg15.view.writes (Elt F) f L15)
                ∗ (∃ f, arg16.view.loc (c : Thread nD τ) ↦[arg16.view.set]{fullShare} arg16.view.writes (Elt F) f L16)
                ∗ (∃ f, arg17.view.loc (c : Thread nD τ) ↦[arg17.view.set]{fullShare} arg17.view.writes (Elt F) f L17)
                ∗ (∃ f, arg18.view.loc (c : Thread nD τ) ↦[arg18.view.set]{fullShare} arg18.view.writes (Elt F) f L18)
                ∗ (∃ f, arg19.view.loc (c : Thread nD τ) ↦[arg19.view.set]{fullShare} arg19.view.writes (Elt F) f L19)
                ∗ (∃ f, arg20.view.loc (c : Thread nD τ) ↦[arg20.view.set]{fullShare} arg20.view.writes (Elt F) f L20)
                ∗ (∃ f, arg21.view.loc (c : Thread nD τ) ↦[arg21.view.set]{fullShare} arg21.view.writes (Elt F) f L21)
                ∗ (∃ f, arg22.view.loc (c : Thread nD τ) ↦[arg22.view.set]{fullShare} arg22.view.writes (Elt F) f L22)
                ∗ (∃ f, arg23.view.loc (c : Thread nD τ) ↦[arg23.view.set]{fullShare} arg23.view.writes (Elt F) f L23)
                ∗ (∃ f, arg24.view.loc (c : Thread nD τ) ↦[arg24.view.set]{fullShare} arg24.view.writes (Elt F) f L24)
                ∗ (∃ f, arg25.view.loc (c : Thread nD τ) ↦[arg25.view.set]{fullShare} arg25.view.writes (Elt F) f L25)
                ∗ (∃ f, arg26.view.loc (c : Thread nD τ) ↦[arg26.view.set]{fullShare} arg26.view.writes (Elt F) f L26)) -∗ K ⟨⟩))
          ⊢ wp frame (wpE (defs₀ (F := F)) Variants.none c none) E (cc0__prep_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, ?_, ?_, ?_, ?_, ?_, ?_, ?_, fun E K => ?run⟩
  case run =>
    simp only [cc0__prep_kernel_eq_skeleton]; unfold cc0__prep_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26

end Cert.KernelIdeal.FrameH

end
-- ==== Proof.KernelIdealH.Region0.lean ====
import proofs.«134251_g19069654794669_cont_sun_m_30_29_alg».proof.Proof.KernelIdealH.Run0

set_option maxRecDepth 16384

noncomputable section

namespace Cert.KernelIdeal.FrameH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section BeforeOf
variable (V : (c : Dev nD) → (b : Ref sig .tc) → Buf (Elt F) ((c : Thread nD τ).loc b))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

end BeforeOf

section Outs
variable (c : Dev nD) (arg0 : Memref sig .tc .vmem S512x512 .f32) (harg0 : arg0.IsWhole) (arg1 : Memref sig .tc .vmem S64x512 .f32) (harg1 : arg1.IsWhole) (arg2 : Memref sig .tc .vmem S3x65x128 .f32) (harg2 : arg2.IsWhole) (arg3 : Memref sig .tc .vmem S3x65x64 .f32) (harg3 : arg3.IsWhole) (arg4 : Memref sig .tc .vmem S3x128x128 .f32) (harg4 : arg4.IsWhole) (arg5 : Memref sig .tc .vmem S3x128x64 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S512x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S6x256 .f32) (harg14 : arg14.IsWhole) (arg15 : Memref sig .tc .vmem S3x128x256 .f32) (harg15 : arg15.IsWhole) (arg16 : Memref sig .tc .vmem S1x256 .f32) (harg16 : arg16.IsWhole) (arg17 : Memref sig .tc .vmem S6x128 .f32) (harg17 : arg17.IsWhole) (arg18 : Memref sig .tc .vmem S3x128x128 .f32) (harg18 : arg18.IsWhole) (arg19 : Memref sig .tc .vmem S1x128 .f32) (harg19 : arg19.IsWhole) (arg20 : Memref sig .tc .vmem S3x128x256 .f32) (harg20 : arg20.IsWhole) (arg21 : Memref sig .tc .vmem S3x128x256 .f32) (harg21 : arg21.IsWhole) (arg22 : Memref sig .tc .vmem S1x256 .f32) (harg22 : arg22.IsWhole) (arg23 : Memref sig .tc .vmem S3x128x128 .f32) (harg23 : arg23.IsWhole) (arg24 : Memref sig .tc .vmem S3x128x128 .f32) (harg24 : arg24.IsWhole) (arg25 : Memref sig .tc .vmem S1x128 .f32) (harg25 : arg25.IsWhole) (arg26 : Memref sig .tc .vmem S128x2 .f32) (harg26 : arg26.IsWhole)
    (x0 : Vec F S512x512 .f32) (x1 : Vec F S64x512 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32)

local notation "run₀" => kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10

theorem cover0_11 (y : S512x512.Idx) : ∃ pc ∈ (run₀).1, y ∈ pc.1.set :=
  View.cover_of_tiledL (run₀).1 S512x512.size (by sl_kernel_rfl) y

def out0_11 : Vec F S512x512 .f32 :=
  VO0_11.read (Elt F) (VO0_11.writes (Elt F) VO0_11.junk (run₀).1)

theorem cover0_12 (y : S64x512.Idx) : ∃ pc ∈ (run₀).2.1, y ∈ pc.1.set :=
  View.cover_of_tiledL (run₀).2.1 S64x512.size (by sl_kernel_rfl) y

def out0_12 : Vec F S64x512 .f32 :=
  VO0_12.read (Elt F) (VO0_12.writes (Elt F) VO0_12.junk (run₀).2.1)

theorem cover0_13 (y : S64x512.Idx) : ∃ pc ∈ (run₀).2.2.1, y ∈ pc.1.set :=
  View.cover_of_tiledL (run₀).2.2.1 S64x512.size (by sl_kernel_rfl) y

def out0_13 : Vec F S64x512 .f32 :=
  VO0_13.read (Elt F) (VO0_13.writes (Elt F) VO0_13.junk (run₀).2.2.1)

theorem cover0_14 (y : S6x256.Idx) : ∃ pc ∈ (run₀).2.2.2.1, y ∈ pc.1.set :=
  View.cover_of_wholeMem (run₀).2.2.2.1 (by sl_whole_mem) y

def out0_14 : Vec F S6x256 .f32 :=
  VO0_14.read (Elt F) (VO0_14.writes (Elt F) VO0_14.junk (run₀).2.2.2.1)

theorem cover0_15 (y : S3x128x256.Idx) : ∃ pc ∈ (run₀).2.2.2.2.1, y ∈ pc.1.set :=
  View.cover_of_wholeMem (run₀).2.2.2.2.1 (by sl_whole_mem) y

def out0_15 : Vec F S3x128x256 .f32 :=
  VO0_15.read (Elt F) (VO0_15.writes (Elt F) VO0_15.junk (run₀).2.2.2.2.1)

theorem cover0_16 (y : S1x256.Idx) : ∃ pc ∈ (run₀).2.2.2.2.2.1, y ∈ pc.1.set :=
  View.cover_of_tiledL (run₀).2.2.2.2.2.1 S1x64.size (by sl_kernel_rfl) y

def out0_16 : Vec F S1x256 .f32 :=
  VO0_16.read (Elt F) (VO0_16.writes (Elt F) VO0_16.junk (run₀).2.2.2.2.2.1)

theorem cover0_17 (y : S6x128.Idx) : ∃ pc ∈ (run₀).2.2.2.2.2.2.1, y ∈ pc.1.set :=
  View.cover_of_wholeMem (run₀).2.2.2.2.2.2.1 (by sl_whole_mem) y

def out0_17 : Vec F S6x128 .f32 :=
  VO0_17.read (Elt F) (VO0_17.writes (Elt F) VO0_17.junk (run₀).2.2.2.2.2.2.1)

theorem cover0_18 (y : S3x128x128.Idx) : ∃ pc ∈ (run₀).2.2.2.2.2.2.2.1, y ∈ pc.1.set :=
  View.cover_of_wholeMem (run₀).2.2.2.2.2.2.2.1 (by sl_whole_mem) y

def out0_18 : Vec F S3x128x128 .f32 :=
  VO0_18.read (Elt F) (VO0_18.writes (Elt F) VO0_18.junk (run₀).2.2.2.2.2.2.2.1)

theorem cover0_19 (y : S1x128.Idx) : ∃ pc ∈ (run₀).2.2.2.2.2.2.2.2.1, y ∈ pc.1.set :=
  View.cover_of_tiledL (run₀).2.2.2.2.2.2.2.2.1 S1x64.size (by sl_kernel_rfl) y

def out0_19 : Vec F S1x128 .f32 :=
  VO0_19.read (Elt F) (VO0_19.writes (Elt F) VO0_19.junk (run₀).2.2.2.2.2.2.2.2.1)

theorem cover0_20 (y : S3x128x256.Idx) : ∃ pc ∈ (run₀).2.2.2.2.2.2.2.2.2.1, y ∈ pc.1.set :=
  View.cover_of_wholeMem (run₀).2.2.2.2.2.2.2.2.2.1 (by sl_whole_mem) y

def out0_20 : Vec F S3x128x256 .f32 :=
  VO0_20.read (Elt F) (VO0_20.writes (Elt F) VO0_20.junk (run₀).2.2.2.2.2.2.2.2.2.1)

theorem cover0_21 (y : S3x128x256.Idx) : ∃ pc ∈ (run₀).2.2.2.2.2.2.2.2.2.2.1, y ∈ pc.1.set :=
  View.cover_of_wholeMem (run₀).2.2.2.2.2.2.2.2.2.2.1 (by sl_whole_mem) y

def out0_21 : Vec F S3x128x256 .f32 :=
  VO0_21.read (Elt F) (VO0_21.writes (Elt F) VO0_21.junk (run₀).2.2.2.2.2.2.2.2.2.2.1)

theorem cover0_22 (y : S1x256.Idx) : ∃ pc ∈ (run₀).2.2.2.2.2.2.2.2.2.2.2.1, y ∈ pc.1.set :=
  View.cover_of_tiledL (run₀).2.2.2.2.2.2.2.2.2.2.2.1 S1x64.size (by sl_kernel_rfl) y

def out0_22 : Vec F S1x256 .f32 :=
  VO0_22.read (Elt F) (VO0_22.writes (Elt F) VO0_22.junk (run₀).2.2.2.2.2.2.2.2.2.2.2.1)

theorem cover0_23 (y : S3x128x128.Idx) : ∃ pc ∈ (run₀).2.2.2.2.2.2.2.2.2.2.2.2.1, y ∈ pc.1.set :=
  View.cover_of_wholeMem (run₀).2.2.2.2.2.2.2.2.2.2.2.2.1 (by sl_whole_mem) y

def out0_23 : Vec F S3x128x128 .f32 :=
  VO0_23.read (Elt F) (VO0_23.writes (Elt F) VO0_23.junk (run₀).2.2.2.2.2.2.2.2.2.2.2.2.1)

theorem cover0_24 (y : S3x128x128.Idx) : ∃ pc ∈ (run₀).2.2.2.2.2.2.2.2.2.2.2.2.2.1, y ∈ pc.1.set :=
  View.cover_of_wholeMem (run₀).2.2.2.2.2.2.2.2.2.2.2.2.2.1 (by sl_whole_mem) y

def out0_24 : Vec F S3x128x128 .f32 :=
  VO0_24.read (Elt F) (VO0_24.writes (Elt F) VO0_24.junk (run₀).2.2.2.2.2.2.2.2.2.2.2.2.2.1)

theorem cover0_25 (y : S1x128.Idx) : ∃ pc ∈ (run₀).2.2.2.2.2.2.2.2.2.2.2.2.2.2.1, y ∈ pc.1.set :=
  View.cover_of_tiledL (run₀).2.2.2.2.2.2.2.2.2.2.2.2.2.2.1 S1x64.size (by sl_kernel_rfl) y

def out0_25 : Vec F S1x128 .f32 :=
  VO0_25.read (Elt F) (VO0_25.writes (Elt F) VO0_25.junk (run₀).2.2.2.2.2.2.2.2.2.2.2.2.2.2.1)

theorem cover0_26 (y : S128x2.Idx) : ∃ pc ∈ (run₀).2.2.2.2.2.2.2.2.2.2.2.2.2.2.2.1, y ∈ pc.1.set :=
  View.cover_of_wholeMem (run₀).2.2.2.2.2.2.2.2.2.2.2.2.2.2.2.1 (by sl_whole_mem) y

def out0_26 : Vec F S128x2 .f32 :=
  VO0_26.read (Elt F) (VO0_26.writes (Elt F) VO0_26.junk (run₀).2.2.2.2.2.2.2.2.2.2.2.2.2.2.2.1)

end Outs

section Region
variable (V : (c : Dev nD) → (b : Ref sig .tc) → Buf (Elt F) ((c : Thread nD τ).loc b))

def outsAt0 (c : Dev nD) (t : Fin cfg0.N) :
    Vec F S512x512 .f32 × Vec F S64x512 .f32 × Vec F S64x512 .f32 × Vec F S6x256 .f32 × Vec F S3x128x256 .f32 × Vec F S1x256 .f32 × Vec F S6x128 .f32 × Vec F S3x128x128 .f32 × Vec F S1x128 .f32 × Vec F S3x128x256 .f32 × Vec F S3x128x256 .f32 × Vec F S1x256 .f32 × Vec F S3x128x128 .f32 × Vec F S3x128x128 .f32 × Vec F S1x128 .f32 × Vec F S128x2 .f32 :=
  (out0_11 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_12 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_13 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_14 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_15 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_16 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_17 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_18 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_19 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_20 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_21 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_22 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_23 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_24 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_25 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t),
   out0_26 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => (outsAt0 V c t).1
    | ⟨12, _⟩ => (outsAt0 V c t).2.1
    | ⟨13, _⟩ => (outsAt0 V c t).2.2.1
    | ⟨14, _⟩ => (outsAt0 V c t).2.2.2.1
    | ⟨15, _⟩ => (outsAt0 V c t).2.2.2.2.1
    | ⟨16, _⟩ => (outsAt0 V c t).2.2.2.2.2.1
    | ⟨17, _⟩ => (outsAt0 V c t).2.2.2.2.2.2.1
    | ⟨18, _⟩ => (outsAt0 V c t).2.2.2.2.2.2.2.1
    | ⟨19, _⟩ => (outsAt0 V c t).2.2.2.2.2.2.2.2.1
    | ⟨20, _⟩ => (outsAt0 V c t).2.2.2.2.2.2.2.2.2.1
    | ⟨21, _⟩ => (outsAt0 V c t).2.2.2.2.2.2.2.2.2.2.1
    | ⟨22, _⟩ => (outsAt0 V c t).2.2.2.2.2.2.2.2.2.2.2.1
    | ⟨23, _⟩ => (outsAt0 V c t).2.2.2.2.2.2.2.2.2.2.2.2.1
    | ⟨24, _⟩ => (outsAt0 V c t).2.2.2.2.2.2.2.2.2.2.2.2.2.1
    | ⟨25, _⟩ => (outsAt0 V c t).2.2.2.2.2.2.2.2.2.2.2.2.2.2.1
    | ⟨26, _⟩ => (outsAt0 V c t).2.2.2.2.2.2.2.2.2.2.2.2.2.2.2
    | ⟨_ + 27, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = (outsAt0 V c t).1 := by dsimp only [dat0]
theorem after0_12 (c : Dev nD) (t : Fin cfg0.N) : (dat0 V c).after 12 t = (outsAt0 V c t).2.1 := by dsimp only [dat0]
theorem after0_13 (c : Dev nD) (t : Fin cfg0.N) : (dat0 V c).after 13 t = (outsAt0 V c t).2.2.1 := by dsimp only [dat0]
theorem after0_14 (c : Dev nD) (t : Fin cfg0.N) : (dat0 V c).after 14 t = (outsAt0 V c t).2.2.2.1 := by dsimp only [dat0]
theorem after0_15 (c : Dev nD) (t : Fin cfg0.N) : (dat0 V c).after 15 t = (outsAt0 V c t).2.2.2.2.1 := by dsimp only [dat0]
theorem after0_16 (c : Dev nD) (t : Fin cfg0.N) : (dat0 V c).after 16 t = (outsAt0 V c t).2.2.2.2.2.1 := by dsimp only [dat0]
theorem after0_17 (c : Dev nD) (t : Fin cfg0.N) : (dat0 V c).after 17 t = (outsAt0 V c t).2.2.2.2.2.2.1 := by dsimp only [dat0]
theorem after0_18 (c : Dev nD) (t : Fin cfg0.N) : (dat0 V c).after 18 t = (outsAt0 V c t).2.2.2.2.2.2.2.1 := by dsimp only [dat0]
theorem after0_19 (c : Dev nD) (t : Fin cfg0.N) : (dat0 V c).after 19 t = (outsAt0 V c t).2.2.2.2.2.2.2.2.1 := by dsimp only [dat0]
theorem after0_20 (c : Dev nD) (t : Fin cfg0.N) : (dat0 V c).after 20 t = (outsAt0 V c t).2.2.2.2.2.2.2.2.2.1 := by dsimp only [dat0]
theorem after0_21 (c : Dev nD) (t : Fin cfg0.N) : (dat0 V c).after 21 t = (outsAt0 V c t).2.2.2.2.2.2.2.2.2.2.1 := by dsimp only [dat0]
theorem after0_22 (c : Dev nD) (t : Fin cfg0.N) : (dat0 V c).after 22 t = (outsAt0 V c t).2.2.2.2.2.2.2.2.2.2.2.1 := by dsimp only [dat0]
theorem after0_23 (c : Dev nD) (t : Fin cfg0.N) : (dat0 V c).after 23 t = (outsAt0 V c t).2.2.2.2.2.2.2.2.2.2.2.2.1 := by dsimp only [dat0]
theorem after0_24 (c : Dev nD) (t : Fin cfg0.N) : (dat0 V c).after 24 t = (outsAt0 V c t).2.2.2.2.2.2.2.2.2.2.2.2.2.1 := by dsimp only [dat0]
theorem after0_25 (c : Dev nD) (t : Fin cfg0.N) : (dat0 V c).after 25 t = (outsAt0 V c t).2.2.2.2.2.2.2.2.2.2.2.2.2.2.1 := by dsimp only [dat0]
theorem after0_26 (c : Dev nD) (t : Fin cfg0.N) : (dat0 V c).after 26 t = (outsAt0 V c t).2.2.2.2.2.2.2.2.2.2.2.2.2.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d))
    ∗ (∃ d, owns (c : Thread nD τ) (ms0_18 t) fullShare ((dat0 V c).before 18 t d))
    ∗ (∃ d, owns (c : Thread nD τ) (ms0_19 t) fullShare ((dat0 V c).before 19 t d))
    ∗ (∃ d, owns (c : Thread nD τ) (ms0_20 t) fullShare ((dat0 V c).before 20 t d))
    ∗ (∃ d, owns (c : Thread nD τ) (ms0_21 t) fullShare ((dat0 V c).before 21 t d))
    ∗ (∃ d, owns (c : Thread nD τ) (ms0_22 t) fullShare ((dat0 V c).before 22 t d))
    ∗ (∃ d, owns (c : Thread nD τ) (ms0_23 t) fullShare ((dat0 V c).before 23 t d))
    ∗ (∃ d, owns (c : Thread nD τ) (ms0_24 t) fullShare ((dat0 V c).before 24 t d))
    ∗ (∃ d, owns (c : Thread nD τ) (ms0_25 t) fullShare ((dat0 V c).before 25 t d))
    ∗ (∃ d, owns (c : Thread nD τ) (ms0_26 t) fullShare ((dat0 V c).before 26 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t)
    ∗ owns (c : Thread nD τ) (ms0_16 t) fullShare ((dat0 V c).after 16 t)
    ∗ owns (c : Thread nD τ) (ms0_17 t) fullShare ((dat0 V c).after 17 t)
    ∗ owns (c : Thread nD τ) (ms0_18 t) fullShare ((dat0 V c).after 18 t)
    ∗ owns (c : Thread nD τ) (ms0_19 t) fullShare ((dat0 V c).after 19 t)
    ∗ owns (c : Thread nD τ) (ms0_20 t) fullShare ((dat0 V c).after 20 t)
    ∗ owns (c : Thread nD τ) (ms0_21 t) fullShare ((dat0 V c).after 21 t)
    ∗ owns (c : Thread nD τ) (ms0_22 t) fullShare ((dat0 V c).after 22 t)
    ∗ owns (c : Thread nD τ) (ms0_23 t) fullShare ((dat0 V c).after 23 t)
    ∗ owns (c : Thread nD τ) (ms0_24 t) fullShare ((dat0 V c).after 24 t)
    ∗ owns (c : Thread nD τ) (ms0_25 t) fullShare ((dat0 V c).after 25 t)
    ∗ owns (c : Thread nD τ) (ms0_26 t) fullShare ((dat0 V c).after 26 t))

set_option maxHeartbeats 4000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10,
    after0_11, after0_12, after0_13, after0_14, after0_15, after0_16, after0_17, after0_18, after0_19, after0_20,
    after0_21, after0_22, after0_23, after0_24, after0_25, after0_26]
  unfold outsAt0
  dsimp only
  unfold out0_11 out0_12 out0_13 out0_14 out0_15 out0_16 out0_17 out0_18 out0_19 out0_20 out0_21 out0_22 out0_23 out0_24 out0_25 out0_26
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0 c _ _ _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H26
  ipureintro; exact View.read_writes_of_cover _ _ _ _ _ (cover0_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Region

end Cert.KernelIdeal.FrameH

end
-- ==== Proof.KernelIdealH.Run1.lean ====
import proofs.«134251_g19069654794669_cont_sun_m_30_29_alg».proof.Proof.Gen.KernelIdeal.Launch
import proofs.«134251_g19069654794669_cont_sun_m_30_29_alg».proof.Proof.Gen.KernelIdeal.Skeleton
import proofs.«134251_g19069654794669_cont_sun_m_30_29_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.FrameH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev VO1_17 : View sig .tc .vmem S1x2x512 .f32 := (Memref.whole cc1_stg17_0 : Memref sig .tc .vmem S1x2x512 .f32).view
abbrev VO1_18 : View sig .tc .vmem S2x2x512x64 .f32 := (Memref.whole cc1_stg18_0 : Memref sig .tc .vmem S2x2x512x64 .f32).view

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x1x2x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x2x512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3x128x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S6x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S3x128x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S3x128x256 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S3x128x256 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x256 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S3x128x128 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S3x128x128 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x128 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S128x2 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S1x1 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x2x512 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S2x2x512x64 .f32 := win1_18.stage (cfg1.slots t 18)
abbrev hs1_18 (t : Fin cfg1.N) : (ms1_18 t).IsWhole := hstage1_18 ((cfg1.slots t 18).cast nbuf1_18)

set_option maxHeartbeats 4000000 in

noncomputable def kernelRun1 (c : Dev nD) (i : grid1.Coords) (arg1 : Memref sig .tc .vmem S512x512 .f32) (harg1 : arg1.IsWhole) (arg2 : Memref sig .tc .vmem S3x1x2x512 .f32) (harg2 : arg2.IsWhole) (arg3 : Memref sig .tc .vmem S2x2x512x64 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x2x512x64 .f32) (harg19 : arg19.IsWhole)
    (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32) :
    Σ' (L17 : List (View.Piece (Elt F) S1x2x512 .f32)), { L18 : List (View.Piece (Elt F) S2x2x512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; iexact H17
    iexists _; iexact H18

end Cert.KernelIdeal.FrameH

end
-- ==== Proof.KernelIdealH.Region1.lean ====
import proofs.«134251_g19069654794669_cont_sun_m_30_29_alg».proof.Proof.KernelIdealH.Run1

set_option maxRecDepth 16384

noncomputable section

namespace Cert.KernelIdeal.FrameH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)

theorem cover1_17 (c : Dev nD) (i : grid1.Coords) (arg1 : Memref sig .tc .vmem S512x512 .f32) (harg1 : arg1.IsWhole) (arg2 : Memref sig .tc .vmem S3x1x2x512 .f32) (harg2 : arg2.IsWhole) (arg3 : Memref sig .tc .vmem S2x2x512x64 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x2x512x64 .f32) (harg19 : arg19.IsWhole)
    (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32) (y : S1x2x512.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).1 S1x2x512.size (by sl_kernel_rfl) y

theorem cover1_18 (c : Dev nD) (i : grid1.Coords) (arg1 : Memref sig .tc .vmem S512x512 .f32) (harg1 : arg1.IsWhole) (arg2 : Memref sig .tc .vmem S3x1x2x512 .f32) (harg2 : arg2.IsWhole) (arg3 : Memref sig .tc .vmem S2x2x512x64 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x2x512x64 .f32) (harg19 : arg19.IsWhole)
    (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32) (y : S2x2x512x64.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1 S1x1x512x64.size (by sl_kernel_rfl) y

def out1_17 (c : Dev nD) (i : grid1.Coords) (arg1 : Memref sig .tc .vmem S512x512 .f32) (harg1 : arg1.IsWhole) (arg2 : Memref sig .tc .vmem S3x1x2x512 .f32) (harg2 : arg2.IsWhole) (arg3 : Memref sig .tc .vmem S2x2x512x64 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x2x512x64 .f32) (harg19 : arg19.IsWhole)
    (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32) : Vec F S1x2x512 .f32 :=
  VO1_17.read (Elt F) (VO1_17.writes (Elt F) VO1_17.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).1)

def out1_18 (c : Dev nD) (i : grid1.Coords) (arg1 : Memref sig .tc .vmem S512x512 .f32) (harg1 : arg1.IsWhole) (arg2 : Memref sig .tc .vmem S3x1x2x512 .f32) (harg2 : arg2.IsWhole) (arg3 : Memref sig .tc .vmem S2x2x512x64 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x2x512x64 .f32) (harg19 : arg19.IsWhole)
    (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32) : Vec F S2x2x512x64 .f32 :=
  VO1_18.read (Elt F) (VO1_18.writes (Elt F) VO1_18.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1)

def outsAt1 (c : Dev nD) (t : Fin cfg1.N) : Vec F S1x2x512 .f32 × Vec F S2x2x512x64 .f32 :=
  (out1_17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t),
   out1_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => (outsAt1 V c t).1
    | ⟨18, _⟩ => (outsAt1 V c t).2
    | ⟨_ + 19, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = (outsAt1 V c t).1 := by dsimp only [dat1]
theorem after1_18 (c : Dev nD) (t : Fin cfg1.N) : (dat1 V c).after 18 t = (outsAt1 V c t).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t))

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18]
  unfold outsAt1
  dsimp only
  unfold out1_17 out1_18
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun1 c (grid1.coords t) _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, ⟨%e17, H17⟩, ⟨%e18, H18⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover1_17 c _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H18
  ipureintro; exact View.read_writes_of_cover _ _ _ _ _ (cover1_18 c _ _ _ _ _ _ _ _ _ _ _ _ _ _ _ _ _ _ _ _ _ _ _ _ _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region1

end Cert.KernelIdeal.FrameH

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev zero : EReal := Ideal.ofBits .f32 0x00000000#32
abbrev one : EReal := Ideal.ofBits .f32 0x3F800000#32
abbrev two : EReal := Ideal.ofBits .f32 0x40000000#32

structure Args where
  x : (⟨2, ![64, 512]⟩ : Shape).Idx → EReal
  h : (⟨3, ![2, 64, 32768]⟩ : Shape).Idx → EReal
  adj : (⟨2, ![512, 512]⟩ : Shape).Idx → EReal
  wru0 : (⟨2, ![195, 128]⟩ : Shape).Idx → EReal
  bru0 : (⟨1, ![128]⟩ : Shape).Idx → EReal
  wc0 : (⟨2, ![195, 64]⟩ : Shape).Idx → EReal
  bc0 : (⟨1, ![64]⟩ : Shape).Idx → EReal
  wru1 : (⟨2, ![384, 128]⟩ : Shape).Idx → EReal
  bru1 : (⟨1, ![128]⟩ : Shape).Idx → EReal
  wc1 : (⟨2, ![384, 64]⟩ : Shape).Idx → EReal
  bc1 : (⟨1, ![64]⟩ : Shape).Idx → EReal
  wp : (⟨2, ![64, 1]⟩ : Shape).Idx → EReal
  bp : (⟨1, ![1]⟩ : Shape).Idx → EReal

section Support

variable (adj : (⟨2, ![512, 512]⟩ : Shape).Idx → EReal)

def sym (i j : Fin 512) : EReal := max (adj (ix2 i j)) (adj (ix2 j i))

def deg (i : Fin 512) : EReal := ∑ j : Fin 512, sym adj i j

def dis (i : Fin 512) : EReal :=
  Scalar.select (Ideal.cmp .ogt (deg adj i) zero) (Ideal.div one (Ideal.sqrt (deg adj i))) zero

def sup (i j : Fin 512) : EReal := (zero - dis adj i * sym adj i j) * dis adj j

end Support

variable (S : Fin 512 → Fin 512 → EReal)

def diff (g : Fin 512 → EReal) (n : Fin 512) : EReal := ∑ m : Fin 512, S n m * g m

def cheb (k : Fin 3) (g : Fin 512 → EReal) : Fin 512 → EReal :=
  match k with
  | ⟨0, _⟩ => g
  | ⟨1, _⟩ => diff S g
  | ⟨2, _⟩ => fun n => two * diff S (diff S g) n - g n

def feats {ni : Nat} (inp : Fin ni → Fin 512 → EReal) (st : Fin 64 → Fin 512 → EReal) : Fin (ni + 64) → Fin 512 → EReal :=
  Fin.append inp st

def gate {nf no : Nat} (X : Fin nf → Fin 512 → EReal) (W : Fin nf → Fin 3 → Fin no → EReal) (bias : Fin no → EReal)
    (n : Fin 512) (o : Fin no) : EReal :=
  (∑ f : Fin nf, ∑ k : Fin 3, cheb S k (X f) n * W f k o) + bias o

variable {ni : Nat} (inp : Fin ni → Fin 512 → EReal) (hx : Fin 64 → Fin 512 → EReal)
  (Wru : Fin (ni + 64) → Fin 3 → Fin 128 → EReal) (bru : Fin 128 → EReal)
  (Wc : Fin (ni + 64) → Fin 3 → Fin 64 → EReal) (bc : Fin 64 → EReal)

def ruGate (n : Fin 512) (o : Fin 128) : EReal := Ideal.logistic (gate S (feats inp hx) Wru bru n o)

def rGate (u : Fin 64) (n : Fin 512) : EReal := ruGate S inp hx Wru bru n (Fin.castAdd 64 u)

def uGate (u : Fin 64) (n : Fin 512) : EReal := ruGate S inp hx Wru bru n (Fin.natAdd 64 u)

def cand (u : Fin 64) (n : Fin 512) : EReal :=
  Ideal.tanh (gate S (feats inp fun u n => rGate S inp hx Wru bru u n * hx u n) Wc bc n u)

def cell (u : Fin 64) (n : Fin 512) : EReal :=
  uGate S inp hx Wru bru u n * hx u n + (one - uGate S inp hx Wru bru u n) * cand S inp hx Wru bru Wc bc u n

variable (A : Args)

def rows3 {nf no : Nat} (W : (⟨2, ![nf * 3, no]⟩ : Shape).Idx → EReal) (f : Fin nf) (k : Fin 3) (o : Fin no) : EReal :=
  W (ix2 ⟨f.val * 3 + k.val, by have := f.isLt; have := k.isLt; omega⟩ o)

def inp0 (b : Fin 64) : Fin 1 → Fin 512 → EReal := fun _ n => A.x (ix2 b n)

def st (l : Fin 2) (b : Fin 64) : Fin 64 → Fin 512 → EReal :=
  fun u n => A.h (ix3 l b ⟨n.val * 64 + u.val, by have := n.isLt; have := u.isLt; omega⟩)

def h0 (b : Fin 64) : Fin 64 → Fin 512 → EReal :=
  cell (sup A.adj) (ni := 1) (inp0 A b) (st A 0 b) (rows3 (nf := 65) A.wru0) (fun o => A.bru0 (ix1 o))
    (rows3 (nf := 65) A.wc0) (fun o => A.bc0 (ix1 o))

def h1 (b : Fin 64) : Fin 64 → Fin 512 → EReal :=
  cell (sup A.adj) (ni := 64) (h0 A b) (st A 1 b) (rows3 (nf := 128) A.wru1) (fun o => A.bru1 (ix1 o))
    (rows3 (nf := 128) A.wc1) (fun o => A.bc1 (ix1 o))

def out (b : Fin 64) (n : Fin 512) : EReal := (∑ u : Fin 64, h1 A b u n * A.wp (ix2 u 0)) + A.bp (ix1 0)

def hid (l : Fin 2) (b : Fin 64) (q : Fin 32768) : EReal :=
  match l with
  | ⟨0, _⟩ => h0 A b ⟨q.val % 64, Nat.mod_lt _ (by decide)⟩ ⟨q.val / 64, by have := q.isLt; omega⟩
  | ⟨1, _⟩ => h1 A b ⟨q.val % 64, Nat.mod_lt _ (by decide)⟩ ⟨q.val / 64, by have := q.isLt; omega⟩

def res0 : (⟨2, ![64, 512]⟩ : Shape).Idx → EReal :=
  fun i => out A ⟨(i 0).val, (i 0).isLt⟩ ⟨(i 1).val, (i 1).isLt⟩

def res1 : (⟨3, ![2, 64, 32768]⟩ : Shape).Idx → EReal :=
  fun i => hid A ⟨(i 0).val, (i 0).isLt⟩ ⟨(i 1).val, (i 1).isLt⟩ ⟨(i 2).val, (i 2).isLt⟩

end Cert.Spec

end
-- ==== Proof.KVal.Args.lean ====
import proofs.«134251_g19069654794669_cont_sun_m_30_29_alg».proof.Proof.Gen.KernelIdeal
import proofs.«134251_g19069654794669_cont_sun_m_30_29_alg».proof.Proof.Spec

noncomputable section

namespace Cert.KernelIdeal.KVal

open Idealize.ShloMosaic Idealize.ShloMosaic.TcCoe Idealize.SL.Sem Cert.KernelIdeal

abbrev argsOf (m : (ℓ : Loc nD τ sig) → Buf (Elt Ideal) ℓ) (c : Dev nD) : Cert.Spec.Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12)⟩

end Cert.KernelIdeal.KVal

end
-- ==== Proof.KVal.Host0.lean ====
import proofs.«134251_g19069654794669_cont_sun_m_30_29_alg».proof.Proof.Gen.KernelIdeal.Launch
import Idealize.ShloMosaic.Lib.ValueIdx
import Idealize.ShloMosaic.Lib.Pipeline.Value

set_option maxRecDepth 8192

noncomputable section

namespace Cert.KernelIdeal.KVal

open Idealize.ShloMosaic Idealize.ShloMosaic.TcCoe Idealize.SL.Sem Idealize.ShloMosaic.StableHlo
open Cert.KernelIdeal Cert.KernelIdeal.Gen ValueIdx

theorem regroup_apply {nf no : Nat} (x : (⟨2, ![nf * 3, no]⟩ : Shape).Idx → EReal)
    (h1 : (⟨2, ![nf * 3, no]⟩ : Shape).ShapeCasts ⟨3, ![nf, 3, no]⟩)
    (h2 : (⟨3, ![nf, 3, no]⟩ : Shape).Transposes [1, 0, 2] ⟨3, ![3, nf, no]⟩)
    (k : Fin 3) (f : Fin nf) (o : Fin no) (hlt : f.val * 3 + k.val < nf * 3) :
    transpose (⟨3, ![3, nf, no]⟩ : Shape) [1, 0, 2] (shapeCast (⟨3, ![nf, 3, no]⟩ : Shape) x h1) h2 (ix3 k f o)
      = x (ix2 ⟨f.val * 3 + k.val, hlt⟩ o) := by
  rw [transpose_apply [1, 0, 2] _ h2 (ix3 k f o) (ix3 f k o)
    (by intro b; match b with | ⟨0, _⟩ => rfl | ⟨1, _⟩ => rfl | ⟨2, _⟩ => rfl)]
  refine shapeCast_apply x h1 (ix3 f k o) (ix2 ⟨f.val * 3 + k.val, hlt⟩ o) ?_
  rw [Shape.rowMajor_val_two, Shape.rowMajor_val_three]
  rfl

theorem row_apply {n : Nat} (x : (⟨1, ![n]⟩ : Shape).Idx → EReal)
    (h : (⟨1, ![n]⟩ : Shape).ShapeCasts ⟨2, ![1, n]⟩) (o : Fin n) :
    shapeCast (⟨2, ![1, n]⟩ : Shape) x h (ix2 0 o) = x (ix1 o) := by
  refine shapeCast_apply x h (ix2 0 o) (ix1 o) ?_
  rw [Shape.rowMajor_val_one, Shape.rowMajor_val_two]
  show o.val = 0 * n + o.val
  omega

variable (W : Valuation τ sig (Elt Ideal))

theorem host0_v1 (k : Fin 3) (f : Fin 65) (o : Fin 128) :
    StableHlo.after (hostOps0 (F := Ideal)) W (Proc.devRef .tc main_v1) (ix3 k f o)
      = W (Proc.devRef .tc main_arg3) (ix2 ⟨f.val * 3 + k.val, by omega⟩ o) := by
  dsimp only [hostOps0]
  after_results
  exact regroup_apply (nf := 65) (no := 128) _ _ _ k f o _

theorem host0_v3 (k : Fin 3) (f : Fin 65) (o : Fin 64) :
    StableHlo.after (hostOps0 (F := Ideal)) W (Proc.devRef .tc main_v3) (ix3 k f o)
      = W (Proc.devRef .tc main_arg5) (ix2 ⟨f.val * 3 + k.val, by omega⟩ o) := by
  dsimp only [hostOps0]
  after_results
  exact regroup_apply (nf := 65) (no := 64) _ _ _ k f o _

theorem host0_v5 (k : Fin 3) (f : Fin 128) (o : Fin 128) :
    StableHlo.after (hostOps0 (F := Ideal)) W (Proc.devRef .tc main_v5) (ix3 k f o)
      = W (Proc.devRef .tc main_arg7) (ix2 ⟨f.val * 3 + k.val, by omega⟩ o) := by
  dsimp only [hostOps0]
  after_results
  exact regroup_apply (nf := 128) (no := 128) _ _ _ k f o _

theorem host0_v7 (k : Fin 3) (f : Fin 128) (o : Fin 64) :
    StableHlo.after (hostOps0 (F := Ideal)) W (Proc.devRef .tc main_v7) (ix3 k f o)
      = W (Proc.devRef .tc main_arg9) (ix2 ⟨f.val * 3 + k.val, by omega⟩ o) := by
  dsimp only [hostOps0]
  after_results
  exact regroup_apply (nf := 128) (no := 64) _ _ _ k f o _

theorem host0_v8 (o : Fin 128) :
    StableHlo.after (hostOps0 (F := Ideal)) W (Proc.devRef .tc main_v8) (ix2 0 o)
      = W (Proc.devRef .tc main_arg4) (ix1 o) := by
  dsimp only [hostOps0]
  after_results
  exact row_apply (n := 128) _ _ o

theorem host0_v9 (o : Fin 64) :
    StableHlo.after (hostOps0 (F := Ideal)) W (Proc.devRef .tc main_v9) (ix2 0 o)
      = W (Proc.devRef .tc main_arg6) (ix1 o) := by
  dsimp only [hostOps0]
  after_results
  exact row_apply (n := 64) _ _ o

theorem host0_v10 (o : Fin 128) :
    StableHlo.after (hostOps0 (F := Ideal)) W (Proc.devRef .tc main_v10) (ix2 0 o)
      = W (Proc.devRef .tc main_arg8) (ix1 o) := by
  dsimp only [hostOps0]
  after_results
  exact row_apply (n := 128) _ _ o

theorem host0_v11 (o : Fin 64) :
    StableHlo.after (hostOps0 (F := Ideal)) W (Proc.devRef .tc main_v11) (ix2 0 o)
      = W (Proc.devRef .tc main_arg10) (ix1 o) := by
  dsimp only [hostOps0]
  after_results
  exact row_apply (n := 64) _ _ o

theorem host0_arg0 : StableHlo.after (hostOps0 (F := Ideal)) W (Proc.devRef .tc main_arg0) = W (Proc.devRef .tc main_arg0) := by
  dsimp only [hostOps0]
  after_results

theorem host0_arg2 : StableHlo.after (hostOps0 (F := Ideal)) W (Proc.devRef .tc main_arg2) = W (Proc.devRef .tc main_arg2) := by
  dsimp only [hostOps0]
  after_results

theorem host0_arg11 : StableHlo.after (hostOps0 (F := Ideal)) W (Proc.devRef .tc main_arg11) = W (Proc.devRef .tc main_arg11) := by
  dsimp only [hostOps0]
  after_results

end Cert.KernelIdeal.KVal

end
-- ==== Proof.KVal.Prep0.lean ====
import proofs.«134251_g19069654794669_cont_sun_m_30_29_alg».proof.Proof.KernelIdealH.Region0
import Idealize.ShloMosaic.Lib.Pipeline.Value

set_option maxRecDepth 16384

noncomputable section

namespace Cert.KernelIdeal.KVal

open Cert.KernelIdeal Cert.KernelIdeal.Gen Cert.KernelIdeal.FrameH
open Idealize.ShloMosaic Idealize.ShloMosaic.TcCoe Idealize.SL.Sem
open Idealize.ShloMosaic.Pipeline (Dat Cfg Window)

variable {F : FTy → Type} [FloatOps F]

theorem mem_whole_rect {s : Shape} (i : s.Idx) (off sz : Fin s.rank → Nat) (inb : ∀ a, off a + sz a ≤ s.size a)
    (hoff : ∀ a, off a = 0) (hsz : ∀ a, sz a = s.size a) : i ∈ (Rect.unit off sz inb).set := by
  rw [Rect.mem_set_unit]
  intro a
  rw [hoff a, hsz a]
  exact ⟨Nat.zero_le _, by have := (i a).isLt; omega⟩

variable (V : (c : Dev nD) → (b : Ref sig .tc) → Buf (Elt F) ((c : Thread nD τ).loc b))

theorem iblk0_0 (c : Dev nD) (t : Fin cfg0.N) : iblk0 V c 0 t = V c main_arg2 :=
  Memref.read_access_unit_zero (Elt F) main_arg2 (funext fun a => Nat.zero_mul _)
    (fun a => Nat.le_of_eq (by show 0 * _ + _ = _; omega)) (V c main_arg2)

theorem iblk0_1 (c : Dev nD) (t : Fin cfg0.N) : iblk0 V c 1 t = V c main_arg0 :=
  Memref.read_access_unit_zero (Elt F) main_arg0 (funext fun a => Nat.zero_mul _)
    (fun a => Nat.le_of_eq (by show 0 * _ + _ = _; omega)) (V c main_arg0)

theorem iblk0_2 (c : Dev nD) (t : Fin cfg0.N) : iblk0 V c 2 t = V c main_v1 :=
  Memref.read_access_unit_zero (Elt F) main_v1 (funext fun a => Nat.zero_mul _)
    (fun a => Nat.le_of_eq (by show 0 * _ + _ = _; omega)) (V c main_v1)

theorem iblk0_3 (c : Dev nD) (t : Fin cfg0.N) : iblk0 V c 3 t = V c main_v3 :=
  Memref.read_access_unit_zero (Elt F) main_v3 (funext fun a => Nat.zero_mul _)
    (fun a => Nat.le_of_eq (by show 0 * _ + _ = _; omega)) (V c main_v3)

theorem iblk0_4 (c : Dev nD) (t : Fin cfg0.N) : iblk0 V c 4 t = V c main_v5 :=
  Memref.read_access_unit_zero (Elt F) main_v5 (funext fun a => Nat.zero_mul _)
    (fun a => Nat.le_of_eq (by show 0 * _ + _ = _; omega)) (V c main_v5)

theorem iblk0_5 (c : Dev nD) (t : Fin cfg0.N) : iblk0 V c 5 t = V c main_v7 :=
  Memref.read_access_unit_zero (Elt F) main_v7 (funext fun a => Nat.zero_mul _)
    (fun a => Nat.le_of_eq (by show 0 * _ + _ = _; omega)) (V c main_v7)

theorem iblk0_6 (c : Dev nD) (t : Fin cfg0.N) : iblk0 V c 6 t = V c main_v8 :=
  Memref.read_access_unit_zero (Elt F) main_v8 (funext fun a => Nat.zero_mul _)
    (fun a => Nat.le_of_eq (by show 0 * _ + _ = _; omega)) (V c main_v8)

theorem iblk0_7 (c : Dev nD) (t : Fin cfg0.N) : iblk0 V c 7 t = V c main_v9 :=
  Memref.read_access_unit_zero (Elt F) main_v9 (funext fun a => Nat.zero_mul _)
    (fun a => Nat.le_of_eq (by show 0 * _ + _ = _; omega)) (V c main_v9)

theorem iblk0_8 (c : Dev nD) (t : Fin cfg0.N) : iblk0 V c 8 t = V c main_v10 :=
  Memref.read_access_unit_zero (Elt F) main_v10 (funext fun a => Nat.zero_mul _)
    (fun a => Nat.le_of_eq (by show 0 * _ + _ = _; omega)) (V c main_v10)

theorem iblk0_9 (c : Dev nD) (t : Fin cfg0.N) : iblk0 V c 9 t = V c main_v11 :=
  Memref.read_access_unit_zero (Elt F) main_v11 (funext fun a => Nat.zero_mul _)
    (fun a => Nat.le_of_eq (by show 0 * _ + _ = _; omega)) (V c main_v11)

theorem iblk0_10 (c : Dev nD) (t : Fin cfg0.N) : iblk0 V c 10 t = V c main_arg11 :=
  Memref.read_access_unit_zero (Elt F) main_arg11 (funext fun a => Nat.zero_mul _)
    (fun a => Nat.le_of_eq (by show 0 * _ + _ = _; omega)) (V c main_arg11)

variable (c : Dev nD)

local notation "atPoint(" f ")" => f c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (ms0_19 t0_0) (hs0_19 t0_0) (ms0_20 t0_0) (hs0_20 t0_0) (ms0_21 t0_0) (hs0_21 t0_0) (ms0_22 t0_0) (hs0_22 t0_0) (ms0_23 t0_0) (hs0_23 t0_0) (ms0_24 t0_0) (hs0_24 t0_0) (ms0_25 t0_0) (hs0_25 t0_0) (ms0_26 t0_0) (hs0_26 t0_0) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0) (iblk0 V c 9 t0_0) (iblk0 V c 10 t0_0)

theorem arr0_11 : (dat0 V c).arrAt 11 cfg0.N = atPoint(out0_11) :=
  (dat0 V c).arrAt_eq_of_cover 11 _
    (fun t _ => by
      obtain rfl := fin_N0 t
      show (cfg0.win 11).cut (grid0.coords t0_0) ((dat0 V c).after 11 t0_0) = _
      rw [after0_11]
      unfold outsAt0
      dsimp only
      exact (Memref.read_access_unit_zero (Elt F) main_v12_0 (funext fun a => Nat.zero_mul _)
        (fun a => Nat.le_of_eq (by show 0 * _ + _ = _; omega)) (atPoint(out0_11))).symm)
    (fun i => ⟨t0_0, flush0_11 t0_0, by
      show i ∈ ((View.whole main_v12_0).slice (win0_11.rect t0_0)).set
      rw [View.set_slice_whole]
      exact mem_whole_rect i _ _ _ (fun a => Nat.zero_mul _) (fun a => rfl)⟩)
theorem arr0_12 : (dat0 V c).arrAt 12 cfg0.N = atPoint(out0_12) :=
  (dat0 V c).arrAt_eq_of_cover 12 _
    (fun t _ => by
      obtain rfl := fin_N0 t
      show (cfg0.win 12).cut (grid0.coords t0_0) ((dat0 V c).after 12 t0_0) = _
      rw [after0_12]
      unfold outsAt0
      dsimp only
      exact (Memref.read_access_unit_zero (Elt F) main_v12_1 (funext fun a => Nat.zero_mul _)
        (fun a => Nat.le_of_eq (by show 0 * _ + _ = _; omega)) (atPoint(out0_12))).symm)
    (fun i => ⟨t0_0, flush0_12 t0_0, by
      show i ∈ ((View.whole main_v12_1).slice (win0_12.rect t0_0)).set
      rw [View.set_slice_whole]
      exact mem_whole_rect i _ _ _ (fun a => Nat.zero_mul _) (fun a => rfl)⟩)
theorem arr0_13 : (dat0 V c).arrAt 13 cfg0.N = atPoint(out0_13) :=
  (dat0 V c).arrAt_eq_of_cover 13 _
    (fun t _ => by
      obtain rfl := fin_N0 t
      show (cfg0.win 13).cut (grid0.coords t0_0) ((dat0 V c).after 13 t0_0) = _
      rw [after0_13]
      unfold outsAt0
      dsimp only
      exact (Memref.read_access_unit_zero (Elt F) main_v12_2 (funext fun a => Nat.zero_mul _)
        (fun a => Nat.le_of_eq (by show 0 * _ + _ = _; omega)) (atPoint(out0_13))).symm)
    (fun i => ⟨t0_0, flush0_13 t0_0, by
      show i ∈ ((View.whole main_v12_2).slice (win0_13.rect t0_0)).set
      rw [View.set_slice_whole]
      exact mem_whole_rect i _ _ _ (fun a => Nat.zero_mul _) (fun a => rfl)⟩)
theorem arr0_14 : (dat0 V c).arrAt 14 cfg0.N = atPoint(out0_14) :=
  (dat0 V c).arrAt_eq_of_cover 14 _
    (fun t _ => by
      obtain rfl := fin_N0 t
      show (cfg0.win 14).cut (grid0.coords t0_0) ((dat0 V c).after 14 t0_0) = _
      rw [after0_14]
      unfold outsAt0
      dsimp only
      exact (Memref.read_access_unit_zero (Elt F) main_v12_3 (funext fun a => Nat.zero_mul _)
        (fun a => Nat.le_of_eq (by show 0 * _ + _ = _; omega)) (atPoint(out0_14))).symm)
    (fun i => ⟨t0_0, flush0_14 t0_0, by
      show i ∈ ((View.whole main_v12_3).slice (win0_14.rect t0_0)).set
      rw [View.set_slice_whole]
      exact mem_whole_rect i _ _ _ (fun a => Nat.zero_mul _) (fun a => rfl)⟩)
theorem arr0_15 : (dat0 V c).arrAt 15 cfg0.N = atPoint(out0_15) :=
  (dat0 V c).arrAt_eq_of_cover 15 _
    (fun t _ => by
      obtain rfl := fin_N0 t
      show (cfg0.win 15).cut (grid0.coords t0_0) ((dat0 V c).after 15 t0_0) = _
      rw [after0_15]
      unfold outsAt0
      dsimp only
      exact (Memref.read_access_unit_zero (Elt F) main_v12_4 (funext fun a => Nat.zero_mul _)
        (fun a => Nat.le_of_eq (by show 0 * _ + _ = _; omega)) (atPoint(out0_15))).symm)
    (fun i => ⟨t0_0, flush0_15 t0_0, by
      show i ∈ ((View.whole main_v12_4).slice (win0_15.rect t0_0)).set
      rw [View.set_slice_whole]
      exact mem_whole_rect i _ _ _ (fun a => Nat.zero_mul _) (fun a => rfl)⟩)
theorem arr0_16 : (dat0 V c).arrAt 16 cfg0.N = atPoint(out0_16) :=
  (dat0 V c).arrAt_eq_of_cover 16 _
    (fun t _ => by
      obtain rfl := fin_N0 t
      show (cfg0.win 16).cut (grid0.coords t0_0) ((dat0 V c).after 16 t0_0) = _
      rw [after0_16]
      unfold outsAt0
      dsimp only
      exact (Memref.read_access_unit_zero (Elt F) main_v12_5 (funext fun a => Nat.zero_mul _)
        (fun a => Nat.le_of_eq (by show 0 * _ + _ = _; omega)) (atPoint(out0_16))).symm)
    (fun i => ⟨t0_0, flush0_16 t0_0, by
      show i ∈ ((View.whole main_v12_5).slice (win0_16.rect t0_0)).set
      rw [View.set_slice_whole]
      exact mem_whole_rect i _ _ _ (fun a => Nat.zero_mul _) (fun a => rfl)⟩)
theorem arr0_17 : (dat0 V c).arrAt 17 cfg0.N = atPoint(out0_17) :=
  (dat0 V c).arrAt_eq_of_cover 17 _
    (fun t _ => by
      obtain rfl := fin_N0 t
      show (cfg0.win 17).cut (grid0.coords t0_0) ((dat0 V c).after 17 t0_0) = _
      rw [after0_17]
      unfold outsAt0
      dsimp only
      exact (Memref.read_access_unit_zero (Elt F) main_v12_6 (funext fun a => Nat.zero_mul _)
        (fun a => Nat.le_of_eq (by show 0 * _ + _ = _; omega)) (atPoint(out0_17))).symm)
    (fun i => ⟨t0_0, flush0_17 t0_0, by
      show i ∈ ((View.whole main_v12_6).slice (win0_17.rect t0_0)).set
      rw [View.set_slice_whole]
      exact mem_whole_rect i _ _ _ (fun a => Nat.zero_mul _) (fun a => rfl)⟩)
theorem arr0_18 : (dat0 V c).arrAt 18 cfg0.N = atPoint(out0_18) :=
  (dat0 V c).arrAt_eq_of_cover 18 _
    (fun t _ => by
      obtain rfl := fin_N0 t
      show (cfg0.win 18).cut (grid0.coords t0_0) ((dat0 V c).after 18 t0_0) = _
      rw [after0_18]
      unfold outsAt0
      dsimp only
      exact (Memref.read_access_unit_zero (Elt F) main_v12_7 (funext fun a => Nat.zero_mul _)
        (fun a => Nat.le_of_eq (by show 0 * _ + _ = _; omega)) (atPoint(out0_18))).symm)
    (fun i => ⟨t0_0, flush0_18 t0_0, by
      show i ∈ ((View.whole main_v12_7).slice (win0_18.rect t0_0)).set
      rw [View.set_slice_whole]
      exact mem_whole_rect i _ _ _ (fun a => Nat.zero_mul _) (fun a => rfl)⟩)
theorem arr0_19 : (dat0 V c).arrAt 19 cfg0.N = atPoint(out0_19) :=
  (dat0 V c).arrAt_eq_of_cover 19 _
    (fun t _ => by
      obtain rfl := fin_N0 t
      show (cfg0.win 19).cut (grid0.coords t0_0) ((dat0 V c).after 19 t0_0) = _
      rw [after0_19]
      unfold outsAt0
      dsimp only
      exact (Memref.read_access_unit_zero (Elt F) main_v12_8 (funext fun a => Nat.zero_mul _)
        (fun a => Nat.le_of_eq (by show 0 * _ + _ = _; omega)) (atPoint(out0_19))).symm)
    (fun i => ⟨t0_0, flush0_19 t0_0, by
      show i ∈ ((View.whole main_v12_8).slice (win0_19.rect t0_0)).set
      rw [View.set_slice_whole]
      exact mem_whole_rect i _ _ _ (fun a => Nat.zero_mul _) (fun a => rfl)⟩)
theorem arr0_20 : (dat0 V c).arrAt 20 cfg0.N = atPoint(out0_20) :=
  (dat0 V c).arrAt_eq_of_cover 20 _
    (fun t _ => by
      obtain rfl := fin_N0 t
      show (cfg0.win 20).cut (grid0.coords t0_0) ((dat0 V c).after 20 t0_0) = _
      rw [after0_20]
      unfold outsAt0
      dsimp only
      exact (Memref.read_access_unit_zero (Elt F) main_v12_9 (funext fun a => Nat.zero_mul _)
        (fun a => Nat.le_of_eq (by show 0 * _ + _ = _; omega)) (atPoint(out0_20))).symm)
    (fun i => ⟨t0_0, flush0_20 t0_0, by
      show i ∈ ((View.whole main_v12_9).slice (win0_20.rect t0_0)).set
      rw [View.set_slice_whole]
      exact mem_whole_rect i _ _ _ (fun a => Nat.zero_mul _) (fun a => rfl)⟩)
theorem arr0_21 : (dat0 V c).arrAt 21 cfg0.N = atPoint(out0_21) :=
  (dat0 V c).arrAt_eq_of_cover 21 _
    (fun t _ => by
      obtain rfl := fin_N0 t
      show (cfg0.win 21).cut (grid0.coords t0_0) ((dat0 V c).after 21 t0_0) = _
      rw [after0_21]
      unfold outsAt0
      dsimp only
      exact (Memref.read_access_unit_zero (Elt F) main_v12_10 (funext fun a => Nat.zero_mul _)
        (fun a => Nat.le_of_eq (by show 0 * _ + _ = _; omega)) (atPoint(out0_21))).symm)
    (fun i => ⟨t0_0, flush0_21 t0_0, by
      show i ∈ ((View.whole main_v12_10).slice (win0_21.rect t0_0)).set
      rw [View.set_slice_whole]
      exact mem_whole_rect i _ _ _ (fun a => Nat.zero_mul _) (fun a => rfl)⟩)
theorem arr0_22 : (dat0 V c).arrAt 22 cfg0.N = atPoint(out0_22) :=
  (dat0 V c).arrAt_eq_of_cover 22 _
    (fun t _ => by
      obtain rfl := fin_N0 t
      show (cfg0.win 22).cut (grid0.coords t0_0) ((dat0 V c).after 22 t0_0) = _
      rw [after0_22]
      unfold outsAt0
      dsimp only
      exact (Memref.read_access_unit_zero (Elt F) main_v12_11 (funext fun a => Nat.zero_mul _)
        (fun a => Nat.le_of_eq (by show 0 * _ + _ = _; omega)) (atPoint(out0_22))).symm)
    (fun i => ⟨t0_0, flush0_22 t0_0, by
      show i ∈ ((View.whole main_v12_11).slice (win0_22.rect t0_0)).set
      rw [View.set_slice_whole]
      exact mem_whole_rect i _ _ _ (fun a => Nat.zero_mul _) (fun a => rfl)⟩)
theorem arr0_23 : (dat0 V c).arrAt 23 cfg0.N = atPoint(out0_23) :=
  (dat0 V c).arrAt_eq_of_cover 23 _
    (fun t _ => by
      obtain rfl := fin_N0 t
      show (cfg0.win 23).cut (grid0.coords t0_0) ((dat0 V c).after 23 t0_0) = _
      rw [after0_23]
      unfold outsAt0
      dsimp only
      exact (Memref.read_access_unit_zero (Elt F) main_v12_12 (funext fun a => Nat.zero_mul _)
        (fun a => Nat.le_of_eq (by show 0 * _ + _ = _; omega)) (atPoint(out0_23))).symm)
    (fun i => ⟨t0_0, flush0_23 t0_0, by
      show i ∈ ((View.whole main_v12_12).slice (win0_23.rect t0_0)).set
      rw [View.set_slice_whole]
      exact mem_whole_rect i _ _ _ (fun a => Nat.zero_mul _) (fun a => rfl)⟩)
theorem arr0_24 : (dat0 V c).arrAt 24 cfg0.N = atPoint(out0_24) :=
  (dat0 V c).arrAt_eq_of_cover 24 _
    (fun t _ => by
      obtain rfl := fin_N0 t
      show (cfg0.win 24).cut (grid0.coords t0_0) ((dat0 V c).after 24 t0_0) = _
      rw [after0_24]
      unfold outsAt0
      dsimp only
      exact (Memref.read_access_unit_zero (Elt F) main_v12_13 (funext fun a => Nat.zero_mul _)
        (fun a => Nat.le_of_eq (by show 0 * _ + _ = _; omega)) (atPoint(out0_24))).symm)
    (fun i => ⟨t0_0, flush0_24 t0_0, by
      show i ∈ ((View.whole main_v12_13).slice (win0_24.rect t0_0)).set
      rw [View.set_slice_whole]
      exact mem_whole_rect i _ _ _ (fun a => Nat.zero_mul _) (fun a => rfl)⟩)
theorem arr0_25 : (dat0 V c).arrAt 25 cfg0.N = atPoint(out0_25) :=
  (dat0 V c).arrAt_eq_of_cover 25 _
    (fun t _ => by
      obtain rfl := fin_N0 t
      show (cfg0.win 25).cut (grid0.coords t0_0) ((dat0 V c).after 25 t0_0) = _
      rw [after0_25]
      unfold outsAt0
      dsimp only
      exact (Memref.read_access_unit_zero (Elt F) main_v12_14 (funext fun a => Nat.zero_mul _)
        (fun a => Nat.le_of_eq (by show 0 * _ + _ = _; omega)) (atPoint(out0_25))).symm)
    (fun i => ⟨t0_0, flush0_25 t0_0, by
      show i ∈ ((View.whole main_v12_14).slice (win0_25.rect t0_0)).set
      rw [View.set_slice_whole]
      exact mem_whole_rect i _ _ _ (fun a => Nat.zero_mul _) (fun a => rfl)⟩)
theorem arr0_26 : (dat0 V c).arrAt 26 cfg0.N = atPoint(out0_26) :=
  (dat0 V c).arrAt_eq_of_cover 26 _
    (fun t _ => by
      obtain rfl := fin_N0 t
      show (cfg0.win 26).cut (grid0.coords t0_0) ((dat0 V c).after 26 t0_0) = _
      rw [after0_26]
      unfold outsAt0
      dsimp only
      exact (Memref.read_access_unit_zero (Elt F) main_v12_15 (funext fun a => Nat.zero_mul _)
        (fun a => Nat.le_of_eq (by show 0 * _ + _ = _; omega)) (atPoint(out0_26))).symm)
    (fun i => ⟨t0_0, flush0_26 t0_0, by
      show i ∈ ((View.whole main_v12_15).slice (win0_26.rect t0_0)).set
      rw [View.set_slice_whole]
      exact mem_whole_rect i _ _ _ (fun a => Nat.zero_mul _) (fun a => rfl)⟩)

end Cert.KernelIdeal.KVal

end
-- ==== Proof.KVal.PrepOut.lean ====
import proofs.«134251_g19069654794669_cont_sun_m_30_29_alg».proof.Proof.KernelIdealH.Region0
import Idealize.ShloMosaic.Lib.Pipeline.Value

set_option maxRecDepth 16384

noncomputable section

namespace Cert.KernelIdeal.KVal

open Cert.KernelIdeal Cert.KernelIdeal.Gen Cert.KernelIdeal.FrameH
open Idealize.ShloMosaic Idealize.ShloMosaic.TcCoe Idealize.ShloMosaic.Tactic Idealize.SL.Sem

variable {F : FTy → Type} [FloatOps F]

variable (c : Dev nD) (arg0 : Memref sig .tc .vmem S512x512 .f32) (harg0 : arg0.IsWhole) (arg1 : Memref sig .tc .vmem S64x512 .f32) (harg1 : arg1.IsWhole) (arg2 : Memref sig .tc .vmem S3x65x128 .f32) (harg2 : arg2.IsWhole) (arg3 : Memref sig .tc .vmem S3x65x64 .f32) (harg3 : arg3.IsWhole) (arg4 : Memref sig .tc .vmem S3x128x128 .f32) (harg4 : arg4.IsWhole) (arg5 : Memref sig .tc .vmem S3x128x64 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S512x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S6x256 .f32) (harg14 : arg14.IsWhole) (arg15 : Memref sig .tc .vmem S3x128x256 .f32) (harg15 : arg15.IsWhole) (arg16 : Memref sig .tc .vmem S1x256 .f32) (harg16 : arg16.IsWhole) (arg17 : Memref sig .tc .vmem S6x128 .f32) (harg17 : arg17.IsWhole) (arg18 : Memref sig .tc .vmem S3x128x128 .f32) (harg18 : arg18.IsWhole) (arg19 : Memref sig .tc .vmem S1x128 .f32) (harg19 : arg19.IsWhole) (arg20 : Memref sig .tc .vmem S3x128x256 .f32) (harg20 : arg20.IsWhole) (arg21 : Memref sig .tc .vmem S3x128x256 .f32) (harg21 : arg21.IsWhole) (arg22 : Memref sig .tc .vmem S1x256 .f32) (harg22 : arg22.IsWhole) (arg23 : Memref sig .tc .vmem S3x128x128 .f32) (harg23 : arg23.IsWhole) (arg24 : Memref sig .tc .vmem S3x128x128 .f32) (harg24 : arg24.IsWhole) (arg25 : Memref sig .tc .vmem S1x128 .f32) (harg25 : arg25.IsWhole) (arg26 : Memref sig .tc .vmem S128x2 .f32) (harg26 : arg26.IsWhole)
    (x0 : Vec F S512x512 .f32) (x1 : Vec F S64x512 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32)

theorem origin2 : (![0, 0] : Fin 2 → Nat) = fun _ => 0 := funext fun a => by fin_cases a <;> rfl

set_option maxHeartbeats 4000000 in

theorem out0_11_eq : out0_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 = k0_pay1 x0 := by
  unfold out0_11
  rw [View.read_writes_eq_canon _ _ _ (cover0_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  unfold kernelRun0
  dsimp only
  sl_unfold_words
  rw [View.canon_unit_zero origin2]
  simp only [View.readAt_eq_ld, harg0.read_unread, View.ld_unit_zero (S := S512x512) origin2]

set_option maxHeartbeats 4000000 in

theorem out0_12_eq : out0_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 = k0_pay2 x0 x1 := by
  unfold out0_12
  rw [View.read_writes_eq_canon _ _ _ (cover0_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  unfold kernelRun0
  dsimp only
  sl_unfold_words
  rw [View.canon_unit_zero origin2]
  simp only [View.readAt_eq_ld, harg0.read_unread, harg1.read_unread, View.ld_unit_zero (S := S512x512) origin2,
    View.ld_unit_zero (S := S64x512) origin2]

set_option maxHeartbeats 4000000 in

theorem out0_13_eq : out0_13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 = k0_pay3 x0 x1 := by
  unfold out0_13
  rw [View.read_writes_eq_canon _ _ _ (cover0_13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  unfold kernelRun0
  dsimp only
  sl_unfold_words
  rw [View.canon_unit_zero origin2]
  simp only [View.readAt_eq_ld, harg0.read_unread, harg1.read_unread, View.ld_unit_zero (S := S512x512) origin2,
    View.ld_unit_zero (S := S64x512) origin2]

end Cert.KernelIdeal.KVal

end
-- ==== Proof.Packed.lean ====
import proofs.«134251_g19069654794669_cont_sun_m_30_29_alg».proof.Proof.Spec

noncomputable section

namespace Cert.Packed

open Idealize.ShloMosaic Idealize.ShloMosaic.ValueIdx Cert.Spec

variable (A : Args)

def ruCol (c : Fin 256) : Fin 128 := ⟨64 * (c.val / 128) + c.val % 64, by have := c.isLt; omega⟩

def ruElt (c : Fin 256) : Fin 2 := ⟨c.val / 64 % 2, Nat.mod_lt _ (by decide)⟩

def cCol (c : Fin 128) : Fin 64 := ⟨c.val % 64, Nat.mod_lt _ (by decide)⟩

def cElt (c : Fin 128) : Fin 2 := ⟨c.val / 64, by have := c.isLt; omega⟩

def rowFeat (i : Fin 128) : Fin 64 := ⟨i.val % 64, Nat.mod_lt _ (by decide)⟩

def rowElt (i : Fin 128) : Fin 2 := ⟨i.val / 64, by have := i.isLt; omega⟩

def inTerm (r : Fin 6) : Fin 3 := ⟨r.val / 2, by have := r.isLt; omega⟩

def inElt (r : Fin 6) : Fin 2 := ⟨r.val % 2, Nat.mod_lt _ (by decide)⟩

def stFeat0 (f : Fin 64) : Fin 65 := ⟨1 + f.val, by have := f.isLt; omega⟩

def inFeat1 (f : Fin 64) : Fin 128 := ⟨f.val, by have := f.isLt; omega⟩

def stFeat1 (f : Fin 64) : Fin 128 := ⟨64 + f.val, by have := f.isLt; omega⟩

def waRu0 (r : Fin 6) (c : Fin 256) : EReal :=
  if inElt r = ruElt c then rows3 (nf := 65) A.wru0 0 (inTerm r) (ruCol c) else zero

def whRu0 (k : Fin 3) (i : Fin 128) (c : Fin 256) : EReal :=
  if rowElt i = ruElt c then rows3 (nf := 65) A.wru0 (stFeat0 (rowFeat i)) k (ruCol c) else zero

def bRu0 (c : Fin 256) : EReal := A.bru0 (ix1 (ruCol c))

def waC0 (r : Fin 6) (c : Fin 128) : EReal :=
  if inElt r = cElt c then rows3 (nf := 65) A.wc0 0 (inTerm r) (cCol c) else zero

def whC0 (k : Fin 3) (i : Fin 128) (c : Fin 128) : EReal :=
  if rowElt i = cElt c then rows3 (nf := 65) A.wc0 (stFeat0 (rowFeat i)) k (cCol c) else zero

def bC0 (c : Fin 128) : EReal := A.bc0 (ix1 (cCol c))

def wgRu1 (k : Fin 3) (i : Fin 128) (c : Fin 256) : EReal :=
  if rowElt i = ruElt c then rows3 (nf := 128) A.wru1 (inFeat1 (rowFeat i)) k (ruCol c) else zero

def wkRu1 (k : Fin 3) (i : Fin 128) (c : Fin 256) : EReal :=
  if rowElt i = ruElt c then rows3 (nf := 128) A.wru1 (stFeat1 (rowFeat i)) k (ruCol c) else zero
def bRu1 (c : Fin 256) : EReal := A.bru1 (ix1 (ruCol c))

def wgC1 (k : Fin 3) (i : Fin 128) (c : Fin 128) : EReal :=
  if rowElt i = cElt c then rows3 (nf := 128) A.wc1 (inFeat1 (rowFeat i)) k (cCol c) else zero

def wkC1 (k : Fin 3) (i : Fin 128) (c : Fin 128) : EReal :=
  if rowElt i = cElt c then rows3 (nf := 128) A.wc1 (stFeat1 (rowFeat i)) k (cCol c) else zero
def bC1 (c : Fin 128) : EReal := A.bc1 (ix1 (cCol c))

def wpp (i : Fin 128) (j : Fin 2) : EReal := if rowElt i = j then A.wp (ix2 (rowFeat i) 0) else zero

def xcol (b : Fin 64) : Fin 512 → EReal := fun m => A.x (ix2 b m)

def acol (k : Fin 3) (b : Fin 64) (n : Fin 512) : EReal := cheb (sup A.adj) k (xcol A b) n

end Cert.Packed

end
-- ==== Proof.Alg.lean ====
/- The shared literals as numbers, and the symmetry of the diffusion matrix. -/
import proofs.«134251_g19069654794669_cont_sun_m_30_29_alg».proof.Proof.Spec
import proofs.«134251_g19069654794669_cont_sun_m_30_29_alg».proof.Proof.Packed
import Idealize.ShloMosaic.PureOps.Ideal.Laws

noncomputable section

namespace Cert.Alg

open Idealize.ShloMosaic Idealize.ShloMosaic.ValueIdx Cert.Spec

theorem zero_eq : Cert.Spec.zero = 0 := by simp [Cert.Spec.zero, Ideal.ofBits, Ideal.ieee]

theorem one_eq : Cert.Spec.one = 1 := by
  simp [Cert.Spec.one, Ideal.ofBits, Ideal.ieee, -EReal.coe_mul]; norm_num

section Support

variable (adj : (⟨2, ![512, 512]⟩ : Shape).Idx → EReal)

theorem sym_comm (i j : Fin 512) : Spec.sym adj i j = Spec.sym adj j i := by
  unfold Spec.sym; exact max_comm _ _

theorem colsum_eq_deg (j : Fin 512) : ∑ i : Fin 512, Spec.sym adj i j = Spec.deg adj j := by
  unfold Spec.deg
  exact Finset.sum_congr rfl fun i _ => sym_comm adj i j

theorem sup_symm (i j : Fin 512) : Spec.sup adj i j = Spec.sup adj j i := by
  unfold Spec.sup
  rw [zero_eq, zero_sub, zero_sub, EReal.neg_mul, EReal.neg_mul, sym_comm adj j i]
  congr 1
  ac_rfl

end Support

end Cert.Alg

end
-- ==== Proof.LibMatmul.lean ====
/- A plain matrix product read at one entry. -/
import Idealize.ShloMosaic.Lib.Pipeline.Value
import Idealize.ShloMosaic.Lib.ValueIdx
import Idealize.ShloMosaic.PureOps.Ideal.Laws

noncomputable section
namespace Cert.Lib
open Idealize.ShloMosaic Idealize.ShloMosaic.ValueIdx

variable (M K N : Nat)

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_cons_self ..)]
  rfl
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_cons_self ..)]
  rfl

/-- An entry of a plain matrix product into a zero accumulator is the row times the column, summed over the contracted axis. -/
theorem matmul_plain (lhs : FVec Ideal ⟨2, ![M, K]⟩ .f32) (rhs : FVec Ideal ⟨2, ![K, N]⟩ .f32) (r : Fin M) (c : Fin N) :
    matmul (DotDims.plain M K N) none lhs rhs (constant (F := Ideal) ⟨2, ![M, N]⟩ .f32 0x00000000#32) (ix2 r c)
      = ∑ k : Fin K, lhs (ix2 r k) * rhs (ix2 k c) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k := funext fun a => Fin.ext (by
    match a with
    | ⟨0, _⟩ => exact plain_lhs_0 M K N _ _
    | ⟨1, _⟩ => exact ((DotDims.plain M K N).lhsIdx_val_of_single rfl _ _).trans hk)
  have er : (DotDims.plain M K N).rhsIdx (ix2 r c) ((contrEquiv1 (DotDims.plain M K N) K rfl rfl).symm k) = ix2 k c := funext fun a => Fin.ext (by
    match a with
    | ⟨0, _⟩ => exact ((DotDims.plain M K N).rhsIdx_val_of_single rfl _ _).trans hk
    | ⟨1, _⟩ => exact plain_rhs_1 M K N _ _)
  rw [el, er]

end Cert.Lib
end
-- ==== Proof.KVal.PrepA.lean ====
import proofs.«134251_g19069654794669_cont_sun_m_30_29_alg».proof.Proof.Gen.KernelIdeal.Skeleton
import proofs.«134251_g19069654794669_cont_sun_m_30_29_alg».proof.Proof.Spec
import proofs.«134251_g19069654794669_cont_sun_m_30_29_alg».proof.Proof.Packed
import proofs.«134251_g19069654794669_cont_sun_m_30_29_alg».proof.Proof.Alg
import Idealize.ShloMosaic.Lib.Pipeline.Value
import Idealize.ShloMosaic.Lib.ValueIdx
import Idealize.ShloMosaic.Lib.ValueLayout
import Idealize.ShloMosaic.PureOps.Ideal.Laws
import proofs.«134251_g19069654794669_cont_sun_m_30_29_alg».proof.Proof.LibMatmul

noncomputable section

namespace Cert.KernelIdeal.KVal

open Idealize.ShloMosaic Idealize.ShloMosaic.ValueIdx Idealize.SL.Sem Cert.KernelIdeal Cert.KernelIdeal.Gen

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

def rowDeg (x : FVec Ideal S512x512 .f32) : FVec Ideal S512 .f32 :=
  multiReduction (F := Ideal) .add [1] S512 x 0x00000000#32 reduces_S512x512_S512 (.inl rfl) rfl

def colDeg (x : FVec Ideal S512x512 .f32) : FVec Ideal S512 .f32 :=
  multiReduction (F := Ideal) .add [0] S512 x 0x00000000#32 reduces_S512x512_S512_2 (.inl rfl) rfl

theorem rowDeg_apply (x : FVec Ideal S512x512 .f32) (i : Fin 512) : rowDeg x (ix1 i) = ∑ k : Fin 512, x (ix2 i k) := by
  unfold rowDeg
  refine (Ideal.multiReduction_add_single x 0x00000000#32 reduces_S512x512_S512 _ _ (ix1 i)).trans ?_
  exact Finset.sum_congr rfl fun k _ => congrArg x (funext fun a => Fin.ext (by
    match a with
    | ⟨0, _⟩ => rfl
    | ⟨1, _⟩ => rfl))

theorem colDeg_apply (x : FVec Ideal S512x512 .f32) (j : Fin 512) : colDeg x (ix1 j) = ∑ k : Fin 512, x (ix2 k j) := by
  unfold colDeg
  refine (Ideal.multiReduction_add_single x 0x00000000#32 reduces_S512x512_S512_2 _ _ (ix1 j)).trans ?_
  exact Finset.sum_congr rfl fun k _ => congrArg x (funext fun a => Fin.ext (by
    match a with
    | ⟨0, _⟩ => rfl
    | ⟨1, _⟩ => rfl))

def symV (v0 : FVec Ideal S512x512 .f32) : FVec Ideal S512x512 .f32 :=
  maximumf (F := Ideal) v0 (transpose S512x512 [1, 0] v0 transposes_S512x512_p1_0_S512x512)

theorem symV_apply (v0 : FVec Ideal S512x512 .f32) (i j : Fin 512) : symV v0 (ix2 i j) = Cert.Spec.sym v0 i j := by
  unfold symV
  rw [maximumf_apply, transpose_ix2_apply]
  rfl

def invSqrtPos {s : Shape} (d : FVec Ideal s .f32) : FVec Ideal s .f32 :=
  select (cmpf .ogt d (broadcast s (Scalar.ofBits .f32 0x00000000#32)))
    (divf (broadcast s (Scalar.ofBits .f32 0x3F800000#32)) (sqrt d)) (broadcast s (Scalar.ofBits .f32 0x00000000#32))

theorem invSqrtPos_apply {s : Shape} (d : FVec Ideal s .f32) (i : s.Idx) :
    invSqrtPos d i = Scalar.select (Ideal.cmp .ogt (d i) Cert.Spec.zero) (Ideal.div Cert.Spec.one (Ideal.sqrt (d i))) Cert.Spec.zero := rfl

section Sup
variable (v0 : Vec Ideal S512x512 .f32)

theorem pay1_eq : k0_pay1 (F := Ideal) v0 =
    mulf (subf (broadcast S512x512 (Scalar.ofBits .f32 0x00000000#32))
        (mulf (broadcastTo S512x512 (invSqrtPos (shapeCast S512x1 (rowDeg (symV v0)) shapeCasts_S512_S512x1)) broadcasts_S512x1_S512x512)
          (symV v0)))
      (broadcastTo S512x512 (invSqrtPos (shapeCast S1x512 (colDeg (symV v0)) shapeCasts_S512_S1x512)) broadcasts_S1x512_S512x512) := rfl

theorem pay1_apply (i j : Fin 512) : k0_pay1 (F := Ideal) v0 (ix2 i j) = Cert.Spec.sup v0 i j := by
  rw [pay1_eq]
  simp only [mulf_apply, subf_apply, broadcast_apply, broadcastTo_a1_ab_apply, broadcastTo_1b_ab_apply, invSqrtPos_apply,
    shapeCast_a_a1_apply, shapeCast_a_1a_apply, rowDeg_apply, colDeg_apply, symV_apply]
  rw [Cert.Alg.colsum_eq_deg]
  rfl

end Sup

theorem mm_apply (L : FVec Ideal S64x512 .f32) (R : FVec Ideal S512x512 .f32) (b : Fin 64) (n : Fin 512) :
    matmul (F := Ideal) dot_S64x512_S512x512_S64x512_1_0_0_1_n_n none L R (constant S64x512 .f32 0x00000000#32) (ix2 b n)
      = ∑ m : Fin 512, L (ix2 b m) * R (ix2 m n) :=
  Cert.Lib.matmul_plain 64 512 512 _ _ _ _

section Cheb
variable (v0 : Vec Ideal S512x512 .f32) (v28 : Vec Ideal S64x512 .f32)

theorem pay2_apply (b : Fin 64) (n : Fin 512) :
    k0_pay2 (F := Ideal) v0 v28 (ix2 b n) = Cert.Spec.cheb (Cert.Spec.sup v0) 1 (fun m => v28 (ix2 b m)) n := by
  unfold k0_pay2
  simp only [mm_apply, pay1_apply]
  show _ = Cert.Spec.diff (Cert.Spec.sup v0) (fun m => v28 (ix2 b m)) n
  unfold Cert.Spec.diff
  exact Finset.sum_congr rfl fun m _ => by rw [mul_comm, Cert.Alg.sup_symm]

theorem pay3_apply (b : Fin 64) (n : Fin 512) :
    k0_pay3 (F := Ideal) v0 v28 (ix2 b n) = Cert.Spec.cheb (Cert.Spec.sup v0) 2 (fun m => v28 (ix2 b m)) n := by
  unfold k0_pay3
  simp only [subf_apply, mulf_apply, broadcast_apply, mm_apply, pay1_apply, pay2_apply]
  show _ = Cert.Spec.two * Cert.Spec.diff (Cert.Spec.sup v0) (Cert.Spec.diff (Cert.Spec.sup v0) (fun m => v28 (ix2 b m))) n - v28 (ix2 b n)
  congr 2
  show _ = Cert.Spec.diff (Cert.Spec.sup v0) (Cert.Spec.cheb (Cert.Spec.sup v0) 1 (fun m => v28 (ix2 b m))) n
  unfold Cert.Spec.diff
  exact Finset.sum_congr rfl fun m _ => by rw [mul_comm, Cert.Alg.sup_symm]

end Cheb

end Cert.KernelIdeal.KVal

end
-- ==== Proof.KVal.PrepWLib.lean ====
import proofs.«134251_g19069654794669_cont_sun_m_30_29_alg».proof.Proof.Gen.KernelIdeal.Skeleton
import Idealize.ShloMosaic.Lib.Pipeline.Value
import Idealize.ShloMosaic.Lib.Pipeline.CanonAppend
import Idealize.ShloMosaic.Lib.ValueIdx

noncomputable section

namespace Cert.KernelIdeal.KVal

open Cert.KernelIdeal Cert.KernelIdeal.Gen
open Idealize.ShloMosaic Idealize.ShloMosaic.ValueIdx

section Canon
variable {Val : EltTy → Type} {S : Shape} {e : EltTy}

theorem canon_append_of_forall_not_mem [∀ e, Nonempty (Val e)] (L' : List (View.Piece Val S e)) (y : S.Idx) :
    ∀ L : List (View.Piece Val S e), (∀ p ∈ L, y ∉ p.1.set) → View.canon (L ++ L') y = View.canon L' y
  | [], _ => rfl
  | p :: L, h => by
    rw [List.cons_append, View.canon_cons_of_not_mem _ _ (h p (List.mem_cons_self ..))]
    exact canon_append_of_forall_not_mem L' y L fun q hq => h q (List.mem_cons_of_mem _ hq)

theorem canon_fill [∀ e, Nonempty (Val e)] {off : Fin S.rank → Nat} (h : off = fun _ => 0)
    (inb : ∀ a, off a + S.size a ≤ S.size a) (w : S.Idx → Val e) (y : S.Idx) :
    View.canon [(⟨Rect.unit off S.size inb, w⟩ : View.Piece Val S e)] y = w y :=
  congrFun (View.canon_unit_zero h inb w) y

end Canon

theorem off2 : (![0, 0] : Fin 2 → Nat) = fun _ => 0 := funext fun a => by fin_cases a <;> rfl
theorem off3 : (![0, 0, 0] : Fin 3 → Nat) = fun _ => 0 := funext fun a => by fin_cases a <;> rfl

theorem exists_ix2_row {n : Nat} (x : (⟨2, ![1, n]⟩ : Shape).Idx) : ∃ j : Fin n, x = ix2 0 j :=
  ⟨x 1, funext fun d => match d with
    | ⟨0, _⟩ => Fin.ext (by have := (x 0).isLt; show (x 0).val = 0; change (x 0).val < 1 at this; omega)
    | ⟨1, _⟩ => rfl⟩

theorem exists_ix3_blk {m n : Nat} (x : (⟨3, ![1, m, n]⟩ : Shape).Idx) : ∃ (i : Fin m) (j : Fin n), x = ix3 0 i j :=
  ⟨x 1, x 2, funext fun d => match d with
    | ⟨0, _⟩ => Fin.ext (by have := (x 0).isLt; show (x 0).val = 0; change (x 0).val < 1 at this; omega)
    | ⟨1, _⟩ => rfl
    | ⟨2, _⟩ => rfl⟩

theorem exists_ix2_col {n : Nat} (x : (⟨2, ![n, 1]⟩ : Shape).Idx) : ∃ i : Fin n, x = ix2 i 0 :=
  ⟨x 0, funext fun d => match d with
    | ⟨0, _⟩ => rfl
    | ⟨1, _⟩ => Fin.ext (by have := (x 1).isLt; show (x 1).val = 0; change (x 1).val < 1 at this; omega)⟩

section Casts
variable {α : Type}

theorem cast_1x1xn_n {n : Nat} (v : (⟨3, ![1, 1, n]⟩ : Shape).Idx → α) (h : (⟨3, ![1, 1, n]⟩ : Shape).ShapeCasts ⟨1, ![n]⟩)
    (j : Fin n) : shapeCast ⟨1, ![n]⟩ v h (ix1 j) = v (ix3 0 0 j) :=
  shapeCast_apply v h (ix1 j) (ix3 0 0 j) (by
    rw [Shape.rowMajor_val_three, Shape.rowMajor_val_one]; show ((0 : ℕ) * 1 + 0) * n + j.val = j.val; omega)

theorem cast_n_1xn {n : Nat} (v : (⟨1, ![n]⟩ : Shape).Idx → α) (h : (⟨1, ![n]⟩ : Shape).ShapeCasts ⟨2, ![1, n]⟩)
    (j : Fin n) : shapeCast ⟨2, ![1, n]⟩ v h (ix2 0 j) = v (ix1 j) :=
  shapeCast_apply v h (ix2 0 j) (ix1 j) (by
    rw [Shape.rowMajor_val_two, Shape.rowMajor_val_one]; show j.val = (0 : ℕ) * n + j.val; omega)

end Casts

section Loads
variable {Val : EltTy → Type} {e : EltTy}

theorem ld_unit3 {n0 n1 n2 m0 m1 m2 : Nat} (x : (⟨3, ![n0, n1, n2]⟩ : Shape).Idx → Val e) (o0 o1 o2 : Nat)
    (inb : ∀ a, (![o0, o1, o2] : Fin 3 → Nat) a + (![m0, m1, m2] : Fin 3 → Nat) a ≤ (⟨3, ![n0, n1, n2]⟩ : Shape).size a)
    (a : Fin m0) (b : Fin m1) (c : Fin m2) (h0 : o0 + a.val < n0) (h1 : o1 + b.val < n1) (h2 : o2 + c.val < n2) :
    View.ld x (Rect.unit (s := ⟨3, ![n0, n1, n2]⟩) ![o0, o1, o2] ![m0, m1, m2] inb) (ix3 a b c)
      = x (ix3 ⟨o0 + a.val, h0⟩ ⟨o1 + b.val, h1⟩ ⟨o2 + c.val, h2⟩) := by
  show x _ = x _
  congr 1
  funext t
  apply Fin.ext
  match t with
  | ⟨0, _⟩ => show o0 + 1 * a.val = o0 + a.val; omega
  | ⟨1, _⟩ => show o1 + 1 * b.val = o1 + b.val; omega
  | ⟨2, _⟩ => show o2 + 1 * c.val = o2 + c.val; omega

theorem ld_unit2 {n0 n1 m0 m1 : Nat} (x : (⟨2, ![n0, n1]⟩ : Shape).Idx → Val e) (o0 o1 : Nat)
    (inb : ∀ a, (![o0, o1] : Fin 2 → Nat) a + (![m0, m1] : Fin 2 → Nat) a ≤ (⟨2, ![n0, n1]⟩ : Shape).size a)
    (a : Fin m0) (b : Fin m1) (h0 : o0 + a.val < n0) (h1 : o1 + b.val < n1) :
    View.ld x (Rect.unit (s := ⟨2, ![n0, n1]⟩) ![o0, o1] ![m0, m1] inb) (ix2 a b)
      = x (ix2 ⟨o0 + a.val, h0⟩ ⟨o1 + b.val, h1⟩) := by
  show x _ = x _
  congr 1
  funext t
  apply Fin.ext
  match t with
  | ⟨0, _⟩ => show o0 + 1 * a.val = o0 + a.val; omega
  | ⟨1, _⟩ => show o1 + 1 * b.val = o1 + b.val; omega

end Loads

theorem emb_unit2_val {n0 n1 m0 m1 : Nat} (o0 o1 : Nat)
    (inb : ∀ a, (![o0, o1] : Fin 2 → Nat) a + (![m0, m1] : Fin 2 → Nat) a ≤ (⟨2, ![n0, n1]⟩ : Shape).size a)
    (a : Fin m0) (b : Fin m1) :
    ((Rect.unit (s := ⟨2, ![n0, n1]⟩) ![o0, o1] ![m0, m1] inb).emb (ix2 a b) 0).val = o0 + a.val
    ∧ ((Rect.unit (s := ⟨2, ![n0, n1]⟩) ![o0, o1] ![m0, m1] inb).emb (ix2 a b) 1).val = o1 + b.val :=
  ⟨by show o0 + 1 * a.val = _; omega, by show o1 + 1 * b.val = _; omega⟩

theorem emb_unit3_val {n0 n1 n2 m0 m1 m2 : Nat} (o0 o1 o2 : Nat)
    (inb : ∀ a, (![o0, o1, o2] : Fin 3 → Nat) a + (![m0, m1, m2] : Fin 3 → Nat) a ≤ (⟨3, ![n0, n1, n2]⟩ : Shape).size a)
    (a : Fin m0) (b : Fin m1) (c : Fin m2) :
    ((Rect.unit (s := ⟨3, ![n0, n1, n2]⟩) ![o0, o1, o2] ![m0, m1, m2] inb).emb (ix3 a b c) 0).val = o0 + a.val
    ∧ ((Rect.unit (s := ⟨3, ![n0, n1, n2]⟩) ![o0, o1, o2] ![m0, m1, m2] inb).emb (ix3 a b c) 1).val = o1 + b.val
    ∧ ((Rect.unit (s := ⟨3, ![n0, n1, n2]⟩) ![o0, o1, o2] ![m0, m1, m2] inb).emb (ix3 a b c) 2).val = o2 + c.val :=
  ⟨by show o0 + 1 * a.val = _; omega, by show o1 + 1 * b.val = _; omega, by show o2 + 1 * c.val = _; omega⟩

section RowBlk
variable {Val : EltTy → Type} {e : EltTy}

theorem ld_blk3 {n0 n1 n2 m n : Nat} (x : (⟨3, ![n0, n1, n2]⟩ : Shape).Idx → Val e) (k f0 c0 : Nat)
    (inb : ∀ a, (![k, f0, c0] : Fin 3 → Nat) a + (![1, m, n] : Fin 3 → Nat) a ≤ (⟨3, ![n0, n1, n2]⟩ : Shape).size a)
    (i : Fin m) (j : Fin n) (hk : k < n0) (hf : f0 + i.val < n1) (hc : c0 + j.val < n2) :
    View.ld x (Rect.unit (s := ⟨3, ![n0, n1, n2]⟩) ![k, f0, c0] ![1, m, n] inb) (ix3 0 i j)
      = x (ix3 ⟨k, hk⟩ ⟨f0 + i.val, hf⟩ ⟨c0 + j.val, hc⟩) := by
  show x _ = x _
  congr 1
  funext t
  apply Fin.ext
  match t with
  | ⟨0, _⟩ => show k + 1 * 0 = k; omega
  | ⟨1, _⟩ => show f0 + 1 * i.val = f0 + i.val; omega
  | ⟨2, _⟩ => show c0 + 1 * j.val = c0 + j.val; omega

theorem ld_row2 {n0 n1 m : Nat} (x : (⟨2, ![n0, n1]⟩ : Shape).Idx → Val e) (r0 c0 : Nat)
    (inb : ∀ a, (![r0, c0] : Fin 2 → Nat) a + (![1, m] : Fin 2 → Nat) a ≤ (⟨2, ![n0, n1]⟩ : Shape).size a)
    (j : Fin m) (hr : r0 < n0) (hc : c0 + j.val < n1) :
    View.ld x (Rect.unit (s := ⟨2, ![n0, n1]⟩) ![r0, c0] ![1, m] inb) (ix2 0 j) = x (ix2 ⟨r0, hr⟩ ⟨c0 + j.val, hc⟩) := by
  show x _ = x _
  congr 1
  funext t
  apply Fin.ext
  match t with
  | ⟨0, _⟩ => show r0 + 1 * 0 = r0; omega
  | ⟨1, _⟩ => show c0 + 1 * j.val = c0 + j.val; omega

end RowBlk

theorem mem_unit2 {n0 n1 m0 m1 : Nat} (o0 o1 : Nat)
    (inb : ∀ a, (![o0, o1] : Fin 2 → Nat) a + (![m0, m1] : Fin 2 → Nat) a ≤ (⟨2, ![n0, n1]⟩ : Shape).size a)
    (a : Fin n0) (b : Fin n1) :
    ix2 a b ∈ (Rect.unit (s := ⟨2, ![n0, n1]⟩) ![o0, o1] ![m0, m1] inb).set
      ↔ (o0 ≤ a.val ∧ a.val < o0 + m0) ∧ (o1 ≤ b.val ∧ b.val < o1 + m1) := by
  rw [Rect.mem_set_unit]
  exact Fin.forall_fin_two

theorem mem_unit3 {n0 n1 n2 m0 m1 m2 : Nat} (o0 o1 o2 : Nat)
    (inb : ∀ a, (![o0, o1, o2] : Fin 3 → Nat) a + (![m0, m1, m2] : Fin 3 → Nat) a ≤ (⟨3, ![n0, n1, n2]⟩ : Shape).size a)
    (a : Fin n0) (b : Fin n1) (c : Fin n2) :
    ix3 a b c ∈ (Rect.unit (s := ⟨3, ![n0, n1, n2]⟩) ![o0, o1, o2] ![m0, m1, m2] inb).set
      ↔ (o0 ≤ a.val ∧ a.val < o0 + m0) ∧ (o1 ≤ b.val ∧ b.val < o1 + m1) ∧ (o2 ≤ c.val ∧ c.val < o2 + m2) := by
  rw [Rect.mem_set_unit]
  exact Fin.forall_fin_succ.trans (and_congr Iff.rfl Fin.forall_fin_two)

end Cert.KernelIdeal.KVal

end
-- ==== Proof.KVal.PrepWFam.lean ====
import proofs.«134251_g19069654794669_cont_sun_m_30_29_alg».proof.Proof.KVal.PrepWLib
import Idealize.ShloMosaic.Lib.Pipeline.Value
import Idealize.ShloMosaic.Lib.Pipeline.CanonAppend
import Idealize.ShloMosaic.Lib.ValueIdx

noncomputable section

namespace Cert.KernelIdeal.KVal

open Cert.KernelIdeal Cert.KernelIdeal.Gen
open Idealize.ShloMosaic Idealize.ShloMosaic.ValueIdx

section Family
variable {Val : EltTy → Type} {S : Shape} {e : EltTy}

theorem canon_family_fill [∀ e, Nonempty (Val e)] {ι : Type} (f : ι → View.Piece Val S e) (l : List ι) (G : S.Idx → Val e)
    {off : Fin S.rank → Nat} (h : off = fun _ => 0) (inb : ∀ a, off a + S.size a ≤ S.size a) (Z : S.Idx → Val e)
    (hL : ∀ t ∈ l, ∀ x : (f t).1.shape.Idx, (f t).2 x = G ((f t).1.emb x))
    (hZ : ∀ y, (∀ t ∈ l, y ∉ (f t).1.set) → Z y = G y) (y : S.Idx) :
    View.canon (l.map f ++ [(⟨Rect.unit off S.size inb, Z⟩ : View.Piece Val S e)]) y = G y := by
  by_cases hy : ∃ p ∈ l.map f, y ∈ p.1.set
  · exact View.canon_append_of_pieces G _ (l.map f) (fun p hp => by
      obtain ⟨t, ht, rfl⟩ := List.mem_map.1 hp
      exact hL t ht) y hy
  · have hn : ∀ p ∈ l.map f, y ∉ p.1.set := fun p hp hm => hy ⟨p, hp, hm⟩
    rw [canon_append_of_forall_not_mem _ y (l.map f) hn, canon_fill h inb Z y]
    exact hZ y fun t ht => hn (f t) (List.mem_map_of_mem ht)

end Family

def at3 {n0 n1 n2 : Nat} (g : Fin n0 → Fin n1 → Fin n2 → EReal) : (⟨3, ![n0, n1, n2]⟩ : Shape).Idx → EReal :=
  fun y => g (y 0) (y 1) (y 2)

theorem at3_ix3 {n0 n1 n2 : Nat} (g : Fin n0 → Fin n1 → Fin n2 → EReal) (k : Fin n0) (i : Fin n1) (c : Fin n2) :
    at3 g (ix3 k i c) = g k i c := rfl

theorem at3_of_val {n0 n1 n2 : Nat} (g : Fin n0 → Fin n1 → Fin n2 → EReal) (y : (⟨3, ![n0, n1, n2]⟩ : Shape).Idx)
    (k : Fin n0) (i : Fin n1) (c : Fin n2) (h0 : (y 0).val = k.val) (h1 : (y 1).val = i.val) (h2 : (y 2).val = c.val) :
    at3 g y = g k i c := by
  have : y = ix3 k i c := funext fun d => match d with
    | ⟨0, _⟩ => Fin.ext h0
    | ⟨1, _⟩ => Fin.ext h1
    | ⟨2, _⟩ => Fin.ext h2
  rw [this]; rfl

theorem inb3 {n0 n1 n2 : Nat} {o0 o1 o2 m0 m1 m2 : Nat} (h0 : o0 + m0 ≤ n0) (h1 : o1 + m1 ≤ n1) (h2 : o2 + m2 ≤ n2) :
    ∀ a, (![o0, o1, o2] : Fin 3 → Nat) a + (![m0, m1, m2] : Fin 3 → Nat) a ≤ (⟨3, ![n0, n1, n2]⟩ : Shape).size a
  | ⟨0, _⟩ => h0
  | ⟨1, _⟩ => h1
  | ⟨2, _⟩ => h2

def blk {C R W : Nat} (X : Vec Ideal ⟨3, ![3, R, W]⟩ .f32) (k r0 c0 fo co : Nat)
    (inbS : ∀ a, (![k, r0, c0] : Fin 3 → Nat) a + S1x64x64.size a ≤ (⟨3, ![3, 128, C]⟩ : Shape).size a)
    (inbL : ∀ a, (![k, fo, co] : Fin 3 → Nat) a + S1x64x64.size a ≤ (⟨3, ![3, R, W]⟩ : Shape).size a) :
    View.Piece (Elt Ideal) ⟨3, ![3, 128, C]⟩ .f32 :=
  ⟨Rect.unit ![k, r0, c0] S1x64x64.size inbS,
    shapeCast S1x64x64 (shapeCast S64x64 (View.ld X (Rect.unit ![k, fo, co] S1x64x64.size inbL)) shapeCasts_S1x64x64_S64x64)
      shapeCasts_S64x64_S1x64x64⟩

theorem blk_apply {C R W : Nat} (X : Vec Ideal ⟨3, ![3, R, W]⟩ .f32) (k r0 c0 fo co : Nat) (inbS) (inbL) (i j : Fin 64)
    (h0 : k < 3) (h1 : fo + i.val < R) (h2 : co + j.val < W) :
    (blk (C := C) X k r0 c0 fo co inbS inbL).2 (ix3 0 i j) = X (ix3 ⟨k, h0⟩ ⟨fo + i.val, h1⟩ ⟨co + j.val, h2⟩) := by
  unfold blk
  dsimp only
  rw [shapeCast_shapeCast]
  exact ld_unit3 X k fo co inbL 0 i j h0 h1 h2

theorem blk_agrees {C R W : Nat} (X : Vec Ideal ⟨3, ![3, R, W]⟩ .f32) (k r0 c0 fo co : Nat) (inbS) (inbL)
    (g : Fin 3 → Fin 128 → Fin C → EReal) (h0 : k < 3)
    (hg : ∀ (i j : Fin 64) (h1 : fo + i.val < R) (h2 : co + j.val < W) (h3 : r0 + i.val < 128) (h4 : c0 + j.val < C),
      X (ix3 ⟨k, h0⟩ ⟨fo + i.val, h1⟩ ⟨co + j.val, h2⟩) = g ⟨k, h0⟩ ⟨r0 + i.val, h3⟩ ⟨c0 + j.val, h4⟩)
    (x : (blk (C := C) X k r0 c0 fo co inbS inbL).1.shape.Idx) :
    (blk (C := C) X k r0 c0 fo co inbS inbL).2 x = at3 g ((blk (C := C) X k r0 c0 fo co inbS inbL).1.emb x) := by
  obtain ⟨i, j, rfl⟩ := exists_ix3_blk x
  have hS0 := inbS 0; have hS1 := inbS 1; have hS2 := inbS 2
  have hL1 := inbL 1; have hL2 := inbL 2
  have b1 : fo + i.val < R := by have := i.isLt; change fo + 64 ≤ R at hL1; omega
  have b2 : co + j.val < W := by have := j.isLt; change co + 64 ≤ W at hL2; omega
  have b3 : r0 + i.val < 128 := by have := i.isLt; change r0 + 64 ≤ 128 at hS1; omega
  have b4 : c0 + j.val < C := by have := j.isLt; change c0 + 64 ≤ C at hS2; omega
  obtain ⟨e0, e1, e2⟩ := emb_unit3_val (n0 := 3) (n1 := 128) (n2 := C) k r0 c0 inbS (0 : Fin 1) i j
  rw [blk_apply X k r0 c0 fo co inbS inbL i j h0 b1 b2, hg i j b1 b2 b3 b4]
  exact (at3_of_val g _ ⟨k, h0⟩ ⟨r0 + i.val, b3⟩ ⟨c0 + j.val, b4⟩ e0 e1 e2).symm

end Cert.KernelIdeal.KVal

end
-- ==== Proof.KVal.PrepW2b.lean ====
import proofs.«134251_g19069654794669_cont_sun_m_30_29_alg».proof.Proof.KernelIdealH.Region0
import proofs.«134251_g19069654794669_cont_sun_m_30_29_alg».proof.Proof.Spec
import proofs.«134251_g19069654794669_cont_sun_m_30_29_alg».proof.Proof.Packed
import proofs.«134251_g19069654794669_cont_sun_m_30_29_alg».proof.Proof.KVal.PrepWFam

noncomputable section

namespace Cert.KernelIdeal.KVal

open Cert.KernelIdeal Cert.KernelIdeal.Gen
open Idealize.ShloMosaic Idealize.ShloMosaic.ValueIdx

def at2 {n0 n1 : Nat} (g : Fin n0 → Fin n1 → EReal) : (⟨2, ![n0, n1]⟩ : Shape).Idx → EReal := fun y => g (y 0) (y 1)

theorem at2_ix2 {n0 n1 : Nat} (g : Fin n0 → Fin n1 → EReal) (a : Fin n0) (b : Fin n1) : at2 g (ix2 a b) = g a b := rfl

theorem at2_of_val {n0 n1 : Nat} (g : Fin n0 → Fin n1 → EReal) (y : (⟨2, ![n0, n1]⟩ : Shape).Idx) (a : Fin n0) (b : Fin n1)
    (h0 : (y 0).val = a.val) (h1 : (y 1).val = b.val) : at2 g y = g a b := by
  have : y = ix2 a b := funext fun d => match d with
    | ⟨0, _⟩ => Fin.ext h0
    | ⟨1, _⟩ => Fin.ext h1
  rw [this]; rfl

theorem inb2 {n0 n1 : Nat} {o0 o1 m0 m1 : Nat} (h0 : o0 + m0 ≤ n0) (h1 : o1 + m1 ≤ n1) :
    ∀ a, (![o0, o1] : Fin 2 → Nat) a + (![m0, m1] : Fin 2 → Nat) a ≤ (⟨2, ![n0, n1]⟩ : Shape).size a
  | ⟨0, _⟩ => h0
  | ⟨1, _⟩ => h1

def rowPc {C W : Nat} (X : Vec Ideal ⟨2, ![1, W]⟩ .f32) (c0 co : Nat)
    (inbS : ∀ a, (![0, c0] : Fin 2 → Nat) a + S1x64.size a ≤ (⟨2, ![1, C]⟩ : Shape).size a)
    (inbL : ∀ a, (![0, co] : Fin 2 → Nat) a + S1x64.size a ≤ (⟨2, ![1, W]⟩ : Shape).size a) :
    View.Piece (Elt Ideal) ⟨2, ![1, C]⟩ .f32 :=
  ⟨Rect.unit ![0, c0] S1x64.size inbS,
    shapeCast S1x64 (shapeCast S64 (View.ld X (Rect.unit ![0, co] S1x64.size inbL)) shapeCasts_S1x64_S64) shapeCasts_S64_S1x64⟩

theorem rowPc_apply {C W : Nat} (X : Vec Ideal ⟨2, ![1, W]⟩ .f32) (c0 co : Nat) (inbS) (inbL) (j : Fin 64) (h1 : co + j.val < W) :
    (rowPc (C := C) X c0 co inbS inbL).2 (ix2 0 j) = X (ix2 0 ⟨co + j.val, h1⟩) := by
  unfold rowPc
  dsimp only
  rw [shapeCast_shapeCast]
  exact ld_unit2 X 0 co inbL 0 j (by decide) h1

theorem rowPc_agrees {C W : Nat} (X : Vec Ideal ⟨2, ![1, W]⟩ .f32) (c0 co : Nat) (inbS) (inbL) (g : Fin C → EReal)
    (hg : ∀ (j : Fin 64) (h1 : co + j.val < W) (h2 : c0 + j.val < C), X (ix2 0 ⟨co + j.val, h1⟩) = g ⟨c0 + j.val, h2⟩)
    (x : (rowPc (C := C) X c0 co inbS inbL).1.shape.Idx) :
    (rowPc (C := C) X c0 co inbS inbL).2 x = at2 (fun _ : Fin 1 => g) ((rowPc (C := C) X c0 co inbS inbL).1.emb x) := by
  obtain ⟨j, rfl⟩ := exists_ix2_row x
  have hS1 := inbS 1; have hL1 := inbL 1
  have b1 : co + j.val < W := by have := j.isLt; change co + 64 ≤ W at hL1; omega
  have b2 : c0 + j.val < C := by have := j.isLt; change c0 + 64 ≤ C at hS1; omega
  obtain ⟨e0, e1⟩ := emb_unit2_val (n0 := 1) (n1 := C) 0 c0 inbS (0 : Fin 1) j
  rw [rowPc_apply X c0 co inbS inbL j b1, hg j b1 b2]
  exact (at2_of_val (fun _ : Fin 1 => g) _ 0 ⟨c0 + j.val, b2⟩ e0 e1).symm

theorem mem_rowPc {C W : Nat} (X : Vec Ideal ⟨2, ![1, W]⟩ .f32) (c0 co : Nat) (inbS) (inbL) (u : Fin 1) (c : Fin C) :
    ix2 u c ∈ (rowPc (C := C) X c0 co inbS inbL).1.set ↔ (0 ≤ u.val ∧ u.val < 0 + 1) ∧ (c0 ≤ c.val ∧ c.val < c0 + 64) := by
  unfold rowPc
  dsimp only
  rw [Rect.mem_set_unit]
  exact Fin.forall_fin_two

def bRuIdx : List (Fin 4) := [3, 2, 1, 0]

theorem bRuIdx_all : ∀ t : Fin 4, t ∈ bRuIdx := by decide

def bRuPc (X : Vec Ideal S1x128 .f32) (t : Fin 4) : View.Piece (Elt Ideal) S1x256 .f32 :=
  rowPc (C := 256) (W := 128) X (64 * t.val) (64 * (t.val / 2))
    (inb2 (Nat.le_refl _) (by have := t.isLt; omega)) (inb2 (Nat.le_refl _) (by have := t.isLt; omega))

section BRu
variable (A : Cert.Spec.Args) (X : Vec Ideal S1x128 .f32) (h8 : ∀ o, X (ix2 0 o) = A.bru1 (ix1 o))

include h8 in
theorem bRuPc_agrees (t : Fin 4) (x : (bRuPc X t).1.shape.Idx) :
    (bRuPc X t).2 x = at2 (fun _ : Fin 1 => Cert.Packed.bRu1 A) ((bRuPc X t).1.emb x) := by
  refine rowPc_agrees X _ _ _ _ (Cert.Packed.bRu1 A) (fun j h1 h2 => ?_) x
  have ht := t.isLt; have hj := j.isLt
  rw [h8]
  unfold Cert.Packed.bRu1
  have ec : Cert.Packed.ruCol ⟨64 * t.val + j.val, h2⟩ = ⟨64 * (t.val / 2) + j.val, h1⟩ :=
    Fin.ext (by show 64 * ((64 * t.val + j.val) / 128) + (64 * t.val + j.val) % 64 = 64 * (t.val / 2) + j.val; omega)
  rw [ec]

include h8 in

theorem canon_bRu1 (c : Fin 256) : View.canon (bRuIdx.map (bRuPc X)) (ix2 0 c) = Cert.Packed.bRu1 A c := by
  have hc := c.isLt
  refine (View.canon_apply_of_pieces (at2 fun _ : Fin 1 => Cert.Packed.bRu1 A) (bRuIdx.map (bRuPc X)) (fun p hp => ?_) (ix2 0 c) ?_).trans
    (at2_ix2 _ 0 c)
  · obtain ⟨t, _, rfl⟩ := List.mem_map.1 hp
    exact bRuPc_agrees A X h8 t
  · refine ⟨bRuPc X ⟨c.val / 64, by omega⟩, List.mem_map_of_mem (bRuIdx_all _), ?_⟩
    exact (mem_rowPc X _ _ _ _ 0 c).2 ⟨⟨Nat.le_refl _, Nat.lt_succ_self _⟩, by show 64 * (c.val / 64) ≤ c.val; omega, by show c.val < 64 * (c.val / 64) + 64; omega⟩

end BRu

def bCIdx : List (Fin 2) := [1, 0]

theorem bCIdx_all : ∀ t : Fin 2, t ∈ bCIdx := by decide

def bCPc (X : Vec Ideal S1x64 .f32) (t : Fin 2) : View.Piece (Elt Ideal) S1x128 .f32 :=
  rowPc (C := 128) (W := 64) X (64 * t.val) 0
    (inb2 (Nat.le_refl _) (by have := t.isLt; omega)) (inb2 (Nat.le_refl _) (Nat.le_refl _))

section BC
variable (A : Cert.Spec.Args) (X : Vec Ideal S1x64 .f32) (h9 : ∀ o, X (ix2 0 o) = A.bc1 (ix1 o))

include h9 in
theorem bCPc_agrees (t : Fin 2) (x : (bCPc X t).1.shape.Idx) :
    (bCPc X t).2 x = at2 (fun _ : Fin 1 => Cert.Packed.bC1 A) ((bCPc X t).1.emb x) := by
  refine rowPc_agrees X _ _ _ _ (Cert.Packed.bC1 A) (fun j h1 h2 => ?_) x
  have ht := t.isLt; have hj := j.isLt
  rw [h9]
  unfold Cert.Packed.bC1
  have ec : Cert.Packed.cCol ⟨64 * t.val + j.val, h2⟩ = ⟨0 + j.val, h1⟩ :=
    Fin.ext (by show (64 * t.val + j.val) % 64 = 0 + j.val; omega)
  rw [ec]

include h9 in

theorem canon_bC1 (c : Fin 128) : View.canon (bCIdx.map (bCPc X)) (ix2 0 c) = Cert.Packed.bC1 A c := by
  have hc := c.isLt
  refine (View.canon_apply_of_pieces (at2 fun _ : Fin 1 => Cert.Packed.bC1 A) (bCIdx.map (bCPc X)) (fun p hp => ?_) (ix2 0 c) ?_).trans
    (at2_ix2 _ 0 c)
  · obtain ⟨t, _, rfl⟩ := List.mem_map.1 hp
    exact bCPc_agrees A X h9 t
  · refine ⟨bCPc X ⟨c.val / 64, by omega⟩, List.mem_map_of_mem (bCIdx_all _), ?_⟩
    exact (mem_rowPc X _ _ _ _ 0 c).2 ⟨⟨Nat.le_refl _, Nat.lt_succ_self _⟩, by show 64 * (c.val / 64) ≤ c.val; omega, by show c.val < 64 * (c.val / 64) + 64; omega⟩

end BC

def wppIdx : List (Fin 2) := [1, 0]

theorem wppIdx_all : ∀ t : Fin 2, t ∈ wppIdx := by decide

def wppPc (X : Vec Ideal S64x1 .f32) (t : Fin 2) : View.Piece (Elt Ideal) S128x2 .f32 :=
  ⟨Rect.unit ![64 * t.val, t.val] S64x1.size (inb2 (by have := t.isLt; omega) (by have := t.isLt; omega)),
    View.ld X (Rect.unit ![0, 0] S64x1.size inb_S64x1_S64x1_0_0)⟩

theorem wppPc_apply (X : Vec Ideal S64x1 .f32) (t : Fin 2) (u : Fin 64) : (wppPc X t).2 (ix2 u 0) = X (ix2 u 0) := by
  unfold wppPc
  dsimp only
  refine (ld_unit2 X 0 0 inb_S64x1_S64x1_0_0 u 0 (by have := u.isLt; omega) (by decide)).trans (congrArg X ?_)
  funext d
  match d with
  | ⟨0, _⟩ => exact Fin.ext (Nat.zero_add _)
  | ⟨1, _⟩ => rfl

theorem mem_wppPc (X : Vec Ideal S64x1 .f32) (t : Fin 2) (i : Fin 128) (j : Fin 2) :
    ix2 i j ∈ (wppPc X t).1.set ↔ (64 * t.val ≤ i.val ∧ i.val < 64 * t.val + 64) ∧ (t.val ≤ j.val ∧ j.val < t.val + 1) := by
  unfold wppPc
  dsimp only
  rw [Rect.mem_set_unit]
  exact Fin.forall_fin_two

section Wpp
variable (A : Cert.Spec.Args) (X : Vec Ideal S64x1 .f32) (h10 : ∀ u, X (ix2 u 0) = A.wp (ix2 u 0))

include h10 in
theorem wppPc_agrees (t : Fin 2) (x : (wppPc X t).1.shape.Idx) :
    (wppPc X t).2 x = at2 (Cert.Packed.wpp A) ((wppPc X t).1.emb x) := by
  obtain ⟨u, rfl⟩ := exists_ix2_col x
  have ht := t.isLt; have hu := u.isLt
  obtain ⟨e0, e1⟩ := emb_unit2_val (n0 := 128) (n1 := 2) (64 * t.val) t.val
    (inb2 (m0 := 64) (m1 := 1) (by omega) (by omega)) u (0 : Fin 1)
  have b0 : 64 * t.val + u.val < 128 := by omega
  rw [wppPc_apply, h10]
  refine Eq.trans ?_ (at2_of_val (Cert.Packed.wpp A) _ ⟨64 * t.val + u.val, b0⟩ t e0 e1).symm
  unfold Cert.Packed.wpp
  have hel : Cert.Packed.rowElt ⟨64 * t.val + u.val, b0⟩ = t := Fin.ext (by show (64 * t.val + u.val) / 64 = t.val; omega)
  have ef : Cert.Packed.rowFeat ⟨64 * t.val + u.val, b0⟩ = u := Fin.ext (by show (64 * t.val + u.val) % 64 = u.val; omega)
  rw [if_pos hel, ef]

theorem wppFill_agrees (Z : FVec Ideal S128x2 .f32) (hZ : ∀ y, Z y = Cert.Spec.zero) (y : S128x2.Idx)
    (hn : ∀ t ∈ wppIdx, y ∉ (wppPc X t).1.set) : Z y = at2 (Cert.Packed.wpp A) y := by
  obtain ⟨i, j, rfl⟩ : ∃ (i : Fin 128) (j : Fin 2), y = ix2 i j := ⟨y 0, y 1, eq_ix2 y⟩
  rw [at2_ix2, hZ]
  unfold Cert.Packed.wpp
  rw [if_neg]
  intro hel
  have hv : i.val / 64 = j.val := congrArg Fin.val hel
  have hi := i.isLt; have hj := j.isLt
  refine hn j (wppIdx_all _) ?_
  exact (mem_wppPc X j i j).2 ⟨⟨by omega, by omega⟩, Nat.le_refl _, Nat.lt_succ_self _⟩

include h10 in

theorem canon_wpp (Z : FVec Ideal S128x2 .f32) (hZ : ∀ y, Z y = Cert.Spec.zero)
    (inb : ∀ a, (![0, 0] : Fin 2 → Nat) a + S128x2.size a ≤ S128x2.size a) (i : Fin 128) (j : Fin 2) :
    View.canon (wppIdx.map (wppPc X) ++ [(⟨Rect.unit ![0, 0] S128x2.size inb, Z⟩ : View.Piece (Elt Ideal) S128x2 .f32)]) (ix2 i j)
      = Cert.Packed.wpp A i j :=
  (canon_family_fill (wppPc X) wppIdx (at2 (Cert.Packed.wpp A)) off2 inb Z
    (fun t _ x => wppPc_agrees A X h10 t x) (fun y hn => wppFill_agrees A X Z hZ y hn) (ix2 i j)).trans (at2_ix2 _ i j)

end Wpp

section Run
open Cert.KernelIdeal.FrameH
variable (c : Dev nD) (arg0 : Memref sig .tc .vmem S512x512 .f32) (harg0 : arg0.IsWhole) (arg1 : Memref sig .tc .vmem S64x512 .f32) (harg1 : arg1.IsWhole) (arg2 : Memref sig .tc .vmem S3x65x128 .f32) (harg2 : arg2.IsWhole) (arg3 : Memref sig .tc .vmem S3x65x64 .f32) (harg3 : arg3.IsWhole) (arg4 : Memref sig .tc .vmem S3x128x128 .f32) (harg4 : arg4.IsWhole) (arg5 : Memref sig .tc .vmem S3x128x64 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S512x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S6x256 .f32) (harg14 : arg14.IsWhole) (arg15 : Memref sig .tc .vmem S3x128x256 .f32) (harg15 : arg15.IsWhole) (arg16 : Memref sig .tc .vmem S1x256 .f32) (harg16 : arg16.IsWhole) (arg17 : Memref sig .tc .vmem S6x128 .f32) (harg17 : arg17.IsWhole) (arg18 : Memref sig .tc .vmem S3x128x128 .f32) (harg18 : arg18.IsWhole) (arg19 : Memref sig .tc .vmem S1x128 .f32) (harg19 : arg19.IsWhole) (arg20 : Memref sig .tc .vmem S3x128x256 .f32) (harg20 : arg20.IsWhole) (arg21 : Memref sig .tc .vmem S3x128x256 .f32) (harg21 : arg21.IsWhole) (arg22 : Memref sig .tc .vmem S1x256 .f32) (harg22 : arg22.IsWhole) (arg23 : Memref sig .tc .vmem S3x128x128 .f32) (harg23 : arg23.IsWhole) (arg24 : Memref sig .tc .vmem S3x128x128 .f32) (harg24 : arg24.IsWhole) (arg25 : Memref sig .tc .vmem S1x128 .f32) (harg25 : arg25.IsWhole) (arg26 : Memref sig .tc .vmem S128x2 .f32) (harg26 : arg26.IsWhole)
    (x0 : Vec Ideal S512x512 .f32) (x1 : Vec Ideal S64x512 .f32) (x2 : Vec Ideal S3x65x128 .f32) (x3 : Vec Ideal S3x65x64 .f32) (x4 : Vec Ideal S3x128x128 .f32) (x5 : Vec Ideal S3x128x64 .f32) (x6 : Vec Ideal S1x128 .f32) (x7 : Vec Ideal S1x64 .f32) (x8 : Vec Ideal S1x128 .f32) (x9 : Vec Ideal S1x64 .f32) (x10 : Vec Ideal S64x1 .f32)

theorem run_L22 : (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.1 = bRuIdx.map (bRuPc (arg8.view.read (Elt Ideal) (harg8.unread x8))) := rfl

theorem run_L25 : (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.2.1 = bCIdx.map (bCPc (arg9.view.read (Elt Ideal) (harg9.unread x9))) := rfl

theorem run_L26 : (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.2.2.1
      = wppIdx.map (wppPc (arg10.view.read (Elt Ideal) (harg10.unread x10)))
        ++ [(⟨Rect.unit ![0, 0] S128x2.size inb_S128x2_S128x2_0_0, k0_pay127 (F := Ideal)⟩ : View.Piece (Elt Ideal) S128x2 .f32)] := rfl

theorem out_bRu1 (A : Cert.Spec.Args) (h8 : ∀ o, x8 (ix2 0 o) = A.bru1 (ix1 o)) (c' : Fin 256) :
    out0_22 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix2 0 c') = Cert.Packed.bRu1 A c' := by
  unfold out0_22
  rw [View.read_writes_junk_eq_canon, run_L22, harg8.read_unread x8]
  exact canon_bRu1 A x8 h8 c'

theorem out_bC1 (A : Cert.Spec.Args) (h9 : ∀ o, x9 (ix2 0 o) = A.bc1 (ix1 o)) (c' : Fin 128) :
    out0_25 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix2 0 c') = Cert.Packed.bC1 A c' := by
  unfold out0_25
  rw [View.read_writes_junk_eq_canon, run_L25, harg9.read_unread x9]
  exact canon_bC1 A x9 h9 c'

theorem out_wpp (A : Cert.Spec.Args) (h10 : ∀ u, x10 (ix2 u 0) = A.wp (ix2 u 0)) (i : Fin 128) (j : Fin 2) :
    out0_26 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix2 i j) = Cert.Packed.wpp A i j := by
  unfold out0_26
  rw [View.read_writes_junk_eq_canon, run_L26, harg10.read_unread x10]
  exact canon_wpp A x10 h10 (k0_pay127 (F := Ideal)) (fun _ => rfl) _ i j

end Run

end Cert.KernelIdeal.KVal

end
-- ==== Proof.KVal.PrepW4.lean ====
import proofs.«134251_g19069654794669_cont_sun_m_30_29_alg».proof.Proof.KVal.PrepW2b

noncomputable section

namespace Cert.KernelIdeal.KVal

open Cert.KernelIdeal Cert.KernelIdeal.Gen
open Idealize.ShloMosaic Idealize.ShloMosaic.ValueIdx

def inRow {C R W : Nat} (X : Vec Ideal ⟨3, ![3, R, W]⟩ .f32) (r0 c0 k co : Nat)
    (inbS : ∀ a, (![r0, c0] : Fin 2 → Nat) a + S1x64.size a ≤ (⟨2, ![6, C]⟩ : Shape).size a)
    (inbL : ∀ a, (![k, 0, co] : Fin 3 → Nat) a + S1x1x64.size a ≤ (⟨3, ![3, R, W]⟩ : Shape).size a) :
    View.Piece (Elt Ideal) ⟨2, ![6, C]⟩ .f32 :=
  ⟨Rect.unit ![r0, c0] S1x64.size inbS,
    shapeCast S1x64 (shapeCast S64 (View.ld X (Rect.unit ![k, 0, co] S1x1x64.size inbL)) shapeCasts_S1x1x64_S64) shapeCasts_S64_S1x64⟩

theorem inRow_apply {C R W : Nat} (X : Vec Ideal ⟨3, ![3, R, W]⟩ .f32) (r0 c0 k co : Nat) (inbS) (inbL) (j : Fin 64)
    (h0 : k < 3) (h1 : 0 < R) (h2 : co + j.val < W) :
    (inRow (C := C) X r0 c0 k co inbS inbL).2 (ix2 0 j) = X (ix3 ⟨k, h0⟩ ⟨0, h1⟩ ⟨co + j.val, h2⟩) := by
  unfold inRow
  dsimp only
  refine (cast_n_1xn _ _ j).trans ((cast_1x1xn_n _ _ j).trans ?_)
  exact ld_unit3 X k 0 co inbL 0 0 j h0 h1 h2

theorem inRow_agrees {C R W : Nat} (X : Vec Ideal ⟨3, ![3, R, W]⟩ .f32) (r0 c0 k co : Nat) (inbS) (inbL)
    (g : Fin 6 → Fin C → EReal) (h0 : k < 3) (h1 : 0 < R) (hr : r0 < 6)
    (hg : ∀ (j : Fin 64) (h2 : co + j.val < W) (h3 : c0 + j.val < C),
      X (ix3 ⟨k, h0⟩ ⟨0, h1⟩ ⟨co + j.val, h2⟩) = g ⟨r0, hr⟩ ⟨c0 + j.val, h3⟩)
    (x : (inRow (C := C) X r0 c0 k co inbS inbL).1.shape.Idx) :
    (inRow (C := C) X r0 c0 k co inbS inbL).2 x = at2 g ((inRow (C := C) X r0 c0 k co inbS inbL).1.emb x) := by
  obtain ⟨j, rfl⟩ := exists_ix2_row x
  have hS1 := inbS 1; have hL2 := inbL 2
  have b2 : co + j.val < W := by have := j.isLt; change co + 64 ≤ W at hL2; omega
  have b3 : c0 + j.val < C := by have := j.isLt; change c0 + 64 ≤ C at hS1; omega
  obtain ⟨e0, e1⟩ := emb_unit2_val (n0 := 6) (n1 := C) r0 c0 inbS (0 : Fin 1) j
  rw [inRow_apply X r0 c0 k co inbS inbL j h0 h1 b2, hg j b2 b3]
  exact (at2_of_val g _ ⟨r0, hr⟩ ⟨c0 + j.val, b3⟩ e0 e1).symm

theorem mem_inRow {C R W : Nat} (X : Vec Ideal ⟨3, ![3, R, W]⟩ .f32) (r0 c0 k co : Nat) (inbS) (inbL) (r : Fin 6) (c : Fin C) :
    ix2 r c ∈ (inRow (C := C) X r0 c0 k co inbS inbL).1.set ↔ (r0 ≤ r.val ∧ r.val < r0 + 1) ∧ (c0 ≤ c.val ∧ c.val < c0 + 64) := by
  unfold inRow
  dsimp only
  rw [Rect.mem_set_unit]
  exact Fin.forall_fin_two

def aRuIdx : List (Fin 3 × Fin 2 × Fin 2) :=
  [(2, 1, 1), (2, 1, 0), (2, 0, 1), (2, 0, 0), (1, 1, 1), (1, 1, 0), (1, 0, 1), (1, 0, 0), (0, 1, 1), (0, 1, 0), (0, 0, 1), (0, 0, 0)]

theorem aRuIdx_all : ∀ t : Fin 3 × Fin 2 × Fin 2, t ∈ aRuIdx := by decide

def aRuPc (X : Vec Ideal S3x65x128 .f32) (t : Fin 3 × Fin 2 × Fin 2) : View.Piece (Elt Ideal) S6x256 .f32 :=
  inRow (C := 256) (R := 65) (W := 128) X (2 * t.1.val + t.2.1.val) (64 * t.2.1.val + 128 * t.2.2.val) t.1.val (64 * t.2.2.val)
    (inb2 (by have := t.1.isLt; have := t.2.1.isLt; omega) (by have := t.2.1.isLt; have := t.2.2.isLt; omega))
    (inb3 (by have := t.1.isLt; omega) (by omega) (by have := t.2.2.isLt; omega))

section ARu
variable (A : Cert.Spec.Args) (X : Vec Ideal S3x65x128 .f32)
  (h2 : ∀ k f o, X (ix3 k f o) = Cert.Spec.rows3 (nf := 65) A.wru0 f k o)

include h2 in
theorem aRuPc_agrees (t : Fin 3 × Fin 2 × Fin 2) (x : (aRuPc X t).1.shape.Idx) :
    (aRuPc X t).2 x = at2 (Cert.Packed.waRu0 A) ((aRuPc X t).1.emb x) := by
  obtain ⟨k, a, b⟩ := t
  have hk := k.isLt; have ha := a.isLt; have hb := b.isLt
  refine inRow_agrees X _ _ _ _ _ _ (Cert.Packed.waRu0 A) k.isLt (by omega) (by show 2 * k.val + a.val < 6; omega) (fun j h3 h4 => ?_) x
  have hj := j.isLt
  dsimp only at h3 h4 ⊢
  have hel : Cert.Packed.inElt ⟨2 * k.val + a.val, by omega⟩ = Cert.Packed.ruElt ⟨64 * a.val + 128 * b.val + j.val, h4⟩ :=
    Fin.ext (by show (2 * k.val + a.val) % 2 = (64 * a.val + 128 * b.val + j.val) / 64 % 2; omega)
  have et : Cert.Packed.inTerm ⟨2 * k.val + a.val, by omega⟩ = ⟨k.val, hk⟩ :=
    Fin.ext (by show (2 * k.val + a.val) / 2 = k.val; omega)
  have ec : Cert.Packed.ruCol ⟨64 * a.val + 128 * b.val + j.val, h4⟩ = ⟨64 * b.val + j.val, h3⟩ :=
    Fin.ext (by show 64 * ((64 * a.val + 128 * b.val + j.val) / 128) + (64 * a.val + 128 * b.val + j.val) % 64 = 64 * b.val + j.val; omega)
  rw [h2]
  unfold Cert.Packed.waRu0
  rw [if_pos hel, et, ec]
  rfl

theorem aRuFill_agrees (Z : FVec Ideal S6x256 .f32) (hZ : ∀ y, Z y = Cert.Spec.zero) (y : S6x256.Idx)
    (hn : ∀ t ∈ aRuIdx, y ∉ (aRuPc X t).1.set) : Z y = at2 (Cert.Packed.waRu0 A) y := by
  obtain ⟨r, c, rfl⟩ : ∃ (r : Fin 6) (c : Fin 256), y = ix2 r c := ⟨y 0, y 1, eq_ix2 y⟩
  rw [at2_ix2, hZ]
  unfold Cert.Packed.waRu0
  rw [if_neg]
  intro hel
  have hv : r.val % 2 = c.val / 64 % 2 := congrArg Fin.val hel
  have hr := r.isLt; have hc := c.isLt
  refine hn (⟨r.val / 2, by omega⟩, ⟨r.val % 2, by omega⟩, ⟨c.val / 128, by omega⟩) (aRuIdx_all _) ?_
  exact (mem_inRow X _ _ _ _ _ _ r c).2
    ⟨⟨by show 2 * (r.val / 2) + r.val % 2 ≤ r.val; omega, by show r.val < 2 * (r.val / 2) + r.val % 2 + 1; omega⟩,
      by show 64 * (r.val % 2) + 128 * (c.val / 128) ≤ c.val; omega, by show c.val < 64 * (r.val % 2) + 128 * (c.val / 128) + 64; omega⟩

include h2 in

theorem canon_waRu0 (Z : FVec Ideal S6x256 .f32) (hZ : ∀ y, Z y = Cert.Spec.zero)
    (inb : ∀ a, (![0, 0] : Fin 2 → Nat) a + S6x256.size a ≤ S6x256.size a) (r : Fin 6) (c : Fin 256) :
    View.canon (aRuIdx.map (aRuPc X) ++ [(⟨Rect.unit ![0, 0] S6x256.size inb, Z⟩ : View.Piece (Elt Ideal) S6x256 .f32)]) (ix2 r c)
      = Cert.Packed.waRu0 A r c :=
  (canon_family_fill (aRuPc X) aRuIdx (at2 (Cert.Packed.waRu0 A)) off2 inb Z
    (fun t _ x => aRuPc_agrees A X h2 t x) (fun y hn => aRuFill_agrees A X Z hZ y hn) (ix2 r c)).trans (at2_ix2 _ r c)

end ARu

def aCIdx : List (Fin 3 × Fin 2) := [(2, 1), (2, 0), (1, 1), (1, 0), (0, 1), (0, 0)]

theorem aCIdx_all : ∀ t : Fin 3 × Fin 2, t ∈ aCIdx := by decide

def aCPc (X : Vec Ideal S3x65x64 .f32) (t : Fin 3 × Fin 2) : View.Piece (Elt Ideal) S6x128 .f32 :=
  inRow (C := 128) (R := 65) (W := 64) X (2 * t.1.val + t.2.val) (64 * t.2.val) t.1.val 0
    (inb2 (by have := t.1.isLt; have := t.2.isLt; omega) (by have := t.2.isLt; omega))
    (inb3 (by have := t.1.isLt; omega) (by omega) (Nat.le_refl _))

section AC
variable (A : Cert.Spec.Args) (X : Vec Ideal S3x65x64 .f32)
  (h3 : ∀ k f o, X (ix3 k f o) = Cert.Spec.rows3 (nf := 65) A.wc0 f k o)

include h3 in
theorem aCPc_agrees (t : Fin 3 × Fin 2) (x : (aCPc X t).1.shape.Idx) :
    (aCPc X t).2 x = at2 (Cert.Packed.waC0 A) ((aCPc X t).1.emb x) := by
  obtain ⟨k, a⟩ := t
  have hk := k.isLt; have ha := a.isLt
  refine inRow_agrees X _ _ _ _ _ _ (Cert.Packed.waC0 A) k.isLt (by omega) (by show 2 * k.val + a.val < 6; omega) (fun j h4 h5 => ?_) x
  have hj := j.isLt
  dsimp only at h4 h5 ⊢
  have hel : Cert.Packed.inElt ⟨2 * k.val + a.val, by omega⟩ = Cert.Packed.cElt ⟨64 * a.val + j.val, h5⟩ :=
    Fin.ext (by show (2 * k.val + a.val) % 2 = (64 * a.val + j.val) / 64; omega)
  have et : Cert.Packed.inTerm ⟨2 * k.val + a.val, by omega⟩ = ⟨k.val, hk⟩ :=
    Fin.ext (by show (2 * k.val + a.val) / 2 = k.val; omega)
  have ec : Cert.Packed.cCol ⟨64 * a.val + j.val, h5⟩ = ⟨0 + j.val, h4⟩ :=
    Fin.ext (by show (64 * a.val + j.val) % 64 = 0 + j.val; omega)
  rw [h3]
  unfold Cert.Packed.waC0
  rw [if_pos hel, et, ec]
  rfl

theorem aCFill_agrees (Z : FVec Ideal S6x128 .f32) (hZ : ∀ y, Z y = Cert.Spec.zero) (y : S6x128.Idx)
    (hn : ∀ t ∈ aCIdx, y ∉ (aCPc X t).1.set) : Z y = at2 (Cert.Packed.waC0 A) y := by
  obtain ⟨r, c, rfl⟩ : ∃ (r : Fin 6) (c : Fin 128), y = ix2 r c := ⟨y 0, y 1, eq_ix2 y⟩
  rw [at2_ix2, hZ]
  unfold Cert.Packed.waC0
  rw [if_neg]
  intro hel
  have hv : r.val % 2 = c.val / 64 := congrArg Fin.val hel
  have hr := r.isLt; have hc := c.isLt
  refine hn (⟨r.val / 2, by omega⟩, ⟨r.val % 2, by omega⟩) (aCIdx_all _) ?_
  exact (mem_inRow X _ _ _ _ _ _ r c).2
    ⟨⟨by show 2 * (r.val / 2) + r.val % 2 ≤ r.val; omega, by show r.val < 2 * (r.val / 2) + r.val % 2 + 1; omega⟩,
      by show 64 * (r.val % 2) ≤ c.val; omega, by show c.val < 64 * (r.val % 2) + 64; omega⟩

include h3 in

theorem canon_waC0 (Z : FVec Ideal S6x128 .f32) (hZ : ∀ y, Z y = Cert.Spec.zero)
    (inb : ∀ a, (![0, 0] : Fin 2 → Nat) a + S6x128.size a ≤ S6x128.size a) (r : Fin 6) (c : Fin 128) :
    View.canon (aCIdx.map (aCPc X) ++ [(⟨Rect.unit ![0, 0] S6x128.size inb, Z⟩ : View.Piece (Elt Ideal) S6x128 .f32)]) (ix2 r c)
      = Cert.Packed.waC0 A r c :=
  (canon_family_fill (aCPc X) aCIdx (at2 (Cert.Packed.waC0 A)) off2 inb Z
    (fun t _ x => aCPc_agrees A X h3 t x) (fun y hn => aCFill_agrees A X Z hZ y hn) (ix2 r c)).trans (at2_ix2 _ r c)

end AC

section Run
open Cert.KernelIdeal.FrameH
variable (c : Dev nD) (arg0 : Memref sig .tc .vmem S512x512 .f32) (harg0 : arg0.IsWhole) (arg1 : Memref sig .tc .vmem S64x512 .f32) (harg1 : arg1.IsWhole) (arg2 : Memref sig .tc .vmem S3x65x128 .f32) (harg2 : arg2.IsWhole) (arg3 : Memref sig .tc .vmem S3x65x64 .f32) (harg3 : arg3.IsWhole) (arg4 : Memref sig .tc .vmem S3x128x128 .f32) (harg4 : arg4.IsWhole) (arg5 : Memref sig .tc .vmem S3x128x64 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S512x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S6x256 .f32) (harg14 : arg14.IsWhole) (arg15 : Memref sig .tc .vmem S3x128x256 .f32) (harg15 : arg15.IsWhole) (arg16 : Memref sig .tc .vmem S1x256 .f32) (harg16 : arg16.IsWhole) (arg17 : Memref sig .tc .vmem S6x128 .f32) (harg17 : arg17.IsWhole) (arg18 : Memref sig .tc .vmem S3x128x128 .f32) (harg18 : arg18.IsWhole) (arg19 : Memref sig .tc .vmem S1x128 .f32) (harg19 : arg19.IsWhole) (arg20 : Memref sig .tc .vmem S3x128x256 .f32) (harg20 : arg20.IsWhole) (arg21 : Memref sig .tc .vmem S3x128x256 .f32) (harg21 : arg21.IsWhole) (arg22 : Memref sig .tc .vmem S1x256 .f32) (harg22 : arg22.IsWhole) (arg23 : Memref sig .tc .vmem S3x128x128 .f32) (harg23 : arg23.IsWhole) (arg24 : Memref sig .tc .vmem S3x128x128 .f32) (harg24 : arg24.IsWhole) (arg25 : Memref sig .tc .vmem S1x128 .f32) (harg25 : arg25.IsWhole) (arg26 : Memref sig .tc .vmem S128x2 .f32) (harg26 : arg26.IsWhole)
    (x0 : Vec Ideal S512x512 .f32) (x1 : Vec Ideal S64x512 .f32) (x2 : Vec Ideal S3x65x128 .f32) (x3 : Vec Ideal S3x65x64 .f32) (x4 : Vec Ideal S3x128x128 .f32) (x5 : Vec Ideal S3x128x64 .f32) (x6 : Vec Ideal S1x128 .f32) (x7 : Vec Ideal S1x64 .f32) (x8 : Vec Ideal S1x128 .f32) (x9 : Vec Ideal S1x64 .f32) (x10 : Vec Ideal S64x1 .f32)

theorem run_L14 : (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.1
      = aRuIdx.map (aRuPc (arg2.view.read (Elt Ideal) (harg2.unread x2)))
        ++ [(⟨Rect.unit ![0, 0] S6x256.size inb_S6x256_S6x256_0_0, k0_pay4 (F := Ideal)⟩ : View.Piece (Elt Ideal) S6x256 .f32)] := rfl

theorem run_L17 : (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.1
      = aCIdx.map (aCPc (arg3.view.read (Elt Ideal) (harg3.unread x3)))
        ++ [(⟨Rect.unit ![0, 0] S6x128.size inb_S6x128_S6x128_0_0, k0_pay5 (F := Ideal)⟩ : View.Piece (Elt Ideal) S6x128 .f32)] := rfl

theorem out_waRu0 (A : Cert.Spec.Args) (h2 : ∀ k f o, x2 (ix3 k f o) = Cert.Spec.rows3 (nf := 65) A.wru0 f k o) (r : Fin 6) (c' : Fin 256) :
    out0_14 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix2 r c') = Cert.Packed.waRu0 A r c' := by
  unfold out0_14
  rw [View.read_writes_junk_eq_canon, run_L14, harg2.read_unread x2]
  exact canon_waRu0 A x2 h2 (k0_pay4 (F := Ideal)) (fun _ => rfl) _ r c'

theorem out_waC0 (A : Cert.Spec.Args) (h3 : ∀ k f o, x3 (ix3 k f o) = Cert.Spec.rows3 (nf := 65) A.wc0 f k o) (r : Fin 6) (c' : Fin 128) :
    out0_17 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix2 r c') = Cert.Packed.waC0 A r c' := by
  unfold out0_17
  rw [View.read_writes_junk_eq_canon, run_L17, harg3.read_unread x3]
  exact canon_waC0 A x3 h3 (k0_pay5 (F := Ideal)) (fun _ => rfl) _ r c'

end Run

end Cert.KernelIdeal.KVal

end
-- ==== Proof.KVal.PrepW5.lean ====
import proofs.«134251_g19069654794669_cont_sun_m_30_29_alg».proof.Proof.KernelIdealH.Region0
import proofs.«134251_g19069654794669_cont_sun_m_30_29_alg».proof.Proof.KVal.PrepWLib
import proofs.«134251_g19069654794669_cont_sun_m_30_29_alg».proof.Proof.Spec
import proofs.«134251_g19069654794669_cont_sun_m_30_29_alg».proof.Proof.Packed
import Idealize.ShloMosaic.PureOps.Ideal.Laws

set_option maxRecDepth 16384

noncomputable section

namespace Cert.KernelIdeal.KVal

open Cert.KernelIdeal Cert.KernelIdeal.Gen
open Idealize.ShloMosaic Idealize.ShloMosaic.ValueIdx Cert.Spec Cert.Packed

section RuBias

variable (arg6 : Memref sig .tc .vmem S1x128 .f32) (harg6 : arg6.IsWhole) (x6 : Vec Ideal S1x128 .f32)

def rowRu (h e : Fin 2) : View.Piece (Elt Ideal) S1x256 .f32 :=
  ⟨Rect.unit (s := S1x256) ![0, 128 * h.val + 64 * e.val] ![1, 64] (fun a => by
      have := h.isLt; have := e.isLt
      match a with
      | ⟨0, _⟩ => show 0 + 1 ≤ 1; omega
      | ⟨1, _⟩ => show 128 * h.val + 64 * e.val + 64 ≤ 256; omega),
    shapeCast S1x64 (shapeCast S64
      (View.readAt (Elt Ideal) arg6.view (Rect.unit (s := S1x128) ![0, 64 * h.val] ![1, 64] (fun a => by
        have := h.isLt
        match a with
        | ⟨0, _⟩ => show 0 + 1 ≤ 1; omega
        | ⟨1, _⟩ => show 64 * h.val + 64 ≤ 128; omega)).toLoadRect (harg6.unread x6))
      shapeCasts_S1x64_S64) shapeCasts_S64_S1x64⟩

def rowsRu : List (View.Piece (Elt Ideal) S1x256 .f32) :=
  [rowRu arg6 harg6 x6 1 1, rowRu arg6 harg6 x6 1 0, rowRu arg6 harg6 x6 0 1, rowRu arg6 harg6 x6 0 0]

theorem mem_rowsRu (p : View.Piece (Elt Ideal) S1x256 .f32) :
    p ∈ rowsRu arg6 harg6 x6 ↔ ∃ h e, p = rowRu arg6 harg6 x6 h e := by
  constructor
  · intro hp
    simp only [rowsRu, List.mem_cons, List.not_mem_nil, or_false] at hp
    rcases hp with rfl | rfl | rfl | rfl <;> exact ⟨_, _, rfl⟩
  · rintro ⟨h, e, rfl⟩
    simp only [rowsRu, List.mem_cons, List.not_mem_nil, or_false]
    fin_cases h <;> fin_cases e <;> simp

theorem mem_rowRu (h e : Fin 2) (c' : Fin 256) :
    ix2 (0 : Fin 1) c' ∈ (rowRu arg6 harg6 x6 h e).1.set
      ↔ (0 ≤ (0 : Fin 1).val ∧ (0 : Fin 1).val < 0 + 1)
        ∧ (128 * h.val + 64 * e.val ≤ c'.val ∧ c'.val < 128 * h.val + 64 * e.val + 64) := by
  dsimp only [rowRu]
  rw [mem_unit2]

variable (A : Cert.Spec.Args) (h6 : ∀ o, x6 (ix2 0 o) = A.bru0 (ix1 o))

def gBRu (y : S1x256.Idx) : Elt Ideal .f32 := bRu0 A ⟨(y 1).val, (y 1).isLt⟩

include h6 in

theorem rowRu_spec (h e : Fin 2) (x : (rowRu arg6 harg6 x6 h e).1.shape.Idx) :
    (rowRu arg6 harg6 x6 h e).2 x = gBRu A ((rowRu arg6 harg6 x6 h e).1.emb x) := by
  obtain ⟨j, rfl⟩ := exists_ix2_row (n := 64) x
  have hh := h.isLt; have he := e.isLt; have hj := j.isLt
  refine Eq.trans (b := x6 (ix2 ⟨0, by omega⟩ ⟨64 * h.val + j.val, by omega⟩)) ?_ ?_
  · dsimp only [rowRu]
    rw [shapeCast_shapeCast, View.readAt_eq_ld, harg6.read_unread]
    exact ld_row2 x6 0 (64 * h.val) _ j (by omega) (by omega)
  refine (h6 ⟨64 * h.val + j.val, by omega⟩).trans ?_
  have e1 : ((rowRu arg6 harg6 x6 h e).1.emb (ix2 0 j) 1).val = 128 * h.val + 64 * e.val + j.val := by
    show 128 * h.val + 64 * e.val + 1 * j.val = _; omega
  show _ = A.bru0 (ix1 (ruCol ⟨((rowRu arg6 harg6 x6 h e).1.emb (ix2 0 j) 1).val, _⟩))
  refine congrArg (fun o => A.bru0 (ix1 o)) (Fin.ext ?_)
  show 64 * h.val + j.val = 64 * (((rowRu arg6 harg6 x6 h e).1.emb (ix2 0 j) 1).val / 128)
    + ((rowRu arg6 harg6 x6 h e).1.emb (ix2 0 j) 1).val % 64
  rw [e1]; omega

include h6 in

theorem canon_bRu0 (c' : Fin 256) : View.canon (rowsRu arg6 harg6 x6) (ix2 0 c') = bRu0 A c' := by
  have hc := c'.isLt
  refine (View.canon_apply_of_pieces (gBRu A) (rowsRu arg6 harg6 x6) (fun p hp x => ?_) (ix2 0 c') ?_).trans rfl
  · obtain ⟨h, e, rfl⟩ := (mem_rowsRu arg6 harg6 x6 p).1 hp
    exact rowRu_spec arg6 harg6 x6 A h6 h e x
  · refine ⟨rowRu arg6 harg6 x6 ⟨c'.val / 128, by omega⟩ ⟨c'.val / 64 % 2, by omega⟩,
      (mem_rowsRu arg6 harg6 x6 _).2 ⟨_, _, rfl⟩, ?_⟩
    rw [mem_rowRu]
    show (0 ≤ 0 ∧ 0 < 0 + 1) ∧ (128 * (c'.val / 128) + 64 * (c'.val / 64 % 2) ≤ c'.val
      ∧ c'.val < 128 * (c'.val / 128) + 64 * (c'.val / 64 % 2) + 64)
    omega

end RuBias

section CBias

variable (arg7 : Memref sig .tc .vmem S1x64 .f32) (harg7 : arg7.IsWhole) (x7 : Vec Ideal S1x64 .f32)

def rowC (e : Fin 2) : View.Piece (Elt Ideal) S1x128 .f32 :=
  ⟨Rect.unit (s := S1x128) ![0, 64 * e.val] ![1, 64] (fun a => by
      have := e.isLt
      match a with
      | ⟨0, _⟩ => show 0 + 1 ≤ 1; omega
      | ⟨1, _⟩ => show 64 * e.val + 64 ≤ 128; omega),
    shapeCast S1x64 (shapeCast S64
      (View.readAt (Elt Ideal) arg7.view (Rect.unit (s := S1x64) ![0, 0] ![1, 64] (fun a => by
        match a with
        | ⟨0, _⟩ => show 0 + 1 ≤ 1; omega
        | ⟨1, _⟩ => show 0 + 64 ≤ 64; omega)).toLoadRect (harg7.unread x7))
      shapeCasts_S1x64_S64) shapeCasts_S64_S1x64⟩

def rowsC : List (View.Piece (Elt Ideal) S1x128 .f32) := [rowC arg7 harg7 x7 1, rowC arg7 harg7 x7 0]

theorem mem_rowsC (p : View.Piece (Elt Ideal) S1x128 .f32) :
    p ∈ rowsC arg7 harg7 x7 ↔ ∃ e, p = rowC arg7 harg7 x7 e := by
  constructor
  · intro hp
    simp only [rowsC, List.mem_cons, List.not_mem_nil, or_false] at hp
    rcases hp with rfl | rfl <;> exact ⟨_, rfl⟩
  · rintro ⟨e, rfl⟩
    simp only [rowsC, List.mem_cons, List.not_mem_nil, or_false]
    fin_cases e <;> simp

theorem mem_rowC (e : Fin 2) (c' : Fin 128) :
    ix2 (0 : Fin 1) c' ∈ (rowC arg7 harg7 x7 e).1.set
      ↔ (0 ≤ (0 : Fin 1).val ∧ (0 : Fin 1).val < 0 + 1) ∧ (64 * e.val ≤ c'.val ∧ c'.val < 64 * e.val + 64) := by
  dsimp only [rowC]
  rw [mem_unit2]

variable (A : Cert.Spec.Args) (h7 : ∀ o, x7 (ix2 0 o) = A.bc0 (ix1 o))

def gBC (y : S1x128.Idx) : Elt Ideal .f32 := bC0 A ⟨(y 1).val, (y 1).isLt⟩

include h7 in

theorem rowC_spec (e : Fin 2) (x : (rowC arg7 harg7 x7 e).1.shape.Idx) :
    (rowC arg7 harg7 x7 e).2 x = gBC A ((rowC arg7 harg7 x7 e).1.emb x) := by
  obtain ⟨j, rfl⟩ := exists_ix2_row (n := 64) x
  have he := e.isLt; have hj := j.isLt
  refine Eq.trans (b := x7 (ix2 ⟨0, by omega⟩ ⟨0 + j.val, by omega⟩)) ?_ ?_
  · dsimp only [rowC]
    rw [shapeCast_shapeCast, View.readAt_eq_ld, harg7.read_unread]
    exact ld_row2 x7 0 0 _ j (by omega) (by omega)
  refine (h7 ⟨0 + j.val, by omega⟩).trans ?_
  have e1 : ((rowC arg7 harg7 x7 e).1.emb (ix2 0 j) 1).val = 64 * e.val + j.val := by
    show 64 * e.val + 1 * j.val = _; omega
  show _ = A.bc0 (ix1 (cCol ⟨((rowC arg7 harg7 x7 e).1.emb (ix2 0 j) 1).val, _⟩))
  refine congrArg (fun o => A.bc0 (ix1 o)) (Fin.ext ?_)
  show 0 + j.val = ((rowC arg7 harg7 x7 e).1.emb (ix2 0 j) 1).val % 64
  rw [e1]; omega

include h7 in

theorem canon_bC0 (c' : Fin 128) : View.canon (rowsC arg7 harg7 x7) (ix2 0 c') = bC0 A c' := by
  have hc := c'.isLt
  refine (View.canon_apply_of_pieces (gBC A) (rowsC arg7 harg7 x7) (fun p hp x => ?_) (ix2 0 c') ?_).trans rfl
  · obtain ⟨e, rfl⟩ := (mem_rowsC arg7 harg7 x7 p).1 hp
    exact rowC_spec arg7 harg7 x7 A h7 e x
  · refine ⟨rowC arg7 harg7 x7 ⟨c'.val / 64, by omega⟩, (mem_rowsC arg7 harg7 x7 _).2 ⟨_, rfl⟩, ?_⟩
    rw [mem_rowC]
    show (0 ≤ 0 ∧ 0 < 0 + 1) ∧ (64 * (c'.val / 64) ≤ c'.val ∧ c'.val < 64 * (c'.val / 64) + 64)
    omega

end CBias

end Cert.KernelIdeal.KVal

namespace Cert.KernelIdeal.KVal

open Cert.KernelIdeal Cert.KernelIdeal.Gen Cert.KernelIdeal.FrameH
open Idealize.ShloMosaic Idealize.ShloMosaic.ValueIdx Idealize.ShloMosaic.TcCoe Idealize.ShloMosaic.Tactic Idealize.SL.Sem Cert.Spec Cert.Packed

section Run

variable (c : Dev nD) (arg0 : Memref sig .tc .vmem S512x512 .f32) (harg0 : arg0.IsWhole) (arg1 : Memref sig .tc .vmem S64x512 .f32) (harg1 : arg1.IsWhole) (arg2 : Memref sig .tc .vmem S3x65x128 .f32) (harg2 : arg2.IsWhole) (arg3 : Memref sig .tc .vmem S3x65x64 .f32) (harg3 : arg3.IsWhole) (arg4 : Memref sig .tc .vmem S3x128x128 .f32) (harg4 : arg4.IsWhole) (arg5 : Memref sig .tc .vmem S3x128x64 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S512x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S6x256 .f32) (harg14 : arg14.IsWhole) (arg15 : Memref sig .tc .vmem S3x128x256 .f32) (harg15 : arg15.IsWhole) (arg16 : Memref sig .tc .vmem S1x256 .f32) (harg16 : arg16.IsWhole) (arg17 : Memref sig .tc .vmem S6x128 .f32) (harg17 : arg17.IsWhole) (arg18 : Memref sig .tc .vmem S3x128x128 .f32) (harg18 : arg18.IsWhole) (arg19 : Memref sig .tc .vmem S1x128 .f32) (harg19 : arg19.IsWhole) (arg20 : Memref sig .tc .vmem S3x128x256 .f32) (harg20 : arg20.IsWhole) (arg21 : Memref sig .tc .vmem S3x128x256 .f32) (harg21 : arg21.IsWhole) (arg22 : Memref sig .tc .vmem S1x256 .f32) (harg22 : arg22.IsWhole) (arg23 : Memref sig .tc .vmem S3x128x128 .f32) (harg23 : arg23.IsWhole) (arg24 : Memref sig .tc .vmem S3x128x128 .f32) (harg24 : arg24.IsWhole) (arg25 : Memref sig .tc .vmem S1x128 .f32) (harg25 : arg25.IsWhole) (arg26 : Memref sig .tc .vmem S128x2 .f32) (harg26 : arg26.IsWhole)
    (x0 : Vec Ideal S512x512 .f32) (x1 : Vec Ideal S64x512 .f32) (x2 : Vec Ideal S3x65x128 .f32) (x3 : Vec Ideal S3x65x64 .f32) (x4 : Vec Ideal S3x128x128 .f32) (x5 : Vec Ideal S3x128x64 .f32) (x6 : Vec Ideal S1x128 .f32) (x7 : Vec Ideal S1x64 .f32) (x8 : Vec Ideal S1x128 .f32) (x9 : Vec Ideal S1x64 .f32) (x10 : Vec Ideal S64x1 .f32)

set_option maxHeartbeats 4000000 in

theorem out_bRu0 (A : Cert.Spec.Args) (h6 : ∀ o, x6 (ix2 0 o) = A.bru0 (ix1 o)) (c' : Fin 256) :
    FrameH.out0_16 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix2 0 c') = Cert.Packed.bRu0 A c' := by
  unfold FrameH.out0_16
  rw [View.read_writes_junk_eq_canon]
  have hL : (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.1 = rowsRu arg6 harg6 x6 := by
    unfold kernelRun0
    dsimp only
    sl_unfold_words
    rfl
  rw [hL]
  exact canon_bRu0 arg6 harg6 x6 A h6 c'

set_option maxHeartbeats 4000000 in

theorem out_bC0 (A : Cert.Spec.Args) (h7 : ∀ o, x7 (ix2 0 o) = A.bc0 (ix1 o)) (c' : Fin 128) :
    FrameH.out0_19 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix2 0 c') = Cert.Packed.bC0 A c' := by
  unfold FrameH.out0_19
  rw [View.read_writes_junk_eq_canon]
  have hL : (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.1 = rowsC arg7 harg7 x7 := by
    unfold kernelRun0
    dsimp only
    sl_unfold_words
    rfl
  rw [hL]
  exact canon_bC0 arg7 harg7 x7 A h7 c'

end Run

end Cert.KernelIdeal.KVal

end
-- ==== Proof.KVal.PrepW2.lean ====
import proofs.«134251_g19069654794669_cont_sun_m_30_29_alg».proof.Proof.KernelIdealH.Region0
import proofs.«134251_g19069654794669_cont_sun_m_30_29_alg».proof.Proof.Spec
import proofs.«134251_g19069654794669_cont_sun_m_30_29_alg».proof.Proof.Packed
import proofs.«134251_g19069654794669_cont_sun_m_30_29_alg».proof.Proof.KVal.PrepWFam

noncomputable section

namespace Cert.KernelIdeal.KVal

open Cert.KernelIdeal Cert.KernelIdeal.Gen
open Idealize.ShloMosaic Idealize.ShloMosaic.ValueIdx

def ruIdx : List (Fin 3 × Fin 2 × Fin 2) :=
  [(2, 1, 1), (2, 1, 0), (2, 0, 1), (2, 0, 0), (1, 1, 1), (1, 1, 0), (1, 0, 1), (1, 0, 0), (0, 1, 1), (0, 1, 0), (0, 0, 1), (0, 0, 0)]

theorem ruIdx_all : ∀ t : Fin 3 × Fin 2 × Fin 2, t ∈ ruIdx := by decide

def ruBlk (X : Vec Ideal S3x128x128 .f32) (fo : Nat) (hfo : fo + 64 ≤ 128) (t : Fin 3 × Fin 2 × Fin 2) :
    View.Piece (Elt Ideal) S3x128x256 .f32 :=
  blk (C := 256) (R := 128) (W := 128) X t.1.val (64 * t.2.1.val) (64 * t.2.1.val + 128 * t.2.2.val) fo (64 * t.2.2.val)
    (inb3 (by have := t.1.isLt; omega) (by have := t.2.1.isLt; omega) (by have := t.2.1.isLt; have := t.2.2.isLt; omega))
    (inb3 (by have := t.1.isLt; omega) hfo (by have := t.2.2.isLt; omega))

def ruW (A : Cert.Spec.Args) (feat : Fin 64 → Fin 128) (k : Fin 3) (i : Fin 128) (c : Fin 256) : EReal :=
  if Cert.Packed.rowElt i = Cert.Packed.ruElt c then
    Cert.Spec.rows3 (nf := 128) A.wru1 (feat (Cert.Packed.rowFeat i)) k (Cert.Packed.ruCol c) else Cert.Spec.zero

section Ru
variable (A : Cert.Spec.Args) (X : Vec Ideal S3x128x128 .f32)
  (h4 : ∀ k f o, X (ix3 k f o) = Cert.Spec.rows3 (nf := 128) A.wru1 f k o)
  (feat : Fin 64 → Fin 128) (fo : Nat) (hfo : fo + 64 ≤ 128) (hfeat : ∀ f : Fin 64, (feat f).val = fo + f.val)

include h4 hfeat in

theorem ruBlk_agrees (t : Fin 3 × Fin 2 × Fin 2) (x : (ruBlk X fo hfo t).1.shape.Idx) :
    (ruBlk X fo hfo t).2 x = at3 (ruW A feat) ((ruBlk X fo hfo t).1.emb x) := by
  obtain ⟨k, a, b⟩ := t
  refine blk_agrees X _ _ _ _ _ _ _ (ruW A feat) k.isLt (fun i j h1 h2 h3 h5 => ?_) x
  have ha := a.isLt; have hb := b.isLt; have hi := i.isLt; have hj := j.isLt
  dsimp only at h1 h2 h3 h5 ⊢
  have hel : Cert.Packed.rowElt ⟨64 * a.val + i.val, h3⟩ = Cert.Packed.ruElt ⟨64 * a.val + 128 * b.val + j.val, h5⟩ :=
    Fin.ext (by show (64 * a.val + i.val) / 64 = (64 * a.val + 128 * b.val + j.val) / 64 % 2; omega)
  have ef : feat (Cert.Packed.rowFeat ⟨64 * a.val + i.val, h3⟩) = ⟨fo + i.val, h1⟩ :=
    Fin.ext (by rw [hfeat]; show fo + (64 * a.val + i.val) % 64 = fo + i.val; omega)
  have ec : Cert.Packed.ruCol ⟨64 * a.val + 128 * b.val + j.val, h5⟩ = ⟨64 * b.val + j.val, h2⟩ :=
    Fin.ext (by show 64 * ((64 * a.val + 128 * b.val + j.val) / 128) + (64 * a.val + 128 * b.val + j.val) % 64 = 64 * b.val + j.val; omega)
  rw [h4]
  unfold ruW
  rw [if_pos hel, ef, ec]

theorem mem_ruBlk (t : Fin 3 × Fin 2 × Fin 2) (k : Fin 3) (i : Fin 128) (c : Fin 256) :
    ix3 k i c ∈ (ruBlk X fo hfo t).1.set ↔ (t.1.val ≤ k.val ∧ k.val < t.1.val + 1) ∧ (64 * t.2.1.val ≤ i.val ∧ i.val < 64 * t.2.1.val + 64)
      ∧ (64 * t.2.1.val + 128 * t.2.2.val ≤ c.val ∧ c.val < 64 * t.2.1.val + 128 * t.2.2.val + 64) := by
  unfold ruBlk blk
  dsimp only
  rw [Rect.mem_set_unit]
  exact Fin.forall_fin_succ.trans (and_congr Iff.rfl Fin.forall_fin_two)

theorem ruFill_agrees (Z : FVec Ideal S3x128x256 .f32) (hZ : ∀ y, Z y = Cert.Spec.zero) (y : S3x128x256.Idx)
    (hn : ∀ t ∈ ruIdx, y ∉ (ruBlk X fo hfo t).1.set) : Z y = at3 (ruW A feat) y := by
  obtain ⟨k, i, c, rfl⟩ : ∃ (k : Fin 3) (i : Fin 128) (c : Fin 256), y = ix3 k i c := ⟨y 0, y 1, y 2, eq_ix3 y⟩
  rw [at3_ix3, hZ]
  unfold ruW
  rw [if_neg]
  intro hel
  have hv : i.val / 64 = c.val / 64 % 2 := congrArg Fin.val hel
  have hk := k.isLt; have hi := i.isLt; have hc := c.isLt
  refine hn (k, ⟨i.val / 64, by omega⟩, ⟨c.val / 128, by omega⟩) (ruIdx_all _) ?_
  exact (mem_ruBlk X fo hfo _ k i c).2
    ⟨⟨Nat.le_refl _, Nat.lt_succ_self _⟩, ⟨by show 64 * (i.val / 64) ≤ i.val; omega, by show i.val < 64 * (i.val / 64) + 64; omega⟩,
      ⟨by show 64 * (i.val / 64) + 128 * (c.val / 128) ≤ c.val; omega, by show c.val < 64 * (i.val / 64) + 128 * (c.val / 128) + 64; omega⟩⟩

include h4 hfeat in

theorem canon_ruW (Z : FVec Ideal S3x128x256 .f32) (hZ : ∀ y, Z y = Cert.Spec.zero)
    (inb : ∀ a, (![0, 0, 0] : Fin 3 → Nat) a + S3x128x256.size a ≤ S3x128x256.size a) (k : Fin 3) (i : Fin 128) (c : Fin 256) :
    View.canon (ruIdx.map (ruBlk X fo hfo) ++ [(⟨Rect.unit ![0, 0, 0] S3x128x256.size inb, Z⟩ : View.Piece (Elt Ideal) S3x128x256 .f32)])
      (ix3 k i c) = ruW A feat k i c :=
  (canon_family_fill (ruBlk X fo hfo) ruIdx (at3 (ruW A feat)) off3 inb Z
    (fun t _ x => ruBlk_agrees A X h4 feat fo hfo hfeat t x) (fun y hn => ruFill_agrees A X feat fo hfo Z hZ y hn) (ix3 k i c)).trans
    (at3_ix3 _ k i c)

end Ru

theorem wgRu1_eq (A : Cert.Spec.Args) (k : Fin 3) (i : Fin 128) (c : Fin 256) :
    Cert.Packed.wgRu1 A k i c = ruW A Cert.Packed.inFeat1 k i c := rfl
theorem wkRu1_eq (A : Cert.Spec.Args) (k : Fin 3) (i : Fin 128) (c : Fin 256) :
    Cert.Packed.wkRu1 A k i c = ruW A Cert.Packed.stFeat1 k i c := rfl

def cIdx : List (Fin 3 × Fin 2) := [(2, 1), (2, 0), (1, 1), (1, 0), (0, 1), (0, 0)]

theorem cIdx_all : ∀ t : Fin 3 × Fin 2, t ∈ cIdx := by decide

def cBlk (X : Vec Ideal S3x128x64 .f32) (fo : Nat) (hfo : fo + 64 ≤ 128) (t : Fin 3 × Fin 2) :
    View.Piece (Elt Ideal) S3x128x128 .f32 :=
  blk (C := 128) (R := 128) (W := 64) X t.1.val (64 * t.2.val) (64 * t.2.val) fo 0
    (inb3 (by have := t.1.isLt; omega) (by have := t.2.isLt; omega) (by have := t.2.isLt; omega))
    (inb3 (by have := t.1.isLt; omega) hfo (Nat.le_refl _))

def cW (A : Cert.Spec.Args) (feat : Fin 64 → Fin 128) (k : Fin 3) (i : Fin 128) (c : Fin 128) : EReal :=
  if Cert.Packed.rowElt i = Cert.Packed.cElt c then
    Cert.Spec.rows3 (nf := 128) A.wc1 (feat (Cert.Packed.rowFeat i)) k (Cert.Packed.cCol c) else Cert.Spec.zero

section C
variable (A : Cert.Spec.Args) (X : Vec Ideal S3x128x64 .f32)
  (h5 : ∀ k f o, X (ix3 k f o) = Cert.Spec.rows3 (nf := 128) A.wc1 f k o)
  (feat : Fin 64 → Fin 128) (fo : Nat) (hfo : fo + 64 ≤ 128) (hfeat : ∀ f : Fin 64, (feat f).val = fo + f.val)

include h5 hfeat in

theorem cBlk_agrees (t : Fin 3 × Fin 2) (x : (cBlk X fo hfo t).1.shape.Idx) :
    (cBlk X fo hfo t).2 x = at3 (cW A feat) ((cBlk X fo hfo t).1.emb x) := by
  obtain ⟨k, a⟩ := t
  refine blk_agrees X _ _ _ _ _ _ _ (cW A feat) k.isLt (fun i j h1 h2 h3 h6 => ?_) x
  have ha := a.isLt; have hi := i.isLt; have hj := j.isLt
  dsimp only at h1 h2 h3 h6 ⊢
  have hel : Cert.Packed.rowElt ⟨64 * a.val + i.val, h3⟩ = Cert.Packed.cElt ⟨64 * a.val + j.val, h6⟩ :=
    Fin.ext (by show (64 * a.val + i.val) / 64 = (64 * a.val + j.val) / 64; omega)
  have ef : feat (Cert.Packed.rowFeat ⟨64 * a.val + i.val, h3⟩) = ⟨fo + i.val, h1⟩ :=
    Fin.ext (by rw [hfeat]; show fo + (64 * a.val + i.val) % 64 = fo + i.val; omega)
  have ec : Cert.Packed.cCol ⟨64 * a.val + j.val, h6⟩ = ⟨0 + j.val, h2⟩ :=
    Fin.ext (by show (64 * a.val + j.val) % 64 = 0 + j.val; omega)
  rw [h5]
  unfold cW
  rw [if_pos hel, ef, ec]

theorem mem_cBlk (t : Fin 3 × Fin 2) (k : Fin 3) (i : Fin 128) (c : Fin 128) :
    ix3 k i c ∈ (cBlk X fo hfo t).1.set ↔ (t.1.val ≤ k.val ∧ k.val < t.1.val + 1) ∧ (64 * t.2.val ≤ i.val ∧ i.val < 64 * t.2.val + 64)
      ∧ (64 * t.2.val ≤ c.val ∧ c.val < 64 * t.2.val + 64) := by
  unfold cBlk blk
  dsimp only
  rw [Rect.mem_set_unit]
  exact Fin.forall_fin_succ.trans (and_congr Iff.rfl Fin.forall_fin_two)

theorem cFill_agrees (Z : FVec Ideal S3x128x128 .f32) (hZ : ∀ y, Z y = Cert.Spec.zero) (y : S3x128x128.Idx)
    (hn : ∀ t ∈ cIdx, y ∉ (cBlk X fo hfo t).1.set) : Z y = at3 (cW A feat) y := by
  obtain ⟨k, i, c, rfl⟩ : ∃ (k : Fin 3) (i : Fin 128) (c : Fin 128), y = ix3 k i c := ⟨y 0, y 1, y 2, eq_ix3 y⟩
  rw [at3_ix3, hZ]
  unfold cW
  rw [if_neg]
  intro hel
  have hv : i.val / 64 = c.val / 64 := congrArg Fin.val hel
  have hk := k.isLt; have hi := i.isLt; have hc := c.isLt
  refine hn (k, ⟨i.val / 64, by omega⟩) (cIdx_all _) ?_
  exact (mem_cBlk X fo hfo _ k i c).2
    ⟨⟨Nat.le_refl _, Nat.lt_succ_self _⟩, ⟨by show 64 * (i.val / 64) ≤ i.val; omega, by show i.val < 64 * (i.val / 64) + 64; omega⟩,
      ⟨by show 64 * (i.val / 64) ≤ c.val; omega, by show c.val < 64 * (i.val / 64) + 64; omega⟩⟩

include h5 hfeat in

theorem canon_cW (Z : FVec Ideal S3x128x128 .f32) (hZ : ∀ y, Z y = Cert.Spec.zero)
    (inb : ∀ a, (![0, 0, 0] : Fin 3 → Nat) a + S3x128x128.size a ≤ S3x128x128.size a) (k : Fin 3) (i : Fin 128) (c : Fin 128) :
    View.canon (cIdx.map (cBlk X fo hfo) ++ [(⟨Rect.unit ![0, 0, 0] S3x128x128.size inb, Z⟩ : View.Piece (Elt Ideal) S3x128x128 .f32)])
      (ix3 k i c) = cW A feat k i c :=
  (canon_family_fill (cBlk X fo hfo) cIdx (at3 (cW A feat)) off3 inb Z
    (fun t _ x => cBlk_agrees A X h5 feat fo hfo hfeat t x) (fun y hn => cFill_agrees A X feat fo hfo Z hZ y hn) (ix3 k i c)).trans
    (at3_ix3 _ k i c)

end C

theorem wgC1_eq (A : Cert.Spec.Args) (k : Fin 3) (i : Fin 128) (c : Fin 128) :
    Cert.Packed.wgC1 A k i c = cW A Cert.Packed.inFeat1 k i c := rfl
theorem wkC1_eq (A : Cert.Spec.Args) (k : Fin 3) (i : Fin 128) (c : Fin 128) :
    Cert.Packed.wkC1 A k i c = cW A Cert.Packed.stFeat1 k i c := rfl

section Run
open Cert.KernelIdeal.FrameH
variable (c : Dev nD) (arg0 : Memref sig .tc .vmem S512x512 .f32) (harg0 : arg0.IsWhole) (arg1 : Memref sig .tc .vmem S64x512 .f32) (harg1 : arg1.IsWhole) (arg2 : Memref sig .tc .vmem S3x65x128 .f32) (harg2 : arg2.IsWhole) (arg3 : Memref sig .tc .vmem S3x65x64 .f32) (harg3 : arg3.IsWhole) (arg4 : Memref sig .tc .vmem S3x128x128 .f32) (harg4 : arg4.IsWhole) (arg5 : Memref sig .tc .vmem S3x128x64 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S512x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S6x256 .f32) (harg14 : arg14.IsWhole) (arg15 : Memref sig .tc .vmem S3x128x256 .f32) (harg15 : arg15.IsWhole) (arg16 : Memref sig .tc .vmem S1x256 .f32) (harg16 : arg16.IsWhole) (arg17 : Memref sig .tc .vmem S6x128 .f32) (harg17 : arg17.IsWhole) (arg18 : Memref sig .tc .vmem S3x128x128 .f32) (harg18 : arg18.IsWhole) (arg19 : Memref sig .tc .vmem S1x128 .f32) (harg19 : arg19.IsWhole) (arg20 : Memref sig .tc .vmem S3x128x256 .f32) (harg20 : arg20.IsWhole) (arg21 : Memref sig .tc .vmem S3x128x256 .f32) (harg21 : arg21.IsWhole) (arg22 : Memref sig .tc .vmem S1x256 .f32) (harg22 : arg22.IsWhole) (arg23 : Memref sig .tc .vmem S3x128x128 .f32) (harg23 : arg23.IsWhole) (arg24 : Memref sig .tc .vmem S3x128x128 .f32) (harg24 : arg24.IsWhole) (arg25 : Memref sig .tc .vmem S1x128 .f32) (harg25 : arg25.IsWhole) (arg26 : Memref sig .tc .vmem S128x2 .f32) (harg26 : arg26.IsWhole)
    (x0 : Vec Ideal S512x512 .f32) (x1 : Vec Ideal S64x512 .f32) (x2 : Vec Ideal S3x65x128 .f32) (x3 : Vec Ideal S3x65x64 .f32) (x4 : Vec Ideal S3x128x128 .f32) (x5 : Vec Ideal S3x128x64 .f32) (x6 : Vec Ideal S1x128 .f32) (x7 : Vec Ideal S1x64 .f32) (x8 : Vec Ideal S1x128 .f32) (x9 : Vec Ideal S1x64 .f32) (x10 : Vec Ideal S64x1 .f32)

theorem run_L20 : (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.1
      = ruIdx.map (ruBlk (arg4.view.read (Elt Ideal) (harg4.unread x4)) 0 (by omega))
        ++ [(⟨Rect.unit ![0, 0, 0] S3x128x256.size inb_S3x128x256_S3x128x256_0_0_0, k0_pay8 (F := Ideal)⟩ : View.Piece (Elt Ideal) S3x128x256 .f32)] := rfl

theorem run_L21 : (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.1
      = ruIdx.map (ruBlk (arg4.view.read (Elt Ideal) (harg4.unread x4)) 64 (by omega))
        ++ [(⟨Rect.unit ![0, 0, 0] S3x128x256.size inb_S3x128x256_S3x128x256_0_0_0, k0_pay9 (F := Ideal)⟩ : View.Piece (Elt Ideal) S3x128x256 .f32)] := rfl

theorem run_L23 : (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.1
      = cIdx.map (cBlk (arg5.view.read (Elt Ideal) (harg5.unread x5)) 0 (by omega))
        ++ [(⟨Rect.unit ![0, 0, 0] S3x128x128.size inb_S3x128x128_S3x128x128_0_0_0, k0_pay10 (F := Ideal)⟩ : View.Piece (Elt Ideal) S3x128x128 .f32)] := rfl

theorem run_L24 : (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.1
      = cIdx.map (cBlk (arg5.view.read (Elt Ideal) (harg5.unread x5)) 64 (by omega))
        ++ [(⟨Rect.unit ![0, 0, 0] S3x128x128.size inb_S3x128x128_S3x128x128_0_0_0, k0_pay11 (F := Ideal)⟩ : View.Piece (Elt Ideal) S3x128x128 .f32)] := rfl

theorem out_wgRu1 (A : Cert.Spec.Args) (h4 : ∀ k f o, x4 (ix3 k f o) = Cert.Spec.rows3 (nf := 128) A.wru1 f k o) (k : Fin 3) (i : Fin 128) (c' : Fin 256) :
    out0_20 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 k i c') = Cert.Packed.wgRu1 A k i c' := by
  unfold out0_20
  rw [View.read_writes_junk_eq_canon, run_L20, harg4.read_unread x4]
  exact (canon_ruW A x4 h4 Cert.Packed.inFeat1 0 (by omega) (fun f => (Nat.zero_add _).symm) (k0_pay8 (F := Ideal)) (fun _ => rfl) _ k i c').trans (wgRu1_eq A k i c').symm

theorem out_wkRu1 (A : Cert.Spec.Args) (h4 : ∀ k f o, x4 (ix3 k f o) = Cert.Spec.rows3 (nf := 128) A.wru1 f k o) (k : Fin 3) (i : Fin 128) (c' : Fin 256) :
    out0_21 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 k i c') = Cert.Packed.wkRu1 A k i c' := by
  unfold out0_21
  rw [View.read_writes_junk_eq_canon, run_L21, harg4.read_unread x4]
  exact (canon_ruW A x4 h4 Cert.Packed.stFeat1 64 (by omega) (fun _ => rfl) (k0_pay9 (F := Ideal)) (fun _ => rfl) _ k i c').trans (wkRu1_eq A k i c').symm

theorem out_wgC1 (A : Cert.Spec.Args) (h5 : ∀ k f o, x5 (ix3 k f o) = Cert.Spec.rows3 (nf := 128) A.wc1 f k o) (k : Fin 3) (i : Fin 128) (c' : Fin 128) :
    out0_23 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 k i c') = Cert.Packed.wgC1 A k i c' := by
  unfold out0_23
  rw [View.read_writes_junk_eq_canon, run_L23, harg5.read_unread x5]
  exact (canon_cW A x5 h5 Cert.Packed.inFeat1 0 (by omega) (fun f => (Nat.zero_add _).symm) (k0_pay10 (F := Ideal)) (fun _ => rfl) _ k i c').trans (wgC1_eq A k i c').symm

theorem out_wkC1 (A : Cert.Spec.Args) (h5 : ∀ k f o, x5 (ix3 k f o) = Cert.Spec.rows3 (nf := 128) A.wc1 f k o) (k : Fin 3) (i : Fin 128) (c' : Fin 128) :
    out0_24 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 k i c') = Cert.Packed.wkC1 A k i c' := by
  unfold out0_24
  rw [View.read_writes_junk_eq_canon, run_L24, harg5.read_unread x5]
  exact (canon_cW A x5 h5 Cert.Packed.stFeat1 64 (by omega) (fun _ => rfl) (k0_pay11 (F := Ideal)) (fun _ => rfl) _ k i c').trans (wkC1_eq A k i c').symm

end Run

end Cert.KernelIdeal.KVal

end
-- ==== Proof.KVal.PrepW3.lean ====
import proofs.«134251_g19069654794669_cont_sun_m_30_29_alg».proof.Proof.KernelIdealH.Region0
import proofs.«134251_g19069654794669_cont_sun_m_30_29_alg».proof.Proof.KVal.PrepWLib
import proofs.«134251_g19069654794669_cont_sun_m_30_29_alg».proof.Proof.Spec
import proofs.«134251_g19069654794669_cont_sun_m_30_29_alg».proof.Proof.Packed
import Idealize.ShloMosaic.PureOps.Ideal.Laws

set_option maxRecDepth 16384

noncomputable section

namespace Cert.KernelIdeal.KVal

open Cert.KernelIdeal Cert.KernelIdeal.Gen
open Idealize.ShloMosaic Idealize.ShloMosaic.ValueIdx Cert.Spec Cert.Packed

theorem rows3_val_congr {nf no : Nat} (W : (⟨2, ![nf * 3, no]⟩ : Shape).Idx → EReal) {f f' : Fin nf} {k : Fin 3} {o o' : Fin no}
    (hf : f.val = f'.val) (ho : o.val = o'.val) : rows3 W f k o = rows3 W f' k o' := by
  rw [Fin.ext hf, Fin.ext ho]

theorem whRu0_val_congr (A : Cert.Spec.Args) {k k' : Fin 3} {i i' : Fin 128} {c c' : Fin 256}
    (hk : k.val = k'.val) (hi : i.val = i'.val) (hc : c.val = c'.val) : whRu0 A k i c = whRu0 A k' i' c' := by
  rw [Fin.ext hk, Fin.ext hi, Fin.ext hc]

theorem whC0_val_congr (A : Cert.Spec.Args) {k k' : Fin 3} {i i' : Fin 128} {c c' : Fin 128}
    (hk : k.val = k'.val) (hi : i.val = i'.val) (hc : c.val = c'.val) : whC0 A k i c = whC0 A k' i' c' := by
  rw [Fin.ext hk, Fin.ext hi, Fin.ext hc]

section RuRows

variable (arg2 : Memref sig .tc .vmem S3x65x128 .f32) (harg2 : arg2.IsWhole) (x2 : Vec Ideal S3x65x128 .f32)

def blkRu (k : Fin 3) (e h : Fin 2) : View.Piece (Elt Ideal) S3x128x256 .f32 :=
  ⟨Rect.unit (s := S3x128x256) ![k.val, 64 * e.val, 128 * h.val + 64 * e.val] ![1, 64, 64] (fun a => by
      have := k.isLt; have := e.isLt; have := h.isLt
      match a with
      | ⟨0, _⟩ => show k.val + 1 ≤ 3; omega
      | ⟨1, _⟩ => show 64 * e.val + 64 ≤ 128; omega
      | ⟨2, _⟩ => show 128 * h.val + 64 * e.val + 64 ≤ 256; omega),
    shapeCast S1x64x64 (shapeCast S64x64
      (View.readAt (Elt Ideal) arg2.view (Rect.unit (s := S3x65x128) ![k.val, 1, 64 * h.val] ![1, 64, 64] (fun a => by
        have := k.isLt; have := h.isLt
        match a with
        | ⟨0, _⟩ => show k.val + 1 ≤ 3; omega
        | ⟨1, _⟩ => show 1 + 64 ≤ 65; omega
        | ⟨2, _⟩ => show 64 * h.val + 64 ≤ 128; omega)).toLoadRect (harg2.unread x2))
      shapeCasts_S1x64x64_S64x64) shapeCasts_S64x64_S1x64x64⟩

def blksRu : List (View.Piece (Elt Ideal) S3x128x256 .f32) :=
  [blkRu arg2 harg2 x2 2 1 1, blkRu arg2 harg2 x2 2 1 0, blkRu arg2 harg2 x2 2 0 1, blkRu arg2 harg2 x2 2 0 0,
   blkRu arg2 harg2 x2 1 1 1, blkRu arg2 harg2 x2 1 1 0, blkRu arg2 harg2 x2 1 0 1, blkRu arg2 harg2 x2 1 0 0,
   blkRu arg2 harg2 x2 0 1 1, blkRu arg2 harg2 x2 0 1 0, blkRu arg2 harg2 x2 0 0 1, blkRu arg2 harg2 x2 0 0 0]

theorem mem_blksRu (p : View.Piece (Elt Ideal) S3x128x256 .f32) :
    p ∈ blksRu arg2 harg2 x2 ↔ ∃ k e h, p = blkRu arg2 harg2 x2 k e h := by
  constructor
  · intro hp
    simp only [blksRu, List.mem_cons, List.not_mem_nil, or_false] at hp
    rcases hp with rfl | rfl | rfl | rfl | rfl | rfl | rfl | rfl | rfl | rfl | rfl | rfl <;> exact ⟨_, _, _, rfl⟩
  · rintro ⟨k, e, h, rfl⟩
    simp only [blksRu, List.mem_cons, List.not_mem_nil, or_false]
    fin_cases k <;> fin_cases e <;> fin_cases h <;> simp

theorem mem_blkRu (k' : Fin 3) (e h : Fin 2) (k : Fin 3) (i : Fin 128) (c' : Fin 256) :
    ix3 k i c' ∈ (blkRu arg2 harg2 x2 k' e h).1.set
      ↔ (k'.val ≤ k.val ∧ k.val < k'.val + 1) ∧ (64 * e.val ≤ i.val ∧ i.val < 64 * e.val + 64)
        ∧ (128 * h.val + 64 * e.val ≤ c'.val ∧ c'.val < 128 * h.val + 64 * e.val + 64) := by
  dsimp only [blkRu]
  rw [mem_unit3]

variable (A : Cert.Spec.Args) (h2 : ∀ k f o, x2 (ix3 k f o) = rows3 (nf := 65) A.wru0 f k o)

def gRu (y : S3x128x256.Idx) : Elt Ideal .f32 :=
  whRu0 A ⟨(y 0).val, (y 0).isLt⟩ ⟨(y 1).val, (y 1).isLt⟩ ⟨(y 2).val, (y 2).isLt⟩

include h2 in

theorem blkRu_spec (k : Fin 3) (e h : Fin 2) (x : (blkRu arg2 harg2 x2 k e h).1.shape.Idx) :
    (blkRu arg2 harg2 x2 k e h).2 x = gRu A ((blkRu arg2 harg2 x2 k e h).1.emb x) := by
  obtain ⟨a, b, rfl⟩ := exists_ix3_blk (m := 64) (n := 64) x
  have hk := k.isLt; have he := e.isLt; have hh := h.isLt; have ha := a.isLt; have hb := b.isLt
  refine Eq.trans (b := x2 (ix3 ⟨k.val, by omega⟩ ⟨1 + a.val, by omega⟩ ⟨64 * h.val + b.val, by omega⟩)) ?_ ?_
  · dsimp only [blkRu]
    rw [shapeCast_shapeCast, View.readAt_eq_ld, harg2.read_unread]
    exact ld_blk3 x2 k.val 1 (64 * h.val) _ a b (by omega) (by omega) (by omega)
  rw [h2]
  have e0 : ((blkRu arg2 harg2 x2 k e h).1.emb (ix3 0 a b) 0).val = k.val := by show k.val + 1 * 0 = k.val; omega
  have e1 : ((blkRu arg2 harg2 x2 k e h).1.emb (ix3 0 a b) 1).val = 64 * e.val + a.val := by
    show 64 * e.val + 1 * a.val = _; omega
  have e2 : ((blkRu arg2 harg2 x2 k e h).1.emb (ix3 0 a b) 2).val = 128 * h.val + 64 * e.val + b.val := by
    show 128 * h.val + 64 * e.val + 1 * b.val = _; omega
  refine Eq.trans ?_ (whRu0_val_congr A (k := k) (i := ⟨64 * e.val + a.val, by omega⟩)
    (c := ⟨128 * h.val + 64 * e.val + b.val, by omega⟩) e0.symm e1.symm e2.symm)
  rw [whRu0, if_pos (Fin.ext (by show (64 * e.val + a.val) / 64 = (128 * h.val + 64 * e.val + b.val) / 64 % 2; omega))]
  exact rows3_val_congr (nf := 65) (no := 128) A.wru0 (f := ⟨1 + a.val, by omega⟩)
    (f' := stFeat0 (rowFeat ⟨64 * e.val + a.val, by omega⟩)) (o := ⟨64 * h.val + b.val, by omega⟩)
    (o' := ruCol ⟨128 * h.val + 64 * e.val + b.val, by omega⟩)
    (by show 1 + a.val = 1 + (64 * e.val + a.val) % 64; omega)
    (by show 64 * h.val + b.val = 64 * ((128 * h.val + 64 * e.val + b.val) / 128) + (128 * h.val + 64 * e.val + b.val) % 64; omega)

end RuRows

end Cert.KernelIdeal.KVal

namespace Cert.KernelIdeal.KVal

open Cert.KernelIdeal Cert.KernelIdeal.Gen
open Idealize.ShloMosaic Idealize.ShloMosaic.ValueIdx Cert.Spec Cert.Packed

section RuCanon

variable (arg2 : Memref sig .tc .vmem S3x65x128 .f32) (harg2 : arg2.IsWhole) (x2 : Vec Ideal S3x65x128 .f32)
  (A : Cert.Spec.Args) (h2 : ∀ k f o, x2 (ix3 k f o) = rows3 (nf := 65) A.wru0 f k o)

include h2 in

theorem canon_whRu0 (k : Fin 3) (i : Fin 128) (c' : Fin 256) :
    View.canon (blksRu arg2 harg2 x2
        ++ [⟨Rect.unit ![0, 0, 0] S3x128x256.size inb_S3x128x256_S3x128x256_0_0_0, k0_pay6 (F := Ideal)⟩]) (ix3 k i c')
      = whRu0 A k i c' := by
  have hi := i.isLt; have hc := c'.isLt; have hk := k.isLt
  by_cases hd : i.val / 64 = c'.val / 64 % 2
  · refine (View.canon_append_of_pieces (gRu A) _ (blksRu arg2 harg2 x2) (fun p hp x => ?_) (ix3 k i c') ?_).trans rfl
    · obtain ⟨k', e, h, rfl⟩ := (mem_blksRu arg2 harg2 x2 p).1 hp
      exact blkRu_spec arg2 harg2 x2 A h2 k' e h x
    · refine ⟨blkRu arg2 harg2 x2 k ⟨i.val / 64, by omega⟩ ⟨c'.val / 128, by omega⟩,
        (mem_blksRu arg2 harg2 x2 _).2 ⟨_, _, _, rfl⟩, ?_⟩
      rw [mem_blkRu]
      show (k.val ≤ k.val ∧ k.val < k.val + 1) ∧ (64 * (i.val / 64) ≤ i.val ∧ i.val < 64 * (i.val / 64) + 64)
        ∧ (128 * (c'.val / 128) + 64 * (i.val / 64) ≤ c'.val ∧ c'.val < 128 * (c'.val / 128) + 64 * (i.val / 64) + 64)
      omega
  · rw [canon_append_of_forall_not_mem _ _ (blksRu arg2 harg2 x2) (fun p hp hm => ?_), canon_fill off3]
    · rw [whRu0, if_neg (fun hh => hd (congrArg Fin.val hh))]
      rfl
    · obtain ⟨k', e, h, rfl⟩ := (mem_blksRu arg2 harg2 x2 p).1 hp
      have he := e.isLt; have hh := h.isLt
      rw [mem_blkRu] at hm
      omega

end RuCanon

end Cert.KernelIdeal.KVal

namespace Cert.KernelIdeal.KVal

open Cert.KernelIdeal Cert.KernelIdeal.Gen
open Idealize.ShloMosaic Idealize.ShloMosaic.ValueIdx Cert.Spec Cert.Packed

section CRows

variable (arg3 : Memref sig .tc .vmem S3x65x64 .f32) (harg3 : arg3.IsWhole) (x3 : Vec Ideal S3x65x64 .f32)

def blkC (k : Fin 3) (e : Fin 2) : View.Piece (Elt Ideal) S3x128x128 .f32 :=
  ⟨Rect.unit (s := S3x128x128) ![k.val, 64 * e.val, 64 * e.val] ![1, 64, 64] (fun a => by
      have := k.isLt; have := e.isLt
      match a with
      | ⟨0, _⟩ => show k.val + 1 ≤ 3; omega
      | ⟨1, _⟩ => show 64 * e.val + 64 ≤ 128; omega
      | ⟨2, _⟩ => show 64 * e.val + 64 ≤ 128; omega),
    shapeCast S1x64x64 (shapeCast S64x64
      (View.readAt (Elt Ideal) arg3.view (Rect.unit (s := S3x65x64) ![k.val, 1, 0] ![1, 64, 64] (fun a => by
        have := k.isLt
        match a with
        | ⟨0, _⟩ => show k.val + 1 ≤ 3; omega
        | ⟨1, _⟩ => show 1 + 64 ≤ 65; omega
        | ⟨2, _⟩ => show 0 + 64 ≤ 64; omega)).toLoadRect (harg3.unread x3))
      shapeCasts_S1x64x64_S64x64) shapeCasts_S64x64_S1x64x64⟩

def blksC : List (View.Piece (Elt Ideal) S3x128x128 .f32) :=
  [blkC arg3 harg3 x3 2 1, blkC arg3 harg3 x3 2 0, blkC arg3 harg3 x3 1 1, blkC arg3 harg3 x3 1 0,
   blkC arg3 harg3 x3 0 1, blkC arg3 harg3 x3 0 0]

theorem mem_blksC (p : View.Piece (Elt Ideal) S3x128x128 .f32) :
    p ∈ blksC arg3 harg3 x3 ↔ ∃ k e, p = blkC arg3 harg3 x3 k e := by
  constructor
  · intro hp
    simp only [blksC, List.mem_cons, List.not_mem_nil, or_false] at hp
    rcases hp with rfl | rfl | rfl | rfl | rfl | rfl <;> exact ⟨_, _, rfl⟩
  · rintro ⟨k, e, rfl⟩
    simp only [blksC, List.mem_cons, List.not_mem_nil, or_false]
    fin_cases k <;> fin_cases e <;> simp

theorem mem_blkC (k' : Fin 3) (e : Fin 2) (k : Fin 3) (i : Fin 128) (c' : Fin 128) :
    ix3 k i c' ∈ (blkC arg3 harg3 x3 k' e).1.set
      ↔ (k'.val ≤ k.val ∧ k.val < k'.val + 1) ∧ (64 * e.val ≤ i.val ∧ i.val < 64 * e.val + 64)
        ∧ (64 * e.val ≤ c'.val ∧ c'.val < 64 * e.val + 64) := by
  dsimp only [blkC]
  rw [mem_unit3]

variable (A : Cert.Spec.Args) (h3 : ∀ k f o, x3 (ix3 k f o) = rows3 (nf := 65) A.wc0 f k o)

def gC (y : S3x128x128.Idx) : Elt Ideal .f32 :=
  whC0 A ⟨(y 0).val, (y 0).isLt⟩ ⟨(y 1).val, (y 1).isLt⟩ ⟨(y 2).val, (y 2).isLt⟩

include h3 in

theorem blkC_spec (k : Fin 3) (e : Fin 2) (x : (blkC arg3 harg3 x3 k e).1.shape.Idx) :
    (blkC arg3 harg3 x3 k e).2 x = gC A ((blkC arg3 harg3 x3 k e).1.emb x) := by
  obtain ⟨a, b, rfl⟩ := exists_ix3_blk (m := 64) (n := 64) x
  have hk := k.isLt; have he := e.isLt; have ha := a.isLt; have hb := b.isLt
  refine Eq.trans (b := x3 (ix3 ⟨k.val, by omega⟩ ⟨1 + a.val, by omega⟩ ⟨0 + b.val, by omega⟩)) ?_ ?_
  · dsimp only [blkC]
    rw [shapeCast_shapeCast, View.readAt_eq_ld, harg3.read_unread]
    exact ld_blk3 x3 k.val 1 0 _ a b (by omega) (by omega) (by omega)
  rw [h3]
  have e0 : ((blkC arg3 harg3 x3 k e).1.emb (ix3 0 a b) 0).val = k.val := by show k.val + 1 * 0 = k.val; omega
  have e1 : ((blkC arg3 harg3 x3 k e).1.emb (ix3 0 a b) 1).val = 64 * e.val + a.val := by
    show 64 * e.val + 1 * a.val = _; omega
  have e2 : ((blkC arg3 harg3 x3 k e).1.emb (ix3 0 a b) 2).val = 64 * e.val + b.val := by
    show 64 * e.val + 1 * b.val = _; omega
  refine Eq.trans ?_ (whC0_val_congr A (k := k) (i := ⟨64 * e.val + a.val, by omega⟩)
    (c := ⟨64 * e.val + b.val, by omega⟩) e0.symm e1.symm e2.symm)
  rw [whC0, if_pos (Fin.ext (by show (64 * e.val + a.val) / 64 = (64 * e.val + b.val) / 64; omega))]
  exact rows3_val_congr (nf := 65) (no := 64) A.wc0 (f := ⟨1 + a.val, by omega⟩)
    (f' := stFeat0 (rowFeat ⟨64 * e.val + a.val, by omega⟩)) (o := ⟨0 + b.val, by omega⟩)
    (o' := cCol ⟨64 * e.val + b.val, by omega⟩)
    (by show 1 + a.val = 1 + (64 * e.val + a.val) % 64; omega)
    (by show 0 + b.val = (64 * e.val + b.val) % 64; omega)

include h3 in

theorem canon_whC0 (k : Fin 3) (i : Fin 128) (c' : Fin 128) :
    View.canon (blksC arg3 harg3 x3
        ++ [⟨Rect.unit ![0, 0, 0] S3x128x128.size inb_S3x128x128_S3x128x128_0_0_0, k0_pay7 (F := Ideal)⟩]) (ix3 k i c')
      = whC0 A k i c' := by
  have hi := i.isLt; have hc := c'.isLt; have hk := k.isLt
  by_cases hd : i.val / 64 = c'.val / 64
  · refine (View.canon_append_of_pieces (gC A) _ (blksC arg3 harg3 x3) (fun p hp x => ?_) (ix3 k i c') ?_).trans rfl
    · obtain ⟨k', e, rfl⟩ := (mem_blksC arg3 harg3 x3 p).1 hp
      exact blkC_spec arg3 harg3 x3 A h3 k' e x
    · refine ⟨blkC arg3 harg3 x3 k ⟨i.val / 64, by omega⟩, (mem_blksC arg3 harg3 x3 _).2 ⟨_, _, rfl⟩, ?_⟩
      rw [mem_blkC]
      show (k.val ≤ k.val ∧ k.val < k.val + 1) ∧ (64 * (i.val / 64) ≤ i.val ∧ i.val < 64 * (i.val / 64) + 64)
        ∧ (64 * (i.val / 64) ≤ c'.val ∧ c'.val < 64 * (i.val / 64) + 64)
      omega
  · rw [canon_append_of_forall_not_mem _ _ (blksC arg3 harg3 x3) (fun p hp hm => ?_), canon_fill off3]
    · rw [whC0, if_neg (fun hh => hd (congrArg Fin.val hh))]
      rfl
    · obtain ⟨k', e, rfl⟩ := (mem_blksC arg3 harg3 x3 p).1 hp
      have he := e.isLt
      rw [mem_blkC] at hm
      omega

end CRows

end Cert.KernelIdeal.KVal

namespace Cert.KernelIdeal.KVal

open Cert.KernelIdeal Cert.KernelIdeal.Gen Cert.KernelIdeal.FrameH
open Idealize.ShloMosaic Idealize.ShloMosaic.ValueIdx Idealize.ShloMosaic.TcCoe Idealize.ShloMosaic.Tactic Idealize.SL.Sem Cert.Spec Cert.Packed

section Run

variable (c : Dev nD) (arg0 : Memref sig .tc .vmem S512x512 .f32) (harg0 : arg0.IsWhole) (arg1 : Memref sig .tc .vmem S64x512 .f32) (harg1 : arg1.IsWhole) (arg2 : Memref sig .tc .vmem S3x65x128 .f32) (harg2 : arg2.IsWhole) (arg3 : Memref sig .tc .vmem S3x65x64 .f32) (harg3 : arg3.IsWhole) (arg4 : Memref sig .tc .vmem S3x128x128 .f32) (harg4 : arg4.IsWhole) (arg5 : Memref sig .tc .vmem S3x128x64 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S512x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S6x256 .f32) (harg14 : arg14.IsWhole) (arg15 : Memref sig .tc .vmem S3x128x256 .f32) (harg15 : arg15.IsWhole) (arg16 : Memref sig .tc .vmem S1x256 .f32) (harg16 : arg16.IsWhole) (arg17 : Memref sig .tc .vmem S6x128 .f32) (harg17 : arg17.IsWhole) (arg18 : Memref sig .tc .vmem S3x128x128 .f32) (harg18 : arg18.IsWhole) (arg19 : Memref sig .tc .vmem S1x128 .f32) (harg19 : arg19.IsWhole) (arg20 : Memref sig .tc .vmem S3x128x256 .f32) (harg20 : arg20.IsWhole) (arg21 : Memref sig .tc .vmem S3x128x256 .f32) (harg21 : arg21.IsWhole) (arg22 : Memref sig .tc .vmem S1x256 .f32) (harg22 : arg22.IsWhole) (arg23 : Memref sig .tc .vmem S3x128x128 .f32) (harg23 : arg23.IsWhole) (arg24 : Memref sig .tc .vmem S3x128x128 .f32) (harg24 : arg24.IsWhole) (arg25 : Memref sig .tc .vmem S1x128 .f32) (harg25 : arg25.IsWhole) (arg26 : Memref sig .tc .vmem S128x2 .f32) (harg26 : arg26.IsWhole)
    (x0 : Vec Ideal S512x512 .f32) (x1 : Vec Ideal S64x512 .f32) (x2 : Vec Ideal S3x65x128 .f32) (x3 : Vec Ideal S3x65x64 .f32) (x4 : Vec Ideal S3x128x128 .f32) (x5 : Vec Ideal S3x128x64 .f32) (x6 : Vec Ideal S1x128 .f32) (x7 : Vec Ideal S1x64 .f32) (x8 : Vec Ideal S1x128 .f32) (x9 : Vec Ideal S1x64 .f32) (x10 : Vec Ideal S64x1 .f32)

set_option maxHeartbeats 4000000 in

theorem run_whRu0 (A : Cert.Spec.Args) (h2 : ∀ k f o, x2 (ix3 k f o) = rows3 (nf := 65) A.wru0 f k o)
    (k : Fin 3) (i : Fin 128) (c' : Fin 256) :
    VO0_15.read (Elt Ideal) (VO0_15.writes (Elt Ideal) VO0_15.junk (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.1) (ix3 k i c')
      = whRu0 A k i c' := by
  rw [View.read_writes_junk_eq_canon]
  have hL : (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.1
      = blksRu arg2 harg2 x2 ++ [⟨Rect.unit ![0, 0, 0] S3x128x256.size inb_S3x128x256_S3x128x256_0_0_0, k0_pay6 (F := Ideal)⟩] := by
    unfold kernelRun0
    dsimp only
    sl_unfold_words
    rfl
  rw [hL]
  exact canon_whRu0 arg2 harg2 x2 A h2 k i c'

set_option maxHeartbeats 4000000 in

theorem run_whC0 (A : Cert.Spec.Args) (h3 : ∀ k f o, x3 (ix3 k f o) = rows3 (nf := 65) A.wc0 f k o)
    (k : Fin 3) (i : Fin 128) (c' : Fin 128) :
    VO0_18.read (Elt Ideal) (VO0_18.writes (Elt Ideal) VO0_18.junk (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.1) (ix3 k i c')
      = whC0 A k i c' := by
  rw [View.read_writes_junk_eq_canon]
  have hL : (kernelRun0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.1
      = blksC arg3 harg3 x3 ++ [⟨Rect.unit ![0, 0, 0] S3x128x128.size inb_S3x128x128_S3x128x128_0_0_0, k0_pay7 (F := Ideal)⟩] := by
    unfold kernelRun0
    dsimp only
    sl_unfold_words
    rfl
  rw [hL]
  exact canon_whC0 arg3 harg3 x3 A h3 k i c'

theorem out_whRu0 (A : Cert.Spec.Args) (h2 : ∀ k f o, x2 (ix3 k f o) = rows3 (nf := 65) A.wru0 f k o)
    (k : Fin 3) (i : Fin 128) (c' : Fin 256) :
    FrameH.out0_15 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 k i c') = Cert.Packed.whRu0 A k i c' := by
  unfold FrameH.out0_15
  exact run_whRu0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 A h2 k i c'

theorem out_whC0 (A : Cert.Spec.Args) (h3 : ∀ k f o, x3 (ix3 k f o) = rows3 (nf := 65) A.wc0 f k o)
    (k : Fin 3) (i : Fin 128) (c' : Fin 128) :
    FrameH.out0_18 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 k i c') = Cert.Packed.whC0 A k i c' := by
  unfold FrameH.out0_18
  exact run_whC0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 A h3 k i c'

end Run

end Cert.KernelIdeal.KVal

end
-- ==== Proof.KVal.Prep.lean ====
import proofs.«134251_g19069654794669_cont_sun_m_30_29_alg».proof.Proof.KernelIdealH.RunAll
import proofs.«134251_g19069654794669_cont_sun_m_30_29_alg».proof.Proof.KVal.Args
import proofs.«134251_g19069654794669_cont_sun_m_30_29_alg».proof.Proof.KVal.Host0
import proofs.«134251_g19069654794669_cont_sun_m_30_29_alg».proof.Proof.KVal.Prep0
import proofs.«134251_g19069654794669_cont_sun_m_30_29_alg».proof.Proof.KVal.PrepOut
import proofs.«134251_g19069654794669_cont_sun_m_30_29_alg».proof.Proof.KVal.PrepA
import proofs.«134251_g19069654794669_cont_sun_m_30_29_alg».proof.Proof.KVal.PrepW4
import proofs.«134251_g19069654794669_cont_sun_m_30_29_alg».proof.Proof.KVal.PrepW5
import proofs.«134251_g19069654794669_cont_sun_m_30_29_alg».proof.Proof.KVal.PrepW2
import proofs.«134251_g19069654794669_cont_sun_m_30_29_alg».proof.Proof.KVal.PrepW2b
import proofs.«134251_g19069654794669_cont_sun_m_30_29_alg».proof.Proof.KVal.PrepW3

set_option maxRecDepth 16384

noncomputable section

namespace Cert.KernelIdeal.KVal

open Cert.KernelIdeal Cert.KernelIdeal.Gen Cert.KernelIdeal.FrameH
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

theorem blk_adj : (iblk0 (V1 m ρ) c 0 t0_0 : (⟨2, ![512, 512]⟩ : Shape).Idx → EReal) = (argsOf m c).adj :=
  (iblk0_0 (V1 m ρ) c t0_0).trans (host0_arg2 (W0 m ρ c))

theorem blk_x : (iblk0 (V1 m ρ) c 1 t0_0 : (⟨2, ![64, 512]⟩ : Shape).Idx → EReal) = (argsOf m c).x :=
  (iblk0_1 (V1 m ρ) c t0_0).trans (host0_arg0 (W0 m ρ c))

theorem blk_wp : (iblk0 (V1 m ρ) c 10 t0_0 : (⟨2, ![64, 1]⟩ : Shape).Idx → EReal) = (argsOf m c).wp :=
  (iblk0_10 (V1 m ρ) c t0_0).trans (host0_arg11 (W0 m ρ c))

theorem blk_wru0 (k : Fin 3) (f : Fin 65) (o : Fin 128) :
    iblk0 (V1 m ρ) c 2 t0_0 (ix3 k f o) = Cert.Spec.rows3 (nf := 65) (argsOf m c).wru0 f k o :=
  (congrFun (iblk0_2 (V1 m ρ) c t0_0) (ix3 k f o)).trans (host0_v1 (W0 m ρ c) k f o)
theorem blk_wc0 (k : Fin 3) (f : Fin 65) (o : Fin 64) :
    iblk0 (V1 m ρ) c 3 t0_0 (ix3 k f o) = Cert.Spec.rows3 (nf := 65) (argsOf m c).wc0 f k o :=
  (congrFun (iblk0_3 (V1 m ρ) c t0_0) (ix3 k f o)).trans (host0_v3 (W0 m ρ c) k f o)
theorem blk_wru1 (k : Fin 3) (f : Fin 128) (o : Fin 128) :
    iblk0 (V1 m ρ) c 4 t0_0 (ix3 k f o) = Cert.Spec.rows3 (nf := 128) (argsOf m c).wru1 f k o :=
  (congrFun (iblk0_4 (V1 m ρ) c t0_0) (ix3 k f o)).trans (host0_v5 (W0 m ρ c) k f o)
theorem blk_wc1 (k : Fin 3) (f : Fin 128) (o : Fin 64) :
    iblk0 (V1 m ρ) c 5 t0_0 (ix3 k f o) = Cert.Spec.rows3 (nf := 128) (argsOf m c).wc1 f k o :=
  (congrFun (iblk0_5 (V1 m ρ) c t0_0) (ix3 k f o)).trans (host0_v7 (W0 m ρ c) k f o)

theorem blk_bru0 (o : Fin 128) : iblk0 (V1 m ρ) c 6 t0_0 (ix2 0 o) = (argsOf m c).bru0 (ix1 o) :=
  (congrFun (iblk0_6 (V1 m ρ) c t0_0) (ix2 0 o)).trans (host0_v8 (W0 m ρ c) o)
theorem blk_bc0 (o : Fin 64) : iblk0 (V1 m ρ) c 7 t0_0 (ix2 0 o) = (argsOf m c).bc0 (ix1 o) :=
  (congrFun (iblk0_7 (V1 m ρ) c t0_0) (ix2 0 o)).trans (host0_v9 (W0 m ρ c) o)
theorem blk_bru1 (o : Fin 128) : iblk0 (V1 m ρ) c 8 t0_0 (ix2 0 o) = (argsOf m c).bru1 (ix1 o) :=
  (congrFun (iblk0_8 (V1 m ρ) c t0_0) (ix2 0 o)).trans (host0_v10 (W0 m ρ c) o)
theorem blk_bc1 (o : Fin 64) : iblk0 (V1 m ρ) c 9 t0_0 (ix2 0 o) = (argsOf m c).bc1 (ix1 o) :=
  (congrFun (iblk0_9 (V1 m ρ) c t0_0) (ix2 0 o)).trans (host0_v11 (W0 m ρ c) o)

local notation "atPoint(" f ")" => f c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (ms0_19 t0_0) (hs0_19 t0_0) (ms0_20 t0_0) (hs0_20 t0_0) (ms0_21 t0_0) (hs0_21 t0_0) (ms0_22 t0_0) (hs0_22 t0_0) (ms0_23 t0_0) (hs0_23 t0_0) (ms0_24 t0_0) (hs0_24 t0_0) (ms0_25 t0_0) (hs0_25 t0_0) (ms0_26 t0_0) (hs0_26 t0_0) (iblk0 (V1 m ρ) c 0 t0_0) (iblk0 (V1 m ρ) c 1 t0_0) (iblk0 (V1 m ρ) c 2 t0_0) (iblk0 (V1 m ρ) c 3 t0_0) (iblk0 (V1 m ρ) c 4 t0_0) (iblk0 (V1 m ρ) c 5 t0_0) (iblk0 (V1 m ρ) c 6 t0_0) (iblk0 (V1 m ρ) c 7 t0_0) (iblk0 (V1 m ρ) c 8 t0_0) (iblk0 (V1 m ρ) c 9 t0_0) (iblk0 (V1 m ρ) c 10 t0_0)

theorem W2_out11 : W2 m ρ c (Proc.devRef .tc main_v12_0) = atPoint(out0_11) := (W2_arr m ρ c 11).trans (arr0_11 (V1 m ρ) c)
theorem W2_out12 : W2 m ρ c (Proc.devRef .tc main_v12_1) = atPoint(out0_12) := (W2_arr m ρ c 12).trans (arr0_12 (V1 m ρ) c)
theorem W2_out13 : W2 m ρ c (Proc.devRef .tc main_v12_2) = atPoint(out0_13) := (W2_arr m ρ c 13).trans (arr0_13 (V1 m ρ) c)
theorem W2_out14 : W2 m ρ c (Proc.devRef .tc main_v12_3) = atPoint(out0_14) := (W2_arr m ρ c 14).trans (arr0_14 (V1 m ρ) c)
theorem W2_out15 : W2 m ρ c (Proc.devRef .tc main_v12_4) = atPoint(out0_15) := (W2_arr m ρ c 15).trans (arr0_15 (V1 m ρ) c)
theorem W2_out16 : W2 m ρ c (Proc.devRef .tc main_v12_5) = atPoint(out0_16) := (W2_arr m ρ c 16).trans (arr0_16 (V1 m ρ) c)
theorem W2_out17 : W2 m ρ c (Proc.devRef .tc main_v12_6) = atPoint(out0_17) := (W2_arr m ρ c 17).trans (arr0_17 (V1 m ρ) c)
theorem W2_out18 : W2 m ρ c (Proc.devRef .tc main_v12_7) = atPoint(out0_18) := (W2_arr m ρ c 18).trans (arr0_18 (V1 m ρ) c)
theorem W2_out19 : W2 m ρ c (Proc.devRef .tc main_v12_8) = atPoint(out0_19) := (W2_arr m ρ c 19).trans (arr0_19 (V1 m ρ) c)
theorem W2_out20 : W2 m ρ c (Proc.devRef .tc main_v12_9) = atPoint(out0_20) := (W2_arr m ρ c 20).trans (arr0_20 (V1 m ρ) c)
theorem W2_out21 : W2 m ρ c (Proc.devRef .tc main_v12_10) = atPoint(out0_21) := (W2_arr m ρ c 21).trans (arr0_21 (V1 m ρ) c)
theorem W2_out22 : W2 m ρ c (Proc.devRef .tc main_v12_11) = atPoint(out0_22) := (W2_arr m ρ c 22).trans (arr0_22 (V1 m ρ) c)
theorem W2_out23 : W2 m ρ c (Proc.devRef .tc main_v12_12) = atPoint(out0_23) := (W2_arr m ρ c 23).trans (arr0_23 (V1 m ρ) c)
theorem W2_out24 : W2 m ρ c (Proc.devRef .tc main_v12_13) = atPoint(out0_24) := (W2_arr m ρ c 24).trans (arr0_24 (V1 m ρ) c)
theorem W2_out25 : W2 m ρ c (Proc.devRef .tc main_v12_14) = atPoint(out0_25) := (W2_arr m ρ c 25).trans (arr0_25 (V1 m ρ) c)
theorem W2_out26 : W2 m ρ c (Proc.devRef .tc main_v12_15) = atPoint(out0_26) := (W2_arr m ρ c 26).trans (arr0_26 (V1 m ρ) c)

theorem sup_of (x0 : Vec Ideal S512x512 .f32) (A : Cert.Spec.Args) (h0 : x0 = A.adj) (n m' : Fin 512) :
    k0_pay1 (F := Ideal) x0 (ix2 n m') = Cert.Spec.sup A.adj n m' := by
  subst h0; exact pay1_apply _ n m'
theorem a1_of (x0 : Vec Ideal S512x512 .f32) (x1 : Vec Ideal S64x512 .f32) (A : Cert.Spec.Args) (h0 : x0 = A.adj) (h1 : x1 = A.x)
    (b : Fin 64) (n : Fin 512) : k0_pay2 (F := Ideal) x0 x1 (ix2 b n) = Cert.Packed.acol A 1 b n := by
  subst h0 h1; exact pay2_apply _ _ b n
theorem a2_of (x0 : Vec Ideal S512x512 .f32) (x1 : Vec Ideal S64x512 .f32) (A : Cert.Spec.Args) (h0 : x0 = A.adj) (h1 : x1 = A.x)
    (b : Fin 64) (n : Fin 512) : k0_pay3 (F := Ideal) x0 x1 (ix2 b n) = Cert.Packed.acol A 2 b n := by
  subst h0 h1; exact pay3_apply _ _ b n

theorem prep_sup (n m' : Fin 512) :
    W2 m ρ c (Proc.devRef .tc main_v12_0) (ix2 n m') = Cert.Spec.sup (argsOf m c).adj n m' := by
  rw [W2_out11, out0_11_eq]
  exact sup_of _ (argsOf m c) (blk_adj m ρ c) n m'

theorem prep_a1 (b : Fin 64) (n : Fin 512) :
    W2 m ρ c (Proc.devRef .tc main_v12_1) (ix2 b n) = Cert.Packed.acol (argsOf m c) 1 b n := by
  rw [W2_out12, out0_12_eq]
  exact a1_of _ _ (argsOf m c) (blk_adj m ρ c) (blk_x m ρ c) b n

theorem prep_a2 (b : Fin 64) (n : Fin 512) :
    W2 m ρ c (Proc.devRef .tc main_v12_2) (ix2 b n) = Cert.Packed.acol (argsOf m c) 2 b n := by
  rw [W2_out13, out0_13_eq]
  exact a2_of _ _ (argsOf m c) (blk_adj m ρ c) (blk_x m ρ c) b n

theorem prep_waRu0 (r : Fin 6) (c' : Fin 256) :
    W2 m ρ c (Proc.devRef .tc main_v12_3) (ix2 r c') = Cert.Packed.waRu0 (argsOf m c) r c' := by
  rw [W2_out14]
  exact out_waRu0 (A := argsOf m c) (h2 := blk_wru0 m ρ c) ..

theorem prep_whRu0 (k : Fin 3) (i : Fin 128) (c' : Fin 256) :
    W2 m ρ c (Proc.devRef .tc main_v12_4) (ix3 k i c') = Cert.Packed.whRu0 (argsOf m c) k i c' := by
  rw [W2_out15]
  exact out_whRu0 (A := argsOf m c) (h2 := blk_wru0 m ρ c) ..

theorem prep_bRu0 (c' : Fin 256) :
    W2 m ρ c (Proc.devRef .tc main_v12_5) (ix2 0 c') = Cert.Packed.bRu0 (argsOf m c) c' := by
  rw [W2_out16]
  exact out_bRu0 (A := argsOf m c) (h6 := blk_bru0 m ρ c) ..

theorem prep_waC0 (r : Fin 6) (c' : Fin 128) :
    W2 m ρ c (Proc.devRef .tc main_v12_6) (ix2 r c') = Cert.Packed.waC0 (argsOf m c) r c' := by
  rw [W2_out17]
  exact out_waC0 (A := argsOf m c) (h3 := blk_wc0 m ρ c) ..

theorem prep_whC0 (k : Fin 3) (i : Fin 128) (c' : Fin 128) :
    W2 m ρ c (Proc.devRef .tc main_v12_7) (ix3 k i c') = Cert.Packed.whC0 (argsOf m c) k i c' := by
  rw [W2_out18]
  exact out_whC0 (A := argsOf m c) (h3 := blk_wc0 m ρ c) ..

theorem prep_bC0 (c' : Fin 128) :
    W2 m ρ c (Proc.devRef .tc main_v12_8) (ix2 0 c') = Cert.Packed.bC0 (argsOf m c) c' := by
  rw [W2_out19]
  exact out_bC0 (A := argsOf m c) (h7 := blk_bc0 m ρ c) ..

theorem prep_wgRu1 (k : Fin 3) (i : Fin 128) (c' : Fin 256) :
    W2 m ρ c (Proc.devRef .tc main_v12_9) (ix3 k i c') = Cert.Packed.wgRu1 (argsOf m c) k i c' := by
  rw [W2_out20]
  exact out_wgRu1 (A := argsOf m c) (h4 := blk_wru1 m ρ c) ..

theorem prep_wkRu1 (k : Fin 3) (i : Fin 128) (c' : Fin 256) :
    W2 m ρ c (Proc.devRef .tc main_v12_10) (ix3 k i c') = Cert.Packed.wkRu1 (argsOf m c) k i c' := by
  rw [W2_out21]
  exact out_wkRu1 (A := argsOf m c) (h4 := blk_wru1 m ρ c) ..

theorem prep_bRu1 (c' : Fin 256) :
    W2 m ρ c (Proc.devRef .tc main_v12_11) (ix2 0 c') = Cert.Packed.bRu1 (argsOf m c) c' := by
  rw [W2_out22]
  exact out_bRu1 (A := argsOf m c) (h8 := blk_bru1 m ρ c) ..

theorem prep_wgC1 (k : Fin 3) (i : Fin 128) (c' : Fin 128) :
    W2 m ρ c (Proc.devRef .tc main_v12_12) (ix3 k i c') = Cert.Packed.wgC1 (argsOf m c) k i c' := by
  rw [W2_out23]
  exact out_wgC1 (A := argsOf m c) (h5 := blk_wc1 m ρ c) ..

theorem prep_wkC1 (k : Fin 3) (i : Fin 128) (c' : Fin 128) :
    W2 m ρ c (Proc.devRef .tc main_v12_13) (ix3 k i c') = Cert.Packed.wkC1 (argsOf m c) k i c' := by
  rw [W2_out24]
  exact out_wkC1 (A := argsOf m c) (h5 := blk_wc1 m ρ c) ..

theorem prep_bC1 (c' : Fin 128) :
    W2 m ρ c (Proc.devRef .tc main_v12_14) (ix2 0 c') = Cert.Packed.bC1 (argsOf m c) c' := by
  rw [W2_out25]
  exact out_bC1 (A := argsOf m c) (h9 := blk_bc1 m ρ c) ..

theorem prep_wpp (i : Fin 128) (j : Fin 2) :
    W2 m ρ c (Proc.devRef .tc main_v12_15) (ix2 i j) = Cert.Packed.wpp (argsOf m c) i j := by
  rw [W2_out26]
  exact out_wpp (A := argsOf m c) (h10 := fun u => congrFun (blk_wp m ρ c) (ix2 u 0)) ..

end Cert.KernelIdeal.KVal

end
-- ==== Proof.KVal.Host1.lean ====
import proofs.«134251_g19069654794669_cont_sun_m_30_29_alg».proof.Proof.Gen.KernelIdeal.Launch
import Idealize.ShloMosaic.Lib.StableHlo.Run
import Idealize.ShloMosaic.Lib.Pipeline.Value
import Idealize.ShloMosaic.Lib.ValueIdx

set_option maxRecDepth 16384

noncomputable section

namespace Cert.KernelIdeal.KVal

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

theorem lead1_apply (x : (⟨S64x512, .f32⟩ : BufTy).Contents (Elt F)) (z : Fin 1) (b : Fin 64) (n : Fin 512) :
    broadcastInDim S1x64x512 ![1, 2] bcast_S64x512_S1x64x512_1_2 x (ix3 z b n) = x (ix2 b n) :=
  broadcastInDim_apply _ bcast_S64x512_S1x64x512_1_2 x (ix3 z b n) (ix2 b n) (fun a => match a with
    | ⟨0, _⟩ => by show b.val = if (64 : Nat) = 1 then 0 else b.val; rw [if_neg (by decide)]
    | ⟨1, _⟩ => by show n.val = if (512 : Nat) = 1 then 0 else n.val; rw [if_neg (by decide)])

theorem stack3_apply (x0 x1 x2 : (⟨S64x512, .f32⟩ : BufTy).Contents (Elt F)) (k : Fin 3) (b : Fin 64) (n : Fin 512) :
    concatenate S3x64x512 0
        [⟨S1x64x512, broadcastInDim S1x64x512 ![1, 2] bcast_S64x512_S1x64x512_1_2 x0⟩,
         ⟨S1x64x512, broadcastInDim S1x64x512 ![1, 2] bcast_S64x512_S1x64x512_1_2 x1⟩,
         ⟨S1x64x512, broadcastInDim S1x64x512 ![1, 2] bcast_S64x512_S1x64x512_1_2 x2⟩]
        concatenates_S1x64x512_S1x64x512_S1x64x512_S3x64x512_d0 (ix3 k b n)
      = (match k with
          | ⟨0, _⟩ => x0
          | ⟨1, _⟩ => x1
          | ⟨2, _⟩ => x2) (ix2 b n) := by
  match k with
  | ⟨0, _⟩ =>
    refine (concatenate_apply_piece (0 : Fin S3x64x512.rank) ([⟨S1x64x512, broadcastInDim S1x64x512 ![1, 2] bcast_S64x512_S1x64x512_1_2 x0⟩,
         ⟨S1x64x512, broadcastInDim S1x64x512 ![1, 2] bcast_S64x512_S1x64x512_1_2 x1⟩,
         ⟨S1x64x512, broadcastInDim S1x64x512 ![1, 2] bcast_S64x512_S1x64x512_1_2 x2⟩] : List ((s : Shape) × (s.Idx → Elt F .f32))) concatenates_S1x64x512_S1x64x512_S1x64x512_S3x64x512_d0
      (ix3 ⟨0, by decide⟩ b n) 0 (by show 0 < 3; decide) S1x64x512 _ rfl rfl 0 rfl (ix3 (0 : Fin 1) b n) ?_ rfl).trans (lead1_apply x0 0 b n)
    intro a ha
    match a with
    | ⟨0, _⟩ => exact absurd rfl ha
    | ⟨1, _⟩ => rfl
    | ⟨2, _⟩ => rfl
  | ⟨1, _⟩ =>
    refine (concatenate_apply_piece (0 : Fin S3x64x512.rank) ([⟨S1x64x512, broadcastInDim S1x64x512 ![1, 2] bcast_S64x512_S1x64x512_1_2 x0⟩,
         ⟨S1x64x512, broadcastInDim S1x64x512 ![1, 2] bcast_S64x512_S1x64x512_1_2 x1⟩,
         ⟨S1x64x512, broadcastInDim S1x64x512 ![1, 2] bcast_S64x512_S1x64x512_1_2 x2⟩] : List ((s : Shape) × (s.Idx → Elt F .f32))) concatenates_S1x64x512_S1x64x512_S1x64x512_S3x64x512_d0
      (ix3 ⟨1, by decide⟩ b n) 1 (by show 1 < 3; decide) S1x64x512 _ rfl rfl 1 rfl (ix3 (0 : Fin 1) b n) ?_ rfl).trans (lead1_apply x1 0 b n)
    intro a ha
    match a with
    | ⟨0, _⟩ => exact absurd rfl ha
    | ⟨1, _⟩ => rfl
    | ⟨2, _⟩ => rfl
  | ⟨2, _⟩ =>
    refine (concatenate_apply_piece (0 : Fin S3x64x512.rank) ([⟨S1x64x512, broadcastInDim S1x64x512 ![1, 2] bcast_S64x512_S1x64x512_1_2 x0⟩,
         ⟨S1x64x512, broadcastInDim S1x64x512 ![1, 2] bcast_S64x512_S1x64x512_1_2 x1⟩,
         ⟨S1x64x512, broadcastInDim S1x64x512 ![1, 2] bcast_S64x512_S1x64x512_1_2 x2⟩] : List ((s : Shape) × (s.Idx → Elt F .f32))) concatenates_S1x64x512_S1x64x512_S1x64x512_S3x64x512_d0
      (ix3 ⟨2, by decide⟩ b n) 2 (by show 2 < 3; decide) S1x64x512 _ rfl rfl 2 rfl (ix3 (0 : Fin 1) b n) ?_ rfl).trans (lead1_apply x2 0 b n)
    intro a ha
    match a with
    | ⟨0, _⟩ => exact absurd rfl ha
    | ⟨1, _⟩ => rfl
    | ⟨2, _⟩ => rfl

theorem pairs_apply (y : (⟨S3x64x512, .f32⟩ : BufTy).Contents (Elt F)) (k : Fin 3) (p : Fin 32) (j : Fin 2) (n : Fin 512) :
    shapeCast S3x32x2x512 y shapeCasts_S3x64x512_S3x32x2x512 (ix4 k p j n)
      = y (ix3 k ⟨2 * p.val + j.val, by have := p.isLt; have := j.isLt; omega⟩ n) :=
  shapeCast_apply y shapeCasts_S3x64x512_S3x32x2x512 (ix4 k p j n) _
    (by rewrite [Shape.rowMajor_val_three, Shape.rowMajor_val_four]
        have h0 := k.isLt; have h1 := p.isLt; have h2 := j.isLt; have h3 := n.isLt
        show (k.val * 64 + (2 * p.val + j.val)) * 512 + n.val = ((k.val * 32 + p.val) * 2 + j.val) * 512 + n.val
        omega)

theorem nodes_apply (y : (⟨S2x64x32768, .f32⟩ : BufTy).Contents (Elt F)) (l : Fin 2) (b : Fin 64) (n : Fin 512) (f : Fin 64) :
    shapeCast S2x64x512x64 y shapeCasts_S2x64x32768_S2x64x512x64 (ix4 l b n f)
      = y (ix3 l b ⟨n.val * 64 + f.val, by have := n.isLt; have := f.isLt; omega⟩) :=
  shapeCast_apply y shapeCasts_S2x64x32768_S2x64x512x64 (ix4 l b n f) _
    (by rewrite [Shape.rowMajor_val_three, Shape.rowMajor_val_four]
        have h0 := l.isLt; have h1 := b.isLt; have h2 := n.isLt; have h3 := f.isLt
        show (l.val * 64 + b.val) * 32768 + (n.val * 64 + f.val) = ((l.val * 64 + b.val) * 512 + n.val) * 64 + f.val
        omega)

theorem scalar_apply (y : (⟨S1, .f32⟩ : BufTy).Contents (Elt F)) (a b : Fin 1) :
    shapeCast S1x1 y shapeCasts_S1_S1x1 (ix2 a b) = y (ix1 0) :=
  shapeCast_apply y shapeCasts_S1_S1x1 (ix2 a b) _
    (by rewrite [Shape.rowMajor_val_one, Shape.rowMajor_val_two]
        have h0 := a.isLt; have h1 := b.isLt
        show (0 : Nat) = a.val * 1 + b.val
        omega)

theorem merge_apply (y : (⟨S32x2x512, .f32⟩ : BufTy).Contents (Elt F)) (b : Fin 64) (n : Fin 512) :
    shapeCast S64x512 y shapeCasts_S32x2x512_S64x512 (ix2 b n)
      = y (ix3 ⟨b.val / 2, by have := b.isLt; omega⟩ ⟨b.val % 2, Nat.mod_lt _ (by decide)⟩ n) :=
  shapeCast_apply y shapeCasts_S32x2x512_S64x512 (ix2 b n) _
    (by rewrite [Shape.rowMajor_val_three, Shape.rowMajor_val_two]
        have h0 := b.isLt; have h1 := n.isLt
        show (b.val / 2 * 2 + b.val % 2) * 512 + n.val = b.val * 512 + n.val
        omega)

theorem flat_apply (y : (⟨S2x64x512x64, .f32⟩ : BufTy).Contents (Elt F)) (l : Fin 2) (b : Fin 64) (q : Fin 32768) :
    shapeCast S2x64x32768 y shapeCasts_S2x64x512x64_S2x64x32768 (ix3 l b q)
      = y (ix4 l b ⟨q.val / 64, by have := q.isLt; omega⟩ ⟨q.val % 64, Nat.mod_lt _ (by decide)⟩) :=
  shapeCast_apply y shapeCasts_S2x64x512x64_S2x64x32768 (ix3 l b q) _
    (by rewrite [Shape.rowMajor_val_four, Shape.rowMajor_val_three]
        have h0 := l.isLt; have h1 := b.isLt; have h2 := q.isLt
        show ((l.val * 64 + b.val) * 512 + q.val / 64) * 64 + q.val % 64 = (l.val * 64 + b.val) * 32768 + q.val
        omega)

theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

variable (W : Valuation τ sig (Elt F))

theorem host1_v17 (k : Fin 3) (p : Fin 32) (j : Fin 2) (n : Fin 512) :
    StableHlo.after hostOps1 W (Proc.devRef .tc main_v17) (ix4 k p j n)
      = (match k with
          | ⟨0, _⟩ => W (Proc.devRef .tc main_arg0)
          | ⟨1, _⟩ => W (Proc.devRef .tc main_v12_1)
          | ⟨2, _⟩ => W (Proc.devRef .tc main_v12_2))
        (ix2 ⟨2 * p.val + j.val, by have := p.isLt; have := j.isLt; omega⟩ n) := by
  simp only [StableHlo.after_cons, StableHlo.after_nil]
  rw [reshape_result_ne (h := by decide), reshape_result_ne (h := by decide), reshape_result, nary3_result]
  repeat (first | rw [unary_result] | (rw [unary_result_ne]; rotate_left; decide))
  exact (pairs_apply _ k p j n).trans (stack3_apply _ _ _ k _ n)

theorem host1_v18 (l : Fin 2) (b : Fin 64) (n : Fin 512) (f : Fin 64) :
    StableHlo.after hostOps1 W (Proc.devRef .tc main_v18) (ix4 l b n f)
      = W (Proc.devRef .tc main_arg1) (ix3 l b ⟨n.val * 64 + f.val, by have := n.isLt; have := f.isLt; omega⟩) := by
  after_results
  exact nodes_apply _ l b n f

theorem host1_v19 (a b : Fin 1) :
    StableHlo.after hostOps1 W (Proc.devRef .tc main_v19) (ix2 a b) = W (Proc.devRef .tc main_arg12) (ix1 0) := by
  after_results
  exact scalar_apply _ a b

abbrev host1_W : List (Ref sig .tc) := [main_v13, main_v14, main_v15, main_v16, main_v17, main_v18, main_v19]
theorem host1_writes : (hostOps1 : List (HloOp τ sig (Elt F))).Forall fun op =>
    op.writes ⊆ (host1_W.map (Proc.devRef (τ := τ) .tc)).toFinset := by
  simp only [hostOps1, List.Forall, unary_writes, nary_writes, reshape_writes]
  decide

theorem host1_keep (r : Ref sig .tc) (hr : r ∉ host1_W) :
    StableHlo.after hostOps1 W (Proc.devRef .tc r) = W (Proc.devRef .tc r) :=
  StableHlo.after_of_writes_sub hostOps1 W host1_writes hr

theorem host2_v21 (b : Fin 64) (n : Fin 512) :
    StableHlo.after hostOps2 W (Proc.devRef .tc main_v21) (ix2 b n)
      = W (Proc.devRef .tc main_v20_0) (ix3 ⟨b.val / 2, by have := b.isLt; omega⟩ ⟨b.val % 2, Nat.mod_lt _ (by decide)⟩ n) := by
  after_results
  exact merge_apply _ b n

theorem host2_v22 (l : Fin 2) (b : Fin 64) (q : Fin 32768) :
    StableHlo.after hostOps2 W (Proc.devRef .tc main_v22) (ix3 l b q)
      = W (Proc.devRef .tc main_v20_1) (ix4 l b ⟨q.val / 64, by have := q.isLt; omega⟩ ⟨q.val % 64, Nat.mod_lt _ (by decide)⟩) := by
  after_results
  exact flat_apply _ l b q

end Cert.KernelIdeal.KVal

end
-- ==== Proof.KVal.Win1.lean ====
import proofs.«134251_g19069654794669_cont_sun_m_30_29_alg».proof.Proof.Gen.KernelIdeal.Points
import proofs.«134251_g19069654794669_cont_sun_m_30_29_alg».proof.Proof.Gen.KernelIdeal.Launch
import Idealize.ShloMosaic.Lib.Pipeline.Value
import Idealize.ShloMosaic.Lib.ValueIdx

set_option maxRecDepth 16384

noncomputable section

namespace Cert.KernelIdeal.KVal.R1

open Cert.KernelIdeal Cert.KernelIdeal.Gen
open Idealize.ShloMosaic Idealize.ShloMosaic.TcCoe Idealize.SL.Sem Idealize.ShloMosaic.ValueIdx

variable {F : FTy → Type} [FloatOps F]

theorem idx_facts1 : ∀ t : Fin cfg1.N,
    (win1_1.index t (0 : Fin 4) = 0 ∧ win1_1.index t (1 : Fin 4) = t.val ∧ win1_1.index t (2 : Fin 4) = 0 ∧ win1_1.index t (3 : Fin 4) = 0)
    ∧ (win1_2.index t (0 : Fin 4) = 0 ∧ win1_2.index t (1 : Fin 4) = t.val ∧ win1_2.index t (2 : Fin 4) = 0 ∧ win1_2.index t (3 : Fin 4) = 0)
    ∧ (win1_17.index t (0 : Fin 3) = t.val ∧ win1_17.index t (1 : Fin 3) = 0 ∧ win1_17.index t (2 : Fin 3) = 0)
    ∧ (win1_18.index t (0 : Fin 4) = 0 ∧ win1_18.index t (1 : Fin 4) = t.val ∧ win1_18.index t (2 : Fin 4) = 0 ∧ win1_18.index t (3 : Fin 4) = 0) :=
  (by decide +kernel : ∀ t : Fin grid1.N, _)

theorem blk1_1_read (X : (⟨S3x32x2x512, .f32⟩ : BufTy).Contents (Elt F)) (t : Fin cfg1.N) (k : Fin 3) (z : Fin 1) (j : Fin 2) (n : Fin 512) :
    ((cfg1.win 1).blk t).view.read (Elt F) X (ix4 k z j n) = X (ix4 k ⟨t.val, t.isLt.trans_le (le_of_eq N_1)⟩ j n) := by
  obtain ⟨⟨e0, e1, e2, e3⟩, -⟩ := idx_facts1 t
  show X (((cfg1.win 1).blk t).view.emb (ix4 k z j n)) = _
  congr 1
  funext a; apply Fin.ext
  have hz : z.val = 0 := by have := z.isLt; omega
  match a with
  | ⟨0, _⟩ => show win1_1.index t (0 : Fin 4) * 3 + 1 * k.val = k.val; omega
  | ⟨1, _⟩ => show win1_1.index t (1 : Fin 4) * 1 + 1 * z.val = t.val; omega
  | ⟨2, _⟩ => show win1_1.index t (2 : Fin 4) * 2 + 1 * j.val = j.val; omega
  | ⟨3, _⟩ => show win1_1.index t (3 : Fin 4) * 512 + 1 * n.val = n.val; omega

theorem blk1_2_read (X : (⟨S2x64x512x64, .f32⟩ : BufTy).Contents (Elt F)) (t : Fin cfg1.N) (l : Fin 2) (j : Fin 2) (n : Fin 512) (f : Fin 64) :
    ((cfg1.win 2).blk t).view.read (Elt F) X (ix4 l j n f)
      = X (ix4 l ⟨2 * t.val + j.val, by have := t.isLt.trans_le (le_of_eq N_1); have := j.isLt; omega⟩ n f) := by
  obtain ⟨-, ⟨e0, e1, e2, e3⟩, -⟩ := idx_facts1 t
  show X (((cfg1.win 2).blk t).view.emb (ix4 l j n f)) = _
  congr 1
  funext a; apply Fin.ext
  match a with
  | ⟨0, _⟩ => show win1_2.index t (0 : Fin 4) * 2 + 1 * l.val = l.val; omega
  | ⟨1, _⟩ => show win1_2.index t (1 : Fin 4) * 2 + 1 * j.val = 2 * t.val + j.val; omega
  | ⟨2, _⟩ => show win1_2.index t (2 : Fin 4) * 512 + 1 * n.val = n.val; omega
  | ⟨3, _⟩ => show win1_2.index t (3 : Fin 4) * 64 + 1 * f.val = f.val; omega

theorem blk1_17_read (X : (⟨S32x2x512, .f32⟩ : BufTy).Contents (Elt F)) (t : Fin cfg1.N) (z : Fin 1) (j : Fin 2) (n : Fin 512) :
    ((cfg1.win 17).blk t).view.read (Elt F) X (ix3 z j n) = X (ix3 ⟨t.val, t.isLt.trans_le (le_of_eq N_1)⟩ j n) := by
  obtain ⟨-, -, ⟨e0, e1, e2⟩, -⟩ := idx_facts1 t
  show X (((cfg1.win 17).blk t).view.emb (ix3 z j n)) = _
  congr 1
  funext a; apply Fin.ext
  have hz : z.val = 0 := by have := z.isLt; omega
  match a with
  | ⟨0, _⟩ => show win1_17.index t (0 : Fin 3) * 1 + 1 * z.val = t.val; omega
  | ⟨1, _⟩ => show win1_17.index t (1 : Fin 3) * 2 + 1 * j.val = j.val; omega
  | ⟨2, _⟩ => show win1_17.index t (2 : Fin 3) * 512 + 1 * n.val = n.val; omega

theorem blk1_18_read (X : (⟨S2x64x512x64, .f32⟩ : BufTy).Contents (Elt F)) (t : Fin cfg1.N) (l : Fin 2) (j : Fin 2) (n : Fin 512) (f : Fin 64) :
    ((cfg1.win 18).blk t).view.read (Elt F) X (ix4 l j n f)
      = X (ix4 l ⟨2 * t.val + j.val, by have := t.isLt.trans_le (le_of_eq N_1); have := j.isLt; omega⟩ n f) := by
  obtain ⟨-, -, -, ⟨e0, e1, e2, e3⟩⟩ := idx_facts1 t
  show X (((cfg1.win 18).blk t).view.emb (ix4 l j n f)) = _
  congr 1
  funext a; apply Fin.ext
  match a with
  | ⟨0, _⟩ => show win1_18.index t (0 : Fin 4) * 2 + 1 * l.val = l.val; omega
  | ⟨1, _⟩ => show win1_18.index t (1 : Fin 4) * 2 + 1 * j.val = 2 * t.val + j.val; omega
  | ⟨2, _⟩ => show win1_18.index t (2 : Fin 4) * 512 + 1 * n.val = n.val; omega
  | ⟨3, _⟩ => show win1_18.index t (3 : Fin 4) * 64 + 1 * f.val = f.val; omega

theorem mem_blk1_17 (t : Fin cfg1.N) (i : S32x2x512.Idx) :
    i ∈ ((cfg1.win 17).blk t).view.set ↔ ∀ a : Fin 3, win1_17.index t a * S1x2x512.size a ≤ (i a).val ∧ (i a).val < win1_17.index t a * S1x2x512.size a + S1x2x512.size a := by
  show i ∈ ((View.whole main_v20_0).slice (win1_17.rect t)).set ↔ _
  rw [View.set_slice_whole, Rect.mem_set_unit]
  exact Iff.rfl

theorem mem_blk1_18 (t : Fin cfg1.N) (i : S2x64x512x64.Idx) :
    i ∈ ((cfg1.win 18).blk t).view.set ↔ ∀ a : Fin 4, win1_18.index t a * S2x2x512x64.size a ≤ (i a).val ∧ (i a).val < win1_18.index t a * S2x2x512x64.size a + S2x2x512x64.size a := by
  show i ∈ ((View.whole main_v20_1).slice (win1_18.rect t)).set ↔ _
  rw [View.set_slice_whole, Rect.mem_set_unit]
  exact Iff.rfl

theorem cover1_17_arr (i : S32x2x512.Idx) : ∃ t : Fin cfg1.N, (cfg1.win 17).flush t = true ∧ i ∈ ((cfg1.win 17).blk t).view.set := by
  have h0 : (i 0).val < 32 := (i 0).isLt
  have h1 : (i 1).val < 2 := (i 1).isLt
  have h2 : (i 2).val < 512 := (i 2).isLt
  refine ⟨⟨(i 0).val, by rw [show cfg1.N = 32 from N_1]; exact h0⟩, flush1_17 _, ?_⟩
  rw [mem_blk1_17]
  obtain ⟨-, -, ⟨e0, e1, e2⟩, -⟩ := idx_facts1 ⟨(i 0).val, by rw [show cfg1.N = 32 from N_1]; exact h0⟩
  intro a
  match a with
  | ⟨0, _⟩ => show win1_17.index _ (0 : Fin 3) * 1 ≤ (i 0).val ∧ (i 0).val < win1_17.index _ (0 : Fin 3) * 1 + 1; rw [e0]; show (i 0).val * 1 ≤ (i 0).val ∧ (i 0).val < (i 0).val * 1 + 1; omega
  | ⟨1, _⟩ => show win1_17.index _ (1 : Fin 3) * 2 ≤ (i 1).val ∧ (i 1).val < win1_17.index _ (1 : Fin 3) * 2 + 2; rw [e1]; omega
  | ⟨2, _⟩ => show win1_17.index _ (2 : Fin 3) * 512 ≤ (i 2).val ∧ (i 2).val < win1_17.index _ (2 : Fin 3) * 512 + 512; rw [e2]; omega

theorem cover1_18_arr (i : S2x64x512x64.Idx) : ∃ t : Fin cfg1.N, (cfg1.win 18).flush t = true ∧ i ∈ ((cfg1.win 18).blk t).view.set := by
  have h0 : (i 0).val < 2 := (i 0).isLt
  have h1 : (i 1).val < 64 := (i 1).isLt
  have h2 : (i 2).val < 512 := (i 2).isLt
  have h3 : (i 3).val < 64 := (i 3).isLt
  have ht : (i 1).val / 2 < cfg1.N := by rw [show cfg1.N = 32 from N_1]; omega
  refine ⟨⟨(i 1).val / 2, ht⟩, flush1_18 _, ?_⟩
  rw [mem_blk1_18]
  obtain ⟨-, -, -, ⟨e0, e1, e2, e3⟩⟩ := idx_facts1 ⟨(i 1).val / 2, ht⟩
  intro a
  match a with
  | ⟨0, _⟩ => show win1_18.index _ (0 : Fin 4) * 2 ≤ (i 0).val ∧ (i 0).val < win1_18.index _ (0 : Fin 4) * 2 + 2; rw [e0]; omega
  | ⟨1, _⟩ => show win1_18.index _ (1 : Fin 4) * 2 ≤ (i 1).val ∧ (i 1).val < win1_18.index _ (1 : Fin 4) * 2 + 2; rw [e1]; show (i 1).val / 2 * 2 ≤ (i 1).val ∧ (i 1).val < (i 1).val / 2 * 2 + 2; omega
  | ⟨2, _⟩ => show win1_18.index _ (2 : Fin 4) * 512 ≤ (i 2).val ∧ (i 2).val < win1_18.index _ (2 : Fin 4) * 512 + 512; rw [e2]; omega
  | ⟨3, _⟩ => show win1_18.index _ (3 : Fin 4) * 64 ≤ (i 3).val ∧ (i 3).val < win1_18.index _ (3 : Fin 4) * 64 + 64; rw [e3]; omega

theorem blk1_0_read (X : (⟨S512x512, .f32⟩ : BufTy).Contents (Elt F)) (t : Fin cfg1.N) (a : Fin 512) (b : Fin 512) :
    ((cfg1.win 0).blk t).view.read (Elt F) X (ix2 a b) = X (ix2 a b) := by
  show X (((cfg1.win 0).blk t).view.emb (ix2 a b)) = _
  congr 1
  funext q; apply Fin.ext
  match q with
  | ⟨0, _⟩ => show win1_0.index t (0 : Fin 2) * 512 + 1 * a.val = a.val; rw [show win1_0.index t (0 : Fin 2) = 0 from rfl]; omega
  | ⟨1, _⟩ => show win1_0.index t (1 : Fin 2) * 512 + 1 * b.val = b.val; rw [show win1_0.index t (1 : Fin 2) = 0 from rfl]; omega

theorem blk1_3_read (X : (⟨S6x256, .f32⟩ : BufTy).Contents (Elt F)) (t : Fin cfg1.N) (a : Fin 6) (b : Fin 256) :
    ((cfg1.win 3).blk t).view.read (Elt F) X (ix2 a b) = X (ix2 a b) := by
  show X (((cfg1.win 3).blk t).view.emb (ix2 a b)) = _
  congr 1
  funext q; apply Fin.ext
  match q with
  | ⟨0, _⟩ => show win1_3.index t (0 : Fin 2) * 6 + 1 * a.val = a.val; rw [show win1_3.index t (0 : Fin 2) = 0 from rfl]; omega
  | ⟨1, _⟩ => show win1_3.index t (1 : Fin 2) * 256 + 1 * b.val = b.val; rw [show win1_3.index t (1 : Fin 2) = 0 from rfl]; omega

theorem blk1_4_read (X : (⟨S3x128x256, .f32⟩ : BufTy).Contents (Elt F)) (t : Fin cfg1.N) (a : Fin 3) (b : Fin 128) (d : Fin 256) :
    ((cfg1.win 4).blk t).view.read (Elt F) X (ix3 a b d) = X (ix3 a b d) := by
  show X (((cfg1.win 4).blk t).view.emb (ix3 a b d)) = _
  congr 1
  funext q; apply Fin.ext
  match q with
  | ⟨0, _⟩ => show win1_4.index t (0 : Fin 3) * 3 + 1 * a.val = a.val; rw [show win1_4.index t (0 : Fin 3) = 0 from rfl]; omega
  | ⟨1, _⟩ => show win1_4.index t (1 : Fin 3) * 128 + 1 * b.val = b.val; rw [show win1_4.index t (1 : Fin 3) = 0 from rfl]; omega
  | ⟨2, _⟩ => show win1_4.index t (2 : Fin 3) * 256 + 1 * d.val = d.val; rw [show win1_4.index t (2 : Fin 3) = 0 from rfl]; omega

theorem blk1_5_read (X : (⟨S1x256, .f32⟩ : BufTy).Contents (Elt F)) (t : Fin cfg1.N) (a : Fin 1) (b : Fin 256) :
    ((cfg1.win 5).blk t).view.read (Elt F) X (ix2 a b) = X (ix2 a b) := by
  show X (((cfg1.win 5).blk t).view.emb (ix2 a b)) = _
  congr 1
  funext q; apply Fin.ext
  match q with
  | ⟨0, _⟩ => show win1_5.index t (0 : Fin 2) * 1 + 1 * a.val = a.val; rw [show win1_5.index t (0 : Fin 2) = 0 from rfl]; omega
  | ⟨1, _⟩ => show win1_5.index t (1 : Fin 2) * 256 + 1 * b.val = b.val; rw [show win1_5.index t (1 : Fin 2) = 0 from rfl]; omega

theorem blk1_6_read (X : (⟨S6x128, .f32⟩ : BufTy).Contents (Elt F)) (t : Fin cfg1.N) (a : Fin 6) (b : Fin 128) :
    ((cfg1.win 6).blk t).view.read (Elt F) X (ix2 a b) = X (ix2 a b) := by
  show X (((cfg1.win 6).blk t).view.emb (ix2 a b)) = _
  congr 1
  funext q; apply Fin.ext
  match q with
  | ⟨0, _⟩ => show win1_6.index t (0 : Fin 2) * 6 + 1 * a.val = a.val; rw [show win1_6.index t (0 : Fin 2) = 0 from rfl]; omega
  | ⟨1, _⟩ => show win1_6.index t (1 : Fin 2) * 128 + 1 * b.val = b.val; rw [show win1_6.index t (1 : Fin 2) = 0 from rfl]; omega

theorem blk1_7_read (X : (⟨S3x128x128, .f32⟩ : BufTy).Contents (Elt F)) (t : Fin cfg1.N) (a : Fin 3) (b : Fin 128) (d : Fin 128) :
    ((cfg1.win 7).blk t).view.read (Elt F) X (ix3 a b d) = X (ix3 a b d) := by
  show X (((cfg1.win 7).blk t).view.emb (ix3 a b d)) = _
  congr 1
  funext q; apply Fin.ext
  match q with
  | ⟨0, _⟩ => show win1_7.index t (0 : Fin 3) * 3 + 1 * a.val = a.val; rw [show win1_7.index t (0 : Fin 3) = 0 from rfl]; omega
  | ⟨1, _⟩ => show win1_7.index t (1 : Fin 3) * 128 + 1 * b.val = b.val; rw [show win1_7.index t (1 : Fin 3) = 0 from rfl]; omega
  | ⟨2, _⟩ => show win1_7.index t (2 : Fin 3) * 128 + 1 * d.val = d.val; rw [show win1_7.index t (2 : Fin 3) = 0 from rfl]; omega

theorem blk1_8_read (X : (⟨S1x128, .f32⟩ : BufTy).Contents (Elt F)) (t : Fin cfg1.N) (a : Fin 1) (b : Fin 128) :
    ((cfg1.win 8).blk t).view.read (Elt F) X (ix2 a b) = X (ix2 a b) := by
  show X (((cfg1.win 8).blk t).view.emb (ix2 a b)) = _
  congr 1
  funext q; apply Fin.ext
  match q with
  | ⟨0, _⟩ => show win1_8.index t (0 : Fin 2) * 1 + 1 * a.val = a.val; rw [show win1_8.index t (0 : Fin 2) = 0 from rfl]; omega
  | ⟨1, _⟩ => show win1_8.index t (1 : Fin 2) * 128 + 1 * b.val = b.val; rw [show win1_8.index t (1 : Fin 2) = 0 from rfl]; omega

theorem blk1_9_read (X : (⟨S3x128x256, .f32⟩ : BufTy).Contents (Elt F)) (t : Fin cfg1.N) (a : Fin 3) (b : Fin 128) (d : Fin 256) :
    ((cfg1.win 9).blk t).view.read (Elt F) X (ix3 a b d) = X (ix3 a b d) := by
  show X (((cfg1.win 9).blk t).view.emb (ix3 a b d)) = _
  congr 1
  funext q; apply Fin.ext
  match q with
  | ⟨0, _⟩ => show win1_9.index t (0 : Fin 3) * 3 + 1 * a.val = a.val; rw [show win1_9.index t (0 : Fin 3) = 0 from rfl]; omega
  | ⟨1, _⟩ => show win1_9.index t (1 : Fin 3) * 128 + 1 * b.val = b.val; rw [show win1_9.index t (1 : Fin 3) = 0 from rfl]; omega
  | ⟨2, _⟩ => show win1_9.index t (2 : Fin 3) * 256 + 1 * d.val = d.val; rw [show win1_9.index t (2 : Fin 3) = 0 from rfl]; omega

theorem blk1_10_read (X : (⟨S3x128x256, .f32⟩ : BufTy).Contents (Elt F)) (t : Fin cfg1.N) (a : Fin 3) (b : Fin 128) (d : Fin 256) :
    ((cfg1.win 10).blk t).view.read (Elt F) X (ix3 a b d) = X (ix3 a b d) := by
  show X (((cfg1.win 10).blk t).view.emb (ix3 a b d)) = _
  congr 1
  funext q; apply Fin.ext
  match q with
  | ⟨0, _⟩ => show win1_10.index t (0 : Fin 3) * 3 + 1 * a.val = a.val; rw [show win1_10.index t (0 : Fin 3) = 0 from rfl]; omega
  | ⟨1, _⟩ => show win1_10.index t (1 : Fin 3) * 128 + 1 * b.val = b.val; rw [show win1_10.index t (1 : Fin 3) = 0 from rfl]; omega
  | ⟨2, _⟩ => show win1_10.index t (2 : Fin 3) * 256 + 1 * d.val = d.val; rw [show win1_10.index t (2 : Fin 3) = 0 from rfl]; omega

theorem blk1_11_read (X : (⟨S1x256, .f32⟩ : BufTy).Contents (Elt F)) (t : Fin cfg1.N) (a : Fin 1) (b : Fin 256) :
    ((cfg1.win 11).blk t).view.read (Elt F) X (ix2 a b) = X (ix2 a b) := by
  show X (((cfg1.win 11).blk t).view.emb (ix2 a b)) = _
  congr 1
  funext q; apply Fin.ext
  match q with
  | ⟨0, _⟩ => show win1_11.index t (0 : Fin 2) * 1 + 1 * a.val = a.val; rw [show win1_11.index t (0 : Fin 2) = 0 from rfl]; omega
  | ⟨1, _⟩ => show win1_11.index t (1 : Fin 2) * 256 + 1 * b.val = b.val; rw [show win1_11.index t (1 : Fin 2) = 0 from rfl]; omega

theorem blk1_12_read (X : (⟨S3x128x128, .f32⟩ : BufTy).Contents (Elt F)) (t : Fin cfg1.N) (a : Fin 3) (b : Fin 128) (d : Fin 128) :
    ((cfg1.win 12).blk t).view.read (Elt F) X (ix3 a b d) = X (ix3 a b d) := by
  show X (((cfg1.win 12).blk t).view.emb (ix3 a b d)) = _
  congr 1
  funext q; apply Fin.ext
  match q with
  | ⟨0, _⟩ => show win1_12.index t (0 : Fin 3) * 3 + 1 * a.val = a.val; rw [show win1_12.index t (0 : Fin 3) = 0 from rfl]; omega
  | ⟨1, _⟩ => show win1_12.index t (1 : Fin 3) * 128 + 1 * b.val = b.val; rw [show win1_12.index t (1 : Fin 3) = 0 from rfl]; omega
  | ⟨2, _⟩ => show win1_12.index t (2 : Fin 3) * 128 + 1 * d.val = d.val; rw [show win1_12.index t (2 : Fin 3) = 0 from rfl]; omega

theorem blk1_13_read (X : (⟨S3x128x128, .f32⟩ : BufTy).Contents (Elt F)) (t : Fin cfg1.N) (a : Fin 3) (b : Fin 128) (d : Fin 128) :
    ((cfg1.win 13).blk t).view.read (Elt F) X (ix3 a b d) = X (ix3 a b d) := by
  show X (((cfg1.win 13).blk t).view.emb (ix3 a b d)) = _
  congr 1
  funext q; apply Fin.ext
  match q with
  | ⟨0, _⟩ => show win1_13.index t (0 : Fin 3) * 3 + 1 * a.val = a.val; rw [show win1_13.index t (0 : Fin 3) = 0 from rfl]; omega
  | ⟨1, _⟩ => show win1_13.index t (1 : Fin 3) * 128 + 1 * b.val = b.val; rw [show win1_13.index t (1 : Fin 3) = 0 from rfl]; omega
  | ⟨2, _⟩ => show win1_13.index t (2 : Fin 3) * 128 + 1 * d.val = d.val; rw [show win1_13.index t (2 : Fin 3) = 0 from rfl]; omega

theorem blk1_14_read (X : (⟨S1x128, .f32⟩ : BufTy).Contents (Elt F)) (t : Fin cfg1.N) (a : Fin 1) (b : Fin 128) :
    ((cfg1.win 14).blk t).view.read (Elt F) X (ix2 a b) = X (ix2 a b) := by
  show X (((cfg1.win 14).blk t).view.emb (ix2 a b)) = _
  congr 1
  funext q; apply Fin.ext
  match q with
  | ⟨0, _⟩ => show win1_14.index t (0 : Fin 2) * 1 + 1 * a.val = a.val; rw [show win1_14.index t (0 : Fin 2) = 0 from rfl]; omega
  | ⟨1, _⟩ => show win1_14.index t (1 : Fin 2) * 128 + 1 * b.val = b.val; rw [show win1_14.index t (1 : Fin 2) = 0 from rfl]; omega

theorem blk1_15_read (X : (⟨S128x2, .f32⟩ : BufTy).Contents (Elt F)) (t : Fin cfg1.N) (a : Fin 128) (b : Fin 2) :
    ((cfg1.win 15).blk t).view.read (Elt F) X (ix2 a b) = X (ix2 a b) := by
  show X (((cfg1.win 15).blk t).view.emb (ix2 a b)) = _
  congr 1
  funext q; apply Fin.ext
  match q with
  | ⟨0, _⟩ => show win1_15.index t (0 : Fin 2) * 128 + 1 * a.val = a.val; rw [show win1_15.index t (0 : Fin 2) = 0 from rfl]; omega
  | ⟨1, _⟩ => show win1_15.index t (1 : Fin 2) * 2 + 1 * b.val = b.val; rw [show win1_15.index t (1 : Fin 2) = 0 from rfl]; omega

theorem blk1_16_read (X : (⟨S1x1, .f32⟩ : BufTy).Contents (Elt F)) (t : Fin cfg1.N) (a : Fin 1) (b : Fin 1) :
    ((cfg1.win 16).blk t).view.read (Elt F) X (ix2 a b) = X (ix2 a b) := by
  show X (((cfg1.win 16).blk t).view.emb (ix2 a b)) = _
  congr 1
  funext q; apply Fin.ext
  match q with
  | ⟨0, _⟩ => show win1_16.index t (0 : Fin 2) * 1 + 1 * a.val = a.val; rw [show win1_16.index t (0 : Fin 2) = 0 from rfl]; omega
  | ⟨1, _⟩ => show win1_16.index t (1 : Fin 2) * 1 + 1 * b.val = b.val; rw [show win1_16.index t (1 : Fin 2) = 0 from rfl]; omega

end Cert.KernelIdeal.KVal.R1

end
-- ==== Proof.KVal.Pieces1.lean ====
import proofs.«134251_g19069654794669_cont_sun_m_30_29_alg».proof.Proof.KernelIdealH.Run1
import Idealize.ShloMosaic.Lib.Pipeline.Value
import Idealize.ShloMosaic.Lib.ValueIdx

set_option maxRecDepth 16384

noncomputable section

namespace Cert.KernelIdeal.KVal.R1

open Cert.KernelIdeal Cert.KernelIdeal.Gen Cert.KernelIdeal.FrameH
open Idealize.ShloMosaic Idealize.ShloMosaic.TcCoe Idealize.ShloMosaic.Tactic Idealize.SL.Sem Idealize.ShloMosaic.ValueIdx

variable {F : FTy → Type} [FloatOps F]

theorem r1_zero2 : (![0, 0] : Fin 2 → Nat) = fun _ => 0 := funext fun a => by fin_cases a <;> rfl
theorem r1_zero3 : (![0, 0, 0] : Fin 3 → Nat) = fun _ => 0 := funext fun a => by fin_cases a <;> rfl

theorem pieces17 (c : Dev nD) (i : grid1.Coords) (arg1 : Memref sig .tc .vmem S512x512 .f32) (harg1 : arg1.IsWhole) (arg2 : Memref sig .tc .vmem S3x1x2x512 .f32) (harg2 : arg2.IsWhole) (arg3 : Memref sig .tc .vmem S2x2x512x64 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x2x512x64 .f32) (harg19 : arg19.IsWhole) (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32) :
    VO1_17.read (Elt F) (VO1_17.writes (Elt F) VO1_17.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).1)
      = k1_pay4 (kernelRun1.sl.r_10 c arg3 harg3 x2) (kernelRun1.sl.r_15 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun1.sl.r_17 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) x15 x16 := by
  rw [View.read_writes_junk_eq_canon]
  unfold kernelRun1
  dsimp only
  rw [View.canon_unit_zero r1_zero3]
  simp only [View.readAt_eq_ld, harg16.read_unread, harg17.read_unread, View.ld_unit_zero (S := S128x2) r1_zero2, View.ld_unit_zero (S := S1x1) r1_zero2]

theorem pieces18_11 (c : Dev nD) (i : grid1.Coords) (arg1 : Memref sig .tc .vmem S512x512 .f32) (harg1 : arg1.IsWhole) (arg2 : Memref sig .tc .vmem S3x1x2x512 .f32) (harg2 : arg2.IsWhole) (arg3 : Memref sig .tc .vmem S2x2x512x64 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x2x512x64 .f32) (harg19 : arg19.IsWhole) (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32) (n : Fin 512) (f : Fin 64) :
    VO1_18.read (Elt F) (VO1_18.writes (Elt F) VO1_18.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1) (ix4 (1 : Fin 2) (1 : Fin 2) n f)
      = k1_pay3 (kernelRun1.sl.r_10 c arg3 harg3 x2) (kernelRun1.sl.r_15 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun1.sl.r_17 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (ix4 (0 : Fin 1) (0 : Fin 1) n f) := by
  rw [View.read_writes_junk_apply_eq_canon]
  unfold kernelRun1
  dsimp only
  have e : (ix4 (1 : Fin 2) (1 : Fin 2) n f : S2x2x512x64.Idx)
      = (Rect.unit (s := S2x2x512x64) ![1, 1, 0, 0] S1x1x512x64.size inb_S2x2x512x64_S1x1x512x64_1_1_0_0).emb (ix4 (0 : Fin 1) (0 : Fin 1) n f) := by
    funext a; apply Fin.ext
    match a with
    | ⟨0, _⟩ => show 1 = 1 + 1 * 0; omega
    | ⟨1, _⟩ => show 1 = 1 + 1 * 0; omega
    | ⟨2, _⟩ => show n.val = 0 + 1 * n.val; omega
    | ⟨3, _⟩ => show f.val = 0 + 1 * f.val; omega
  rw [e]
  exact View.canon_cons_emb _ _ _ _

theorem pieces18_10 (c : Dev nD) (i : grid1.Coords) (arg1 : Memref sig .tc .vmem S512x512 .f32) (harg1 : arg1.IsWhole) (arg2 : Memref sig .tc .vmem S3x1x2x512 .f32) (harg2 : arg2.IsWhole) (arg3 : Memref sig .tc .vmem S2x2x512x64 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x2x512x64 .f32) (harg19 : arg19.IsWhole) (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32) (n : Fin 512) (f : Fin 64) :
    VO1_18.read (Elt F) (VO1_18.writes (Elt F) VO1_18.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1) (ix4 (1 : Fin 2) (0 : Fin 2) n f)
      = k1_pay2 (kernelRun1.sl.r_10 c arg3 harg3 x2) (kernelRun1.sl.r_15 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun1.sl.r_17 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (ix4 (0 : Fin 1) (0 : Fin 1) n f) := by
  rw [View.read_writes_junk_apply_eq_canon]
  unfold kernelRun1
  dsimp only
  have e : (ix4 (1 : Fin 2) (0 : Fin 2) n f : S2x2x512x64.Idx)
      = (Rect.unit (s := S2x2x512x64) ![1, 0, 0, 0] S1x1x512x64.size inb_S2x2x512x64_S1x1x512x64_1_0_0_0).emb (ix4 (0 : Fin 1) (0 : Fin 1) n f) := by
    funext a; apply Fin.ext
    match a with
    | ⟨0, _⟩ => show 1 = 1 + 1 * 0; omega
    | ⟨1, _⟩ => show 0 = 0 + 1 * 0; omega
    | ⟨2, _⟩ => show n.val = 0 + 1 * n.val; omega
    | ⟨3, _⟩ => show f.val = 0 + 1 * f.val; omega
  rw [e]
  rw [View.canon_cons_of_not_mem _ _ (by intro h; rw [Rect.mem_set_unit] at h; have h0 : 1 ≤ 0 + 1 * 0 := (h 1).1; omega)]
  exact View.canon_cons_emb _ _ _ _

theorem pieces18_01 (c : Dev nD) (i : grid1.Coords) (arg1 : Memref sig .tc .vmem S512x512 .f32) (harg1 : arg1.IsWhole) (arg2 : Memref sig .tc .vmem S3x1x2x512 .f32) (harg2 : arg2.IsWhole) (arg3 : Memref sig .tc .vmem S2x2x512x64 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x2x512x64 .f32) (harg19 : arg19.IsWhole) (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32) (n : Fin 512) (f : Fin 64) :
    VO1_18.read (Elt F) (VO1_18.writes (Elt F) VO1_18.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1) (ix4 (0 : Fin 2) (1 : Fin 2) n f)
      = k1_pay19 (kernelRun1.sl.r_2 c arg3 harg3 x2) (kernelRun1.sl.r_5 c arg1 harg1 arg2 harg2 arg3 harg3 arg4 harg4 arg5 harg5 arg6 harg6 x0 x1 x2 x3 x4 x5) (kernelRun1.sl.r_6 c arg1 harg1 arg2 harg2 arg3 harg3 arg4 harg4 arg5 harg5 arg6 harg6 x0 x1 x2 x3 x4 x5) (kernelRun1.sl.r_7 c arg1 harg1 arg2 harg2 arg3 harg3 arg4 harg4 arg5 harg5 arg6 harg6 arg7 harg7 arg8 harg8 arg9 harg9 x0 x1 x2 x3 x4 x5 x6 x7 x8) (kernelRun1.sl.r_8 c arg1 harg1 arg2 harg2 arg3 harg3 arg4 harg4 arg5 harg5 arg6 harg6 x0 x1 x2 x3 x4 x5) k1_pay16 (View.readAt (Elt F) arg8.view (Rect.unit (s := S3x128x128) ![2, 0, 0] S1x128x128.size inb_S3x128x128_S1x128x128_2_0_0).toLoadRect (harg8.unread x7)) (ix4 (0 : Fin 1) (0 : Fin 1) n f) := by
  rw [View.read_writes_junk_apply_eq_canon]
  unfold kernelRun1
  dsimp only
  have e : (ix4 (0 : Fin 2) (1 : Fin 2) n f : S2x2x512x64.Idx)
      = (Rect.unit (s := S2x2x512x64) ![0, 1, 0, 0] S1x1x512x64.size inb_S2x2x512x64_S1x1x512x64_0_1_0_0).emb (ix4 (0 : Fin 1) (0 : Fin 1) n f) := by
    funext a; apply Fin.ext
    match a with
    | ⟨0, _⟩ => show 0 = 0 + 1 * 0; omega
    | ⟨1, _⟩ => show 1 = 1 + 1 * 0; omega
    | ⟨2, _⟩ => show n.val = 0 + 1 * n.val; omega
    | ⟨3, _⟩ => show f.val = 0 + 1 * f.val; omega
  rw [e]
  rw [View.canon_cons_of_not_mem _ _ (by intro h; rw [Rect.mem_set_unit] at h; have h0 : 1 ≤ 0 + 1 * 0 := (h 0).1; omega)]
  rw [View.canon_cons_of_not_mem _ _ (by intro h; rw [Rect.mem_set_unit] at h; have h0 : 1 ≤ 0 + 1 * 0 := (h 0).1; omega)]
  exact View.canon_cons_emb _ _ _ _

theorem pieces18_00 (c : Dev nD) (i : grid1.Coords) (arg1 : Memref sig .tc .vmem S512x512 .f32) (harg1 : arg1.IsWhole) (arg2 : Memref sig .tc .vmem S3x1x2x512 .f32) (harg2 : arg2.IsWhole) (arg3 : Memref sig .tc .vmem S2x2x512x64 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x2x512x64 .f32) (harg19 : arg19.IsWhole) (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32) (n : Fin 512) (f : Fin 64) :
    VO1_18.read (Elt F) (VO1_18.writes (Elt F) VO1_18.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1) (ix4 (0 : Fin 2) (0 : Fin 2) n f)
      = k1_pay18 (kernelRun1.sl.r_2 c arg3 harg3 x2) (kernelRun1.sl.r_5 c arg1 harg1 arg2 harg2 arg3 harg3 arg4 harg4 arg5 harg5 arg6 harg6 x0 x1 x2 x3 x4 x5) (kernelRun1.sl.r_6 c arg1 harg1 arg2 harg2 arg3 harg3 arg4 harg4 arg5 harg5 arg6 harg6 x0 x1 x2 x3 x4 x5) (kernelRun1.sl.r_7 c arg1 harg1 arg2 harg2 arg3 harg3 arg4 harg4 arg5 harg5 arg6 harg6 arg7 harg7 arg8 harg8 arg9 harg9 x0 x1 x2 x3 x4 x5 x6 x7 x8) (kernelRun1.sl.r_8 c arg1 harg1 arg2 harg2 arg3 harg3 arg4 harg4 arg5 harg5 arg6 harg6 x0 x1 x2 x3 x4 x5) k1_pay16 (View.readAt (Elt F) arg8.view (Rect.unit (s := S3x128x128) ![2, 0, 0] S1x128x128.size inb_S3x128x128_S1x128x128_2_0_0).toLoadRect (harg8.unread x7)) (ix4 (0 : Fin 1) (0 : Fin 1) n f) := by
  rw [View.read_writes_junk_apply_eq_canon]
  unfold kernelRun1
  dsimp only
  have e : (ix4 (0 : Fin 2) (0 : Fin 2) n f : S2x2x512x64.Idx)
      = (Rect.unit (s := S2x2x512x64) ![0, 0, 0, 0] S1x1x512x64.size inb_S2x2x512x64_S1x1x512x64_0_0_0_0).emb (ix4 (0 : Fin 1) (0 : Fin 1) n f) := by
    funext a; apply Fin.ext
    match a with
    | ⟨0, _⟩ => show 0 = 0 + 1 * 0; omega
    | ⟨1, _⟩ => show 0 = 0 + 1 * 0; omega
    | ⟨2, _⟩ => show n.val = 0 + 1 * n.val; omega
    | ⟨3, _⟩ => show f.val = 0 + 1 * f.val; omega
  rw [e]
  rw [View.canon_cons_of_not_mem _ _ (by intro h; rw [Rect.mem_set_unit] at h; have h0 : 1 ≤ 0 + 1 * 0 := (h 0).1; omega)]
  rw [View.canon_cons_of_not_mem _ _ (by intro h; rw [Rect.mem_set_unit] at h; have h0 : 1 ≤ 0 + 1 * 0 := (h 0).1; omega)]
  rw [View.canon_cons_of_not_mem _ _ (by intro h; rw [Rect.mem_set_unit] at h; have h0 : 1 ≤ 0 + 1 * 0 := (h 1).1; omega)]
  exact View.canon_cons_emb _ _ _ _

end Cert.KernelIdeal.KVal.R1

end
-- ==== Proof.KVal.Main0Ops.lean ====
import proofs.«134251_g19069654794669_cont_sun_m_30_29_alg».proof.Proof.Gen.KernelIdeal.Skeleton
import Idealize.ShloMosaic.Lib.ValueIdx
import Idealize.ShloMosaic.Lib.Pipeline.Value
import Idealize.ShloMosaic.PureOps.Ideal.Laws
import proofs.«134251_g19069654794669_cont_sun_m_30_29_alg».proof.Proof.LibMatmul

noncomputable section

namespace Cert.KernelIdeal.KVal

open Idealize.ShloMosaic Idealize.ShloMosaic.ValueIdx Cert.KernelIdeal Cert.KernelIdeal.Gen

theorem m0_mm_SS (a : FVec Ideal S512x512 .f32) (b : FVec Ideal S512x128 .f32) (n : Fin 512) (c : Fin 128) :
    matmul dot_S512x512_S512x128_S512x128_1_0_0_1_n_n none a b (constant S512x128 .f32 0x00000000#32) (ix2 n c) = ∑ m : Fin 512, a (ix2 n m) * b (ix2 m c) :=
  Cert.Lib.matmul_plain 512 512 128 _ _ _ _

theorem m0_mm_A256 (a : FVec Ideal S512x6 .f32) (b : FVec Ideal S6x256 .f32) (n : Fin 512) (c : Fin 256) :
    matmul dot_S512x6_S6x256_S512x256_1_0_0_1_n_n none a b (constant S512x256 .f32 0x00000000#32) (ix2 n c) = ∑ m : Fin 6, a (ix2 n m) * b (ix2 m c) :=
  Cert.Lib.matmul_plain 512 6 256 _ _ _ _

theorem m0_mm_H256 (a : FVec Ideal S512x128 .f32) (b : FVec Ideal S128x256 .f32) (n : Fin 512) (c : Fin 256) :
    matmul dot_S512x128_S128x256_S512x256_1_0_0_1_n_n none a b (constant S512x256 .f32 0x00000000#32) (ix2 n c) = ∑ m : Fin 128, a (ix2 n m) * b (ix2 m c) :=
  Cert.Lib.matmul_plain 512 128 256 _ _ _ _

theorem m0_mm_A128 (a : FVec Ideal S512x6 .f32) (b : FVec Ideal S6x128 .f32) (n : Fin 512) (c : Fin 128) :
    matmul dot_S512x6_S6x128_S512x128_1_0_0_1_n_n none a b (constant S512x128 .f32 0x00000000#32) (ix2 n c) = ∑ m : Fin 6, a (ix2 n m) * b (ix2 m c) :=
  Cert.Lib.matmul_plain 512 6 128 _ _ _ _

theorem m0_mm_H128 (a : FVec Ideal S512x128 .f32) (b : FVec Ideal S128x128 .f32) (n : Fin 512) (c : Fin 128) :
    matmul dot_S512x128_S128x128_S512x128_1_0_0_1_n_n none a b (constant S512x128 .f32 0x00000000#32) (ix2 n c) = ∑ m : Fin 128, a (ix2 n m) * b (ix2 m c) :=
  Cert.Lib.matmul_plain 512 128 128 _ _ _ _

theorem m0_cast_st (v : Vec Ideal S1x1x512x64 .f32) (n : Fin 512) (f : Fin 64) :
    shapeCast S512x64 v shapeCasts_S1x1x512x64_S512x64 (ix2 n f) = v (ix4 0 0 n f) :=
  shapeCast_apply v shapeCasts_S1x1x512x64_S512x64 (ix2 n f) (ix4 0 0 n f)
    (by rw [Shape.rowMajor_val_four, Shape.rowMajor_val_two]; show ((0 * 1 + 0) * 512 + n.val) * 64 + f.val = n.val * 64 + f.val; omega)

theorem m0_cast_out (x : FVec Ideal S512x64 .f32) (n : Fin 512) (f : Fin 64) :
    shapeCast S1x1x512x64 x shapeCasts_S512x64_S1x1x512x64 (ix4 0 0 n f) = x (ix2 n f) :=
  shapeCast_apply x shapeCasts_S512x64_S1x1x512x64 (ix4 0 0 n f) (ix2 n f)
    (by rw [Shape.rowMajor_val_four, Shape.rowMajor_val_two]; show n.val * 64 + f.val = ((0 * 1 + 0) * 512 + n.val) * 64 + f.val; omega)

theorem m0_cast_ac (v : Vec Ideal S1x1x2x512 .f32) (j : Fin 2) (n : Fin 512) :
    shapeCast S2x512 v shapeCasts_S1x1x2x512_S2x512 (ix2 j n) = v (ix4 0 0 j n) :=
  shapeCast_apply v shapeCasts_S1x1x2x512_S2x512 (ix2 j n) (ix4 0 0 j n)
    (by rw [Shape.rowMajor_val_four, Shape.rowMajor_val_two]; show ((0 * 1 + 0) * 2 + j.val) * 512 + n.val = j.val * 512 + n.val; omega)

theorem m0_cast_w256 (v : Vec Ideal S1x128x256 .f32) (i : Fin 128) (c : Fin 256) :
    shapeCast S128x256 v shapeCasts_S1x128x256_S128x256 (ix2 i c) = v (ix3 0 i c) :=
  shapeCast_apply v shapeCasts_S1x128x256_S128x256 (ix2 i c) (ix3 0 i c)
    (by rw [Shape.rowMajor_val_three, Shape.rowMajor_val_two]; show (0 * 128 + i.val) * 256 + c.val = i.val * 256 + c.val; omega)

theorem m0_cast_w128 (v : Vec Ideal S1x128x128 .f32) (i : Fin 128) (c : Fin 128) :
    shapeCast S128x128 v shapeCasts_S1x128x128_S128x128 (ix2 i c) = v (ix3 0 i c) :=
  shapeCast_apply v shapeCasts_S1x128x128_S128x128 (ix2 i c) (ix3 0 i c)
    (by rw [Shape.rowMajor_val_three, Shape.rowMajor_val_two]; show (0 * 128 + i.val) * 128 + c.val = i.val * 128 + c.val; omega)

theorem m0_slice_lo (x : FVec Ideal S512x256 .f32) (n : Fin 512) (c : Fin 128) :
    extractStridedSlice S512x128 ![0, 0] x slices_S512x256_o0_0_S512x128 (ix2 n c) = x (ix2 n ⟨c.val, by have := c.isLt; omega⟩) :=
  extractStridedSlice_apply ![0, 0] x slices_S512x256_o0_0_S512x128 (ix2 n c) (ix2 n ⟨c.val, by have := c.isLt; omega⟩) fun a => by
    match a with
    | ⟨0, _⟩ => show n.val = 0 + n.val; omega
    | ⟨1, _⟩ => show c.val = 0 + c.val; omega

theorem m0_slice_hi (x : FVec Ideal S512x256 .f32) (n : Fin 512) (c : Fin 128) :
    extractStridedSlice S512x128 ![0, 128] x slices_S512x256_o0_128_S512x128 (ix2 n c) = x (ix2 n ⟨c.val + 128, by have := c.isLt; omega⟩) :=
  extractStridedSlice_apply ![0, 128] x slices_S512x256_o0_128_S512x128 (ix2 n c) (ix2 n ⟨c.val + 128, by have := c.isLt; omega⟩) fun a => by
    match a with
    | ⟨0, _⟩ => show n.val = 0 + n.val; omega
    | ⟨1, _⟩ => show c.val + 128 = 128 + c.val; omega

theorem m0_slice64_lo (x : FVec Ideal S512x128 .f32) (n : Fin 512) (f : Fin 64) :
    extractStridedSlice S512x64 ![0, 0] x slices_S512x128_o0_0_S512x64 (ix2 n f) = x (ix2 n ⟨f.val, by have := f.isLt; omega⟩) :=
  extractStridedSlice_apply ![0, 0] x slices_S512x128_o0_0_S512x64 (ix2 n f) (ix2 n ⟨f.val, by have := f.isLt; omega⟩) fun a => by
    match a with
    | ⟨0, _⟩ => show n.val = 0 + n.val; omega
    | ⟨1, _⟩ => show f.val = 0 + f.val; omega

theorem m0_slice64_hi (x : FVec Ideal S512x128 .f32) (n : Fin 512) (f : Fin 64) :
    extractStridedSlice S512x64 ![0, 64] x slices_S512x128_o0_64_S512x64 (ix2 n f) = x (ix2 n ⟨f.val + 64, by have := f.isLt; omega⟩) :=
  extractStridedSlice_apply ![0, 64] x slices_S512x128_o0_64_S512x64 (ix2 n f) (ix2 n ⟨f.val + 64, by have := f.isLt; omega⟩) fun a => by
    match a with
    | ⟨0, _⟩ => show n.val = 0 + n.val; omega
    | ⟨1, _⟩ => show f.val + 64 = 64 + f.val; omega

theorem m0_bcast256 (x : FVec Ideal S1x256 .f32) (n : Fin 512) (c : Fin 256) :
    broadcastTo S512x256 x broadcasts_S1x256_S512x256 (ix2 n c) = x (ix2 0 c) :=
  broadcastTo_apply x broadcasts_S1x256_S512x256 (ix2 n c) (ix2 0 c) fun a => by
    match a with
    | ⟨0, _⟩ => rfl
    | ⟨1, _⟩ => rfl

theorem m0_bcast128 (x : FVec Ideal S1x128 .f32) (n : Fin 512) (c : Fin 128) :
    broadcastTo S512x128 x broadcasts_S1x128_S512x128 (ix2 n c) = x (ix2 0 c) :=
  broadcastTo_apply x broadcasts_S1x128_S512x128 (ix2 n c) (ix2 0 c) fun a => by
    match a with
    | ⟨0, _⟩ => rfl
    | ⟨1, _⟩ => rfl

theorem m0_cat_pair (x y : FVec Ideal S512x64 .f32) (g : Fin 2 → Fin 64 → Fin 512 → EReal)
    (hx : ∀ n f, x (ix2 n f) = g 0 f n) (hy : ∀ n f, y (ix2 n f) = g 1 f n) (n : Fin 512) (c : Fin 128) :
    concatenate S512x128 1 [⟨S512x64, x⟩, ⟨S512x64, y⟩] concatenates_S512x64_S512x64_S512x128_d1 (ix2 n c)
      = g ⟨c.val / 64, by have := c.isLt; omega⟩ ⟨c.val % 64, Nat.mod_lt _ (by decide)⟩ n := by
  by_cases hc : c.val < 64
  · have he : (⟨c.val / 64, by have := c.isLt; omega⟩ : Fin 2) = 0 := Fin.ext (by show c.val / 64 = 0; omega)
    rw [he, ← hx]
    exact concatenate_pair_apply_left 1 x y concatenates_S512x64_S512x64_S512x128_d1 (ix2 n c) rfl
      (ix2 n ⟨c.val % 64, Nat.mod_lt _ (by decide)⟩) (fun b => by
        match b with
        | ⟨0, _⟩ => rfl
        | ⟨1, _⟩ => show c.val % 64 = c.val; omega)
  · have he : (⟨c.val / 64, by have := c.isLt; omega⟩ : Fin 2) = 1 := Fin.ext (by show c.val / 64 = 1; have := c.isLt; omega)
    rw [he, ← hy]
    exact concatenate_pair_apply_right 1 x y concatenates_S512x64_S512x64_S512x128_d1 (ix2 n c) rfl rfl
      (ix2 n ⟨c.val % 64, Nat.mod_lt _ (by decide)⟩)
      (fun b hb => by
        match b with
        | ⟨0, _⟩ => rfl
        | ⟨1, _⟩ => exact absurd rfl hb)
      (by show c.val % 64 + 64 = c.val; have := c.isLt; omega)

theorem m0_amat (x0 x1 x2 : FVec Ideal S2x512 .f32) (a : Fin 3 → Fin 2 → Fin 512 → EReal)
    (h0 : ∀ j n, x0 (ix2 j n) = a 0 j n) (h1 : ∀ j n, x1 (ix2 j n) = a 1 j n) (h2 : ∀ j n, x2 (ix2 j n) = a 2 j n)
    (n : Fin 512) (r : Fin 6) :
    transpose S512x6 [1, 0]
        (concatenate S6x512 0 [⟨S2x512, x0⟩, ⟨S2x512, x1⟩, ⟨S2x512, x2⟩] concatenates_S2x512_S2x512_S2x512_S6x512_d0)
        transposes_S6x512_p1_0_S512x6 (ix2 n r)
      = a ⟨r.val / 2, by have := r.isLt; omega⟩ ⟨r.val % 2, Nat.mod_lt _ (by decide)⟩ n := by
  refine (transpose_apply [1, 0] _ transposes_S6x512_p1_0_S512x6 (ix2 n r) (ix2 r n) (fun b => by
    match b with
    | ⟨0, _⟩ => rfl
    | ⟨1, _⟩ => rfl)).trans ?_
  have hr := r.isLt
  rcases (show r.val / 2 = 0 ∨ r.val / 2 = 1 ∨ r.val / 2 = 2 by omega) with h | h | h
  · have he : (⟨r.val / 2, by omega⟩ : Fin 3) = 0 := Fin.ext h
    rw [he, ← h0]
    exact concatenate_apply_piece 0 [⟨S2x512, x0⟩, ⟨S2x512, x1⟩, ⟨S2x512, x2⟩] concatenates_S2x512_S2x512_S2x512_S6x512_d0
      (ix2 r n) 0 (by simp) S2x512 x0 rfl rfl 0 rfl (ix2 ⟨r.val % 2, Nat.mod_lt _ (by decide)⟩ n)
      (fun b hb => by
        match b with
        | ⟨0, _⟩ => exact absurd rfl hb
        | ⟨1, _⟩ => rfl)
      (by show 0 + r.val % 2 = r.val; omega)
  · have he : (⟨r.val / 2, by omega⟩ : Fin 3) = 1 := Fin.ext h
    rw [he, ← h1]
    exact concatenate_apply_piece 0 [⟨S2x512, x0⟩, ⟨S2x512, x1⟩, ⟨S2x512, x2⟩] concatenates_S2x512_S2x512_S2x512_S6x512_d0
      (ix2 r n) 1 (by simp) S2x512 x1 rfl rfl 2 rfl (ix2 ⟨r.val % 2, Nat.mod_lt _ (by decide)⟩ n)
      (fun b hb => by
        match b with
        | ⟨0, _⟩ => exact absurd rfl hb
        | ⟨1, _⟩ => rfl)
      (by show 2 + r.val % 2 = r.val; omega)
  · have he : (⟨r.val / 2, by omega⟩ : Fin 3) = 2 := Fin.ext h
    rw [he, ← h2]
    exact concatenate_apply_piece 0 [⟨S2x512, x0⟩, ⟨S2x512, x1⟩, ⟨S2x512, x2⟩] concatenates_S2x512_S2x512_S2x512_S6x512_d0
      (ix2 r n) 2 (by simp) S2x512 x2 rfl rfl 4 rfl (ix2 ⟨r.val % 2, Nat.mod_lt _ (by decide)⟩ n)
      (fun b hb => by
        match b with
        | ⟨0, _⟩ => exact absurd rfl hb
        | ⟨1, _⟩ => rfl)
      (by show 4 + r.val % 2 = r.val; omega)

end Cert.KernelIdeal.KVal

end
-- ==== Proof.KVal.Main0Alg.lean ====
import proofs.«134251_g19069654794669_cont_sun_m_30_29_alg».proof.Proof.Spec
import proofs.«134251_g19069654794669_cont_sun_m_30_29_alg».proof.Proof.Packed
import Idealize.ShloMosaic.PureOps.Ideal.Laws
import Mathlib.Algebra.BigOperators.Fin

noncomputable section

namespace Cert.KernelIdeal.KVal

open Idealize.ShloMosaic Idealize.ShloMosaic.ValueIdx Cert.Spec Cert.Packed

theorem m0_zero : Cert.Spec.zero = 0 := Ideal.ofBits_zero_f32

theorem m0_cheb1 (S : Fin 512 → Fin 512 → EReal) (g : Fin 512 → EReal) (n : Fin 512) :
    cheb S 1 g n = ∑ m : Fin 512, S n m * g m := rfl
theorem m0_sum_rows128 (e : Fin 2) (F : Fin 2 → Fin 64 → EReal) (Wt : Fin 64 → EReal) :
    ∑ i : Fin 128, F (rowElt i) (rowFeat i) * (if rowElt i = e then Wt (rowFeat i) else zero) = ∑ f : Fin 64, F e f * Wt f := by
  have hsplit := Fin.sum_univ_add (a := 64) (b := 64)
    (fun i : Fin (64 + 64) => F (rowElt i) (rowFeat i) * (if rowElt i = e then Wt (rowFeat i) else zero))
  have a0 : ∀ f : Fin 64, rowElt (Fin.castAdd 64 f) = 0 := fun f => Fin.ext (by show f.val / 64 = 0; have := f.isLt; omega)
  have a1 : ∀ f : Fin 64, rowFeat (Fin.castAdd 64 f) = f := fun f => Fin.ext (by show f.val % 64 = f.val; have := f.isLt; omega)
  have b0 : ∀ f : Fin 64, rowElt (Fin.natAdd 64 f) = 1 := fun f => Fin.ext (by show (64 + f.val) / 64 = 1; have := f.isLt; omega)
  have b1 : ∀ f : Fin 64, rowFeat (Fin.natAdd 64 f) = f := fun f => Fin.ext (by show (64 + f.val) % 64 = f.val; have := f.isLt; omega)
  refine hsplit.trans ?_
  simp only [a0, a1, b0, b1]
  match e with
  | ⟨0, _⟩ =>
    have e10 : ¬((1 : Fin 2) = ⟨0, by decide⟩) := by decide
    have e00 : (0 : Fin 2) = ⟨0, by decide⟩ := rfl
    simp only [if_neg e10, if_pos e00, m0_zero, mul_zero, Finset.sum_const_zero, add_zero]
    rfl
  | ⟨1, _⟩ =>
    have e01 : ¬((0 : Fin 2) = ⟨1, by decide⟩) := by decide
    have e11 : (1 : Fin 2) = ⟨1, by decide⟩ := rfl
    simp only [if_neg e01, if_pos e11, m0_zero, mul_zero, Finset.sum_const_zero, zero_add]
    rfl

theorem m0_sum_rows6 (e : Fin 2) (F : Fin 3 → Fin 2 → EReal) (Wt : Fin 3 → EReal) :
    ∑ r : Fin 6, F (inTerm r) (inElt r) * (if inElt r = e then Wt (inTerm r) else zero) = ∑ k : Fin 3, F k e * Wt k := by
  rw [Fin.sum_univ_six, Fin.sum_univ_three]
  have t0 : inTerm (0 : Fin 6) = 0 := rfl
  have t1 : inTerm (1 : Fin 6) = 0 := rfl
  have t2 : inTerm (2 : Fin 6) = 1 := rfl
  have t3 : inTerm (3 : Fin 6) = 1 := rfl
  have t4 : inTerm (4 : Fin 6) = 2 := rfl
  have t5 : inTerm (5 : Fin 6) = 2 := rfl
  have j0 : inElt (0 : Fin 6) = 0 := rfl
  have j1 : inElt (1 : Fin 6) = 1 := rfl
  have j2 : inElt (2 : Fin 6) = 0 := rfl
  have j3 : inElt (3 : Fin 6) = 1 := rfl
  have j4 : inElt (4 : Fin 6) = 0 := rfl
  have j5 : inElt (5 : Fin 6) = 1 := rfl
  rw [t0, t1, t2, t3, t4, t5, j0, j1, j2, j3, j4, j5]
  match e with
  | ⟨0, _⟩ =>
    have e10 : ¬((1 : Fin 2) = ⟨0, by decide⟩) := by decide
    have e00 : (0 : Fin 2) = ⟨0, by decide⟩ := rfl
    simp only [if_neg e10, if_pos e00, m0_zero, mul_zero, add_zero, zero_add]
    rfl
  | ⟨1, _⟩ =>
    have e01 : ¬((0 : Fin 2) = ⟨1, by decide⟩) := by decide
    have e11 : (1 : Fin 2) = ⟨1, by decide⟩ := rfl
    simp only [if_neg e01, if_pos e11, m0_zero, mul_zero, zero_add, add_zero]
    rfl

theorem m0_gate_pack {no : Nat} (S : Fin 512 → Fin 512 → EReal) (X0 : Fin 2 → Fin 512 → EReal)
    (G : Fin 2 → Fin 64 → Fin 512 → EReal) (W : Fin 65 → Fin 3 → Fin no → EReal) (bias : Fin no → EReal)
    (e : Fin 2) (o : Fin no) (n : Fin 512) :
    ((((bias o + ∑ r : Fin 6, cheb S (inTerm r) (X0 (inElt r)) n * (if inElt r = e then W 0 (inTerm r) o else zero))
        + ∑ i : Fin 128, cheb S 0 (G (rowElt i) (rowFeat i)) n * (if rowElt i = e then W (stFeat0 (rowFeat i)) 0 o else zero))
        + ∑ i : Fin 128, cheb S 1 (G (rowElt i) (rowFeat i)) n * (if rowElt i = e then W (stFeat0 (rowFeat i)) 1 o else zero))
        + ∑ i : Fin 128, cheb S 2 (G (rowElt i) (rowFeat i)) n * (if rowElt i = e then W (stFeat0 (rowFeat i)) 2 o else zero))
      = gate S (feats (ni := 1) (fun _ => X0 e) (G e)) W bias n o := by
  rw [m0_sum_rows6 e (fun k j => cheb S k (X0 j) n) (fun k => W 0 k o),
    m0_sum_rows128 e (fun j f => cheb S 0 (G j f) n) (fun f => W (stFeat0 f) 0 o),
    m0_sum_rows128 e (fun j f => cheb S 1 (G j f) n) (fun f => W (stFeat0 f) 1 o),
    m0_sum_rows128 e (fun j f => cheb S 2 (G j f) n) (fun f => W (stFeat0 f) 2 o)]
  unfold gate feats
  rw [Fin.sum_univ_add, Fin.sum_univ_one]
  simp only [Fin.append_left, Fin.append_right, Fin.sum_univ_three, Finset.sum_add_distrib]
  have hW : ∀ (f : Fin 64) (k : Fin 3), W (Fin.natAdd 1 f) k o = W (stFeat0 f) k o := fun f k => rfl
  have hW0 : ∀ k : Fin 3, W (Fin.castAdd 64 (0 : Fin 1)) k o = W 0 k o := fun k => rfl
  simp only [hW, hW0]
  ac_rfl

end Cert.KernelIdeal.KVal

end
-- ==== Proof.KVal.Main0Tile.lean ====
import proofs.«134251_g19069654794669_cont_sun_m_30_29_alg».proof.Proof.KVal.Main0Ops
import proofs.«134251_g19069654794669_cont_sun_m_30_29_alg».proof.Proof.KVal.Main0Alg

noncomputable section

namespace Cert.KernelIdeal.KVal

open Idealize.ShloMosaic Idealize.ShloMosaic.ValueIdx Cert.KernelIdeal Cert.KernelIdeal.Gen Cert.Spec Cert.Packed

def m0Rep (T : FVec Ideal S512x128 .f32) (g : Fin 2 → Fin 64 → Fin 512 → EReal) : Prop :=
  ∀ (n : Fin 512) (c : Fin 128), T (ix2 n c) = g (rowElt c) (rowFeat c) n

abbrev m0b (p : Fin 32) (j : Fin 2) : Fin 64 := ⟨2 * p.val + j.val, by have := p.isLt; have := j.isLt; omega⟩

section Tile

variable (S : Fin 512 → Fin 512 → EReal) (v1 : FVec Ideal S512x512 .f32) (hS : ∀ n m, v1 (ix2 n m) = S n m)
include hS

theorem m0_diff_rep (T : FVec Ideal S512x128 .f32) (g : Fin 2 → Fin 64 → Fin 512 → EReal) (hT : m0Rep T g) :
    m0Rep (matmul dot_S512x512_S512x128_S512x128_1_0_0_1_n_n none v1 T (constant S512x128 .f32 0x00000000#32))
      (fun e f => cheb S 1 (g e f)) := by
  intro n c
  rw [m0_mm_SS]
  refine Eq.trans ?_ (m0_cheb1 S _ n).symm
  exact Finset.sum_congr rfl fun m _ => by rw [hS, hT m c]

omit hS in

theorem m0_cheb2_rep (T D tw : FVec Ideal S512x128 .f32) (g : Fin 2 → Fin 64 → Fin 512 → EReal) (hT : m0Rep T g)
    (hD : m0Rep D (fun e f => cheb S 1 (cheb S 1 (g e f)))) (htw : ∀ n c, tw (ix2 n c) = two) :
    m0Rep (subf (mulf tw D) T) (fun e f => cheb S 2 (g e f)) := by
  intro n c
  rw [subf_apply, mulf_apply, htw, hD n c, hT n c]
  rfl

end Tile

theorem m0_mm_w256 (T : FVec Ideal S512x128 .f32) (g : Fin 2 → Fin 64 → Fin 512 → EReal) (hT : m0Rep T g)
    (w : Vec Ideal S1x128x256 .f32) (Wt : Fin 128 → Fin 256 → EReal) (hw : ∀ i c, w (ix3 0 i c) = Wt i c)
    (n : Fin 512) (c : Fin 256) :
    matmul dot_S512x128_S128x256_S512x256_1_0_0_1_n_n none T (shapeCast S128x256 w shapeCasts_S1x128x256_S128x256 : FVec Ideal S128x256 .f32)
        (constant S512x256 .f32 0x00000000#32) (ix2 n c)
      = ∑ i : Fin 128, g (rowElt i) (rowFeat i) n * Wt i c := by
  rw [m0_mm_H256]
  exact Finset.sum_congr rfl fun i _ => by rw [hT n i, m0_cast_w256, hw]

theorem m0_mm_w128 (T : FVec Ideal S512x128 .f32) (g : Fin 2 → Fin 64 → Fin 512 → EReal) (hT : m0Rep T g)
    (w : Vec Ideal S1x128x128 .f32) (Wt : Fin 128 → Fin 128 → EReal) (hw : ∀ i c, w (ix3 0 i c) = Wt i c)
    (n : Fin 512) (c : Fin 128) :
    matmul dot_S512x128_S128x128_S512x128_1_0_0_1_n_n none T (shapeCast S128x128 w shapeCasts_S1x128x128_S128x128 : FVec Ideal S128x128 .f32)
        (constant S512x128 .f32 0x00000000#32) (ix2 n c)
      = ∑ i : Fin 128, g (rowElt i) (rowFeat i) n * Wt i c := by
  rw [m0_mm_H128]
  exact Finset.sum_congr rfl fun i _ => by rw [hT n i, m0_cast_w128, hw]

theorem m0_mm_a256 (Am : FVec Ideal S512x6 .f32) (a : Fin 6 → Fin 512 → EReal) (hA : ∀ n r, Am (ix2 n r) = a r n)
    (w : Vec Ideal S6x256 .f32) (Wt : Fin 6 → Fin 256 → EReal) (hw : ∀ r c, w (ix2 r c) = Wt r c) (n : Fin 512) (c : Fin 256) :
    matmul dot_S512x6_S6x256_S512x256_1_0_0_1_n_n none Am (shapeCast S6x256 w shapeCasts_S6x256_S6x256 : FVec Ideal S6x256 .f32)
        (constant S512x256 .f32 0x00000000#32) (ix2 n c)
      = ∑ r : Fin 6, a r n * Wt r c := by
  rw [m0_mm_A256, shapeCast_self]
  exact Finset.sum_congr rfl fun r _ => by rw [hA, hw]

theorem m0_mm_a128 (Am : FVec Ideal S512x6 .f32) (a : Fin 6 → Fin 512 → EReal) (hA : ∀ n r, Am (ix2 n r) = a r n)
    (w : Vec Ideal S6x128 .f32) (Wt : Fin 6 → Fin 128 → EReal) (hw : ∀ r c, w (ix2 r c) = Wt r c) (n : Fin 512) (c : Fin 128) :
    matmul dot_S512x6_S6x128_S512x128_1_0_0_1_n_n none Am (shapeCast S6x128 w shapeCasts_S6x128_S6x128 : FVec Ideal S6x128 .f32)
        (constant S512x128 .f32 0x00000000#32) (ix2 n c)
      = ∑ r : Fin 6, a r n * Wt r c := by
  rw [m0_mm_A128, shapeCast_self]
  exact Finset.sum_congr rfl fun r _ => by rw [hA, hw]

end Cert.KernelIdeal.KVal

end
-- ==== Proof.KVal.Main0Gate.lean ====
import proofs.«134251_g19069654794669_cont_sun_m_30_29_alg».proof.Proof.KVal.Main0Tile

noncomputable section

namespace Cert.KernelIdeal.KVal

open Idealize.ShloMosaic Idealize.ShloMosaic.ValueIdx Cert.KernelIdeal Cert.KernelIdeal.Gen Cert.Spec Cert.Packed

abbrev m0H (A : Cert.Spec.Args) (p : Fin 32) : Fin 2 → Fin 64 → Fin 512 → EReal := fun e f => st A 0 (m0b p e) f

abbrev m0X (A : Cert.Spec.Args) (p : Fin 32) : Fin 2 → Fin 512 → EReal := fun e => xcol A (m0b p e)

theorem m0_pay5 (v0 : Vec Ideal S512x512 .f32) : k1_pay5 (F := Ideal) v0 = v0 :=
  shapeCast_self v0 shapeCasts_S512x512_S512x512

section Loads

variable (A : Cert.Spec.Args) (p : Fin 32)
  (v10 v12 : Vec Ideal S1x1x512x64 .f32)
  (h10 : ∀ n f, v10 (ix4 0 0 n f) = st A 0 (m0b p 0) f n) (h12 : ∀ n f, v12 (ix4 0 0 n f) = st A 0 (m0b p 1) f n)

include h10 h12 in

theorem m0_pay7 : m0Rep (k1_pay7 (F := Ideal) v10 v12) (m0H A p) := fun n c =>
  m0_cat_pair (shapeCast S512x64 v10 shapeCasts_S1x1x512x64_S512x64) (shapeCast S512x64 v12 shapeCasts_S1x1x512x64_S512x64)
    (m0H A p) (fun n f => by rw [m0_cast_st]; exact h10 n f) (fun n f => by rw [m0_cast_st]; exact h12 n f) n c

variable (v0 : Vec Ideal S512x512 .f32) (hS : ∀ n m, v0 (ix2 n m) = sup A.adj n m)

include h10 h12 hS in

theorem m0_pay9 : m0Rep (k1_pay9 (F := Ideal) v0 v10 v12) (fun e f => cheb (sup A.adj) 1 (m0H A p e f)) :=
  m0_diff_rep (sup A.adj) (k1_pay5 v0) (by rw [m0_pay5]; exact hS) (k1_pay7 v10 v12) (m0H A p) (m0_pay7 A p v10 v12 h10 h12)

variable (v2 v4 v6 : Vec Ideal S1x1x2x512 .f32)
  (h2 : ∀ j n, v2 (ix4 0 0 j n) = acol A 0 (m0b p j) n) (h4 : ∀ j n, v4 (ix4 0 0 j n) = acol A 1 (m0b p j) n)
  (h6 : ∀ j n, v6 (ix4 0 0 j n) = acol A 2 (m0b p j) n)

include h2 h4 h6 in

theorem m0_pay6 (n : Fin 512) (r : Fin 6) :
    k1_pay6 (F := Ideal) v2 v4 v6 (ix2 n r) = acol A (inTerm r) (m0b p (inElt r)) n :=
  m0_amat (shapeCast S2x512 v2 shapeCasts_S1x1x2x512_S2x512) (shapeCast S2x512 v4 shapeCasts_S1x1x2x512_S2x512)
    (shapeCast S2x512 v6 shapeCasts_S1x1x2x512_S2x512) (fun k j n => acol A k (m0b p j) n)
    (fun j n => by rw [m0_cast_ac]; exact h2 j n) (fun j n => by rw [m0_cast_ac]; exact h4 j n)
    (fun j n => by rw [m0_cast_ac]; exact h6 j n) n r

variable (v15 : Vec Ideal S1x256 .f32) (v17 : Vec Ideal S6x256 .f32) (v22 : Vec Ideal S1x128x256 .f32)
  (h15 : ∀ c, v15 (ix2 0 c) = bRu0 A c) (h17 : ∀ r c, v17 (ix2 r c) = waRu0 A r c)
  (h22 : ∀ i c, v22 (ix3 0 i c) = whRu0 A 0 i c)

include h10 h12 h2 h4 h6 h15 h17 h22 in

theorem m0_pay8 (n : Fin 512) (c : Fin 256) :
    k1_pay8 (F := Ideal) v2 v4 v6 v10 v12 v15 v17 v22 (ix2 n c)
      = (bRu0 A c + ∑ r : Fin 6, acol A (inTerm r) (m0b p (inElt r)) n * waRu0 A r c)
        + ∑ i : Fin 128, m0H A p (rowElt i) (rowFeat i) n * whRu0 A 0 i c := by
  show (broadcastTo S512x256 (shapeCast S1x256 v15 shapeCasts_S1x256_S1x256 : FVec Ideal S1x256 .f32) broadcasts_S1x256_S512x256 (ix2 n c)
        + matmul dot_S512x6_S6x256_S512x256_1_0_0_1_n_n none (k1_pay6 v2 v4 v6) (shapeCast S6x256 v17 shapeCasts_S6x256_S6x256 : FVec Ideal S6x256 .f32)
            (constant S512x256 .f32 0x00000000#32) (ix2 n c))
      + matmul dot_S512x128_S128x256_S512x256_1_0_0_1_n_n none (k1_pay7 v10 v12) (shapeCast S128x256 v22 shapeCasts_S1x128x256_S128x256 : FVec Ideal S128x256 .f32)
            (constant S512x256 .f32 0x00000000#32) (ix2 n c) = _
  rw [m0_bcast256, shapeCast_self, h15,
    m0_mm_a256 (k1_pay6 v2 v4 v6) (fun r n => acol A (inTerm r) (m0b p (inElt r)) n) (m0_pay6 A p v2 v4 v6 h2 h4 h6) v17 (waRu0 A) h17,
    m0_mm_w256 (k1_pay7 v10 v12) (m0H A p) (m0_pay7 A p v10 v12 h10 h12) v22 (whRu0 A 0) h22]

end Loads

theorem m0_pay10 (S : Fin 512 → Fin 512 → EReal) (v1 : FVec Ideal S512x512 .f32) (hv1 : ∀ n m, v1 (ix2 n m) = S n m)
    (v14 : FVec Ideal S512x128 .f32) (g : Fin 2 → Fin 64 → Fin 512 → EReal) (h14 : m0Rep v14 g)
    (v26 : FVec Ideal S512x128 .f32) (h26 : m0Rep v26 (fun e f => cheb S 1 (g e f)))
    (v25 : FVec Ideal S512x256 .f32) (v27 v35 : Vec Ideal S1x128x256 .f32) (W1 W2 : Fin 128 → Fin 256 → EReal)
    (h27 : ∀ i c, v27 (ix3 0 i c) = W1 i c) (h35 : ∀ i c, v35 (ix3 0 i c) = W2 i c) (n : Fin 512) (c : Fin 256) :
    k1_pay10 (F := Ideal) v1 v14 v25 v26 v27 v35 (ix2 n c)
      = Ideal.logistic ((v25 (ix2 n c) + ∑ i : Fin 128, cheb S 1 (g (rowElt i) (rowFeat i)) n * W1 i c)
          + ∑ i : Fin 128, cheb S 2 (g (rowElt i) (rowFeat i)) n * W2 i c) := by
  show Ideal.logistic ((v25 (ix2 n c)
        + matmul dot_S512x128_S128x256_S512x256_1_0_0_1_n_n none v26 (shapeCast S128x256 v27 shapeCasts_S1x128x256_S128x256 : FVec Ideal S128x256 .f32)
            (constant S512x256 .f32 0x00000000#32) (ix2 n c))
      + matmul dot_S512x128_S128x256_S512x256_1_0_0_1_n_n none
          (subf (mulf (broadcast S512x128 (Scalar.ofBits .f32 0x40000000#32))
            (matmul dot_S512x512_S512x128_S512x128_1_0_0_1_n_n none v1 v26 (constant S512x128 .f32 0x00000000#32))) v14)
          (shapeCast S128x256 v35 shapeCasts_S1x128x256_S128x256 : FVec Ideal S128x256 .f32) (constant S512x256 .f32 0x00000000#32) (ix2 n c)) = _
  rw [m0_mm_w256 v26 (fun e f => cheb S 1 (g e f)) h26 v27 W1 h27,
    m0_mm_w256 _ (fun e f => cheb S 2 (g e f))
      (m0_cheb2_rep S v14 _ _ g h14 (m0_diff_rep S v1 hv1 v26 _ h26) (fun _ _ => rfl)) v35 W2 h35]

end Cert.KernelIdeal.KVal

end
-- ==== Proof.KVal.Main0Cell.lean ====
import proofs.«134251_g19069654794669_cont_sun_m_30_29_alg».proof.Proof.KVal.Main0Gate

noncomputable section

namespace Cert.KernelIdeal.KVal

open Idealize.ShloMosaic Idealize.ShloMosaic.ValueIdx Cert.KernelIdeal Cert.KernelIdeal.Gen Cert.Spec Cert.Packed

abbrev m0R (A : Cert.Spec.Args) (p : Fin 32) : Fin 2 → Fin 64 → Fin 512 → EReal := fun e f n =>
  rGate (sup A.adj) (inp0 A (m0b p e)) (st A 0 (m0b p e)) (rows3 (nf := 65) A.wru0) (fun o => A.bru0 (ix1 o)) f n
abbrev m0U (A : Cert.Spec.Args) (p : Fin 32) : Fin 2 → Fin 64 → Fin 512 → EReal := fun e f n =>
  uGate (sup A.adj) (inp0 A (m0b p e)) (st A 0 (m0b p e)) (rows3 (nf := 65) A.wru0) (fun o => A.bru0 (ix1 o)) f n
abbrev m0RH (A : Cert.Spec.Args) (p : Fin 32) : Fin 2 → Fin 64 → Fin 512 → EReal := fun e f n =>
  m0R A p e f n * m0H A p e f n

section Loads

variable (A : Cert.Spec.Args) (p : Fin 32)
  (v0 : Vec Ideal S512x512 .f32) (hS : ∀ n m, v0 (ix2 n m) = sup A.adj n m)
  (v2 v4 v6 : Vec Ideal S1x1x2x512 .f32)
  (h2 : ∀ j n, v2 (ix4 0 0 j n) = acol A 0 (m0b p j) n) (h4 : ∀ j n, v4 (ix4 0 0 j n) = acol A 1 (m0b p j) n)
  (h6 : ∀ j n, v6 (ix4 0 0 j n) = acol A 2 (m0b p j) n)
  (v10 v12 : Vec Ideal S1x1x512x64 .f32)
  (h10 : ∀ n f, v10 (ix4 0 0 n f) = st A 0 (m0b p 0) f n) (h12 : ∀ n f, v12 (ix4 0 0 n f) = st A 0 (m0b p 1) f n)
  (v15 : Vec Ideal S1x256 .f32) (v17 : Vec Ideal S6x256 .f32) (v22 v27 v35 : Vec Ideal S1x128x256 .f32)
  (h15 : ∀ c, v15 (ix2 0 c) = bRu0 A c) (h17 : ∀ r c, v17 (ix2 r c) = waRu0 A r c)
  (h22 : ∀ i c, v22 (ix3 0 i c) = whRu0 A 0 i c) (h27 : ∀ i c, v27 (ix3 0 i c) = whRu0 A 1 i c)
  (h35 : ∀ i c, v35 (ix3 0 i c) = whRu0 A 2 i c)

include hS h2 h4 h6 h10 h12 h15 h17 h22 h27 h35

theorem m0_ru (n : Fin 512) (c : Fin 256) :
    k1_pay10 (F := Ideal) (k1_pay5 v0) (k1_pay7 v10 v12) (k1_pay8 v2 v4 v6 v10 v12 v15 v17 v22) (k1_pay9 v0 v10 v12) v27 v35 (ix2 n c)
      = ruGate (sup A.adj) (inp0 A (m0b p (ruElt c))) (st A 0 (m0b p (ruElt c))) (rows3 (nf := 65) A.wru0)
          (fun o => A.bru0 (ix1 o)) n (ruCol c) := by
  rw [m0_pay10 (sup A.adj) (k1_pay5 v0) (by rw [m0_pay5]; exact hS) (k1_pay7 v10 v12) (m0H A p) (m0_pay7 A p v10 v12 h10 h12)
      (k1_pay9 v0 v10 v12) (m0_pay9 A p v10 v12 h10 h12 v0 hS) _ v27 v35 (whRu0 A 1) (whRu0 A 2) h27 h35,
    m0_pay8 A p v10 v12 h10 h12 v2 v4 v6 h2 h4 h6 v15 v17 v22 h15 h17 h22]
  unfold ruGate
  refine congrArg Ideal.logistic ?_
  exact m0_gate_pack (sup A.adj) (m0X A p) (m0H A p) (rows3 (nf := 65) A.wru0) (fun o => A.bru0 (ix1 o)) (ruElt c) (ruCol c) n

theorem m0_pay11 :
    m0Rep (k1_pay11 (F := Ideal) (k1_pay5 v0) (k1_pay7 v10 v12) (k1_pay8 v2 v4 v6 v10 v12 v15 v17 v22) (k1_pay9 v0 v10 v12) v27 v35)
      (m0U A p) := by
  intro n c
  show extractStridedSlice S512x128 ![0, 128]
      (k1_pay10 (F := Ideal) (k1_pay5 v0) (k1_pay7 v10 v12) (k1_pay8 v2 v4 v6 v10 v12 v15 v17 v22) (k1_pay9 v0 v10 v12) v27 v35)
      slices_S512x256_o0_128_S512x128 (ix2 n c) = _
  rw [m0_slice_hi, m0_ru A p v0 hS v2 v4 v6 h2 h4 h6 v10 v12 h10 h12 v15 v17 v22 v27 v35 h15 h17 h22 h27 h35]
  have hc := c.isLt
  have e1 : ruElt ⟨c.val + 128, by omega⟩ = rowElt c := Fin.ext (by show (c.val + 128) / 64 % 2 = c.val / 64; omega)
  have e2 : ruCol ⟨c.val + 128, by omega⟩ = Fin.natAdd 64 (rowFeat c) :=
    Fin.ext (by show 64 * ((c.val + 128) / 128) + (c.val + 128) % 64 = 64 + c.val % 64; omega)
  rw [e1, e2]
  rfl

theorem m0_pay12 :
    m0Rep (k1_pay12 (F := Ideal) (k1_pay5 v0) (k1_pay7 v10 v12) (k1_pay8 v2 v4 v6 v10 v12 v15 v17 v22) (k1_pay9 v0 v10 v12) v27 v35)
      (m0RH A p) := by
  intro n c
  show extractStridedSlice S512x128 ![0, 0]
      (k1_pay10 (F := Ideal) (k1_pay5 v0) (k1_pay7 v10 v12) (k1_pay8 v2 v4 v6 v10 v12 v15 v17 v22) (k1_pay9 v0 v10 v12) v27 v35)
      slices_S512x256_o0_0_S512x128 (ix2 n c) * k1_pay7 (F := Ideal) v10 v12 (ix2 n c) = _
  rw [m0_slice_lo, m0_ru A p v0 hS v2 v4 v6 h2 h4 h6 v10 v12 h10 h12 v15 v17 v22 v27 v35 h15 h17 h22 h27 h35,
    m0_pay7 A p v10 v12 h10 h12 n c]
  have hc := c.isLt
  have e1 : ruElt ⟨c.val, by omega⟩ = rowElt c := Fin.ext (by show c.val / 64 % 2 = c.val / 64; omega)
  have e2 : ruCol ⟨c.val, by omega⟩ = Fin.castAdd 64 (rowFeat c) :=
    Fin.ext (by show 64 * (c.val / 128) + c.val % 64 = c.val % 64; omega)
  rw [e1, e2]
  rfl

end Loads

end Cert.KernelIdeal.KVal

namespace Cert.KernelIdeal.KVal

open Idealize.ShloMosaic Idealize.ShloMosaic.ValueIdx Cert.KernelIdeal Cert.KernelIdeal.Gen Cert.Spec Cert.Packed

theorem m0_pay16 (n : Fin 512) (c : Fin 128) : k1_pay16 (F := Ideal) (ix2 n c) = two := rfl

theorem m0_pay14 (S : Fin 512 → Fin 512 → EReal) (v1 : FVec Ideal S512x512 .f32) (v9 : FVec Ideal S512x6 .f32)
    (v14 : FVec Ideal S512x128 .f32) (v25 : FVec Ideal S512x256 .f32) (v26 : FVec Ideal S512x128 .f32)
    (v27 v35 : Vec Ideal S1x128x256 .f32) (rh : Fin 2 → Fin 64 → Fin 512 → EReal)
    (hrh : m0Rep (k1_pay12 (F := Ideal) v1 v14 v25 v26 v27 v35) rh)
    (hR1 : m0Rep (k1_pay13 (F := Ideal) v1 v14 v25 v26 v27 v35) (fun e f => cheb S 1 (rh e f)))
    (a : Fin 6 → Fin 512 → EReal) (h9 : ∀ n r, v9 (ix2 n r) = a r n)
    (v43 : Vec Ideal S1x128 .f32) (v45 : Vec Ideal S6x128 .f32) (v50 v55 : Vec Ideal S1x128x128 .f32)
    (bias : Fin 128 → EReal) (Wa : Fin 6 → Fin 128 → EReal) (W0 W1 : Fin 128 → Fin 128 → EReal)
    (h43 : ∀ c, v43 (ix2 0 c) = bias c) (h45 : ∀ r c, v45 (ix2 r c) = Wa r c)
    (h50 : ∀ i c, v50 (ix3 0 i c) = W0 i c) (h55 : ∀ i c, v55 (ix3 0 i c) = W1 i c) (n : Fin 512) (c : Fin 128) :
    k1_pay14 (F := Ideal) v1 v9 v14 v25 v26 v27 v35 v43 v45 v50 v55 (ix2 n c)
      = ((bias c + ∑ r : Fin 6, a r n * Wa r c) + ∑ i : Fin 128, rh (rowElt i) (rowFeat i) n * W0 i c)
        + ∑ i : Fin 128, cheb S 1 (rh (rowElt i) (rowFeat i)) n * W1 i c := by
  show ((broadcastTo S512x128 (shapeCast S1x128 v43 shapeCasts_S1x128_S1x128 : FVec Ideal S1x128 .f32) broadcasts_S1x128_S512x128 (ix2 n c)
        + matmul dot_S512x6_S6x128_S512x128_1_0_0_1_n_n none v9 (shapeCast S6x128 v45 shapeCasts_S6x128_S6x128 : FVec Ideal S6x128 .f32)
            (constant S512x128 .f32 0x00000000#32) (ix2 n c))
      + matmul dot_S512x128_S128x128_S512x128_1_0_0_1_n_n none (k1_pay12 v1 v14 v25 v26 v27 v35)
          (shapeCast S128x128 v50 shapeCasts_S1x128x128_S128x128 : FVec Ideal S128x128 .f32) (constant S512x128 .f32 0x00000000#32) (ix2 n c))
      + matmul dot_S512x128_S128x128_S512x128_1_0_0_1_n_n none (k1_pay13 v1 v14 v25 v26 v27 v35)
          (shapeCast S128x128 v55 shapeCasts_S1x128x128_S128x128 : FVec Ideal S128x128 .f32) (constant S512x128 .f32 0x00000000#32) (ix2 n c) = _
  rw [m0_bcast128, shapeCast_self, h43, m0_mm_a128 v9 a h9 v45 Wa h45,
    m0_mm_w128 _ rh hrh v50 W0 h50, m0_mm_w128 _ (fun e f => cheb S 1 (rh e f)) hR1 v55 W1 h55]

theorem m0_pay17 (S : Fin 512 → Fin 512 → EReal) (v14 v41 v42 v58 v59 v60 : FVec Ideal S512x128 .f32)
    (g u rh : Fin 2 → Fin 64 → Fin 512 → EReal) (h14 : m0Rep v14 g) (h41 : m0Rep v41 u) (h42 : m0Rep v42 rh)
    (P : Fin 512 → Fin 128 → EReal) (h58 : ∀ n c, v58 (ix2 n c) = P n c)
    (h59 : m0Rep v59 (fun e f => cheb S 1 (cheb S 1 (rh e f)))) (h60 : ∀ n c, v60 (ix2 n c) = two)
    (v63 : Vec Ideal S1x128x128 .f32) (W2 : Fin 128 → Fin 128 → EReal) (h63 : ∀ i c, v63 (ix3 0 i c) = W2 i c)
    (n : Fin 512) (c : Fin 128) :
    k1_pay17 (F := Ideal) v14 v41 v42 v58 v59 v60 v63 (ix2 n c)
      = u (rowElt c) (rowFeat c) n * g (rowElt c) (rowFeat c) n
        + (one - u (rowElt c) (rowFeat c) n)
          * Ideal.tanh (P n c + ∑ i : Fin 128, cheb S 2 (rh (rowElt i) (rowFeat i)) n * W2 i c) := by
  show v41 (ix2 n c) * v14 (ix2 n c)
      + (one - v41 (ix2 n c))
        * Ideal.tanh (v58 (ix2 n c)
            + matmul dot_S512x128_S128x128_S512x128_1_0_0_1_n_n none (subf (mulf v60 v59) v42)
                (shapeCast S128x128 v63 shapeCasts_S1x128x128_S128x128 : FVec Ideal S128x128 .f32) (constant S512x128 .f32 0x00000000#32) (ix2 n c)) = _
  rw [h41 n c, h14 n c, h58,
    m0_mm_w128 _ (fun e f => cheb S 2 (rh e f)) (m0_cheb2_rep S v42 v59 v60 rh h42 h59 h60) v63 W2 h63]

theorem m0_pay18 (v14 v41 v42 v58 v59 v60 : FVec Ideal S512x128 .f32) (v63 : Vec Ideal S1x128x128 .f32) (n : Fin 512) (f : Fin 64) :
    k1_pay18 (F := Ideal) v14 v41 v42 v58 v59 v60 v63 (ix4 0 0 n f)
      = k1_pay17 (F := Ideal) v14 v41 v42 v58 v59 v60 v63 (ix2 n ⟨f.val, by have := f.isLt; omega⟩) := by
  show shapeCast S1x1x512x64 (extractStridedSlice S512x64 ![0, 0] (k1_pay17 (F := Ideal) v14 v41 v42 v58 v59 v60 v63)
      slices_S512x128_o0_0_S512x64) shapeCasts_S512x64_S1x1x512x64 (ix4 0 0 n f) = _
  rw [m0_cast_out, m0_slice64_lo]

theorem m0_pay19 (v14 v41 v42 v58 v59 v60 : FVec Ideal S512x128 .f32) (v63 : Vec Ideal S1x128x128 .f32) (n : Fin 512) (f : Fin 64) :
    k1_pay19 (F := Ideal) v14 v41 v42 v58 v59 v60 v63 (ix4 0 0 n f)
      = k1_pay17 (F := Ideal) v14 v41 v42 v58 v59 v60 v63 (ix2 n ⟨f.val + 64, by have := f.isLt; omega⟩) := by
  show shapeCast S1x1x512x64 (extractStridedSlice S512x64 ![0, 64] (k1_pay17 (F := Ideal) v14 v41 v42 v58 v59 v60 v63)
      slices_S512x128_o0_64_S512x64) shapeCasts_S512x64_S1x1x512x64 (ix4 0 0 n f) = _
  rw [m0_cast_out, m0_slice64_hi]

end Cert.KernelIdeal.KVal

namespace Cert.KernelIdeal.KVal

open Idealize.ShloMosaic Idealize.ShloMosaic.ValueIdx Cert.KernelIdeal Cert.KernelIdeal.Gen Cert.Spec Cert.Packed

section Loads

variable (A : Cert.Spec.Args) (p : Fin 32)
  (v0 : Vec Ideal S512x512 .f32) (hS : ∀ n m, v0 (ix2 n m) = sup A.adj n m)
  (v2 v4 v6 : Vec Ideal S1x1x2x512 .f32)
  (h2 : ∀ j n, v2 (ix4 0 0 j n) = acol A 0 (m0b p j) n) (h4 : ∀ j n, v4 (ix4 0 0 j n) = acol A 1 (m0b p j) n)
  (h6 : ∀ j n, v6 (ix4 0 0 j n) = acol A 2 (m0b p j) n)
  (v10 v12 : Vec Ideal S1x1x512x64 .f32)
  (h10 : ∀ n f, v10 (ix4 0 0 n f) = st A 0 (m0b p 0) f n) (h12 : ∀ n f, v12 (ix4 0 0 n f) = st A 0 (m0b p 1) f n)
  (v15 : Vec Ideal S1x256 .f32) (v17 : Vec Ideal S6x256 .f32) (v22 v27 v35 : Vec Ideal S1x128x256 .f32)
  (h15 : ∀ c, v15 (ix2 0 c) = bRu0 A c) (h17 : ∀ r c, v17 (ix2 r c) = waRu0 A r c)
  (h22 : ∀ i c, v22 (ix3 0 i c) = whRu0 A 0 i c) (h27 : ∀ i c, v27 (ix3 0 i c) = whRu0 A 1 i c)
  (h35 : ∀ i c, v35 (ix3 0 i c) = whRu0 A 2 i c)
  (v43 : Vec Ideal S1x128 .f32) (v45 : Vec Ideal S6x128 .f32) (v50 v55 v63 : Vec Ideal S1x128x128 .f32)
  (h43 : ∀ c, v43 (ix2 0 c) = bC0 A c) (h45 : ∀ r c, v45 (ix2 r c) = waC0 A r c)
  (h50 : ∀ i c, v50 (ix3 0 i c) = whC0 A 0 i c) (h55 : ∀ i c, v55 (ix3 0 i c) = whC0 A 1 i c)
  (h63 : ∀ i c, v63 (ix3 0 i c) = whC0 A 2 i c)

include hS h2 h4 h6 h10 h12 h15 h17 h22 h27 h35 h43 h45 h50 h55 h63

theorem main_h0 (n : Fin 512) (c : Fin 128) :
    k1_pay17 (F := Ideal) (k1_pay7 v10 v12)
        (k1_pay11 (k1_pay5 v0) (k1_pay7 v10 v12) (k1_pay8 v2 v4 v6 v10 v12 v15 v17 v22) (k1_pay9 v0 v10 v12) v27 v35)
        (k1_pay12 (k1_pay5 v0) (k1_pay7 v10 v12) (k1_pay8 v2 v4 v6 v10 v12 v15 v17 v22) (k1_pay9 v0 v10 v12) v27 v35)
        (k1_pay14 (k1_pay5 v0) (k1_pay6 v2 v4 v6) (k1_pay7 v10 v12) (k1_pay8 v2 v4 v6 v10 v12 v15 v17 v22) (k1_pay9 v0 v10 v12) v27 v35 v43 v45 v50 v55)
        (k1_pay15 (k1_pay5 v0) (k1_pay7 v10 v12) (k1_pay8 v2 v4 v6 v10 v12 v15 v17 v22) (k1_pay9 v0 v10 v12) v27 v35)
        k1_pay16 v63 (ix2 n c)
      = Cert.Spec.h0 A ⟨2 * p.val + c.val / 64, by have := p.isLt; have := c.isLt; omega⟩ ⟨c.val % 64, Nat.mod_lt _ (by decide)⟩ n := by
  have hv1 : ∀ n m, k1_pay5 (F := Ideal) v0 (ix2 n m) = sup A.adj n m := by rw [m0_pay5]; exact hS
  have hrh := m0_pay12 A p v0 hS v2 v4 v6 h2 h4 h6 v10 v12 h10 h12 v15 v17 v22 v27 v35 h15 h17 h22 h27 h35
  have hu := m0_pay11 A p v0 hS v2 v4 v6 h2 h4 h6 v10 v12 h10 h12 v15 v17 v22 v27 v35 h15 h17 h22 h27 h35
  have hR1 : m0Rep (k1_pay13 (F := Ideal) (k1_pay5 v0) (k1_pay7 v10 v12) (k1_pay8 v2 v4 v6 v10 v12 v15 v17 v22) (k1_pay9 v0 v10 v12) v27 v35)
      (fun e f => cheb (sup A.adj) 1 (m0RH A p e f)) :=
    m0_diff_rep (sup A.adj) (k1_pay5 v0) hv1 _ (m0RH A p) hrh
  have hR2 : m0Rep (k1_pay15 (F := Ideal) (k1_pay5 v0) (k1_pay7 v10 v12) (k1_pay8 v2 v4 v6 v10 v12 v15 v17 v22) (k1_pay9 v0 v10 v12) v27 v35)
      (fun e f => cheb (sup A.adj) 1 (cheb (sup A.adj) 1 (m0RH A p e f))) :=
    m0_diff_rep (sup A.adj) (k1_pay5 v0) hv1 _ _ hR1
  rw [m0_pay17 (sup A.adj) _ _ _ _ _ _ (m0H A p) (m0U A p) (m0RH A p) (m0_pay7 A p v10 v12 h10 h12) hu hrh _ (fun _ _ => rfl)
      hR2 m0_pay16 v63 (whC0 A 2) h63,
    m0_pay14 (sup A.adj) _ _ _ _ _ v27 v35 (m0RH A p) hrh hR1 (fun r n => acol A (inTerm r) (m0b p (inElt r)) n)
      (m0_pay6 A p v2 v4 v6 h2 h4 h6) v43 v45 v50 v55 (bC0 A) (waC0 A) (whC0 A 0) (whC0 A 1) h43 h45 h50 h55]
  show _ = cell (sup A.adj) (inp0 A (m0b p (rowElt c))) (st A 0 (m0b p (rowElt c))) (rows3 (nf := 65) A.wru0) (fun o => A.bru0 (ix1 o))
    (rows3 (nf := 65) A.wc0) (fun o => A.bc0 (ix1 o)) (rowFeat c) n
  unfold cell cand
  refine congrArg (fun t => m0U A p (rowElt c) (rowFeat c) n * m0H A p (rowElt c) (rowFeat c) n
    + (one - m0U A p (rowElt c) (rowFeat c) n) * Ideal.tanh t) ?_
  exact m0_gate_pack (sup A.adj) (m0X A p) (m0RH A p) (rows3 (nf := 65) A.wc0) (fun o => A.bc0 (ix1 o)) (cElt c) (cCol c) n

theorem main_hid0_0 (n : Fin 512) (f : Fin 64) :
    k1_pay18 (F := Ideal) (k1_pay7 v10 v12)
        (k1_pay11 (k1_pay5 v0) (k1_pay7 v10 v12) (k1_pay8 v2 v4 v6 v10 v12 v15 v17 v22) (k1_pay9 v0 v10 v12) v27 v35)
        (k1_pay12 (k1_pay5 v0) (k1_pay7 v10 v12) (k1_pay8 v2 v4 v6 v10 v12 v15 v17 v22) (k1_pay9 v0 v10 v12) v27 v35)
        (k1_pay14 (k1_pay5 v0) (k1_pay6 v2 v4 v6) (k1_pay7 v10 v12) (k1_pay8 v2 v4 v6 v10 v12 v15 v17 v22) (k1_pay9 v0 v10 v12) v27 v35 v43 v45 v50 v55)
        (k1_pay15 (k1_pay5 v0) (k1_pay7 v10 v12) (k1_pay8 v2 v4 v6 v10 v12 v15 v17 v22) (k1_pay9 v0 v10 v12) v27 v35)
        k1_pay16 v63 (ix4 0 0 n f)
      = Cert.Spec.h0 A ⟨2 * p.val, by have := p.isLt; omega⟩ f n := by
  refine (m0_pay18 _ _ _ _ _ _ v63 n f).trans ?_
  refine (main_h0 A p v0 hS v2 v4 v6 h2 h4 h6 v10 v12 h10 h12 v15 v17 v22 v27 v35 h15 h17 h22 h27 h35
    v43 v45 v50 v55 v63 h43 h45 h50 h55 h63 n ⟨f.val, by have := f.isLt; omega⟩).trans ?_
  have hf := f.isLt
  have e1 : (⟨2 * p.val + f.val / 64, by have := p.isLt; omega⟩ : Fin 64) = ⟨2 * p.val, by have := p.isLt; omega⟩ :=
    Fin.ext (by show 2 * p.val + f.val / 64 = 2 * p.val; omega)
  have e2 : (⟨f.val % 64, Nat.mod_lt _ (by decide)⟩ : Fin 64) = f := Fin.ext (by show f.val % 64 = f.val; omega)
  exact (congrArg (fun b => Cert.Spec.h0 A b ⟨f.val % 64, Nat.mod_lt _ (by decide)⟩ n) e1).trans
    (congrArg (fun u => Cert.Spec.h0 A ⟨2 * p.val, by have := p.isLt; omega⟩ u n) e2)

theorem main_hid0_1 (n : Fin 512) (f : Fin 64) :
    k1_pay19 (F := Ideal) (k1_pay7 v10 v12)
        (k1_pay11 (k1_pay5 v0) (k1_pay7 v10 v12) (k1_pay8 v2 v4 v6 v10 v12 v15 v17 v22) (k1_pay9 v0 v10 v12) v27 v35)
        (k1_pay12 (k1_pay5 v0) (k1_pay7 v10 v12) (k1_pay8 v2 v4 v6 v10 v12 v15 v17 v22) (k1_pay9 v0 v10 v12) v27 v35)
        (k1_pay14 (k1_pay5 v0) (k1_pay6 v2 v4 v6) (k1_pay7 v10 v12) (k1_pay8 v2 v4 v6 v10 v12 v15 v17 v22) (k1_pay9 v0 v10 v12) v27 v35 v43 v45 v50 v55)
        (k1_pay15 (k1_pay5 v0) (k1_pay7 v10 v12) (k1_pay8 v2 v4 v6 v10 v12 v15 v17 v22) (k1_pay9 v0 v10 v12) v27 v35)
        k1_pay16 v63 (ix4 0 0 n f)
      = Cert.Spec.h0 A ⟨2 * p.val + 1, by have := p.isLt; omega⟩ f n := by
  refine (m0_pay19 _ _ _ _ _ _ v63 n f).trans ?_
  refine (main_h0 A p v0 hS v2 v4 v6 h2 h4 h6 v10 v12 h10 h12 v15 v17 v22 v27 v35 h15 h17 h22 h27 h35
    v43 v45 v50 v55 v63 h43 h45 h50 h55 h63 n ⟨f.val + 64, by have := f.isLt; omega⟩).trans ?_
  have hf := f.isLt
  have e1 : (⟨2 * p.val + (f.val + 64) / 64, by have := p.isLt; omega⟩ : Fin 64) = ⟨2 * p.val + 1, by have := p.isLt; omega⟩ :=
    Fin.ext (by show 2 * p.val + (f.val + 64) / 64 = 2 * p.val + 1; omega)
  have e2 : (⟨(f.val + 64) % 64, Nat.mod_lt _ (by decide)⟩ : Fin 64) = f := Fin.ext (by show (f.val + 64) % 64 = f.val; omega)
  exact (congrArg (fun b => Cert.Spec.h0 A b ⟨(f.val + 64) % 64, Nat.mod_lt _ (by decide)⟩ n) e1).trans
    (congrArg (fun u => Cert.Spec.h0 A ⟨2 * p.val + 1, by have := p.isLt; omega⟩ u n) e2)

end Loads

end Cert.KernelIdeal.KVal

end
-- ==== Proof.KVal.Main1Alg.lean ====
import proofs.«134251_g19069654794669_cont_sun_m_30_29_alg».proof.Proof.Spec
import proofs.«134251_g19069654794669_cont_sun_m_30_29_alg».proof.Proof.Packed
import Idealize.ShloMosaic.PureOps.Ideal.Laws
import Mathlib.Algebra.BigOperators.Fin

noncomputable section

namespace Cert.KernelIdeal.KVal.Main1

open Idealize.ShloMosaic Idealize.ShloMosaic.ValueIdx Cert.Spec Cert.Packed

def row (e : Fin 2) (f : Fin 64) : Fin 128 := ⟨64 * e.val + f.val, by have := e.isLt; have := f.isLt; omega⟩

theorem rowElt_row (e : Fin 2) (f : Fin 64) : rowElt (row e f) = e :=
  Fin.ext (by show (64 * e.val + f.val) / 64 = e.val; have := e.isLt; have := f.isLt; omega)

theorem rowFeat_row (e : Fin 2) (f : Fin 64) : rowFeat (row e f) = f :=
  Fin.ext (by show (64 * e.val + f.val) % 64 = f.val; have := e.isLt; have := f.isLt; omega)

theorem sum_block128 (F : Fin 128 → EReal) (e : Fin 2) :
    ∑ i : Fin 128, (if rowElt i = e then F i else 0) = ∑ f : Fin 64, F (row e f) := by
  refine (Fin.sum_univ_add (a := 64) (b := 64) (fun i : Fin (64 + 64) => if rowElt i = e then F i else 0)).trans ?_
  have hL : ∀ f : Fin 64, rowElt (Fin.castAdd 64 f) = (0 : Fin 2) := fun f =>
    Fin.ext (by show f.val / 64 = 0; have := f.isLt; omega)
  have hR : ∀ f : Fin 64, rowElt (Fin.natAdd 64 f) = (1 : Fin 2) := fun f =>
    Fin.ext (by show (64 + f.val) / 64 = 1; have := f.isLt; omega)
  simp only [hL, hR]
  match e with
  | ⟨0, _⟩ =>
    have h0 : ((0 : Fin 2) = (⟨0, by decide⟩ : Fin 2)) := rfl
    have h1 : ¬ ((1 : Fin 2) = (⟨0, by decide⟩ : Fin 2)) := by decide
    simp only [if_pos h0, if_neg h1, Finset.sum_const_zero, add_zero]
    exact Finset.sum_congr rfl fun f _ => congrArg F (Fin.ext (by show f.val = 64 * 0 + f.val; omega))
  | ⟨1, _⟩ =>
    have h0 : ¬ ((0 : Fin 2) = (⟨1, by decide⟩ : Fin 2)) := by decide
    have h1 : ((1 : Fin 2) = (⟨1, by decide⟩ : Fin 2)) := rfl
    simp only [if_neg h0, if_pos h1, Finset.sum_const_zero, zero_add]
    exact Finset.sum_congr rfl fun f _ => congrArg F (Fin.ext (by show 64 + f.val = 64 * 1 + f.val; omega))

theorem sum_blockW (t : Fin 128 → EReal) (w : Fin 64 → EReal) (e : Fin 2) :
    ∑ i : Fin 128, t i * (if rowElt i = e then w (rowFeat i) else Cert.Spec.zero) = ∑ f : Fin 64, t (row e f) * w f := by
  have h : ∀ i : Fin 128, t i * (if rowElt i = e then w (rowFeat i) else Cert.Spec.zero)
      = if rowElt i = e then t i * w (rowFeat i) else 0 := fun i => by
    by_cases hc : rowElt i = e
    · rw [if_pos hc, if_pos hc]
    · rw [if_neg hc, if_neg hc]; show t i * Ideal.ofBits .f32 0x00000000#32 = 0; rw [Ideal.ofBits_zero_f32, mul_zero]
  rw [Finset.sum_congr rfl fun i _ => h i, sum_block128 (fun i => t i * w (rowFeat i)) e]
  exact Finset.sum_congr rfl fun f _ => by rw [rowFeat_row]

theorem sum_tileW (g : Fin 2 → Fin 64 → EReal) (w : Fin 64 → EReal) (e : Fin 2) :
    ∑ i : Fin 128, g (rowElt i) (rowFeat i) * (if rowElt i = e then w (rowFeat i) else Cert.Spec.zero) = ∑ f : Fin 64, g e f * w f := by
  rw [sum_blockW (fun i => g (rowElt i) (rowFeat i)) w e]
  exact Finset.sum_congr rfl fun f _ => by rw [rowElt_row, rowFeat_row]

def pb (p : Fin 32) (e : Fin 2) : Fin 64 := ⟨2 * p.val + e.val, by have := p.isLt; have := e.isLt; omega⟩

variable (S : Fin 512 → Fin 512 → EReal)

theorem gate_ru_order {no : Nat} (inp st : Fin 64 → Fin 512 → EReal) (W : Fin (64 + 64) → Fin 3 → Fin no → EReal)
    (bias : Fin no → EReal) (n : Fin 512) (o : Fin no) :
    (((bias o + ∑ f : Fin 64, cheb S 0 (inp f) n * W (Fin.castAdd 64 f) 0 o)
        + ∑ f : Fin 64, cheb S 0 (st f) n * W (Fin.natAdd 64 f) 0 o)
      + (∑ f : Fin 64, cheb S 1 (inp f) n * W (Fin.castAdd 64 f) 1 o + ∑ f : Fin 64, cheb S 1 (st f) n * W (Fin.natAdd 64 f) 1 o))
      + (∑ f : Fin 64, cheb S 2 (inp f) n * W (Fin.castAdd 64 f) 2 o + ∑ f : Fin 64, cheb S 2 (st f) n * W (Fin.natAdd 64 f) 2 o)
    = gate S (feats inp st) W bias n o := by
  unfold gate
  rw [Fin.sum_univ_add]
  simp only [feats, Fin.append_left, Fin.append_right, Fin.sum_univ_three, Finset.sum_add_distrib]
  abel

theorem gate_c_order {no : Nat} (inp st : Fin 64 → Fin 512 → EReal) (W : Fin (64 + 64) → Fin 3 → Fin no → EReal)
    (bias : Fin no → EReal) (n : Fin 512) (o : Fin no) :
    ((((((bias o + ∑ f : Fin 64, cheb S 0 (inp f) n * W (Fin.castAdd 64 f) 0 o)
        + ∑ f : Fin 64, cheb S 1 (inp f) n * W (Fin.castAdd 64 f) 1 o)
        + ∑ f : Fin 64, cheb S 2 (inp f) n * W (Fin.castAdd 64 f) 2 o)
        + ∑ f : Fin 64, cheb S 0 (st f) n * W (Fin.natAdd 64 f) 0 o)
        + ∑ f : Fin 64, cheb S 1 (st f) n * W (Fin.natAdd 64 f) 1 o)
        + ∑ f : Fin 64, cheb S 2 (st f) n * W (Fin.natAdd 64 f) 2 o)
    = gate S (feats inp st) W bias n o := by
  unfold gate
  rw [Fin.sum_univ_add]
  simp only [feats, Fin.append_left, Fin.append_right, Fin.sum_univ_three, Finset.sum_add_distrib]
  abel

end Cert.KernelIdeal.KVal.Main1

end
-- ==== Proof.KVal.Main1Dot.lean ====
import proofs.«134251_g19069654794669_cont_sun_m_30_29_alg».proof.Proof.Gen.KernelIdeal.Skeleton
import Idealize.ShloMosaic.Lib.Pipeline.Value
import Idealize.ShloMosaic.Lib.ValueIdx
import Idealize.ShloMosaic.PureOps.Ideal.Laws
import proofs.«134251_g19069654794669_cont_sun_m_30_29_alg».proof.Proof.LibMatmul

noncomputable section

namespace Cert.KernelIdeal.KVal.Main1

open Cert.KernelIdeal Cert.KernelIdeal.Gen Idealize.ShloMosaic Idealize.ShloMosaic.ValueIdx Idealize.SL.Sem

theorem matmul_g256 (lhs : FVec Ideal S512x128 .f32) (rhs : FVec Ideal S128x256 .f32) (r : Fin 512) (c : Fin 256) :
    matmul dot_S512x128_S128x256_S512x256_1_0_0_1_n_n none lhs rhs (constant (F := Ideal) S512x256 .f32 0x00000000#32) (ix2 r c)
      = ∑ k : Fin 128, lhs (ix2 r k) * rhs (ix2 k c) :=
  Cert.Lib.matmul_plain 512 128 256 _ _ _ _

theorem matmul_s256 (lhs : FVec Ideal S512x512 .f32) (rhs : FVec Ideal S512x256 .f32) (r : Fin 512) (c : Fin 256) :
    matmul dot_S512x512_S512x256_S512x256_1_0_0_1_n_n none lhs rhs (constant (F := Ideal) S512x256 .f32 0x00000000#32) (ix2 r c)
      = ∑ k : Fin 512, lhs (ix2 r k) * rhs (ix2 k c) :=
  Cert.Lib.matmul_plain 512 512 256 _ _ _ _

theorem matmul_g128 (lhs : FVec Ideal S512x128 .f32) (rhs : FVec Ideal S128x128 .f32) (r : Fin 512) (c : Fin 128) :
    matmul dot_S512x128_S128x128_S512x128_1_0_0_1_n_n none lhs rhs (constant (F := Ideal) S512x128 .f32 0x00000000#32) (ix2 r c)
      = ∑ k : Fin 128, lhs (ix2 r k) * rhs (ix2 k c) :=
  Cert.Lib.matmul_plain 512 128 128 _ _ _ _

theorem matmul_s128 (lhs : FVec Ideal S512x512 .f32) (rhs : FVec Ideal S512x128 .f32) (r : Fin 512) (c : Fin 128) :
    matmul dot_S512x512_S512x128_S512x128_1_0_0_1_n_n none lhs rhs (constant (F := Ideal) S512x128 .f32 0x00000000#32) (ix2 r c)
      = ∑ k : Fin 512, lhs (ix2 r k) * rhs (ix2 k c) :=
  Cert.Lib.matmul_plain 512 512 128 _ _ _ _

theorem matmul_g2 (lhs : FVec Ideal S512x128 .f32) (rhs : FVec Ideal S128x2 .f32) (r : Fin 512) (c : Fin 2) :
    matmul dot_S512x128_S128x2_S512x2_1_0_0_1_n_n none lhs rhs (constant (F := Ideal) S512x2 .f32 0x00000000#32) (ix2 r c)
      = ∑ k : Fin 128, lhs (ix2 r k) * rhs (ix2 k c) :=
  Cert.Lib.matmul_plain 512 128 2 _ _ _ _

end Cert.KernelIdeal.KVal.Main1

end
-- ==== Proof.KVal.Main1Tiles.lean ====
import proofs.«134251_g19069654794669_cont_sun_m_30_29_alg».proof.Proof.Gen.KernelIdeal.Skeleton
import proofs.«134251_g19069654794669_cont_sun_m_30_29_alg».proof.Proof.Spec
import proofs.«134251_g19069654794669_cont_sun_m_30_29_alg».proof.Proof.Packed
import proofs.«134251_g19069654794669_cont_sun_m_30_29_alg».proof.Proof.KVal.Main1Dot
import Idealize.ShloMosaic.Lib.ValueLayout

noncomputable section

namespace Cert.KernelIdeal.KVal.Main1

open Cert.KernelIdeal Cert.KernelIdeal.Gen Idealize.ShloMosaic Idealize.ShloMosaic.ValueIdx Idealize.SL.Sem

theorem cast_block (v : Vec Ideal S1x1x512x64 .f32) (n : Fin 512) (f : Fin 64) :
    shapeCast S512x64 v shapeCasts_S1x1x512x64_S512x64 (ix2 n f) = v (ix4 (0 : Fin 1) (0 : Fin 1) n f) :=
  shapeCast_apply v shapeCasts_S1x1x512x64_S512x64 _ _ (by
    rw [Shape.rowMajor_val_four, Shape.rowMajor_val_two]
    show ((0 * 1 + 0) * 512 + n.val) * 64 + f.val = n.val * 64 + f.val
    omega)

theorem pay20_left (v81 v83 : Vec Ideal S1x1x512x64 .f32) (n : Fin 512) (c : Fin 128) (h : c.val < 64) :
    k1_pay20 (F := Ideal) v81 v83 (ix2 n c) = v81 (ix4 (0 : Fin 1) (0 : Fin 1) n ⟨c.val, h⟩) := by
  unfold k1_pay20
  refine (concatenate_pair_apply_left (1 : Fin S512x128.rank) _ _ concatenates_S512x64_S512x64_S512x128_d1 _ rfl (ix2 n (⟨c.val, h⟩ : Fin 64))
    (fun b => by match b with | ⟨0, _⟩ => rfl | ⟨1, _⟩ => rfl)).trans ?_
  exact cast_block v81 n ⟨c.val, h⟩

theorem pay20_right (v81 v83 : Vec Ideal S1x1x512x64 .f32) (n : Fin 512) (c : Fin 128) (h : 64 ≤ c.val) :
    k1_pay20 (F := Ideal) v81 v83 (ix2 n c) = v83 (ix4 (0 : Fin 1) (0 : Fin 1) n ⟨c.val - 64, by have := c.isLt; omega⟩) := by
  unfold k1_pay20
  refine (concatenate_pair_apply_right (1 : Fin S512x128.rank) _ _ concatenates_S512x64_S512x64_S512x128_d1 _ rfl rfl
    (ix2 n (⟨c.val - 64, by have := c.isLt; omega⟩ : Fin 64))
    (fun b hb => by match b with | ⟨0, _⟩ => rfl | ⟨1, _⟩ => exact absurd rfl hb)
    (by show c.val - 64 + 64 = c.val; omega)).trans ?_
  exact cast_block v83 n _

theorem pay23_left (v72 v85 : FVec Ideal S512x128 .f32) (n : Fin 512) (c : Fin 128) :
    k1_pay23 (F := Ideal) v72 v85 (ix2 n (⟨c.val, by have := c.isLt; omega⟩ : Fin 256)) = v72 (ix2 n c) := by
  unfold k1_pay23
  exact concatenate_pair_apply_left (1 : Fin S512x256.rank) _ _ concatenates_S512x128_S512x128_S512x256_d1 _ rfl (ix2 n c)
    (fun b => by match b with | ⟨0, _⟩ => rfl | ⟨1, _⟩ => rfl)

theorem pay23_right (v72 v85 : FVec Ideal S512x128 .f32) (n : Fin 512) (c : Fin 128) :
    k1_pay23 (F := Ideal) v72 v85 (ix2 n (⟨128 + c.val, by have := c.isLt; omega⟩ : Fin 256)) = v85 (ix2 n c) := by
  unfold k1_pay23
  exact concatenate_pair_apply_right (1 : Fin S512x256.rank) _ _ concatenates_S512x128_S512x128_S512x256_d1 _ rfl rfl (ix2 n c)
    (fun b hb => by match b with | ⟨0, _⟩ => rfl | ⟨1, _⟩ => exact absurd rfl hb)
    (by show c.val + 128 = 128 + c.val; omega)

theorem pay22_apply (v86 : Vec Ideal S1x256 .f32) (n : Fin 512) (c : Fin 256) :
    k1_pay22 (F := Ideal) v86 (ix2 n c) = v86 (ix2 (0 : Fin 1) c) := by
  unfold k1_pay22
  rw [shapeCast_self]
  exact broadcastTo_1b_ab_apply v86 broadcasts_S1x256_S512x256 n c

section Diffusion

variable (S : Fin 512 → Fin 512 → EReal) (v1 : FVec Ideal S512x512 .f32) (hv1 : ∀ n m, v1 (ix2 n m) = S n m)

include hv1

theorem pay24_apply (v72 v85 : FVec Ideal S512x128 .f32) (n : Fin 512) (c : Fin 256) :
    k1_pay24 (F := Ideal) v1 v72 v85 (ix2 n c) = Cert.Spec.diff S (fun m => k1_pay23 (F := Ideal) v72 v85 (ix2 m c)) n := by
  unfold k1_pay24
  rw [matmul_s256]
  exact Finset.sum_congr rfl fun m _ => by rw [hv1]

theorem pay26_apply (v72 v85 : FVec Ideal S512x128 .f32) (n : Fin 512) (c : Fin 256) :
    k1_pay26 (F := Ideal) v1 v72 v85 (ix2 n c) = Cert.Spec.cheb S 2 (fun m => k1_pay23 (F := Ideal) v72 v85 (ix2 m c)) n := by
  unfold k1_pay26
  show Ideal.ofBits .f32 0x40000000#32
      * matmul dot_S512x512_S512x256_S512x256_1_0_0_1_n_n none v1 (k1_pay24 (F := Ideal) v1 v72 v85) (constant (F := Ideal) S512x256 .f32 0x00000000#32) (ix2 n c)
      - k1_pay23 (F := Ideal) v72 v85 (ix2 n c) = _
  rw [matmul_s256]
  show _ = Cert.Spec.two * Cert.Spec.diff S (Cert.Spec.diff S (fun m => k1_pay23 (F := Ideal) v72 v85 (ix2 m c))) n - k1_pay23 (F := Ideal) v72 v85 (ix2 n c)
  congr 2
  exact Finset.sum_congr rfl fun m _ => by rw [hv1, pay24_apply S v1 hv1]

theorem pay25_apply (v72 v85 : FVec Ideal S512x128 .f32) (n : Fin 512) (c : Fin 128) :
    k1_pay25 (F := Ideal) v1 v72 v85 (ix2 n c) = Cert.Spec.cheb S 1 (fun m => v72 (ix2 m c)) n := by
  unfold k1_pay25
  rw [slice2_axis1_apply 0 _ slices_S512x256_o0_0_S512x128 n c (⟨c.val, by have := c.isLt; omega⟩ : Fin 256) (Nat.zero_add _).symm,
    pay24_apply S v1 hv1]
  show Cert.Spec.diff S _ n = Cert.Spec.diff S _ n
  congr 1
  exact funext fun m => pay23_left v72 v85 m c

theorem v100_apply (v72 v85 : FVec Ideal S512x128 .f32) (n : Fin 512) (c : Fin 128) :
    extractStridedSlice S512x128 ![0, 128] (k1_pay24 (F := Ideal) v1 v72 v85) slices_S512x256_o0_128_S512x128 (ix2 n c)
      = Cert.Spec.cheb S 1 (fun m => v85 (ix2 m c)) n := by
  rw [slice2_axis1_apply 128 _ slices_S512x256_o0_128_S512x128 n c (⟨128 + c.val, by have := c.isLt; omega⟩ : Fin 256) rfl,
    pay24_apply S v1 hv1]
  show Cert.Spec.diff S _ n = Cert.Spec.diff S _ n
  congr 1
  exact funext fun m => pay23_right v72 v85 m c

theorem pay27_apply (v72 v85 : FVec Ideal S512x128 .f32) (n : Fin 512) (c : Fin 128) :
    k1_pay27 (F := Ideal) v1 v72 v85 (ix2 n c) = Cert.Spec.cheb S 2 (fun m => v72 (ix2 m c)) n := by
  unfold k1_pay27
  rw [slice2_axis1_apply 0 _ slices_S512x256_o0_0_S512x128 n c (⟨c.val, by have := c.isLt; omega⟩ : Fin 256) (Nat.zero_add _).symm,
    pay26_apply S v1 hv1]
  congr 1
  exact funext fun m => pay23_left v72 v85 m c

theorem v114_apply (v72 v85 : FVec Ideal S512x128 .f32) (n : Fin 512) (c : Fin 128) :
    extractStridedSlice S512x128 ![0, 128] (k1_pay26 (F := Ideal) v1 v72 v85) slices_S512x256_o0_128_S512x128 (ix2 n c)
      = Cert.Spec.cheb S 2 (fun m => v85 (ix2 m c)) n := by
  rw [slice2_axis1_apply 128 _ slices_S512x256_o0_128_S512x128 n c (⟨128 + c.val, by have := c.isLt; omega⟩ : Fin 256) rfl,
    pay26_apply S v1 hv1]
  congr 1
  exact funext fun m => pay23_right v72 v85 m c

omit hv1 in

def diffT (v1 : FVec Ideal S512x512 .f32) (T : FVec Ideal S512x128 .f32) : FVec Ideal S512x128 .f32 :=
  matmul dot_S512x512_S512x128_S512x128_1_0_0_1_n_n none v1 T (constant (F := Ideal) S512x128 .f32 0x00000000#32)

omit hv1 in

def cheb2T (v1 : FVec Ideal S512x512 .f32) (T : FVec Ideal S512x128 .f32) : FVec Ideal S512x128 .f32 :=
  subf (mulf (broadcast S512x128 (Scalar.ofBits (F := Ideal) .f32 0x40000000#32)) (diffT v1 (diffT v1 T))) T

theorem diff_tile (T : FVec Ideal S512x128 .f32) (n : Fin 512) (c : Fin 128) :
    diffT v1 T (ix2 n c) = Cert.Spec.cheb S 1 (fun m => T (ix2 m c)) n := by
  unfold diffT
  rw [matmul_s128]
  show _ = Cert.Spec.diff S (fun m => T (ix2 m c)) n
  unfold Cert.Spec.diff
  exact Finset.sum_congr rfl fun m _ => by rw [hv1]

theorem cheb2_tile (T : FVec Ideal S512x128 .f32) (n : Fin 512) (c : Fin 128) :
    cheb2T v1 T (ix2 n c) = Cert.Spec.cheb S 2 (fun m => T (ix2 m c)) n := by
  show Ideal.ofBits .f32 0x40000000#32 * diffT v1 (diffT v1 T) (ix2 n c) - T (ix2 n c) = _
  rw [diff_tile S v1 hv1]
  have e : (fun m => diffT v1 T (ix2 m c)) = Cert.Spec.diff S (fun m => T (ix2 m c)) :=
    funext fun m => diff_tile S v1 hv1 T m c
  rw [e]
  rfl

end Diffusion

def mm256 (T : FVec Ideal S512x128 .f32) (v : Vec Ideal S1x128x256 .f32) : FVec Ideal S512x256 .f32 :=
  matmul dot_S512x128_S128x256_S512x256_1_0_0_1_n_n none T
    (shapeCast S128x256 v shapeCasts_S1x128x256_S128x256 : FVec Ideal S128x256 .f32) (constant (F := Ideal) S512x256 .f32 0x00000000#32)

def mm128 (T : FVec Ideal S512x128 .f32) (v : Vec Ideal S1x128x128 .f32) : FVec Ideal S512x128 .f32 :=
  matmul dot_S512x128_S128x128_S512x128_1_0_0_1_n_n none T
    (shapeCast S128x128 v shapeCasts_S1x128x128_S128x128 : FVec Ideal S128x128 .f32) (constant (F := Ideal) S512x128 .f32 0x00000000#32)

theorem prod256 (T : FVec Ideal S512x128 .f32) (v : Vec Ideal S1x128x256 .f32) (n : Fin 512) (c : Fin 256) :
    mm256 T v (ix2 n c) = ∑ i : Fin 128, T (ix2 n i) * v (ix3 (0 : Fin 1) i c) := by
  unfold mm256
  rw [matmul_g256]
  exact Finset.sum_congr rfl fun i _ => by rw [shapeCast_1ab_ab_apply]

theorem prod128 (T : FVec Ideal S512x128 .f32) (v : Vec Ideal S1x128x128 .f32) (n : Fin 512) (c : Fin 128) :
    mm128 T v (ix2 n c) = ∑ i : Fin 128, T (ix2 n i) * v (ix3 (0 : Fin 1) i c) := by
  unfold mm128
  rw [matmul_g128]
  exact Finset.sum_congr rfl fun i _ => by rw [shapeCast_1ab_ab_apply]

open Cert.Packed in

def Holds (T : FVec Ideal S512x128 .f32) (g : Fin 2 → Fin 64 → Fin 512 → EReal) : Prop :=
  ∀ n c, T (ix2 n c) = g (rowElt c) (rowFeat c) n

open Cert.Packed in
theorem Holds.col {T : FVec Ideal S512x128 .f32} {g : Fin 2 → Fin 64 → Fin 512 → EReal} (h : Holds T g) (c : Fin 128) :
    (fun m => T (ix2 m c)) = g (rowElt c) (rowFeat c) := funext fun m => h m c

open Cert.Packed in

theorem holds_pay20 (v81 v83 : Vec Ideal S1x1x512x64 .f32) (g : Fin 2 → Fin 64 → Fin 512 → EReal)
    (h81 : ∀ n f, v81 (ix4 (0 : Fin 1) (0 : Fin 1) n f) = g 0 f n) (h83 : ∀ n f, v83 (ix4 (0 : Fin 1) (0 : Fin 1) n f) = g 1 f n) :
    Holds (k1_pay20 (F := Ideal) v81 v83) g := fun n c => by
  by_cases hc : c.val < 64
  · have e1 : rowElt c = 0 := Fin.ext (by show c.val / 64 = 0; omega)
    have e2 : rowFeat c = ⟨c.val, hc⟩ := Fin.ext (by show c.val % 64 = c.val; omega)
    rw [e1, e2, ← h81]
    exact pay20_left v81 v83 n c hc
  · have e1 : rowElt c = 1 := Fin.ext (by show c.val / 64 = 1; have := c.isLt; omega)
    have e2 : rowFeat c = ⟨c.val - 64, by have := c.isLt; omega⟩ := Fin.ext (by show c.val % 64 = c.val - 64; have := c.isLt; omega)
    rw [e1, e2, ← h83]
    exact pay20_right v81 v83 n c (by omega)

section
variable (S : Fin 512 → Fin 512 → EReal) (v1 : FVec Ideal S512x512 .f32) (hv1 : ∀ n m, v1 (ix2 n m) = S n m)
  {v72 v85 T : FVec Ideal S512x128 .f32} {g : Fin 2 → Fin 64 → Fin 512 → EReal}
include hv1

theorem holds_pay25 (h : Holds v72 g) : Holds (k1_pay25 (F := Ideal) v1 v72 v85) (fun e f => Cert.Spec.cheb S 1 (g e f)) := fun n c => by
  rw [pay25_apply S v1 hv1, h.col]

theorem holds_v100 (h : Holds v85 g) :
    Holds (extractStridedSlice S512x128 ![0, 128] (k1_pay24 (F := Ideal) v1 v72 v85) slices_S512x256_o0_128_S512x128)
      (fun e f => Cert.Spec.cheb S 1 (g e f)) := fun n c => by
  rw [v100_apply S v1 hv1, h.col]

theorem holds_pay27 (h : Holds v72 g) : Holds (k1_pay27 (F := Ideal) v1 v72 v85) (fun e f => Cert.Spec.cheb S 2 (g e f)) := fun n c => by
  rw [pay27_apply S v1 hv1, h.col]

theorem holds_v114 (h : Holds v85 g) :
    Holds (extractStridedSlice S512x128 ![0, 128] (k1_pay26 (F := Ideal) v1 v72 v85) slices_S512x256_o0_128_S512x128)
      (fun e f => Cert.Spec.cheb S 2 (g e f)) := fun n c => by
  rw [v114_apply S v1 hv1, h.col]

theorem holds_diff (h : Holds T g) : Holds (diffT v1 T) (fun e f => Cert.Spec.cheb S 1 (g e f)) := fun n c => by
  rw [diff_tile S v1 hv1, h.col]

theorem holds_cheb2 (h : Holds T g) : Holds (cheb2T v1 T) (fun e f => Cert.Spec.cheb S 2 (g e f)) := fun n c => by
  rw [cheb2_tile S v1 hv1, h.col]

end

end Cert.KernelIdeal.KVal.Main1

end
-- ==== Proof.KVal.Main1Ru.lean ====
import proofs.«134251_g19069654794669_cont_sun_m_30_29_alg».proof.Proof.Gen.KernelIdeal.Skeleton
import proofs.«134251_g19069654794669_cont_sun_m_30_29_alg».proof.Proof.Spec
import proofs.«134251_g19069654794669_cont_sun_m_30_29_alg».proof.Proof.Packed
import proofs.«134251_g19069654794669_cont_sun_m_30_29_alg».proof.Proof.KVal.Main1Alg
import proofs.«134251_g19069654794669_cont_sun_m_30_29_alg».proof.Proof.KVal.Main1Tiles

noncomputable section

namespace Cert.KernelIdeal.KVal.Main1

open Cert.KernelIdeal Cert.KernelIdeal.Gen Idealize.ShloMosaic Idealize.ShloMosaic.ValueIdx Idealize.SL.Sem Cert.Spec Cert.Packed

theorem holds_prod256 {T : FVec Ideal S512x128 .f32} {g : Fin 2 → Fin 64 → Fin 512 → EReal} (hT : Holds T g)
    (v : Vec Ideal S1x128x256 .f32) (E : Fin 256 → Fin 2) (w : Fin 64 → Fin 256 → EReal)
    (hv : ∀ i c, v (ix3 (0 : Fin 1) i c) = if rowElt i = E c then w (rowFeat i) c else Cert.Spec.zero) (n : Fin 512) (c : Fin 256) :
    mm256 T v (ix2 n c) = ∑ f : Fin 64, g (E c) f n * w f c := by
  rw [prod256]
  refine (Finset.sum_congr rfl fun i _ => ?_).trans (sum_tileW (fun e f => g e f n) (fun f => w f c) (E c))
  rw [hT n i, hv i c]

theorem holds_prod128 {T : FVec Ideal S512x128 .f32} {g : Fin 2 → Fin 64 → Fin 512 → EReal} (hT : Holds T g)
    (v : Vec Ideal S1x128x128 .f32) (E : Fin 128 → Fin 2) (w : Fin 64 → Fin 128 → EReal)
    (hv : ∀ i c, v (ix3 (0 : Fin 1) i c) = if rowElt i = E c then w (rowFeat i) c else Cert.Spec.zero) (n : Fin 512) (c : Fin 128) :
    mm128 T v (ix2 n c) = ∑ f : Fin 64, g (E c) f n * w f c := by
  rw [prod128]
  refine (Finset.sum_congr rfl fun i _ => ?_).trans (sum_tileW (fun e f => g e f n) (fun f => w f c) (E c))
  rw [hT n i, hv i c]

variable (A : Args) (p : Fin 32)

abbrev Wru1 : Fin (64 + 64) → Fin 3 → Fin 128 → EReal := rows3 (nf := 128) A.wru1

abbrev bru1 : Fin 128 → EReal := fun o => A.bru1 (ix1 o)

theorem pay21_apply (v14 v41 v42 v58 v59 v60 : FVec Ideal S512x128 .f32) (v63 : Vec Ideal S1x128x128 .f32) (v88 : Vec Ideal S1x128x256 .f32)
    (h72 : Holds (k1_pay17 (F := Ideal) v14 v41 v42 v58 v59 v60 v63) (fun e => h0 A (pb p e)))
    (h88 : ∀ i c, v88 (ix3 (0 : Fin 1) i c) = wgRu1 A 0 i c) (n : Fin 512) (c : Fin 256) :
    k1_pay21 (F := Ideal) v14 v41 v42 v58 v59 v60 v63 v88 (ix2 n c)
      = ∑ f : Fin 64, h0 A (pb p (ruElt c)) f n * Wru1 A (Fin.castAdd 64 f) 0 (ruCol c) := by
  unfold k1_pay21
  show mm256 (k1_pay17 (F := Ideal) v14 v41 v42 v58 v59 v60 v63) v88 (ix2 n c) = _
  exact holds_prod256 h72 v88 ruElt (fun f c => Wru1 A (Fin.castAdd 64 f) 0 (ruCol c)) h88 n c

theorem pay22_bias (v86 : Vec Ideal S1x256 .f32) (h86 : ∀ c, v86 (ix2 (0 : Fin 1) c) = bRu1 A c) (n : Fin 512) (c : Fin 256) :
    k1_pay22 (F := Ideal) v86 (ix2 n c) = bru1 A (ruCol c) := by
  rw [pay22_apply, h86]; rfl

section Gate

variable (v1 : FVec Ideal S512x512 .f32) (hv1 : ∀ n m, v1 (ix2 n m) = sup A.adj n m)
  (v72 : FVec Ideal S512x128 .f32) (h72 : Holds v72 (fun e => h0 A (pb p e)))
  (v85 : FVec Ideal S512x128 .f32) (h85 : Holds v85 (fun e => st A 1 (pb p e)))
  (v90 : FVec Ideal S512x256 .f32)
  (h90 : ∀ n c, v90 (ix2 n c) = ∑ f : Fin 64, h0 A (pb p (ruElt c)) f n * Wru1 A (Fin.castAdd 64 f) 0 (ruCol c))
  (v91 : FVec Ideal S512x256 .f32) (h91 : ∀ n c, v91 (ix2 n c) = bru1 A (ruCol c))
  (v93 v101 v104 v115 v118 : Vec Ideal S1x128x256 .f32)
  (h93 : ∀ i c, v93 (ix3 (0 : Fin 1) i c) = wkRu1 A 0 i c)
  (h101 : ∀ i c, v101 (ix3 (0 : Fin 1) i c) = wgRu1 A 1 i c)
  (h104 : ∀ i c, v104 (ix3 (0 : Fin 1) i c) = wkRu1 A 1 i c)
  (h115 : ∀ i c, v115 (ix3 (0 : Fin 1) i c) = wgRu1 A 2 i c)
  (h118 : ∀ i c, v118 (ix3 (0 : Fin 1) i c) = wkRu1 A 2 i c)

include hv1 h72 h85 h90 h91 h93 h101 h104 h115 h118

theorem pay28_apply (n : Fin 512) (c : Fin 256) :
    k1_pay28 (F := Ideal) v1 v72 v85 v90 v91 v93 v101 v104 v115 v118 (ix2 n c)
      = ruGate (sup A.adj) (h0 A (pb p (ruElt c))) (st A 1 (pb p (ruElt c))) (Wru1 A) (bru1 A) n (ruCol c) := by
  unfold k1_pay28
  show Ideal.logistic
      ((((v91 (ix2 n c) + v90 (ix2 n c)) + mm256 v85 v93 (ix2 n c))
        + (mm256 (k1_pay25 (F := Ideal) v1 v72 v85) v101 (ix2 n c)
          + mm256 (extractStridedSlice S512x128 ![0, 128] (k1_pay24 (F := Ideal) v1 v72 v85) slices_S512x256_o0_128_S512x128) v104 (ix2 n c)))
        + (mm256 (k1_pay27 (F := Ideal) v1 v72 v85) v115 (ix2 n c)
          + mm256 (extractStridedSlice S512x128 ![0, 128] (k1_pay26 (F := Ideal) v1 v72 v85) slices_S512x256_o0_128_S512x128) v118 (ix2 n c))) = _
  rw [h91, h90,
    holds_prod256 h85 v93 ruElt (fun f c => Wru1 A (Fin.natAdd 64 f) 0 (ruCol c)) h93,
    holds_prod256 (holds_pay25 (sup A.adj) v1 hv1 h72) v101 ruElt (fun f c => Wru1 A (Fin.castAdd 64 f) 1 (ruCol c)) h101,
    holds_prod256 (holds_v100 (sup A.adj) v1 hv1 h85) v104 ruElt (fun f c => Wru1 A (Fin.natAdd 64 f) 1 (ruCol c)) h104,
    holds_prod256 (holds_pay27 (sup A.adj) v1 hv1 h72) v115 ruElt (fun f c => Wru1 A (Fin.castAdd 64 f) 2 (ruCol c)) h115,
    holds_prod256 (holds_v114 (sup A.adj) v1 hv1 h85) v118 ruElt (fun f c => Wru1 A (Fin.natAdd 64 f) 2 (ruCol c)) h118]
  unfold ruGate
  exact congrArg Ideal.logistic
    (gate_ru_order (sup A.adj) (h0 A (pb p (ruElt c))) (st A 1 (pb p (ruElt c))) (Wru1 A) (bru1 A) n (ruCol c))

theorem holds_pay29 :
    Holds (k1_pay29 (F := Ideal) v1 v72 v85 v90 v91 v93 v101 v104 v115 v118)
      (fun e => uGate (sup A.adj) (h0 A (pb p e)) (st A 1 (pb p e)) (Wru1 A) (bru1 A)) := fun n c => by
  unfold k1_pay29
  rw [slice2_axis1_apply 128 _ slices_S512x256_o0_128_S512x128 n c (⟨128 + c.val, by have := c.isLt; omega⟩ : Fin 256) rfl,
    pay28_apply A p v1 hv1 v72 h72 v85 h85 v90 h90 v91 h91 v93 v101 v104 v115 v118 h93 h101 h104 h115 h118]
  have e1 : ruElt (⟨128 + c.val, by have := c.isLt; omega⟩ : Fin 256) = rowElt c :=
    Fin.ext (by show (128 + c.val) / 64 % 2 = c.val / 64; have := c.isLt; omega)
  have e2 : ruCol (⟨128 + c.val, by have := c.isLt; omega⟩ : Fin 256) = Fin.natAdd 64 (rowFeat c) :=
    Fin.ext (by show 64 * ((128 + c.val) / 128) + (128 + c.val) % 64 = 64 + c.val % 64; have := c.isLt; omega)
  rw [e1, e2]
  rfl

theorem holds_pay30 :
    Holds (k1_pay30 (F := Ideal) v1 v72 v85 v90 v91 v93 v101 v104 v115 v118)
      (fun e f n => rGate (sup A.adj) (h0 A (pb p e)) (st A 1 (pb p e)) (Wru1 A) (bru1 A) f n * st A 1 (pb p e) f n) := fun n c => by
  unfold k1_pay30
  show extractStridedSlice S512x128 ![0, 0] (k1_pay28 (F := Ideal) v1 v72 v85 v90 v91 v93 v101 v104 v115 v118) slices_S512x256_o0_0_S512x128 (ix2 n c)
      * v85 (ix2 n c) = _
  rw [slice2_axis1_apply 0 _ slices_S512x256_o0_0_S512x128 n c (⟨c.val, by have := c.isLt; omega⟩ : Fin 256) (Nat.zero_add _).symm,
    pay28_apply A p v1 hv1 v72 h72 v85 h85 v90 h90 v91 h91 v93 v101 v104 v115 v118 h93 h101 h104 h115 h118, h85 n c]
  have e1 : ruElt (⟨c.val, by have := c.isLt; omega⟩ : Fin 256) = rowElt c :=
    Fin.ext (by show c.val / 64 % 2 = c.val / 64; have := c.isLt; omega)
  have e2 : ruCol (⟨c.val, by have := c.isLt; omega⟩ : Fin 256) = Fin.castAdd 64 (rowFeat c) :=
    Fin.ext (by show 64 * (c.val / 128) + c.val % 64 = c.val % 64; have := c.isLt; omega)
  rw [e1, e2]
  rfl

end Gate

end Cert.KernelIdeal.KVal.Main1

end
-- ==== Proof.KVal.Main1C.lean ====
import proofs.«134251_g19069654794669_cont_sun_m_30_29_alg».proof.Proof.Gen.KernelIdeal.Skeleton
import proofs.«134251_g19069654794669_cont_sun_m_30_29_alg».proof.Proof.Spec
import proofs.«134251_g19069654794669_cont_sun_m_30_29_alg».proof.Proof.Packed
import proofs.«134251_g19069654794669_cont_sun_m_30_29_alg».proof.Proof.KVal.Main1Alg
import proofs.«134251_g19069654794669_cont_sun_m_30_29_alg».proof.Proof.KVal.Main1Tiles
import proofs.«134251_g19069654794669_cont_sun_m_30_29_alg».proof.Proof.KVal.Main1Ru

noncomputable section

namespace Cert.KernelIdeal.KVal.Main1

open Cert.KernelIdeal Cert.KernelIdeal.Gen Idealize.ShloMosaic Idealize.ShloMosaic.ValueIdx Idealize.SL.Sem Cert.Spec Cert.Packed

variable (A : Args) (p : Fin 32)

abbrev Wc1 : Fin (64 + 64) → Fin 3 → Fin 64 → EReal := rows3 (nf := 128) A.wc1

abbrev bc1 : Fin 64 → EReal := fun o => A.bc1 (ix1 o)

theorem bias128 (v127 : Vec Ideal S1x128 .f32) (n : Fin 512) (c : Fin 128) :
    broadcastTo S512x128 (shapeCast S1x128 v127 shapeCasts_S1x128_S1x128 : FVec Ideal S1x128 .f32) broadcasts_S1x128_S512x128 (ix2 n c)
      = v127 (ix2 (0 : Fin 1) c) := by
  rw [shapeCast_self]
  exact broadcastTo_1b_ab_apply v127 broadcasts_S1x128_S512x128 n c

variable (v1 : FVec Ideal S512x512 .f32) (hv1 : ∀ n m, v1 (ix2 n m) = sup A.adj n m)
  (v72 : FVec Ideal S512x128 .f32) (h72 : Holds v72 (fun e => h0 A (pb p e)))
  (v99 : FVec Ideal S512x128 .f32) (h99 : Holds v99 (fun e f => cheb (sup A.adj) 1 (h0 A (pb p e) f)))
  (v113 : FVec Ideal S512x128 .f32) (h113 : Holds v113 (fun e f => cheb (sup A.adj) 2 (h0 A (pb p e) f)))
  (v126 : FVec Ideal S512x128 .f32) (rh : Fin 2 → Fin 64 → Fin 512 → EReal) (h126 : Holds v126 rh)
  (v127 : Vec Ideal S1x128 .f32) (h127 : ∀ c, v127 (ix2 (0 : Fin 1) c) = bC1 A c)
  (v129 v134 v138 v142 v147 v155 : Vec Ideal S1x128x128 .f32)
  (h129 : ∀ i c, v129 (ix3 (0 : Fin 1) i c) = wgC1 A 0 i c)
  (h134 : ∀ i c, v134 (ix3 (0 : Fin 1) i c) = wgC1 A 1 i c)
  (h138 : ∀ i c, v138 (ix3 (0 : Fin 1) i c) = wgC1 A 2 i c)
  (h142 : ∀ i c, v142 (ix3 (0 : Fin 1) i c) = wkC1 A 0 i c)
  (h147 : ∀ i c, v147 (ix3 (0 : Fin 1) i c) = wkC1 A 1 i c)
  (h155 : ∀ i c, v155 (ix3 (0 : Fin 1) i c) = wkC1 A 2 i c)

include hv1 h72 h99 h113 h126 h127 h129 h134 h138 h142 h147 h155

theorem holds_pay31 :
    Holds (k1_pay31 (F := Ideal) v1 v72 v99 v113 v126 v127 v129 v134 v138 v142 v147 v155)
      (fun e f n => Ideal.tanh (gate (sup A.adj) (feats (h0 A (pb p e)) (rh e)) (Wc1 A) (bc1 A) n f)) := fun n c => by
  unfold k1_pay31
  show Ideal.tanh
      (((((((broadcastTo S512x128 (shapeCast S1x128 v127 shapeCasts_S1x128_S1x128 : FVec Ideal S1x128 .f32) broadcasts_S1x128_S512x128 (ix2 n c)
          + mm128 v72 v129 (ix2 n c))
          + mm128 v99 v134 (ix2 n c))
          + mm128 v113 v138 (ix2 n c))
          + mm128 v126 v142 (ix2 n c))
          + mm128 (diffT v1 v126) v147 (ix2 n c))
          + mm128 (cheb2T v1 v126) v155 (ix2 n c))) = _
  rw [bias128, h127,
    holds_prod128 h72 v129 cElt (fun f c => Wc1 A (Fin.castAdd 64 f) 0 (cCol c)) h129,
    holds_prod128 h99 v134 cElt (fun f c => Wc1 A (Fin.castAdd 64 f) 1 (cCol c)) h134,
    holds_prod128 h113 v138 cElt (fun f c => Wc1 A (Fin.castAdd 64 f) 2 (cCol c)) h138,
    holds_prod128 h126 v142 cElt (fun f c => Wc1 A (Fin.natAdd 64 f) 0 (cCol c)) h142,
    holds_prod128 (holds_diff (sup A.adj) v1 hv1 h126) v147 cElt (fun f c => Wc1 A (Fin.natAdd 64 f) 1 (cCol c)) h147,
    holds_prod128 (holds_cheb2 (sup A.adj) v1 hv1 h126) v155 cElt (fun f c => Wc1 A (Fin.natAdd 64 f) 2 (cCol c)) h155]
  exact congrArg Ideal.tanh
    (gate_c_order (sup A.adj) (h0 A (pb p (cElt c))) (rh (cElt c)) (Wc1 A) (bc1 A) n (cCol c))

end Cert.KernelIdeal.KVal.Main1

end
-- ==== Proof.KVal.Main1Out.lean ====
import proofs.«134251_g19069654794669_cont_sun_m_30_29_alg».proof.Proof.Gen.KernelIdeal.Skeleton
import proofs.«134251_g19069654794669_cont_sun_m_30_29_alg».proof.Proof.Spec
import proofs.«134251_g19069654794669_cont_sun_m_30_29_alg».proof.Proof.Packed
import proofs.«134251_g19069654794669_cont_sun_m_30_29_alg».proof.Proof.KVal.Main1Alg
import proofs.«134251_g19069654794669_cont_sun_m_30_29_alg».proof.Proof.KVal.Main1Tiles
import proofs.«134251_g19069654794669_cont_sun_m_30_29_alg».proof.Proof.KVal.Main1Ru
import proofs.«134251_g19069654794669_cont_sun_m_30_29_alg».proof.Proof.KVal.Main1C

noncomputable section

namespace Cert.KernelIdeal.KVal.Main1

open Cert.KernelIdeal Cert.KernelIdeal.Gen Idealize.ShloMosaic Idealize.ShloMosaic.ValueIdx Idealize.SL.Sem Cert.Spec Cert.Packed

theorem holds_pay1 {v85 v125 v159 : FVec Ideal S512x128 .f32} {k u cd : Fin 2 → Fin 64 → Fin 512 → EReal}
    (h85 : Holds v85 k) (h125 : Holds v125 u) (h159 : Holds v159 cd) :
    Holds (k1_pay1 (F := Ideal) v85 v125 v159) (fun e f n => u e f n * k e f n + (Cert.Spec.one - u e f n) * cd e f n) := fun n c => by
  unfold k1_pay1
  show v125 (ix2 n c) * v85 (ix2 n c) + (Ideal.ofBits .f32 0x3F800000#32 - v125 (ix2 n c)) * v159 (ix2 n c) = _
  rw [h85 n c, h125 n c, h159 n c]

theorem pay2_apply (v85 v125 v159 : FVec Ideal S512x128 .f32) (n : Fin 512) (f : Fin 64) :
    k1_pay2 (F := Ideal) v85 v125 v159 (ix4 (0 : Fin 1) (0 : Fin 1) n f)
      = k1_pay1 (F := Ideal) v85 v125 v159 (ix2 n (⟨f.val, by have := f.isLt; omega⟩ : Fin 128)) := by
  unfold k1_pay2
  refine (shapeCast_apply _ shapeCasts_S512x64_S1x1x512x64 _ (ix2 n f) (by
    rw [Shape.rowMajor_val_four, Shape.rowMajor_val_two]
    show n.val * 64 + f.val = ((0 * 1 + 0) * 512 + n.val) * 64 + f.val
    omega)).trans ?_
  exact slice2_axis1_apply 0 _ slices_S512x128_o0_0_S512x64 n f _ (Nat.zero_add _).symm

theorem pay3_apply (v85 v125 v159 : FVec Ideal S512x128 .f32) (n : Fin 512) (f : Fin 64) :
    k1_pay3 (F := Ideal) v85 v125 v159 (ix4 (0 : Fin 1) (0 : Fin 1) n f)
      = k1_pay1 (F := Ideal) v85 v125 v159 (ix2 n (⟨64 + f.val, by have := f.isLt; omega⟩ : Fin 128)) := by
  unfold k1_pay3
  refine (shapeCast_apply _ shapeCasts_S512x64_S1x1x512x64 _ (ix2 n f) (by
    rw [Shape.rowMajor_val_four, Shape.rowMajor_val_two]
    show n.val * 64 + f.val = ((0 * 1 + 0) * 512 + n.val) * 64 + f.val
    omega)).trans ?_
  exact slice2_axis1_apply 64 _ slices_S512x128_o0_64_S512x64 n f _ rfl

theorem pay4_apply (v85 v125 v159 : FVec Ideal S512x128 .f32) (v173 : Vec Ideal S128x2 .f32) (v176 : Vec Ideal S1x1 .f32)
    (j : Fin 2) (n : Fin 512) :
    k1_pay4 (F := Ideal) v85 v125 v159 v173 v176 (ix3 (0 : Fin 1) j n)
      = (∑ i : Fin 128, k1_pay1 (F := Ideal) v85 v125 v159 (ix2 n i) * v173 (ix2 i j)) + v176 (ix2 (0 : Fin 1) (0 : Fin 1)) := by
  unfold k1_pay4
  rw [shapeCast_ab_1ab_apply, transpose_ix2_apply]
  show matmul dot_S512x128_S128x2_S512x2_1_0_0_1_n_n none (k1_pay1 (F := Ideal) v85 v125 v159)
        (shapeCast S128x2 v173 shapeCasts_S128x2_S128x2 : FVec Ideal S128x2 .f32) (constant (F := Ideal) S512x2 .f32 0x00000000#32) (ix2 n j)
      + broadcastTo S512x2 (shapeCast S1x1 v176 shapeCasts_S1x1_S1x1 : FVec Ideal S1x1 .f32) broadcasts_S1x1_S512x2 (ix2 n j) = _
  rw [matmul_g2, shapeCast_self, shapeCast_self]
  congr 1
  exact broadcastTo_apply v176 broadcasts_S1x1_S512x2 (ix2 n j) (ix2 (0 : Fin 1) (0 : Fin 1)) fun a => by
    match a with
    | ⟨0, _⟩ => rfl
    | ⟨1, _⟩ => rfl

section Point

variable (A : Args) (p : Fin 32)
  (v1 : FVec Ideal S512x512 .f32) (hv1 : ∀ n m, v1 (ix2 n m) = sup A.adj n m)
  (v72 : FVec Ideal S512x128 .f32) (h72 : Holds v72 (fun e => h0 A (pb p e)))
  (v81 v83 : Vec Ideal S1x1x512x64 .f32)
  (h81 : ∀ n f, v81 (ix4 (0 : Fin 1) (0 : Fin 1) n f) = st A 1 (pb p 0) f n)
  (h83 : ∀ n f, v83 (ix4 (0 : Fin 1) (0 : Fin 1) n f) = st A 1 (pb p 1) f n)
  (v90 : FVec Ideal S512x256 .f32)
  (h90 : ∀ n c, v90 (ix2 n c) = ∑ f : Fin 64, h0 A (pb p (ruElt c)) f n * Wru1 A (Fin.castAdd 64 f) 0 (ruCol c))
  (v86 : Vec Ideal S1x256 .f32) (h86 : ∀ c, v86 (ix2 (0 : Fin 1) c) = bRu1 A c)
  (v93 v101 v104 v115 v118 : Vec Ideal S1x128x256 .f32)
  (h93 : ∀ i c, v93 (ix3 (0 : Fin 1) i c) = wkRu1 A 0 i c)
  (h101 : ∀ i c, v101 (ix3 (0 : Fin 1) i c) = wgRu1 A 1 i c)
  (h104 : ∀ i c, v104 (ix3 (0 : Fin 1) i c) = wkRu1 A 1 i c)
  (h115 : ∀ i c, v115 (ix3 (0 : Fin 1) i c) = wgRu1 A 2 i c)
  (h118 : ∀ i c, v118 (ix3 (0 : Fin 1) i c) = wkRu1 A 2 i c)
  (v127 : Vec Ideal S1x128 .f32) (h127 : ∀ c, v127 (ix2 (0 : Fin 1) c) = bC1 A c)
  (v129 v134 v138 v142 v147 v155 : Vec Ideal S1x128x128 .f32)
  (h129 : ∀ i c, v129 (ix3 (0 : Fin 1) i c) = wgC1 A 0 i c)
  (h134 : ∀ i c, v134 (ix3 (0 : Fin 1) i c) = wgC1 A 1 i c)
  (h138 : ∀ i c, v138 (ix3 (0 : Fin 1) i c) = wgC1 A 2 i c)
  (h142 : ∀ i c, v142 (ix3 (0 : Fin 1) i c) = wkC1 A 0 i c)
  (h147 : ∀ i c, v147 (ix3 (0 : Fin 1) i c) = wkC1 A 1 i c)
  (h155 : ∀ i c, v155 (ix3 (0 : Fin 1) i c) = wkC1 A 2 i c)

abbrev t85 : FVec Ideal S512x128 .f32 := k1_pay20 (F := Ideal) v81 v83

abbrev t125 : FVec Ideal S512x128 .f32 :=
  k1_pay29 (F := Ideal) v1 v72 (t85 v81 v83) v90 (k1_pay22 (F := Ideal) v86) v93 v101 v104 v115 v118

abbrev t126 : FVec Ideal S512x128 .f32 :=
  k1_pay30 (F := Ideal) v1 v72 (t85 v81 v83) v90 (k1_pay22 (F := Ideal) v86) v93 v101 v104 v115 v118

abbrev t159 : FVec Ideal S512x128 .f32 :=
  k1_pay31 (F := Ideal) v1 v72 (k1_pay25 (F := Ideal) v1 v72 (t85 v81 v83)) (k1_pay27 (F := Ideal) v1 v72 (t85 v81 v83))
    (t126 v1 v72 v81 v83 v90 v86 v93 v101 v104 v115 v118) v127 v129 v134 v138 v142 v147 v155

include hv1 h72 h81 h83 h90 h86 h93 h101 h104 h115 h118 h127 h129 h134 h138 h142 h147 h155

theorem holds_h1 :
    Holds (k1_pay1 (F := Ideal) (t85 v81 v83) (t125 v1 v72 v81 v83 v90 v86 v93 v101 v104 v115 v118)
        (t159 v1 v72 v81 v83 v90 v86 v93 v101 v104 v115 v118 v127 v129 v134 v138 v142 v147 v155))
      (fun e => h1 A (pb p e)) := by
  have h85 : Holds (t85 v81 v83) (fun e => st A 1 (pb p e)) :=
    holds_pay20 v81 v83 (fun e => st A 1 (pb p e)) h81 h83
  have h91 : ∀ n c, k1_pay22 (F := Ideal) v86 (ix2 n c) = bru1 A (ruCol c) := pay22_bias A v86 h86
  have h125 := holds_pay29 A p v1 hv1 v72 h72 (t85 v81 v83) h85 v90 h90 (k1_pay22 (F := Ideal) v86) h91 v93 v101 v104 v115 v118
    h93 h101 h104 h115 h118
  have h126 := holds_pay30 A p v1 hv1 v72 h72 (t85 v81 v83) h85 v90 h90 (k1_pay22 (F := Ideal) v86) h91 v93 v101 v104 v115 v118
    h93 h101 h104 h115 h118
  have h159 := holds_pay31 A p v1 hv1 v72 h72 _ (holds_pay25 (v85 := t85 v81 v83) (sup A.adj) v1 hv1 h72)
    _ (holds_pay27 (v85 := t85 v81 v83) (sup A.adj) v1 hv1 h72) _ _ h126 v127 h127 v129 v134 v138 v142 v147 v155
    h129 h134 h138 h142 h147 h155
  exact holds_pay1 h85 h125 h159

end Point

end Cert.KernelIdeal.KVal.Main1

namespace Cert.KernelIdeal.KVal

open Cert.KernelIdeal Cert.KernelIdeal.Gen Idealize.ShloMosaic Idealize.ShloMosaic.ValueIdx Idealize.SL.Sem Cert.Spec Cert.Packed Main1

section Point

variable (A : Args) (p : Fin 32)
  (v1 : FVec Ideal S512x512 .f32) (hv1 : ∀ n m, v1 (ix2 n m) = sup A.adj n m)
  (v72 : FVec Ideal S512x128 .f32)
  (hv72 : ∀ (n : Fin 512) (c : Fin 128), v72 (ix2 n c)
    = h0 A ⟨2 * p.val + c.val / 64, by have := p.isLt; have := c.isLt; omega⟩ ⟨c.val % 64, Nat.mod_lt _ (by decide)⟩ n)
  (v81 v83 : Vec Ideal S1x1x512x64 .f32)
  (hv81 : ∀ n f, v81 (ix4 (0 : Fin 1) (0 : Fin 1) n f) = st A 1 ⟨2 * p.val, by have := p.isLt; omega⟩ f n)
  (hv83 : ∀ n f, v83 (ix4 (0 : Fin 1) (0 : Fin 1) n f) = st A 1 ⟨2 * p.val + 1, by have := p.isLt; omega⟩ f n)
  (v90 : FVec Ideal S512x256 .f32)
  (hv90 : ∀ n c, v90 (ix2 n c) = ∑ f : Fin 64, h0 A (pb p (ruElt c)) f n * Wru1 A (Fin.castAdd 64 f) 0 (ruCol c))
  (v86 : Vec Ideal S1x256 .f32) (hv86 : ∀ c, v86 (ix2 (0 : Fin 1) c) = bRu1 A c)
  (v93 v101 v104 v115 v118 : Vec Ideal S1x128x256 .f32)
  (hv93 : ∀ i c, v93 (ix3 (0 : Fin 1) i c) = wkRu1 A 0 i c)
  (hv101 : ∀ i c, v101 (ix3 (0 : Fin 1) i c) = wgRu1 A 1 i c)
  (hv104 : ∀ i c, v104 (ix3 (0 : Fin 1) i c) = wkRu1 A 1 i c)
  (hv115 : ∀ i c, v115 (ix3 (0 : Fin 1) i c) = wgRu1 A 2 i c)
  (hv118 : ∀ i c, v118 (ix3 (0 : Fin 1) i c) = wkRu1 A 2 i c)
  (v127 : Vec Ideal S1x128 .f32) (hv127 : ∀ c, v127 (ix2 (0 : Fin 1) c) = bC1 A c)
  (v129 v134 v138 v142 v147 v155 : Vec Ideal S1x128x128 .f32)
  (hv129 : ∀ i c, v129 (ix3 (0 : Fin 1) i c) = wgC1 A 0 i c)
  (hv134 : ∀ i c, v134 (ix3 (0 : Fin 1) i c) = wgC1 A 1 i c)
  (hv138 : ∀ i c, v138 (ix3 (0 : Fin 1) i c) = wgC1 A 2 i c)
  (hv142 : ∀ i c, v142 (ix3 (0 : Fin 1) i c) = wkC1 A 0 i c)
  (hv147 : ∀ i c, v147 (ix3 (0 : Fin 1) i c) = wkC1 A 1 i c)
  (hv155 : ∀ i c, v155 (ix3 (0 : Fin 1) i c) = wkC1 A 2 i c)

include hv1 hv72 hv81 hv83 hv90 hv86 hv93 hv101 hv104 hv115 hv118 hv127 hv129 hv134 hv138 hv142 hv147 hv155

theorem main_hid1_0 (n : Fin 512) (f : Fin 64) :
    k1_pay2 (F := Ideal) (t85 v81 v83) (t125 v1 v72 v81 v83 v90 v86 v93 v101 v104 v115 v118)
        (t159 v1 v72 v81 v83 v90 v86 v93 v101 v104 v115 v118 v127 v129 v134 v138 v142 v147 v155) (ix4 (0 : Fin 1) (0 : Fin 1) n f)
      = h1 A ⟨2 * p.val, by have := p.isLt; omega⟩ f n := by
  rw [pay2_apply, holds_h1 A p v1 hv1 v72 hv72 v81 v83 hv81 hv83 v90 hv90 v86 hv86 v93 v101 v104 v115 v118 hv93 hv101 hv104 hv115 hv118
    v127 hv127 v129 v134 v138 v142 v147 v155 hv129 hv134 hv138 hv142 hv147 hv155 n _]
  have e1 : rowElt (⟨f.val, by have := f.isLt; omega⟩ : Fin 128) = 0 := Fin.ext (by show f.val / 64 = 0; have := f.isLt; omega)
  have e2 : rowFeat (⟨f.val, by have := f.isLt; omega⟩ : Fin 128) = f := Fin.ext (by show f.val % 64 = f.val; have := f.isLt; omega)
  rw [e1, e2]
  rfl

theorem main_hid1_1 (n : Fin 512) (f : Fin 64) :
    k1_pay3 (F := Ideal) (t85 v81 v83) (t125 v1 v72 v81 v83 v90 v86 v93 v101 v104 v115 v118)
        (t159 v1 v72 v81 v83 v90 v86 v93 v101 v104 v115 v118 v127 v129 v134 v138 v142 v147 v155) (ix4 (0 : Fin 1) (0 : Fin 1) n f)
      = h1 A ⟨2 * p.val + 1, by have := p.isLt; omega⟩ f n := by
  rw [pay3_apply, holds_h1 A p v1 hv1 v72 hv72 v81 v83 hv81 hv83 v90 hv90 v86 hv86 v93 v101 v104 v115 v118 hv93 hv101 hv104 hv115 hv118
    v127 hv127 v129 v134 v138 v142 v147 v155 hv129 hv134 hv138 hv142 hv147 hv155 n _]
  have e1 : rowElt (⟨64 + f.val, by have := f.isLt; omega⟩ : Fin 128) = 1 := Fin.ext (by show (64 + f.val) / 64 = 1; have := f.isLt; omega)
  have e2 : rowFeat (⟨64 + f.val, by have := f.isLt; omega⟩ : Fin 128) = f := Fin.ext (by show (64 + f.val) % 64 = f.val; have := f.isLt; omega)
  rw [e1, e2]
  rfl

theorem main_out (v173 : Vec Ideal S128x2 .f32) (hv173 : ∀ i j, v173 (ix2 i j) = wpp A i j)
    (v176 : Vec Ideal S1x1 .f32) (hv176 : v176 (ix2 (0 : Fin 1) (0 : Fin 1)) = A.bp (ix1 0)) (j : Fin 2) (n : Fin 512) :
    k1_pay4 (F := Ideal) (t85 v81 v83) (t125 v1 v72 v81 v83 v90 v86 v93 v101 v104 v115 v118)
        (t159 v1 v72 v81 v83 v90 v86 v93 v101 v104 v115 v118 v127 v129 v134 v138 v142 v147 v155) v173 v176 (ix3 (0 : Fin 1) j n)
      = out A ⟨2 * p.val + j.val, by have := p.isLt; have := j.isLt; omega⟩ n := by
  rw [pay4_apply, hv176]
  have hh := holds_h1 A p v1 hv1 v72 hv72 v81 v83 hv81 hv83 v90 hv90 v86 hv86 v93 v101 v104 v115 v118 hv93 hv101 hv104 hv115 hv118
    v127 hv127 v129 v134 v138 v142 v147 v155 hv129 hv134 hv138 hv142 hv147 hv155
  generalize k1_pay1 (F := Ideal) (t85 v81 v83) (t125 v1 v72 v81 v83 v90 v86 v93 v101 v104 v115 v118)
    (t159 v1 v72 v81 v83 v90 v86 v93 v101 v104 v115 v118 v127 v129 v134 v138 v142 v147 v155) = H at hh ⊢
  have hs : (∑ i : Fin 128, H (ix2 n i) * v173 (ix2 i j)) = ∑ f : Fin 64, h1 A (pb p j) f n * A.wp (ix2 f 0) := by
    refine (Finset.sum_congr rfl fun i _ => ?_).trans (sum_tileW (fun e f => h1 A (pb p e) f n) (fun f => A.wp (ix2 f 0)) j)
    rw [hh n i, hv173 i j]
    unfold wpp
    rfl
  rw [hs]
  rfl

end Point

end Cert.KernelIdeal.KVal

end
-- ==== Proof.KVal.Body1.lean ====
import proofs.«134251_g19069654794669_cont_sun_m_30_29_alg».proof.Proof.KernelIdealH.Run1
import proofs.«134251_g19069654794669_cont_sun_m_30_29_alg».proof.Proof.KVal.Main0Cell
import proofs.«134251_g19069654794669_cont_sun_m_30_29_alg».proof.Proof.KVal.Main1Out
import Idealize.ShloMosaic.Lib.Pipeline.Value
import Idealize.ShloMosaic.Lib.ValueIdx

set_option maxRecDepth 16384
set_option maxHeartbeats 4000000

noncomputable section

namespace Cert.KernelIdeal.KVal.R1

open Cert.KernelIdeal Cert.KernelIdeal.Gen Cert.KernelIdeal.FrameH Cert.KernelIdeal.KVal Cert.KernelIdeal.KVal.Main1
open Idealize.ShloMosaic Idealize.ShloMosaic.TcCoe Idealize.SL.Sem Idealize.ShloMosaic.ValueIdx Cert.Spec Cert.Packed

section Loads
variable {F : FTy → Type} [FloatOps F]

theorem ldR2 {n0 n1 m0 m1 : Nat} (M : Memref sig .tc .vmem ⟨2, ![n0, n1]⟩ .f32) (h : M.IsWhole)
    (x : (⟨2, ![n0, n1]⟩ : Shape).Idx → Elt F .f32) (o0 o1 : Nat)
    (inb : ∀ a, (![o0, o1] : Fin 2 → Nat) a + (![m0, m1] : Fin 2 → Nat) a ≤ (⟨2, ![n0, n1]⟩ : Shape).size a)
    (a : Fin m0) (b : Fin m1) (a' : Fin n0) (b' : Fin n1) (e0 : a'.val = o0 + a.val) (e1 : b'.val = o1 + b.val) :
    View.readAt (Elt F) M.view (Rect.unit (s := ⟨2, ![n0, n1]⟩) ![o0, o1] ![m0, m1] inb).toLoadRect (h.unread x) (ix2 a b) = x (ix2 a' b') := by
  rw [View.readAt_eq_ld, h.read_unread]
  show x _ = x _
  congr 1; funext t; apply Fin.ext
  match t with
  | ⟨0, _⟩ => show o0 + 1 * a.val = a'.val; omega
  | ⟨1, _⟩ => show o1 + 1 * b.val = b'.val; omega

theorem ldR3 {n0 n1 n2 m0 m1 m2 : Nat} (M : Memref sig .tc .vmem ⟨3, ![n0, n1, n2]⟩ .f32) (h : M.IsWhole)
    (x : (⟨3, ![n0, n1, n2]⟩ : Shape).Idx → Elt F .f32) (o0 o1 o2 : Nat)
    (inb : ∀ a, (![o0, o1, o2] : Fin 3 → Nat) a + (![m0, m1, m2] : Fin 3 → Nat) a ≤ (⟨3, ![n0, n1, n2]⟩ : Shape).size a)
    (a : Fin m0) (b : Fin m1) (d : Fin m2) (a' : Fin n0) (b' : Fin n1) (d' : Fin n2)
    (e0 : a'.val = o0 + a.val) (e1 : b'.val = o1 + b.val) (e2 : d'.val = o2 + d.val) :
    View.readAt (Elt F) M.view (Rect.unit (s := ⟨3, ![n0, n1, n2]⟩) ![o0, o1, o2] ![m0, m1, m2] inb).toLoadRect (h.unread x) (ix3 a b d)
      = x (ix3 a' b' d') := by
  rw [View.readAt_eq_ld, h.read_unread]
  show x _ = x _
  congr 1; funext t; apply Fin.ext
  match t with
  | ⟨0, _⟩ => show o0 + 1 * a.val = a'.val; omega
  | ⟨1, _⟩ => show o1 + 1 * b.val = b'.val; omega
  | ⟨2, _⟩ => show o2 + 1 * d.val = d'.val; omega

theorem ldR4 {n0 n1 n2 n3 m0 m1 m2 m3 : Nat} (M : Memref sig .tc .vmem ⟨4, ![n0, n1, n2, n3]⟩ .f32) (h : M.IsWhole)
    (x : (⟨4, ![n0, n1, n2, n3]⟩ : Shape).Idx → Elt F .f32) (o0 o1 o2 o3 : Nat)
    (inb : ∀ a, (![o0, o1, o2, o3] : Fin 4 → Nat) a + (![m0, m1, m2, m3] : Fin 4 → Nat) a ≤ (⟨4, ![n0, n1, n2, n3]⟩ : Shape).size a)
    (a : Fin m0) (b : Fin m1) (d : Fin m2) (g : Fin m3) (a' : Fin n0) (b' : Fin n1) (d' : Fin n2) (g' : Fin n3)
    (e0 : a'.val = o0 + a.val) (e1 : b'.val = o1 + b.val) (e2 : d'.val = o2 + d.val) (e3 : g'.val = o3 + g.val) :
    View.readAt (Elt F) M.view (Rect.unit (s := ⟨4, ![n0, n1, n2, n3]⟩) ![o0, o1, o2, o3] ![m0, m1, m2, m3] inb).toLoadRect (h.unread x) (ix4 a b d g)
      = x (ix4 a' b' d' g') := by
  rw [View.readAt_eq_ld, h.read_unread]
  show x _ = x _
  congr 1; funext t; apply Fin.ext
  match t with
  | ⟨0, _⟩ => show o0 + 1 * a.val = a'.val; omega
  | ⟨1, _⟩ => show o1 + 1 * b.val = b'.val; omega
  | ⟨2, _⟩ => show o2 + 1 * d.val = d'.val; omega
  | ⟨3, _⟩ => show o3 + 1 * g.val = g'.val; omega

end Loads

section Body

variable (A : Cert.Spec.Args) (p : Fin 32) (c : Dev nD)
  (arg1 : Memref sig .tc .vmem S512x512 .f32) (harg1 : arg1.IsWhole) (arg2 : Memref sig .tc .vmem S3x1x2x512 .f32) (harg2 : arg2.IsWhole) (arg3 : Memref sig .tc .vmem S2x2x512x64 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x2x512x64 .f32) (harg19 : arg19.IsWhole)
  (x0 : Vec Ideal S512x512 .f32) (x1 : Vec Ideal S3x1x2x512 .f32) (x2 : Vec Ideal S2x2x512x64 .f32) (x3 : Vec Ideal S6x256 .f32) (x4 : Vec Ideal S3x128x256 .f32) (x5 : Vec Ideal S1x256 .f32) (x6 : Vec Ideal S6x128 .f32) (x7 : Vec Ideal S3x128x128 .f32) (x8 : Vec Ideal S1x128 .f32) (x9 : Vec Ideal S3x128x256 .f32) (x10 : Vec Ideal S3x128x256 .f32) (x11 : Vec Ideal S1x256 .f32) (x12 : Vec Ideal S3x128x128 .f32) (x13 : Vec Ideal S3x128x128 .f32) (x14 : Vec Ideal S1x128 .f32) (x15 : Vec Ideal S128x2 .f32) (x16 : Vec Ideal S1x1 .f32)
  (hx0 : ∀ n m', x0 (ix2 n m') = sup A.adj n m')
  (hx1 : ∀ (k : Fin 3) (j : Fin 2) (n : Fin 512), x1 (ix4 k (0 : Fin 1) j n) = acol A k ⟨2 * p.val + j.val, by have := p.isLt; have := j.isLt; omega⟩ n)
  (hx2 : ∀ (l j : Fin 2) (n : Fin 512) (f : Fin 64), x2 (ix4 l j n f) = st A l ⟨2 * p.val + j.val, by have := p.isLt; have := j.isLt; omega⟩ f n)
  (hx3 : ∀ r c', x3 (ix2 r c') = waRu0 A r c') (hx4 : ∀ k i c', x4 (ix3 k i c') = whRu0 A k i c') (hx5 : ∀ c', x5 (ix2 (0 : Fin 1) c') = bRu0 A c')
  (hx6 : ∀ r c', x6 (ix2 r c') = waC0 A r c') (hx7 : ∀ k i c', x7 (ix3 k i c') = whC0 A k i c') (hx8 : ∀ c', x8 (ix2 (0 : Fin 1) c') = bC0 A c')
  (hx9 : ∀ k i c', x9 (ix3 k i c') = wgRu1 A k i c') (hx10 : ∀ k i c', x10 (ix3 k i c') = wkRu1 A k i c') (hx11 : ∀ c', x11 (ix2 (0 : Fin 1) c') = bRu1 A c')
  (hx12 : ∀ k i c', x12 (ix3 k i c') = wgC1 A k i c') (hx13 : ∀ k i c', x13 (ix3 k i c') = wkC1 A k i c') (hx14 : ∀ c', x14 (ix2 (0 : Fin 1) c') = bC1 A c')
  (hx15 : ∀ i j, x15 (ix2 i j) = wpp A i j) (hx16 : x16 (ix2 (0 : Fin 1) (0 : Fin 1)) = A.bp (ix1 0))

include hx0 in

theorem body_sup : ∀ n m', (kernelRun1.sl.r c arg1 harg1 x0) (ix2 n m') = sup A.adj n m' := by
  intro n m'
  unfold kernelRun1.sl.r
  rw [m0_pay5]
  exact (fun a b => (ldR2 arg1 harg1 x0 0 0 inb_S512x512_S512x512_0_0 a b a b (by omega) (by omega)).trans (hx0 a b)) n m'

include hx0 hx1 hx2 hx3 hx4 hx5 hx6 hx7 hx8 in

theorem body_h0tile : ∀ (n : Fin 512) (c' : Fin 128), (kernelRun1.sl.r_9 c arg1 harg1 arg2 harg2 arg3 harg3 arg4 harg4 arg5 harg5 arg6 harg6 arg7 harg7 arg8 harg8 arg9 harg9 x0 x1 x2 x3 x4 x5 x6 x7 x8) (ix2 n c')
    = h0 A ⟨2 * p.val + c'.val / 64, by have := p.isLt; have := c'.isLt; omega⟩ ⟨c'.val % 64, Nat.mod_lt _ (by decide)⟩ n := by
  intro n c'
  unfold kernelRun1.sl.r_9 kernelRun1.sl.r_8 kernelRun1.sl.r_7 kernelRun1.sl.r_6 kernelRun1.sl.r_5 kernelRun1.sl.r_4 kernelRun1.sl.r_3 kernelRun1.sl.r_2 kernelRun1.sl.r_1 kernelRun1.sl.r
  exact main_h0 A p (View.readAt (Elt Ideal) arg1.view (Rect.unit (s := S512x512) ![0, 0] S512x512.size inb_S512x512_S512x512_0_0).toLoadRect (harg1.unread x0)) (fun a b => (ldR2 arg1 harg1 x0 0 0 inb_S512x512_S512x512_0_0 a b a b (by omega) (by omega)).trans (hx0 a b)) (View.readAt (Elt Ideal) arg2.view (Rect.unit (s := S3x1x2x512) ![0, 0, 0, 0] S1x1x2x512.size inb_S3x1x2x512_S1x1x2x512_0_0_0_0).toLoadRect (harg2.unread x1)) (View.readAt (Elt Ideal) arg2.view (Rect.unit (s := S3x1x2x512) ![1, 0, 0, 0] S1x1x2x512.size inb_S3x1x2x512_S1x1x2x512_1_0_0_0).toLoadRect (harg2.unread x1)) (View.readAt (Elt Ideal) arg2.view (Rect.unit (s := S3x1x2x512) ![2, 0, 0, 0] S1x1x2x512.size inb_S3x1x2x512_S1x1x2x512_2_0_0_0).toLoadRect (harg2.unread x1)) (fun j n => (ldR4 arg2 harg2 x1 0 0 0 0 inb_S3x1x2x512_S1x1x2x512_0_0_0_0 (0 : Fin 1) (0 : Fin 1) j n (0 : Fin 3) (0 : Fin 1) j n (by decide) (by decide) (by omega) (by omega)).trans (hx1 0 j n)) (fun j n => (ldR4 arg2 harg2 x1 1 0 0 0 inb_S3x1x2x512_S1x1x2x512_1_0_0_0 (0 : Fin 1) (0 : Fin 1) j n (1 : Fin 3) (0 : Fin 1) j n (by decide) (by decide) (by omega) (by omega)).trans (hx1 1 j n)) (fun j n => (ldR4 arg2 harg2 x1 2 0 0 0 inb_S3x1x2x512_S1x1x2x512_2_0_0_0 (0 : Fin 1) (0 : Fin 1) j n (2 : Fin 3) (0 : Fin 1) j n (by decide) (by decide) (by omega) (by omega)).trans (hx1 2 j n)) (View.readAt (Elt Ideal) arg3.view (Rect.unit (s := S2x2x512x64) ![0, 0, 0, 0] S1x1x512x64.size inb_S2x2x512x64_S1x1x512x64_0_0_0_0).toLoadRect (harg3.unread x2)) (View.readAt (Elt Ideal) arg3.view (Rect.unit (s := S2x2x512x64) ![0, 1, 0, 0] S1x1x512x64.size inb_S2x2x512x64_S1x1x512x64_0_1_0_0).toLoadRect (harg3.unread x2)) (fun n f => (ldR4 arg3 harg3 x2 0 0 0 0 inb_S2x2x512x64_S1x1x512x64_0_0_0_0 (0 : Fin 1) (0 : Fin 1) n f (0 : Fin 2) (0 : Fin 2) n f (by decide) (by decide) (by omega) (by omega)).trans (hx2 0 0 n f)) (fun n f => (ldR4 arg3 harg3 x2 0 1 0 0 inb_S2x2x512x64_S1x1x512x64_0_1_0_0 (0 : Fin 1) (0 : Fin 1) n f (0 : Fin 2) (1 : Fin 2) n f (by decide) (by decide) (by omega) (by omega)).trans (hx2 0 1 n f))
    (View.readAt (Elt Ideal) arg6.view (Rect.unit (s := S1x256) ![0, 0] S1x256.size inb_S1x256_S1x256_0_0).toLoadRect (harg6.unread x5)) (View.readAt (Elt Ideal) arg4.view (Rect.unit (s := S6x256) ![0, 0] S6x256.size inb_S6x256_S6x256_0_0).toLoadRect (harg4.unread x3)) (View.readAt (Elt Ideal) arg5.view (Rect.unit (s := S3x128x256) ![0, 0, 0] S1x128x256.size inb_S3x128x256_S1x128x256_0_0_0).toLoadRect (harg5.unread x4)) (View.readAt (Elt Ideal) arg5.view (Rect.unit (s := S3x128x256) ![1, 0, 0] S1x128x256.size inb_S3x128x256_S1x128x256_1_0_0).toLoadRect (harg5.unread x4)) (View.readAt (Elt Ideal) arg5.view (Rect.unit (s := S3x128x256) ![2, 0, 0] S1x128x256.size inb_S3x128x256_S1x128x256_2_0_0).toLoadRect (harg5.unread x4)) (fun c' => (ldR2 arg6 harg6 x5 0 0 inb_S1x256_S1x256_0_0 (0 : Fin 1) c' (0 : Fin 1) c' (by omega) (by omega)).trans (hx5 c')) (fun a b => (ldR2 arg4 harg4 x3 0 0 inb_S6x256_S6x256_0_0 a b a b (by omega) (by omega)).trans (hx3 a b)) (fun i c' => (ldR3 arg5 harg5 x4 0 0 0 inb_S3x128x256_S1x128x256_0_0_0 (0 : Fin 1) i c' (0 : Fin 3) i c' (by decide) (by omega) (by omega)).trans (hx4 0 i c')) (fun i c' => (ldR3 arg5 harg5 x4 1 0 0 inb_S3x128x256_S1x128x256_1_0_0 (0 : Fin 1) i c' (1 : Fin 3) i c' (by decide) (by omega) (by omega)).trans (hx4 1 i c')) (fun i c' => (ldR3 arg5 harg5 x4 2 0 0 inb_S3x128x256_S1x128x256_2_0_0 (0 : Fin 1) i c' (2 : Fin 3) i c' (by decide) (by omega) (by omega)).trans (hx4 2 i c'))
    (View.readAt (Elt Ideal) arg9.view (Rect.unit (s := S1x128) ![0, 0] S1x128.size inb_S1x128_S1x128_0_0).toLoadRect (harg9.unread x8)) (View.readAt (Elt Ideal) arg7.view (Rect.unit (s := S6x128) ![0, 0] S6x128.size inb_S6x128_S6x128_0_0).toLoadRect (harg7.unread x6)) (View.readAt (Elt Ideal) arg8.view (Rect.unit (s := S3x128x128) ![0, 0, 0] S1x128x128.size inb_S3x128x128_S1x128x128_0_0_0).toLoadRect (harg8.unread x7)) (View.readAt (Elt Ideal) arg8.view (Rect.unit (s := S3x128x128) ![1, 0, 0] S1x128x128.size inb_S3x128x128_S1x128x128_1_0_0).toLoadRect (harg8.unread x7)) (View.readAt (Elt Ideal) arg8.view (Rect.unit (s := S3x128x128) ![2, 0, 0] S1x128x128.size inb_S3x128x128_S1x128x128_2_0_0).toLoadRect (harg8.unread x7)) (fun c' => (ldR2 arg9 harg9 x8 0 0 inb_S1x128_S1x128_0_0 (0 : Fin 1) c' (0 : Fin 1) c' (by omega) (by omega)).trans (hx8 c')) (fun a b => (ldR2 arg7 harg7 x6 0 0 inb_S6x128_S6x128_0_0 a b a b (by omega) (by omega)).trans (hx6 a b)) (fun i c' => (ldR3 arg8 harg8 x7 0 0 0 inb_S3x128x128_S1x128x128_0_0_0 (0 : Fin 1) i c' (0 : Fin 3) i c' (by decide) (by omega) (by omega)).trans (hx7 0 i c')) (fun i c' => (ldR3 arg8 harg8 x7 1 0 0 inb_S3x128x128_S1x128x128_1_0_0 (0 : Fin 1) i c' (1 : Fin 3) i c' (by decide) (by omega) (by omega)).trans (hx7 1 i c')) (fun i c' => (ldR3 arg8 harg8 x7 2 0 0 inb_S3x128x128_S1x128x128_2_0_0 (0 : Fin 1) i c' (2 : Fin 3) i c' (by decide) (by omega) (by omega)).trans (hx7 2 i c')) n c'

include hx0 hx1 hx2 hx3 hx4 hx5 hx6 hx7 hx8 in

theorem body_h0_0 (n : Fin 512) (f : Fin 64) :
    k1_pay18 (F := Ideal) (kernelRun1.sl.r_2 c arg3 harg3 x2) (kernelRun1.sl.r_5 c arg1 harg1 arg2 harg2 arg3 harg3 arg4 harg4 arg5 harg5 arg6 harg6 x0 x1 x2 x3 x4 x5) (kernelRun1.sl.r_6 c arg1 harg1 arg2 harg2 arg3 harg3 arg4 harg4 arg5 harg5 arg6 harg6 x0 x1 x2 x3 x4 x5) (kernelRun1.sl.r_7 c arg1 harg1 arg2 harg2 arg3 harg3 arg4 harg4 arg5 harg5 arg6 harg6 arg7 harg7 arg8 harg8 arg9 harg9 x0 x1 x2 x3 x4 x5 x6 x7 x8) (kernelRun1.sl.r_8 c arg1 harg1 arg2 harg2 arg3 harg3 arg4 harg4 arg5 harg5 arg6 harg6 x0 x1 x2 x3 x4 x5) k1_pay16 (View.readAt (Elt Ideal) arg8.view (Rect.unit (s := S3x128x128) ![2, 0, 0] S1x128x128.size inb_S3x128x128_S1x128x128_2_0_0).toLoadRect (harg8.unread x7)) (ix4 (0 : Fin 1) (0 : Fin 1) n f)
      = h0 A ⟨2 * p.val, by have := p.isLt; omega⟩ f n := by
  unfold kernelRun1.sl.r_8 kernelRun1.sl.r_7 kernelRun1.sl.r_6 kernelRun1.sl.r_5 kernelRun1.sl.r_4 kernelRun1.sl.r_3 kernelRun1.sl.r_2 kernelRun1.sl.r_1 kernelRun1.sl.r
  exact main_hid0_0 A p (View.readAt (Elt Ideal) arg1.view (Rect.unit (s := S512x512) ![0, 0] S512x512.size inb_S512x512_S512x512_0_0).toLoadRect (harg1.unread x0)) (fun a b => (ldR2 arg1 harg1 x0 0 0 inb_S512x512_S512x512_0_0 a b a b (by omega) (by omega)).trans (hx0 a b)) (View.readAt (Elt Ideal) arg2.view (Rect.unit (s := S3x1x2x512) ![0, 0, 0, 0] S1x1x2x512.size inb_S3x1x2x512_S1x1x2x512_0_0_0_0).toLoadRect (harg2.unread x1)) (View.readAt (Elt Ideal) arg2.view (Rect.unit (s := S3x1x2x512) ![1, 0, 0, 0] S1x1x2x512.size inb_S3x1x2x512_S1x1x2x512_1_0_0_0).toLoadRect (harg2.unread x1)) (View.readAt (Elt Ideal) arg2.view (Rect.unit (s := S3x1x2x512) ![2, 0, 0, 0] S1x1x2x512.size inb_S3x1x2x512_S1x1x2x512_2_0_0_0).toLoadRect (harg2.unread x1)) (fun j n => (ldR4 arg2 harg2 x1 0 0 0 0 inb_S3x1x2x512_S1x1x2x512_0_0_0_0 (0 : Fin 1) (0 : Fin 1) j n (0 : Fin 3) (0 : Fin 1) j n (by decide) (by decide) (by omega) (by omega)).trans (hx1 0 j n)) (fun j n => (ldR4 arg2 harg2 x1 1 0 0 0 inb_S3x1x2x512_S1x1x2x512_1_0_0_0 (0 : Fin 1) (0 : Fin 1) j n (1 : Fin 3) (0 : Fin 1) j n (by decide) (by decide) (by omega) (by omega)).trans (hx1 1 j n)) (fun j n => (ldR4 arg2 harg2 x1 2 0 0 0 inb_S3x1x2x512_S1x1x2x512_2_0_0_0 (0 : Fin 1) (0 : Fin 1) j n (2 : Fin 3) (0 : Fin 1) j n (by decide) (by decide) (by omega) (by omega)).trans (hx1 2 j n)) (View.readAt (Elt Ideal) arg3.view (Rect.unit (s := S2x2x512x64) ![0, 0, 0, 0] S1x1x512x64.size inb_S2x2x512x64_S1x1x512x64_0_0_0_0).toLoadRect (harg3.unread x2)) (View.readAt (Elt Ideal) arg3.view (Rect.unit (s := S2x2x512x64) ![0, 1, 0, 0] S1x1x512x64.size inb_S2x2x512x64_S1x1x512x64_0_1_0_0).toLoadRect (harg3.unread x2)) (fun n f => (ldR4 arg3 harg3 x2 0 0 0 0 inb_S2x2x512x64_S1x1x512x64_0_0_0_0 (0 : Fin 1) (0 : Fin 1) n f (0 : Fin 2) (0 : Fin 2) n f (by decide) (by decide) (by omega) (by omega)).trans (hx2 0 0 n f)) (fun n f => (ldR4 arg3 harg3 x2 0 1 0 0 inb_S2x2x512x64_S1x1x512x64_0_1_0_0 (0 : Fin 1) (0 : Fin 1) n f (0 : Fin 2) (1 : Fin 2) n f (by decide) (by decide) (by omega) (by omega)).trans (hx2 0 1 n f))
    (View.readAt (Elt Ideal) arg6.view (Rect.unit (s := S1x256) ![0, 0] S1x256.size inb_S1x256_S1x256_0_0).toLoadRect (harg6.unread x5)) (View.readAt (Elt Ideal) arg4.view (Rect.unit (s := S6x256) ![0, 0] S6x256.size inb_S6x256_S6x256_0_0).toLoadRect (harg4.unread x3)) (View.readAt (Elt Ideal) arg5.view (Rect.unit (s := S3x128x256) ![0, 0, 0] S1x128x256.size inb_S3x128x256_S1x128x256_0_0_0).toLoadRect (harg5.unread x4)) (View.readAt (Elt Ideal) arg5.view (Rect.unit (s := S3x128x256) ![1, 0, 0] S1x128x256.size inb_S3x128x256_S1x128x256_1_0_0).toLoadRect (harg5.unread x4)) (View.readAt (Elt Ideal) arg5.view (Rect.unit (s := S3x128x256) ![2, 0, 0] S1x128x256.size inb_S3x128x256_S1x128x256_2_0_0).toLoadRect (harg5.unread x4)) (fun c' => (ldR2 arg6 harg6 x5 0 0 inb_S1x256_S1x256_0_0 (0 : Fin 1) c' (0 : Fin 1) c' (by omega) (by omega)).trans (hx5 c')) (fun a b => (ldR2 arg4 harg4 x3 0 0 inb_S6x256_S6x256_0_0 a b a b (by omega) (by omega)).trans (hx3 a b)) (fun i c' => (ldR3 arg5 harg5 x4 0 0 0 inb_S3x128x256_S1x128x256_0_0_0 (0 : Fin 1) i c' (0 : Fin 3) i c' (by decide) (by omega) (by omega)).trans (hx4 0 i c')) (fun i c' => (ldR3 arg5 harg5 x4 1 0 0 inb_S3x128x256_S1x128x256_1_0_0 (0 : Fin 1) i c' (1 : Fin 3) i c' (by decide) (by omega) (by omega)).trans (hx4 1 i c')) (fun i c' => (ldR3 arg5 harg5 x4 2 0 0 inb_S3x128x256_S1x128x256_2_0_0 (0 : Fin 1) i c' (2 : Fin 3) i c' (by decide) (by omega) (by omega)).trans (hx4 2 i c'))
    (View.readAt (Elt Ideal) arg9.view (Rect.unit (s := S1x128) ![0, 0] S1x128.size inb_S1x128_S1x128_0_0).toLoadRect (harg9.unread x8)) (View.readAt (Elt Ideal) arg7.view (Rect.unit (s := S6x128) ![0, 0] S6x128.size inb_S6x128_S6x128_0_0).toLoadRect (harg7.unread x6)) (View.readAt (Elt Ideal) arg8.view (Rect.unit (s := S3x128x128) ![0, 0, 0] S1x128x128.size inb_S3x128x128_S1x128x128_0_0_0).toLoadRect (harg8.unread x7)) (View.readAt (Elt Ideal) arg8.view (Rect.unit (s := S3x128x128) ![1, 0, 0] S1x128x128.size inb_S3x128x128_S1x128x128_1_0_0).toLoadRect (harg8.unread x7)) (View.readAt (Elt Ideal) arg8.view (Rect.unit (s := S3x128x128) ![2, 0, 0] S1x128x128.size inb_S3x128x128_S1x128x128_2_0_0).toLoadRect (harg8.unread x7)) (fun c' => (ldR2 arg9 harg9 x8 0 0 inb_S1x128_S1x128_0_0 (0 : Fin 1) c' (0 : Fin 1) c' (by omega) (by omega)).trans (hx8 c')) (fun a b => (ldR2 arg7 harg7 x6 0 0 inb_S6x128_S6x128_0_0 a b a b (by omega) (by omega)).trans (hx6 a b)) (fun i c' => (ldR3 arg8 harg8 x7 0 0 0 inb_S3x128x128_S1x128x128_0_0_0 (0 : Fin 1) i c' (0 : Fin 3) i c' (by decide) (by omega) (by omega)).trans (hx7 0 i c')) (fun i c' => (ldR3 arg8 harg8 x7 1 0 0 inb_S3x128x128_S1x128x128_1_0_0 (0 : Fin 1) i c' (1 : Fin 3) i c' (by decide) (by omega) (by omega)).trans (hx7 1 i c')) (fun i c' => (ldR3 arg8 harg8 x7 2 0 0 inb_S3x128x128_S1x128x128_2_0_0 (0 : Fin 1) i c' (2 : Fin 3) i c' (by decide) (by omega) (by omega)).trans (hx7 2 i c')) n f

include hx0 hx1 hx2 hx3 hx4 hx5 hx6 hx7 hx8 in

theorem body_h0_1 (n : Fin 512) (f : Fin 64) :
    k1_pay19 (F := Ideal) (kernelRun1.sl.r_2 c arg3 harg3 x2) (kernelRun1.sl.r_5 c arg1 harg1 arg2 harg2 arg3 harg3 arg4 harg4 arg5 harg5 arg6 harg6 x0 x1 x2 x3 x4 x5) (kernelRun1.sl.r_6 c arg1 harg1 arg2 harg2 arg3 harg3 arg4 harg4 arg5 harg5 arg6 harg6 x0 x1 x2 x3 x4 x5) (kernelRun1.sl.r_7 c arg1 harg1 arg2 harg2 arg3 harg3 arg4 harg4 arg5 harg5 arg6 harg6 arg7 harg7 arg8 harg8 arg9 harg9 x0 x1 x2 x3 x4 x5 x6 x7 x8) (kernelRun1.sl.r_8 c arg1 harg1 arg2 harg2 arg3 harg3 arg4 harg4 arg5 harg5 arg6 harg6 x0 x1 x2 x3 x4 x5) k1_pay16 (View.readAt (Elt Ideal) arg8.view (Rect.unit (s := S3x128x128) ![2, 0, 0] S1x128x128.size inb_S3x128x128_S1x128x128_2_0_0).toLoadRect (harg8.unread x7)) (ix4 (0 : Fin 1) (0 : Fin 1) n f)
      = h0 A ⟨2 * p.val + 1, by have := p.isLt; omega⟩ f n := by
  unfold kernelRun1.sl.r_8 kernelRun1.sl.r_7 kernelRun1.sl.r_6 kernelRun1.sl.r_5 kernelRun1.sl.r_4 kernelRun1.sl.r_3 kernelRun1.sl.r_2 kernelRun1.sl.r_1 kernelRun1.sl.r
  exact main_hid0_1 A p (View.readAt (Elt Ideal) arg1.view (Rect.unit (s := S512x512) ![0, 0] S512x512.size inb_S512x512_S512x512_0_0).toLoadRect (harg1.unread x0)) (fun a b => (ldR2 arg1 harg1 x0 0 0 inb_S512x512_S512x512_0_0 a b a b (by omega) (by omega)).trans (hx0 a b)) (View.readAt (Elt Ideal) arg2.view (Rect.unit (s := S3x1x2x512) ![0, 0, 0, 0] S1x1x2x512.size inb_S3x1x2x512_S1x1x2x512_0_0_0_0).toLoadRect (harg2.unread x1)) (View.readAt (Elt Ideal) arg2.view (Rect.unit (s := S3x1x2x512) ![1, 0, 0, 0] S1x1x2x512.size inb_S3x1x2x512_S1x1x2x512_1_0_0_0).toLoadRect (harg2.unread x1)) (View.readAt (Elt Ideal) arg2.view (Rect.unit (s := S3x1x2x512) ![2, 0, 0, 0] S1x1x2x512.size inb_S3x1x2x512_S1x1x2x512_2_0_0_0).toLoadRect (harg2.unread x1)) (fun j n => (ldR4 arg2 harg2 x1 0 0 0 0 inb_S3x1x2x512_S1x1x2x512_0_0_0_0 (0 : Fin 1) (0 : Fin 1) j n (0 : Fin 3) (0 : Fin 1) j n (by decide) (by decide) (by omega) (by omega)).trans (hx1 0 j n)) (fun j n => (ldR4 arg2 harg2 x1 1 0 0 0 inb_S3x1x2x512_S1x1x2x512_1_0_0_0 (0 : Fin 1) (0 : Fin 1) j n (1 : Fin 3) (0 : Fin 1) j n (by decide) (by decide) (by omega) (by omega)).trans (hx1 1 j n)) (fun j n => (ldR4 arg2 harg2 x1 2 0 0 0 inb_S3x1x2x512_S1x1x2x512_2_0_0_0 (0 : Fin 1) (0 : Fin 1) j n (2 : Fin 3) (0 : Fin 1) j n (by decide) (by decide) (by omega) (by omega)).trans (hx1 2 j n)) (View.readAt (Elt Ideal) arg3.view (Rect.unit (s := S2x2x512x64) ![0, 0, 0, 0] S1x1x512x64.size inb_S2x2x512x64_S1x1x512x64_0_0_0_0).toLoadRect (harg3.unread x2)) (View.readAt (Elt Ideal) arg3.view (Rect.unit (s := S2x2x512x64) ![0, 1, 0, 0] S1x1x512x64.size inb_S2x2x512x64_S1x1x512x64_0_1_0_0).toLoadRect (harg3.unread x2)) (fun n f => (ldR4 arg3 harg3 x2 0 0 0 0 inb_S2x2x512x64_S1x1x512x64_0_0_0_0 (0 : Fin 1) (0 : Fin 1) n f (0 : Fin 2) (0 : Fin 2) n f (by decide) (by decide) (by omega) (by omega)).trans (hx2 0 0 n f)) (fun n f => (ldR4 arg3 harg3 x2 0 1 0 0 inb_S2x2x512x64_S1x1x512x64_0_1_0_0 (0 : Fin 1) (0 : Fin 1) n f (0 : Fin 2) (1 : Fin 2) n f (by decide) (by decide) (by omega) (by omega)).trans (hx2 0 1 n f))
    (View.readAt (Elt Ideal) arg6.view (Rect.unit (s := S1x256) ![0, 0] S1x256.size inb_S1x256_S1x256_0_0).toLoadRect (harg6.unread x5)) (View.readAt (Elt Ideal) arg4.view (Rect.unit (s := S6x256) ![0, 0] S6x256.size inb_S6x256_S6x256_0_0).toLoadRect (harg4.unread x3)) (View.readAt (Elt Ideal) arg5.view (Rect.unit (s := S3x128x256) ![0, 0, 0] S1x128x256.size inb_S3x128x256_S1x128x256_0_0_0).toLoadRect (harg5.unread x4)) (View.readAt (Elt Ideal) arg5.view (Rect.unit (s := S3x128x256) ![1, 0, 0] S1x128x256.size inb_S3x128x256_S1x128x256_1_0_0).toLoadRect (harg5.unread x4)) (View.readAt (Elt Ideal) arg5.view (Rect.unit (s := S3x128x256) ![2, 0, 0] S1x128x256.size inb_S3x128x256_S1x128x256_2_0_0).toLoadRect (harg5.unread x4)) (fun c' => (ldR2 arg6 harg6 x5 0 0 inb_S1x256_S1x256_0_0 (0 : Fin 1) c' (0 : Fin 1) c' (by omega) (by omega)).trans (hx5 c')) (fun a b => (ldR2 arg4 harg4 x3 0 0 inb_S6x256_S6x256_0_0 a b a b (by omega) (by omega)).trans (hx3 a b)) (fun i c' => (ldR3 arg5 harg5 x4 0 0 0 inb_S3x128x256_S1x128x256_0_0_0 (0 : Fin 1) i c' (0 : Fin 3) i c' (by decide) (by omega) (by omega)).trans (hx4 0 i c')) (fun i c' => (ldR3 arg5 harg5 x4 1 0 0 inb_S3x128x256_S1x128x256_1_0_0 (0 : Fin 1) i c' (1 : Fin 3) i c' (by decide) (by omega) (by omega)).trans (hx4 1 i c')) (fun i c' => (ldR3 arg5 harg5 x4 2 0 0 inb_S3x128x256_S1x128x256_2_0_0 (0 : Fin 1) i c' (2 : Fin 3) i c' (by decide) (by omega) (by omega)).trans (hx4 2 i c'))
    (View.readAt (Elt Ideal) arg9.view (Rect.unit (s := S1x128) ![0, 0] S1x128.size inb_S1x128_S1x128_0_0).toLoadRect (harg9.unread x8)) (View.readAt (Elt Ideal) arg7.view (Rect.unit (s := S6x128) ![0, 0] S6x128.size inb_S6x128_S6x128_0_0).toLoadRect (harg7.unread x6)) (View.readAt (Elt Ideal) arg8.view (Rect.unit (s := S3x128x128) ![0, 0, 0] S1x128x128.size inb_S3x128x128_S1x128x128_0_0_0).toLoadRect (harg8.unread x7)) (View.readAt (Elt Ideal) arg8.view (Rect.unit (s := S3x128x128) ![1, 0, 0] S1x128x128.size inb_S3x128x128_S1x128x128_1_0_0).toLoadRect (harg8.unread x7)) (View.readAt (Elt Ideal) arg8.view (Rect.unit (s := S3x128x128) ![2, 0, 0] S1x128x128.size inb_S3x128x128_S1x128x128_2_0_0).toLoadRect (harg8.unread x7)) (fun c' => (ldR2 arg9 harg9 x8 0 0 inb_S1x128_S1x128_0_0 (0 : Fin 1) c' (0 : Fin 1) c' (by omega) (by omega)).trans (hx8 c')) (fun a b => (ldR2 arg7 harg7 x6 0 0 inb_S6x128_S6x128_0_0 a b a b (by omega) (by omega)).trans (hx6 a b)) (fun i c' => (ldR3 arg8 harg8 x7 0 0 0 inb_S3x128x128_S1x128x128_0_0_0 (0 : Fin 1) i c' (0 : Fin 3) i c' (by decide) (by omega) (by omega)).trans (hx7 0 i c')) (fun i c' => (ldR3 arg8 harg8 x7 1 0 0 inb_S3x128x128_S1x128x128_1_0_0 (0 : Fin 1) i c' (1 : Fin 3) i c' (by decide) (by omega) (by omega)).trans (hx7 1 i c')) (fun i c' => (ldR3 arg8 harg8 x7 2 0 0 inb_S3x128x128_S1x128x128_2_0_0 (0 : Fin 1) i c' (2 : Fin 3) i c' (by decide) (by omega) (by omega)).trans (hx7 2 i c')) n f

include hx0 hx1 hx2 hx3 hx4 hx5 hx6 hx7 hx8 hx9 in

theorem body_v90 : ∀ (n : Fin 512) (c' : Fin 256), (kernelRun1.sl.r_11 c arg1 harg1 arg2 harg2 arg3 harg3 arg4 harg4 arg5 harg5 arg6 harg6 arg7 harg7 arg8 harg8 arg9 harg9 arg10 harg10 x0 x1 x2 x3 x4 x5 x6 x7 x8 x9) (ix2 n c')
    = ∑ f : Fin 64, h0 A (pb p (ruElt c')) f n * Wru1 A (Fin.castAdd 64 f) 0 (ruCol c') := by
  intro n c'
  have h72 : Holds (kernelRun1.sl.r_9 c arg1 harg1 arg2 harg2 arg3 harg3 arg4 harg4 arg5 harg5 arg6 harg6 arg7 harg7 arg8 harg8 arg9 harg9 x0 x1 x2 x3 x4 x5 x6 x7 x8) (fun e => h0 A (pb p e)) := fun n c'' =>
    body_h0tile A p c arg1 harg1 arg2 harg2 arg3 harg3 arg4 harg4 arg5 harg5 arg6 harg6 arg7 harg7 arg8 harg8 arg9 harg9 x0 x1 x2 x3 x4 x5 x6 x7 x8 hx0 hx1 hx2 hx3 hx4 hx5 hx6 hx7 hx8 n c''
  unfold kernelRun1.sl.r_9 at h72
  unfold kernelRun1.sl.r_11
  exact pay21_apply A p _ _ _ _ _ _ _ _ h72 (fun i c' => (ldR3 arg10 harg10 x9 0 0 0 inb_S3x128x256_S1x128x256_0_0_0 (0 : Fin 1) i c' (0 : Fin 3) i c' (by decide) (by omega) (by omega)).trans (hx9 0 i c')) n c'

include hx0 hx1 hx2 hx3 hx4 hx5 hx6 hx7 hx8 hx9 hx10 hx11 hx12 hx13 hx14 hx15 hx16 in

theorem body_h1_0 (n : Fin 512) (f : Fin 64) :
    k1_pay2 (F := Ideal) (kernelRun1.sl.r_10 c arg3 harg3 x2) (kernelRun1.sl.r_15 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun1.sl.r_17 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (ix4 (0 : Fin 1) (0 : Fin 1) n f)
      = h1 A ⟨2 * p.val, by have := p.isLt; omega⟩ f n := by
  unfold kernelRun1.sl.r_17 kernelRun1.sl.r_16 kernelRun1.sl.r_15 kernelRun1.sl.r_14 kernelRun1.sl.r_13 kernelRun1.sl.r_12 kernelRun1.sl.r_10
  exact main_hid1_0 A p (kernelRun1.sl.r c arg1 harg1 x0) (body_sup A c arg1 harg1 x0 hx0) (kernelRun1.sl.r_9 c arg1 harg1 arg2 harg2 arg3 harg3 arg4 harg4 arg5 harg5 arg6 harg6 arg7 harg7 arg8 harg8 arg9 harg9 x0 x1 x2 x3 x4 x5 x6 x7 x8) (body_h0tile A p c arg1 harg1 arg2 harg2 arg3 harg3 arg4 harg4 arg5 harg5 arg6 harg6 arg7 harg7 arg8 harg8 arg9 harg9 x0 x1 x2 x3 x4 x5 x6 x7 x8 hx0 hx1 hx2 hx3 hx4 hx5 hx6 hx7 hx8)
    (View.readAt (Elt Ideal) arg3.view (Rect.unit (s := S2x2x512x64) ![1, 0, 0, 0] S1x1x512x64.size inb_S2x2x512x64_S1x1x512x64_1_0_0_0).toLoadRect (harg3.unread x2)) (View.readAt (Elt Ideal) arg3.view (Rect.unit (s := S2x2x512x64) ![1, 1, 0, 0] S1x1x512x64.size inb_S2x2x512x64_S1x1x512x64_1_1_0_0).toLoadRect (harg3.unread x2)) (fun n f => (ldR4 arg3 harg3 x2 1 0 0 0 inb_S2x2x512x64_S1x1x512x64_1_0_0_0 (0 : Fin 1) (0 : Fin 1) n f (1 : Fin 2) (0 : Fin 2) n f (by decide) (by decide) (by omega) (by omega)).trans (hx2 1 0 n f)) (fun n f => (ldR4 arg3 harg3 x2 1 1 0 0 inb_S2x2x512x64_S1x1x512x64_1_1_0_0 (0 : Fin 1) (0 : Fin 1) n f (1 : Fin 2) (1 : Fin 2) n f (by decide) (by decide) (by omega) (by omega)).trans (hx2 1 1 n f))
    (kernelRun1.sl.r_11 c arg1 harg1 arg2 harg2 arg3 harg3 arg4 harg4 arg5 harg5 arg6 harg6 arg7 harg7 arg8 harg8 arg9 harg9 arg10 harg10 x0 x1 x2 x3 x4 x5 x6 x7 x8 x9) (body_v90 A p c arg1 harg1 arg2 harg2 arg3 harg3 arg4 harg4 arg5 harg5 arg6 harg6 arg7 harg7 arg8 harg8 arg9 harg9 arg10 harg10 x0 x1 x2 x3 x4 x5 x6 x7 x8 x9 hx0 hx1 hx2 hx3 hx4 hx5 hx6 hx7 hx8 hx9)
    (View.readAt (Elt Ideal) arg12.view (Rect.unit (s := S1x256) ![0, 0] S1x256.size inb_S1x256_S1x256_0_0).toLoadRect (harg12.unread x11)) (fun c' => (ldR2 arg12 harg12 x11 0 0 inb_S1x256_S1x256_0_0 (0 : Fin 1) c' (0 : Fin 1) c' (by omega) (by omega)).trans (hx11 c')) (View.readAt (Elt Ideal) arg11.view (Rect.unit (s := S3x128x256) ![0, 0, 0] S1x128x256.size inb_S3x128x256_S1x128x256_0_0_0).toLoadRect (harg11.unread x10)) (View.readAt (Elt Ideal) arg10.view (Rect.unit (s := S3x128x256) ![1, 0, 0] S1x128x256.size inb_S3x128x256_S1x128x256_1_0_0).toLoadRect (harg10.unread x9)) (View.readAt (Elt Ideal) arg11.view (Rect.unit (s := S3x128x256) ![1, 0, 0] S1x128x256.size inb_S3x128x256_S1x128x256_1_0_0).toLoadRect (harg11.unread x10)) (View.readAt (Elt Ideal) arg10.view (Rect.unit (s := S3x128x256) ![2, 0, 0] S1x128x256.size inb_S3x128x256_S1x128x256_2_0_0).toLoadRect (harg10.unread x9)) (View.readAt (Elt Ideal) arg11.view (Rect.unit (s := S3x128x256) ![2, 0, 0] S1x128x256.size inb_S3x128x256_S1x128x256_2_0_0).toLoadRect (harg11.unread x10)) (fun i c' => (ldR3 arg11 harg11 x10 0 0 0 inb_S3x128x256_S1x128x256_0_0_0 (0 : Fin 1) i c' (0 : Fin 3) i c' (by decide) (by omega) (by omega)).trans (hx10 0 i c')) (fun i c' => (ldR3 arg10 harg10 x9 1 0 0 inb_S3x128x256_S1x128x256_1_0_0 (0 : Fin 1) i c' (1 : Fin 3) i c' (by decide) (by omega) (by omega)).trans (hx9 1 i c')) (fun i c' => (ldR3 arg11 harg11 x10 1 0 0 inb_S3x128x256_S1x128x256_1_0_0 (0 : Fin 1) i c' (1 : Fin 3) i c' (by decide) (by omega) (by omega)).trans (hx10 1 i c')) (fun i c' => (ldR3 arg10 harg10 x9 2 0 0 inb_S3x128x256_S1x128x256_2_0_0 (0 : Fin 1) i c' (2 : Fin 3) i c' (by decide) (by omega) (by omega)).trans (hx9 2 i c')) (fun i c' => (ldR3 arg11 harg11 x10 2 0 0 inb_S3x128x256_S1x128x256_2_0_0 (0 : Fin 1) i c' (2 : Fin 3) i c' (by decide) (by omega) (by omega)).trans (hx10 2 i c'))
    (View.readAt (Elt Ideal) arg15.view (Rect.unit (s := S1x128) ![0, 0] S1x128.size inb_S1x128_S1x128_0_0).toLoadRect (harg15.unread x14)) (fun c' => (ldR2 arg15 harg15 x14 0 0 inb_S1x128_S1x128_0_0 (0 : Fin 1) c' (0 : Fin 1) c' (by omega) (by omega)).trans (hx14 c')) (View.readAt (Elt Ideal) arg13.view (Rect.unit (s := S3x128x128) ![0, 0, 0] S1x128x128.size inb_S3x128x128_S1x128x128_0_0_0).toLoadRect (harg13.unread x12)) (View.readAt (Elt Ideal) arg13.view (Rect.unit (s := S3x128x128) ![1, 0, 0] S1x128x128.size inb_S3x128x128_S1x128x128_1_0_0).toLoadRect (harg13.unread x12)) (View.readAt (Elt Ideal) arg13.view (Rect.unit (s := S3x128x128) ![2, 0, 0] S1x128x128.size inb_S3x128x128_S1x128x128_2_0_0).toLoadRect (harg13.unread x12)) (View.readAt (Elt Ideal) arg14.view (Rect.unit (s := S3x128x128) ![0, 0, 0] S1x128x128.size inb_S3x128x128_S1x128x128_0_0_0).toLoadRect (harg14.unread x13)) (View.readAt (Elt Ideal) arg14.view (Rect.unit (s := S3x128x128) ![1, 0, 0] S1x128x128.size inb_S3x128x128_S1x128x128_1_0_0).toLoadRect (harg14.unread x13)) (View.readAt (Elt Ideal) arg14.view (Rect.unit (s := S3x128x128) ![2, 0, 0] S1x128x128.size inb_S3x128x128_S1x128x128_2_0_0).toLoadRect (harg14.unread x13)) (fun i c' => (ldR3 arg13 harg13 x12 0 0 0 inb_S3x128x128_S1x128x128_0_0_0 (0 : Fin 1) i c' (0 : Fin 3) i c' (by decide) (by omega) (by omega)).trans (hx12 0 i c')) (fun i c' => (ldR3 arg13 harg13 x12 1 0 0 inb_S3x128x128_S1x128x128_1_0_0 (0 : Fin 1) i c' (1 : Fin 3) i c' (by decide) (by omega) (by omega)).trans (hx12 1 i c')) (fun i c' => (ldR3 arg13 harg13 x12 2 0 0 inb_S3x128x128_S1x128x128_2_0_0 (0 : Fin 1) i c' (2 : Fin 3) i c' (by decide) (by omega) (by omega)).trans (hx12 2 i c')) (fun i c' => (ldR3 arg14 harg14 x13 0 0 0 inb_S3x128x128_S1x128x128_0_0_0 (0 : Fin 1) i c' (0 : Fin 3) i c' (by decide) (by omega) (by omega)).trans (hx13 0 i c')) (fun i c' => (ldR3 arg14 harg14 x13 1 0 0 inb_S3x128x128_S1x128x128_1_0_0 (0 : Fin 1) i c' (1 : Fin 3) i c' (by decide) (by omega) (by omega)).trans (hx13 1 i c')) (fun i c' => (ldR3 arg14 harg14 x13 2 0 0 inb_S3x128x128_S1x128x128_2_0_0 (0 : Fin 1) i c' (2 : Fin 3) i c' (by decide) (by omega) (by omega)).trans (hx13 2 i c')) n f

include hx0 hx1 hx2 hx3 hx4 hx5 hx6 hx7 hx8 hx9 hx10 hx11 hx12 hx13 hx14 hx15 hx16 in

theorem body_h1_1 (n : Fin 512) (f : Fin 64) :
    k1_pay3 (F := Ideal) (kernelRun1.sl.r_10 c arg3 harg3 x2) (kernelRun1.sl.r_15 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun1.sl.r_17 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (ix4 (0 : Fin 1) (0 : Fin 1) n f)
      = h1 A ⟨2 * p.val + 1, by have := p.isLt; omega⟩ f n := by
  unfold kernelRun1.sl.r_17 kernelRun1.sl.r_16 kernelRun1.sl.r_15 kernelRun1.sl.r_14 kernelRun1.sl.r_13 kernelRun1.sl.r_12 kernelRun1.sl.r_10
  exact main_hid1_1 A p (kernelRun1.sl.r c arg1 harg1 x0) (body_sup A c arg1 harg1 x0 hx0) (kernelRun1.sl.r_9 c arg1 harg1 arg2 harg2 arg3 harg3 arg4 harg4 arg5 harg5 arg6 harg6 arg7 harg7 arg8 harg8 arg9 harg9 x0 x1 x2 x3 x4 x5 x6 x7 x8) (body_h0tile A p c arg1 harg1 arg2 harg2 arg3 harg3 arg4 harg4 arg5 harg5 arg6 harg6 arg7 harg7 arg8 harg8 arg9 harg9 x0 x1 x2 x3 x4 x5 x6 x7 x8 hx0 hx1 hx2 hx3 hx4 hx5 hx6 hx7 hx8)
    (View.readAt (Elt Ideal) arg3.view (Rect.unit (s := S2x2x512x64) ![1, 0, 0, 0] S1x1x512x64.size inb_S2x2x512x64_S1x1x512x64_1_0_0_0).toLoadRect (harg3.unread x2)) (View.readAt (Elt Ideal) arg3.view (Rect.unit (s := S2x2x512x64) ![1, 1, 0, 0] S1x1x512x64.size inb_S2x2x512x64_S1x1x512x64_1_1_0_0).toLoadRect (harg3.unread x2)) (fun n f => (ldR4 arg3 harg3 x2 1 0 0 0 inb_S2x2x512x64_S1x1x512x64_1_0_0_0 (0 : Fin 1) (0 : Fin 1) n f (1 : Fin 2) (0 : Fin 2) n f (by decide) (by decide) (by omega) (by omega)).trans (hx2 1 0 n f)) (fun n f => (ldR4 arg3 harg3 x2 1 1 0 0 inb_S2x2x512x64_S1x1x512x64_1_1_0_0 (0 : Fin 1) (0 : Fin 1) n f (1 : Fin 2) (1 : Fin 2) n f (by decide) (by decide) (by omega) (by omega)).trans (hx2 1 1 n f))
    (kernelRun1.sl.r_11 c arg1 harg1 arg2 harg2 arg3 harg3 arg4 harg4 arg5 harg5 arg6 harg6 arg7 harg7 arg8 harg8 arg9 harg9 arg10 harg10 x0 x1 x2 x3 x4 x5 x6 x7 x8 x9) (body_v90 A p c arg1 harg1 arg2 harg2 arg3 harg3 arg4 harg4 arg5 harg5 arg6 harg6 arg7 harg7 arg8 harg8 arg9 harg9 arg10 harg10 x0 x1 x2 x3 x4 x5 x6 x7 x8 x9 hx0 hx1 hx2 hx3 hx4 hx5 hx6 hx7 hx8 hx9)
    (View.readAt (Elt Ideal) arg12.view (Rect.unit (s := S1x256) ![0, 0] S1x256.size inb_S1x256_S1x256_0_0).toLoadRect (harg12.unread x11)) (fun c' => (ldR2 arg12 harg12 x11 0 0 inb_S1x256_S1x256_0_0 (0 : Fin 1) c' (0 : Fin 1) c' (by omega) (by omega)).trans (hx11 c')) (View.readAt (Elt Ideal) arg11.view (Rect.unit (s := S3x128x256) ![0, 0, 0] S1x128x256.size inb_S3x128x256_S1x128x256_0_0_0).toLoadRect (harg11.unread x10)) (View.readAt (Elt Ideal) arg10.view (Rect.unit (s := S3x128x256) ![1, 0, 0] S1x128x256.size inb_S3x128x256_S1x128x256_1_0_0).toLoadRect (harg10.unread x9)) (View.readAt (Elt Ideal) arg11.view (Rect.unit (s := S3x128x256) ![1, 0, 0] S1x128x256.size inb_S3x128x256_S1x128x256_1_0_0).toLoadRect (harg11.unread x10)) (View.readAt (Elt Ideal) arg10.view (Rect.unit (s := S3x128x256) ![2, 0, 0] S1x128x256.size inb_S3x128x256_S1x128x256_2_0_0).toLoadRect (harg10.unread x9)) (View.readAt (Elt Ideal) arg11.view (Rect.unit (s := S3x128x256) ![2, 0, 0] S1x128x256.size inb_S3x128x256_S1x128x256_2_0_0).toLoadRect (harg11.unread x10)) (fun i c' => (ldR3 arg11 harg11 x10 0 0 0 inb_S3x128x256_S1x128x256_0_0_0 (0 : Fin 1) i c' (0 : Fin 3) i c' (by decide) (by omega) (by omega)).trans (hx10 0 i c')) (fun i c' => (ldR3 arg10 harg10 x9 1 0 0 inb_S3x128x256_S1x128x256_1_0_0 (0 : Fin 1) i c' (1 : Fin 3) i c' (by decide) (by omega) (by omega)).trans (hx9 1 i c')) (fun i c' => (ldR3 arg11 harg11 x10 1 0 0 inb_S3x128x256_S1x128x256_1_0_0 (0 : Fin 1) i c' (1 : Fin 3) i c' (by decide) (by omega) (by omega)).trans (hx10 1 i c')) (fun i c' => (ldR3 arg10 harg10 x9 2 0 0 inb_S3x128x256_S1x128x256_2_0_0 (0 : Fin 1) i c' (2 : Fin 3) i c' (by decide) (by omega) (by omega)).trans (hx9 2 i c')) (fun i c' => (ldR3 arg11 harg11 x10 2 0 0 inb_S3x128x256_S1x128x256_2_0_0 (0 : Fin 1) i c' (2 : Fin 3) i c' (by decide) (by omega) (by omega)).trans (hx10 2 i c'))
    (View.readAt (Elt Ideal) arg15.view (Rect.unit (s := S1x128) ![0, 0] S1x128.size inb_S1x128_S1x128_0_0).toLoadRect (harg15.unread x14)) (fun c' => (ldR2 arg15 harg15 x14 0 0 inb_S1x128_S1x128_0_0 (0 : Fin 1) c' (0 : Fin 1) c' (by omega) (by omega)).trans (hx14 c')) (View.readAt (Elt Ideal) arg13.view (Rect.unit (s := S3x128x128) ![0, 0, 0] S1x128x128.size inb_S3x128x128_S1x128x128_0_0_0).toLoadRect (harg13.unread x12)) (View.readAt (Elt Ideal) arg13.view (Rect.unit (s := S3x128x128) ![1, 0, 0] S1x128x128.size inb_S3x128x128_S1x128x128_1_0_0).toLoadRect (harg13.unread x12)) (View.readAt (Elt Ideal) arg13.view (Rect.unit (s := S3x128x128) ![2, 0, 0] S1x128x128.size inb_S3x128x128_S1x128x128_2_0_0).toLoadRect (harg13.unread x12)) (View.readAt (Elt Ideal) arg14.view (Rect.unit (s := S3x128x128) ![0, 0, 0] S1x128x128.size inb_S3x128x128_S1x128x128_0_0_0).toLoadRect (harg14.unread x13)) (View.readAt (Elt Ideal) arg14.view (Rect.unit (s := S3x128x128) ![1, 0, 0] S1x128x128.size inb_S3x128x128_S1x128x128_1_0_0).toLoadRect (harg14.unread x13)) (View.readAt (Elt Ideal) arg14.view (Rect.unit (s := S3x128x128) ![2, 0, 0] S1x128x128.size inb_S3x128x128_S1x128x128_2_0_0).toLoadRect (harg14.unread x13)) (fun i c' => (ldR3 arg13 harg13 x12 0 0 0 inb_S3x128x128_S1x128x128_0_0_0 (0 : Fin 1) i c' (0 : Fin 3) i c' (by decide) (by omega) (by omega)).trans (hx12 0 i c')) (fun i c' => (ldR3 arg13 harg13 x12 1 0 0 inb_S3x128x128_S1x128x128_1_0_0 (0 : Fin 1) i c' (1 : Fin 3) i c' (by decide) (by omega) (by omega)).trans (hx12 1 i c')) (fun i c' => (ldR3 arg13 harg13 x12 2 0 0 inb_S3x128x128_S1x128x128_2_0_0 (0 : Fin 1) i c' (2 : Fin 3) i c' (by decide) (by omega) (by omega)).trans (hx12 2 i c')) (fun i c' => (ldR3 arg14 harg14 x13 0 0 0 inb_S3x128x128_S1x128x128_0_0_0 (0 : Fin 1) i c' (0 : Fin 3) i c' (by decide) (by omega) (by omega)).trans (hx13 0 i c')) (fun i c' => (ldR3 arg14 harg14 x13 1 0 0 inb_S3x128x128_S1x128x128_1_0_0 (0 : Fin 1) i c' (1 : Fin 3) i c' (by decide) (by omega) (by omega)).trans (hx13 1 i c')) (fun i c' => (ldR3 arg14 harg14 x13 2 0 0 inb_S3x128x128_S1x128x128_2_0_0 (0 : Fin 1) i c' (2 : Fin 3) i c' (by decide) (by omega) (by omega)).trans (hx13 2 i c')) n f

include hx0 hx1 hx2 hx3 hx4 hx5 hx6 hx7 hx8 hx9 hx10 hx11 hx12 hx13 hx14 hx15 hx16 in

theorem body_out (j : Fin 2) (n : Fin 512) :
    k1_pay4 (F := Ideal) (kernelRun1.sl.r_10 c arg3 harg3 x2) (kernelRun1.sl.r_15 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun1.sl.r_17 c arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) x15 x16 (ix3 (0 : Fin 1) j n)
      = out A ⟨2 * p.val + j.val, by have := p.isLt; have := j.isLt; omega⟩ n := by
  unfold kernelRun1.sl.r_17 kernelRun1.sl.r_16 kernelRun1.sl.r_15 kernelRun1.sl.r_14 kernelRun1.sl.r_13 kernelRun1.sl.r_12 kernelRun1.sl.r_10
  exact main_out A p (kernelRun1.sl.r c arg1 harg1 x0) (body_sup A c arg1 harg1 x0 hx0) (kernelRun1.sl.r_9 c arg1 harg1 arg2 harg2 arg3 harg3 arg4 harg4 arg5 harg5 arg6 harg6 arg7 harg7 arg8 harg8 arg9 harg9 x0 x1 x2 x3 x4 x5 x6 x7 x8) (body_h0tile A p c arg1 harg1 arg2 harg2 arg3 harg3 arg4 harg4 arg5 harg5 arg6 harg6 arg7 harg7 arg8 harg8 arg9 harg9 x0 x1 x2 x3 x4 x5 x6 x7 x8 hx0 hx1 hx2 hx3 hx4 hx5 hx6 hx7 hx8)
    (View.readAt (Elt Ideal) arg3.view (Rect.unit (s := S2x2x512x64) ![1, 0, 0, 0] S1x1x512x64.size inb_S2x2x512x64_S1x1x512x64_1_0_0_0).toLoadRect (harg3.unread x2)) (View.readAt (Elt Ideal) arg3.view (Rect.unit (s := S2x2x512x64) ![1, 1, 0, 0] S1x1x512x64.size inb_S2x2x512x64_S1x1x512x64_1_1_0_0).toLoadRect (harg3.unread x2)) (fun n f => (ldR4 arg3 harg3 x2 1 0 0 0 inb_S2x2x512x64_S1x1x512x64_1_0_0_0 (0 : Fin 1) (0 : Fin 1) n f (1 : Fin 2) (0 : Fin 2) n f (by decide) (by decide) (by omega) (by omega)).trans (hx2 1 0 n f)) (fun n f => (ldR4 arg3 harg3 x2 1 1 0 0 inb_S2x2x512x64_S1x1x512x64_1_1_0_0 (0 : Fin 1) (0 : Fin 1) n f (1 : Fin 2) (1 : Fin 2) n f (by decide) (by decide) (by omega) (by omega)).trans (hx2 1 1 n f))
    (kernelRun1.sl.r_11 c arg1 harg1 arg2 harg2 arg3 harg3 arg4 harg4 arg5 harg5 arg6 harg6 arg7 harg7 arg8 harg8 arg9 harg9 arg10 harg10 x0 x1 x2 x3 x4 x5 x6 x7 x8 x9) (body_v90 A p c arg1 harg1 arg2 harg2 arg3 harg3 arg4 harg4 arg5 harg5 arg6 harg6 arg7 harg7 arg8 harg8 arg9 harg9 arg10 harg10 x0 x1 x2 x3 x4 x5 x6 x7 x8 x9 hx0 hx1 hx2 hx3 hx4 hx5 hx6 hx7 hx8 hx9)
    (View.readAt (Elt Ideal) arg12.view (Rect.unit (s := S1x256) ![0, 0] S1x256.size inb_S1x256_S1x256_0_0).toLoadRect (harg12.unread x11)) (fun c' => (ldR2 arg12 harg12 x11 0 0 inb_S1x256_S1x256_0_0 (0 : Fin 1) c' (0 : Fin 1) c' (by omega) (by omega)).trans (hx11 c')) (View.readAt (Elt Ideal) arg11.view (Rect.unit (s := S3x128x256) ![0, 0, 0] S1x128x256.size inb_S3x128x256_S1x128x256_0_0_0).toLoadRect (harg11.unread x10)) (View.readAt (Elt Ideal) arg10.view (Rect.unit (s := S3x128x256) ![1, 0, 0] S1x128x256.size inb_S3x128x256_S1x128x256_1_0_0).toLoadRect (harg10.unread x9)) (View.readAt (Elt Ideal) arg11.view (Rect.unit (s := S3x128x256) ![1, 0, 0] S1x128x256.size inb_S3x128x256_S1x128x256_1_0_0).toLoadRect (harg11.unread x10)) (View.readAt (Elt Ideal) arg10.view (Rect.unit (s := S3x128x256) ![2, 0, 0] S1x128x256.size inb_S3x128x256_S1x128x256_2_0_0).toLoadRect (harg10.unread x9)) (View.readAt (Elt Ideal) arg11.view (Rect.unit (s := S3x128x256) ![2, 0, 0] S1x128x256.size inb_S3x128x256_S1x128x256_2_0_0).toLoadRect (harg11.unread x10)) (fun i c' => (ldR3 arg11 harg11 x10 0 0 0 inb_S3x128x256_S1x128x256_0_0_0 (0 : Fin 1) i c' (0 : Fin 3) i c' (by decide) (by omega) (by omega)).trans (hx10 0 i c')) (fun i c' => (ldR3 arg10 harg10 x9 1 0 0 inb_S3x128x256_S1x128x256_1_0_0 (0 : Fin 1) i c' (1 : Fin 3) i c' (by decide) (by omega) (by omega)).trans (hx9 1 i c')) (fun i c' => (ldR3 arg11 harg11 x10 1 0 0 inb_S3x128x256_S1x128x256_1_0_0 (0 : Fin 1) i c' (1 : Fin 3) i c' (by decide) (by omega) (by omega)).trans (hx10 1 i c')) (fun i c' => (ldR3 arg10 harg10 x9 2 0 0 inb_S3x128x256_S1x128x256_2_0_0 (0 : Fin 1) i c' (2 : Fin 3) i c' (by decide) (by omega) (by omega)).trans (hx9 2 i c')) (fun i c' => (ldR3 arg11 harg11 x10 2 0 0 inb_S3x128x256_S1x128x256_2_0_0 (0 : Fin 1) i c' (2 : Fin 3) i c' (by decide) (by omega) (by omega)).trans (hx10 2 i c'))
    (View.readAt (Elt Ideal) arg15.view (Rect.unit (s := S1x128) ![0, 0] S1x128.size inb_S1x128_S1x128_0_0).toLoadRect (harg15.unread x14)) (fun c' => (ldR2 arg15 harg15 x14 0 0 inb_S1x128_S1x128_0_0 (0 : Fin 1) c' (0 : Fin 1) c' (by omega) (by omega)).trans (hx14 c')) (View.readAt (Elt Ideal) arg13.view (Rect.unit (s := S3x128x128) ![0, 0, 0] S1x128x128.size inb_S3x128x128_S1x128x128_0_0_0).toLoadRect (harg13.unread x12)) (View.readAt (Elt Ideal) arg13.view (Rect.unit (s := S3x128x128) ![1, 0, 0] S1x128x128.size inb_S3x128x128_S1x128x128_1_0_0).toLoadRect (harg13.unread x12)) (View.readAt (Elt Ideal) arg13.view (Rect.unit (s := S3x128x128) ![2, 0, 0] S1x128x128.size inb_S3x128x128_S1x128x128_2_0_0).toLoadRect (harg13.unread x12)) (View.readAt (Elt Ideal) arg14.view (Rect.unit (s := S3x128x128) ![0, 0, 0] S1x128x128.size inb_S3x128x128_S1x128x128_0_0_0).toLoadRect (harg14.unread x13)) (View.readAt (Elt Ideal) arg14.view (Rect.unit (s := S3x128x128) ![1, 0, 0] S1x128x128.size inb_S3x128x128_S1x128x128_1_0_0).toLoadRect (harg14.unread x13)) (View.readAt (Elt Ideal) arg14.view (Rect.unit (s := S3x128x128) ![2, 0, 0] S1x128x128.size inb_S3x128x128_S1x128x128_2_0_0).toLoadRect (harg14.unread x13)) (fun i c' => (ldR3 arg13 harg13 x12 0 0 0 inb_S3x128x128_S1x128x128_0_0_0 (0 : Fin 1) i c' (0 : Fin 3) i c' (by decide) (by omega) (by omega)).trans (hx12 0 i c')) (fun i c' => (ldR3 arg13 harg13 x12 1 0 0 inb_S3x128x128_S1x128x128_1_0_0 (0 : Fin 1) i c' (1 : Fin 3) i c' (by decide) (by omega) (by omega)).trans (hx12 1 i c')) (fun i c' => (ldR3 arg13 harg13 x12 2 0 0 inb_S3x128x128_S1x128x128_2_0_0 (0 : Fin 1) i c' (2 : Fin 3) i c' (by decide) (by omega) (by omega)).trans (hx12 2 i c')) (fun i c' => (ldR3 arg14 harg14 x13 0 0 0 inb_S3x128x128_S1x128x128_0_0_0 (0 : Fin 1) i c' (0 : Fin 3) i c' (by decide) (by omega) (by omega)).trans (hx13 0 i c')) (fun i c' => (ldR3 arg14 harg14 x13 1 0 0 inb_S3x128x128_S1x128x128_1_0_0 (0 : Fin 1) i c' (1 : Fin 3) i c' (by decide) (by omega) (by omega)).trans (hx13 1 i c')) (fun i c' => (ldR3 arg14 harg14 x13 2 0 0 inb_S3x128x128_S1x128x128_2_0_0 (0 : Fin 1) i c' (2 : Fin 3) i c' (by decide) (by omega) (by omega)).trans (hx13 2 i c')) x15 hx15 x16 hx16 j n

end Body

end Cert.KernelIdeal.KVal.R1

end
-- ==== Proof.KVal.Region1Core.lean ====
import proofs.«134251_g19069654794669_cont_sun_m_30_29_alg».proof.Proof.KernelIdealH.Region1
import proofs.«134251_g19069654794669_cont_sun_m_30_29_alg».proof.Proof.Spec
import proofs.«134251_g19069654794669_cont_sun_m_30_29_alg».proof.Proof.Packed
import proofs.«134251_g19069654794669_cont_sun_m_30_29_alg».proof.Proof.KVal.Host1
import proofs.«134251_g19069654794669_cont_sun_m_30_29_alg».proof.Proof.KVal.Win1
import proofs.«134251_g19069654794669_cont_sun_m_30_29_alg».proof.Proof.KVal.Pieces1
import proofs.«134251_g19069654794669_cont_sun_m_30_29_alg».proof.Proof.KVal.Body1

set_option maxRecDepth 16384
set_option maxHeartbeats 1000000

noncomputable section

namespace Cert.KernelIdeal.KVal.R1

open Cert.KernelIdeal Cert.KernelIdeal.Gen Cert.KernelIdeal.FrameH Cert.KernelIdeal.KVal
open Idealize.ShloMosaic Idealize.ShloMosaic.TcCoe Idealize.SL.Sem Idealize.ShloMosaic.ValueIdx Idealize.ShloMosaic.StableHlo
open Idealize.ShloMosaic.Pipeline (Dat)
open Cert.Spec Cert.Packed

abbrev Vof (Wc : Dev nD → Valuation τ sig (Elt Ideal)) : (c : Dev nD) → (b : Ref sig .tc) → Buf (Elt Ideal) ((c : Thread nD τ).loc b) :=
  fun c b => StableHlo.after hostOps1 (Wc c) (Proc.devRef .tc b)

structure EntryOK (Wc : Dev nD → Valuation τ sig (Elt Ideal)) (c : Dev nD) (A : Cert.Spec.Args) : Prop where
  x : Wc c (Proc.devRef .tc main_arg0) = A.x
  hst : Wc c (Proc.devRef .tc main_arg1) = A.h
  bp : Wc c (Proc.devRef .tc main_arg12) = A.bp
  sup : ∀ n m', Wc c (Proc.devRef .tc main_v12_0) (ix2 n m') = Cert.Spec.sup A.adj n m'
  a1 : ∀ b n, Wc c (Proc.devRef .tc main_v12_1) (ix2 b n) = Cert.Packed.acol A 1 b n
  a2 : ∀ b n, Wc c (Proc.devRef .tc main_v12_2) (ix2 b n) = Cert.Packed.acol A 2 b n
  waRu0 : ∀ r c', Wc c (Proc.devRef .tc main_v12_3) (ix2 r c') = Cert.Packed.waRu0 A r c'
  whRu0 : ∀ k i c', Wc c (Proc.devRef .tc main_v12_4) (ix3 k i c') = Cert.Packed.whRu0 A k i c'
  bRu0 : ∀ c', Wc c (Proc.devRef .tc main_v12_5) (ix2 0 c') = Cert.Packed.bRu0 A c'
  waC0 : ∀ r c', Wc c (Proc.devRef .tc main_v12_6) (ix2 r c') = Cert.Packed.waC0 A r c'
  whC0 : ∀ k i c', Wc c (Proc.devRef .tc main_v12_7) (ix3 k i c') = Cert.Packed.whC0 A k i c'
  bC0 : ∀ c', Wc c (Proc.devRef .tc main_v12_8) (ix2 0 c') = Cert.Packed.bC0 A c'
  wgRu1 : ∀ k i c', Wc c (Proc.devRef .tc main_v12_9) (ix3 k i c') = Cert.Packed.wgRu1 A k i c'
  wkRu1 : ∀ k i c', Wc c (Proc.devRef .tc main_v12_10) (ix3 k i c') = Cert.Packed.wkRu1 A k i c'
  bRu1 : ∀ c', Wc c (Proc.devRef .tc main_v12_11) (ix2 0 c') = Cert.Packed.bRu1 A c'
  wgC1 : ∀ k i c', Wc c (Proc.devRef .tc main_v12_12) (ix3 k i c') = Cert.Packed.wgC1 A k i c'
  wkC1 : ∀ k i c', Wc c (Proc.devRef .tc main_v12_13) (ix3 k i c') = Cert.Packed.wkC1 A k i c'
  bC1 : ∀ c', Wc c (Proc.devRef .tc main_v12_14) (ix2 0 c') = Cert.Packed.bC1 A c'
  wpp : ∀ i j, Wc c (Proc.devRef .tc main_v12_15) (ix2 i j) = Cert.Packed.wpp A i j

variable (Wc : Dev nD → Valuation τ sig (Elt Ideal)) (c : Dev nD) (A : Cert.Spec.Args) (h : EntryOK Wc c A)

include h in
theorem ent0 (t : Fin cfg1.N) (n m' : Fin 512) : iblk1 (Vof Wc) c 0 t (ix2 n m') = sup A.adj n m' := by
  unfold iblk1
  refine (blk1_0_read (F := Ideal) _ t n m').trans ?_
  show StableHlo.after hostOps1 (Wc c) (Proc.devRef .tc main_v12_0) (ix2 n m') = _
  rw [host1_keep (Wc c) main_v12_0 (by decide)]
  exact h.sup n m'

include h in
theorem ent1 (t : Fin cfg1.N) (k : Fin 3) (j : Fin 2) (n : Fin 512) :
    iblk1 (Vof Wc) c 1 t (ix4 k (0 : Fin 1) j n)
      = acol A k ⟨2 * (⟨t.val, t.isLt.trans_le (le_of_eq N_1)⟩ : Fin 32).val + j.val, by have := t.isLt.trans_le (le_of_eq N_1); have := j.isLt; omega⟩ n := by
  unfold iblk1
  refine (blk1_1_read (F := Ideal) _ t k (0 : Fin 1) j n).trans ?_
  show StableHlo.after hostOps1 (Wc c) (Proc.devRef .tc main_v17) (ix4 k ⟨t.val, t.isLt.trans_le (le_of_eq N_1)⟩ j n) = _
  rw [host1_v17]
  match k with
  | ⟨0, _⟩ =>
    show Wc c (Proc.devRef .tc main_arg0) (ix2 _ n) = _
    rw [h.x]; rfl
  | ⟨1, _⟩ => exact h.a1 _ n
  | ⟨2, _⟩ => exact h.a2 _ n

include h in
theorem ent2 (t : Fin cfg1.N) (l j : Fin 2) (n : Fin 512) (f : Fin 64) :
    iblk1 (Vof Wc) c 2 t (ix4 l j n f)
      = st A l ⟨2 * (⟨t.val, t.isLt.trans_le (le_of_eq N_1)⟩ : Fin 32).val + j.val, by have := t.isLt.trans_le (le_of_eq N_1); have := j.isLt; omega⟩ f n := by
  unfold iblk1
  refine (blk1_2_read (F := Ideal) _ t l j n f).trans ?_
  show StableHlo.after hostOps1 (Wc c) (Proc.devRef .tc main_v18) (ix4 l _ n f) = _
  rw [host1_v18, h.hst]
  rfl
include h in
theorem ent3 (t : Fin cfg1.N) (r : Fin 6) (c' : Fin 256) : iblk1 (Vof Wc) c 3 t (ix2 r c') = waRu0 A r c' := by
  unfold iblk1
  refine (blk1_3_read (F := Ideal) _ t r c').trans ?_
  show StableHlo.after hostOps1 (Wc c) (Proc.devRef .tc main_v12_3) (ix2 r c') = _
  rw [host1_keep (Wc c) main_v12_3 (by decide)]
  exact h.waRu0 r c'
include h in
theorem ent4 (t : Fin cfg1.N) (k : Fin 3) (i : Fin 128) (c' : Fin 256) : iblk1 (Vof Wc) c 4 t (ix3 k i c') = whRu0 A k i c' := by
  unfold iblk1
  refine (blk1_4_read (F := Ideal) _ t k i c').trans ?_
  show StableHlo.after hostOps1 (Wc c) (Proc.devRef .tc main_v12_4) (ix3 k i c') = _
  rw [host1_keep (Wc c) main_v12_4 (by decide)]
  exact h.whRu0 k i c'
include h in
theorem ent5 (t : Fin cfg1.N) (c' : Fin 256) : iblk1 (Vof Wc) c 5 t (ix2 (0 : Fin 1) c') = bRu0 A c' := by
  unfold iblk1
  refine (blk1_5_read (F := Ideal) _ t (0 : Fin 1) c').trans ?_
  show StableHlo.after hostOps1 (Wc c) (Proc.devRef .tc main_v12_5) (ix2 (0 : Fin 1) c') = _
  rw [host1_keep (Wc c) main_v12_5 (by decide)]
  exact h.bRu0 c'
include h in
theorem ent6 (t : Fin cfg1.N) (r : Fin 6) (c' : Fin 128) : iblk1 (Vof Wc) c 6 t (ix2 r c') = waC0 A r c' := by
  unfold iblk1
  refine (blk1_6_read (F := Ideal) _ t r c').trans ?_
  show StableHlo.after hostOps1 (Wc c) (Proc.devRef .tc main_v12_6) (ix2 r c') = _
  rw [host1_keep (Wc c) main_v12_6 (by decide)]
  exact h.waC0 r c'
include h in
theorem ent7 (t : Fin cfg1.N) (k : Fin 3) (i : Fin 128) (c' : Fin 128) : iblk1 (Vof Wc) c 7 t (ix3 k i c') = whC0 A k i c' := by
  unfold iblk1
  refine (blk1_7_read (F := Ideal) _ t k i c').trans ?_
  show StableHlo.after hostOps1 (Wc c) (Proc.devRef .tc main_v12_7) (ix3 k i c') = _
  rw [host1_keep (Wc c) main_v12_7 (by decide)]
  exact h.whC0 k i c'
include h in
theorem ent8 (t : Fin cfg1.N) (c' : Fin 128) : iblk1 (Vof Wc) c 8 t (ix2 (0 : Fin 1) c') = bC0 A c' := by
  unfold iblk1
  refine (blk1_8_read (F := Ideal) _ t (0 : Fin 1) c').trans ?_
  show StableHlo.after hostOps1 (Wc c) (Proc.devRef .tc main_v12_8) (ix2 (0 : Fin 1) c') = _
  rw [host1_keep (Wc c) main_v12_8 (by decide)]
  exact h.bC0 c'
include h in
theorem ent9 (t : Fin cfg1.N) (k : Fin 3) (i : Fin 128) (c' : Fin 256) : iblk1 (Vof Wc) c 9 t (ix3 k i c') = wgRu1 A k i c' := by
  unfold iblk1
  refine (blk1_9_read (F := Ideal) _ t k i c').trans ?_
  show StableHlo.after hostOps1 (Wc c) (Proc.devRef .tc main_v12_9) (ix3 k i c') = _
  rw [host1_keep (Wc c) main_v12_9 (by decide)]
  exact h.wgRu1 k i c'
include h in
theorem ent10 (t : Fin cfg1.N) (k : Fin 3) (i : Fin 128) (c' : Fin 256) : iblk1 (Vof Wc) c 10 t (ix3 k i c') = wkRu1 A k i c' := by
  unfold iblk1
  refine (blk1_10_read (F := Ideal) _ t k i c').trans ?_
  show StableHlo.after hostOps1 (Wc c) (Proc.devRef .tc main_v12_10) (ix3 k i c') = _
  rw [host1_keep (Wc c) main_v12_10 (by decide)]
  exact h.wkRu1 k i c'
include h in
theorem ent11 (t : Fin cfg1.N) (c' : Fin 256) : iblk1 (Vof Wc) c 11 t (ix2 (0 : Fin 1) c') = bRu1 A c' := by
  unfold iblk1
  refine (blk1_11_read (F := Ideal) _ t (0 : Fin 1) c').trans ?_
  show StableHlo.after hostOps1 (Wc c) (Proc.devRef .tc main_v12_11) (ix2 (0 : Fin 1) c') = _
  rw [host1_keep (Wc c) main_v12_11 (by decide)]
  exact h.bRu1 c'
include h in
theorem ent12 (t : Fin cfg1.N) (k : Fin 3) (i : Fin 128) (c' : Fin 128) : iblk1 (Vof Wc) c 12 t (ix3 k i c') = wgC1 A k i c' := by
  unfold iblk1
  refine (blk1_12_read (F := Ideal) _ t k i c').trans ?_
  show StableHlo.after hostOps1 (Wc c) (Proc.devRef .tc main_v12_12) (ix3 k i c') = _
  rw [host1_keep (Wc c) main_v12_12 (by decide)]
  exact h.wgC1 k i c'
include h in
theorem ent13 (t : Fin cfg1.N) (k : Fin 3) (i : Fin 128) (c' : Fin 128) : iblk1 (Vof Wc) c 13 t (ix3 k i c') = wkC1 A k i c' := by
  unfold iblk1
  refine (blk1_13_read (F := Ideal) _ t k i c').trans ?_
  show StableHlo.after hostOps1 (Wc c) (Proc.devRef .tc main_v12_13) (ix3 k i c') = _
  rw [host1_keep (Wc c) main_v12_13 (by decide)]
  exact h.wkC1 k i c'
include h in
theorem ent14 (t : Fin cfg1.N) (c' : Fin 128) : iblk1 (Vof Wc) c 14 t (ix2 (0 : Fin 1) c') = bC1 A c' := by
  unfold iblk1
  refine (blk1_14_read (F := Ideal) _ t (0 : Fin 1) c').trans ?_
  show StableHlo.after hostOps1 (Wc c) (Proc.devRef .tc main_v12_14) (ix2 (0 : Fin 1) c') = _
  rw [host1_keep (Wc c) main_v12_14 (by decide)]
  exact h.bC1 c'
include h in
theorem ent15 (t : Fin cfg1.N) (r : Fin 128) (c' : Fin 2) : iblk1 (Vof Wc) c 15 t (ix2 r c') = wpp A r c' := by
  unfold iblk1
  refine (blk1_15_read (F := Ideal) _ t r c').trans ?_
  show StableHlo.after hostOps1 (Wc c) (Proc.devRef .tc main_v12_15) (ix2 r c') = _
  rw [host1_keep (Wc c) main_v12_15 (by decide)]
  exact h.wpp r c'

include h in
theorem ent16 (t : Fin cfg1.N) : iblk1 (Vof Wc) c 16 t (ix2 (0 : Fin 1) (0 : Fin 1)) = A.bp (ix1 0) := by
  unfold iblk1
  refine (blk1_16_read (F := Ideal) _ t (0 : Fin 1) (0 : Fin 1)).trans ?_
  show StableHlo.after hostOps1 (Wc c) (Proc.devRef .tc main_v19) (ix2 (0 : Fin 1) (0 : Fin 1)) = _
  rw [host1_v19, h.bp]

def outArr (A : Cert.Spec.Args) : (⟨S32x2x512, .f32⟩ : BufTy).Contents (Elt Ideal) := fun i =>
  out A ⟨2 * (i 0).val + (i 1).val, by have h0 : (i 0).val < 32 := (i 0).isLt; have h1 : (i 1).val < 2 := (i 1).isLt; omega⟩ ⟨(i 2).val, (i 2).isLt⟩

def hidArr (A : Cert.Spec.Args) : (⟨S2x64x512x64, .f32⟩ : BufTy).Contents (Elt Ideal) := fun i =>
  (match (⟨(i 0).val, (i 0).isLt⟩ : Fin 2) with
    | ⟨0, _⟩ => h0 A
    | ⟨1, _⟩ => h1 A) ⟨(i 1).val, (i 1).isLt⟩ ⟨(i 3).val, (i 3).isLt⟩ ⟨(i 2).val, (i 2).isLt⟩

include h in
theorem flushed17 (t : Fin cfg1.N) :
    (dat1 (Vof Wc) c).flushed 17 t = ((cfg1.win 17).blk t).view.read (Elt Ideal) (outArr A) := by
  have key : ∀ y : S1x2x512.Idx, (dat1 (Vof Wc) c).flushed 17 t y = ((cfg1.win 17).blk t).view.read (Elt Ideal) (outArr A) y := by
    intro y
    obtain ⟨z, j, n, rfl⟩ : ∃ (z : Fin 1) (j : Fin 2) (n : Fin 512), y = ix3 z j n := ⟨y 0, y 1, y 2, eq_ix3 y⟩
    obtain rfl : z = 0 := Subsingleton.elim _ _
    rw [blk1_17_read]
    show (cfg1.win 17).cut (cfg1.grid.coords t) ((dat1 (Vof Wc) c).after 17 t) (ix3 (0 : Fin 1) j n) = _
    rw [after1_17]
    show (outsAt1 (Vof Wc) c t).1 (ix3 (0 : Fin 1) j n) = _
    unfold outsAt1
    dsimp only
    unfold out1_17
    refine (congrFun (pieces17 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 (Vof Wc) c 0 t) (iblk1 (Vof Wc) c 1 t) (iblk1 (Vof Wc) c 2 t) (iblk1 (Vof Wc) c 3 t) (iblk1 (Vof Wc) c 4 t) (iblk1 (Vof Wc) c 5 t) (iblk1 (Vof Wc) c 6 t) (iblk1 (Vof Wc) c 7 t) (iblk1 (Vof Wc) c 8 t) (iblk1 (Vof Wc) c 9 t) (iblk1 (Vof Wc) c 10 t) (iblk1 (Vof Wc) c 11 t) (iblk1 (Vof Wc) c 12 t) (iblk1 (Vof Wc) c 13 t) (iblk1 (Vof Wc) c 14 t) (iblk1 (Vof Wc) c 15 t) (iblk1 (Vof Wc) c 16 t)) (ix3 (0 : Fin 1) j n)).trans ?_
    exact body_out A ⟨t.val, t.isLt.trans_le (le_of_eq N_1)⟩ c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (iblk1 (Vof Wc) c 0 t) (iblk1 (Vof Wc) c 1 t) (iblk1 (Vof Wc) c 2 t) (iblk1 (Vof Wc) c 3 t) (iblk1 (Vof Wc) c 4 t) (iblk1 (Vof Wc) c 5 t) (iblk1 (Vof Wc) c 6 t) (iblk1 (Vof Wc) c 7 t) (iblk1 (Vof Wc) c 8 t) (iblk1 (Vof Wc) c 9 t) (iblk1 (Vof Wc) c 10 t) (iblk1 (Vof Wc) c 11 t) (iblk1 (Vof Wc) c 12 t) (iblk1 (Vof Wc) c 13 t) (iblk1 (Vof Wc) c 14 t) (iblk1 (Vof Wc) c 15 t) (iblk1 (Vof Wc) c 16 t) (ent0 Wc c A h t) (ent1 Wc c A h t) (ent2 Wc c A h t) (ent3 Wc c A h t) (ent4 Wc c A h t) (ent5 Wc c A h t) (ent6 Wc c A h t) (ent7 Wc c A h t) (ent8 Wc c A h t) (ent9 Wc c A h t) (ent10 Wc c A h t) (ent11 Wc c A h t) (ent12 Wc c A h t) (ent13 Wc c A h t) (ent14 Wc c A h t) (ent15 Wc c A h t) (ent16 Wc c A h t) j n
  exact funext key

include h in
theorem flushed18 (t : Fin cfg1.N) :
    (dat1 (Vof Wc) c).flushed 18 t = ((cfg1.win 18).blk t).view.read (Elt Ideal) (hidArr A) := by
  have key : ∀ y : S2x2x512x64.Idx, (dat1 (Vof Wc) c).flushed 18 t y = ((cfg1.win 18).blk t).view.read (Elt Ideal) (hidArr A) y := by
    intro y
    obtain ⟨l, j, n, f, rfl⟩ : ∃ (l j : Fin 2) (n : Fin 512) (f : Fin 64), y = ix4 l j n f := ⟨y 0, y 1, y 2, y 3, eq_ix4 y⟩
    rw [blk1_18_read]
    show (cfg1.win 18).cut (cfg1.grid.coords t) ((dat1 (Vof Wc) c).after 18 t) (ix4 l j n f) = _
    rw [after1_18]
    show (outsAt1 (Vof Wc) c t).2 (ix4 l j n f) = _
    unfold outsAt1
    dsimp only
    unfold out1_18
    match l with
    | ⟨0, _⟩ =>
     match j with
     | ⟨0, _⟩ =>
      refine (pieces18_00 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 (Vof Wc) c 0 t) (iblk1 (Vof Wc) c 1 t) (iblk1 (Vof Wc) c 2 t) (iblk1 (Vof Wc) c 3 t) (iblk1 (Vof Wc) c 4 t) (iblk1 (Vof Wc) c 5 t) (iblk1 (Vof Wc) c 6 t) (iblk1 (Vof Wc) c 7 t) (iblk1 (Vof Wc) c 8 t) (iblk1 (Vof Wc) c 9 t) (iblk1 (Vof Wc) c 10 t) (iblk1 (Vof Wc) c 11 t) (iblk1 (Vof Wc) c 12 t) (iblk1 (Vof Wc) c 13 t) (iblk1 (Vof Wc) c 14 t) (iblk1 (Vof Wc) c 15 t) (iblk1 (Vof Wc) c 16 t) n f).trans ?_
      exact body_h0_0 A ⟨t.val, t.isLt.trans_le (le_of_eq N_1)⟩ c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 (Vof Wc) c 0 t) (iblk1 (Vof Wc) c 1 t) (iblk1 (Vof Wc) c 2 t) (iblk1 (Vof Wc) c 3 t) (iblk1 (Vof Wc) c 4 t) (iblk1 (Vof Wc) c 5 t) (iblk1 (Vof Wc) c 6 t) (iblk1 (Vof Wc) c 7 t) (iblk1 (Vof Wc) c 8 t) (ent0 Wc c A h t) (ent1 Wc c A h t) (ent2 Wc c A h t) (ent3 Wc c A h t) (ent4 Wc c A h t) (ent5 Wc c A h t) (ent6 Wc c A h t) (ent7 Wc c A h t) (ent8 Wc c A h t) n f
     | ⟨1, _⟩ =>
      refine (pieces18_01 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 (Vof Wc) c 0 t) (iblk1 (Vof Wc) c 1 t) (iblk1 (Vof Wc) c 2 t) (iblk1 (Vof Wc) c 3 t) (iblk1 (Vof Wc) c 4 t) (iblk1 (Vof Wc) c 5 t) (iblk1 (Vof Wc) c 6 t) (iblk1 (Vof Wc) c 7 t) (iblk1 (Vof Wc) c 8 t) (iblk1 (Vof Wc) c 9 t) (iblk1 (Vof Wc) c 10 t) (iblk1 (Vof Wc) c 11 t) (iblk1 (Vof Wc) c 12 t) (iblk1 (Vof Wc) c 13 t) (iblk1 (Vof Wc) c 14 t) (iblk1 (Vof Wc) c 15 t) (iblk1 (Vof Wc) c 16 t) n f).trans ?_
      exact body_h0_1 A ⟨t.val, t.isLt.trans_le (le_of_eq N_1)⟩ c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 (Vof Wc) c 0 t) (iblk1 (Vof Wc) c 1 t) (iblk1 (Vof Wc) c 2 t) (iblk1 (Vof Wc) c 3 t) (iblk1 (Vof Wc) c 4 t) (iblk1 (Vof Wc) c 5 t) (iblk1 (Vof Wc) c 6 t) (iblk1 (Vof Wc) c 7 t) (iblk1 (Vof Wc) c 8 t) (ent0 Wc c A h t) (ent1 Wc c A h t) (ent2 Wc c A h t) (ent3 Wc c A h t) (ent4 Wc c A h t) (ent5 Wc c A h t) (ent6 Wc c A h t) (ent7 Wc c A h t) (ent8 Wc c A h t) n f
    | ⟨1, _⟩ =>
     match j with
     | ⟨0, _⟩ =>
      refine (pieces18_10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 (Vof Wc) c 0 t) (iblk1 (Vof Wc) c 1 t) (iblk1 (Vof Wc) c 2 t) (iblk1 (Vof Wc) c 3 t) (iblk1 (Vof Wc) c 4 t) (iblk1 (Vof Wc) c 5 t) (iblk1 (Vof Wc) c 6 t) (iblk1 (Vof Wc) c 7 t) (iblk1 (Vof Wc) c 8 t) (iblk1 (Vof Wc) c 9 t) (iblk1 (Vof Wc) c 10 t) (iblk1 (Vof Wc) c 11 t) (iblk1 (Vof Wc) c 12 t) (iblk1 (Vof Wc) c 13 t) (iblk1 (Vof Wc) c 14 t) (iblk1 (Vof Wc) c 15 t) (iblk1 (Vof Wc) c 16 t) n f).trans ?_
      exact body_h1_0 A ⟨t.val, t.isLt.trans_le (le_of_eq N_1)⟩ c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (iblk1 (Vof Wc) c 0 t) (iblk1 (Vof Wc) c 1 t) (iblk1 (Vof Wc) c 2 t) (iblk1 (Vof Wc) c 3 t) (iblk1 (Vof Wc) c 4 t) (iblk1 (Vof Wc) c 5 t) (iblk1 (Vof Wc) c 6 t) (iblk1 (Vof Wc) c 7 t) (iblk1 (Vof Wc) c 8 t) (iblk1 (Vof Wc) c 9 t) (iblk1 (Vof Wc) c 10 t) (iblk1 (Vof Wc) c 11 t) (iblk1 (Vof Wc) c 12 t) (iblk1 (Vof Wc) c 13 t) (iblk1 (Vof Wc) c 14 t) (iblk1 (Vof Wc) c 15 t) (iblk1 (Vof Wc) c 16 t) (ent0 Wc c A h t) (ent1 Wc c A h t) (ent2 Wc c A h t) (ent3 Wc c A h t) (ent4 Wc c A h t) (ent5 Wc c A h t) (ent6 Wc c A h t) (ent7 Wc c A h t) (ent8 Wc c A h t) (ent9 Wc c A h t) (ent10 Wc c A h t) (ent11 Wc c A h t) (ent12 Wc c A h t) (ent13 Wc c A h t) (ent14 Wc c A h t) (ent15 Wc c A h t) (ent16 Wc c A h t) n f
     | ⟨1, _⟩ =>
      refine (pieces18_11 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 (Vof Wc) c 0 t) (iblk1 (Vof Wc) c 1 t) (iblk1 (Vof Wc) c 2 t) (iblk1 (Vof Wc) c 3 t) (iblk1 (Vof Wc) c 4 t) (iblk1 (Vof Wc) c 5 t) (iblk1 (Vof Wc) c 6 t) (iblk1 (Vof Wc) c 7 t) (iblk1 (Vof Wc) c 8 t) (iblk1 (Vof Wc) c 9 t) (iblk1 (Vof Wc) c 10 t) (iblk1 (Vof Wc) c 11 t) (iblk1 (Vof Wc) c 12 t) (iblk1 (Vof Wc) c 13 t) (iblk1 (Vof Wc) c 14 t) (iblk1 (Vof Wc) c 15 t) (iblk1 (Vof Wc) c 16 t) n f).trans ?_
      exact body_h1_1 A ⟨t.val, t.isLt.trans_le (le_of_eq N_1)⟩ c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (iblk1 (Vof Wc) c 0 t) (iblk1 (Vof Wc) c 1 t) (iblk1 (Vof Wc) c 2 t) (iblk1 (Vof Wc) c 3 t) (iblk1 (Vof Wc) c 4 t) (iblk1 (Vof Wc) c 5 t) (iblk1 (Vof Wc) c 6 t) (iblk1 (Vof Wc) c 7 t) (iblk1 (Vof Wc) c 8 t) (iblk1 (Vof Wc) c 9 t) (iblk1 (Vof Wc) c 10 t) (iblk1 (Vof Wc) c 11 t) (iblk1 (Vof Wc) c 12 t) (iblk1 (Vof Wc) c 13 t) (iblk1 (Vof Wc) c 14 t) (iblk1 (Vof Wc) c 15 t) (iblk1 (Vof Wc) c 16 t) (ent0 Wc c A h t) (ent1 Wc c A h t) (ent2 Wc c A h t) (ent3 Wc c A h t) (ent4 Wc c A h t) (ent5 Wc c A h t) (ent6 Wc c A h t) (ent7 Wc c A h t) (ent8 Wc c A h t) (ent9 Wc c A h t) (ent10 Wc c A h t) (ent11 Wc c A h t) (ent12 Wc c A h t) (ent13 Wc c A h t) (ent14 Wc c A h t) (ent15 Wc c A h t) (ent16 Wc c A h t) n f
  exact funext key

include h in

theorem core_out : (dat1 (Vof Wc) c).arrAt 17 cfg1.N = outArr A :=
  (dat1 (Vof Wc) c).arrAt_eq_of_cover 17 (outArr A) (fun t _ => flushed17 Wc c A h t) cover1_17_arr

include h in

theorem core_hid : (dat1 (Vof Wc) c).arrAt 18 cfg1.N = hidArr A :=
  (dat1 (Vof Wc) c).arrAt_eq_of_cover 18 (hidArr A) (fun t _ => flushed18 Wc c A h t) cover1_18_arr

end Cert.KernelIdeal.KVal.R1

end
-- ==== Proof.KVal.Region1Val.lean ====
import proofs.«134251_g19069654794669_cont_sun_m_30_29_alg».proof.Proof.KernelIdealH.RunAll
import proofs.«134251_g19069654794669_cont_sun_m_30_29_alg».proof.Proof.KVal.Args
import proofs.«134251_g19069654794669_cont_sun_m_30_29_alg».proof.Proof.KVal.Region1Core

set_option maxRecDepth 16384
set_option maxHeartbeats 4000000

noncomputable section

namespace Cert.KernelIdeal.KVal

open Cert.KernelIdeal Cert.KernelIdeal.Gen Cert.KernelIdeal.FrameH
open Idealize.ShloMosaic Idealize.ShloMosaic.TcCoe Idealize.SL.Sem Idealize.ShloMosaic.ValueIdx Idealize.ShloMosaic.StableHlo
open Idealize.ShloMosaic.Pipeline (Dat)
open R1 Cert.Spec

structure PrepOK (m : (ℓ : Loc nD τ sig) → Buf (Elt Ideal) ℓ) (ρ : Dev nD → PrngReg) (c : Dev nD) : Prop where
  sup : ∀ n m', FrameH.W2 m ρ c (Proc.devRef .tc main_v12_0) (ix2 n m') = Cert.Spec.sup (argsOf m c).adj n m'
  a1 : ∀ b n, FrameH.W2 m ρ c (Proc.devRef .tc main_v12_1) (ix2 b n) = Cert.Packed.acol (argsOf m c) 1 b n
  a2 : ∀ b n, FrameH.W2 m ρ c (Proc.devRef .tc main_v12_2) (ix2 b n) = Cert.Packed.acol (argsOf m c) 2 b n
  waRu0 : ∀ r c', FrameH.W2 m ρ c (Proc.devRef .tc main_v12_3) (ix2 r c') = Cert.Packed.waRu0 (argsOf m c) r c'
  whRu0 : ∀ k i c', FrameH.W2 m ρ c (Proc.devRef .tc main_v12_4) (ix3 k i c') = Cert.Packed.whRu0 (argsOf m c) k i c'
  bRu0 : ∀ c', FrameH.W2 m ρ c (Proc.devRef .tc main_v12_5) (ix2 0 c') = Cert.Packed.bRu0 (argsOf m c) c'
  waC0 : ∀ r c', FrameH.W2 m ρ c (Proc.devRef .tc main_v12_6) (ix2 r c') = Cert.Packed.waC0 (argsOf m c) r c'
  whC0 : ∀ k i c', FrameH.W2 m ρ c (Proc.devRef .tc main_v12_7) (ix3 k i c') = Cert.Packed.whC0 (argsOf m c) k i c'
  bC0 : ∀ c', FrameH.W2 m ρ c (Proc.devRef .tc main_v12_8) (ix2 0 c') = Cert.Packed.bC0 (argsOf m c) c'
  wgRu1 : ∀ k i c', FrameH.W2 m ρ c (Proc.devRef .tc main_v12_9) (ix3 k i c') = Cert.Packed.wgRu1 (argsOf m c) k i c'
  wkRu1 : ∀ k i c', FrameH.W2 m ρ c (Proc.devRef .tc main_v12_10) (ix3 k i c') = Cert.Packed.wkRu1 (argsOf m c) k i c'
  bRu1 : ∀ c', FrameH.W2 m ρ c (Proc.devRef .tc main_v12_11) (ix2 0 c') = Cert.Packed.bRu1 (argsOf m c) c'
  wgC1 : ∀ k i c', FrameH.W2 m ρ c (Proc.devRef .tc main_v12_12) (ix3 k i c') = Cert.Packed.wgC1 (argsOf m c) k i c'
  wkC1 : ∀ k i c', FrameH.W2 m ρ c (Proc.devRef .tc main_v12_13) (ix3 k i c') = Cert.Packed.wkC1 (argsOf m c) k i c'
  bC1 : ∀ c', FrameH.W2 m ρ c (Proc.devRef .tc main_v12_14) (ix2 0 c') = Cert.Packed.bC1 (argsOf m c) c'
  wpp : ∀ i j, FrameH.W2 m ρ c (Proc.devRef .tc main_v12_15) (ix2 i j) = Cert.Packed.wpp (argsOf m c) i j

variable (m : (ℓ : Loc nD τ sig) → Buf (Elt Ideal) ℓ) (ρ : Dev nD → PrngReg) (c : Dev nD) (h : PrepOK m ρ c)

theorem W2_arg0 : W2 m ρ c (Proc.devRef .tc main_arg0) = m ((c : Thread nD τ).loc main_arg0) :=
  (W2_in m ρ c 1 rfl).trans (StableHlo.after_of_writes_sub hostOps0 _ hostOps0_writes (by decide))
theorem W2_arg1 : W2 m ρ c (Proc.devRef .tc main_arg1) = m ((c : Thread nD τ).loc main_arg1) :=
  (W2_of_ne m ρ c main_arg1 (by decide)).trans (StableHlo.after_of_writes_sub hostOps0 _ hostOps0_writes (by decide))
theorem W2_arg12 : W2 m ρ c (Proc.devRef .tc main_arg12) = m ((c : Thread nD τ).loc main_arg12) :=
  (W2_of_ne m ρ c main_arg12 (by decide)).trans (StableHlo.after_of_writes_sub hostOps0 _ hostOps0_writes (by decide))

include h in
theorem entryOK : EntryOK (W2 m ρ) c (argsOf m c) :=
  ⟨W2_arg0 m ρ c, W2_arg1 m ρ c, W2_arg12 m ρ c, h.sup, h.a1, h.a2, h.waRu0, h.whRu0, h.bRu0, h.waC0, h.whC0, h.bC0,
    h.wgRu1, h.wkRu1, h.bRu1, h.wgC1, h.wkC1, h.bC1, h.wpp⟩

include h in

theorem region1_out (p : Fin 32) (j : Fin 2) (n : Fin 512) :
    W4 m ρ c (Proc.devRef .tc main_v20_0) (ix3 p j n)
      = out (argsOf m c) ⟨2 * p.val + j.val, by have := p.isLt; have := j.isLt; omega⟩ n := by
  have e : W4 m ρ c (Proc.devRef .tc main_v20_0) = outArr (argsOf m c) :=
    (W4_arr m ρ c 17).trans (core_out (W2 m ρ) c (argsOf m c) (entryOK m ρ c h))
  rw [e]
  rfl

include h in

theorem region1_hid (l : Fin 2) (b : Fin 64) (n : Fin 512) (f : Fin 64) :
    W4 m ρ c (Proc.devRef .tc main_v20_1) (ix4 l b n f)
      = (match l with
          | ⟨0, _⟩ => h0
          | ⟨1, _⟩ => h1) (argsOf m c) b f n := by
  have e : W4 m ρ c (Proc.devRef .tc main_v20_1) = hidArr (argsOf m c) :=
    (W4_arr m ρ c 18).trans (core_hid (W2 m ρ) c (argsOf m c) (entryOK m ρ c h))
  rw [e]
  match l with
  | ⟨0, _⟩ => rfl
  | ⟨1, _⟩ => rfl

include h in

theorem kernel_res0 : W5 m ρ c (Proc.devRef .tc main_v21) = res0 (argsOf m c) := by
  funext i
  obtain ⟨b, n, rfl⟩ : ∃ (b : Fin 64) (n : Fin 512), i = ix2 b n := ⟨i 0, i 1, eq_ix2 i⟩
  show StableHlo.after hostOps2 (W4 m ρ c) (Proc.devRef .tc main_v21) (ix2 b n) = _
  rw [host2_v21, region1_out m ρ c h]
  show out (argsOf m c) _ n = out (argsOf m c) b n
  exact congrArg (fun b' => out (argsOf m c) b' n) (Fin.ext (by show 2 * (b.val / 2) + b.val % 2 = b.val; omega))

include h in

theorem kernel_res1 : W5 m ρ c (Proc.devRef .tc main_v22) = res1 (argsOf m c) := by
  funext i
  obtain ⟨l, b, q, rfl⟩ : ∃ (l : Fin 2) (b : Fin 64) (q : Fin 32768), i = ix3 l b q := ⟨i 0, i 1, i 2, eq_ix3 i⟩
  show StableHlo.after hostOps2 (W4 m ρ c) (Proc.devRef .tc main_v22) (ix3 l b q) = _
  rw [host2_v22, region1_hid m ρ c h]
  match l with
  | ⟨0, _⟩ => rfl
  | ⟨1, _⟩ => rfl

end Cert.KernelIdeal.KVal

end
-- ==== Proof.KVal.Final.lean ====
import proofs.«134251_g19069654794669_cont_sun_m_30_29_alg».proof.Proof.KernelIdealH.RunAll
import proofs.«134251_g19069654794669_cont_sun_m_30_29_alg».proof.Proof.KVal.Args
import proofs.«134251_g19069654794669_cont_sun_m_30_29_alg».proof.Proof.KVal.Prep
import proofs.«134251_g19069654794669_cont_sun_m_30_29_alg».proof.Proof.KVal.Region1Val

noncomputable section

namespace Cert.KernelIdeal.KVal

open Cert.KernelIdeal Cert.KernelIdeal.Gen
open Idealize.ShloMosaic Idealize.ShloMosaic.TcCoe Idealize.SL.Sem

theorem prepOK (m : (ℓ : Loc nD τ sig) → Buf (Elt Ideal) ℓ) (ρ : Dev nD → PrngReg) (c : Dev nD) : PrepOK m ρ c :=
  ⟨prep_sup m ρ c, prep_a1 m ρ c, prep_a2 m ρ c, prep_waRu0 m ρ c, prep_whRu0 m ρ c, prep_bRu0 m ρ c, prep_waC0 m ρ c,
   prep_whC0 m ρ c, prep_bC0 m ρ c, prep_wgRu1 m ρ c, prep_wkRu1 m ρ c, prep_bRu1 m ρ c, prep_wgC1 m ρ c, prep_wkC1 m ρ c,
   prep_bC1 m ρ c, prep_wpp m ρ c⟩

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = Cert.Spec.res0 (argsOf m c)
      ∧ r.2.mem ((c.tc : Thread nD τ).loc main_v22) = Cert.Spec.res1 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun r h c =>
    ⟨(h c _ (FrameH.mem_uc main_v21 (by decide))).trans (kernel_res0 m ρ c (prepOK m ρ c)),
     (h c _ (FrameH.mem_uc main_v22 (by decide))).trans (kernel_res1 m ρ c (prepOK m ρ c)),
     (h c _ (FrameH.mem_uc main_arg0 (by decide))).trans (FrameH.W5_main_arg0 m ρ c),
     (h c _ (FrameH.mem_uc main_arg1 (by decide))).trans (FrameH.W5_main_arg1 m ρ c),
     (h c _ (FrameH.mem_uc main_arg2 (by decide))).trans (FrameH.W5_main_arg2 m ρ c),
     (h c _ (FrameH.mem_uc main_arg3 (by decide))).trans (FrameH.W5_main_arg3 m ρ c),
     (h c _ (FrameH.mem_uc main_arg4 (by decide))).trans (FrameH.W5_main_arg4 m ρ c),
     (h c _ (FrameH.mem_uc main_arg5 (by decide))).trans (FrameH.W5_main_arg5 m ρ c),
     (h c _ (FrameH.mem_uc main_arg6 (by decide))).trans (FrameH.W5_main_arg6 m ρ c),
     (h c _ (FrameH.mem_uc main_arg7 (by decide))).trans (FrameH.W5_main_arg7 m ρ c),
     (h c _ (FrameH.mem_uc main_arg8 (by decide))).trans (FrameH.W5_main_arg8 m ρ c),
     (h c _ (FrameH.mem_uc main_arg9 (by decide))).trans (FrameH.W5_main_arg9 m ρ c),
     (h c _ (FrameH.mem_uc main_arg10 (by decide))).trans (FrameH.W5_main_arg10 m ρ c),
     (h c _ (FrameH.mem_uc main_arg11 (by decide))).trans (FrameH.W5_main_arg11 m ρ c),
     (h c _ (FrameH.mem_uc main_arg12 (by decide))).trans (FrameH.W5_main_arg12 m ρ c)⟩) (FrameH.run_all (F := Ideal) m ρ)

end Cert.KernelIdeal.KVal

end
-- ==== Proof.Ref.Base.lean ====
import proofs.«134251_g19069654794669_cont_sun_m_30_29_alg».proof.Proof.Ref.RunP
import proofs.«134251_g19069654794669_cont_sun_m_30_29_alg».proof.Proof.Ref.ReadP
-- ==== Proof.Ref.SupAlg.lean ====
import proofs.«134251_g19069654794669_cont_sun_m_30_29_alg».proof.Proof.Spec
import proofs.«134251_g19069654794669_cont_sun_m_30_29_alg».proof.Proof.Alg
import Idealize.ShloMosaic.PureOps.Ideal.Laws
import Idealize.ShloMosaic.Lib.ValueIdx

noncomputable section

namespace Cert.ReferenceIdeal.RefValue

open Idealize.ShloMosaic Idealize.ShloMosaic.ValueIdx

def IsReal (x : EReal) : Prop := ∃ r : ℝ, x = (r : EReal)

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsReal.sum {n : Nat} (f : Fin n → EReal) (h : ∀ i, IsReal (f i)) : IsReal (∑ i, f i) := by
  choose g hg using h
  exact ⟨∑ i, g i, by rw [coe_sum]; exact Finset.sum_congr rfl fun i _ => hg i⟩

theorem isReal_div_sqrt {d : ℝ} (hd : 0 < d) : IsReal (Ideal.div 1 (Ideal.sqrt (d : EReal))) := by
  rw [Ideal.sqrt_coe, if_neg (not_lt.mpr hd.le)]
  have hs : Real.sqrt d ≠ 0 := (Real.sqrt_pos.mpr hd).ne'
  rw [Ideal.div_coe hs, one_mul]
  exact ⟨_, rfl⟩

theorem support_law_real (p a q e : ℝ) :
    (1 : EReal) * ((e : EReal) - ((p : EReal) * (a : EReal)) * (q : EReal)) - (e : EReal)
      = ((0 : EReal) - (p : EReal) * (a : EReal)) * (q : EReal) := by
  rw [one_mul, zero_sub, ← EReal.coe_mul, ← EReal.coe_mul, ← EReal.coe_sub, ← EReal.coe_sub, ← EReal.coe_neg, ← EReal.coe_mul]
  congr 1
  ring

theorem isReal_dis (adj : (⟨2, ![512, 512]⟩ : Shape).Idx → EReal) (hadj : ∀ i, IsReal (adj i)) (i : Fin 512) :
    IsReal (Cert.Spec.dis adj i) := by
  obtain ⟨d, hd⟩ : IsReal (Cert.Spec.deg adj i) := IsReal.sum _ fun j => (hadj _).max (hadj _)
  unfold Cert.Spec.dis Scalar.select
  rw [hd]
  split
  · next h =>
    have hpos : (0 : ℝ) < d := by
      by_contra hn
      have hlt : ¬ (Cert.Spec.zero < (d : EReal)) := by
        rw [Cert.Alg.zero_eq]; exact fun h' => hn (EReal.coe_pos.mp h')
      have hb : decide (Cert.Spec.zero < (d : EReal)) = false := decide_eq_false hlt
      rw [show Ideal.cmp .ogt (d : EReal) Cert.Spec.zero = BitVec.ofBool (decide (Cert.Spec.zero < (d : EReal))) from rfl, hb] at h
      exact absurd h (by decide)
    rw [Cert.Alg.one_eq]; exact isReal_div_sqrt hpos
  · exact ⟨0, Cert.Alg.zero_eq⟩

theorem sum_rows195 {M : Type} [AddCommMonoid M] (F : Fin 195 → M) :
    ∑ j : Fin 195, F j = ∑ f : Fin 65, ∑ k : Fin 3, F ⟨f.val * 3 + k.val, by have := f.isLt; have := k.isLt; omega⟩ := by
  rw [← Fintype.sum_prod_type']
  refine (Fintype.sum_equiv (finProdFinEquiv (m := 65) (n := 3)) _ _ fun p => ?_).symm
  refine congrArg F (Fin.ext ?_)
  show p.1.val * 3 + p.2.val = p.2.val + 3 * p.1.val
  omega

end Cert.ReferenceIdeal.RefValue

end
-- ==== Proof.Ref.Support.lean ====
import proofs.«134251_g19069654794669_cont_sun_m_30_29_alg».proof.Proof.Ref.Base
import proofs.«134251_g19069654794669_cont_sun_m_30_29_alg».proof.Proof.Ref.SupAlg

noncomputable section

namespace Cert.ReferenceIdeal.RefValue

open Cert.ReferenceIdeal Cert.ReferenceIdeal.Gen Cert.ReferenceIdeal.Read Idealize.ShloMosaic Idealize.ShloMosaic.ValueIdx

variable (x2 : (⟨S512x512, .f32⟩ : BufTy).Contents (Elt Ideal))

theorem v1_at (a b : Fin 512) : val_main_v1 (F := Ideal) x2 (ix2 a b) = Cert.Spec.sym x2 a b := by
  rw [val_main_v1_apply, val_main_v0_apply]
  have e : idx_main_v0 (ix2 a b) = ix2 b a := funext fun d => match d with
    | ⟨0, _⟩ => rfl
    | ⟨1, _⟩ => rfl
  rw [e]
  rfl

theorem v2_at (a : Fin 512) : val_main_v2 (F := Ideal) x2 (ix1 a) = Cert.Spec.deg x2 a := by
  rw [val_main_v2_apply, val_main_cst_apply]
  show Ideal.ofBits .f32 0x00000000#32 + _ = _
  rw [Ideal.ofBits_zero_f32, zero_add]
  unfold Cert.Spec.deg
  refine Finset.sum_congr rfl fun k _ => ?_
  have e : idx_main_v2 (ix1 a) k = ix2 a k := funext fun d => match d with
    | ⟨0, _⟩ => rfl
    | ⟨1, _⟩ => rfl
  rw [e]
  exact v1_at x2 a k

theorem v8_at (a : Fin 512) : val_main_v8 (F := Ideal) x2 (ix1 a) = Cert.Spec.dis x2 a := by
  rw [val_main_v8_apply, val_main_v4_apply, val_main_v7_apply, val_main_v5_apply, v2_at, val_main_v3_apply,
    val_main_cst_0_apply, val_main_v6_apply, val_main_cst_1_apply, val_main_call0_v1_apply, val_main_call0_v0_apply,
    val_main_cst_2_apply]
  rfl

theorem v29_eq_v14 (i : S512x512.Idx) : val_main_v29 (F := Ideal) i = val_main_v14 (F := Ideal) i := rfl

theorem v14_real (i : S512x512.Idx) : IsReal (val_main_v14 (F := Ideal) i) := ⟨_, rfl⟩

theorem ref_sup (hadj : ∀ i, ∃ r : ℝ, x2 i = (r : EReal)) (i : S512x512.Idx) :
    val_main_v30 (F := Ideal) x2 i = Cert.Spec.sup x2 ⟨(i 0).val, (i 0).isLt⟩ ⟨(i 1).val, (i 1).isLt⟩ := by
  obtain ⟨a, b, rfl⟩ : ∃ a b : Fin 512, i = ix2 a b := ⟨i 0, i 1, eq_ix2 i⟩
  show val_main_v30 (F := Ideal) x2 (ix2 a b) = Cert.Spec.sup x2 a b
  rw [val_main_v30_apply, val_main_v23_apply, val_main_v21_apply, val_main_v20_apply, val_main_v17_apply,
    val_main_v22_apply, val_main_cst_3_apply, val_main_v16_apply, val_main_v15_apply, val_main_v19_apply,
    val_main_v18_apply, v29_eq_v14]
  have e1 : idx_main_v15 (idx_main_v16 (ix2 a b)) = ix1 a := funext fun d => match d with
    | ⟨0, _⟩ => rfl
  have e2 : idx_main_v18 (idx_main_v19 (ix2 a b)) = ix1 b := funext fun d => match d with
    | ⟨0, _⟩ => rfl
  rw [e1, e2, v8_at, v8_at, v1_at]
  obtain ⟨p, hp⟩ := isReal_dis x2 hadj a
  obtain ⟨q, hq⟩ := isReal_dis x2 hadj b
  obtain ⟨s, hs⟩ : IsReal (Cert.Spec.sym x2 a b) := IsReal.max (hadj _) (hadj _)
  obtain ⟨e, he⟩ := v14_real (ix2 a b)
  unfold Cert.Spec.sup
  rw [hp, hq, hs, he]
  show Cert.Spec.one * ((e : EReal) - ((p : EReal) * (s : EReal)) * (q : EReal)) - (e : EReal)
    = (Cert.Spec.zero - (p : EReal) * (s : EReal)) * (q : EReal)
  rw [Cert.Alg.one_eq, Cert.Alg.zero_eq]
  exact support_law_real p s q e

end Cert.ReferenceIdeal.RefValue

end
-- ==== Proof.Ref.CellAlg.lean ====
import proofs.«134251_g19069654794669_cont_sun_m_30_29_alg».proof.Proof.Spec
import proofs.«134251_g19069654794669_cont_sun_m_30_29_alg».proof.Proof.Alg
import proofs.«134251_g19069654794669_cont_sun_m_30_29_alg».proof.Proof.Ref.SupAlg
import Idealize.ShloMosaic.Lib.Pipeline.Value
import Idealize.ShloMosaic.Lib.ValueIdx
import Idealize.ShloMosaic.PureOps.Ideal.Laws

namespace Cert.ReferenceIdeal.RefValue

open Idealize.ShloMosaic Idealize.ShloMosaic.ValueIdx Idealize.ShloMosaic.Pipeline

variable {α : Type}

theorem cat_feat_left (y1 : (⟨3, ![64, 512, 1]⟩ : Shape).Idx → α) (y2 : (⟨3, ![64, 512, 64]⟩ : Shape).Idx → α)
    (h : Shape.Concatenates [⟨3, ![64, 512, 1]⟩, ⟨3, ![64, 512, 64]⟩] ⟨3, ![64, 512, 65]⟩ 2)
    (b : Fin 64) (n : Fin 512) (g : Fin 65) (hg : g.val < 1) :
    concatenate ⟨3, ![64, 512, 65]⟩ 2 [⟨⟨3, ![64, 512, 1]⟩, y1⟩, ⟨⟨3, ![64, 512, 64]⟩, y2⟩] h (ix3 b n g)
      = y1 (ix3 b n ⟨0, Nat.one_pos⟩) :=
  concatenate_pair_apply_left 2 y1 y2 h _ rfl _ (fun d => by
    match d with
    | ⟨0, _⟩ => rfl
    | ⟨1, _⟩ => rfl
    | ⟨2, _⟩ => show 0 = g.val; omega)

theorem cat_feat_right (y1 : (⟨3, ![64, 512, 1]⟩ : Shape).Idx → α) (y2 : (⟨3, ![64, 512, 64]⟩ : Shape).Idx → α)
    (h : Shape.Concatenates [⟨3, ![64, 512, 1]⟩, ⟨3, ![64, 512, 64]⟩] ⟨3, ![64, 512, 65]⟩ 2)
    (b : Fin 64) (n : Fin 512) (g : Fin 65) (u : Fin 64) (hg : u.val + 1 = g.val) :
    concatenate ⟨3, ![64, 512, 65]⟩ 2 [⟨⟨3, ![64, 512, 1]⟩, y1⟩, ⟨⟨3, ![64, 512, 64]⟩, y2⟩] h (ix3 b n g)
      = y2 (ix3 b n u) :=
  concatenate_pair_apply_right 2 y1 y2 h _ rfl rfl _
    (fun d hd => by
      match d with
      | ⟨0, _⟩ => rfl
      | ⟨1, _⟩ => rfl
      | ⟨2, _⟩ => exact absurd rfl hd)
    hg

theorem cat_stack3 (N : Nat) (y0 y1 y2 : (⟨3, ![1, 512, N]⟩ : Shape).Idx → α)
    (h : Shape.Concatenates [⟨3, ![1, 512, N]⟩, ⟨3, ![1, 512, N]⟩, ⟨3, ![1, 512, N]⟩] ⟨3, ![3, 512, N]⟩ 0)
    (n : Fin 512) (c : Fin N) :
    concatenate ⟨3, ![3, 512, N]⟩ 0 [⟨⟨3, ![1, 512, N]⟩, y0⟩, ⟨⟨3, ![1, 512, N]⟩, y1⟩, ⟨⟨3, ![1, 512, N]⟩, y2⟩] h (ix3 ⟨0, by decide⟩ n c)
        = y0 (ix3 ⟨0, Nat.one_pos⟩ n c)
    ∧ concatenate ⟨3, ![3, 512, N]⟩ 0 [⟨⟨3, ![1, 512, N]⟩, y0⟩, ⟨⟨3, ![1, 512, N]⟩, y1⟩, ⟨⟨3, ![1, 512, N]⟩, y2⟩] h (ix3 ⟨1, by decide⟩ n c)
        = y1 (ix3 ⟨0, Nat.one_pos⟩ n c)
    ∧ concatenate ⟨3, ![3, 512, N]⟩ 0 [⟨⟨3, ![1, 512, N]⟩, y0⟩, ⟨⟨3, ![1, 512, N]⟩, y1⟩, ⟨⟨3, ![1, 512, N]⟩, y2⟩] h (ix3 ⟨2, by decide⟩ n c)
        = y2 (ix3 ⟨0, Nat.one_pos⟩ n c) := by
  refine ⟨?_, ?_, ?_⟩
  · exact concatenate_apply_piece (t := ⟨3, ![3, 512, N]⟩) 0 [⟨_, y0⟩, ⟨_, y1⟩, ⟨_, y2⟩] h _ 0 (by simp) _ y0 rfl rfl 0 rfl _
      (fun d hd => by
        match d with
        | ⟨0, _⟩ => exact absurd rfl hd
        | ⟨1, _⟩ => rfl
        | ⟨2, _⟩ => rfl) rfl
  · exact concatenate_apply_piece (t := ⟨3, ![3, 512, N]⟩) 0 [⟨_, y0⟩, ⟨_, y1⟩, ⟨_, y2⟩] h _ 1 (by simp) _ y1 rfl rfl 1 rfl _
      (fun d hd => by
        match d with
        | ⟨0, _⟩ => exact absurd rfl hd
        | ⟨1, _⟩ => rfl
        | ⟨2, _⟩ => rfl) rfl
  · exact concatenate_apply_piece (t := ⟨3, ![3, 512, N]⟩) 0 [⟨_, y0⟩, ⟨_, y1⟩, ⟨_, y2⟩] h _ 2 (by simp) _ y2 rfl rfl 2 rfl _
      (fun d hd => by
        match d with
        | ⟨0, _⟩ => exact absurd rfl hd
        | ⟨1, _⟩ => rfl
        | ⟨2, _⟩ => rfl) rfl

end Cert.ReferenceIdeal.RefValue

noncomputable section

namespace Cert.ReferenceIdeal.RefValue

open Idealize.ShloMosaic Idealize.ShloMosaic.ValueIdx

abbrev col (g : Fin 65) (b : Fin 64) : Fin 4160 := ⟨g.val * 64 + b.val, by have := g.isLt; have := b.isLt; omega⟩

abbrev row (b : Fin 64) (n : Fin 512) : Fin 32768 := ⟨b.val * 512 + n.val, by have := b.isLt; have := n.isLt; omega⟩

abbrev wrow (g : Fin 65) (k : Fin 3) : Fin 195 := ⟨g.val * 3 + k.val, by have := g.isLt; have := k.isLt; omega⟩

theorem feats_zero (inp : Fin 1 → Fin 512 → EReal) (st : Fin 64 → Fin 512 → EReal) (g : Fin 65) (hg : g.val < 1) :
    Cert.Spec.feats (ni := 1) inp st g = inp ⟨0, Nat.one_pos⟩ := by
  have e : g = Fin.castAdd 64 (⟨0, Nat.one_pos⟩ : Fin 1) := Fin.ext (by show g.val = 0; omega)
  rw [e]
  exact Fin.append_left inp st _

theorem feats_succ (inp : Fin 1 → Fin 512 → EReal) (st : Fin 64 → Fin 512 → EReal) (g : Fin 65) (u : Fin 64)
    (hg : u.val + 1 = g.val) : Cert.Spec.feats (ni := 1) inp st g = st u := by
  have e : g = Fin.natAdd 1 u := Fin.ext (by show g.val = 1 + u.val; omega)
  rw [e]
  exact Fin.append_right inp st u

theorem gate_of_rows {no : Nat} (S : Fin 512 → Fin 512 → EReal) (X : Fin 65 → Fin 512 → EReal)
    (W : (⟨2, ![195, no]⟩ : Shape).Idx → EReal) (bias : Fin no → EReal) (n : Fin 512) (o : Fin no) (V : Fin 195 → EReal)
    (hV : ∀ (f : Fin 65) (k : Fin 3), V ⟨f.val * 3 + k.val, by have := f.isLt; have := k.isLt; omega⟩ = Cert.Spec.cheb S k (X f) n) :
    (∑ j : Fin 195, V j * W (ix2 j o)) + bias o = Cert.Spec.gate S X (Cert.Spec.rows3 (nf := 65) W) bias n o := by
  unfold Cert.Spec.gate
  rw [sum_rows195]
  refine congrArg (· + bias o) (Finset.sum_congr rfl fun f _ => Finset.sum_congr rfl fun k _ => ?_)
  show V ⟨f.val * 3 + k.val, _⟩ * _ = _
  rw [hV f k]
  rfl

theorem logistic_form (z : EReal) : Ideal.div Cert.Spec.one (Cert.Spec.one + Ideal.exp (-z)) = Ideal.logistic z := by
  rw [Cert.Alg.one_eq]; rfl

end Cert.ReferenceIdeal.RefValue

end
-- ==== Proof.Ref.Feat0.lean ====
import proofs.«134251_g19069654794669_cont_sun_m_30_29_alg».proof.Proof.Ref.Base
import proofs.«134251_g19069654794669_cont_sun_m_30_29_alg».proof.Proof.Ref.CellAlg

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S64x512, .f32⟩ : BufTy).Contents (Elt Ideal)) (x1 : (⟨S2x64x32768, .f32⟩ : BufTy).Contents (Elt Ideal))

theorem v32_at (b : Fin 64) (q : Fin 32768) :
    val_main_v32 (F := Ideal) x1 (ix2 b q) = x1 (ix3 (0 : Fin 2) b q) := by
  rw [val_main_v32_apply, val_main_v31_apply]
  refine congrArg x1 (funext fun d => ?_)
  have hb := b.isLt; have hq := q.isLt
  match d with
  | ⟨0, _⟩ => rfl
  | ⟨1, _⟩ => exact Fin.ext (by show (b.val * 32768 + q.val) / 32768 % 64 = b.val; omega)
  | ⟨2, _⟩ => exact Fin.ext (by show (b.val * 32768 + q.val) % 32768 = q.val; omega)

theorem v33_at (b : Fin 64) (n : Fin 512) :
    val_main_v33 (F := Ideal) x0 (ix3 b n ⟨0, Nat.one_pos⟩) = x0 (ix2 b n) := by
  rw [val_main_v33_apply]
  refine congrArg x0 (funext fun d => ?_)
  have hb := b.isLt; have hn := n.isLt
  match d with
  | ⟨0, _⟩ => exact Fin.ext (by show ((b.val * 512 + n.val) * 1 + 0) / 512 = b.val; omega)
  | ⟨1, _⟩ => exact Fin.ext (by show ((b.val * 512 + n.val) * 1 + 0) % 512 = n.val; omega)

theorem v34_at (b : Fin 64) (n : Fin 512) (u : Fin 64) :
    val_main_v34 (F := Ideal) x1 (ix3 b n u)
      = val_main_v32 (F := Ideal) x1 (ix2 b ⟨n.val * 64 + u.val, by have := n.isLt; have := u.isLt; omega⟩) := by
  rw [val_main_v34_apply]
  refine congrArg (val_main_v32 (F := Ideal) x1) (funext fun d => ?_)
  have hb := b.isLt; have hn := n.isLt; have hu := u.isLt
  match d with
  | ⟨0, _⟩ => exact Fin.ext (by show ((b.val * 512 + n.val) * 64 + u.val) / 32768 = b.val; omega)
  | ⟨1, _⟩ => exact Fin.ext (by show ((b.val * 512 + n.val) * 64 + u.val) % 32768 = n.val * 64 + u.val; omega)

theorem v35_zero (b : Fin 64) (n : Fin 512) (g : Fin 65) (hg : g.val < 1) :
    val_main_v35 (F := Ideal) x0 x1 (ix3 b n g) = x0 (ix2 b n) := by
  unfold val_main_v35
  exact (cat_feat_left _ _ concatenates_S64x512x1_S64x512x64_S64x512x65_d2 b n g hg).trans (v33_at x0 b n)

theorem v35_succ (b : Fin 64) (n : Fin 512) (g : Fin 65) (u : Fin 64) (hg : u.val + 1 = g.val) :
    val_main_v35 (F := Ideal) x0 x1 (ix3 b n g)
      = x1 (ix3 (0 : Fin 2) b ⟨n.val * 64 + u.val, by have := n.isLt; have := u.isLt; omega⟩) := by
  unfold val_main_v35
  exact (cat_feat_right _ _ concatenates_S64x512x1_S64x512x64_S64x512x65_d2 b n g u hg).trans
    ((v34_at x1 b n u).trans (v32_at x1 b _))

theorem v35_at (b : Fin 64) (n : Fin 512) (g : Fin 65) :
    val_main_v35 (F := Ideal) x0 x1 (ix3 b n g)
      = Cert.Spec.feats (ni := 1) (fun (_ : Fin 1) n => x0 (ix2 b n))
          (fun u n => x1 (ix3 (0 : Fin 2) b ⟨n.val * 64 + u.val, by have := n.isLt; have := u.isLt; omega⟩)) g n := by
  by_cases hg : g.val < 1
  · rw [v35_zero x0 x1 b n g hg, feats_zero _ _ g hg]
  · have hu : (g.val - 1) + 1 = g.val := by omega
    rw [v35_succ x0 x1 b n g ⟨g.val - 1, by have := g.isLt; omega⟩ hu,
      feats_succ _ _ g ⟨g.val - 1, by have := g.isLt; omega⟩ hu]

end Cert.ReferenceIdeal.RefValue

end
-- ==== Proof.Ref.Gconv0.lean ====
import proofs.«134251_g19069654794669_cont_sun_m_30_29_alg».proof.Proof.Ref.Base
import proofs.«134251_g19069654794669_cont_sun_m_30_29_alg».proof.Proof.Ref.CellAlg

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S64x512, .f32⟩ : BufTy).Contents (Elt Ideal)) (x1 : (⟨S2x64x32768, .f32⟩ : BufTy).Contents (Elt Ideal))
  (x2 : (⟨S512x512, .f32⟩ : BufTy).Contents (Elt Ideal)) (x3 : (⟨S195x128, .f32⟩ : BufTy).Contents (Elt Ideal))
  (x4 : (⟨S128, .f32⟩ : BufTy).Contents (Elt Ideal))

theorem v37_at (n : Fin 512) (g : Fin 65) (b : Fin 64) :
    val_main_v37 (F := Ideal) x0 x1 (ix2 n (col g b)) = val_main_v35 (F := Ideal) x0 x1 (ix3 b n g) := by
  rw [val_main_v37_apply, val_main_v36_apply]
  refine congrArg (val_main_v35 (F := Ideal) x0 x1) (funext fun d => ?_)
  have hn := n.isLt; have hg := g.isLt; have hb := b.isLt
  match d with
  | ⟨0, _⟩ => exact Fin.ext (by show (n.val * 4160 + (g.val * 64 + b.val)) % 64 = b.val; omega)
  | ⟨1, _⟩ => exact Fin.ext (by show (n.val * 4160 + (g.val * 64 + b.val)) / 4160 = n.val; omega)
  | ⟨2, _⟩ => exact Fin.ext (by show (n.val * 4160 + (g.val * 64 + b.val)) / 64 % 65 = g.val; omega)

theorem v49_at (b : Fin 64) (n : Fin 512) (g : Fin 65) (k : Fin 3) :
    val_main_v49 (F := Ideal) x0 x1 x2 (ix2 (row b n) (wrow g k)) = val_main_v46 (F := Ideal) x0 x1 x2 (ix3 k n (col g b)) := by
  rw [val_main_v49_apply, val_main_v48_apply, val_main_v47_apply]
  refine congrArg (val_main_v46 (F := Ideal) x0 x1 x2) (funext fun d => ?_)
  have hb := b.isLt; have hn := n.isLt; have hg := g.isLt; have hk := k.isLt
  have hK : ((b.val * 512 + n.val) * 195 + (g.val * 3 + k.val)) % 3 = k.val := by omega
  have hG : ((b.val * 512 + n.val) * 195 + (g.val * 3 + k.val)) / 3 % 65 = g.val := by omega
  have hN : ((b.val * 512 + n.val) * 195 + (g.val * 3 + k.val)) / 195 % 512 = n.val := by omega
  have hB : ((b.val * 512 + n.val) * 195 + (g.val * 3 + k.val)) / 99840 = b.val := by omega
  match d with
  | ⟨0, _⟩ => exact Fin.ext (by
      show (((((b.val * 512 + n.val) * 195 + (g.val * 3 + k.val)) % 3 * 512 + ((b.val * 512 + n.val) * 195 + (g.val * 3 + k.val)) / 195 % 512) * 65 + ((b.val * 512 + n.val) * 195 + (g.val * 3 + k.val)) / 3 % 65) * 64 + ((b.val * 512 + n.val) * 195 + (g.val * 3 + k.val)) / 99840) / 2129920 = k.val
      rw [hK, hG, hN, hB]
      clear hK hG hN hB
      omega)
  | ⟨1, _⟩ => exact Fin.ext (by
      show (((((b.val * 512 + n.val) * 195 + (g.val * 3 + k.val)) % 3 * 512 + ((b.val * 512 + n.val) * 195 + (g.val * 3 + k.val)) / 195 % 512) * 65 + ((b.val * 512 + n.val) * 195 + (g.val * 3 + k.val)) / 3 % 65) * 64 + ((b.val * 512 + n.val) * 195 + (g.val * 3 + k.val)) / 99840) / 4160 % 512 = n.val
      rw [hK, hG, hN, hB]
      clear hK hG hN hB
      have h1 : (((k.val * 512 + n.val) * 65 + g.val) * 64 + b.val) / 4160 = k.val * 512 + n.val := by omega
      rw [h1]; omega)
  | ⟨2, _⟩ => exact Fin.ext (by
      show (((((b.val * 512 + n.val) * 195 + (g.val * 3 + k.val)) % 3 * 512 + ((b.val * 512 + n.val) * 195 + (g.val * 3 + k.val)) / 195 % 512) * 65 + ((b.val * 512 + n.val) * 195 + (g.val * 3 + k.val)) / 3 % 65) * 64 + ((b.val * 512 + n.val) * 195 + (g.val * 3 + k.val)) / 99840) % 4160 = g.val * 64 + b.val
      rw [hK, hG, hN, hB]
      clear hK hG hN hB
      omega)

theorem v50_at (b : Fin 64) (n : Fin 512) (o : Fin 128) :
    val_main_v50 (F := Ideal) x0 x1 x2 x3 (ix2 (row b n) o)
      = ∑ j : Fin 195, val_main_v49 (F := Ideal) x0 x1 x2 (ix2 (row b n) j) * x3 (ix2 j o) := by
  rw [val_main_v50_apply]
  refine Finset.sum_congr rfl fun j _ => ?_
  have el : lidx_main_v50 (ix2 (row b n) o) j = ix2 (row b n) j := funext fun d => match d with
    | ⟨0, _⟩ => rfl
    | ⟨1, _⟩ => rfl
  have er : ridx_main_v50 (ix2 (row b n) o) j = ix2 j o := funext fun d => match d with
    | ⟨0, _⟩ => rfl
    | ⟨1, _⟩ => rfl
  rw [el, er]

theorem v54_at (b : Fin 64) (n : Fin 512) (o : Fin 128) :
    val_main_v54 (F := Ideal) x0 x1 x2 x3 x4 (ix2 b ⟨n.val * 128 + o.val, by have := n.isLt; have := o.isLt; omega⟩)
      = val_main_v53 (F := Ideal) x0 x1 x2 x3 x4 (ix2 (row b n) o) := by
  rw [val_main_v54_apply]
  refine congrArg (val_main_v53 (F := Ideal) x0 x1 x2 x3 x4) (funext fun d => ?_)
  have hb := b.isLt; have hn := n.isLt; have ho := o.isLt
  match d with
  | ⟨0, _⟩ => exact Fin.ext (by show (b.val * 65536 + (n.val * 128 + o.val)) / 128 = b.val * 512 + n.val; omega)
  | ⟨1, _⟩ => exact Fin.ext (by show (b.val * 65536 + (n.val * 128 + o.val)) % 128 = o.val; omega)

section Values

variable (X : Fin 64 → Fin 65 → Fin 512 → EReal)

theorem v38_at (hsup : ∀ i : S512x512.Idx, val_main_v30 (F := Ideal) x2 i = Cert.Spec.sup x2 ⟨(i 0).val, (i 0).isLt⟩ ⟨(i 1).val, (i 1).isLt⟩)
    (hX : ∀ (b : Fin 64) (n : Fin 512) (g : Fin 65), val_main_v35 (F := Ideal) x0 x1 (ix3 b n g) = X b g n) (n : Fin 512) (g : Fin 65) (b : Fin 64) :
    val_main_v38 (F := Ideal) x0 x1 x2 (ix2 n (col g b)) = Cert.Spec.diff (Cert.Spec.sup x2) (X b g) n := by
  rw [val_main_v38_apply]
  show _ = ∑ m : Fin 512, Cert.Spec.sup x2 n m * X b g m
  refine Finset.sum_congr rfl fun m _ => ?_
  have el : lidx_main_v38 (ix2 n (col g b)) m = ix2 n m := funext fun d => match d with
    | ⟨0, _⟩ => rfl
    | ⟨1, _⟩ => rfl
  have er : ridx_main_v38 (ix2 n (col g b)) m = ix2 m (col g b) := funext fun d => match d with
    | ⟨0, _⟩ => rfl
    | ⟨1, _⟩ => rfl
  rw [el, er, hsup, v37_at, hX]

theorem v39_at (hsup : ∀ i : S512x512.Idx, val_main_v30 (F := Ideal) x2 i = Cert.Spec.sup x2 ⟨(i 0).val, (i 0).isLt⟩ ⟨(i 1).val, (i 1).isLt⟩)
    (hX : ∀ (b : Fin 64) (n : Fin 512) (g : Fin 65), val_main_v35 (F := Ideal) x0 x1 (ix3 b n g) = X b g n) (n : Fin 512) (g : Fin 65) (b : Fin 64) :
    val_main_v39 (F := Ideal) x0 x1 x2 (ix2 n (col g b))
      = Cert.Spec.diff (Cert.Spec.sup x2) (Cert.Spec.diff (Cert.Spec.sup x2) (X b g)) n := by
  rw [val_main_v39_apply]
  show _ = ∑ m : Fin 512, Cert.Spec.sup x2 n m * Cert.Spec.diff (Cert.Spec.sup x2) (X b g) m
  refine Finset.sum_congr rfl fun m _ => ?_
  have el : lidx_main_v39 (ix2 n (col g b)) m = ix2 n m := funext fun d => match d with
    | ⟨0, _⟩ => rfl
    | ⟨1, _⟩ => rfl
  have er : ridx_main_v39 (ix2 n (col g b)) m = ix2 m (col g b) := funext fun d => match d with
    | ⟨0, _⟩ => rfl
    | ⟨1, _⟩ => rfl
  rw [el, er, hsup, v38_at x0 x1 x2 X hsup hX]

theorem v42_at (hsup : ∀ i : S512x512.Idx, val_main_v30 (F := Ideal) x2 i = Cert.Spec.sup x2 ⟨(i 0).val, (i 0).isLt⟩ ⟨(i 1).val, (i 1).isLt⟩)
    (hX : ∀ (b : Fin 64) (n : Fin 512) (g : Fin 65), val_main_v35 (F := Ideal) x0 x1 (ix3 b n g) = X b g n) (n : Fin 512) (g : Fin 65) (b : Fin 64) :
    val_main_v42 (F := Ideal) x0 x1 x2 (ix2 n (col g b))
      = Cert.Spec.two * Cert.Spec.diff (Cert.Spec.sup x2) (Cert.Spec.diff (Cert.Spec.sup x2) (X b g)) n - X b g n := by
  rw [val_main_v42_apply, val_main_v41_apply, val_main_v40_apply, val_main_cst_5_apply,
    v39_at x0 x1 x2 X hsup hX, v37_at, hX]
  rfl

theorem v46_at (hsup : ∀ i : S512x512.Idx, val_main_v30 (F := Ideal) x2 i = Cert.Spec.sup x2 ⟨(i 0).val, (i 0).isLt⟩ ⟨(i 1).val, (i 1).isLt⟩)
    (hX : ∀ (b : Fin 64) (n : Fin 512) (g : Fin 65), val_main_v35 (F := Ideal) x0 x1 (ix3 b n g) = X b g n) (k : Fin 3) (n : Fin 512) (g : Fin 65) (b : Fin 64) :
    val_main_v46 (F := Ideal) x0 x1 x2 (ix3 k n (col g b)) = Cert.Spec.cheb (Cert.Spec.sup x2) k (X b g) n := by
  unfold val_main_v46
  obtain ⟨h0, h1, h2⟩ := cat_stack3 4160 (val_main_v43 (F := Ideal) x0 x1) (val_main_v44 (F := Ideal) x0 x1 x2)
    (val_main_v45 (F := Ideal) x0 x1 x2) concatenates_S1x512x4160_S1x512x4160_S1x512x4160_S3x512x4160_d0 n (col g b)
  have e43 : idx_main_v43 (ix3 ⟨0, Nat.one_pos⟩ n (col g b)) = ix2 n (col g b) := funext fun d => match d with
    | ⟨0, _⟩ => rfl
    | ⟨1, _⟩ => rfl
  have e44 : idx_main_v44 (ix3 ⟨0, Nat.one_pos⟩ n (col g b)) = ix2 n (col g b) := funext fun d => match d with
    | ⟨0, _⟩ => rfl
    | ⟨1, _⟩ => rfl
  have e45 : idx_main_v45 (ix3 ⟨0, Nat.one_pos⟩ n (col g b)) = ix2 n (col g b) := funext fun d => match d with
    | ⟨0, _⟩ => rfl
    | ⟨1, _⟩ => rfl
  match k with
  | ⟨0, _⟩ =>
    refine h0.trans ?_
    rw [val_main_v43_apply, e43, v37_at, hX]
    rfl
  | ⟨1, _⟩ =>
    refine h1.trans ?_
    rw [val_main_v44_apply, e44]
    exact v38_at x0 x1 x2 X hsup hX n g b
  | ⟨2, _⟩ =>
    refine h2.trans ?_
    rw [val_main_v45_apply, e45]
    exact v42_at x0 x1 x2 X hsup hX n g b

theorem v53_at (hsup : ∀ i : S512x512.Idx, val_main_v30 (F := Ideal) x2 i = Cert.Spec.sup x2 ⟨(i 0).val, (i 0).isLt⟩ ⟨(i 1).val, (i 1).isLt⟩)
    (hX : ∀ (b : Fin 64) (n : Fin 512) (g : Fin 65), val_main_v35 (F := Ideal) x0 x1 (ix3 b n g) = X b g n) (b : Fin 64) (n : Fin 512) (o : Fin 128) :
    val_main_v53 (F := Ideal) x0 x1 x2 x3 x4 (ix2 (row b n) o)
      = Cert.Spec.gate (Cert.Spec.sup x2) (X b) (Cert.Spec.rows3 (nf := 65) x3) (fun o => x4 (ix1 o)) n o := by
  rw [val_main_v53_apply, v50_at, val_main_v52_apply, val_main_v51_apply]
  have e : idx_main_v51 (idx_main_v52 (ix2 (row b n) o)) = ix1 o := funext fun d => match d with
    | ⟨0, _⟩ => rfl
  rw [e]
  exact gate_of_rows (Cert.Spec.sup x2) (X b) x3 (fun o => x4 (ix1 o)) n o
    (fun j => val_main_v49 (F := Ideal) x0 x1 x2 (ix2 (row b n) j))
    (fun f k => (v49_at x0 x1 x2 b n f k).trans (v46_at x0 x1 x2 X hsup hX k n f b))

end Values

end Cert.ReferenceIdeal.RefValue

end
-- ==== Proof.Ref.Layer0a.lean ====
import proofs.«134251_g19069654794669_cont_sun_m_30_29_alg».proof.Proof.Ref.Base
import proofs.«134251_g19069654794669_cont_sun_m_30_29_alg».proof.Proof.Ref.CellAlg
import proofs.«134251_g19069654794669_cont_sun_m_30_29_alg».proof.Proof.Ref.Feat0
import proofs.«134251_g19069654794669_cont_sun_m_30_29_alg».proof.Proof.Ref.Gconv0

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S64x512, .f32⟩ : BufTy).Contents (Elt Ideal)) (x1 : (⟨S2x64x32768, .f32⟩ : BufTy).Contents (Elt Ideal))
  (x2 : (⟨S512x512, .f32⟩ : BufTy).Contents (Elt Ideal)) (x3 : (⟨S195x128, .f32⟩ : BufTy).Contents (Elt Ideal))
  (x4 : (⟨S128, .f32⟩ : BufTy).Contents (Elt Ideal))

theorem v60_at (b : Fin 64) (q : Fin 65536) :
    val_main_v60 (F := Ideal) x0 x1 x2 x3 x4 (ix2 b q)
      = Ideal.logistic (val_main_v54 (F := Ideal) x0 x1 x2 x3 x4 (ix2 b q)) := by
  rw [val_main_v60_apply, val_main_v59_apply, val_main_cst_7_apply, val_main_v58_apply, val_main_v57_apply,
    val_main_cst_6_apply, val_main_v56_apply, val_main_v55_apply]
  exact logistic_form _

theorem v61_at (b : Fin 64) (n : Fin 512) (o : Fin 128) :
    val_main_v61 (F := Ideal) x0 x1 x2 x3 x4 (ix3 b n o)
      = val_main_v60 (F := Ideal) x0 x1 x2 x3 x4 (ix2 b ⟨n.val * 128 + o.val, by have := n.isLt; have := o.isLt; omega⟩) := by
  rw [val_main_v61_apply]
  refine congrArg (val_main_v60 (F := Ideal) x0 x1 x2 x3 x4) (funext fun d => ?_)
  have hb := b.isLt; have hn := n.isLt; have ho := o.isLt
  match d with
  | ⟨0, _⟩ => exact Fin.ext (by show ((b.val * 512 + n.val) * 128 + o.val) / 65536 = b.val; omega)
  | ⟨1, _⟩ => exact Fin.ext (by show ((b.val * 512 + n.val) * 128 + o.val) % 65536 = n.val * 128 + o.val; omega)

theorem v63_idx (b : Fin 64) (n : Fin 512) (u : Fin 64) :
    val_main_v63 (F := Ideal) x0 x1 x2 x3 x4 (ix2 b ⟨n.val * 64 + u.val, by have := n.isLt; have := u.isLt; omega⟩)
      = val_main_v61 (F := Ideal) x0 x1 x2 x3 x4 (ix3 b n (Fin.castAdd 64 u)) := by
  rw [val_main_v63_apply, val_main_v62_apply]
  refine congrArg (val_main_v61 (F := Ideal) x0 x1 x2 x3 x4) (funext fun d => ?_)
  have hb := b.isLt; have hn := n.isLt; have hu := u.isLt
  match d with
  | ⟨0, _⟩ => exact Fin.ext (by show (b.val * 32768 + (n.val * 64 + u.val)) / 32768 = b.val; omega)
  | ⟨1, _⟩ => exact Fin.ext (by show (b.val * 32768 + (n.val * 64 + u.val)) / 64 % 512 = n.val; omega)
  | ⟨2, _⟩ => exact Fin.ext (by show (b.val * 32768 + (n.val * 64 + u.val)) % 64 = u.val; omega)

theorem v65_idx (b : Fin 64) (n : Fin 512) (u : Fin 64) :
    val_main_v65 (F := Ideal) x0 x1 x2 x3 x4 (ix2 b ⟨n.val * 64 + u.val, by have := n.isLt; have := u.isLt; omega⟩)
      = val_main_v61 (F := Ideal) x0 x1 x2 x3 x4 (ix3 b n (Fin.natAdd 64 u)) := by
  rw [val_main_v65_apply, val_main_v64_apply]
  refine congrArg (val_main_v61 (F := Ideal) x0 x1 x2 x3 x4) (funext fun d => ?_)
  have hb := b.isLt; have hn := n.isLt; have hu := u.isLt
  match d with
  | ⟨0, _⟩ => exact Fin.ext (by show (b.val * 32768 + (n.val * 64 + u.val)) / 32768 = b.val; omega)
  | ⟨1, _⟩ => exact Fin.ext (by show (b.val * 32768 + (n.val * 64 + u.val)) / 64 % 512 = n.val; omega)
  | ⟨2, _⟩ => exact Fin.ext (by show 64 + (b.val * 32768 + (n.val * 64 + u.val)) % 64 = 64 + u.val; omega)

theorem v61_val (hsup : ∀ i : S512x512.Idx, val_main_v30 (F := Ideal) x2 i = Cert.Spec.sup x2 ⟨(i 0).val, (i 0).isLt⟩ ⟨(i 1).val, (i 1).isLt⟩)
    (b : Fin 64) (n : Fin 512) (o : Fin 128) :
    val_main_v61 (F := Ideal) x0 x1 x2 x3 x4 (ix3 b n o)
      = Cert.Spec.ruGate (Cert.Spec.sup x2) (ni := 1) (fun (_ : Fin 1) n => x0 (ix2 b n))
          (fun u n => x1 (ix3 (0 : Fin 2) b ⟨n.val * 64 + u.val, by have := n.isLt; have := u.isLt; omega⟩))
          (Cert.Spec.rows3 (nf := 65) x3) (fun o => x4 (ix1 o)) n o := by
  rw [v61_at, v60_at, v54_at,
    v53_at x0 x1 x2 x3 x4
      (fun b => Cert.Spec.feats (ni := 1) (fun (_ : Fin 1) n => x0 (ix2 b n))
        (fun u n => x1 (ix3 (0 : Fin 2) b ⟨n.val * 64 + u.val, by have := n.isLt; have := u.isLt; omega⟩)))
      hsup (fun b n g => v35_at x0 x1 b n g)]
  rfl

theorem v63_at (hsup : ∀ i : S512x512.Idx, val_main_v30 (F := Ideal) x2 i = Cert.Spec.sup x2 ⟨(i 0).val, (i 0).isLt⟩ ⟨(i 1).val, (i 1).isLt⟩)
    (b : Fin 64) (n : Fin 512) (u : Fin 64) :
    val_main_v63 (F := Ideal) x0 x1 x2 x3 x4 (ix2 b ⟨n.val * 64 + u.val, by have := n.isLt; have := u.isLt; omega⟩)
      = Cert.Spec.rGate (Cert.Spec.sup x2) (ni := 1) (fun (_ : Fin 1) n => x0 (ix2 b n))
          (fun u n => x1 (ix3 (0 : Fin 2) b ⟨n.val * 64 + u.val, by have := n.isLt; have := u.isLt; omega⟩))
          (Cert.Spec.rows3 (nf := 65) x3) (fun o => x4 (ix1 o)) u n := by
  rw [v63_idx, v61_val x0 x1 x2 x3 x4 hsup]
  rfl

theorem v65_at (hsup : ∀ i : S512x512.Idx, val_main_v30 (F := Ideal) x2 i = Cert.Spec.sup x2 ⟨(i 0).val, (i 0).isLt⟩ ⟨(i 1).val, (i 1).isLt⟩)
    (b : Fin 64) (n : Fin 512) (u : Fin 64) :
    val_main_v65 (F := Ideal) x0 x1 x2 x3 x4 (ix2 b ⟨n.val * 64 + u.val, by have := n.isLt; have := u.isLt; omega⟩)
      = Cert.Spec.uGate (Cert.Spec.sup x2) (ni := 1) (fun (_ : Fin 1) n => x0 (ix2 b n))
          (fun u n => x1 (ix3 (0 : Fin 2) b ⟨n.val * 64 + u.val, by have := n.isLt; have := u.isLt; omega⟩))
          (Cert.Spec.rows3 (nf := 65) x3) (fun o => x4 (ix1 o)) u n := by
  rw [v65_idx, v61_val x0 x1 x2 x3 x4 hsup]
  rfl

end Cert.ReferenceIdeal.RefValue

end
-- ==== Proof.Ref.Layer0b.lean ====
import proofs.«134251_g19069654794669_cont_sun_m_30_29_alg».proof.Proof.Ref.Base
import proofs.«134251_g19069654794669_cont_sun_m_30_29_alg».proof.Proof.Ref.CellAlg
import proofs.«134251_g19069654794669_cont_sun_m_30_29_alg».proof.Proof.Ref.Feat0

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S64x512, .f32⟩ : BufTy).Contents (Elt Ideal)) (x1 : (⟨S2x64x32768, .f32⟩ : BufTy).Contents (Elt Ideal))
  (x2 : (⟨S512x512, .f32⟩ : BufTy).Contents (Elt Ideal)) (x3 : (⟨S195x128, .f32⟩ : BufTy).Contents (Elt Ideal))
  (x4 : (⟨S128, .f32⟩ : BufTy).Contents (Elt Ideal)) (x5 : (⟨S195x64, .f32⟩ : BufTy).Contents (Elt Ideal))
  (x6 : (⟨S64, .f32⟩ : BufTy).Contents (Elt Ideal))

abbrev pos (n : Fin 512) (u : Fin 64) : Fin 32768 := ⟨n.val * 64 + u.val, by have := n.isLt; have := u.isLt; omega⟩

abbrev inpOf (b : Fin 64) : Fin 1 → Fin 512 → EReal := fun _ n => x0 (ix2 b n)

abbrev stOf (b : Fin 64) : Fin 64 → Fin 512 → EReal := fun u n => x1 (ix3 (0 : Fin 2) b (pos n u))

abbrev resetOf (b : Fin 64) : Fin 64 → Fin 512 → EReal := fun u n =>
  Cert.Spec.rGate (Cert.Spec.sup x2) (inpOf x0 b) (stOf x1 b) (Cert.Spec.rows3 (nf := 65) x3) (fun o => x4 (ix1 o)) u n
    * stOf x1 b u n

abbrev featOf (b : Fin 64) : Fin 65 → Fin 512 → EReal := Cert.Spec.feats (ni := 1) (inpOf x0 b) (resetOf x0 x1 x2 x3 x4 b)

theorem v67_at (b : Fin 64) (n : Fin 512) :
    val_main_v67 (F := Ideal) x0 (ix3 b n ⟨0, Nat.one_pos⟩) = x0 (ix2 b n) := by
  rw [val_main_v67_apply]
  refine congrArg x0 (funext fun d => ?_)
  have hb := b.isLt; have hn := n.isLt
  match d with
  | ⟨0, _⟩ => exact Fin.ext (by show ((b.val * 512 + n.val) * 1 + 0) / 512 = b.val; omega)
  | ⟨1, _⟩ => exact Fin.ext (by show ((b.val * 512 + n.val) * 1 + 0) % 512 = n.val; omega)

theorem v68_at (b : Fin 64) (n : Fin 512) (u : Fin 64) :
    val_main_v68 (F := Ideal) x0 x1 x2 x3 x4 (ix3 b n u) = val_main_v66 (F := Ideal) x0 x1 x2 x3 x4 (ix2 b (pos n u)) := by
  rw [val_main_v68_apply]
  refine congrArg (val_main_v66 (F := Ideal) x0 x1 x2 x3 x4) (funext fun d => ?_)
  have hb := b.isLt; have hn := n.isLt; have hu := u.isLt
  match d with
  | ⟨0, _⟩ => exact Fin.ext (by show ((b.val * 512 + n.val) * 64 + u.val) / 32768 = b.val; omega)
  | ⟨1, _⟩ => exact Fin.ext (by show ((b.val * 512 + n.val) * 64 + u.val) % 32768 = n.val * 64 + u.val; omega)

theorem v71_at (n : Fin 512) (g : Fin 65) (b : Fin 64) :
    val_main_v71 (F := Ideal) x0 x1 x2 x3 x4 (ix2 n (col g b)) = val_main_v69 (F := Ideal) x0 x1 x2 x3 x4 (ix3 b n g) := by
  rw [val_main_v71_apply, val_main_v70_apply]
  refine congrArg (val_main_v69 (F := Ideal) x0 x1 x2 x3 x4) (funext fun d => ?_)
  have hn := n.isLt; have hg := g.isLt; have hb := b.isLt
  match d with
  | ⟨0, _⟩ => exact Fin.ext (by show (n.val * 4160 + (g.val * 64 + b.val)) % 64 = b.val; omega)
  | ⟨1, _⟩ => exact Fin.ext (by show (n.val * 4160 + (g.val * 64 + b.val)) / 4160 = n.val; omega)
  | ⟨2, _⟩ => exact Fin.ext (by show (n.val * 4160 + (g.val * 64 + b.val)) / 64 % 65 = g.val; omega)

theorem v83_at (b : Fin 64) (n : Fin 512) (g : Fin 65) (k : Fin 3) :
    val_main_v83 (F := Ideal) x0 x1 x2 x3 x4 (ix2 (row b n) (wrow g k))
      = val_main_v80 (F := Ideal) x0 x1 x2 x3 x4 (ix3 k n (col g b)) := by
  rw [val_main_v83_apply, val_main_v82_apply, val_main_v81_apply]
  refine congrArg (val_main_v80 (F := Ideal) x0 x1 x2 x3 x4) (funext fun d => ?_)
  have hb := b.isLt; have hn := n.isLt; have hg := g.isLt; have hk := k.isLt
  have hK : ((b.val * 512 + n.val) * 195 + (g.val * 3 + k.val)) % 3 = k.val := by omega
  have hG : ((b.val * 512 + n.val) * 195 + (g.val * 3 + k.val)) / 3 % 65 = g.val := by omega
  have hN : ((b.val * 512 + n.val) * 195 + (g.val * 3 + k.val)) / 195 % 512 = n.val := by omega
  have hB : ((b.val * 512 + n.val) * 195 + (g.val * 3 + k.val)) / 99840 = b.val := by omega
  match d with
  | ⟨0, _⟩ => exact Fin.ext (by
      show (((((b.val * 512 + n.val) * 195 + (g.val * 3 + k.val)) % 3 * 512 + ((b.val * 512 + n.val) * 195 + (g.val * 3 + k.val)) / 195 % 512) * 65 + ((b.val * 512 + n.val) * 195 + (g.val * 3 + k.val)) / 3 % 65) * 64 + ((b.val * 512 + n.val) * 195 + (g.val * 3 + k.val)) / 99840) / 2129920 = k.val
      rw [hK, hG, hN, hB]
      clear hK hG hN hB
      omega)
  | ⟨1, _⟩ => exact Fin.ext (by
      show (((((b.val * 512 + n.val) * 195 + (g.val * 3 + k.val)) % 3 * 512 + ((b.val * 512 + n.val) * 195 + (g.val * 3 + k.val)) / 195 % 512) * 65 + ((b.val * 512 + n.val) * 195 + (g.val * 3 + k.val)) / 3 % 65) * 64 + ((b.val * 512 + n.val) * 195 + (g.val * 3 + k.val)) / 99840) / 4160 % 512 = n.val
      rw [hK, hG, hN, hB]
      clear hK hG hN hB
      have h1 : (((k.val * 512 + n.val) * 65 + g.val) * 64 + b.val) / 4160 = k.val * 512 + n.val := by omega
      rw [h1]; omega)
  | ⟨2, _⟩ => exact Fin.ext (by
      show (((((b.val * 512 + n.val) * 195 + (g.val * 3 + k.val)) % 3 * 512 + ((b.val * 512 + n.val) * 195 + (g.val * 3 + k.val)) / 195 % 512) * 65 + ((b.val * 512 + n.val) * 195 + (g.val * 3 + k.val)) / 3 % 65) * 64 + ((b.val * 512 + n.val) * 195 + (g.val * 3 + k.val)) / 99840) % 4160 = g.val * 64 + b.val
      rw [hK, hG, hN, hB]
      clear hK hG hN hB
      omega)

theorem v84_at (b : Fin 64) (n : Fin 512) (o : Fin 64) :
    val_main_v84 (F := Ideal) x0 x1 x2 x3 x4 x5 (ix2 (row b n) o)
      = ∑ j : Fin 195, val_main_v83 (F := Ideal) x0 x1 x2 x3 x4 (ix2 (row b n) j) * x5 (ix2 j o) := by
  rw [val_main_v84_apply]
  refine Finset.sum_congr rfl fun j _ => ?_
  have el : lidx_main_v84 (ix2 (row b n) o) j = ix2 (row b n) j := funext fun d => match d with
    | ⟨0, _⟩ => rfl
    | ⟨1, _⟩ => rfl
  have er : ridx_main_v84 (ix2 (row b n) o) j = ix2 j o := funext fun d => match d with
    | ⟨0, _⟩ => rfl
    | ⟨1, _⟩ => rfl
  rw [el, er]

theorem v88_at (b : Fin 64) (n : Fin 512) (u : Fin 64) :
    val_main_v88 (F := Ideal) x0 x1 x2 x3 x4 x5 x6 (ix2 b (pos n u))
      = val_main_v87 (F := Ideal) x0 x1 x2 x3 x4 x5 x6 (ix2 (row b n) u) := by
  rw [val_main_v88_apply]
  refine congrArg (val_main_v87 (F := Ideal) x0 x1 x2 x3 x4 x5 x6) (funext fun d => ?_)
  have hb := b.isLt; have hn := n.isLt; have hu := u.isLt
  match d with
  | ⟨0, _⟩ => exact Fin.ext (by show (b.val * 32768 + (n.val * 64 + u.val)) / 64 = b.val * 512 + n.val; omega)
  | ⟨1, _⟩ => exact Fin.ext (by show (b.val * 32768 + (n.val * 64 + u.val)) % 64 = u.val; omega)

section Values

variable
  (hsup : ∀ i : S512x512.Idx, val_main_v30 (F := Ideal) x2 i = Cert.Spec.sup x2 ⟨(i 0).val, (i 0).isLt⟩ ⟨(i 1).val, (i 1).isLt⟩)
  (hr : ∀ (b : Fin 64) (n : Fin 512) (u : Fin 64), val_main_v63 (F := Ideal) x0 x1 x2 x3 x4 (ix2 b (pos n u))
    = Cert.Spec.rGate (Cert.Spec.sup x2) (inpOf x0 b) (stOf x1 b) (Cert.Spec.rows3 (nf := 65) x3) (fun o => x4 (ix1 o)) u n)
  (hu : ∀ (b : Fin 64) (n : Fin 512) (u : Fin 64), val_main_v65 (F := Ideal) x0 x1 x2 x3 x4 (ix2 b (pos n u))
    = Cert.Spec.uGate (Cert.Spec.sup x2) (inpOf x0 b) (stOf x1 b) (Cert.Spec.rows3 (nf := 65) x3) (fun o => x4 (ix1 o)) u n)

include hr in

theorem v66_at (b : Fin 64) (n : Fin 512) (u : Fin 64) :
    val_main_v66 (F := Ideal) x0 x1 x2 x3 x4 (ix2 b (pos n u)) = resetOf x0 x1 x2 x3 x4 b u n := by
  rw [val_main_v66_apply, hr, v32_at]
  rfl

include hr in

theorem v69_at (b : Fin 64) (n : Fin 512) (g : Fin 65) :
    val_main_v69 (F := Ideal) x0 x1 x2 x3 x4 (ix3 b n g) = featOf x0 x1 x2 x3 x4 b g n := by
  unfold val_main_v69
  by_cases hg : g.val < 1
  · rw [cat_feat_left _ _ concatenates_S64x512x1_S64x512x64_S64x512x65_d2 b n g hg, v67_at]
    exact (congrFun (feats_zero (inpOf x0 b) (resetOf x0 x1 x2 x3 x4 b) g hg) n).symm
  · have hu' : (g.val - 1) + 1 = g.val := by omega
    rw [cat_feat_right _ _ concatenates_S64x512x1_S64x512x64_S64x512x65_d2 b n g ⟨g.val - 1, by have := g.isLt; omega⟩ hu',
      v68_at, v66_at x0 x1 x2 x3 x4 hr]
    exact (congrFun (feats_succ (inpOf x0 b) (resetOf x0 x1 x2 x3 x4 b) g ⟨g.val - 1, by have := g.isLt; omega⟩ hu') n).symm

include hsup hr in

theorem v72_at (n : Fin 512) (g : Fin 65) (b : Fin 64) :
    val_main_v72 (F := Ideal) x0 x1 x2 x3 x4 (ix2 n (col g b))
      = Cert.Spec.diff (Cert.Spec.sup x2) (featOf x0 x1 x2 x3 x4 b g) n := by
  rw [val_main_v72_apply]
  show _ = ∑ m : Fin 512, Cert.Spec.sup x2 n m * featOf x0 x1 x2 x3 x4 b g m
  refine Finset.sum_congr rfl fun m _ => ?_
  have el : lidx_main_v72 (ix2 n (col g b)) m = ix2 n m := funext fun d => match d with
    | ⟨0, _⟩ => rfl
    | ⟨1, _⟩ => rfl
  have er : ridx_main_v72 (ix2 n (col g b)) m = ix2 m (col g b) := funext fun d => match d with
    | ⟨0, _⟩ => rfl
    | ⟨1, _⟩ => rfl
  rw [el, er, hsup, v71_at, v69_at x0 x1 x2 x3 x4 hr]

include hsup hr in

theorem v73_at (n : Fin 512) (g : Fin 65) (b : Fin 64) :
    val_main_v73 (F := Ideal) x0 x1 x2 x3 x4 (ix2 n (col g b))
      = Cert.Spec.diff (Cert.Spec.sup x2) (Cert.Spec.diff (Cert.Spec.sup x2) (featOf x0 x1 x2 x3 x4 b g)) n := by
  rw [val_main_v73_apply]
  show _ = ∑ m : Fin 512, Cert.Spec.sup x2 n m * Cert.Spec.diff (Cert.Spec.sup x2) (featOf x0 x1 x2 x3 x4 b g) m
  refine Finset.sum_congr rfl fun m _ => ?_
  have el : lidx_main_v73 (ix2 n (col g b)) m = ix2 n m := funext fun d => match d with
    | ⟨0, _⟩ => rfl
    | ⟨1, _⟩ => rfl
  have er : ridx_main_v73 (ix2 n (col g b)) m = ix2 m (col g b) := funext fun d => match d with
    | ⟨0, _⟩ => rfl
    | ⟨1, _⟩ => rfl
  rw [el, er, hsup, v72_at x0 x1 x2 x3 x4 hsup hr]

include hsup hr in

theorem v76_at (n : Fin 512) (g : Fin 65) (b : Fin 64) :
    val_main_v76 (F := Ideal) x0 x1 x2 x3 x4 (ix2 n (col g b))
      = Cert.Spec.two * Cert.Spec.diff (Cert.Spec.sup x2) (Cert.Spec.diff (Cert.Spec.sup x2) (featOf x0 x1 x2 x3 x4 b g)) n
        - featOf x0 x1 x2 x3 x4 b g n := by
  rw [val_main_v76_apply, val_main_v75_apply, val_main_v74_apply, val_main_cst_8_apply,
    v73_at x0 x1 x2 x3 x4 hsup hr, v71_at, v69_at x0 x1 x2 x3 x4 hr]
  rfl

include hsup hr in

theorem v80_at (k : Fin 3) (n : Fin 512) (g : Fin 65) (b : Fin 64) :
    val_main_v80 (F := Ideal) x0 x1 x2 x3 x4 (ix3 k n (col g b))
      = Cert.Spec.cheb (Cert.Spec.sup x2) k (featOf x0 x1 x2 x3 x4 b g) n := by
  unfold val_main_v80
  obtain ⟨h0, h1, h2⟩ := cat_stack3 4160 (val_main_v77 (F := Ideal) x0 x1 x2 x3 x4) (val_main_v78 (F := Ideal) x0 x1 x2 x3 x4)
    (val_main_v79 (F := Ideal) x0 x1 x2 x3 x4) concatenates_S1x512x4160_S1x512x4160_S1x512x4160_S3x512x4160_d0 n (col g b)
  have e77 : idx_main_v77 (ix3 ⟨0, Nat.one_pos⟩ n (col g b)) = ix2 n (col g b) := funext fun d => match d with
    | ⟨0, _⟩ => rfl
    | ⟨1, _⟩ => rfl
  have e78 : idx_main_v78 (ix3 ⟨0, Nat.one_pos⟩ n (col g b)) = ix2 n (col g b) := funext fun d => match d with
    | ⟨0, _⟩ => rfl
    | ⟨1, _⟩ => rfl
  have e79 : idx_main_v79 (ix3 ⟨0, Nat.one_pos⟩ n (col g b)) = ix2 n (col g b) := funext fun d => match d with
    | ⟨0, _⟩ => rfl
    | ⟨1, _⟩ => rfl
  match k with
  | ⟨0, _⟩ =>
    refine h0.trans ?_
    rw [val_main_v77_apply, e77, v71_at, v69_at x0 x1 x2 x3 x4 hr]
    rfl
  | ⟨1, _⟩ =>
    refine h1.trans ?_
    rw [val_main_v78_apply, e78]
    exact v72_at x0 x1 x2 x3 x4 hsup hr n g b
  | ⟨2, _⟩ =>
    refine h2.trans ?_
    rw [val_main_v79_apply, e79]
    exact v76_at x0 x1 x2 x3 x4 hsup hr n g b

include hsup hr in

theorem v87_at (b : Fin 64) (n : Fin 512) (o : Fin 64) :
    val_main_v87 (F := Ideal) x0 x1 x2 x3 x4 x5 x6 (ix2 (row b n) o)
      = Cert.Spec.gate (Cert.Spec.sup x2) (featOf x0 x1 x2 x3 x4 b) (Cert.Spec.rows3 (nf := 65) x5) (fun o => x6 (ix1 o)) n o := by
  rw [val_main_v87_apply, v84_at, val_main_v86_apply, val_main_v85_apply]
  have e : idx_main_v85 (idx_main_v86 (ix2 (row b n) o)) = ix1 o := funext fun d => match d with
    | ⟨0, _⟩ => rfl
  rw [e]
  exact gate_of_rows (Cert.Spec.sup x2) (featOf x0 x1 x2 x3 x4 b) x5 (fun o => x6 (ix1 o)) n o
    (fun j => val_main_v83 (F := Ideal) x0 x1 x2 x3 x4 (ix2 (row b n) j))
    (fun f k => (v83_at x0 x1 x2 x3 x4 b n f k).trans (v80_at x0 x1 x2 x3 x4 hsup hr k n f b))

include hsup hr in

theorem v89_at (b : Fin 64) (n : Fin 512) (u : Fin 64) :
    val_main_v89 (F := Ideal) x0 x1 x2 x3 x4 x5 x6 (ix2 b (pos n u))
      = Cert.Spec.cand (Cert.Spec.sup x2) (inpOf x0 b) (stOf x1 b) (Cert.Spec.rows3 (nf := 65) x3) (fun o => x4 (ix1 o))
          (Cert.Spec.rows3 (nf := 65) x5) (fun o => x6 (ix1 o)) u n := by
  rw [val_main_v89_apply, v88_at, v87_at x0 x1 x2 x3 x4 x5 x6 hsup hr]
  rfl

include hsup hr hu in

theorem v94_at (b : Fin 64) (n : Fin 512) (u : Fin 64) :
    val_main_v94 (F := Ideal) x0 x1 x2 x3 x4 x5 x6 (ix2 b (pos n u))
      = Cert.Spec.cell (Cert.Spec.sup x2) (inpOf x0 b) (stOf x1 b) (Cert.Spec.rows3 (nf := 65) x3) (fun o => x4 (ix1 o))
          (Cert.Spec.rows3 (nf := 65) x5) (fun o => x6 (ix1 o)) u n := by
  rw [val_main_v94_apply, val_main_v90_apply, val_main_v93_apply, val_main_v92_apply, val_main_v91_apply,
    val_main_cst_9_apply, hu, v32_at, v89_at x0 x1 x2 x3 x4 x5 x6 hsup hr]
  rfl

include hsup hr hu in

theorem ref_h0 (i : S64x32768.Idx) :
    val_main_v94 (F := Ideal) x0 x1 x2 x3 x4 x5 x6 i
      = Cert.Spec.cell (Cert.Spec.sup x2) (inpOf x0 ⟨(i 0).val, (i 0).isLt⟩) (stOf x1 ⟨(i 0).val, (i 0).isLt⟩)
          (Cert.Spec.rows3 (nf := 65) x3) (fun o => x4 (ix1 o)) (Cert.Spec.rows3 (nf := 65) x5) (fun o => x6 (ix1 o))
          ⟨(i 1).val % 64, Nat.mod_lt _ (by decide)⟩
          ⟨(i 1).val / 64, by have h : (i 1).val < 32768 := (i 1).isLt; omega⟩ := by
  have hq : (i 1).val < 32768 := (i 1).isLt
  have e : i = ix2 (⟨(i 0).val, (i 0).isLt⟩ : Fin 64)
      (pos ⟨(i 1).val / 64, by omega⟩ ⟨(i 1).val % 64, Nat.mod_lt _ (by decide)⟩) :=
    funext fun d => match d with
      | ⟨0, _⟩ => rfl
      | ⟨1, _⟩ => Fin.ext (by show (i 1).val = (i 1).val / 64 * 64 + (i 1).val % 64; omega)
  conv_lhs => rw [e]
  exact v94_at x0 x1 x2 x3 x4 x5 x6 hsup hr hu _ _ _

end Values

end Cert.ReferenceIdeal.RefValue

end
-- ==== Proof.Ref.L1Pure.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«134251_g19069654794669_cont_sun_m_30_29_alg».proof.Proof.Spec

noncomputable section

namespace Cert.ReferenceIdeal.RefValue.L1

open Idealize.ShloMosaic Idealize.ShloMosaic.ValueIdx

theorem sum_mul3 {M : Type*} [AddCommMonoid M] (nf : Nat) (g : Fin (nf * 3) → M) :
    ∑ j : Fin (nf * 3), g j
      = ∑ f : Fin nf, ∑ k : Fin 3, g ⟨f.val * 3 + k.val, by have := f.isLt; have := k.isLt; omega⟩ := by
  rw [← (finProdFinEquiv (m := nf) (n := 3)).sum_comp g, Fintype.sum_prod_type]
  refine Finset.sum_congr rfl fun f _ => Finset.sum_congr rfl fun k _ => congrArg g (Fin.ext ?_)
  simp only [finProdFinEquiv_apply_val]; omega

abbrev fin (n : Nat) (x : Nat) (h : x < n) : Fin n := ⟨x, h⟩

abbrev T64x512x64 : Shape := ⟨3, ![64, 512, 64]⟩
abbrev T64x512x128 : Shape := ⟨3, ![64, 512, 128]⟩
abbrev T1x512x8192 : Shape := ⟨3, ![1, 512, 8192]⟩
abbrev T3x512x8192 : Shape := ⟨3, ![3, 512, 8192]⟩

section Joins
variable {α : Type}

theorem join2_left (y₁ y₂ : T64x512x64.Idx → α) (h : Shape.Concatenates [T64x512x64, T64x512x64] T64x512x128 2)
    (i : T64x512x128.Idx) (hlt : (i 2).val < 64) :
    concatenate T64x512x128 2 [⟨T64x512x64, y₁⟩, ⟨T64x512x64, y₂⟩] h i
      = y₁ (ix3 (fin 64 (i 0).val (i 0).isLt) (fin 512 (i 1).val (i 1).isLt) (fin 64 (i 2).val hlt)) :=
  concatenate_pair_apply_left 2 y₁ y₂ h i rfl _ (fun b => match b with
    | ⟨0, _⟩ => rfl
    | ⟨1, _⟩ => rfl
    | ⟨2, _⟩ => rfl)

theorem join2_right (y₁ y₂ : T64x512x64.Idx → α) (h : Shape.Concatenates [T64x512x64, T64x512x64] T64x512x128 2)
    (i : T64x512x128.Idx) (hge : 64 ≤ (i 2).val) :
    concatenate T64x512x128 2 [⟨T64x512x64, y₁⟩, ⟨T64x512x64, y₂⟩] h i
      = y₂ (ix3 (fin 64 (i 0).val (i 0).isLt) (fin 512 (i 1).val (i 1).isLt)
          (fin 64 ((i 2).val - 64) (by have h2 : (i 2).val < 128 := (i 2).isLt; omega))) :=
  concatenate_pair_apply_right 2 y₁ y₂ h i rfl rfl _ (fun b hb => match b, hb with
    | ⟨0, _⟩, _ => rfl
    | ⟨1, _⟩, _ => rfl
    | ⟨2, _⟩, hb => absurd rfl hb) (by show (i 2).val - 64 + 64 = (i 2).val; omega)

end Joins

abbrev T512x512 : Shape := ⟨2, ![512, 512]⟩
abbrev T512x8192 : Shape := ⟨2, ![512, 8192]⟩
abbrev T512x128x64 : Shape := ⟨3, ![512, 128, 64]⟩
abbrev T3x512x128x64 : Shape := ⟨4, ![3, 512, 128, 64]⟩
abbrev T64x512x128x3 : Shape := ⟨4, ![64, 512, 128, 3]⟩
abbrev T32768x384 : Shape := ⟨2, ![32768, 384]⟩

section Joins3
variable {α : Type}

theorem join3 (y₀ y₁ y₂ : T1x512x8192.Idx → α)
    (h : Shape.Concatenates [T1x512x8192, T1x512x8192, T1x512x8192] T3x512x8192 0) (i : T3x512x8192.Idx) :
    concatenate T3x512x8192 0 [⟨T1x512x8192, y₀⟩, ⟨T1x512x8192, y₁⟩, ⟨T1x512x8192, y₂⟩] h i
      = (match (i 0).val with
          | 0 => y₀
          | 1 => y₁
          | _ => y₂) (ix3 (fin 1 0 Nat.one_pos) (fin 512 (i 1).val (i 1).isLt) (fin 8192 (i 2).val (i 2).isLt)) := by
  have h0 : (i 0).val < 3 := (i 0).isLt
  have hi : ∀ b : Fin T1x512x8192.rank, b.cast (rfl : T1x512x8192.rank = T3x512x8192.rank) ≠ (0 : Fin T3x512x8192.rank) →
      ((ix3 (fin 1 0 Nat.one_pos) (fin 512 (i 1).val (i 1).isLt) (fin 8192 (i 2).val (i 2).isLt)) b).val
        = (i (b.cast rfl)).val := fun b hb => match b, hb with
    | ⟨0, _⟩, hb => absurd rfl hb
    | ⟨1, _⟩, _ => rfl
    | ⟨2, _⟩, _ => rfl
  rcases Nat.lt_or_ge (i 0).val 1 with h1 | h1
  · have e : (i 0).val = 0 := by omega
    rw [e]
    exact concatenate_apply_piece (t := T3x512x8192) 0 [⟨T1x512x8192, y₀⟩, ⟨T1x512x8192, y₁⟩, ⟨T1x512x8192, y₂⟩] h i 0 (by show (0 : Nat) < 3; decide) T1x512x8192 y₀ rfl rfl 0 rfl _ hi (by show 0 + 0 = (i 0).val; omega)
  · rcases Nat.lt_or_ge (i 0).val 2 with h2 | h2
    · have e : (i 0).val = 1 := by omega
      rw [e]
      exact concatenate_apply_piece (t := T3x512x8192) 0 [⟨T1x512x8192, y₀⟩, ⟨T1x512x8192, y₁⟩, ⟨T1x512x8192, y₂⟩] h i 1 (by show (1 : Nat) < 3; decide) T1x512x8192 y₁ rfl rfl 1 rfl _ hi (by show 1 + 0 = (i 0).val; omega)
    · have e : (i 0).val = 2 := by omega
      rw [e]
      exact concatenate_apply_piece (t := T3x512x8192) 0 [⟨T1x512x8192, y₀⟩, ⟨T1x512x8192, y₁⟩, ⟨T1x512x8192, y₂⟩] h i 2 (by show (2 : Nat) < 3; decide) T1x512x8192 y₂ rfl rfl 2 rfl _ hi (by show 2 + 0 = (i 0).val; omega)

end Joins3

abbrev fmod (m : Nat) [NeZero m] (x : Nat) : Fin m := ⟨x % m, Nat.mod_lt _ (NeZero.pos m)⟩

abbrev fdiv (m q : Nat) (x : Nat) (h : x < q * m) : Fin q :=
  ⟨x / m, (Nat.div_lt_iff_lt_mul (Nat.pos_of_mul_pos_left (Nat.lt_of_le_of_lt (Nat.zero_le _) h))).2 h⟩

section Stages
open Cert.Spec
variable (S : Fin 512 → Fin 512 → EReal)

theorem stage101 (G : Fin 64 → Fin 128 → Fin 512 → EReal) (y99 : T64x512x128.Idx → EReal)
    (y100 : T512x128x64.Idx → EReal) (y101 : T512x8192.Idx → EReal)
    (h99 : ∀ i : T64x512x128.Idx, y99 i = G ⟨(i 0).val, (i 0).isLt⟩ ⟨(i 2).val, (i 2).isLt⟩ ⟨(i 1).val, (i 1).isLt⟩)
    {t100 : T64x512x128.Transposes [1, 2, 0] T512x128x64} (h100 : y100 = transpose T512x128x64 [1, 2, 0] y99 t100)
    {c101 : T512x128x64.ShapeCasts T512x8192} (h101 : y101 = shapeCast T512x8192 y100 c101) (i : T512x8192.Idx) :
    y101 i = G (fmod 64 (i 1).val) (fdiv 64 128 (i 1).val (i 1).isLt) ⟨(i 0).val, (i 0).isLt⟩ := by
  have h0 : (i 0).val < 512 := (i 0).isLt
  have h1 : (i 1).val < 8192 := (i 1).isLt
  subst h101 h100
  rw [shapeCast_apply _ c101 i (ix3 ⟨(i 0).val, h0⟩ (fdiv 64 128 (i 1).val (i 1).isLt) (fmod 64 (i 1).val))
      (by rewrite [Shape.rowMajor_val_three, Shape.rowMajor_val_two]
          show ((i 0).val * 128 + (i 1).val / 64) * 64 + (i 1).val % 64 = (i 0).val * 8192 + (i 1).val; omega)]
  rw [transpose_apply [1, 2, 0] y99 t100 _ (ix3 (fmod 64 (i 1).val) ⟨(i 0).val, h0⟩ (fdiv 64 128 (i 1).val (i 1).isLt))
    (fun b => match b with
      | ⟨0, _⟩ => rfl
      | ⟨1, _⟩ => rfl
      | ⟨2, _⟩ => rfl)]
  exact h99 _

theorem stageDot (G : Fin 64 → Fin 128 → Fin 512 → EReal) (y30 : T512x512.Idx → EReal) (yp y : T512x8192.Idx → EReal)
    (h30 : ∀ i : T512x512.Idx, y30 i = S ⟨(i 0).val, (i 0).isLt⟩ ⟨(i 1).val, (i 1).isLt⟩)
    (hp : ∀ i : T512x8192.Idx, yp i = G (fmod 64 (i 1).val) (fdiv 64 128 (i 1).val (i 1).isLt) ⟨(i 0).val, (i 0).isLt⟩)
    (l : T512x8192.Idx → Fin 512 → T512x512.Idx) (r : T512x8192.Idx → Fin 512 → T512x8192.Idx)
    (hl : ∀ i k, l i k = ix2 (fin 512 (i 0).val (i 0).isLt) k) (hr : ∀ i k, r i k = ix2 k (fin 8192 (i 1).val (i 1).isLt))
    (h : ∀ i, y i = ∑ k : Fin 512, y30 (l i k) * yp (r i k)) (i : T512x8192.Idx) :
    y i = diff S (G (fmod 64 (i 1).val) (fdiv 64 128 (i 1).val (i 1).isLt)) ⟨(i 0).val, (i 0).isLt⟩ := by
  rw [h]
  unfold diff
  refine Finset.sum_congr rfl fun k _ => ?_
  rw [hl, hr, h30, hp]

theorem stageCheb2 (G : Fin 64 → Fin 128 → Fin 512 → EReal) (y101 y103 y104 y105 y106 : T512x8192.Idx → EReal)
    (h101 : ∀ i : T512x8192.Idx, y101 i = G (fmod 64 (i 1).val) (fdiv 64 128 (i 1).val (i 1).isLt) ⟨(i 0).val, (i 0).isLt⟩)
    (h103 : ∀ i : T512x8192.Idx, y103 i
      = diff S (diff S (G (fmod 64 (i 1).val) (fdiv 64 128 (i 1).val (i 1).isLt))) ⟨(i 0).val, (i 0).isLt⟩)
    (h104 : ∀ i, y104 i = FloatOps.ofBits (F := Ideal) .f32 0x40000000#32)
    (h105 : ∀ i, y105 i = FloatOps.mulf (F := Ideal) (φ := .f32) (y104 i) (y103 i)) (h106 : ∀ i, y106 i = FloatOps.subf (F := Ideal) (φ := .f32) (y105 i) (y101 i))
    (i : T512x8192.Idx) :
    y106 i = cheb S 2 (G (fmod 64 (i 1).val) (fdiv 64 128 (i 1).val (i 1).isLt)) ⟨(i 0).val, (i 0).isLt⟩ := by
  rw [h106, h105, h104, h103, h101]
  rfl

theorem stage110 (G : Fin 64 → Fin 128 → Fin 512 → EReal) (y101 y102 y106 : T512x8192.Idx → EReal)
    (y107 y108 y109 : T1x512x8192.Idx → EReal) (y110 : T3x512x8192.Idx → EReal)
    (h101 : ∀ i : T512x8192.Idx, y101 i = G (fmod 64 (i 1).val) (fdiv 64 128 (i 1).val (i 1).isLt) ⟨(i 0).val, (i 0).isLt⟩)
    (h102 : ∀ i : T512x8192.Idx, y102 i
      = diff S (G (fmod 64 (i 1).val) (fdiv 64 128 (i 1).val (i 1).isLt)) ⟨(i 0).val, (i 0).isLt⟩)
    (h106 : ∀ i : T512x8192.Idx, y106 i
      = cheb S 2 (G (fmod 64 (i 1).val) (fdiv 64 128 (i 1).val (i 1).isLt)) ⟨(i 0).val, (i 0).isLt⟩)
    {b107 b108 b109 : T512x8192.BroadcastsInDim T1x512x8192 ![1, 2]}
    (h107 : y107 = broadcastInDim T1x512x8192 ![1, 2] b107 y101)
    (h108 : y108 = broadcastInDim T1x512x8192 ![1, 2] b108 y102)
    (h109 : y109 = broadcastInDim T1x512x8192 ![1, 2] b109 y106)
    {c110 : Shape.Concatenates [T1x512x8192, T1x512x8192, T1x512x8192] T3x512x8192 0}
    (h110 : y110 = concatenate T3x512x8192 0 [⟨T1x512x8192, y107⟩, ⟨T1x512x8192, y108⟩, ⟨T1x512x8192, y109⟩] c110)
    (i : T3x512x8192.Idx) :
    y110 i = cheb S ⟨(i 0).val, (i 0).isLt⟩ (G (fmod 64 (i 2).val) (fdiv 64 128 (i 2).val (i 2).isLt)) ⟨(i 1).val, (i 1).isLt⟩ := by
  have h0 : (i 0).val < 3 := (i 0).isLt
  have bc : ∀ (b : T512x8192.BroadcastsInDim T1x512x8192 ![1, 2]) (y : T512x8192.Idx → EReal),
      broadcastInDim T1x512x8192 ![1, 2] b y (ix3 (fin 1 0 Nat.one_pos) (fin 512 (i 1).val (i 1).isLt) (fin 8192 (i 2).val (i 2).isLt))
        = y (ix2 (fin 512 (i 1).val (i 1).isLt) (fin 8192 (i 2).val (i 2).isLt)) := fun b y =>
    broadcastInDim_apply _ b y _ _ (fun a => match a with
      | ⟨0, _⟩ => by show (i 1).val = if (512 : Nat) = 1 then 0 else (i 1).val; rw [if_neg (by decide)]
      | ⟨1, _⟩ => by show (i 2).val = if (8192 : Nat) = 1 then 0 else (i 2).val; rw [if_neg (by decide)])
  subst h110 h107 h108 h109
  rw [join3]
  rcases Nat.lt_or_ge (i 0).val 1 with h1 | h1
  · have e : (i 0).val = 0 := by omega
    have e' : (⟨(i 0).val, (i 0).isLt⟩ : Fin 3) = 0 := Fin.ext e
    rw [e', e]
    show broadcastInDim T1x512x8192 ![1, 2] b107 y101 _ = _
    rw [bc, h101]; rfl
  · rcases Nat.lt_or_ge (i 0).val 2 with h2 | h2
    · have e : (i 0).val = 1 := by omega
      have e' : (⟨(i 0).val, (i 0).isLt⟩ : Fin 3) = 1 := Fin.ext e
      rw [e', e]
      show broadcastInDim T1x512x8192 ![1, 2] b108 y102 _ = _
      rw [bc, h102]; rfl
    · have e : (i 0).val = 2 := by omega
      have e' : (⟨(i 0).val, (i 0).isLt⟩ : Fin 3) = 2 := Fin.ext e
      rw [e', e]
      show broadcastInDim T1x512x8192 ![1, 2] b109 y106 _ = _
      rw [bc, h106]

end Stages

section Stages2
open Cert.Spec
variable (S : Fin 512 → Fin 512 → EReal)

theorem stage113 (G : Fin 64 → Fin 128 → Fin 512 → EReal) (y110 : T3x512x8192.Idx → EReal)
    (y111 : T3x512x128x64.Idx → EReal) (y112 : T64x512x128x3.Idx → EReal) (y113 : T32768x384.Idx → EReal)
    (h110 : ∀ i : T3x512x8192.Idx, y110 i
      = cheb S ⟨(i 0).val, (i 0).isLt⟩ (G (fmod 64 (i 2).val) (fdiv 64 128 (i 2).val (i 2).isLt)) ⟨(i 1).val, (i 1).isLt⟩)
    {c111 : T3x512x8192.ShapeCasts T3x512x128x64} (h111 : y111 = shapeCast T3x512x128x64 y110 c111)
    {t112 : T3x512x128x64.Transposes [3, 1, 2, 0] T64x512x128x3} (h112 : y112 = transpose T64x512x128x3 [3, 1, 2, 0] y111 t112)
    {c113 : T64x512x128x3.ShapeCasts T32768x384} (h113 : y113 = shapeCast T32768x384 y112 c113)
    (i : T32768x384.Idx) :
    y113 i = cheb S (fmod 3 (i 1).val) (G (fdiv 512 64 (i 0).val (i 0).isLt) (fdiv 3 128 (i 1).val (i 1).isLt))
      (fmod 512 (i 0).val) := by
  have h0 : (i 0).val < 32768 := (i 0).isLt
  have h1 : (i 1).val < 384 := (i 1).isLt
  have hq : (i 1).val / 3 * 64 + (i 0).val / 512 < 8192 := by omega
  subst h113 h112 h111
  rw [shapeCast_apply _ c113 i
      (ix4 (fdiv 512 64 (i 0).val (i 0).isLt) (fmod 512 (i 0).val) (fdiv 3 128 (i 1).val (i 1).isLt) (fmod 3 (i 1).val))
      (by rewrite [Shape.rowMajor_val_four, Shape.rowMajor_val_two]
          show (((i 0).val / 512 * 512 + (i 0).val % 512) * 128 + (i 1).val / 3) * 3 + (i 1).val % 3
            = (i 0).val * 384 + (i 1).val
          omega)]
  rw [transpose_apply [3, 1, 2, 0] _ t112 _
      (ix4 (fmod 3 (i 1).val) (fmod 512 (i 0).val) (fdiv 3 128 (i 1).val (i 1).isLt) (fdiv 512 64 (i 0).val (i 0).isLt))
      (fun b => match b with
        | ⟨0, _⟩ => rfl
        | ⟨1, _⟩ => rfl
        | ⟨2, _⟩ => rfl
        | ⟨3, _⟩ => rfl)]
  rw [shapeCast_apply y110 c111 _
      (ix3 (fmod 3 (i 1).val) (fmod 512 (i 0).val) ⟨(i 1).val / 3 * 64 + (i 0).val / 512, hq⟩)
      (by rewrite [Shape.rowMajor_val_three, Shape.rowMajor_val_four]
          show ((i 1).val % 3 * 512 + (i 0).val % 512) * 8192 + ((i 1).val / 3 * 64 + (i 0).val / 512)
            = (((i 1).val % 3 * 512 + (i 0).val % 512) * 128 + (i 1).val / 3) * 64 + (i 0).val / 512
          omega)]
  refine (h110 _).trans ?_
  show cheb S (fmod 3 (i 1).val) (G (fmod 64 ((i 1).val / 3 * 64 + (i 0).val / 512))
      (fdiv 64 128 ((i 1).val / 3 * 64 + (i 0).val / 512) hq)) (fmod 512 (i 0).val) = _
  have eb : fmod 64 ((i 1).val / 3 * 64 + (i 0).val / 512) = fdiv 512 64 (i 0).val (i 0).isLt :=
    Fin.ext (by show ((i 1).val / 3 * 64 + (i 0).val / 512) % 64 = (i 0).val / 512; omega)
  have ef : fdiv 64 128 ((i 1).val / 3 * 64 + (i 0).val / 512) hq = fdiv 3 128 (i 1).val (i 1).isLt :=
    Fin.ext (by show ((i 1).val / 3 * 64 + (i 0).val / 512) / 64 = (i 1).val / 3; omega)
  rw [eb, ef]

theorem stageGate {no : Nat} (G : Fin 64 → Fin 128 → Fin 512 → EReal) (W : (⟨2, ![384, no]⟩ : Shape).Idx → EReal)
    (bias : (⟨1, ![no]⟩ : Shape).Idx → EReal) (y113 : T32768x384.Idx → EReal)
    (y114 y116 y117 : (⟨2, ![32768, no]⟩ : Shape).Idx → EReal)
    (h113 : ∀ i : T32768x384.Idx, y113 i
      = cheb S (fmod 3 (i 1).val) (G (fdiv 512 64 (i 0).val (i 0).isLt) (fdiv 3 128 (i 1).val (i 1).isLt)) (fmod 512 (i 0).val))
    (l : (⟨2, ![32768, no]⟩ : Shape).Idx → Fin 384 → T32768x384.Idx)
    (r : (⟨2, ![32768, no]⟩ : Shape).Idx → Fin 384 → (⟨2, ![384, no]⟩ : Shape).Idx)
    (hl : ∀ i k, l i k = ix2 (fin 32768 (i 0).val (i 0).isLt) k) (hr : ∀ i k, r i k = ix2 k (fin no (i 1).val (i 1).isLt))
    (h114 : ∀ i, y114 i = ∑ k : Fin 384, y113 (l i k) * W (r i k))
    (h116 : ∀ i : (⟨2, ![32768, no]⟩ : Shape).Idx, y116 i = bias (ix1 (fin no (i 1).val (i 1).isLt)))
    (h117 : ∀ i, y117 i = FloatOps.addf (F := Ideal) (φ := .f32) (y114 i) (y116 i)) (i : (⟨2, ![32768, no]⟩ : Shape).Idx) :
    y117 i = gate S (G (fdiv 512 64 (i 0).val (i 0).isLt)) (rows3 (nf := 128) W) (fun o => bias (ix1 o))
      (fmod 512 (i 0).val) (fin no (i 1).val (i 1).isLt) := by
  rw [h117, h114, h116]
  unfold gate
  show _ + bias (ix1 (fin no (i 1).val (i 1).isLt)) = _ + bias (ix1 (fin no (i 1).val (i 1).isLt))
  refine congrArg (· + bias (ix1 (fin no (i 1).val (i 1).isLt))) ?_
  refine (sum_mul3 128 (fun k : Fin 384 => y113 (l i k) * W (r i k))).trans ?_
  refine Finset.sum_congr rfl fun f _ => Finset.sum_congr rfl fun k _ => ?_
  have hf : f.val < 128 := f.isLt
  have hk : k.val < 3 := k.isLt
  have hlt : f.val * 3 + k.val < 128 * 3 := by omega
  show y113 (l i ⟨f.val * 3 + k.val, hlt⟩) * W (r i ⟨f.val * 3 + k.val, hlt⟩) = _
  rw [hl, hr, h113]
  show cheb S (fmod 3 (f.val * 3 + k.val)) (G (fdiv 512 64 (i 0).val (i 0).isLt) (fdiv 3 128 (f.val * 3 + k.val) hlt))
      (fmod 512 (i 0).val) * W (ix2 (fin 384 (f.val * 3 + k.val) hlt) (fin no (i 1).val (i 1).isLt)) = _
  have ek : fmod 3 (f.val * 3 + k.val) = k := Fin.ext (by show (f.val * 3 + k.val) % 3 = k.val; omega)
  have ef : fdiv 3 128 (f.val * 3 + k.val) hlt = f := Fin.ext (by show (f.val * 3 + k.val) / 3 = f.val; omega)
  rw [ek, ef]
  rfl

end Stages2

abbrev T64x32768 : Shape := ⟨2, ![64, 32768]⟩
abbrev T64x65536 : Shape := ⟨2, ![64, 65536]⟩
abbrev T32768x128 : Shape := ⟨2, ![32768, 128]⟩
abbrev T32768x64 : Shape := ⟨2, ![32768, 64]⟩

section Tail
open Cert.Spec

theorem stageUnflat (H : Fin 64 → Fin 64 → Fin 512 → EReal) (y : T64x32768.Idx → EReal) (y' : T64x512x64.Idx → EReal)
    (h : ∀ i : T64x32768.Idx, y i = H (fin 64 (i 0).val (i 0).isLt) (fmod 64 (i 1).val) (fdiv 64 512 (i 1).val (i 1).isLt))
    {c : T64x32768.ShapeCasts T64x512x64} (h' : y' = shapeCast T64x512x64 y c) (i : T64x512x64.Idx) :
    y' i = H (fin 64 (i 0).val (i 0).isLt) (fin 64 (i 2).val (i 2).isLt) (fin 512 (i 1).val (i 1).isLt) := by
  have h0 : (i 0).val < 64 := (i 0).isLt
  have h1 : (i 1).val < 512 := (i 1).isLt
  have h2 : (i 2).val < 64 := (i 2).isLt
  have hq : (i 1).val * 64 + (i 2).val < 32768 := by omega
  subst h'
  rw [shapeCast_apply y c i (ix2 (fin 64 (i 0).val h0) (fin 32768 ((i 1).val * 64 + (i 2).val) hq))
      (by rewrite [Shape.rowMajor_val_two, Shape.rowMajor_val_three]
          show (i 0).val * 32768 + ((i 1).val * 64 + (i 2).val) = ((i 0).val * 512 + (i 1).val) * 64 + (i 2).val
          omega)]
  refine (h _).trans ?_
  show H (fin 64 (i 0).val h0) (fmod 64 ((i 1).val * 64 + (i 2).val)) (fdiv 64 512 ((i 1).val * 64 + (i 2).val) hq) = _
  have eu : fmod 64 ((i 1).val * 64 + (i 2).val) = fin 64 (i 2).val (i 2).isLt :=
    Fin.ext (by show ((i 1).val * 64 + (i 2).val) % 64 = (i 2).val; omega)
  have en : fdiv 64 512 ((i 1).val * 64 + (i 2).val) hq = fin 512 (i 1).val (i 1).isLt :=
    Fin.ext (by show ((i 1).val * 64 + (i 2).val) / 64 = (i 1).val; omega)
  rw [eu, en]

theorem stageFeats (P Q : Fin 64 → Fin 64 → Fin 512 → EReal) (y97 y98 : T64x512x64.Idx → EReal)
    (y99 : T64x512x128.Idx → EReal)
    (h97 : ∀ i : T64x512x64.Idx, y97 i = P (fin 64 (i 0).val (i 0).isLt) (fin 64 (i 2).val (i 2).isLt) (fin 512 (i 1).val (i 1).isLt))
    (h98 : ∀ i : T64x512x64.Idx, y98 i = Q (fin 64 (i 0).val (i 0).isLt) (fin 64 (i 2).val (i 2).isLt) (fin 512 (i 1).val (i 1).isLt))
    {c99 : Shape.Concatenates [T64x512x64, T64x512x64] T64x512x128 2}
    (h99 : y99 = concatenate T64x512x128 2 [⟨T64x512x64, y97⟩, ⟨T64x512x64, y98⟩] c99) (i : T64x512x128.Idx) :
    y99 i = feats (P (fin 64 (i 0).val (i 0).isLt)) (Q (fin 64 (i 0).val (i 0).isLt)) (fin 128 (i 2).val (i 2).isLt)
      (fin 512 (i 1).val (i 1).isLt) := by
  have h2 : (i 2).val < 128 := (i 2).isLt
  subst h99
  unfold feats
  by_cases hlt : (i 2).val < 64
  · rw [join2_left y97 y98 c99 i hlt, h97]
    have e : (fin 128 (i 2).val (i 2).isLt : Fin (64 + 64)) = Fin.castAdd 64 (fin 64 (i 2).val hlt) := Fin.ext rfl
    rw [e, Fin.append_left]
  · have hge : 64 ≤ (i 2).val := Nat.le_of_not_lt hlt
    rw [join2_right y97 y98 c99 i hge, h98]
    have e : (fin 128 (i 2).val (i 2).isLt : Fin (64 + 64))
        = Fin.natAdd 64 (fin 64 ((i 2).val - 64) (by omega)) :=
      Fin.ext (by show (i 2).val = 64 + ((i 2).val - 64); omega)
    rw [e, Fin.append_right]

theorem stageLogistic (R : Fin 64 → Fin 512 → Fin 128 → EReal) (y117 : T32768x128.Idx → EReal)
    (y118 y119 y120 y121 y122 y123 y124 : T64x65536.Idx → EReal) (y125 : T64x512x128.Idx → EReal)
    (h117 : ∀ i : T32768x128.Idx, y117 i
      = R (fdiv 512 64 (i 0).val (i 0).isLt) (fmod 512 (i 0).val) (fin 128 (i 1).val (i 1).isLt))
    {c118 : T32768x128.ShapeCasts T64x65536} (h118 : y118 = shapeCast T64x65536 y117 c118)
    (h119 : ∀ i, y119 i = FloatOps.hostNegf (F := Ideal) (φ := .f32) (y118 i)) (h120 : ∀ i, y120 i = FloatOps.hostUnary (F := Ideal) .exp (φ := .f32) (y119 i))
    (h121 : ∀ i, y121 i = FloatOps.ofBits (F := Ideal) .f32 0x3F800000#32) (h122 : ∀ i, y122 i = FloatOps.addf (F := Ideal) (φ := .f32) (y121 i) (y120 i))
    (h123 : ∀ i, y123 i = FloatOps.ofBits (F := Ideal) .f32 0x3F800000#32) (h124 : ∀ i, y124 i = FloatOps.hostDivf (F := Ideal) (φ := .f32) (y123 i) (y122 i))
    {c125 : T64x65536.ShapeCasts T64x512x128} (h125 : y125 = shapeCast T64x512x128 y124 c125) (i : T64x512x128.Idx) :
    y125 i = Ideal.logistic (R (fin 64 (i 0).val (i 0).isLt) (fin 512 (i 1).val (i 1).isLt) (fin 128 (i 2).val (i 2).isLt)) := by
  have h0 : (i 0).val < 64 := (i 0).isLt
  have h1 : (i 1).val < 512 := (i 1).isLt
  have h2 : (i 2).val < 128 := (i 2).isLt
  have hq : (i 1).val * 128 + (i 2).val < 65536 := by omega
  have hr : (i 0).val * 512 + (i 1).val < 32768 := by omega
  subst h125 h118
  rw [shapeCast_apply y124 c125 i (ix2 (fin 64 (i 0).val h0) (fin 65536 ((i 1).val * 128 + (i 2).val) hq))
      (by rewrite [Shape.rowMajor_val_two, Shape.rowMajor_val_three]
          show (i 0).val * 65536 + ((i 1).val * 128 + (i 2).val) = ((i 0).val * 512 + (i 1).val) * 128 + (i 2).val
          omega)]
  rw [h124, h123, h122, h121, h120, h119]
  rw [shapeCast_apply y117 c118 _ (ix2 (fin 32768 ((i 0).val * 512 + (i 1).val) hr) (fin 128 (i 2).val h2))
      (by rewrite [Shape.rowMajor_val_two, Shape.rowMajor_val_two]
          show ((i 0).val * 512 + (i 1).val) * 128 + (i 2).val = (i 0).val * 65536 + ((i 1).val * 128 + (i 2).val)
          omega)]
  rw [h117]
  show Ideal.div one (one + Ideal.exp (-(R (fdiv 512 64 ((i 0).val * 512 + (i 1).val) hr)
      (fmod 512 ((i 0).val * 512 + (i 1).val)) (fin 128 (i 2).val h2)))) = _
  have eb : fdiv 512 64 ((i 0).val * 512 + (i 1).val) hr = fin 64 (i 0).val (i 0).isLt :=
    Fin.ext (by show ((i 0).val * 512 + (i 1).val) / 512 = (i 0).val; omega)
  have en : fmod 512 ((i 0).val * 512 + (i 1).val) = fin 512 (i 1).val (i 1).isLt :=
    Fin.ext (by show ((i 0).val * 512 + (i 1).val) % 512 = (i 1).val; omega)
  rw [eb, en]
  unfold Ideal.logistic
  rw [show (one : EReal) = 1 from Ideal.ofBits_one_f32]

theorem stageHalf (off : Nat) (hoff : off + 64 ≤ 128) (y125 : T64x512x128.Idx → EReal) (y126 : T64x512x64.Idx → EReal)
    (y127 : T64x32768.Idx → EReal)
    {s126 : T64x512x128.Slices ![0, 0, off] T64x512x64} (h126 : y126 = extractStridedSlice T64x512x64 ![0, 0, off] y125 s126)
    {c127 : T64x512x64.ShapeCasts T64x32768} (h127 : y127 = shapeCast T64x32768 y126 c127) (i : T64x32768.Idx) :
    y127 i = y125 (ix3 (fin 64 (i 0).val (i 0).isLt) (fdiv 64 512 (i 1).val (i 1).isLt)
      (fin 128 (off + (i 1).val % 64) (by have := Nat.mod_lt (i 1).val (show 0 < 64 by decide); omega))) := by
  have h0 : (i 0).val < 64 := (i 0).isLt
  have h1 : (i 1).val < 32768 := (i 1).isLt
  subst h127 h126
  rw [shapeCast_apply _ c127 i (ix3 (fin 64 (i 0).val h0) (fdiv 64 512 (i 1).val (i 1).isLt) (fmod 64 (i 1).val))
      (by rewrite [Shape.rowMajor_val_three, Shape.rowMajor_val_two]
          show ((i 0).val * 512 + (i 1).val / 64) * 64 + (i 1).val % 64 = (i 0).val * 32768 + (i 1).val
          omega)]
  exact extractStridedSlice_apply ![0, 0, off] y125 s126 _ _ (fun a => match a with
    | ⟨0, _⟩ => by show (i 0).val = 0 + (i 0).val; omega
    | ⟨1, _⟩ => by show (i 1).val / 64 = 0 + (i 1).val / 64; omega
    | ⟨2, _⟩ => rfl)

theorem stageReflat (C : Fin 64 → Fin 512 → Fin 64 → EReal) (y151 : T32768x64.Idx → EReal) (y152 : T64x32768.Idx → EReal)
    (h151 : ∀ i : T32768x64.Idx, y151 i
      = C (fdiv 512 64 (i 0).val (i 0).isLt) (fmod 512 (i 0).val) (fin 64 (i 1).val (i 1).isLt))
    {c152 : T32768x64.ShapeCasts T64x32768} (h152 : y152 = shapeCast T64x32768 y151 c152) (i : T64x32768.Idx) :
    y152 i = C (fin 64 (i 0).val (i 0).isLt) (fdiv 64 512 (i 1).val (i 1).isLt) (fmod 64 (i 1).val) := by
  have h0 : (i 0).val < 64 := (i 0).isLt
  have h1 : (i 1).val < 32768 := (i 1).isLt
  have hr : (i 0).val * 512 + (i 1).val / 64 < 32768 := by omega
  subst h152
  rw [shapeCast_apply y151 c152 i (ix2 (fin 32768 ((i 0).val * 512 + (i 1).val / 64) hr) (fmod 64 (i 1).val))
      (by rewrite [Shape.rowMajor_val_two, Shape.rowMajor_val_two]
          show ((i 0).val * 512 + (i 1).val / 64) * 64 + (i 1).val % 64 = (i 0).val * 32768 + (i 1).val
          omega)]
  refine (h151 _).trans ?_
  show C (fdiv 512 64 ((i 0).val * 512 + (i 1).val / 64) hr) (fmod 512 ((i 0).val * 512 + (i 1).val / 64))
      (fmod 64 (i 1).val) = _
  have eb : fdiv 512 64 ((i 0).val * 512 + (i 1).val / 64) hr = fin 64 (i 0).val (i 0).isLt :=
    Fin.ext (by show ((i 0).val * 512 + (i 1).val / 64) / 512 = (i 0).val; omega)
  have en : fmod 512 ((i 0).val * 512 + (i 1).val / 64) = fdiv 64 512 (i 1).val (i 1).isLt :=
    Fin.ext (by show ((i 0).val * 512 + (i 1).val / 64) % 512 = (i 1).val / 64; omega)
  rw [eb, en]

end Tail

abbrev T32768x1 : Shape := ⟨2, ![32768, 1]⟩
abbrev T64x512 : Shape := ⟨2, ![64, 512]⟩
abbrev T1x64x32768 : Shape := ⟨3, ![1, 64, 32768]⟩
abbrev T2x64x32768 : Shape := ⟨3, ![2, 64, 32768]⟩

section Results

theorem stageProj (H : Fin 64 → Fin 64 → Fin 512 → EReal) (wp : (⟨2, ![64, 1]⟩ : Shape).Idx → EReal)
    (bp : (⟨1, ![1]⟩ : Shape).Idx → EReal) (y158 : T64x32768.Idx → EReal) (y159 : T32768x64.Idx → EReal)
    (y160 y162 y163 : T32768x1.Idx → EReal) (y164 : T64x512.Idx → EReal)
    (h158 : ∀ i : T64x32768.Idx, y158 i = H (fin 64 (i 0).val (i 0).isLt) (fmod 64 (i 1).val) (fdiv 64 512 (i 1).val (i 1).isLt))
    {c159 : T64x32768.ShapeCasts T32768x64} (h159 : y159 = shapeCast T32768x64 y158 c159)
    (l : T32768x1.Idx → Fin 64 → T32768x64.Idx) (r : T32768x1.Idx → Fin 64 → (⟨2, ![64, 1]⟩ : Shape).Idx)
    (hl : ∀ i k, l i k = ix2 (fin 32768 (i 0).val (i 0).isLt) k) (hr : ∀ i k, r i k = ix2 k (fin 1 (i 1).val (i 1).isLt))
    (h160 : ∀ i, y160 i = ∑ k : Fin 64, y159 (l i k) * wp (r i k))
    (h162 : ∀ i, y162 i = bp (ix1 0)) (h163 : ∀ i, y163 i = FloatOps.addf (F := Ideal) (φ := .f32) (y160 i) (y162 i))
    {c164 : T32768x1.ShapeCasts T64x512} (h164 : y164 = shapeCast T64x512 y163 c164) (i : T64x512.Idx) :
    y164 i = (∑ u : Fin 64, H (fin 64 (i 0).val (i 0).isLt) u (fin 512 (i 1).val (i 1).isLt) * wp (ix2 u 0)) + bp (ix1 0) := by
  have h0 : (i 0).val < 64 := (i 0).isLt
  have h1 : (i 1).val < 512 := (i 1).isLt
  have hr0 : (i 0).val * 512 + (i 1).val < 32768 := by omega
  subst h164 h159
  rw [shapeCast_apply y163 c164 i (ix2 (fin 32768 ((i 0).val * 512 + (i 1).val) hr0) (fin 1 0 Nat.one_pos))
      (by rewrite [Shape.rowMajor_val_two, Shape.rowMajor_val_two]
          show ((i 0).val * 512 + (i 1).val) * 1 + 0 = (i 0).val * 512 + (i 1).val
          omega)]
  rw [h163, h162, h160]
  show _ + bp (ix1 0) = _ + bp (ix1 0)
  refine congrArg (· + bp (ix1 0)) (Finset.sum_congr rfl fun u _ => ?_)
  have hu : u.val < 64 := u.isLt
  have hq : (i 1).val * 64 + u.val < 32768 := by omega
  rw [hl, hr]
  rw [shapeCast_apply y158 c159 _ (ix2 (fin 64 (i 0).val h0) (fin 32768 ((i 1).val * 64 + u.val) hq))
      (by rewrite [Shape.rowMajor_val_two, Shape.rowMajor_val_two]
          show (i 0).val * 32768 + ((i 1).val * 64 + u.val) = ((i 0).val * 512 + (i 1).val) * 64 + u.val
          omega)]
  rw [h158]
  show H (fin 64 (i 0).val h0) (fmod 64 ((i 1).val * 64 + u.val)) (fdiv 64 512 ((i 1).val * 64 + u.val) hq)
      * wp (ix2 u (fin 1 0 Nat.one_pos)) = _
  have eu : fmod 64 ((i 1).val * 64 + u.val) = u := Fin.ext (by show ((i 1).val * 64 + u.val) % 64 = u.val; omega)
  have en : fdiv 64 512 ((i 1).val * 64 + u.val) hq = fin 512 (i 1).val (i 1).isLt :=
    Fin.ext (by show ((i 1).val * 64 + u.val) / 64 = (i 1).val; omega)
  rw [eu, en]
  rfl

theorem stageStack (P Q : T64x32768.Idx → EReal) (y165 y166 : T1x64x32768.Idx → EReal) (y167 : T2x64x32768.Idx → EReal)
    {b165 b166 : T64x32768.BroadcastsInDim T1x64x32768 ![1, 2]}
    (h165 : y165 = broadcastInDim T1x64x32768 ![1, 2] b165 P) (h166 : y166 = broadcastInDim T1x64x32768 ![1, 2] b166 Q)
    {c167 : Shape.Concatenates [T1x64x32768, T1x64x32768] T2x64x32768 0}
    (h167 : y167 = concatenate T2x64x32768 0 [⟨T1x64x32768, y165⟩, ⟨T1x64x32768, y166⟩] c167) (i : T2x64x32768.Idx) :
    y167 i = if (i 0).val = 0 then P (ix2 (fin 64 (i 1).val (i 1).isLt) (fin 32768 (i 2).val (i 2).isLt))
      else Q (ix2 (fin 64 (i 1).val (i 1).isLt) (fin 32768 (i 2).val (i 2).isLt)) := by
  have h0 : (i 0).val < 2 := (i 0).isLt
  have bc : ∀ (b : T64x32768.BroadcastsInDim T1x64x32768 ![1, 2]) (y : T64x32768.Idx → EReal),
      broadcastInDim T1x64x32768 ![1, 2] b y (ix3 (fin 1 0 Nat.one_pos) (fin 64 (i 1).val (i 1).isLt) (fin 32768 (i 2).val (i 2).isLt))
        = y (ix2 (fin 64 (i 1).val (i 1).isLt) (fin 32768 (i 2).val (i 2).isLt)) := fun b y =>
    broadcastInDim_apply _ b y _ _ (fun a => match a with
      | ⟨0, _⟩ => by show (i 1).val = if (64 : Nat) = 1 then 0 else (i 1).val; rw [if_neg (by decide)]
      | ⟨1, _⟩ => by show (i 2).val = if (32768 : Nat) = 1 then 0 else (i 2).val; rw [if_neg (by decide)])
  subst h167 h165 h166
  by_cases hz : (i 0).val = 0
  · rw [if_pos hz, ← bc b165 P]
    exact concatenate_pair_apply_left 0 _ _ c167 i rfl _ (fun b => match b with
      | ⟨0, _⟩ => hz.symm
      | ⟨1, _⟩ => rfl
      | ⟨2, _⟩ => rfl)
  · rw [if_neg hz, ← bc b166 Q]
    exact concatenate_pair_apply_right 0 _ _ c167 i rfl rfl _ (fun b hb => match b, hb with
      | ⟨0, _⟩, hb => absurd rfl hb
      | ⟨1, _⟩, _ => rfl
      | ⟨2, _⟩, _ => rfl) (by show 0 + 1 = (i 0).val; omega)

end Results

section State

theorem stageSt (x1 : T2x64x32768.Idx → EReal) (y95 : T1x64x32768.Idx → EReal) (y96 : T64x32768.Idx → EReal)
    {s95 : T2x64x32768.Slices ![1, 0, 0] T1x64x32768} (h95 : y95 = extractStridedSlice T1x64x32768 ![1, 0, 0] x1 s95)
    {c96 : T1x64x32768.ShapeCasts T64x32768} (h96 : y96 = shapeCast T64x32768 y95 c96) (i : T64x32768.Idx) :
    y96 i = x1 (ix3 (fin 2 1 (by decide)) (fin 64 (i 0).val (i 0).isLt)
      (fin 32768 ((i 1).val / 64 * 64 + (i 1).val % 64) (by have h1 : (i 1).val < 32768 := (i 1).isLt; omega))) := by
  have h0 : (i 0).val < 64 := (i 0).isLt
  have h1 : (i 1).val < 32768 := (i 1).isLt
  subst h96 h95
  rw [shapeCast_apply _ c96 i (ix3 (fin 1 0 Nat.one_pos) (fin 64 (i 0).val h0) (fin 32768 (i 1).val h1))
      (by rewrite [Shape.rowMajor_val_three, Shape.rowMajor_val_two]
          show (0 * 64 + (i 0).val) * 32768 + (i 1).val = (i 0).val * 32768 + (i 1).val
          omega)]
  exact extractStridedSlice_apply ![1, 0, 0] x1 s95 _ _ (fun a => match a with
    | ⟨0, _⟩ => rfl
    | ⟨1, _⟩ => by show (i 0).val = 0 + (i 0).val; omega
    | ⟨2, _⟩ => by show (i 1).val / 64 * 64 + (i 1).val % 64 = 0 + (i 1).val; omega)

end State

end Cert.ReferenceIdeal.RefValue.L1

end
-- ==== Proof.Ref.Layer1.lean ====
import proofs.«134251_g19069654794669_cont_sun_m_30_29_alg».proof.Proof.Ref.Base
import proofs.«134251_g19069654794669_cont_sun_m_30_29_alg».proof.Proof.Spec
import proofs.«134251_g19069654794669_cont_sun_m_30_29_alg».proof.Proof.Ref.L1Pure

noncomputable section

namespace Cert.ReferenceIdeal.RefValue

open Cert.ReferenceIdeal Cert.ReferenceIdeal.Gen Cert.ReferenceIdeal.Read Idealize.ShloMosaic Idealize.ShloMosaic.ValueIdx
open Cert.ReferenceIdeal.RefValue.L1

namespace L1

abbrev R1 (A : Cert.Spec.Args) (b : Fin 64) (u : Fin 64) (n : Fin 512) : EReal :=
  Cert.Spec.rGate (Cert.Spec.sup A.adj) (Cert.Spec.h0 A b) (Cert.Spec.st A 1 b) (Cert.Spec.rows3 (nf := 128) A.wru1)
    (fun o => A.bru1 (ix1 o)) u n
abbrev U1 (A : Cert.Spec.Args) (b : Fin 64) (u : Fin 64) (n : Fin 512) : EReal :=
  Cert.Spec.uGate (Cert.Spec.sup A.adj) (Cert.Spec.h0 A b) (Cert.Spec.st A 1 b) (Cert.Spec.rows3 (nf := 128) A.wru1)
    (fun o => A.bru1 (ix1 o)) u n
abbrev X1 (A : Cert.Spec.Args) (b : Fin 64) : Fin 128 → Fin 512 → EReal :=
  Cert.Spec.feats (Cert.Spec.h0 A b) (Cert.Spec.st A 1 b)
abbrev G1 (A : Cert.Spec.Args) (b : Fin 64) (n : Fin 512) (o : Fin 128) : EReal :=
  Cert.Spec.gate (Cert.Spec.sup A.adj) (X1 A b) (Cert.Spec.rows3 (nf := 128) A.wru1) (fun o => A.bru1 (ix1 o)) n o
abbrev X2 (A : Cert.Spec.Args) (b : Fin 64) : Fin 128 → Fin 512 → EReal :=
  Cert.Spec.feats (Cert.Spec.h0 A b) (fun u n => R1 A b u n * Cert.Spec.st A 1 b u n)
abbrev C1 (A : Cert.Spec.Args) (b : Fin 64) (n : Fin 512) (u : Fin 64) : EReal :=
  Cert.Spec.gate (Cert.Spec.sup A.adj) (X2 A b) (Cert.Spec.rows3 (nf := 128) A.wc1) (fun o => A.bc1 (ix1 o)) n u

section
variable (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (x5 : (⟨S195x64, .f32⟩ : BufTy).Contents (Elt Ideal)) (x6 : (⟨S64, .f32⟩ : BufTy).Contents (Elt Ideal)) (x7 : (⟨S384x128, .f32⟩ : BufTy).Contents (Elt Ideal)) (x8 : (⟨S128, .f32⟩ : BufTy).Contents (Elt Ideal)) (x9 : (⟨S384x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal))

local notation "𝔸" => (Cert.Spec.Args.mk x0 x1 x2 x3 x4 x5 x6 x7 x8 x9 x10 x11 x12)

set_option quotPrecheck false

local notation "HSup" => ∀ i : S512x512.Idx, val_main_v30 (F := Ideal) x2 i
    = Cert.Spec.sup x2 ⟨(i 0).val, (i 0).isLt⟩ ⟨(i 1).val, (i 1).isLt⟩
local notation "HH0" => ∀ i : S64x32768.Idx, val_main_v94 (F := Ideal) x0 x1 x2 x3 x4 x5 x6 i
    = Cert.Spec.h0 𝔸 ⟨(i 0).val, (i 0).isLt⟩ ⟨(i 1).val % 64, Nat.mod_lt _ (by decide)⟩
        ⟨(i 1).val / 64, by have h1 : (i 1).val < 32768 := (i 1).isLt; omega⟩

theorem e96 (i : S64x32768.Idx) : val_main_v96 (F := Ideal) x1 i
    = Cert.Spec.st 𝔸 1 (fin 64 (i 0).val (i 0).isLt) (fmod 64 (i 1).val) (fdiv 64 512 (i 1).val (i 1).isLt) :=
  stageSt x1 (val_main_v95 (F := Ideal) x1) (val_main_v96 (F := Ideal) x1) rfl rfl i

theorem e99 (hh0 : HH0) (i : S64x512x128.Idx) : val_main_v99 (F := Ideal) x0 x1 x2 x3 x4 x5 x6 i
    = L1.X1 𝔸 (fin 64 (i 0).val (i 0).isLt) (fin 128 (i 2).val (i 2).isLt) (fin 512 (i 1).val (i 1).isLt) :=
  stageFeats (fun b => Cert.Spec.h0 𝔸 b) (fun b => Cert.Spec.st 𝔸 1 b) (val_main_v97 (F := Ideal) x0 x1 x2 x3 x4 x5 x6)
    (val_main_v98 (F := Ideal) x1) (val_main_v99 (F := Ideal) x0 x1 x2 x3 x4 x5 x6)
    (stageUnflat (fun b => Cert.Spec.h0 𝔸 b) (val_main_v94 (F := Ideal) x0 x1 x2 x3 x4 x5 x6) (val_main_v97 (F := Ideal) x0 x1 x2 x3 x4 x5 x6) hh0 rfl)
    (stageUnflat (fun b => Cert.Spec.st 𝔸 1 b) (val_main_v96 (F := Ideal) x1) (val_main_v98 (F := Ideal) x1)
      (e96 x0 x1 x2 x3 x4 x5 x6 x7 x8 x9 x10 x11 x12) rfl)
    rfl i

theorem e117 (hsup : HSup) (hh0 : HH0) (i : S32768x128.Idx) : val_main_v117 (F := Ideal) x0 x1 x2 x3 x4 x5 x6 x7 x8 i
    = L1.G1 𝔸 (fdiv 512 64 (i 0).val (i 0).isLt) (fmod 512 (i 0).val) (fin 128 (i 1).val (i 1).isLt) := by
  have e101 := stage101 (L1.X1 𝔸) (val_main_v99 (F := Ideal) x0 x1 x2 x3 x4 x5 x6) (val_main_v100 (F := Ideal) x0 x1 x2 x3 x4 x5 x6)
    (val_main_v101 (F := Ideal) x0 x1 x2 x3 x4 x5 x6) (e99 x0 x1 x2 x3 x4 x5 x6 x7 x8 x9 x10 x11 x12 hh0) rfl rfl
  have e102 := stageDot (Cert.Spec.sup x2) (L1.X1 𝔸) (val_main_v30 (F := Ideal) x2) (val_main_v101 (F := Ideal) x0 x1 x2 x3 x4 x5 x6)
    (val_main_v102 (F := Ideal) x0 x1 x2 x3 x4 x5 x6) hsup e101 lidx_main_v102 ridx_main_v102 (fun i k => funext fun a => match a with | ⟨0, _⟩ => rfl | ⟨1, _⟩ => rfl) (fun i k => funext fun a => match a with | ⟨0, _⟩ => rfl | ⟨1, _⟩ => rfl)
    (val_main_v102_apply x0 x1 x2 x3 x4 x5 x6)
  have e103 := stageDot (Cert.Spec.sup x2) (fun b f => Cert.Spec.diff (Cert.Spec.sup x2) (L1.X1 𝔸 b f))
    (val_main_v30 (F := Ideal) x2) (val_main_v102 (F := Ideal) x0 x1 x2 x3 x4 x5 x6) (val_main_v103 (F := Ideal) x0 x1 x2 x3 x4 x5 x6) hsup e102
    lidx_main_v103 ridx_main_v103 (fun i k => funext fun a => match a with | ⟨0, _⟩ => rfl | ⟨1, _⟩ => rfl) (fun i k => funext fun a => match a with | ⟨0, _⟩ => rfl | ⟨1, _⟩ => rfl) (val_main_v103_apply x0 x1 x2 x3 x4 x5 x6)
  have e106 := stageCheb2 (Cert.Spec.sup x2) (L1.X1 𝔸) (val_main_v101 (F := Ideal) x0 x1 x2 x3 x4 x5 x6) (val_main_v103 (F := Ideal) x0 x1 x2 x3 x4 x5 x6)
    (val_main_v104 (F := Ideal)) (val_main_v105 (F := Ideal) x0 x1 x2 x3 x4 x5 x6) (val_main_v106 (F := Ideal) x0 x1 x2 x3 x4 x5 x6) e101 e103
    (fun i => (val_main_v104_apply i).trans (val_main_cst_10_apply _)) (val_main_v105_apply x0 x1 x2 x3 x4 x5 x6) (val_main_v106_apply x0 x1 x2 x3 x4 x5 x6)
  have e110 := stage110 (Cert.Spec.sup x2) (L1.X1 𝔸) (val_main_v101 (F := Ideal) x0 x1 x2 x3 x4 x5 x6) (val_main_v102 (F := Ideal) x0 x1 x2 x3 x4 x5 x6)
    (val_main_v106 (F := Ideal) x0 x1 x2 x3 x4 x5 x6) (val_main_v107 (F := Ideal) x0 x1 x2 x3 x4 x5 x6) (val_main_v108 (F := Ideal) x0 x1 x2 x3 x4 x5 x6)
    (val_main_v109 (F := Ideal) x0 x1 x2 x3 x4 x5 x6) (val_main_v110 (F := Ideal) x0 x1 x2 x3 x4 x5 x6) e101 e102 e106 rfl rfl rfl rfl
  have e113 := stage113 (Cert.Spec.sup x2) (L1.X1 𝔸) (val_main_v110 (F := Ideal) x0 x1 x2 x3 x4 x5 x6) (val_main_v111 (F := Ideal) x0 x1 x2 x3 x4 x5 x6)
    (val_main_v112 (F := Ideal) x0 x1 x2 x3 x4 x5 x6) (val_main_v113 (F := Ideal) x0 x1 x2 x3 x4 x5 x6) e110 rfl rfl rfl
  exact stageGate (Cert.Spec.sup x2) (L1.X1 𝔸) x7 x8 (val_main_v113 (F := Ideal) x0 x1 x2 x3 x4 x5 x6) (val_main_v114 (F := Ideal) x0 x1 x2 x3 x4 x5 x6 x7)
    (val_main_v116 (F := Ideal) x8) (val_main_v117 (F := Ideal) x0 x1 x2 x3 x4 x5 x6 x7 x8) e113 lidx_main_v114 ridx_main_v114 (fun i k => funext fun a => match a with | ⟨0, _⟩ => rfl | ⟨1, _⟩ => rfl) (fun i k => funext fun a => match a with | ⟨0, _⟩ => rfl | ⟨1, _⟩ => rfl)
    (val_main_v114_apply x0 x1 x2 x3 x4 x5 x6 x7)
    (fun i => (val_main_v116_apply x8 i).trans ((val_main_v115_apply x8 _).trans
      (congrArg x8 (funext fun a => match a with | ⟨0, _⟩ => rfl))))
    (val_main_v117_apply x0 x1 x2 x3 x4 x5 x6 x7 x8) i

theorem e125 (hsup : HSup) (hh0 : HH0) (i : S64x512x128.Idx) : val_main_v125 (F := Ideal) x0 x1 x2 x3 x4 x5 x6 x7 x8 i
    = Ideal.logistic (L1.G1 𝔸 (fin 64 (i 0).val (i 0).isLt) (fin 512 (i 1).val (i 1).isLt) (fin 128 (i 2).val (i 2).isLt)) :=
  stageLogistic (L1.G1 𝔸) (val_main_v117 (F := Ideal) x0 x1 x2 x3 x4 x5 x6 x7 x8) (val_main_v118 (F := Ideal) x0 x1 x2 x3 x4 x5 x6 x7 x8)
    (val_main_v119 (F := Ideal) x0 x1 x2 x3 x4 x5 x6 x7 x8) (val_main_v120 (F := Ideal) x0 x1 x2 x3 x4 x5 x6 x7 x8) (val_main_v121 (F := Ideal))
    (val_main_v122 (F := Ideal) x0 x1 x2 x3 x4 x5 x6 x7 x8) (val_main_v123 (F := Ideal)) (val_main_v124 (F := Ideal) x0 x1 x2 x3 x4 x5 x6 x7 x8)
    (val_main_v125 (F := Ideal) x0 x1 x2 x3 x4 x5 x6 x7 x8) (e117 x0 x1 x2 x3 x4 x5 x6 x7 x8 x9 x10 x11 x12 hsup hh0) rfl (val_main_v119_apply x0 x1 x2 x3 x4 x5 x6 x7 x8) (val_main_v120_apply x0 x1 x2 x3 x4 x5 x6 x7 x8)
    (fun i => (val_main_v121_apply i).trans (val_main_cst_11_apply _)) (val_main_v122_apply x0 x1 x2 x3 x4 x5 x6 x7 x8)
    (fun i => (val_main_v123_apply i).trans (val_main_cst_12_apply _)) (val_main_v124_apply x0 x1 x2 x3 x4 x5 x6 x7 x8) rfl i

theorem e127 (hsup : HSup) (hh0 : HH0) (i : S64x32768.Idx) : val_main_v127 (F := Ideal) x0 x1 x2 x3 x4 x5 x6 x7 x8 i
    = L1.R1 𝔸 (fin 64 (i 0).val (i 0).isLt) (fmod 64 (i 1).val) (fdiv 64 512 (i 1).val (i 1).isLt) := by
  have hm : 0 + (i 1).val % 64 < 128 := by have := Nat.mod_lt (i 1).val (show 0 < 64 by decide); omega
  refine (stageHalf 0 (by decide) (val_main_v125 (F := Ideal) x0 x1 x2 x3 x4 x5 x6 x7 x8) (val_main_v126 (F := Ideal) x0 x1 x2 x3 x4 x5 x6 x7 x8)
    (val_main_v127 (F := Ideal) x0 x1 x2 x3 x4 x5 x6 x7 x8) rfl rfl i).trans ((e125 x0 x1 x2 x3 x4 x5 x6 x7 x8 x9 x10 x11 x12 hsup hh0 _).trans ?_)
  show Ideal.logistic (L1.G1 𝔸 (fin 64 (i 0).val (i 0).isLt) (fdiv 64 512 (i 1).val (i 1).isLt) (fin 128 (0 + (i 1).val % 64) hm))
    = Ideal.logistic (L1.G1 𝔸 (fin 64 (i 0).val (i 0).isLt) (fdiv 64 512 (i 1).val (i 1).isLt) (Fin.castAdd 64 (fmod 64 (i 1).val)))
  rw [show fin 128 (0 + (i 1).val % 64) hm = Fin.castAdd 64 (fmod 64 (i 1).val) from Fin.ext (Nat.zero_add _)]

theorem e129 (hsup : HSup) (hh0 : HH0) (i : S64x32768.Idx) : val_main_v129 (F := Ideal) x0 x1 x2 x3 x4 x5 x6 x7 x8 i
    = L1.U1 𝔸 (fin 64 (i 0).val (i 0).isLt) (fmod 64 (i 1).val) (fdiv 64 512 (i 1).val (i 1).isLt) := by
  have hm : 64 + (i 1).val % 64 < 128 := by have := Nat.mod_lt (i 1).val (show 0 < 64 by decide); omega
  refine (stageHalf 64 (by decide) (val_main_v125 (F := Ideal) x0 x1 x2 x3 x4 x5 x6 x7 x8) (val_main_v128 (F := Ideal) x0 x1 x2 x3 x4 x5 x6 x7 x8)
    (val_main_v129 (F := Ideal) x0 x1 x2 x3 x4 x5 x6 x7 x8) rfl rfl i).trans ((e125 x0 x1 x2 x3 x4 x5 x6 x7 x8 x9 x10 x11 x12 hsup hh0 _).trans ?_)
  show Ideal.logistic (L1.G1 𝔸 (fin 64 (i 0).val (i 0).isLt) (fdiv 64 512 (i 1).val (i 1).isLt) (fin 128 (64 + (i 1).val % 64) hm))
    = Ideal.logistic (L1.G1 𝔸 (fin 64 (i 0).val (i 0).isLt) (fdiv 64 512 (i 1).val (i 1).isLt) (Fin.natAdd 64 (fmod 64 (i 1).val)))
  rw [show fin 128 (64 + (i 1).val % 64) hm = Fin.natAdd 64 (fmod 64 (i 1).val) from Fin.ext rfl]

theorem e130 (hsup : HSup) (hh0 : HH0) (i : S64x32768.Idx) : val_main_v130 (F := Ideal) x0 x1 x2 x3 x4 x5 x6 x7 x8 i
    = L1.R1 𝔸 (fin 64 (i 0).val (i 0).isLt) (fmod 64 (i 1).val) (fdiv 64 512 (i 1).val (i 1).isLt)
      * Cert.Spec.st 𝔸 1 (fin 64 (i 0).val (i 0).isLt) (fmod 64 (i 1).val) (fdiv 64 512 (i 1).val (i 1).isLt) := by
  rw [val_main_v130_apply, e127 x0 x1 x2 x3 x4 x5 x6 x7 x8 x9 x10 x11 x12 hsup hh0, e96 x0 x1 x2 x3 x4 x5 x6 x7 x8 x9 x10 x11 x12]
  rfl

theorem e133 (hsup : HSup) (hh0 : HH0) (i : S64x512x128.Idx) : val_main_v133 (F := Ideal) x0 x1 x2 x3 x4 x5 x6 x7 x8 i
    = L1.X2 𝔸 (fin 64 (i 0).val (i 0).isLt) (fin 128 (i 2).val (i 2).isLt) (fin 512 (i 1).val (i 1).isLt) :=
  stageFeats (fun b => Cert.Spec.h0 𝔸 b) (fun b u n => L1.R1 𝔸 b u n * Cert.Spec.st 𝔸 1 b u n)
    (val_main_v131 (F := Ideal) x0 x1 x2 x3 x4 x5 x6) (val_main_v132 (F := Ideal) x0 x1 x2 x3 x4 x5 x6 x7 x8) (val_main_v133 (F := Ideal) x0 x1 x2 x3 x4 x5 x6 x7 x8)
    (stageUnflat (fun b => Cert.Spec.h0 𝔸 b) (val_main_v94 (F := Ideal) x0 x1 x2 x3 x4 x5 x6) (val_main_v131 (F := Ideal) x0 x1 x2 x3 x4 x5 x6) hh0 rfl)
    (stageUnflat (fun b u n => L1.R1 𝔸 b u n * Cert.Spec.st 𝔸 1 b u n) (val_main_v130 (F := Ideal) x0 x1 x2 x3 x4 x5 x6 x7 x8)
      (val_main_v132 (F := Ideal) x0 x1 x2 x3 x4 x5 x6 x7 x8) (e130 x0 x1 x2 x3 x4 x5 x6 x7 x8 x9 x10 x11 x12 hsup hh0) rfl)
    rfl i

theorem e151 (hsup : HSup) (hh0 : HH0) (i : S32768x64.Idx) : val_main_v151 (F := Ideal) x0 x1 x2 x3 x4 x5 x6 x7 x8 x9 x10 i
    = L1.C1 𝔸 (fdiv 512 64 (i 0).val (i 0).isLt) (fmod 512 (i 0).val) (fin 64 (i 1).val (i 1).isLt) := by
  have e135 := stage101 (L1.X2 𝔸) (val_main_v133 (F := Ideal) x0 x1 x2 x3 x4 x5 x6 x7 x8) (val_main_v134 (F := Ideal) x0 x1 x2 x3 x4 x5 x6 x7 x8)
    (val_main_v135 (F := Ideal) x0 x1 x2 x3 x4 x5 x6 x7 x8) (e133 x0 x1 x2 x3 x4 x5 x6 x7 x8 x9 x10 x11 x12 hsup hh0) rfl rfl
  have e136 := stageDot (Cert.Spec.sup x2) (L1.X2 𝔸) (val_main_v30 (F := Ideal) x2) (val_main_v135 (F := Ideal) x0 x1 x2 x3 x4 x5 x6 x7 x8)
    (val_main_v136 (F := Ideal) x0 x1 x2 x3 x4 x5 x6 x7 x8) hsup e135 lidx_main_v136 ridx_main_v136 (fun i k => funext fun a => match a with | ⟨0, _⟩ => rfl | ⟨1, _⟩ => rfl) (fun i k => funext fun a => match a with | ⟨0, _⟩ => rfl | ⟨1, _⟩ => rfl)
    (val_main_v136_apply x0 x1 x2 x3 x4 x5 x6 x7 x8)
  have e137 := stageDot (Cert.Spec.sup x2) (fun b f => Cert.Spec.diff (Cert.Spec.sup x2) (L1.X2 𝔸 b f))
    (val_main_v30 (F := Ideal) x2) (val_main_v136 (F := Ideal) x0 x1 x2 x3 x4 x5 x6 x7 x8) (val_main_v137 (F := Ideal) x0 x1 x2 x3 x4 x5 x6 x7 x8) hsup e136
    lidx_main_v137 ridx_main_v137 (fun i k => funext fun a => match a with | ⟨0, _⟩ => rfl | ⟨1, _⟩ => rfl) (fun i k => funext fun a => match a with | ⟨0, _⟩ => rfl | ⟨1, _⟩ => rfl) (val_main_v137_apply x0 x1 x2 x3 x4 x5 x6 x7 x8)
  have e140 := stageCheb2 (Cert.Spec.sup x2) (L1.X2 𝔸) (val_main_v135 (F := Ideal) x0 x1 x2 x3 x4 x5 x6 x7 x8) (val_main_v137 (F := Ideal) x0 x1 x2 x3 x4 x5 x6 x7 x8)
    (val_main_v138 (F := Ideal)) (val_main_v139 (F := Ideal) x0 x1 x2 x3 x4 x5 x6 x7 x8) (val_main_v140 (F := Ideal) x0 x1 x2 x3 x4 x5 x6 x7 x8) e135 e137
    (fun i => (val_main_v138_apply i).trans (val_main_cst_13_apply _)) (val_main_v139_apply x0 x1 x2 x3 x4 x5 x6 x7 x8) (val_main_v140_apply x0 x1 x2 x3 x4 x5 x6 x7 x8)
  have e144 := stage110 (Cert.Spec.sup x2) (L1.X2 𝔸) (val_main_v135 (F := Ideal) x0 x1 x2 x3 x4 x5 x6 x7 x8) (val_main_v136 (F := Ideal) x0 x1 x2 x3 x4 x5 x6 x7 x8)
    (val_main_v140 (F := Ideal) x0 x1 x2 x3 x4 x5 x6 x7 x8) (val_main_v141 (F := Ideal) x0 x1 x2 x3 x4 x5 x6 x7 x8) (val_main_v142 (F := Ideal) x0 x1 x2 x3 x4 x5 x6 x7 x8)
    (val_main_v143 (F := Ideal) x0 x1 x2 x3 x4 x5 x6 x7 x8) (val_main_v144 (F := Ideal) x0 x1 x2 x3 x4 x5 x6 x7 x8) e135 e136 e140 rfl rfl rfl rfl
  have e147 := stage113 (Cert.Spec.sup x2) (L1.X2 𝔸) (val_main_v144 (F := Ideal) x0 x1 x2 x3 x4 x5 x6 x7 x8) (val_main_v145 (F := Ideal) x0 x1 x2 x3 x4 x5 x6 x7 x8)
    (val_main_v146 (F := Ideal) x0 x1 x2 x3 x4 x5 x6 x7 x8) (val_main_v147 (F := Ideal) x0 x1 x2 x3 x4 x5 x6 x7 x8) e144 rfl rfl rfl
  exact stageGate (Cert.Spec.sup x2) (L1.X2 𝔸) x9 x10 (val_main_v147 (F := Ideal) x0 x1 x2 x3 x4 x5 x6 x7 x8) (val_main_v148 (F := Ideal) x0 x1 x2 x3 x4 x5 x6 x7 x8 x9)
    (val_main_v150 (F := Ideal) x10) (val_main_v151 (F := Ideal) x0 x1 x2 x3 x4 x5 x6 x7 x8 x9 x10) e147 lidx_main_v148 ridx_main_v148 (fun i k => funext fun a => match a with | ⟨0, _⟩ => rfl | ⟨1, _⟩ => rfl) (fun i k => funext fun a => match a with | ⟨0, _⟩ => rfl | ⟨1, _⟩ => rfl)
    (val_main_v148_apply x0 x1 x2 x3 x4 x5 x6 x7 x8 x9)
    (fun i => (val_main_v150_apply x10 i).trans ((val_main_v149_apply x10 _).trans
      (congrArg x10 (funext fun a => match a with | ⟨0, _⟩ => rfl))))
    (val_main_v151_apply x0 x1 x2 x3 x4 x5 x6 x7 x8 x9 x10) i

theorem e153 (hsup : HSup) (hh0 : HH0) (i : S64x32768.Idx) : val_main_v153 (F := Ideal) x0 x1 x2 x3 x4 x5 x6 x7 x8 x9 x10 i
    = Ideal.tanh (L1.C1 𝔸 (fin 64 (i 0).val (i 0).isLt) (fdiv 64 512 (i 1).val (i 1).isLt) (fmod 64 (i 1).val)) := by
  rw [val_main_v153_apply, stageReflat (L1.C1 𝔸) (val_main_v151 (F := Ideal) x0 x1 x2 x3 x4 x5 x6 x7 x8 x9 x10) (val_main_v152 (F := Ideal) x0 x1 x2 x3 x4 x5 x6 x7 x8 x9 x10)
    (e151 x0 x1 x2 x3 x4 x5 x6 x7 x8 x9 x10 x11 x12 hsup hh0) rfl i]
  rfl

end

end L1

theorem ref_h1 (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (x5 : (⟨S195x64, .f32⟩ : BufTy).Contents (Elt Ideal)) (x6 : (⟨S64, .f32⟩ : BufTy).Contents (Elt Ideal)) (x7 : (⟨S384x128, .f32⟩ : BufTy).Contents (Elt Ideal)) (x8 : (⟨S128, .f32⟩ : BufTy).Contents (Elt Ideal)) (x9 : (⟨S384x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal))
    (hsup : ∀ i : S512x512.Idx, val_main_v30 (F := Ideal) x2 i
      = Cert.Spec.sup x2 ⟨(i 0).val, (i 0).isLt⟩ ⟨(i 1).val, (i 1).isLt⟩)
    (hh0 : ∀ i : S64x32768.Idx, val_main_v94 (F := Ideal) x0 x1 x2 x3 x4 x5 x6 i
      = Cert.Spec.h0 (Cert.Spec.Args.mk x0 x1 x2 x3 x4 x5 x6 x7 x8 x9 x10 x11 x12) ⟨(i 0).val, (i 0).isLt⟩ ⟨(i 1).val % 64, Nat.mod_lt _ (by decide)⟩
          ⟨(i 1).val / 64, by have h1 : (i 1).val < 32768 := (i 1).isLt; omega⟩)
    (i : S64x32768.Idx) :
    val_main_v158 (F := Ideal) x0 x1 x2 x3 x4 x5 x6 x7 x8 x9 x10 i
      = Cert.Spec.h1 (Cert.Spec.Args.mk x0 x1 x2 x3 x4 x5 x6 x7 x8 x9 x10 x11 x12) ⟨(i 0).val, (i 0).isLt⟩ ⟨(i 1).val % 64, Nat.mod_lt _ (by decide)⟩
          ⟨(i 1).val / 64, by have h1 : (i 1).val < 32768 := (i 1).isLt; omega⟩ := by
  rw [val_main_v158_apply, val_main_v154_apply, val_main_v157_apply, val_main_v156_apply,
    L1.e129 x0 x1 x2 x3 x4 x5 x6 x7 x8 x9 x10 x11 x12 hsup hh0, L1.e96 x0 x1 x2 x3 x4 x5 x6 x7 x8 x9 x10 x11 x12, L1.e153 x0 x1 x2 x3 x4 x5 x6 x7 x8 x9 x10 x11 x12 hsup hh0, (val_main_v155_apply i).trans (val_main_cst_14_apply _)]
  rfl

end Cert.ReferenceIdeal.RefValue

end
-- ==== Proof.Ref.Results.lean ====
import proofs.«134251_g19069654794669_cont_sun_m_30_29_alg».proof.Proof.Ref.Layer1

noncomputable section

namespace Cert.ReferenceIdeal.RefValue

open Cert.ReferenceIdeal Cert.ReferenceIdeal.Gen Cert.ReferenceIdeal.Read Idealize.ShloMosaic Idealize.ShloMosaic.ValueIdx
open Cert.ReferenceIdeal.RefValue.L1

theorem ref_res0 (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (x5 : (⟨S195x64, .f32⟩ : BufTy).Contents (Elt Ideal)) (x6 : (⟨S64, .f32⟩ : BufTy).Contents (Elt Ideal)) (x7 : (⟨S384x128, .f32⟩ : BufTy).Contents (Elt Ideal)) (x8 : (⟨S128, .f32⟩ : BufTy).Contents (Elt Ideal)) (x9 : (⟨S384x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal))
    (hsup : ∀ i : S512x512.Idx, val_main_v30 (F := Ideal) x2 i
      = Cert.Spec.sup x2 ⟨(i 0).val, (i 0).isLt⟩ ⟨(i 1).val, (i 1).isLt⟩)
    (hh0 : ∀ i : S64x32768.Idx, val_main_v94 (F := Ideal) x0 x1 x2 x3 x4 x5 x6 i
      = Cert.Spec.h0 (Cert.Spec.Args.mk x0 x1 x2 x3 x4 x5 x6 x7 x8 x9 x10 x11 x12) ⟨(i 0).val, (i 0).isLt⟩ ⟨(i 1).val % 64, Nat.mod_lt _ (by decide)⟩
          ⟨(i 1).val / 64, by have h1 : (i 1).val < 32768 := (i 1).isLt; omega⟩) :
    val_main_v164 (F := Ideal) x0 x1 x2 x3 x4 x5 x6 x7 x8 x9 x10 x11 x12 = Cert.Spec.res0 (Cert.Spec.Args.mk x0 x1 x2 x3 x4 x5 x6 x7 x8 x9 x10 x11 x12) := by
  funext i
  exact stageProj (fun b => Cert.Spec.h1 (Cert.Spec.Args.mk x0 x1 x2 x3 x4 x5 x6 x7 x8 x9 x10 x11 x12) b) x11 x12
    (val_main_v158 (F := Ideal) x0 x1 x2 x3 x4 x5 x6 x7 x8 x9 x10) (val_main_v159 (F := Ideal) x0 x1 x2 x3 x4 x5 x6 x7 x8 x9 x10) (val_main_v160 (F := Ideal) x0 x1 x2 x3 x4 x5 x6 x7 x8 x9 x10 x11)
    (val_main_v162 (F := Ideal) x12) (val_main_v163 (F := Ideal) x0 x1 x2 x3 x4 x5 x6 x7 x8 x9 x10 x11 x12) (val_main_v164 (F := Ideal) x0 x1 x2 x3 x4 x5 x6 x7 x8 x9 x10 x11 x12)
    (ref_h1 x0 x1 x2 x3 x4 x5 x6 x7 x8 x9 x10 x11 x12 hsup hh0) rfl lidx_main_v160 ridx_main_v160 (fun i k => funext fun a => match a with | ⟨0, _⟩ => rfl | ⟨1, _⟩ => rfl) (fun i k => funext fun a => match a with | ⟨0, _⟩ => rfl | ⟨1, _⟩ => rfl)
    (val_main_v160_apply x0 x1 x2 x3 x4 x5 x6 x7 x8 x9 x10 x11)
    (fun i => (val_main_v162_apply x12 i).trans ((val_main_v161_apply x12 _).trans
      (congrArg x12 (funext fun a => match a with | ⟨0, _⟩ => rfl))))
    (val_main_v163_apply x0 x1 x2 x3 x4 x5 x6 x7 x8 x9 x10 x11 x12) rfl i

theorem ref_res1 (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (x5 : (⟨S195x64, .f32⟩ : BufTy).Contents (Elt Ideal)) (x6 : (⟨S64, .f32⟩ : BufTy).Contents (Elt Ideal)) (x7 : (⟨S384x128, .f32⟩ : BufTy).Contents (Elt Ideal)) (x8 : (⟨S128, .f32⟩ : BufTy).Contents (Elt Ideal)) (x9 : (⟨S384x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal))
    (hsup : ∀ i : S512x512.Idx, val_main_v30 (F := Ideal) x2 i
      = Cert.Spec.sup x2 ⟨(i 0).val, (i 0).isLt⟩ ⟨(i 1).val, (i 1).isLt⟩)
    (hh0 : ∀ i : S64x32768.Idx, val_main_v94 (F := Ideal) x0 x1 x2 x3 x4 x5 x6 i
      = Cert.Spec.h0 (Cert.Spec.Args.mk x0 x1 x2 x3 x4 x5 x6 x7 x8 x9 x10 x11 x12) ⟨(i 0).val, (i 0).isLt⟩ ⟨(i 1).val % 64, Nat.mod_lt _ (by decide)⟩
          ⟨(i 1).val / 64, by have h1 : (i 1).val < 32768 := (i 1).isLt; omega⟩) :
    val_main_v167 (F := Ideal) x0 x1 x2 x3 x4 x5 x6 x7 x8 x9 x10 = Cert.Spec.res1 (Cert.Spec.Args.mk x0 x1 x2 x3 x4 x5 x6 x7 x8 x9 x10 x11 x12) := by
  funext i
  have h0 : (i 0).val < 2 := (i 0).isLt
  rw [stageStack (val_main_v94 (F := Ideal) x0 x1 x2 x3 x4 x5 x6) (val_main_v158 (F := Ideal) x0 x1 x2 x3 x4 x5 x6 x7 x8 x9 x10) (val_main_v165 (F := Ideal) x0 x1 x2 x3 x4 x5 x6)
    (val_main_v166 (F := Ideal) x0 x1 x2 x3 x4 x5 x6 x7 x8 x9 x10) (val_main_v167 (F := Ideal) x0 x1 x2 x3 x4 x5 x6 x7 x8 x9 x10) rfl rfl rfl i]
  show _ = Cert.Spec.hid (Cert.Spec.Args.mk x0 x1 x2 x3 x4 x5 x6 x7 x8 x9 x10 x11 x12) ⟨(i 0).val, (i 0).isLt⟩ ⟨(i 1).val, (i 1).isLt⟩ ⟨(i 2).val, (i 2).isLt⟩
  by_cases hz : (i 0).val = 0
  · rw [if_pos hz, hh0, show (⟨(i 0).val, (i 0).isLt⟩ : Fin 2) = 0 from Fin.ext hz]
    rfl
  · rw [if_neg hz, ref_h1 x0 x1 x2 x3 x4 x5 x6 x7 x8 x9 x10 x11 x12 hsup hh0, show (⟨(i 0).val, (i 0).isLt⟩ : Fin 2) = 1 from Fin.ext (by show (i 0).val = 1; omega)]
    rfl

end Cert.ReferenceIdeal.RefValue

end
-- ==== Proof.Ref.RunH1.lean ====
/- The reference's first 109 operations, read stretch by stretch: a stretch takes named stages of the arguments to named stages and leaves the arguments alone. -/
import proofs.«134251_g19069654794669_cont_sun_m_30_29_alg».proof.Proof.Ref.Base
import Idealize.ShloMosaic.Lib.Pipeline.Frame

noncomputable section

namespace Cert.ReferenceIdeal.RefValue

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

variable (x0 : (⟨S64x512, .f32⟩ : BufTy).Contents (Elt F))
  (x1 : (⟨S2x64x32768, .f32⟩ : BufTy).Contents (Elt F))
  (x2 : (⟨S512x512, .f32⟩ : BufTy).Contents (Elt F))
  (x3 : (⟨S195x128, .f32⟩ : BufTy).Contents (Elt F))
  (x4 : (⟨S128, .f32⟩ : BufTy).Contents (Elt F))
  (x5 : (⟨S195x64, .f32⟩ : BufTy).Contents (Elt F))
  (x6 : (⟨S64, .f32⟩ : BufTy).Contents (Elt F))
  (x7 : (⟨S384x128, .f32⟩ : BufTy).Contents (Elt F))
  (x8 : (⟨S128, .f32⟩ : BufTy).Contents (Elt F))
  (x9 : (⟨S384x64, .f32⟩ : BufTy).Contents (Elt F))
  (x10 : (⟨S64, .f32⟩ : BufTy).Contents (Elt F))
  (x11 : (⟨S64x1, .f32⟩ : BufTy).Contents (Elt F))
  (x12 : (⟨S1, .f32⟩ : BufTy).Contents (Elt F))

/-- The thirteen argument buffers hold the arrays `x0 … x12`. -/
abbrev ArgsAt (W : Valuation τ sig (Elt F)) : Prop :=
  W (main_arg0 : DevRef τ sig) = x0 ∧ W (main_arg1 : DevRef τ sig) = x1 ∧ W (main_arg2 : DevRef τ sig) = x2 ∧ W (main_arg3 : DevRef τ sig) = x3 ∧ W (main_arg4 : DevRef τ sig) = x4 ∧ W (main_arg5 : DevRef τ sig) = x5 ∧ W (main_arg6 : DevRef τ sig) = x6 ∧ W (main_arg7 : DevRef τ sig) = x7 ∧ W (main_arg8 : DevRef τ sig) = x8 ∧ W (main_arg9 : DevRef τ sig) = x9 ∧ W (main_arg10 : DevRef τ sig) = x10 ∧ W (main_arg11 : DevRef τ sig) = x11 ∧ W (main_arg12 : DevRef τ sig) = x12

variable {x0 x1 x2 x3 x4 x5 x6 x7 x8 x9 x10 x11 x12}

def sA1 : List (HloOp τ sig (Elt F)) := (ops.drop 0).take 8

set_option maxHeartbeats 1600000 in
theorem stA1 (W : Valuation τ sig (Elt F))
    (ha : ArgsAt x0 x1 x2 x3 x4 x5 x6 x7 x8 x9 x10 x11 x12 W) :
    (after sA1 W (main_v1 : DevRef τ sig) = val_main_v1 (F := F) x2
    ∧ after sA1 W (main_v4 : DevRef τ sig) = val_main_v4 (F := F) x2
    ∧ after sA1 W (main_v5 : DevRef τ sig) = val_main_v5 (F := F) x2)
    ∧ ArgsAt x0 x1 x2 x3 x4 x5 x6 x7 x8 x9 x10 x11 x12 (after sA1 W) := by
  obtain ⟨rfl, rfl, rfl, rfl, rfl, rfl, rfl, rfl, rfl, rfl, rfl, rfl, rfl⟩ := ha
  simp only [sA1, ops, List.drop_succ_cons, List.drop_zero, List.take_succ_cons, List.take_zero]
  refine ⟨⟨?_, ?_, ?_⟩, ?_, ?_, ?_, ?_, ?_, ?_, ?_, ?_, ?_, ?_, ?_, ?_, ?_⟩
  · after_results; rfl
  · after_results; rfl
  · after_results; rfl
  all_goals after_results

def sA2 : List (HloOp τ sig (Elt F)) := (ops.drop 8).take 7

set_option maxHeartbeats 1600000 in
theorem stA2 (W : Valuation τ sig (Elt F))
    (ha : ArgsAt x0 x1 x2 x3 x4 x5 x6 x7 x8 x9 x10 x11 x12 W)
    (h_v1 : W (main_v1 : DevRef τ sig) = val_main_v1 (F := F) x2)
    (h_v4 : W (main_v4 : DevRef τ sig) = val_main_v4 (F := F) x2)
    (h_v5 : W (main_v5 : DevRef τ sig) = val_main_v5 (F := F) x2) :
    (after sA2 W (main_v1 : DevRef τ sig) = val_main_v1 (F := F) x2
    ∧ after sA2 W (main_v8 : DevRef τ sig) = val_main_v8 (F := F) x2)
    ∧ ArgsAt x0 x1 x2 x3 x4 x5 x6 x7 x8 x9 x10 x11 x12 (after sA2 W) := by
  obtain ⟨rfl, rfl, rfl, rfl, rfl, rfl, rfl, rfl, rfl, rfl, rfl, rfl, rfl⟩ := ha
  simp only [sA2, ops, List.drop_succ_cons, List.drop_zero, List.take_succ_cons, List.take_zero]
  refine ⟨⟨?_, ?_⟩, ?_, ?_, ?_, ?_, ?_, ?_, ?_, ?_, ?_, ?_, ?_, ?_, ?_⟩
  · after_results; exact h_v1
  · after_results; rewrite [h_v4, h_v5]; rfl
  all_goals after_results

def sA3 : List (HloOp τ sig (Elt F)) := (ops.drop 15).take 7

set_option maxHeartbeats 1600000 in
theorem stA3 (W : Valuation τ sig (Elt F))
    (ha : ArgsAt x0 x1 x2 x3 x4 x5 x6 x7 x8 x9 x10 x11 x12 W)
    (h_v1 : W (main_v1 : DevRef τ sig) = val_main_v1 (F := F) x2)
    (h_v8 : W (main_v8 : DevRef τ sig) = val_main_v8 (F := F) x2) :
    (after sA3 W (main_v1 : DevRef τ sig) = val_main_v1 (F := F) x2
    ∧ after sA3 W (main_v8 : DevRef τ sig) = val_main_v8 (F := F) x2
    ∧ after sA3 W (main_v14 : DevRef τ sig) = val_main_v14 (F := F))
    ∧ ArgsAt x0 x1 x2 x3 x4 x5 x6 x7 x8 x9 x10 x11 x12 (after sA3 W) := by
  obtain ⟨rfl, rfl, rfl, rfl, rfl, rfl, rfl, rfl, rfl, rfl, rfl, rfl, rfl⟩ := ha
  simp only [sA3, ops, List.drop_succ_cons, List.drop_zero, List.take_succ_cons, List.take_zero]
  refine ⟨⟨?_, ?_, ?_⟩, ?_, ?_, ?_, ?_, ?_, ?_, ?_, ?_, ?_, ?_, ?_, ?_, ?_⟩
  · after_results; exact h_v1
  · after_results; exact h_v8
  · after_results; rfl
  all_goals after_results

def sA4 : List (HloOp τ sig (Elt F)) := (ops.drop 22).take 7

set_option maxHeartbeats 1600000 in
theorem stA4 (W : Valuation τ sig (Elt F))
    (ha : ArgsAt x0 x1 x2 x3 x4 x5 x6 x7 x8 x9 x10 x11 x12 W)
    (h_v1 : W (main_v1 : DevRef τ sig) = val_main_v1 (F := F) x2)
    (h_v8 : W (main_v8 : DevRef τ sig) = val_main_v8 (F := F) x2)
    (h_v14 : W (main_v14 : DevRef τ sig) = val_main_v14 (F := F)) :
    after sA4 W (main_v21 : DevRef τ sig) = val_main_v21 (F := F) x2
    ∧ ArgsAt x0 x1 x2 x3 x4 x5 x6 x7 x8 x9 x10 x11 x12 (after sA4 W) := by
  obtain ⟨rfl, rfl, rfl, rfl, rfl, rfl, rfl, rfl, rfl, rfl, rfl, rfl, rfl⟩ := ha
  simp only [sA4, ops, List.drop_succ_cons, List.drop_zero, List.take_succ_cons, List.take_zero]
  refine ⟨?_, ?_, ?_, ?_, ?_, ?_, ?_, ?_, ?_, ?_, ?_, ?_, ?_, ?_⟩
  · after_results; rewrite [h_v14, h_v8, h_v1]; rfl
  all_goals after_results

def sA5 : List (HloOp τ sig (Elt F)) := (ops.drop 29).take 7

set_option maxHeartbeats 1600000 in
theorem stA5 (W : Valuation τ sig (Elt F))
    (ha : ArgsAt x0 x1 x2 x3 x4 x5 x6 x7 x8 x9 x10 x11 x12 W)
    (h_v21 : W (main_v21 : DevRef τ sig) = val_main_v21 (F := F) x2) :
    (after sA5 W (main_v23 : DevRef τ sig) = val_main_v23 (F := F) x2
    ∧ after sA5 W (main_v24 : DevRef τ sig) = val_main_v24 (F := F)
    ∧ after sA5 W (main_v25 : DevRef τ sig) = val_main_v25 (F := F)
    ∧ after sA5 W (main_v26 : DevRef τ sig) = val_main_v26 (F := F))
    ∧ ArgsAt x0 x1 x2 x3 x4 x5 x6 x7 x8 x9 x10 x11 x12 (after sA5 W) := by
  obtain ⟨rfl, rfl, rfl, rfl, rfl, rfl, rfl, rfl, rfl, rfl, rfl, rfl, rfl⟩ := ha
  simp only [sA5, ops, List.drop_succ_cons, List.drop_zero, List.take_succ_cons, List.take_zero]
  refine ⟨⟨?_, ?_, ?_, ?_⟩, ?_, ?_, ?_, ?_, ?_, ?_, ?_, ?_, ?_, ?_, ?_, ?_, ?_⟩
  · after_results; rewrite [h_v21]; rfl
  · after_results; rfl
  · after_results; rfl
  · after_results; rfl
  all_goals after_results

def sA6 : List (HloOp τ sig (Elt F)) := (ops.drop 36).take 4

set_option maxHeartbeats 1600000 in
theorem stA6 (W : Valuation τ sig (Elt F))
    (ha : ArgsAt x0 x1 x2 x3 x4 x5 x6 x7 x8 x9 x10 x11 x12 W)
    (h_v23 : W (main_v23 : DevRef τ sig) = val_main_v23 (F := F) x2)
    (h_v24 : W (main_v24 : DevRef τ sig) = val_main_v24 (F := F))
    (h_v25 : W (main_v25 : DevRef τ sig) = val_main_v25 (F := F))
    (h_v26 : W (main_v26 : DevRef τ sig) = val_main_v26 (F := F)) :
    after sA6 W (main_v30 : DevRef τ sig) = val_main_v30 (F := F) x2
    ∧ ArgsAt x0 x1 x2 x3 x4 x5 x6 x7 x8 x9 x10 x11 x12 (after sA6 W) := by
  obtain ⟨rfl, rfl, rfl, rfl, rfl, rfl, rfl, rfl, rfl, rfl, rfl, rfl, rfl⟩ := ha
  simp only [sA6, ops, List.drop_succ_cons, List.drop_zero, List.take_succ_cons, List.take_zero]
  refine ⟨?_, ?_, ?_, ?_, ?_, ?_, ?_, ?_, ?_, ?_, ?_, ?_, ?_, ?_⟩
  · after_results; rewrite [h_v23, h_v24, h_v26, h_v25]; rfl
  all_goals after_results

def sA7 : List (HloOp τ sig (Elt F)) := (ops.drop 40).take 4

set_option maxHeartbeats 1600000 in
theorem stA7 (W : Valuation τ sig (Elt F))
    (ha : ArgsAt x0 x1 x2 x3 x4 x5 x6 x7 x8 x9 x10 x11 x12 W)
    (h_v30 : W (main_v30 : DevRef τ sig) = val_main_v30 (F := F) x2) :
    (after sA7 W (main_v30 : DevRef τ sig) = val_main_v30 (F := F) x2
    ∧ after sA7 W (main_v32 : DevRef τ sig) = val_main_v32 (F := F) x1
    ∧ after sA7 W (main_v33 : DevRef τ sig) = val_main_v33 (F := F) x0
    ∧ after sA7 W (main_v34 : DevRef τ sig) = val_main_v34 (F := F) x1)
    ∧ ArgsAt x0 x1 x2 x3 x4 x5 x6 x7 x8 x9 x10 x11 x12 (after sA7 W) := by
  obtain ⟨rfl, rfl, rfl, rfl, rfl, rfl, rfl, rfl, rfl, rfl, rfl, rfl, rfl⟩ := ha
  simp only [sA7, ops, List.drop_succ_cons, List.drop_zero, List.take_succ_cons, List.take_zero]
  refine ⟨⟨?_, ?_, ?_, ?_⟩, ?_, ?_, ?_, ?_, ?_, ?_, ?_, ?_, ?_, ?_, ?_, ?_, ?_⟩
  · after_results; exact h_v30
  · after_results; rfl
  · after_results; rfl
  · after_results; rfl
  all_goals after_results

def sA8 : List (HloOp τ sig (Elt F)) := (ops.drop 44).take 6

set_option maxHeartbeats 1600000 in
theorem stA8 (W : Valuation τ sig (Elt F))
    (ha : ArgsAt x0 x1 x2 x3 x4 x5 x6 x7 x8 x9 x10 x11 x12 W)
    (h_v30 : W (main_v30 : DevRef τ sig) = val_main_v30 (F := F) x2)
    (h_v32 : W (main_v32 : DevRef τ sig) = val_main_v32 (F := F) x1)
    (h_v33 : W (main_v33 : DevRef τ sig) = val_main_v33 (F := F) x0)
    (h_v34 : W (main_v34 : DevRef τ sig) = val_main_v34 (F := F) x1) :
    (after sA8 W (main_v30 : DevRef τ sig) = val_main_v30 (F := F) x2
    ∧ after sA8 W (main_v32 : DevRef τ sig) = val_main_v32 (F := F) x1
    ∧ after sA8 W (main_v37 : DevRef τ sig) = val_main_v37 (F := F) x0 x1
    ∧ after sA8 W (main_v38 : DevRef τ sig) = val_main_v38 (F := F) x0 x1 x2
    ∧ after sA8 W (main_v39 : DevRef τ sig) = val_main_v39 (F := F) x0 x1 x2
    ∧ after sA8 W (main_cst_5 : DevRef τ sig) = val_main_cst_5 (F := F))
    ∧ ArgsAt x0 x1 x2 x3 x4 x5 x6 x7 x8 x9 x10 x11 x12 (after sA8 W) := by
  obtain ⟨rfl, rfl, rfl, rfl, rfl, rfl, rfl, rfl, rfl, rfl, rfl, rfl, rfl⟩ := ha
  simp only [sA8, ops, List.drop_succ_cons, List.drop_zero, List.take_succ_cons, List.take_zero]
  refine ⟨⟨?_, ?_, ?_, ?_, ?_, ?_⟩, ?_, ?_, ?_, ?_, ?_, ?_, ?_, ?_, ?_, ?_, ?_, ?_, ?_⟩
  · after_results; exact h_v30
  · after_results; exact h_v32
  · after_results; rewrite [h_v33, h_v34]; rfl
  · after_results; rewrite [h_v30, h_v33, h_v34]; rfl
  · after_results; rewrite [h_v30, h_v33, h_v34]; rfl
  · after_results; rfl
  all_goals after_results

def sA9 : List (HloOp τ sig (Elt F)) := (ops.drop 50).take 6

set_option maxHeartbeats 1600000 in
theorem stA9 (W : Valuation τ sig (Elt F))
    (ha : ArgsAt x0 x1 x2 x3 x4 x5 x6 x7 x8 x9 x10 x11 x12 W)
    (h_v30 : W (main_v30 : DevRef τ sig) = val_main_v30 (F := F) x2)
    (h_v32 : W (main_v32 : DevRef τ sig) = val_main_v32 (F := F) x1)
    (h_v37 : W (main_v37 : DevRef τ sig) = val_main_v37 (F := F) x0 x1)
    (h_v38 : W (main_v38 : DevRef τ sig) = val_main_v38 (F := F) x0 x1 x2)
    (h_v39 : W (main_v39 : DevRef τ sig) = val_main_v39 (F := F) x0 x1 x2)
    (h_cst_5 : W (main_cst_5 : DevRef τ sig) = val_main_cst_5 (F := F)) :
    (after sA9 W (main_v30 : DevRef τ sig) = val_main_v30 (F := F) x2
    ∧ after sA9 W (main_v32 : DevRef τ sig) = val_main_v32 (F := F) x1
    ∧ after sA9 W (main_v43 : DevRef τ sig) = val_main_v43 (F := F) x0 x1
    ∧ after sA9 W (main_v44 : DevRef τ sig) = val_main_v44 (F := F) x0 x1 x2
    ∧ after sA9 W (main_v45 : DevRef τ sig) = val_main_v45 (F := F) x0 x1 x2)
    ∧ ArgsAt x0 x1 x2 x3 x4 x5 x6 x7 x8 x9 x10 x11 x12 (after sA9 W) := by
  obtain ⟨rfl, rfl, rfl, rfl, rfl, rfl, rfl, rfl, rfl, rfl, rfl, rfl, rfl⟩ := ha
  simp only [sA9, ops, List.drop_succ_cons, List.drop_zero, List.take_succ_cons, List.take_zero]
  refine ⟨⟨?_, ?_, ?_, ?_, ?_⟩, ?_, ?_, ?_, ?_, ?_, ?_, ?_, ?_, ?_, ?_, ?_, ?_, ?_⟩
  · after_results; exact h_v30
  · after_results; exact h_v32
  · after_results; rewrite [h_v37]; rfl
  · after_results; rewrite [h_v38]; rfl
  · after_results; rewrite [h_cst_5, h_v39, h_v37]; rfl
  all_goals after_results

def sA10 : List (HloOp τ sig (Elt F)) := (ops.drop 56).take 6

set_option maxHeartbeats 1600000 in
theorem stA10 (W : Valuation τ sig (Elt F))
    (ha : ArgsAt x0 x1 x2 x3 x4 x5 x6 x7 x8 x9 x10 x11 x12 W)
    (h_v30 : W (main_v30 : DevRef τ sig) = val_main_v30 (F := F) x2)
    (h_v32 : W (main_v32 : DevRef τ sig) = val_main_v32 (F := F) x1)
    (h_v43 : W (main_v43 : DevRef τ sig) = val_main_v43 (F := F) x0 x1)
    (h_v44 : W (main_v44 : DevRef τ sig) = val_main_v44 (F := F) x0 x1 x2)
    (h_v45 : W (main_v45 : DevRef τ sig) = val_main_v45 (F := F) x0 x1 x2) :
    (after sA10 W (main_v30 : DevRef τ sig) = val_main_v30 (F := F) x2
    ∧ after sA10 W (main_v32 : DevRef τ sig) = val_main_v32 (F := F) x1
    ∧ after sA10 W (main_v50 : DevRef τ sig) = val_main_v50 (F := F) x0 x1 x2 x3
    ∧ after sA10 W (main_v51 : DevRef τ sig) = val_main_v51 (F := F) x4)
    ∧ ArgsAt x0 x1 x2 x3 x4 x5 x6 x7 x8 x9 x10 x11 x12 (after sA10 W) := by
  obtain ⟨rfl, rfl, rfl, rfl, rfl, rfl, rfl, rfl, rfl, rfl, rfl, rfl, rfl⟩ := ha
  simp only [sA10, ops, List.drop_succ_cons, List.drop_zero, List.take_succ_cons, List.take_zero]
  refine ⟨⟨?_, ?_, ?_, ?_⟩, ?_, ?_, ?_, ?_, ?_, ?_, ?_, ?_, ?_, ?_, ?_, ?_, ?_⟩
  · after_results; exact h_v30
  · after_results; exact h_v32
  · after_results; dsimp only [Matrix.cons_val]; rewrite [h_v43, h_v44, h_v45]; rfl
  · after_results; rfl
  all_goals after_results

def sA11 : List (HloOp τ sig (Elt F)) := (ops.drop 62).take 7

set_option maxHeartbeats 1600000 in
theorem stA11 (W : Valuation τ sig (Elt F))
    (ha : ArgsAt x0 x1 x2 x3 x4 x5 x6 x7 x8 x9 x10 x11 x12 W)
    (h_v30 : W (main_v30 : DevRef τ sig) = val_main_v30 (F := F) x2)
    (h_v32 : W (main_v32 : DevRef τ sig) = val_main_v32 (F := F) x1)
    (h_v50 : W (main_v50 : DevRef τ sig) = val_main_v50 (F := F) x0 x1 x2 x3)
    (h_v51 : W (main_v51 : DevRef τ sig) = val_main_v51 (F := F) x4) :
    (after sA11 W (main_v30 : DevRef τ sig) = val_main_v30 (F := F) x2
    ∧ after sA11 W (main_v32 : DevRef τ sig) = val_main_v32 (F := F) x1
    ∧ after sA11 W (main_v56 : DevRef τ sig) = val_main_v56 (F := F) x0 x1 x2 x3 x4
    ∧ after sA11 W (main_v57 : DevRef τ sig) = val_main_v57 (F := F))
    ∧ ArgsAt x0 x1 x2 x3 x4 x5 x6 x7 x8 x9 x10 x11 x12 (after sA11 W) := by
  obtain ⟨rfl, rfl, rfl, rfl, rfl, rfl, rfl, rfl, rfl, rfl, rfl, rfl, rfl⟩ := ha
  simp only [sA11, ops, List.drop_succ_cons, List.drop_zero, List.take_succ_cons, List.take_zero]
  refine ⟨⟨?_, ?_, ?_, ?_⟩, ?_, ?_, ?_, ?_, ?_, ?_, ?_, ?_, ?_, ?_, ?_, ?_, ?_⟩
  · after_results; exact h_v30
  · after_results; exact h_v32
  · after_results; rewrite [h_v50, h_v51]; rfl
  · after_results; rfl
  all_goals after_results

def sA12 : List (HloOp τ sig (Elt F)) := (ops.drop 69).take 7

set_option maxHeartbeats 1600000 in
theorem stA12 (W : Valuation τ sig (Elt F))
    (ha : ArgsAt x0 x1 x2 x3 x4 x5 x6 x7 x8 x9 x10 x11 x12 W)
    (h_v30 : W (main_v30 : DevRef τ sig) = val_main_v30 (F := F) x2)
    (h_v32 : W (main_v32 : DevRef τ sig) = val_main_v32 (F := F) x1)
    (h_v56 : W (main_v56 : DevRef τ sig) = val_main_v56 (F := F) x0 x1 x2 x3 x4)
    (h_v57 : W (main_v57 : DevRef τ sig) = val_main_v57 (F := F)) :
    (after sA12 W (main_v30 : DevRef τ sig) = val_main_v30 (F := F) x2
    ∧ after sA12 W (main_v32 : DevRef τ sig) = val_main_v32 (F := F) x1
    ∧ after sA12 W (main_v61 : DevRef τ sig) = val_main_v61 (F := F) x0 x1 x2 x3 x4
    ∧ after sA12 W (main_v63 : DevRef τ sig) = val_main_v63 (F := F) x0 x1 x2 x3 x4)
    ∧ ArgsAt x0 x1 x2 x3 x4 x5 x6 x7 x8 x9 x10 x11 x12 (after sA12 W) := by
  obtain ⟨rfl, rfl, rfl, rfl, rfl, rfl, rfl, rfl, rfl, rfl, rfl, rfl, rfl⟩ := ha
  simp only [sA12, ops, List.drop_succ_cons, List.drop_zero, List.take_succ_cons, List.take_zero]
  refine ⟨⟨?_, ?_, ?_, ?_⟩, ?_, ?_, ?_, ?_, ?_, ?_, ?_, ?_, ?_, ?_, ?_, ?_, ?_⟩
  · after_results; exact h_v30
  · after_results; exact h_v32
  · after_results; rewrite [h_v57, h_v56]; rfl
  · after_results; rewrite [h_v57, h_v56]; rfl
  all_goals after_results

def sA13 : List (HloOp τ sig (Elt F)) := (ops.drop 76).take 5

set_option maxHeartbeats 1600000 in
theorem stA13 (W : Valuation τ sig (Elt F))
    (ha : ArgsAt x0 x1 x2 x3 x4 x5 x6 x7 x8 x9 x10 x11 x12 W)
    (h_v30 : W (main_v30 : DevRef τ sig) = val_main_v30 (F := F) x2)
    (h_v32 : W (main_v32 : DevRef τ sig) = val_main_v32 (F := F) x1)
    (h_v61 : W (main_v61 : DevRef τ sig) = val_main_v61 (F := F) x0 x1 x2 x3 x4)
    (h_v63 : W (main_v63 : DevRef τ sig) = val_main_v63 (F := F) x0 x1 x2 x3 x4) :
    (after sA13 W (main_v30 : DevRef τ sig) = val_main_v30 (F := F) x2
    ∧ after sA13 W (main_v32 : DevRef τ sig) = val_main_v32 (F := F) x1
    ∧ after sA13 W (main_v65 : DevRef τ sig) = val_main_v65 (F := F) x0 x1 x2 x3 x4
    ∧ after sA13 W (main_v67 : DevRef τ sig) = val_main_v67 (F := F) x0
    ∧ after sA13 W (main_v68 : DevRef τ sig) = val_main_v68 (F := F) x0 x1 x2 x3 x4)
    ∧ ArgsAt x0 x1 x2 x3 x4 x5 x6 x7 x8 x9 x10 x11 x12 (after sA13 W) := by
  obtain ⟨rfl, rfl, rfl, rfl, rfl, rfl, rfl, rfl, rfl, rfl, rfl, rfl, rfl⟩ := ha
  simp only [sA13, ops, List.drop_succ_cons, List.drop_zero, List.take_succ_cons, List.take_zero]
  refine ⟨⟨?_, ?_, ?_, ?_, ?_⟩, ?_, ?_, ?_, ?_, ?_, ?_, ?_, ?_, ?_, ?_, ?_, ?_, ?_⟩
  · after_results; exact h_v30
  · after_results; exact h_v32
  · after_results; rewrite [h_v61]; rfl
  · after_results; rfl
  · after_results; rewrite [h_v63, h_v32]; rfl
  all_goals after_results

def sA14 : List (HloOp τ sig (Elt F)) := (ops.drop 81).take 6

set_option maxHeartbeats 1600000 in
theorem stA14 (W : Valuation τ sig (Elt F))
    (ha : ArgsAt x0 x1 x2 x3 x4 x5 x6 x7 x8 x9 x10 x11 x12 W)
    (h_v30 : W (main_v30 : DevRef τ sig) = val_main_v30 (F := F) x2)
    (h_v32 : W (main_v32 : DevRef τ sig) = val_main_v32 (F := F) x1)
    (h_v65 : W (main_v65 : DevRef τ sig) = val_main_v65 (F := F) x0 x1 x2 x3 x4)
    (h_v67 : W (main_v67 : DevRef τ sig) = val_main_v67 (F := F) x0)
    (h_v68 : W (main_v68 : DevRef τ sig) = val_main_v68 (F := F) x0 x1 x2 x3 x4) :
    (after sA14 W (main_v30 : DevRef τ sig) = val_main_v30 (F := F) x2
    ∧ after sA14 W (main_v32 : DevRef τ sig) = val_main_v32 (F := F) x1
    ∧ after sA14 W (main_v65 : DevRef τ sig) = val_main_v65 (F := F) x0 x1 x2 x3 x4
    ∧ after sA14 W (main_v71 : DevRef τ sig) = val_main_v71 (F := F) x0 x1 x2 x3 x4
    ∧ after sA14 W (main_v72 : DevRef τ sig) = val_main_v72 (F := F) x0 x1 x2 x3 x4
    ∧ after sA14 W (main_v73 : DevRef τ sig) = val_main_v73 (F := F) x0 x1 x2 x3 x4
    ∧ after sA14 W (main_cst_8 : DevRef τ sig) = val_main_cst_8 (F := F))
    ∧ ArgsAt x0 x1 x2 x3 x4 x5 x6 x7 x8 x9 x10 x11 x12 (after sA14 W) := by
  obtain ⟨rfl, rfl, rfl, rfl, rfl, rfl, rfl, rfl, rfl, rfl, rfl, rfl, rfl⟩ := ha
  simp only [sA14, ops, List.drop_succ_cons, List.drop_zero, List.take_succ_cons, List.take_zero]
  refine ⟨⟨?_, ?_, ?_, ?_, ?_, ?_, ?_⟩, ?_, ?_, ?_, ?_, ?_, ?_, ?_, ?_, ?_, ?_, ?_, ?_, ?_⟩
  · after_results; exact h_v30
  · after_results; exact h_v32
  · after_results; exact h_v65
  · after_results; rewrite [h_v67, h_v68]; rfl
  · after_results; rewrite [h_v30, h_v67, h_v68]; rfl
  · after_results; rewrite [h_v30, h_v67, h_v68]; rfl
  · after_results; rfl
  all_goals after_results

def sA15 : List (HloOp τ sig (Elt F)) := (ops.drop 87).take 6

set_option maxHeartbeats 1600000 in
theorem stA15 (W : Valuation τ sig (Elt F))
    (ha : ArgsAt x0 x1 x2 x3 x4 x5 x6 x7 x8 x9 x10 x11 x12 W)
    (h_v30 : W (main_v30 : DevRef τ sig) = val_main_v30 (F := F) x2)
    (h_v32 : W (main_v32 : DevRef τ sig) = val_main_v32 (F := F) x1)
    (h_v65 : W (main_v65 : DevRef τ sig) = val_main_v65 (F := F) x0 x1 x2 x3 x4)
    (h_v71 : W (main_v71 : DevRef τ sig) = val_main_v71 (F := F) x0 x1 x2 x3 x4)
    (h_v72 : W (main_v72 : DevRef τ sig) = val_main_v72 (F := F) x0 x1 x2 x3 x4)
    (h_v73 : W (main_v73 : DevRef τ sig) = val_main_v73 (F := F) x0 x1 x2 x3 x4)
    (h_cst_8 : W (main_cst_8 : DevRef τ sig) = val_main_cst_8 (F := F)) :
    (after sA15 W (main_v30 : DevRef τ sig) = val_main_v30 (F := F) x2
    ∧ after sA15 W (main_v32 : DevRef τ sig) = val_main_v32 (F := F) x1
    ∧ after sA15 W (main_v65 : DevRef τ sig) = val_main_v65 (F := F) x0 x1 x2 x3 x4
    ∧ after sA15 W (main_v77 : DevRef τ sig) = val_main_v77 (F := F) x0 x1 x2 x3 x4
    ∧ after sA15 W (main_v78 : DevRef τ sig) = val_main_v78 (F := F) x0 x1 x2 x3 x4
    ∧ after sA15 W (main_v79 : DevRef τ sig) = val_main_v79 (F := F) x0 x1 x2 x3 x4)
    ∧ ArgsAt x0 x1 x2 x3 x4 x5 x6 x7 x8 x9 x10 x11 x12 (after sA15 W) := by
  obtain ⟨rfl, rfl, rfl, rfl, rfl, rfl, rfl, rfl, rfl, rfl, rfl, rfl, rfl⟩ := ha
  simp only [sA15, ops, List.drop_succ_cons, List.drop_zero, List.take_succ_cons, List.take_zero]
  refine ⟨⟨?_, ?_, ?_, ?_, ?_, ?_⟩, ?_, ?_, ?_, ?_, ?_, ?_, ?_, ?_, ?_, ?_, ?_, ?_, ?_⟩
  · after_results; exact h_v30
  · after_results; exact h_v32
  · after_results; exact h_v65
  · after_results; rewrite [h_v71]; rfl
  · after_results; rewrite [h_v72]; rfl
  · after_results; rewrite [h_cst_8, h_v73, h_v71]; rfl
  all_goals after_results

def sA16 : List (HloOp τ sig (Elt F)) := (ops.drop 93).take 6

set_option maxHeartbeats 1600000 in
theorem stA16 (W : Valuation τ sig (Elt F))
    (ha : ArgsAt x0 x1 x2 x3 x4 x5 x6 x7 x8 x9 x10 x11 x12 W)
    (h_v30 : W (main_v30 : DevRef τ sig) = val_main_v30 (F := F) x2)
    (h_v32 : W (main_v32 : DevRef τ sig) = val_main_v32 (F := F) x1)
    (h_v65 : W (main_v65 : DevRef τ sig) = val_main_v65 (F := F) x0 x1 x2 x3 x4)
    (h_v77 : W (main_v77 : DevRef τ sig) = val_main_v77 (F := F) x0 x1 x2 x3 x4)
    (h_v78 : W (main_v78 : DevRef τ sig) = val_main_v78 (F := F) x0 x1 x2 x3 x4)
    (h_v79 : W (main_v79 : DevRef τ sig) = val_main_v79 (F := F) x0 x1 x2 x3 x4) :
    (after sA16 W (main_v30 : DevRef τ sig) = val_main_v30 (F := F) x2
    ∧ after sA16 W (main_v32 : DevRef τ sig) = val_main_v32 (F := F) x1
    ∧ after sA16 W (main_v65 : DevRef τ sig) = val_main_v65 (F := F) x0 x1 x2 x3 x4
    ∧ after sA16 W (main_v84 : DevRef τ sig) = val_main_v84 (F := F) x0 x1 x2 x3 x4 x5
    ∧ after sA16 W (main_v85 : DevRef τ sig) = val_main_v85 (F := F) x6)
    ∧ ArgsAt x0 x1 x2 x3 x4 x5 x6 x7 x8 x9 x10 x11 x12 (after sA16 W) := by
  obtain ⟨rfl, rfl, rfl, rfl, rfl, rfl, rfl, rfl, rfl, rfl, rfl, rfl, rfl⟩ := ha
  simp only [sA16, ops, List.drop_succ_cons, List.drop_zero, List.take_succ_cons, List.take_zero]
  refine ⟨⟨?_, ?_, ?_, ?_, ?_⟩, ?_, ?_, ?_, ?_, ?_, ?_, ?_, ?_, ?_, ?_, ?_, ?_, ?_⟩
  · after_results; exact h_v30
  · after_results; exact h_v32
  · after_results; exact h_v65
  · after_results; dsimp only [Matrix.cons_val]; rewrite [h_v77, h_v78, h_v79]; rfl
  · after_results; rfl
  all_goals after_results

def sA17 : List (HloOp τ sig (Elt F)) := (ops.drop 99).take 6

set_option maxHeartbeats 1600000 in
theorem stA17 (W : Valuation τ sig (Elt F))
    (ha : ArgsAt x0 x1 x2 x3 x4 x5 x6 x7 x8 x9 x10 x11 x12 W)
    (h_v30 : W (main_v30 : DevRef τ sig) = val_main_v30 (F := F) x2)
    (h_v32 : W (main_v32 : DevRef τ sig) = val_main_v32 (F := F) x1)
    (h_v65 : W (main_v65 : DevRef τ sig) = val_main_v65 (F := F) x0 x1 x2 x3 x4)
    (h_v84 : W (main_v84 : DevRef τ sig) = val_main_v84 (F := F) x0 x1 x2 x3 x4 x5)
    (h_v85 : W (main_v85 : DevRef τ sig) = val_main_v85 (F := F) x6) :
    (after sA17 W (main_v30 : DevRef τ sig) = val_main_v30 (F := F) x2
    ∧ after sA17 W (main_v65 : DevRef τ sig) = val_main_v65 (F := F) x0 x1 x2 x3 x4
    ∧ after sA17 W (main_v89 : DevRef τ sig) = val_main_v89 (F := F) x0 x1 x2 x3 x4 x5 x6
    ∧ after sA17 W (main_v90 : DevRef τ sig) = val_main_v90 (F := F) x0 x1 x2 x3 x4
    ∧ after sA17 W (main_cst_9 : DevRef τ sig) = val_main_cst_9 (F := F))
    ∧ ArgsAt x0 x1 x2 x3 x4 x5 x6 x7 x8 x9 x10 x11 x12 (after sA17 W) := by
  obtain ⟨rfl, rfl, rfl, rfl, rfl, rfl, rfl, rfl, rfl, rfl, rfl, rfl, rfl⟩ := ha
  simp only [sA17, ops, List.drop_succ_cons, List.drop_zero, List.take_succ_cons, List.take_zero]
  refine ⟨⟨?_, ?_, ?_, ?_, ?_⟩, ?_, ?_, ?_, ?_, ?_, ?_, ?_, ?_, ?_, ?_, ?_, ?_, ?_⟩
  · after_results; exact h_v30
  · after_results; exact h_v65
  · after_results; rewrite [h_v84, h_v85]; rfl
  · after_results; rewrite [h_v65, h_v32]; rfl
  · after_results; rfl
  all_goals after_results

def sA18 : List (HloOp τ sig (Elt F)) := (ops.drop 105).take 4

set_option maxHeartbeats 1600000 in
theorem stA18 (W : Valuation τ sig (Elt F))
    (ha : ArgsAt x0 x1 x2 x3 x4 x5 x6 x7 x8 x9 x10 x11 x12 W)
    (h_v30 : W (main_v30 : DevRef τ sig) = val_main_v30 (F := F) x2)
    (h_v65 : W (main_v65 : DevRef τ sig) = val_main_v65 (F := F) x0 x1 x2 x3 x4)
    (h_v89 : W (main_v89 : DevRef τ sig) = val_main_v89 (F := F) x0 x1 x2 x3 x4 x5 x6)
    (h_v90 : W (main_v90 : DevRef τ sig) = val_main_v90 (F := F) x0 x1 x2 x3 x4)
    (h_cst_9 : W (main_cst_9 : DevRef τ sig) = val_main_cst_9 (F := F)) :
    (after sA18 W (main_v30 : DevRef τ sig) = val_main_v30 (F := F) x2
    ∧ after sA18 W (main_v94 : DevRef τ sig) = val_main_v94 (F := F) x0 x1 x2 x3 x4 x5 x6)
    ∧ ArgsAt x0 x1 x2 x3 x4 x5 x6 x7 x8 x9 x10 x11 x12 (after sA18 W) := by
  obtain ⟨rfl, rfl, rfl, rfl, rfl, rfl, rfl, rfl, rfl, rfl, rfl, rfl, rfl⟩ := ha
  simp only [sA18, ops, List.drop_succ_cons, List.drop_zero, List.take_succ_cons, List.take_zero]
  refine ⟨⟨?_, ?_⟩, ?_, ?_, ?_, ?_, ?_, ?_, ?_, ?_, ?_, ?_, ?_, ?_, ?_⟩
  · after_results; exact h_v30
  · after_results; rewrite [h_v90, h_cst_9, h_v65, h_v89]; rfl
  all_goals after_results

def opsA : List (HloOp τ sig (Elt F)) :=
  sA1 ++ (sA2 ++ (sA3 ++ (sA4 ++ (sA5 ++ (sA6 ++ (sA7 ++ (sA8 ++ (sA9 ++ (sA10 ++ (sA11 ++ (sA12 ++ (sA13 ++ (sA14 ++ (sA15 ++ (sA16 ++ (sA17 ++ (sA18)))))))))))))))))

theorem runA (V : Valuation τ sig (Elt F)) (ha : ArgsAt x0 x1 x2 x3 x4 x5 x6 x7 x8 x9 x10 x11 x12 V) :
    (after opsA V (main_v30 : DevRef τ sig) = val_main_v30 (F := F) x2
    ∧ after opsA V (main_v94 : DevRef τ sig) = val_main_v94 (F := F) x0 x1 x2 x3 x4 x5 x6)
    ∧ ArgsAt x0 x1 x2 x3 x4 x5 x6 x7 x8 x9 x10 x11 x12 (after opsA V) := by
  unfold opsA
  simp only [StableHlo.after_append]
  obtain ⟨⟨h_v1, h_v4, h_v5⟩, ha⟩ := stA1 V ha
  generalize after sA1 V = W1 at *
  obtain ⟨⟨h_v1, h_v8⟩, ha⟩ := stA2 W1 ha h_v1 h_v4 h_v5
  generalize after sA2 W1 = W2 at *
  obtain ⟨⟨h_v1, h_v8, h_v14⟩, ha⟩ := stA3 W2 ha h_v1 h_v8
  generalize after sA3 W2 = W3 at *
  obtain ⟨h_v21, ha⟩ := stA4 W3 ha h_v1 h_v8 h_v14
  generalize after sA4 W3 = W4 at *
  obtain ⟨⟨h_v23, h_v24, h_v25, h_v26⟩, ha⟩ := stA5 W4 ha h_v21
  generalize after sA5 W4 = W5 at *
  obtain ⟨h_v30, ha⟩ := stA6 W5 ha h_v23 h_v24 h_v25 h_v26
  generalize after sA6 W5 = W6 at *
  obtain ⟨⟨h_v30, h_v32, h_v33, h_v34⟩, ha⟩ := stA7 W6 ha h_v30
  generalize after sA7 W6 = W7 at *
  obtain ⟨⟨h_v30, h_v32, h_v37, h_v38, h_v39, h_cst_5⟩, ha⟩ := stA8 W7 ha h_v30 h_v32 h_v33 h_v34
  generalize after sA8 W7 = W8 at *
  obtain ⟨⟨h_v30, h_v32, h_v43, h_v44, h_v45⟩, ha⟩ := stA9 W8 ha h_v30 h_v32 h_v37 h_v38 h_v39 h_cst_5
  generalize after sA9 W8 = W9 at *
  obtain ⟨⟨h_v30, h_v32, h_v50, h_v51⟩, ha⟩ := stA10 W9 ha h_v30 h_v32 h_v43 h_v44 h_v45
  generalize after sA10 W9 = W10 at *
  obtain ⟨⟨h_v30, h_v32, h_v56, h_v57⟩, ha⟩ := stA11 W10 ha h_v30 h_v32 h_v50 h_v51
  generalize after sA11 W10 = W11 at *
  obtain ⟨⟨h_v30, h_v32, h_v61, h_v63⟩, ha⟩ := stA12 W11 ha h_v30 h_v32 h_v56 h_v57
  generalize after sA12 W11 = W12 at *
  obtain ⟨⟨h_v30, h_v32, h_v65, h_v67, h_v68⟩, ha⟩ := stA13 W12 ha h_v30 h_v32 h_v61 h_v63
  generalize after sA13 W12 = W13 at *
  obtain ⟨⟨h_v30, h_v32, h_v65, h_v71, h_v72, h_v73, h_cst_8⟩, ha⟩ := stA14 W13 ha h_v30 h_v32 h_v65 h_v67 h_v68
  generalize after sA14 W13 = W14 at *
  obtain ⟨⟨h_v30, h_v32, h_v65, h_v77, h_v78, h_v79⟩, ha⟩ := stA15 W14 ha h_v30 h_v32 h_v65 h_v71 h_v72 h_v73 h_cst_8
  generalize after sA15 W14 = W15 at *
  obtain ⟨⟨h_v30, h_v32, h_v65, h_v84, h_v85⟩, ha⟩ := stA16 W15 ha h_v30 h_v32 h_v65 h_v77 h_v78 h_v79
  generalize after sA16 W15 = W16 at *
  obtain ⟨⟨h_v30, h_v65, h_v89, h_v90, h_cst_9⟩, ha⟩ := stA17 W16 ha h_v30 h_v32 h_v65 h_v84 h_v85
  generalize after sA17 W16 = W17 at *
  obtain ⟨⟨h_v30, h_v94⟩, ha⟩ := stA18 W17 ha h_v30 h_v65 h_v89 h_v90 h_cst_9
  exact ⟨⟨h_v30, h_v94⟩, ha⟩

end Cert.ReferenceIdeal.RefValue

end
-- ==== Proof.Ref.RunH2.lean ====
/- The reference's last 78 operations, stretch by stretch, and the whole run: each result is its stage of the arguments, and the arguments are unchanged. -/
import proofs.«134251_g19069654794669_cont_sun_m_30_29_alg».proof.Proof.Ref.RunH1

noncomputable section

namespace Cert.ReferenceIdeal.RefValue

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

variable (x0 : (⟨S64x512, .f32⟩ : BufTy).Contents (Elt F))
  (x1 : (⟨S2x64x32768, .f32⟩ : BufTy).Contents (Elt F))
  (x2 : (⟨S512x512, .f32⟩ : BufTy).Contents (Elt F))
  (x3 : (⟨S195x128, .f32⟩ : BufTy).Contents (Elt F))
  (x4 : (⟨S128, .f32⟩ : BufTy).Contents (Elt F))
  (x5 : (⟨S195x64, .f32⟩ : BufTy).Contents (Elt F))
  (x6 : (⟨S64, .f32⟩ : BufTy).Contents (Elt F))
  (x7 : (⟨S384x128, .f32⟩ : BufTy).Contents (Elt F))
  (x8 : (⟨S128, .f32⟩ : BufTy).Contents (Elt F))
  (x9 : (⟨S384x64, .f32⟩ : BufTy).Contents (Elt F))
  (x10 : (⟨S64, .f32⟩ : BufTy).Contents (Elt F))
  (x11 : (⟨S64x1, .f32⟩ : BufTy).Contents (Elt F))
  (x12 : (⟨S1, .f32⟩ : BufTy).Contents (Elt F))

variable {x0 x1 x2 x3 x4 x5 x6 x7 x8 x9 x10 x11 x12}

def sB1 : List (HloOp τ sig (Elt F)) := (ops.drop 109).take 4

theorem stB1 (W : Valuation τ sig (Elt F))
    (ha : ArgsAt x0 x1 x2 x3 x4 x5 x6 x7 x8 x9 x10 x11 x12 W)
    (h_v30 : W (main_v30 : DevRef τ sig) = val_main_v30 (F := F) x2)
    (h_v94 : W (main_v94 : DevRef τ sig) = val_main_v94 (F := F) x0 x1 x2 x3 x4 x5 x6) :
    (after sB1 W (main_v30 : DevRef τ sig) = val_main_v30 (F := F) x2
    ∧ after sB1 W (main_v94 : DevRef τ sig) = val_main_v94 (F := F) x0 x1 x2 x3 x4 x5 x6
    ∧ after sB1 W (main_v96 : DevRef τ sig) = val_main_v96 (F := F) x1
    ∧ after sB1 W (main_v97 : DevRef τ sig) = val_main_v97 (F := F) x0 x1 x2 x3 x4 x5 x6
    ∧ after sB1 W (main_v98 : DevRef τ sig) = val_main_v98 (F := F) x1)
    ∧ ArgsAt x0 x1 x2 x3 x4 x5 x6 x7 x8 x9 x10 x11 x12 (after sB1 W) := by
  obtain ⟨rfl, rfl, rfl, rfl, rfl, rfl, rfl, rfl, rfl, rfl, rfl, rfl, rfl⟩ := ha
  simp only [sB1, ops, List.drop_succ_cons, List.drop_zero, List.take_succ_cons, List.take_zero]
  refine ⟨⟨?_, ?_, ?_, ?_, ?_⟩, ?_, ?_, ?_, ?_, ?_, ?_, ?_, ?_, ?_, ?_, ?_, ?_, ?_⟩
  · after_results; exact h_v30
  · after_results; exact h_v94
  · after_results <;> rfl
  · after_results; rewrite [h_v94]; rfl
  · after_results <;> rfl
  all_goals after_results

def sB2 : List (HloOp τ sig (Elt F)) := (ops.drop 113).take 5

theorem stB2 (W : Valuation τ sig (Elt F))
    (ha : ArgsAt x0 x1 x2 x3 x4 x5 x6 x7 x8 x9 x10 x11 x12 W)
    (h_v30 : W (main_v30 : DevRef τ sig) = val_main_v30 (F := F) x2)
    (h_v94 : W (main_v94 : DevRef τ sig) = val_main_v94 (F := F) x0 x1 x2 x3 x4 x5 x6)
    (h_v96 : W (main_v96 : DevRef τ sig) = val_main_v96 (F := F) x1)
    (h_v97 : W (main_v97 : DevRef τ sig) = val_main_v97 (F := F) x0 x1 x2 x3 x4 x5 x6)
    (h_v98 : W (main_v98 : DevRef τ sig) = val_main_v98 (F := F) x1) :
    (after sB2 W (main_v30 : DevRef τ sig) = val_main_v30 (F := F) x2
    ∧ after sB2 W (main_v94 : DevRef τ sig) = val_main_v94 (F := F) x0 x1 x2 x3 x4 x5 x6
    ∧ after sB2 W (main_v96 : DevRef τ sig) = val_main_v96 (F := F) x1
    ∧ after sB2 W (main_v101 : DevRef τ sig) = val_main_v101 (F := F) x0 x1 x2 x3 x4 x5 x6
    ∧ after sB2 W (main_v102 : DevRef τ sig) = val_main_v102 (F := F) x0 x1 x2 x3 x4 x5 x6
    ∧ after sB2 W (main_v103 : DevRef τ sig) = val_main_v103 (F := F) x0 x1 x2 x3 x4 x5 x6)
    ∧ ArgsAt x0 x1 x2 x3 x4 x5 x6 x7 x8 x9 x10 x11 x12 (after sB2 W) := by
  obtain ⟨rfl, rfl, rfl, rfl, rfl, rfl, rfl, rfl, rfl, rfl, rfl, rfl, rfl⟩ := ha
  simp only [sB2, ops, List.drop_succ_cons, List.drop_zero, List.take_succ_cons, List.take_zero]
  refine ⟨⟨?_, ?_, ?_, ?_, ?_, ?_⟩, ?_, ?_, ?_, ?_, ?_, ?_, ?_, ?_, ?_, ?_, ?_, ?_, ?_⟩
  · after_results; exact h_v30
  · after_results; exact h_v94
  · after_results; exact h_v96
  · after_results; rewrite [h_v97, h_v98]; rfl
  · after_results; rewrite [h_v30, h_v97, h_v98]; rfl
  · after_results; rewrite [h_v30, h_v97, h_v98]; rfl
  all_goals after_results

def sB3 : List (HloOp τ sig (Elt F)) := (ops.drop 118).take 7

theorem stB3 (W : Valuation τ sig (Elt F))
    (ha : ArgsAt x0 x1 x2 x3 x4 x5 x6 x7 x8 x9 x10 x11 x12 W)
    (h_v30 : W (main_v30 : DevRef τ sig) = val_main_v30 (F := F) x2)
    (h_v94 : W (main_v94 : DevRef τ sig) = val_main_v94 (F := F) x0 x1 x2 x3 x4 x5 x6)
    (h_v96 : W (main_v96 : DevRef τ sig) = val_main_v96 (F := F) x1)
    (h_v101 : W (main_v101 : DevRef τ sig) = val_main_v101 (F := F) x0 x1 x2 x3 x4 x5 x6)
    (h_v102 : W (main_v102 : DevRef τ sig) = val_main_v102 (F := F) x0 x1 x2 x3 x4 x5 x6)
    (h_v103 : W (main_v103 : DevRef τ sig) = val_main_v103 (F := F) x0 x1 x2 x3 x4 x5 x6) :
    (after sB3 W (main_v30 : DevRef τ sig) = val_main_v30 (F := F) x2
    ∧ after sB3 W (main_v94 : DevRef τ sig) = val_main_v94 (F := F) x0 x1 x2 x3 x4 x5 x6
    ∧ after sB3 W (main_v96 : DevRef τ sig) = val_main_v96 (F := F) x1
    ∧ after sB3 W (main_v107 : DevRef τ sig) = val_main_v107 (F := F) x0 x1 x2 x3 x4 x5 x6
    ∧ after sB3 W (main_v108 : DevRef τ sig) = val_main_v108 (F := F) x0 x1 x2 x3 x4 x5 x6
    ∧ after sB3 W (main_v109 : DevRef τ sig) = val_main_v109 (F := F) x0 x1 x2 x3 x4 x5 x6)
    ∧ ArgsAt x0 x1 x2 x3 x4 x5 x6 x7 x8 x9 x10 x11 x12 (after sB3 W) := by
  obtain ⟨rfl, rfl, rfl, rfl, rfl, rfl, rfl, rfl, rfl, rfl, rfl, rfl, rfl⟩ := ha
  simp only [sB3, ops, List.drop_succ_cons, List.drop_zero, List.take_succ_cons, List.take_zero]
  refine ⟨⟨?_, ?_, ?_, ?_, ?_, ?_⟩, ?_, ?_, ?_, ?_, ?_, ?_, ?_, ?_, ?_, ?_, ?_, ?_, ?_⟩
  · after_results; exact h_v30
  · after_results; exact h_v94
  · after_results; exact h_v96
  · after_results; rewrite [h_v101]; rfl
  · after_results; rewrite [h_v102]; rfl
  · after_results; rewrite [h_v103, h_v101]; rfl
  all_goals after_results

def sB4 : List (HloOp τ sig (Elt F)) := (ops.drop 125).take 1

theorem stB4 (W : Valuation τ sig (Elt F))
    (ha : ArgsAt x0 x1 x2 x3 x4 x5 x6 x7 x8 x9 x10 x11 x12 W)
    (h_v30 : W (main_v30 : DevRef τ sig) = val_main_v30 (F := F) x2)
    (h_v94 : W (main_v94 : DevRef τ sig) = val_main_v94 (F := F) x0 x1 x2 x3 x4 x5 x6)
    (h_v96 : W (main_v96 : DevRef τ sig) = val_main_v96 (F := F) x1)
    (h_v107 : W (main_v107 : DevRef τ sig) = val_main_v107 (F := F) x0 x1 x2 x3 x4 x5 x6)
    (h_v108 : W (main_v108 : DevRef τ sig) = val_main_v108 (F := F) x0 x1 x2 x3 x4 x5 x6)
    (h_v109 : W (main_v109 : DevRef τ sig) = val_main_v109 (F := F) x0 x1 x2 x3 x4 x5 x6) :
    (after sB4 W (main_v30 : DevRef τ sig) = val_main_v30 (F := F) x2
    ∧ after sB4 W (main_v94 : DevRef τ sig) = val_main_v94 (F := F) x0 x1 x2 x3 x4 x5 x6
    ∧ after sB4 W (main_v96 : DevRef τ sig) = val_main_v96 (F := F) x1
    ∧ after sB4 W (main_v110 : DevRef τ sig) = val_main_v110 (F := F) x0 x1 x2 x3 x4 x5 x6)
    ∧ ArgsAt x0 x1 x2 x3 x4 x5 x6 x7 x8 x9 x10 x11 x12 (after sB4 W) := by
  obtain ⟨rfl, rfl, rfl, rfl, rfl, rfl, rfl, rfl, rfl, rfl, rfl, rfl, rfl⟩ := ha
  simp only [sB4, ops, List.drop_succ_cons, List.drop_zero, List.take_succ_cons, List.take_zero]
  refine ⟨⟨?_, ?_, ?_, ?_⟩, ?_, ?_, ?_, ?_, ?_, ?_, ?_, ?_, ?_, ?_, ?_, ?_, ?_⟩
  · after_results; exact h_v30
  · after_results; exact h_v94
  · after_results; exact h_v96
  · simp only [after_cons, after_nil]; rw [nary_result]; unfold val_main_v110
    rewrite [← h_v107, ← h_v108, ← h_v109]; rfl
  all_goals after_results

def sB5 : List (HloOp τ sig (Elt F)) := (ops.drop 126).take 4

theorem stB5 (W : Valuation τ sig (Elt F))
    (ha : ArgsAt x0 x1 x2 x3 x4 x5 x6 x7 x8 x9 x10 x11 x12 W)
    (h_v30 : W (main_v30 : DevRef τ sig) = val_main_v30 (F := F) x2)
    (h_v94 : W (main_v94 : DevRef τ sig) = val_main_v94 (F := F) x0 x1 x2 x3 x4 x5 x6)
    (h_v96 : W (main_v96 : DevRef τ sig) = val_main_v96 (F := F) x1)
    (h_v110 : W (main_v110 : DevRef τ sig) = val_main_v110 (F := F) x0 x1 x2 x3 x4 x5 x6) :
    (after sB5 W (main_v30 : DevRef τ sig) = val_main_v30 (F := F) x2
    ∧ after sB5 W (main_v94 : DevRef τ sig) = val_main_v94 (F := F) x0 x1 x2 x3 x4 x5 x6
    ∧ after sB5 W (main_v96 : DevRef τ sig) = val_main_v96 (F := F) x1
    ∧ after sB5 W (main_v114 : DevRef τ sig) = val_main_v114 (F := F) x0 x1 x2 x3 x4 x5 x6 x7)
    ∧ ArgsAt x0 x1 x2 x3 x4 x5 x6 x7 x8 x9 x10 x11 x12 (after sB5 W) := by
  obtain ⟨rfl, rfl, rfl, rfl, rfl, rfl, rfl, rfl, rfl, rfl, rfl, rfl, rfl⟩ := ha
  simp only [sB5, ops, List.drop_succ_cons, List.drop_zero, List.take_succ_cons, List.take_zero]
  refine ⟨⟨?_, ?_, ?_, ?_⟩, ?_, ?_, ?_, ?_, ?_, ?_, ?_, ?_, ?_, ?_, ?_, ?_, ?_⟩
  · after_results; exact h_v30
  · after_results; exact h_v94
  · after_results; exact h_v96
  · after_results; rewrite [h_v110]; rfl
  all_goals after_results

def sB6 : List (HloOp τ sig (Elt F)) := (ops.drop 130).take 6

theorem stB6 (W : Valuation τ sig (Elt F))
    (ha : ArgsAt x0 x1 x2 x3 x4 x5 x6 x7 x8 x9 x10 x11 x12 W)
    (h_v30 : W (main_v30 : DevRef τ sig) = val_main_v30 (F := F) x2)
    (h_v94 : W (main_v94 : DevRef τ sig) = val_main_v94 (F := F) x0 x1 x2 x3 x4 x5 x6)
    (h_v96 : W (main_v96 : DevRef τ sig) = val_main_v96 (F := F) x1)
    (h_v114 : W (main_v114 : DevRef τ sig) = val_main_v114 (F := F) x0 x1 x2 x3 x4 x5 x6 x7) :
    (after sB6 W (main_v30 : DevRef τ sig) = val_main_v30 (F := F) x2
    ∧ after sB6 W (main_v94 : DevRef τ sig) = val_main_v94 (F := F) x0 x1 x2 x3 x4 x5 x6
    ∧ after sB6 W (main_v96 : DevRef τ sig) = val_main_v96 (F := F) x1
    ∧ after sB6 W (main_v120 : DevRef τ sig) = val_main_v120 (F := F) x0 x1 x2 x3 x4 x5 x6 x7 x8)
    ∧ ArgsAt x0 x1 x2 x3 x4 x5 x6 x7 x8 x9 x10 x11 x12 (after sB6 W) := by
  obtain ⟨rfl, rfl, rfl, rfl, rfl, rfl, rfl, rfl, rfl, rfl, rfl, rfl, rfl⟩ := ha
  simp only [sB6, ops, List.drop_succ_cons, List.drop_zero, List.take_succ_cons, List.take_zero]
  refine ⟨⟨?_, ?_, ?_, ?_⟩, ?_, ?_, ?_, ?_, ?_, ?_, ?_, ?_, ?_, ?_, ?_, ?_, ?_⟩
  · after_results; exact h_v30
  · after_results; exact h_v94
  · after_results; exact h_v96
  · after_results; rewrite [h_v114]; rfl
  all_goals after_results

def sB7 : List (HloOp τ sig (Elt F)) := (ops.drop 136).take 7

theorem stB7 (W : Valuation τ sig (Elt F))
    (ha : ArgsAt x0 x1 x2 x3 x4 x5 x6 x7 x8 x9 x10 x11 x12 W)
    (h_v30 : W (main_v30 : DevRef τ sig) = val_main_v30 (F := F) x2)
    (h_v94 : W (main_v94 : DevRef τ sig) = val_main_v94 (F := F) x0 x1 x2 x3 x4 x5 x6)
    (h_v96 : W (main_v96 : DevRef τ sig) = val_main_v96 (F := F) x1)
    (h_v120 : W (main_v120 : DevRef τ sig) = val_main_v120 (F := F) x0 x1 x2 x3 x4 x5 x6 x7 x8) :
    (after sB7 W (main_v30 : DevRef τ sig) = val_main_v30 (F := F) x2
    ∧ after sB7 W (main_v94 : DevRef τ sig) = val_main_v94 (F := F) x0 x1 x2 x3 x4 x5 x6
    ∧ after sB7 W (main_v96 : DevRef τ sig) = val_main_v96 (F := F) x1
    ∧ after sB7 W (main_v125 : DevRef τ sig) = val_main_v125 (F := F) x0 x1 x2 x3 x4 x5 x6 x7 x8)
    ∧ ArgsAt x0 x1 x2 x3 x4 x5 x6 x7 x8 x9 x10 x11 x12 (after sB7 W) := by
  obtain ⟨rfl, rfl, rfl, rfl, rfl, rfl, rfl, rfl, rfl, rfl, rfl, rfl, rfl⟩ := ha
  simp only [sB7, ops, List.drop_succ_cons, List.drop_zero, List.take_succ_cons, List.take_zero]
  refine ⟨⟨?_, ?_, ?_, ?_⟩, ?_, ?_, ?_, ?_, ?_, ?_, ?_, ?_, ?_, ?_, ?_, ?_, ?_⟩
  · after_results; exact h_v30
  · after_results; exact h_v94
  · after_results; exact h_v96
  · after_results; rewrite [h_v120]; rfl
  all_goals after_results

def sB8 : List (HloOp τ sig (Elt F)) := (ops.drop 143).take 7

theorem stB8 (W : Valuation τ sig (Elt F))
    (ha : ArgsAt x0 x1 x2 x3 x4 x5 x6 x7 x8 x9 x10 x11 x12 W)
    (h_v30 : W (main_v30 : DevRef τ sig) = val_main_v30 (F := F) x2)
    (h_v94 : W (main_v94 : DevRef τ sig) = val_main_v94 (F := F) x0 x1 x2 x3 x4 x5 x6)
    (h_v96 : W (main_v96 : DevRef τ sig) = val_main_v96 (F := F) x1)
    (h_v125 : W (main_v125 : DevRef τ sig) = val_main_v125 (F := F) x0 x1 x2 x3 x4 x5 x6 x7 x8) :
    (after sB8 W (main_v30 : DevRef τ sig) = val_main_v30 (F := F) x2
    ∧ after sB8 W (main_v94 : DevRef τ sig) = val_main_v94 (F := F) x0 x1 x2 x3 x4 x5 x6
    ∧ after sB8 W (main_v96 : DevRef τ sig) = val_main_v96 (F := F) x1
    ∧ after sB8 W (main_v129 : DevRef τ sig) = val_main_v129 (F := F) x0 x1 x2 x3 x4 x5 x6 x7 x8
    ∧ after sB8 W (main_v131 : DevRef τ sig) = val_main_v131 (F := F) x0 x1 x2 x3 x4 x5 x6
    ∧ after sB8 W (main_v132 : DevRef τ sig) = val_main_v132 (F := F) x0 x1 x2 x3 x4 x5 x6 x7 x8)
    ∧ ArgsAt x0 x1 x2 x3 x4 x5 x6 x7 x8 x9 x10 x11 x12 (after sB8 W) := by
  obtain ⟨rfl, rfl, rfl, rfl, rfl, rfl, rfl, rfl, rfl, rfl, rfl, rfl, rfl⟩ := ha
  simp only [sB8, ops, List.drop_succ_cons, List.drop_zero, List.take_succ_cons, List.take_zero]
  refine ⟨⟨?_, ?_, ?_, ?_, ?_, ?_⟩, ?_, ?_, ?_, ?_, ?_, ?_, ?_, ?_, ?_, ?_, ?_, ?_, ?_⟩
  · after_results; exact h_v30
  · after_results; exact h_v94
  · after_results; exact h_v96
  · after_results; rewrite [h_v125]; rfl
  · after_results; rewrite [h_v94]; rfl
  · after_results; rewrite [h_v125, h_v96]; rfl
  all_goals after_results

def sB9 : List (HloOp τ sig (Elt F)) := (ops.drop 150).take 5

theorem stB9 (W : Valuation τ sig (Elt F))
    (ha : ArgsAt x0 x1 x2 x3 x4 x5 x6 x7 x8 x9 x10 x11 x12 W)
    (h_v30 : W (main_v30 : DevRef τ sig) = val_main_v30 (F := F) x2)
    (h_v94 : W (main_v94 : DevRef τ sig) = val_main_v94 (F := F) x0 x1 x2 x3 x4 x5 x6)
    (h_v96 : W (main_v96 : DevRef τ sig) = val_main_v96 (F := F) x1)
    (h_v129 : W (main_v129 : DevRef τ sig) = val_main_v129 (F := F) x0 x1 x2 x3 x4 x5 x6 x7 x8)
    (h_v131 : W (main_v131 : DevRef τ sig) = val_main_v131 (F := F) x0 x1 x2 x3 x4 x5 x6)
    (h_v132 : W (main_v132 : DevRef τ sig) = val_main_v132 (F := F) x0 x1 x2 x3 x4 x5 x6 x7 x8) :
    (after sB9 W (main_v94 : DevRef τ sig) = val_main_v94 (F := F) x0 x1 x2 x3 x4 x5 x6
    ∧ after sB9 W (main_v96 : DevRef τ sig) = val_main_v96 (F := F) x1
    ∧ after sB9 W (main_v129 : DevRef τ sig) = val_main_v129 (F := F) x0 x1 x2 x3 x4 x5 x6 x7 x8
    ∧ after sB9 W (main_v135 : DevRef τ sig) = val_main_v135 (F := F) x0 x1 x2 x3 x4 x5 x6 x7 x8
    ∧ after sB9 W (main_v136 : DevRef τ sig) = val_main_v136 (F := F) x0 x1 x2 x3 x4 x5 x6 x7 x8
    ∧ after sB9 W (main_v137 : DevRef τ sig) = val_main_v137 (F := F) x0 x1 x2 x3 x4 x5 x6 x7 x8)
    ∧ ArgsAt x0 x1 x2 x3 x4 x5 x6 x7 x8 x9 x10 x11 x12 (after sB9 W) := by
  obtain ⟨rfl, rfl, rfl, rfl, rfl, rfl, rfl, rfl, rfl, rfl, rfl, rfl, rfl⟩ := ha
  simp only [sB9, ops, List.drop_succ_cons, List.drop_zero, List.take_succ_cons, List.take_zero]
  refine ⟨⟨?_, ?_, ?_, ?_, ?_, ?_⟩, ?_, ?_, ?_, ?_, ?_, ?_, ?_, ?_, ?_, ?_, ?_, ?_, ?_⟩
  · after_results; exact h_v94
  · after_results; exact h_v96
  · after_results; exact h_v129
  · after_results; rewrite [h_v131, h_v132]; rfl
  · after_results; rewrite [h_v30, h_v131, h_v132]; rfl
  · after_results; rewrite [h_v30, h_v131, h_v132]; rfl
  all_goals after_results

def sB10 : List (HloOp τ sig (Elt F)) := (ops.drop 155).take 7

theorem stB10 (W : Valuation τ sig (Elt F))
    (ha : ArgsAt x0 x1 x2 x3 x4 x5 x6 x7 x8 x9 x10 x11 x12 W)
    (h_v94 : W (main_v94 : DevRef τ sig) = val_main_v94 (F := F) x0 x1 x2 x3 x4 x5 x6)
    (h_v96 : W (main_v96 : DevRef τ sig) = val_main_v96 (F := F) x1)
    (h_v129 : W (main_v129 : DevRef τ sig) = val_main_v129 (F := F) x0 x1 x2 x3 x4 x5 x6 x7 x8)
    (h_v135 : W (main_v135 : DevRef τ sig) = val_main_v135 (F := F) x0 x1 x2 x3 x4 x5 x6 x7 x8)
    (h_v136 : W (main_v136 : DevRef τ sig) = val_main_v136 (F := F) x0 x1 x2 x3 x4 x5 x6 x7 x8)
    (h_v137 : W (main_v137 : DevRef τ sig) = val_main_v137 (F := F) x0 x1 x2 x3 x4 x5 x6 x7 x8) :
    (after sB10 W (main_v94 : DevRef τ sig) = val_main_v94 (F := F) x0 x1 x2 x3 x4 x5 x6
    ∧ after sB10 W (main_v96 : DevRef τ sig) = val_main_v96 (F := F) x1
    ∧ after sB10 W (main_v129 : DevRef τ sig) = val_main_v129 (F := F) x0 x1 x2 x3 x4 x5 x6 x7 x8
    ∧ after sB10 W (main_v141 : DevRef τ sig) = val_main_v141 (F := F) x0 x1 x2 x3 x4 x5 x6 x7 x8
    ∧ after sB10 W (main_v142 : DevRef τ sig) = val_main_v142 (F := F) x0 x1 x2 x3 x4 x5 x6 x7 x8
    ∧ after sB10 W (main_v143 : DevRef τ sig) = val_main_v143 (F := F) x0 x1 x2 x3 x4 x5 x6 x7 x8)
    ∧ ArgsAt x0 x1 x2 x3 x4 x5 x6 x7 x8 x9 x10 x11 x12 (after sB10 W) := by
  obtain ⟨rfl, rfl, rfl, rfl, rfl, rfl, rfl, rfl, rfl, rfl, rfl, rfl, rfl⟩ := ha
  simp only [sB10, ops, List.drop_succ_cons, List.drop_zero, List.take_succ_cons, List.take_zero]
  refine ⟨⟨?_, ?_, ?_, ?_, ?_, ?_⟩, ?_, ?_, ?_, ?_, ?_, ?_, ?_, ?_, ?_, ?_, ?_, ?_, ?_⟩
  · after_results; exact h_v94
  · after_results; exact h_v96
  · after_results; exact h_v129
  · after_results; rewrite [h_v135]; rfl
  · after_results; rewrite [h_v136]; rfl
  · after_results; rewrite [h_v137, h_v135]; rfl
  all_goals after_results

def sB11 : List (HloOp τ sig (Elt F)) := (ops.drop 162).take 1

theorem stB11 (W : Valuation τ sig (Elt F))
    (ha : ArgsAt x0 x1 x2 x3 x4 x5 x6 x7 x8 x9 x10 x11 x12 W)
    (h_v94 : W (main_v94 : DevRef τ sig) = val_main_v94 (F := F) x0 x1 x2 x3 x4 x5 x6)
    (h_v96 : W (main_v96 : DevRef τ sig) = val_main_v96 (F := F) x1)
    (h_v129 : W (main_v129 : DevRef τ sig) = val_main_v129 (F := F) x0 x1 x2 x3 x4 x5 x6 x7 x8)
    (h_v141 : W (main_v141 : DevRef τ sig) = val_main_v141 (F := F) x0 x1 x2 x3 x4 x5 x6 x7 x8)
    (h_v142 : W (main_v142 : DevRef τ sig) = val_main_v142 (F := F) x0 x1 x2 x3 x4 x5 x6 x7 x8)
    (h_v143 : W (main_v143 : DevRef τ sig) = val_main_v143 (F := F) x0 x1 x2 x3 x4 x5 x6 x7 x8) :
    (after sB11 W (main_v94 : DevRef τ sig) = val_main_v94 (F := F) x0 x1 x2 x3 x4 x5 x6
    ∧ after sB11 W (main_v96 : DevRef τ sig) = val_main_v96 (F := F) x1
    ∧ after sB11 W (main_v129 : DevRef τ sig) = val_main_v129 (F := F) x0 x1 x2 x3 x4 x5 x6 x7 x8
    ∧ after sB11 W (main_v144 : DevRef τ sig) = val_main_v144 (F := F) x0 x1 x2 x3 x4 x5 x6 x7 x8)
    ∧ ArgsAt x0 x1 x2 x3 x4 x5 x6 x7 x8 x9 x10 x11 x12 (after sB11 W) := by
  obtain ⟨rfl, rfl, rfl, rfl, rfl, rfl, rfl, rfl, rfl, rfl, rfl, rfl, rfl⟩ := ha
  simp only [sB11, ops, List.drop_succ_cons, List.drop_zero, List.take_succ_cons, List.take_zero]
  refine ⟨⟨?_, ?_, ?_, ?_⟩, ?_, ?_, ?_, ?_, ?_, ?_, ?_, ?_, ?_, ?_, ?_, ?_, ?_⟩
  · after_results; exact h_v94
  · after_results; exact h_v96
  · after_results; exact h_v129
  · simp only [after_cons, after_nil]; rw [nary_result]; unfold val_main_v144
    rewrite [← h_v141, ← h_v142, ← h_v143]; rfl
  all_goals after_results

def sB12 : List (HloOp τ sig (Elt F)) := (ops.drop 163).take 4

theorem stB12 (W : Valuation τ sig (Elt F))
    (ha : ArgsAt x0 x1 x2 x3 x4 x5 x6 x7 x8 x9 x10 x11 x12 W)
    (h_v94 : W (main_v94 : DevRef τ sig) = val_main_v94 (F := F) x0 x1 x2 x3 x4 x5 x6)
    (h_v96 : W (main_v96 : DevRef τ sig) = val_main_v96 (F := F) x1)
    (h_v129 : W (main_v129 : DevRef τ sig) = val_main_v129 (F := F) x0 x1 x2 x3 x4 x5 x6 x7 x8)
    (h_v144 : W (main_v144 : DevRef τ sig) = val_main_v144 (F := F) x0 x1 x2 x3 x4 x5 x6 x7 x8) :
    (after sB12 W (main_v94 : DevRef τ sig) = val_main_v94 (F := F) x0 x1 x2 x3 x4 x5 x6
    ∧ after sB12 W (main_v96 : DevRef τ sig) = val_main_v96 (F := F) x1
    ∧ after sB12 W (main_v129 : DevRef τ sig) = val_main_v129 (F := F) x0 x1 x2 x3 x4 x5 x6 x7 x8
    ∧ after sB12 W (main_v148 : DevRef τ sig) = val_main_v148 (F := F) x0 x1 x2 x3 x4 x5 x6 x7 x8 x9)
    ∧ ArgsAt x0 x1 x2 x3 x4 x5 x6 x7 x8 x9 x10 x11 x12 (after sB12 W) := by
  obtain ⟨rfl, rfl, rfl, rfl, rfl, rfl, rfl, rfl, rfl, rfl, rfl, rfl, rfl⟩ := ha
  simp only [sB12, ops, List.drop_succ_cons, List.drop_zero, List.take_succ_cons, List.take_zero]
  refine ⟨⟨?_, ?_, ?_, ?_⟩, ?_, ?_, ?_, ?_, ?_, ?_, ?_, ?_, ?_, ?_, ?_, ?_, ?_⟩
  · after_results; exact h_v94
  · after_results; exact h_v96
  · after_results; exact h_v129
  · after_results; rewrite [h_v144]; rfl
  all_goals after_results

def sB13 : List (HloOp τ sig (Elt F)) := (ops.drop 167).take 5

theorem stB13 (W : Valuation τ sig (Elt F))
    (ha : ArgsAt x0 x1 x2 x3 x4 x5 x6 x7 x8 x9 x10 x11 x12 W)
    (h_v94 : W (main_v94 : DevRef τ sig) = val_main_v94 (F := F) x0 x1 x2 x3 x4 x5 x6)
    (h_v96 : W (main_v96 : DevRef τ sig) = val_main_v96 (F := F) x1)
    (h_v129 : W (main_v129 : DevRef τ sig) = val_main_v129 (F := F) x0 x1 x2 x3 x4 x5 x6 x7 x8)
    (h_v148 : W (main_v148 : DevRef τ sig) = val_main_v148 (F := F) x0 x1 x2 x3 x4 x5 x6 x7 x8 x9) :
    (after sB13 W (main_v94 : DevRef τ sig) = val_main_v94 (F := F) x0 x1 x2 x3 x4 x5 x6
    ∧ after sB13 W (main_v96 : DevRef τ sig) = val_main_v96 (F := F) x1
    ∧ after sB13 W (main_v129 : DevRef τ sig) = val_main_v129 (F := F) x0 x1 x2 x3 x4 x5 x6 x7 x8
    ∧ after sB13 W (main_v153 : DevRef τ sig) = val_main_v153 (F := F) x0 x1 x2 x3 x4 x5 x6 x7 x8 x9 x10)
    ∧ ArgsAt x0 x1 x2 x3 x4 x5 x6 x7 x8 x9 x10 x11 x12 (after sB13 W) := by
  obtain ⟨rfl, rfl, rfl, rfl, rfl, rfl, rfl, rfl, rfl, rfl, rfl, rfl, rfl⟩ := ha
  simp only [sB13, ops, List.drop_succ_cons, List.drop_zero, List.take_succ_cons, List.take_zero]
  refine ⟨⟨?_, ?_, ?_, ?_⟩, ?_, ?_, ?_, ?_, ?_, ?_, ?_, ?_, ?_, ?_, ?_, ?_, ?_⟩
  · after_results; exact h_v94
  · after_results; exact h_v96
  · after_results; exact h_v129
  · after_results; rewrite [h_v148]; rfl
  all_goals after_results

def sB14 : List (HloOp τ sig (Elt F)) := (ops.drop 172).take 6

theorem stB14 (W : Valuation τ sig (Elt F))
    (ha : ArgsAt x0 x1 x2 x3 x4 x5 x6 x7 x8 x9 x10 x11 x12 W)
    (h_v94 : W (main_v94 : DevRef τ sig) = val_main_v94 (F := F) x0 x1 x2 x3 x4 x5 x6)
    (h_v96 : W (main_v96 : DevRef τ sig) = val_main_v96 (F := F) x1)
    (h_v129 : W (main_v129 : DevRef τ sig) = val_main_v129 (F := F) x0 x1 x2 x3 x4 x5 x6 x7 x8)
    (h_v153 : W (main_v153 : DevRef τ sig) = val_main_v153 (F := F) x0 x1 x2 x3 x4 x5 x6 x7 x8 x9 x10) :
    (after sB14 W (main_v94 : DevRef τ sig) = val_main_v94 (F := F) x0 x1 x2 x3 x4 x5 x6
    ∧ after sB14 W (main_v158 : DevRef τ sig) = val_main_v158 (F := F) x0 x1 x2 x3 x4 x5 x6 x7 x8 x9 x10)
    ∧ ArgsAt x0 x1 x2 x3 x4 x5 x6 x7 x8 x9 x10 x11 x12 (after sB14 W) := by
  obtain ⟨rfl, rfl, rfl, rfl, rfl, rfl, rfl, rfl, rfl, rfl, rfl, rfl, rfl⟩ := ha
  simp only [sB14, ops, List.drop_succ_cons, List.drop_zero, List.take_succ_cons, List.take_zero]
  refine ⟨⟨?_, ?_⟩, ?_, ?_, ?_, ?_, ?_, ?_, ?_, ?_, ?_, ?_, ?_, ?_, ?_⟩
  · after_results; exact h_v94
  · after_results; rewrite [h_v129, h_v96, h_v153]; rfl
  all_goals after_results

def sB15 : List (HloOp τ sig (Elt F)) := (ops.drop 178).take 8

theorem stB15 (W : Valuation τ sig (Elt F))
    (ha : ArgsAt x0 x1 x2 x3 x4 x5 x6 x7 x8 x9 x10 x11 x12 W)
    (h_v94 : W (main_v94 : DevRef τ sig) = val_main_v94 (F := F) x0 x1 x2 x3 x4 x5 x6)
    (h_v158 : W (main_v158 : DevRef τ sig) = val_main_v158 (F := F) x0 x1 x2 x3 x4 x5 x6 x7 x8 x9 x10) :
    (after sB15 W (main_v164 : DevRef τ sig) = val_main_v164 (F := F) x0 x1 x2 x3 x4 x5 x6 x7 x8 x9 x10 x11 x12
    ∧ after sB15 W (main_v165 : DevRef τ sig) = val_main_v165 (F := F) x0 x1 x2 x3 x4 x5 x6
    ∧ after sB15 W (main_v166 : DevRef τ sig) = val_main_v166 (F := F) x0 x1 x2 x3 x4 x5 x6 x7 x8 x9 x10)
    ∧ ArgsAt x0 x1 x2 x3 x4 x5 x6 x7 x8 x9 x10 x11 x12 (after sB15 W) := by
  obtain ⟨rfl, rfl, rfl, rfl, rfl, rfl, rfl, rfl, rfl, rfl, rfl, rfl, rfl⟩ := ha
  simp only [sB15, ops, List.drop_succ_cons, List.drop_zero, List.take_succ_cons, List.take_zero]
  refine ⟨⟨?_, ?_, ?_⟩, ?_, ?_, ?_, ?_, ?_, ?_, ?_, ?_, ?_, ?_, ?_, ?_, ?_⟩
  · after_results; rewrite [h_v158]; rfl
  · after_results; rewrite [h_v94]; rfl
  · after_results; rewrite [h_v158]; rfl
  all_goals after_results

def sB16 : List (HloOp τ sig (Elt F)) := (ops.drop 186).take 1

theorem stB16 (W : Valuation τ sig (Elt F))
    (ha : ArgsAt x0 x1 x2 x3 x4 x5 x6 x7 x8 x9 x10 x11 x12 W)
    (h_v164 : W (main_v164 : DevRef τ sig) = val_main_v164 (F := F) x0 x1 x2 x3 x4 x5 x6 x7 x8 x9 x10 x11 x12)
    (h_v165 : W (main_v165 : DevRef τ sig) = val_main_v165 (F := F) x0 x1 x2 x3 x4 x5 x6)
    (h_v166 : W (main_v166 : DevRef τ sig) = val_main_v166 (F := F) x0 x1 x2 x3 x4 x5 x6 x7 x8 x9 x10) :
    (after sB16 W (main_v164 : DevRef τ sig) = val_main_v164 (F := F) x0 x1 x2 x3 x4 x5 x6 x7 x8 x9 x10 x11 x12
    ∧ after sB16 W (main_v167 : DevRef τ sig) = val_main_v167 (F := F) x0 x1 x2 x3 x4 x5 x6 x7 x8 x9 x10)
    ∧ ArgsAt x0 x1 x2 x3 x4 x5 x6 x7 x8 x9 x10 x11 x12 (after sB16 W) := by
  obtain ⟨rfl, rfl, rfl, rfl, rfl, rfl, rfl, rfl, rfl, rfl, rfl, rfl, rfl⟩ := ha
  simp only [sB16, ops, List.drop_succ_cons, List.drop_zero, List.take_succ_cons, List.take_zero]
  refine ⟨⟨?_, ?_⟩, ?_, ?_, ?_, ?_, ?_, ?_, ?_, ?_, ?_, ?_, ?_, ?_, ?_⟩
  · after_results; exact h_v164
  · after_results; rewrite [h_v165, h_v166]; rfl
  all_goals after_results

def opsB : List (HloOp τ sig (Elt F)) :=
  sB1 ++ (sB2 ++ (sB3 ++ (sB4 ++ (sB5 ++ (sB6 ++ (sB7 ++ (sB8 ++ (sB9 ++ (sB10 ++ (sB11 ++ (sB12 ++ (sB13 ++ (sB14 ++ (sB15 ++ (sB16)))))))))))))))

theorem runB (W : Valuation τ sig (Elt F))
    (ha : ArgsAt x0 x1 x2 x3 x4 x5 x6 x7 x8 x9 x10 x11 x12 W)
    (h_v30 : W (main_v30 : DevRef τ sig) = val_main_v30 (F := F) x2)
    (h_v94 : W (main_v94 : DevRef τ sig) = val_main_v94 (F := F) x0 x1 x2 x3 x4 x5 x6) :
    (after opsB W (main_v164 : DevRef τ sig) = val_main_v164 (F := F) x0 x1 x2 x3 x4 x5 x6 x7 x8 x9 x10 x11 x12
    ∧ after opsB W (main_v167 : DevRef τ sig) = val_main_v167 (F := F) x0 x1 x2 x3 x4 x5 x6 x7 x8 x9 x10)
    ∧ ArgsAt x0 x1 x2 x3 x4 x5 x6 x7 x8 x9 x10 x11 x12 (after opsB W) := by
  unfold opsB
  simp only [StableHlo.after_append]
  obtain ⟨⟨h_v30, h_v94, h_v96, h_v97, h_v98⟩, ha⟩ := stB1 W ha h_v30 h_v94
  generalize after sB1 W = W1 at *
  obtain ⟨⟨h_v30, h_v94, h_v96, h_v101, h_v102, h_v103⟩, ha⟩ := stB2 W1 ha h_v30 h_v94 h_v96 h_v97 h_v98
  generalize after sB2 W1 = W2 at *
  obtain ⟨⟨h_v30, h_v94, h_v96, h_v107, h_v108, h_v109⟩, ha⟩ := stB3 W2 ha h_v30 h_v94 h_v96 h_v101 h_v102 h_v103
  generalize after sB3 W2 = W3 at *
  obtain ⟨⟨h_v30, h_v94, h_v96, h_v110⟩, ha⟩ := stB4 W3 ha h_v30 h_v94 h_v96 h_v107 h_v108 h_v109
  generalize after sB4 W3 = W4 at *
  obtain ⟨⟨h_v30, h_v94, h_v96, h_v114⟩, ha⟩ := stB5 W4 ha h_v30 h_v94 h_v96 h_v110
  generalize after sB5 W4 = W5 at *
  obtain ⟨⟨h_v30, h_v94, h_v96, h_v120⟩, ha⟩ := stB6 W5 ha h_v30 h_v94 h_v96 h_v114
  generalize after sB6 W5 = W6 at *
  obtain ⟨⟨h_v30, h_v94, h_v96, h_v125⟩, ha⟩ := stB7 W6 ha h_v30 h_v94 h_v96 h_v120
  generalize after sB7 W6 = W7 at *
  obtain ⟨⟨h_v30, h_v94, h_v96, h_v129, h_v131, h_v132⟩, ha⟩ := stB8 W7 ha h_v30 h_v94 h_v96 h_v125
  generalize after sB8 W7 = W8 at *
  obtain ⟨⟨h_v94, h_v96, h_v129, h_v135, h_v136, h_v137⟩, ha⟩ := stB9 W8 ha h_v30 h_v94 h_v96 h_v129 h_v131 h_v132
  generalize after sB9 W8 = W9 at *
  obtain ⟨⟨h_v94, h_v96, h_v129, h_v141, h_v142, h_v143⟩, ha⟩ := stB10 W9 ha h_v94 h_v96 h_v129 h_v135 h_v136 h_v137
  generalize after sB10 W9 = W10 at *
  obtain ⟨⟨h_v94, h_v96, h_v129, h_v144⟩, ha⟩ := stB11 W10 ha h_v94 h_v96 h_v129 h_v141 h_v142 h_v143
  generalize after sB11 W10 = W11 at *
  obtain ⟨⟨h_v94, h_v96, h_v129, h_v148⟩, ha⟩ := stB12 W11 ha h_v94 h_v96 h_v129 h_v144
  generalize after sB12 W11 = W12 at *
  obtain ⟨⟨h_v94, h_v96, h_v129, h_v153⟩, ha⟩ := stB13 W12 ha h_v94 h_v96 h_v129 h_v148
  generalize after sB13 W12 = W13 at *
  obtain ⟨⟨h_v94, h_v158⟩, ha⟩ := stB14 W13 ha h_v94 h_v96 h_v129 h_v153
  generalize after sB14 W13 = W14 at *
  obtain ⟨⟨h_v164, h_v165, h_v166⟩, ha⟩ := stB15 W14 ha h_v94 h_v158
  generalize after sB15 W14 = W15 at *
  obtain ⟨⟨h_v164, h_v167⟩, ha⟩ := stB16 W15 ha h_v164 h_v165 h_v166
  exact ⟨⟨h_v164, h_v167⟩, ha⟩

theorem ops_split : (ops : List (HloOp τ sig (Elt F))) = opsA ++ opsB := rfl

theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164) = val_main_v164 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v167) = val_main_v167 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => by
      obtain ⟨⟨hA30, hA94⟩, hA⟩ := runA (launchContents m c) ⟨rfl, rfl, rfl, rfl, rfl, rfl, rfl, rfl, rfl, rfl, rfl, rfl, rfl⟩
      obtain ⟨⟨hB164, hB167⟩, hB0, hB1, hB2, hB3, hB4, hB5, hB6, hB7, hB8, hB9, hB10, hB11, hB12⟩ := runB (after opsA (launchContents m c)) hA hA30 hA94
      have e : ∀ b : Ref sig .tc, r.2.mem ((c.tc : Thread nD τ).loc b)
          = after opsB (after opsA (launchContents m c)) (Proc.devRef .tc b) := fun b => by
        rw [← StableHlo.after_append, ← ops_split]; exact h c b
      exact ⟨(e main_v164).trans hB164, (e main_v167).trans hB167, (e main_arg0).trans hB0, (e main_arg1).trans hB1, (e main_arg2).trans hB2, (e main_arg3).trans hB3, (e main_arg4).trans hB4, (e main_arg5).trans hB5, (e main_arg6).trans hB6, (e main_arg7).trans hB7, (e main_arg8).trans hB8, (e main_arg9).trans hB9, (e main_arg10).trans hB10, (e main_arg11).trans hB11, (e main_arg12).trans hB12⟩)
    (run_seq scopedRefs_eq scopedSems_eq defs main (fun _ => ops) main_eq (fun _ => ops_sub) m ρ)

end Cert.ReferenceIdeal.RefValue

end
-- ==== Proof.Ref.Final.lean ====
import proofs.«134251_g19069654794669_cont_sun_m_30_29_alg».proof.Proof.Ref.Base
import proofs.«134251_g19069654794669_cont_sun_m_30_29_alg».proof.Proof.Ref.Support
import proofs.«134251_g19069654794669_cont_sun_m_30_29_alg».proof.Proof.Ref.Layer0a
import proofs.«134251_g19069654794669_cont_sun_m_30_29_alg».proof.Proof.Ref.Layer0b
import proofs.«134251_g19069654794669_cont_sun_m_30_29_alg».proof.Proof.Ref.Layer1
import proofs.«134251_g19069654794669_cont_sun_m_30_29_alg».proof.Proof.Ref.Results
import proofs.«134251_g19069654794669_cont_sun_m_30_29_alg».proof.Proof.Ref.RunH2

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

abbrev refArgs (m : (ℓ : Loc nD τ sig) → Buf (Elt Ideal) ℓ) (c : Dev nD) : Cert.Spec.Args :=
  Cert.Spec.Args.mk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

section Values

variable (x0 : (⟨S64x512, .f32⟩ : BufTy).Contents (Elt Ideal))
  (x1 : (⟨S2x64x32768, .f32⟩ : BufTy).Contents (Elt Ideal))
  (x2 : (⟨S512x512, .f32⟩ : BufTy).Contents (Elt Ideal))
  (x3 : (⟨S195x128, .f32⟩ : BufTy).Contents (Elt Ideal))
  (x4 : (⟨S128, .f32⟩ : BufTy).Contents (Elt Ideal))
  (x5 : (⟨S195x64, .f32⟩ : BufTy).Contents (Elt Ideal))
  (x6 : (⟨S64, .f32⟩ : BufTy).Contents (Elt Ideal))
  (x7 : (⟨S384x128, .f32⟩ : BufTy).Contents (Elt Ideal))
  (x8 : (⟨S128, .f32⟩ : BufTy).Contents (Elt Ideal))
  (x9 : (⟨S384x64, .f32⟩ : BufTy).Contents (Elt Ideal))
  (x10 : (⟨S64, .f32⟩ : BufTy).Contents (Elt Ideal))
  (x11 : (⟨S64x1, .f32⟩ : BufTy).Contents (Elt Ideal))
  (x12 : (⟨S1, .f32⟩ : BufTy).Contents (Elt Ideal))

theorem ref_h0_spec (hsup : ∀ i : S512x512.Idx, val_main_v30 (F := Ideal) x2 i = Cert.Spec.sup x2 ⟨(i 0).val, (i 0).isLt⟩ ⟨(i 1).val, (i 1).isLt⟩)
    (i : S64x32768.Idx) :
    val_main_v94 (F := Ideal) x0 x1 x2 x3 x4 x5 x6 i
      = Cert.Spec.h0 (Cert.Spec.Args.mk x0 x1 x2 x3 x4 x5 x6 x7 x8 x9 x10 x11 x12) ⟨(i 0).val, (i 0).isLt⟩
          ⟨(i 1).val % 64, Nat.mod_lt _ (by decide)⟩
          ⟨(i 1).val / 64, by have h1 : (i 1).val < 32768 := (i 1).isLt; omega⟩ :=
  ref_h0 x0 x1 x2 x3 x4 x5 x6 hsup (v63_at x0 x1 x2 x3 x4 hsup) (v65_at x0 x1 x2 x3 x4 hsup) i

theorem ref_final0 (hadj : ∀ i, ∃ r : ℝ, x2 i = (r : EReal)) :
    val_main_v164 (F := Ideal) x0 x1 x2 x3 x4 x5 x6 x7 x8 x9 x10 x11 x12 = Cert.Spec.res0 (Cert.Spec.Args.mk x0 x1 x2 x3 x4 x5 x6 x7 x8 x9 x10 x11 x12) :=
  ref_res0 x0 x1 x2 x3 x4 x5 x6 x7 x8 x9 x10 x11 x12 (ref_sup x2 hadj)
    (ref_h0_spec x0 x1 x2 x3 x4 x5 x6 x7 x8 x9 x10 x11 x12 (ref_sup x2 hadj))

theorem ref_final1 (hadj : ∀ i, ∃ r : ℝ, x2 i = (r : EReal)) :
    val_main_v167 (F := Ideal) x0 x1 x2 x3 x4 x5 x6 x7 x8 x9 x10 = Cert.Spec.res1 (Cert.Spec.Args.mk x0 x1 x2 x3 x4 x5 x6 x7 x8 x9 x10 x11 x12) :=
  ref_res1 x0 x1 x2 x3 x4 x5 x6 x7 x8 x9 x10 x11 x12 (ref_sup x2 hadj)
    (ref_h0_spec x0 x1 x2 x3 x4 x5 x6 x7 x8 x9 x10 x11 x12 (ref_sup x2 hadj))

end Values

theorem ref_run (m : (ℓ : Loc nD τ sig) → Buf (Elt Ideal) ℓ) (ρ : Dev nD → PrngReg)
    (hadj : ∀ c : Dev nD, ∀ i, ∃ r : ℝ, m ((c.tc : Thread nD τ).loc main_arg2) i = (r : EReal)) :
    θ_run (defs (F := Ideal)) (onTc (τ := τ) (main (F := Ideal))) ⟨m, fun _ => 0, ρ⟩ fun r => ∀ c : Dev nD,
      r.2.mem ((c.tc : Thread nD τ).loc main_v164) = Cert.Spec.res0 (refArgs m c)
      ∧ r.2.mem ((c.tc : Thread nD τ).loc main_v167) = Cert.Spec.res1 (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      ⟨(h c).1.trans (ref_final0 _ _ _ _ _ _ _ _ _ _ _ _ _ (hadj c)),
       (h c).2.1.trans (ref_final1 _ _ _ _ _ _ _ _ _ _ _ _ _ (hadj c)),
       (h c).2.2⟩)
    (run_stages (F := Ideal) m ρ)

theorem frame_ri (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => (h c).2.2) (run_stages (F := Ideal) m ρ)

end Cert.ReferenceIdeal.RefValue

end
-- ==== Proof.Finite.lean ====
import proofs.«134251_g19069654794669_cont_sun_m_30_29_alg».proof.Pre_finite_inputs
import Idealize.ShloMosaic.Lib.ReduceAll
import Idealize.ShloMosaic.Lib.ValueIdx
import Idealize.ShloMosaic.PureOps.Ideal.Laws

noncomputable section
namespace Cert.Finite
open Idealize.ShloMosaic Cert.Pre_finite_inputs
variable [Cert.Pre_finite_inputs.Facts]

instance : Subsingleton S_.Idx := ⟨fun a b => funext fun d => d.elim0⟩

theorem adj_finite (a0 : FVec Ideal S64x512 .f32) (a1 : FVec Ideal S2x64x32768 .f32) (a2 : FVec Ideal S512x512 .f32) (a3 : FVec Ideal S195x128 .f32) (a4 : FVec Ideal S128 .f32) (a5 : FVec Ideal S195x64 .f32) (a6 : FVec Ideal S64 .f32) (a7 : FVec Ideal S384x128 .f32) (a8 : FVec Ideal S128 .f32) (a9 : FVec Ideal S384x64 .f32) (a10 : FVec Ideal S64 .f32) (a11 : FVec Ideal S64x1 .f32) (a12 : FVec Ideal S1 .f32)
    (h : fn (F := Ideal) a0 a1 a2 a3 a4 a5 a6 a7 a8 a9 a10 a11 a12 = fun _ => 1#1) (i : S512x512.Idx) : ∃ r : ℝ, a2 i = (r : EReal) := by
  have h0 := congrFun h ValueIdx.ix0
  dsimp only [fn, fn_part1, fn_part2, fn_part3] at h0
  have e1 := (IntOp.andi_eq_one.1 h0).1
  have e2 := (IntOp.andi_eq_one.1 e1).1
  have e3 := (IntOp.andi_eq_one.1 e2).1
  have e4 := (IntOp.andi_eq_one.1 e3).1
  have e5 := (IntOp.andi_eq_one.1 e4).1
  have e6 := (IntOp.andi_eq_one.1 e5).1
  have e7 := (IntOp.andi_eq_one.1 e6).1
  have e8 := (IntOp.andi_eq_one.1 e7).1
  have e9 := (IntOp.andi_eq_one.1 e8).1
  have e10 := (IntOp.andi_eq_one.1 e9).1
  have e11 := (IntOp.andi_eq_one.1 e10).2
  have e12 := Host.reduce_andi_all _ _ _ _ _ e11 i
  clear h h0 e1 e2 e3 e4 e5 e6 e7 e8 e9 e10 e11
  have e13 : Ideal.cmp .olt (max (a2 i) (-(a2 i))) (Ideal.ofBits .f32 0x7F800000#32) = 1#1 := e12
  have htop : Ideal.ofBits .f32 0x7F800000#32 = ⊤ := by simp [Ideal.ofBits, Ideal.ieee]
  rw [htop] at e13
  clear e12 htop
  generalize a2 i = x at e13
  induction x using EReal.rec with
  | bot => simp [Ideal.cmp] at e13
  | coe r => exact ⟨r, rfl⟩
  | top => simp [Ideal.cmp] at e13

end Cert.Finite
end
-- ==== Proof.lean ====
/- The five claims, assembled: both kernel programs are one text and share one frame proof; both idealized programs end with the specification's two arrays. -/
import proofs.«134251_g19069654794669_cont_sun_m_30_29_alg».proof.Defs
import proofs.«134251_g19069654794669_cont_sun_m_30_29_alg».proof.Proof.Gen.Kernel
import proofs.«134251_g19069654794669_cont_sun_m_30_29_alg».proof.Proof.Gen.KernelIdeal
import proofs.«134251_g19069654794669_cont_sun_m_30_29_alg».proof.Proof.Gen.ReferenceIdeal
import proofs.«134251_g19069654794669_cont_sun_m_30_29_alg».proof.Proof.Gen.Pre_finite_inputs
import proofs.«134251_g19069654794669_cont_sun_m_30_29_alg».proof.Proof.KernelIdealH.RunAll
import proofs.«134251_g19069654794669_cont_sun_m_30_29_alg».proof.Proof.KVal.Final
import proofs.«134251_g19069654794669_cont_sun_m_30_29_alg».proof.Proof.Ref.Final
import proofs.«134251_g19069654794669_cont_sun_m_30_29_alg».proof.Proof.Finite
import Idealize.ShloMosaic.Adequacy
import Idealize.ShloMosaic.Init

noncomputable section

namespace Cert.Proof

open Idealize.ShloMosaic Idealize.SL.Sem

variable {F : FTy → Type} [FloatOps F]

set_option maxHeartbeats 4000000 in
set_option maxRecDepth 16384 in
/-- The word-level program and the idealized program are one text: label by label their kernel bodies are the same term. -/
theorem defs₀_eq : Cert.Kernel.defs₀ (F := F) = Cert.KernelIdeal.defs₀ (F := F) :=
  congrArg Defs.onTc (funext fun ℓ => funext fun a => match ℓ, a with
    | 0, (_, _) => rfl
    | 1, (_, _) => rfl
    | ⟨_ + 2, h⟩, _ => absurd h (Nat.not_lt.2 (Nat.le_add_left _ _)))

set_option maxHeartbeats 4000000 in
set_option maxRecDepth 16384 in
theorem defs_eq : Cert.Kernel.defs (F := F) = Cert.KernelIdeal.defs (F := F) :=
  congrArg (Pipeline.defs _) defs₀_eq

set_option maxHeartbeats 4000000 in
set_option maxRecDepth 16384 in
/-- So the frame proved once of that text, for every reading of the floats, is the word-level program's frame too. -/
theorem frame_k : Cert.frame_Kernel := fun m ρ _ => by
  rw [defs_eq]; exact Cert.KernelIdeal.FrameH.frame (F := Bits) m ρ

theorem frame_ki : Cert.frame_KernelIdeal := fun m ρ _ => Cert.KernelIdeal.FrameH.frame (F := Ideal) m ρ

theorem frame_ri : Cert.frame_ReferenceIdeal := fun m ρ _ => Cert.ReferenceIdeal.RefValue.frame_ri m ρ

/-- Both idealized programs end with the specification's two arrays; the diffusion matrix needs real adjacency entries, which the precondition gives. -/
theorem algebraic : Cert.algebraic_KernelIdeal_ReferenceIdeal := by
  intro m ρ m' ρ' hpre hagree
  have hadj : ∀ (c : Dev Cert.KernelIdeal.nD) i, ∃ r : ℝ,
      m ((c.tc : Thread Cert.KernelIdeal.nD Cert.KernelIdeal.τ).loc Cert.KernelIdeal.main_arg2) i = (r : EReal) :=
    fun c i => Cert.Finite.adj_finite _ _ _ _ _ _ _ _ _ _ _ _ _ (hpre c) i
  have hadj' : ∀ (c : Dev Cert.ReferenceIdeal.nD) i, ∃ r : ℝ,
      m' ((c.tc : Thread Cert.ReferenceIdeal.nD Cert.ReferenceIdeal.τ).loc Cert.ReferenceIdeal.main_arg2) i = (r : EReal) :=
    fun c i => by rw [(hagree c).2.2.1]; exact hadj c i
  refine ⟨fun c => Cert.Spec.res0 (Cert.KernelIdeal.KVal.argsOf m c), fun c => Cert.Spec.res1 (Cert.KernelIdeal.KVal.argsOf m c),
    Cert.KernelIdeal.KVal.kernel_run m ρ, ?_⟩
  refine (θ_run Cert.ReferenceIdeal.defs _ _).mono (fun r h c => ?_) (Cert.ReferenceIdeal.RefValue.ref_run m' ρ' hadj')
  obtain ⟨h0, h1, hargs⟩ := h c
  have hA : Cert.ReferenceIdeal.RefValue.refArgs m' c = Cert.KernelIdeal.KVal.argsOf m c := by
    obtain ⟨a0, a1, a2, a3, a4, a5, a6, a7, a8, a9, a10, a11, a12⟩ := hagree c
    show (⟨_, _, _, _, _, _, _, _, _, _, _, _, _⟩ : Cert.Spec.Args) = ⟨_, _, _, _, _, _, _, _, _, _, _, _, _⟩
    rw [a0, a1, a2, a3, a4, a5, a6, a7, a8, a9, a10, a11, a12]
  exact ⟨h0.trans (by rw [hA]), h1.trans (by rw [hA]), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
